-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![64, 1024]⟩ ⟨2, ![64, 2048]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 1024]⟩ ⟨2, ![64, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Pre_finite_inputs_ReferenceIdeal.lean ====
abbrev S64x2048 : Shape := ⟨2, ![64, 2048]⟩
abbrev S2048x4096 : Shape := ⟨2, ![2048, 4096]⟩
abbrev S4096x2048 : Shape := ⟨2, ![4096, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_arg5 : FVec F S2048x4096 .f32) (main_arg6 : FVec F S4096x2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S64x2048 .f32) (main_arg1 : FVec F S2048x4096 .f32) (main_arg2 : FVec F S4096x2048 .f32) (main_arg3 : FVec F S2048x4096 .f32) (main_arg4 : FVec F S4096x2048 .f32) (main_arg5 : FVec F S2048x4096 .f32) (main_arg6 : FVec F S4096x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S3x64x2048 : Shape := ⟨3, ![3, 64, 2048]⟩
abbrev S3x64x1024 : Shape := ⟨3, ![3, 64, 1024]⟩
abbrev S6x4 : Shape := ⟨2, ![6, 4]⟩
abbrev S2 : Shape := ⟨1, ![2]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S1x1024x2048 : Shape := ⟨3, ![1, 1024, 2048]⟩
abbrev S1x1024x512 : Shape := ⟨3, ![1, 1024, 512]⟩
abbrev S1024x512 : Shape := ⟨2, ![1024, 512]⟩
abbrev S64x512 : Shape := ⟨2, ![64, 512]⟩
abbrev S1x64x512 : Shape := ⟨3, ![1, 64, 512]⟩
abbrev S1x1 : Shape := ⟨2, ![1, 1]⟩
abbrev S1x512x1024 : Shape := ⟨3, ![1, 512, 1024]⟩
abbrev S512x1024 : Shape := ⟨2, ![512, 1024]⟩
abbrev S64x256 : Shape := ⟨2, ![64, 256]⟩
abbrev S1x64x256 : Shape := ⟨3, ![1, 64, 256]⟩
abbrev S1x256x2048 : Shape := ⟨3, ![1, 256, 2048]⟩
abbrev S256x2048 : Shape := ⟨2, ![256, 2048]⟩
abbrev S64x2048 : Shape := ⟨2, ![64, 2048]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S2x1024x2048, .f32⟩
  | .local _ .vmem, ⟨2, _⟩ => ⟨S2x2048x1024, .f32⟩
  | .local _ .vmem, ⟨3, _⟩ => ⟨S2x1024x2048, .bf16⟩
  | .local _ .vmem, ⟨4, _⟩ => ⟨S2x2048x1024, .bf16⟩
  | .local _ .vmem, ⟨5, _⟩ => ⟨S3x64x2048, .bf16⟩
  | .local _ .vmem, ⟨6, _⟩ => ⟨S3x64x2048, .bf16⟩
  | .local _ .vmem, ⟨7, _⟩ => ⟨S3x64x1024, .bf16⟩
  | .local _ .vmem, ⟨8, _⟩ => ⟨S3x64x1024, .bf16⟩
  | .local _ .vmem, ⟨9, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch13 : Ref sig .tc := ⟨.vmem, 9, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v31 : BitVec 32 := Scalar.muli v6 c2_i32_27
  let v32 : BitVec 32 := Scalar.addi c0_i32_28 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v33 : BitVec 32 := Scalar.muli v5 c1_i32_29
  let v34 : BitVec 32 := Scalar.addi v32 v33
  v34.toNat
def k0_dev2 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v35 : BitVec 32 := Scalar.muli v2 c2_i32_31
  let v36 : BitVec 32 := Scalar.addi c0_i32_32 v35
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_33 : BitVec 32 := 1#32
  let v37 : BitVec 32 := Scalar.muli v7 c1_i32_33
  let v38 : BitVec 32 := Scalar.addi v36 v37
  v38.toNat
def k0_dev3 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v60 : BitVec 32 := Scalar.muli v2 c2_i32_60
  let v61 : BitVec 32 := Scalar.addi c0_i32_61 v60
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_62 : BitVec 32 := 1#32
  let v62 : BitVec 32 := Scalar.muli v7 c1_i32_62
  let v63 : BitVec 32 := Scalar.addi v61 v62
  v63.toNat
def k0_dev4 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v79 : BitVec 32 := Scalar.muli v2 c2_i32_79
  let v80 : BitVec 32 := Scalar.addi c0_i32_80 v79
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_81 : BitVec 32 := 1#32
  let v81 : BitVec 32 := Scalar.muli v7 c1_i32_81
  let v82 : BitVec 32 := Scalar.addi v80 v81
  v82.toNat
def k0_dev5 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v109 : BitVec 32 := Scalar.muli v2 c2_i32_109
  let v110 : BitVec 32 := Scalar.addi c0_i32_110 v109
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_111 : BitVec 32 := 1#32
  let v111 : BitVec 32 := Scalar.muli v7 c1_i32_111
  let v112 : BitVec 32 := Scalar.addi v110 v111
  v112.toNat
def k0_dev6 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v128 : BitVec 32 := Scalar.muli v2 c2_i32_127
  let v129 : BitVec 32 := Scalar.addi c0_i32_128 v128
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_129 : BitVec 32 := 1#32
  let v130 : BitVec 32 := Scalar.muli v7 c1_i32_129
  let v131 : BitVec 32 := Scalar.addi v129 v130
  v131.toNat
def k0_dev7 (d0 : Dev nD) : Nat :=
  let c0_i32_245 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_244 : BitVec 32 := 2#32
  let v246 : BitVec 32 := Scalar.muli v6 c2_i32_244
  let v247 : BitVec 32 := Scalar.addi c0_i32_245 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v248 : BitVec 32 := Scalar.muli v5 c1_i32_246
  let v249 : BitVec 32 := Scalar.addi v247 v248
  v249.toNat
def k0_dev8 (d0 : Dev nD) : Nat :=
  let c0_i32_260 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_259 : BitVec 32 := 2#32
  let v263 : BitVec 32 := Scalar.muli v6 c2_i32_259
  let v264 : BitVec 32 := Scalar.addi c0_i32_260 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_261 : BitVec 32 := 1#32
  let v265 : BitVec 32 := Scalar.muli v5 c1_i32_261
  let v266 : BitVec 32 := Scalar.addi v264 v265
  v266.toNat
def k0_dev9 (d0 : Dev nD) : Nat :=
  let c0_i32_275 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_274 : BitVec 32 := 2#32
  let v280 : BitVec 32 := Scalar.muli v6 c2_i32_274
  let v281 : BitVec 32 := Scalar.addi c0_i32_275 v280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_276 : BitVec 32 := 1#32
  let v282 : BitVec 32 := Scalar.muli v5 c1_i32_276
  let v283 : BitVec 32 := Scalar.addi v281 v282
  v283.toNat
def k0_dev10 (d0 : Dev nD) : Nat :=
  let c0_i32_290 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_289 : BitVec 32 := 2#32
  let v297 : BitVec 32 := Scalar.muli v6 c2_i32_289
  let v298 : BitVec 32 := Scalar.addi c0_i32_290 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_291 : BitVec 32 := 1#32
  let v299 : BitVec 32 := Scalar.muli v5 c1_i32_291
  let v300 : BitVec 32 := Scalar.addi v298 v299
  v300.toNat
def k0_dev11 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v399 : BitVec 32 := Scalar.muli v2 c2_i32_393
  let v400 : BitVec 32 := Scalar.addi c0_i32_394 v399
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_395 : BitVec 32 := 1#32
  let v401 : BitVec 32 := Scalar.muli v7 c1_i32_395
  let v402 : BitVec 32 := Scalar.addi v400 v401
  v402.toNat
def k0_dev12 (d0 : Dev nD) : Nat :=
  let c0_i32_410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_409 : BitVec 32 := 2#32
  let v416 : BitVec 32 := Scalar.muli v2 c2_i32_409
  let v417 : BitVec 32 := Scalar.addi c0_i32_410 v416
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_411 : BitVec 32 := 1#32
  let v418 : BitVec 32 := Scalar.muli v7 c1_i32_411
  let v419 : BitVec 32 := Scalar.addi v417 v418
  v419.toNat
def k0_dev13 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v433 : BitVec 32 := Scalar.muli v2 c2_i32_425
  let v434 : BitVec 32 := Scalar.addi c0_i32_426 v433
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_427 : BitVec 32 := 1#32
  let v435 : BitVec 32 := Scalar.muli v7 c1_i32_427
  let v436 : BitVec 32 := Scalar.addi v434 v435
  v436.toNat
def k0_dev14 (d0 : Dev nD) : Nat :=
  let c0_i32_442 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_441 : BitVec 32 := 2#32
  let v450 : BitVec 32 := Scalar.muli v2 c2_i32_441
  let v451 : BitVec 32 := Scalar.addi c0_i32_442 v450
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_443 : BitVec 32 := 1#32
  let v452 : BitVec 32 := Scalar.muli v7 c1_i32_443
  let v453 : BitVec 32 := Scalar.addi v451 v452
  v453.toNat
def k0_dev15 (d0 : Dev nD) : Nat :=
  let c0_i32_552 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_551 : BitVec 32 := 2#32
  let v560 : BitVec 32 := Scalar.muli v6 c2_i32_551
  let v561 : BitVec 32 := Scalar.addi c0_i32_552 v560
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_553 : BitVec 32 := 1#32
  let v562 : BitVec 32 := Scalar.muli v5 c1_i32_553
  let v563 : BitVec 32 := Scalar.addi v561 v562
  v563.toNat
def k0_dev16 (d0 : Dev nD) : Nat :=
  let c0_i32_568 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_567 : BitVec 32 := 2#32
  let v577 : BitVec 32 := Scalar.muli v6 c2_i32_567
  let v578 : BitVec 32 := Scalar.addi c0_i32_568 v577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_569 : BitVec 32 := 1#32
  let v579 : BitVec 32 := Scalar.muli v5 c1_i32_569
  let v580 : BitVec 32 := Scalar.addi v578 v579
  v580.toNat
def k0_dev17 (d0 : Dev nD) : Nat :=
  let c0_i32_584 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_583 : BitVec 32 := 2#32
  let v594 : BitVec 32 := Scalar.muli v6 c2_i32_583
  let v595 : BitVec 32 := Scalar.addi c0_i32_584 v594
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_585 : BitVec 32 := 1#32
  let v596 : BitVec 32 := Scalar.muli v5 c1_i32_585
  let v597 : BitVec 32 := Scalar.addi v595 v596
  v597.toNat
def k0_dev18 (d0 : Dev nD) : Nat :=
  let c0_i32_600 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_599 : BitVec 32 := 2#32
  let v611 : BitVec 32 := Scalar.muli v6 c2_i32_599
  let v612 : BitVec 32 := Scalar.addi c0_i32_600 v611
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_601 : BitVec 32 := 1#32
  let v613 : BitVec 32 := Scalar.muli v5 c1_i32_601
  let v614 : BitVec 32 := Scalar.addi v612 v613
  v614.toNat
def k0_dev19 (d0 : Dev nD) : Nat :=
  let c0_i32_704 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_703 : BitVec 32 := 2#32
  let v713 : BitVec 32 := Scalar.muli v2 c2_i32_703
  let v714 : BitVec 32 := Scalar.addi c0_i32_704 v713
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_705 : BitVec 32 := 1#32
  let v715 : BitVec 32 := Scalar.muli v7 c1_i32_705
  let v716 : BitVec 32 := Scalar.addi v714 v715
  v716.toNat
def k0_dev20 (d0 : Dev nD) : Nat :=
  let c0_i32_720 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_719 : BitVec 32 := 2#32
  let v730 : BitVec 32 := Scalar.muli v2 c2_i32_719
  let v731 : BitVec 32 := Scalar.addi c0_i32_720 v730
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_721 : BitVec 32 := 1#32
  let v732 : BitVec 32 := Scalar.muli v7 c1_i32_721
  let v733 : BitVec 32 := Scalar.addi v731 v732
  v733.toNat
def k0_dev21 (d0 : Dev nD) : Nat :=
  let c0_i32_736 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_735 : BitVec 32 := 2#32
  let v747 : BitVec 32 := Scalar.muli v2 c2_i32_735
  let v748 : BitVec 32 := Scalar.addi c0_i32_736 v747
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_737 : BitVec 32 := 1#32
  let v749 : BitVec 32 := Scalar.muli v7 c1_i32_737
  let v750 : BitVec 32 := Scalar.addi v748 v749
  v750.toNat
def k0_dev22 (d0 : Dev nD) : Nat :=
  let c0_i32_752 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_751 : BitVec 32 := 2#32
  let v764 : BitVec 32 := Scalar.muli v2 c2_i32_751
  let v765 : BitVec 32 := Scalar.addi c0_i32_752 v764
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_753 : BitVec 32 := 1#32
  let v766 : BitVec 32 := Scalar.muli v7 c1_i32_753
  let v767 : BitVec 32 := Scalar.addi v765 v766
  v767.toNat
def k0_dev23 (d0 : Dev nD) : Nat :=
  let c0_i32_861 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_860 : BitVec 32 := 2#32
  let v874 : BitVec 32 := Scalar.muli v6 c2_i32_860
  let v875 : BitVec 32 := Scalar.addi c0_i32_861 v874
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_862 : BitVec 32 := 1#32
  let v876 : BitVec 32 := Scalar.muli v5 c1_i32_862
  let v877 : BitVec 32 := Scalar.addi v875 v876
  v877.toNat
def k0_dev24 (d0 : Dev nD) : Nat :=
  let c0_i32_877 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_876 : BitVec 32 := 2#32
  let v891 : BitVec 32 := Scalar.muli v6 c2_i32_876
  let v892 : BitVec 32 := Scalar.addi c0_i32_877 v891
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_878 : BitVec 32 := 1#32
  let v893 : BitVec 32 := Scalar.muli v5 c1_i32_878
  let v894 : BitVec 32 := Scalar.addi v892 v893
  v894.toNat
def k0_dev25 (d0 : Dev nD) : Nat :=
  let c0_i32_893 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_892 : BitVec 32 := 2#32
  let v908 : BitVec 32 := Scalar.muli v6 c2_i32_892
  let v909 : BitVec 32 := Scalar.addi c0_i32_893 v908
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_894 : BitVec 32 := 1#32
  let v910 : BitVec 32 := Scalar.muli v5 c1_i32_894
  let v911 : BitVec 32 := Scalar.addi v909 v910
  v911.toNat
def k0_dev26 (d0 : Dev nD) : Nat :=
  let c0_i32_909 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_908 : BitVec 32 := 2#32
  let v925 : BitVec 32 := Scalar.muli v6 c2_i32_908
  let v926 : BitVec 32 := Scalar.addi c0_i32_909 v925
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_910 : BitVec 32 := 1#32
  let v927 : BitVec 32 := Scalar.muli v5 c1_i32_910
  let v928 : BitVec 32 := Scalar.addi v926 v927
  v928.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  inb_S2x1024x2048_S1x1024x1024_0_0_0 : ∀ a, (![0, 0, 0] : Fin 3 → Nat) a + S1x1024x1024.size a ≤ S2x1024x2048.size a
  squeezes_S1x1024x1024_S1024x1024 : S1x1024x1024.Squeezes S1024x1024
  inb_S1024x2048_S1024x1024_0_0 : ∀ a, (![0, 0] : Fin 2 → Nat) a + S1024x1024.size a ≤ S1024x2048.size a
  inb_S2_S1_1 : ∀ a, (![1] : Fin 1 → Nat) a + S1.size a ≤ S2.size a
  inb_S2x1024x2048_S1x1024x1024_0_0_1024 : ∀ a, (![0, 0, 1024] : Fin 3 → Nat) a + S1x1024x1024.size a ≤ S2x1024x2048.size a
  inb_S1024x2048_S1024x1024_0_1024 : ∀ a, (![0, 1024] : Fin 2 → Nat) a + S1024x1024.size a ≤ S1024x2048.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S2x1024x2048_S1x1024x2048_1_0_0 : ∀ a, (![1, 0, 0] : Fin 3 → Nat) a + S1x1024x2048.size a ≤ S2x1024x2048.size a
  squeezes_S1x1024x2048_S1024x2048 : S1x1024x2048.Squeezes S1024x2048
  inb_S2x2048x1024_S1x2048x1024_1_0_0 : ∀ a, (![1, 0, 0] : Fin 3 → Nat) a + S1x2048x1024.size a ≤ S2x2048x1024.size a
  hamt_1 : (1#32 : BitVec 32).msb = false
  hamt_2 : (2#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S2x1024x2048_S1x1024x1024_0_0_0 : (Rect.unit (s := S2x1024x2048) ![0, 0, 0] S1x1024x1024.size inb_S2x1024x2048_S1x1024x1024_0_0_0).PackedRows (EltTy.packing .bf16)
  inb_S2x1024x2048_S1x1024x512_0_0_0 : ∀ a, (![0, 0, 0] : Fin 3 → Nat) a + S1x1024x512.size a ≤ S2x1024x2048.size a
  h_S1x1024x512 : 0 < S1x1024x512.numel
  shapeCasts_S1x1024x512_S1024x512 : S1x1024x512.ShapeCasts S1024x512
  inb_S3x64x2048_S1x64x512_0_0_0 : ∀ a, (![0, 0, 0] : Fin 3 → Nat) a + S1x64x512.size a ≤ S3x64x2048.size a
  h_S1x64x512 : 0 < S1x64x512.numel
  shapeCasts_S1x64x512_S64x512 : S1x64x512.ShapeCasts S64x512
  shapeCasts_S64x512_S1x64x512 : S64x512.ShapeCasts S1x64x512
  packedbf16_S3x64x2048_S1x64x512_0_0_0 : (Rect.unit (s := S3x64x2048) ![0, 0, 0] S1x64x512.size inb_S3x64x2048_S1x64x512_0_0_0).PackedRows (EltTy.packing .bf16)
  inb_S6x4_S1x1_0_0 : ∀ a, (![0, 0] : Fin 2 → Nat) a + S1x1.size a ≤ S6x4.size a
  squeezes_S1x1_S_ : S1x1.Squeezes S_
  squeezes_S1x64x512_S64x512 : S1x64x512.Squeezes S64x512
  wordsbf16_S3x64x2048_S1x64x512_0_0_0 : (Rect.unit (s := S3x64x2048) ![0, 0, 0] S1x64x512.size inb_S3x64x2048_S1x64x512_0_0_0).WholeWords (EltTy.packing .bf16)
  inb_S2x1024x2048_S1x1024x512_0_0_512 : ∀ a, (![0, 0, 512] : Fin 3 → Nat) a + S1x1024x512.size a ≤ S2x1024x2048.size a
  inb_S3x64x2048_S1x64x512_0_0_512 : ∀ a, (![0, 0, 512] : Fin 3 → Nat) a + S1x64x512.size a ≤ S3x64x2048.size a
  packedbf16_S3x64x2048_S1x64x512_0_0_512 : (Rect.unit (s := S3x64x2048) ![0, 0, 512] S1x64x512.size inb_S3x64x2048_S1x64x512_0_0_512).PackedRows (EltTy.packing .bf16)
  inb_S6x4_S1x1_0_1 : ∀ a, (![0, 1] : Fin 2 → Nat) a + S1x1.size a ≤ S6x4.size a
  wordsbf16_S3x64x2048_S1x64x512_0_0_512 : (Rect.unit (s := S3x64x2048) ![0, 0, 512] S1x64x512.size inb_S3x64x2048_S1x64x512_0_0_512).WholeWords (EltTy.packing .bf16)
  packedbf16_S2x1024x2048_S1x1024x1024_0_0_1024 : (Rect.unit (s := S2x1024x2048) ![0, 0, 1024] S1x1024x1024.size inb_S2x1024x2048_S1x1024x1024_0_0_1024).PackedRows (EltTy.packing .bf16)
  inb_S2x1024x2048_S1x1024x512_0_0_1024 : ∀ a, (![0, 0, 1024] : Fin 3 → Nat) a + S1x1024x512.size a ≤ S2x1024x2048.size a
  inb_S3x64x2048_S1x64x512_0_0_1024 : ∀ a, (![0, 0, 1024] : Fin 3 → Nat) a + S1x64x512.size a ≤ S3x64x2048.size a
  packedbf16_S3x64x2048_S1x64x512_0_0_1024 : (Rect.unit (s := S3x64x2048) ![0, 0, 1024] S1x64x512.size inb_S3x64x2048_S1x64x512_0_0_1024).PackedRows (EltTy.packing .bf16)
  inb_S6x4_S1x1_0_2 : ∀ a, (![0, 2] : Fin 2 → Nat) a + S1x1.size a ≤ S6x4.size a
  wordsbf16_S3x64x2048_S1x64x512_0_0_1024 : (Rect.unit (s := S3x64x2048) ![0, 0, 1024] S1x64x512.size inb_S3x64x2048_S1x64x512_0_0_1024).WholeWords (EltTy.packing .bf16)
  inb_S2x1024x2048_S1x1024x512_0_0_1536 : ∀ a, (![0, 0, 1536] : Fin 3 → Nat) a + S1x1024x512.size a ≤ S2x1024x2048.size a
  inb_S3x64x2048_S1x64x512_0_0_1536 : ∀ a, (![0, 0, 1536] : Fin 3 → Nat) a + S1x64x512.size a ≤ S3x64x2048.size a
  packedbf16_S3x64x2048_S1x64x512_0_0_1536 : (Rect.unit (s := S3x64x2048) ![0, 0, 1536] S1x64x512.size inb_S3x64x2048_S1x64x512_0_0_1536).PackedRows (EltTy.packing .bf16)
  inb_S6x4_S1x1_0_3 : ∀ a, (![0, 3] : Fin 2 → Nat) a + S1x1.size a ≤ S6x4.size a
  wordsbf16_S3x64x2048_S1x64x512_0_0_1536 : (Rect.unit (s := S3x64x2048) ![0, 0, 1536] S1x64x512.size inb_S3x64x2048_S1x64x512_0_0_1536).WholeWords (EltTy.packing .bf16)
  inb_S2x1024x2048_S1x1024x2048_0_0_0 : ∀ a, (![0, 0, 0] : Fin 3 → Nat) a + S1x1024x2048.size a ≤ S2x1024x2048.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  packedbf16_S2x2048x1024_S1x2048x1024_0_0_0 : (Rect.unit (s := S2x2048x1024) ![0, 0, 0] S1x2048x1024.size inb_S2x2048x1024_S1x2048x1024_0_0_0).PackedRows (EltTy.packing .bf16)
  inb_S2x2048x1024_S1x512x1024_0_0_0 : ∀ a, (![0, 0, 0] : Fin 3 → Nat) a + S1x512x1024.size a ≤ S2x2048x1024.size a
  h_S1x512x1024 : 0 < S1x512x1024.numel
  shapeCasts_S1x512x1024_S512x1024 : S1x512x1024.ShapeCasts S512x1024
  inb_S2x2048x1024_S1x512x1024_0_512_0 : ∀ a, (![0, 512, 0] : Fin 3 → Nat) a + S1x512x1024.size a ≤ S2x2048x1024.size a
  inb_S2x2048x1024_S1x512x1024_0_1024_0 : ∀ a, (![0, 1024, 0] : Fin 3 → Nat) a + S1x512x1024.size a ≤ S2x2048x1024.size a
  inb_S2x2048x1024_S1x512x1024_0_1536_0 : ∀ a, (![0, 1536, 0] : Fin 3 → Nat) a + S1x512x1024.size a ≤ S2x2048x1024.size a
  slices_S64x1024_o0_0_S64x256 : S64x1024.Slices ![0, 0] S64x256
  inb_S3x64x1024_S1x64x256_0_0_0 : ∀ a, (![0, 0, 0] : Fin 3 → Nat) a + S1x64x256.size a ≤ S3x64x1024.size a
  h_S1x64x256 : 0 < S1x64x256.numel
  shapeCasts_S1x64x256_S64x256 : S1x64x256.ShapeCasts S64x256
  shapeCasts_S64x256_S1x64x256 : S64x256.ShapeCasts S1x64x256
  packedbf16_S3x64x1024_S1x64x256_0_0_0 : (Rect.unit (s := S3x64x1024) ![0, 0, 0] S1x64x256.size inb_S3x64x1024_S1x64x256_0_0_0).PackedRows (EltTy.packing .bf16)
  inb_S6x4_S1x1_1_0 : ∀ a, (![1, 0] : Fin 2 → Nat) a + S1x1.size a ≤ S6x4.size a
  squeezes_S1x64x256_S64x256 : S1x64x256.Squeezes S64x256
  wordsbf16_S3x64x1024_S1x64x256_0_0_0 : (Rect.unit (s := S3x64x1024) ![0, 0, 0] S1x64x256.size inb_S3x64x1024_S1x64x256_0_0_0).WholeWords (EltTy.packing .bf16)
  slices_S64x1024_o0_256_S64x256 : S64x1024.Slices ![0, 256] S64x256
  inb_S3x64x1024_S1x64x256_0_0_256 : ∀ a, (![0, 0, 256] : Fin 3 → Nat) a + S1x64x256.size a ≤ S3x64x1024.size a
  packedbf16_S3x64x1024_S1x64x256_0_0_256 : (Rect.unit (s := S3x64x1024) ![0, 0, 256] S1x64x256.size inb_S3x64x1024_S1x64x256_0_0_256).PackedRows (EltTy.packing .bf16)
  inb_S6x4_S1x1_1_1 : ∀ a, (![1, 1] : Fin 2 → Nat) a + S1x1.size a ≤ S6x4.size a
  wordsbf16_S3x64x1024_S1x64x256_0_0_256 : (Rect.unit (s := S3x64x1024) ![0, 0, 256] S1x64x256.size inb_S3x64x1024_S1x64x256_0_0_256).WholeWords (EltTy.packing .bf16)
  slices_S64x1024_o0_512_S64x256 : S64x1024.Slices ![0, 512] S64x256
  inb_S3x64x1024_S1x64x256_0_0_512 : ∀ a, (![0, 0, 512] : Fin 3 → Nat) a + S1x64x256.size a ≤ S3x64x1024.size a
  packedbf16_S3x64x1024_S1x64x256_0_0_512 : (Rect.unit (s := S3x64x1024) ![0, 0, 512] S1x64x256.size inb_S3x64x1024_S1x64x256_0_0_512).PackedRows (EltTy.packing .bf16)
  inb_S6x4_S1x1_1_2 : ∀ a, (![1, 2] : Fin 2 → Nat) a + S1x1.size a ≤ S6x4.size a
  wordsbf16_S3x64x1024_S1x64x256_0_0_512 : (Rect.unit (s := S3x64x1024) ![0, 0, 512] S1x64x256.size inb_S3x64x1024_S1x64x256_0_0_512).WholeWords (EltTy.packing .bf16)
  slices_S64x1024_o0_768_S64x256 : S64x1024.Slices ![0, 768] S64x256
  inb_S3x64x1024_S1x64x256_0_0_768 : ∀ a, (![0, 0, 768] : Fin 3 → Nat) a + S1x64x256.size a ≤ S3x64x1024.size a
  packedbf16_S3x64x1024_S1x64x256_0_0_768 : (Rect.unit (s := S3x64x1024) ![0, 0, 768] S1x64x256.size inb_S3x64x1024_S1x64x256_0_0_768).PackedRows (EltTy.packing .bf16)
  inb_S6x4_S1x1_1_3 : ∀ a, (![1, 3] : Fin 2 → Nat) a + S1x1.size a ≤ S6x4.size a
  wordsbf16_S3x64x1024_S1x64x256_0_0_768 : (Rect.unit (s := S3x64x1024) ![0, 0, 768] S1x64x256.size inb_S3x64x1024_S1x64x256_0_0_768).WholeWords (EltTy.packing .bf16)
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  packedbf16_S2x1024x2048_S1x1024x2048_1_0_0 : (Rect.unit (s := S2x1024x2048) ![1, 0, 0] S1x1024x2048.size inb_S2x1024x2048_S1x1024x2048_1_0_0).PackedRows (EltTy.packing .bf16)
  inb_S2x1024x2048_S1x256x2048_1_0_0 : ∀ a, (![1, 0, 0] : Fin 3 → Nat) a + S1x256x2048.size a ≤ S2x1024x2048.size a
  h_S1x256x2048 : 0 < S1x256x2048.numel
  shapeCasts_S1x256x2048_S256x2048 : S1x256x2048.ShapeCasts S256x2048
  inb_S2x1024x2048_S1x256x2048_1_256_0 : ∀ a, (![1, 256, 0] : Fin 3 → Nat) a + S1x256x2048.size a ≤ S2x1024x2048.size a
  inb_S2x1024x2048_S1x256x2048_1_512_0 : ∀ a, (![1, 512, 0] : Fin 3 → Nat) a + S1x256x2048.size a ≤ S2x1024x2048.size a
  inb_S2x1024x2048_S1x256x2048_1_768_0 : ∀ a, (![1, 768, 0] : Fin 3 → Nat) a + S1x256x2048.size a ≤ S2x1024x2048.size a
  slices_S64x2048_o0_0_S64x512 : S64x2048.Slices ![0, 0] S64x512
  inb_S3x64x2048_S1x64x512_1_0_0 : ∀ a, (![1, 0, 0] : Fin 3 → Nat) a + S1x64x512.size a ≤ S3x64x2048.size a
  packedbf16_S3x64x2048_S1x64x512_1_0_0 : (Rect.unit (s := S3x64x2048) ![1, 0, 0] S1x64x512.size inb_S3x64x2048_S1x64x512_1_0_0).PackedRows (EltTy.packing .bf16)
  inb_S6x4_S1x1_2_0 : ∀ a, (![2, 0] : Fin 2 → Nat) a + S1x1.size a ≤ S6x4.size a
  wordsbf16_S3x64x2048_S1x64x512_1_0_0 : (Rect.unit (s := S3x64x2048) ![1, 0, 0] S1x64x512.size inb_S3x64x2048_S1x64x512_1_0_0).WholeWords (EltTy.packing .bf16)
  slices_S64x2048_o0_512_S64x512 : S64x2048.Slices ![0, 512] S64x512
  inb_S3x64x2048_S1x64x512_1_0_512 : ∀ a, (![1, 0, 512] : Fin 3 → Nat) a + S1x64x512.size a ≤ S3x64x2048.size a
  packedbf16_S3x64x2048_S1x64x512_1_0_512 : (Rect.unit (s := S3x64x2048) ![1, 0, 512] S1x64x512.size inb_S3x64x2048_S1x64x512_1_0_512).PackedRows (EltTy.packing .bf16)
  inb_S6x4_S1x1_2_1 : ∀ a, (![2, 1] : Fin 2 → Nat) a + S1x1.size a ≤ S6x4.size a
  wordsbf16_S3x64x2048_S1x64x512_1_0_512 : (Rect.unit (s := S3x64x2048) ![1, 0, 512] S1x64x512.size inb_S3x64x2048_S1x64x512_1_0_512).WholeWords (EltTy.packing .bf16)
  slices_S64x2048_o0_1024_S64x512 : S64x2048.Slices ![0, 1024] S64x512
  inb_S3x64x2048_S1x64x512_1_0_1024 : ∀ a, (![1, 0, 1024] : Fin 3 → Nat) a + S1x64x512.size a ≤ S3x64x2048.size a
  packedbf16_S3x64x2048_S1x64x512_1_0_1024 : (Rect.unit (s := S3x64x2048) ![1, 0, 1024] S1x64x512.size inb_S3x64x2048_S1x64x512_1_0_1024).PackedRows (EltTy.packing .bf16)
  inb_S6x4_S1x1_2_2 : ∀ a, (![2, 2] : Fin 2 → Nat) a + S1x1.size a ≤ S6x4.size a
  wordsbf16_S3x64x2048_S1x64x512_1_0_1024 : (Rect.unit (s := S3x64x2048) ![1, 0, 1024] S1x64x512.size inb_S3x64x2048_S1x64x512_1_0_1024).WholeWords (EltTy.packing .bf16)
  slices_S64x2048_o0_1536_S64x512 : S64x2048.Slices ![0, 1536] S64x512
  inb_S3x64x2048_S1x64x512_1_0_1536 : ∀ a, (![1, 0, 1536] : Fin 3 → Nat) a + S1x64x512.size a ≤ S3x64x2048.size a
  packedbf16_S3x64x2048_S1x64x512_1_0_1536 : (Rect.unit (s := S3x64x2048) ![1, 0, 1536] S1x64x512.size inb_S3x64x2048_S1x64x512_1_0_1536).PackedRows (EltTy.packing .bf16)
  inb_S6x4_S1x1_2_3 : ∀ a, (![2, 3] : Fin 2 → Nat) a + S1x1.size a ≤ S6x4.size a
  wordsbf16_S3x64x2048_S1x64x512_1_0_1536 : (Rect.unit (s := S3x64x2048) ![1, 0, 1536] S1x64x512.size inb_S3x64x2048_S1x64x512_1_0_1536).WholeWords (EltTy.packing .bf16)
  packedbf16_S2x2048x1024_S1x2048x1024_1_0_0 : (Rect.unit (s := S2x2048x1024) ![1, 0, 0] S1x2048x1024.size inb_S2x2048x1024_S1x2048x1024_1_0_0).PackedRows (EltTy.packing .bf16)
  inb_S2x2048x1024_S1x512x1024_1_0_0 : ∀ a, (![1, 0, 0] : Fin 3 → Nat) a + S1x512x1024.size a ≤ S2x2048x1024.size a
  inb_S2x2048x1024_S1x512x1024_1_512_0 : ∀ a, (![1, 512, 0] : Fin 3 → Nat) a + S1x512x1024.size a ≤ S2x2048x1024.size a
  inb_S2x2048x1024_S1x512x1024_1_1024_0 : ∀ a, (![1, 1024, 0] : Fin 3 → Nat) a + S1x512x1024.size a ≤ S2x2048x1024.size a
  inb_S2x2048x1024_S1x512x1024_1_1536_0 : ∀ a, (![1, 1536, 0] : Fin 3 → Nat) a + S1x512x1024.size a ≤ S2x2048x1024.size a
  inb_S3x64x1024_S1x64x256_1_0_0 : ∀ a, (![1, 0, 0] : Fin 3 → Nat) a + S1x64x256.size a ≤ S3x64x1024.size a
  packedbf16_S3x64x1024_S1x64x256_1_0_0 : (Rect.unit (s := S3x64x1024) ![1, 0, 0] S1x64x256.size inb_S3x64x1024_S1x64x256_1_0_0).PackedRows (EltTy.packing .bf16)
  inb_S6x4_S1x1_3_0 : ∀ a, (![3, 0] : Fin 2 → Nat) a + S1x1.size a ≤ S6x4.size a
  wordsbf16_S3x64x1024_S1x64x256_1_0_0 : (Rect.unit (s := S3x64x1024) ![1, 0, 0] S1x64x256.size inb_S3x64x1024_S1x64x256_1_0_0).WholeWords (EltTy.packing .bf16)
  inb_S3x64x1024_S1x64x256_1_0_256 : ∀ a, (![1, 0, 256] : Fin 3 → Nat) a + S1x64x256.size a ≤ S3x64x1024.size a
  packedbf16_S3x64x1024_S1x64x256_1_0_256 : (Rect.unit (s := S3x64x1024) ![1, 0, 256] S1x64x256.size inb_S3x64x1024_S1x64x256_1_0_256).PackedRows (EltTy.packing .bf16)
  inb_S6x4_S1x1_3_1 : ∀ a, (![3, 1] : Fin 2 → Nat) a + S1x1.size a ≤ S6x4.size a
  wordsbf16_S3x64x1024_S1x64x256_1_0_256 : (Rect.unit (s := S3x64x1024) ![1, 0, 256] S1x64x256.size inb_S3x64x1024_S1x64x256_1_0_256).WholeWords (EltTy.packing .bf16)
  inb_S3x64x1024_S1x64x256_1_0_512 : ∀ a, (![1, 0, 512] : Fin 3 → Nat) a + S1x64x256.size a ≤ S3x64x1024.size a
  packedbf16_S3x64x1024_S1x64x256_1_0_512 : (Rect.unit (s := S3x64x1024) ![1, 0, 512] S1x64x256.size inb_S3x64x1024_S1x64x256_1_0_512).PackedRows (EltTy.packing .bf16)
  inb_S6x4_S1x1_3_2 : ∀ a, (![3, 2] : Fin 2 → Nat) a + S1x1.size a ≤ S6x4.size a
  wordsbf16_S3x64x1024_S1x64x256_1_0_512 : (Rect.unit (s := S3x64x1024) ![1, 0, 512] S1x64x256.size inb_S3x64x1024_S1x64x256_1_0_512).WholeWords (EltTy.packing .bf16)
  inb_S3x64x1024_S1x64x256_1_0_768 : ∀ a, (![1, 0, 768] : Fin 3 → Nat) a + S1x64x256.size a ≤ S3x64x1024.size a
  packedbf16_S3x64x1024_S1x64x256_1_0_768 : (Rect.unit (s := S3x64x1024) ![1, 0, 768] S1x64x256.size inb_S3x64x1024_S1x64x256_1_0_768).PackedRows (EltTy.packing .bf16)
  inb_S6x4_S1x1_3_3 : ∀ a, (![3, 3] : Fin 2 → Nat) a + S1x1.size a ≤ S6x4.size a
  wordsbf16_S3x64x1024_S1x64x256_1_0_768 : (Rect.unit (s := S3x64x1024) ![1, 0, 768] S1x64x256.size inb_S3x64x1024_S1x64x256_1_0_768).WholeWords (EltTy.packing .bf16)
  packedbf16_S2x1024x2048_S1x1024x2048_0_0_0 : (Rect.unit (s := S2x1024x2048) ![0, 0, 0] S1x1024x2048.size inb_S2x1024x2048_S1x1024x2048_0_0_0).PackedRows (EltTy.packing .bf16)
  inb_S2x1024x2048_S1x256x2048_0_0_0 : ∀ a, (![0, 0, 0] : Fin 3 → Nat) a + S1x256x2048.size a ≤ S2x1024x2048.size a
  inb_S2x1024x2048_S1x256x2048_0_256_0 : ∀ a, (![0, 256, 0] : Fin 3 → Nat) a + S1x256x2048.size a ≤ S2x1024x2048.size a
  inb_S2x1024x2048_S1x256x2048_0_512_0 : ∀ a, (![0, 512, 0] : Fin 3 → Nat) a + S1x256x2048.size a ≤ S2x1024x2048.size a
  inb_S2x1024x2048_S1x256x2048_0_768_0 : ∀ a, (![0, 768, 0] : Fin 3 → Nat) a + S1x256x2048.size a ≤ S2x1024x2048.size a
  inb_S3x64x2048_S1x64x512_2_0_0 : ∀ a, (![2, 0, 0] : Fin 3 → Nat) a + S1x64x512.size a ≤ S3x64x2048.size a
  packedbf16_S3x64x2048_S1x64x512_2_0_0 : (Rect.unit (s := S3x64x2048) ![2, 0, 0] S1x64x512.size inb_S3x64x2048_S1x64x512_2_0_0).PackedRows (EltTy.packing .bf16)
  inb_S6x4_S1x1_4_0 : ∀ a, (![4, 0] : Fin 2 → Nat) a + S1x1.size a ≤ S6x4.size a
  wordsbf16_S3x64x2048_S1x64x512_2_0_0 : (Rect.unit (s := S3x64x2048) ![2, 0, 0] S1x64x512.size inb_S3x64x2048_S1x64x512_2_0_0).WholeWords (EltTy.packing .bf16)
  inb_S3x64x2048_S1x64x512_2_0_512 : ∀ a, (![2, 0, 512] : Fin 3 → Nat) a + S1x64x512.size a ≤ S3x64x2048.size a
  packedbf16_S3x64x2048_S1x64x512_2_0_512 : (Rect.unit (s := S3x64x2048) ![2, 0, 512] S1x64x512.size inb_S3x64x2048_S1x64x512_2_0_512).PackedRows (EltTy.packing .bf16)
  inb_S6x4_S1x1_4_1 : ∀ a, (![4, 1] : Fin 2 → Nat) a + S1x1.size a ≤ S6x4.size a
  wordsbf16_S3x64x2048_S1x64x512_2_0_512 : (Rect.unit (s := S3x64x2048) ![2, 0, 512] S1x64x512.size inb_S3x64x2048_S1x64x512_2_0_512).WholeWords (EltTy.packing .bf16)
  inb_S3x64x2048_S1x64x512_2_0_1024 : ∀ a, (![2, 0, 1024] : Fin 3 → Nat) a + S1x64x512.size a ≤ S3x64x2048.size a
  packedbf16_S3x64x2048_S1x64x512_2_0_1024 : (Rect.unit (s := S3x64x2048) ![2, 0, 1024] S1x64x512.size inb_S3x64x2048_S1x64x512_2_0_1024).PackedRows (EltTy.packing .bf16)
  inb_S6x4_S1x1_4_2 : ∀ a, (![4, 2] : Fin 2 → Nat) a + S1x1.size a ≤ S6x4.size a
  wordsbf16_S3x64x2048_S1x64x512_2_0_1024 : (Rect.unit (s := S3x64x2048) ![2, 0, 1024] S1x64x512.size inb_S3x64x2048_S1x64x512_2_0_1024).WholeWords (EltTy.packing .bf16)
  inb_S3x64x2048_S1x64x512_2_0_1536 : ∀ a, (![2, 0, 1536] : Fin 3 → Nat) a + S1x64x512.size a ≤ S3x64x2048.size a
  packedbf16_S3x64x2048_S1x64x512_2_0_1536 : (Rect.unit (s := S3x64x2048) ![2, 0, 1536] S1x64x512.size inb_S3x64x2048_S1x64x512_2_0_1536).PackedRows (EltTy.packing .bf16)
  inb_S6x4_S1x1_4_3 : ∀ a, (![4, 3] : Fin 2 → Nat) a + S1x1.size a ≤ S6x4.size a
  wordsbf16_S3x64x2048_S1x64x512_2_0_1536 : (Rect.unit (s := S3x64x2048) ![2, 0, 1536] S1x64x512.size inb_S3x64x2048_S1x64x512_2_0_1536).WholeWords (EltTy.packing .bf16)
  inb_S3x64x1024_S1x64x256_2_0_0 : ∀ a, (![2, 0, 0] : Fin 3 → Nat) a + S1x64x256.size a ≤ S3x64x1024.size a
  packedbf16_S3x64x1024_S1x64x256_2_0_0 : (Rect.unit (s := S3x64x1024) ![2, 0, 0] S1x64x256.size inb_S3x64x1024_S1x64x256_2_0_0).PackedRows (EltTy.packing .bf16)
  inb_S6x4_S1x1_5_0 : ∀ a, (![5, 0] : Fin 2 → Nat) a + S1x1.size a ≤ S6x4.size a
  wordsbf16_S3x64x1024_S1x64x256_2_0_0 : (Rect.unit (s := S3x64x1024) ![2, 0, 0] S1x64x256.size inb_S3x64x1024_S1x64x256_2_0_0).WholeWords (EltTy.packing .bf16)
  inb_S3x64x1024_S1x64x256_2_0_256 : ∀ a, (![2, 0, 256] : Fin 3 → Nat) a + S1x64x256.size a ≤ S3x64x1024.size a
  packedbf16_S3x64x1024_S1x64x256_2_0_256 : (Rect.unit (s := S3x64x1024) ![2, 0, 256] S1x64x256.size inb_S3x64x1024_S1x64x256_2_0_256).PackedRows (EltTy.packing .bf16)
  inb_S6x4_S1x1_5_1 : ∀ a, (![5, 1] : Fin 2 → Nat) a + S1x1.size a ≤ S6x4.size a
  wordsbf16_S3x64x1024_S1x64x256_2_0_256 : (Rect.unit (s := S3x64x1024) ![2, 0, 256] S1x64x256.size inb_S3x64x1024_S1x64x256_2_0_256).WholeWords (EltTy.packing .bf16)
  inb_S3x64x1024_S1x64x256_2_0_512 : ∀ a, (![2, 0, 512] : Fin 3 → Nat) a + S1x64x256.size a ≤ S3x64x1024.size a
  packedbf16_S3x64x1024_S1x64x256_2_0_512 : (Rect.unit (s := S3x64x1024) ![2, 0, 512] S1x64x256.size inb_S3x64x1024_S1x64x256_2_0_512).PackedRows (EltTy.packing .bf16)
  inb_S6x4_S1x1_5_2 : ∀ a, (![5, 2] : Fin 2 → Nat) a + S1x1.size a ≤ S6x4.size a
  wordsbf16_S3x64x1024_S1x64x256_2_0_512 : (Rect.unit (s := S3x64x1024) ![2, 0, 512] S1x64x256.size inb_S3x64x1024_S1x64x256_2_0_512).WholeWords (EltTy.packing .bf16)
  inb_S3x64x1024_S1x64x256_2_0_768 : ∀ a, (![2, 0, 768] : Fin 3 → Nat) a + S1x64x256.size a ≤ S3x64x1024.size a
  packedbf16_S3x64x1024_S1x64x256_2_0_768 : (Rect.unit (s := S3x64x1024) ![2, 0, 768] S1x64x256.size inb_S3x64x1024_S1x64x256_2_0_768).PackedRows (EltTy.packing .bf16)
  inb_S6x4_S1x1_5_3 : ∀ a, (![5, 3] : Fin 2 → Nat) a + S1x1.size a ≤ S6x4.size a
  wordsbf16_S3x64x1024_S1x64x256_2_0_768 : (Rect.unit (s := S3x64x1024) ![2, 0, 768] S1x64x256.size inb_S3x64x1024_S1x64x256_2_0_768).WholeWords (EltTy.packing .bf16)
  inb_S64x1024_S64x256_0_0 : ∀ a, (![0, 0] : Fin 2 → Nat) a + S64x256.size a ≤ S64x1024.size a
  h_S64x256 : 0 < S64x256.numel
  shapeCasts_S64x256_S64x256 : S64x256.ShapeCasts S64x256
  inb_S4_S1_0 : ∀ a, (![0] : Fin 1 → Nat) a + S1.size a ≤ S4.size a
  inb_S64x1024_S64x256_0_256 : ∀ a, (![0, 256] : Fin 2 → Nat) a + S64x256.size a ≤ S64x1024.size a
  inb_S4_S1_1 : ∀ a, (![1] : Fin 1 → Nat) a + S1.size a ≤ S4.size a
  inb_S64x1024_S64x256_0_512 : ∀ a, (![0, 512] : Fin 2 → Nat) a + S64x256.size a ≤ S64x1024.size a
  inb_S4_S1_2 : ∀ a, (![2] : Fin 1 → Nat) a + S1.size a ≤ S4.size a
  inb_S64x1024_S64x256_0_768 : ∀ a, (![0, 768] : Fin 2 → Nat) a + S64x256.size a ≤ S64x1024.size a
  inb_S4_S1_3 : ∀ a, (![3] : Fin 1 → Nat) a + S1.size a ≤ S4.size a
  dot_S64x1024_S1024x512_S64x512_1_0_0_1_n_n_wf : DotDims.WF S64x1024 S1024x512 S64x512 [1] [0] [0] [1] [] []
  dot_S64x512_S512x1024_S64x1024_1_0_0_1_n_n_wf : DotDims.WF S64x512 S512x1024 S64x1024 [1] [0] [0] [1] [] []
  dot_S64x256_S256x2048_S64x2048_1_0_0_1_n_n_wf : DotDims.WF S64x256 S256x2048 S64x2048 [1] [0] [0] [1] [] []
  hcc0_scratch8 : 1 + S6x4.numel ≤ 59
  hcc0_scratch9 : 25 + S6x4.numel ≤ 59
  hcc0_scratch10 : 49 + S2.numel ≤ 59
  hcc0_scratch11 : 51 + S2.numel ≤ 59
  hcc0_scratch12 : 53 + S2.numel ≤ 59
  hcc0_scratch14 : 55 + S4.numel ≤ 59
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  hstage0_0 : ∀ j, (stage0_0 j).IsWhole

variable [Facts₀]

abbrev cc0_scratch8 : DmaSems sig S6x4 := SemArray.consecutive 1 S6x4 hcc0_scratch8
abbrev cc0_scratch9 : DmaSems sig S6x4 := SemArray.consecutive 25 S6x4 hcc0_scratch9
abbrev cc0_scratch10 : DmaSems sig S2 := SemArray.consecutive 49 S2 hcc0_scratch10
abbrev cc0_scratch11 : DmaSems sig S2 := SemArray.consecutive 51 S2 hcc0_scratch11
abbrev cc0_scratch12 : DmaSems sig S2 := SemArray.consecutive 53 S2 hcc0_scratch12
abbrev cc0_scratch14 : DmaSems sig S4 := SemArray.consecutive 55 S4 hcc0_scratch14
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S64x2048 : Shape := ⟨2, ![64, 2048]⟩
abbrev S2048x4096 : Shape := ⟨2, ![2048, 4096]⟩
abbrev S4096x2048 : Shape := ⟨2, ![4096, 2048]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x2048, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x2048, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x4096 : S_.BroadcastsInDim S64x4096 (![] : Fin 0 → Fin S64x4096.rank)
  dot_S64x2048_S2048x4096_S64x4096_1_0_0_1_n_n_wf : DotDims.WF S64x2048 S2048x4096 S64x4096 [1] [0] [0] [1] [] []
  dot_S64x4096_S4096x2048_S64x2048_1_0_0_1_n_n_wf : DotDims.WF S64x4096 S4096x2048 S64x2048 [1] [0] [0] [1] [] []

variable [Facts₀]

def dot_S64x2048_S2048x4096_S64x4096_1_0_0_1_n_n : DotDims S64x2048 S2048x4096 S64x4096 where
  lhsContracting := [1]
  rhsContracting := [0]
  lhsNonContracting := [0]
  rhsNonContracting := [1]
  lhsBatch := []
  rhsBatch := []
  wf := dot_S64x2048_S2048x4096_S64x4096_1_0_0_1_n_n_wf
def dot_S64x4096_S4096x2048_S64x2048_1_0_0_1_n_n : DotDims S64x4096 S4096x2048 S64x2048 where
  lhsContracting := [1]
  rhsContracting := [0]
  lhsNonContracting := [0]
  rhsNonContracting := [1]
  lhsBatch := []
  rhsBatch := []
  wf := dot_S64x4096_S4096x2048_S64x2048_1_0_0_1_n_n_wf

class Facts : Prop extends Facts₀ where

variable [Facts]
-- ==== Proof.Base.lean ====
import proofs.«901003_g7700000000001004_dist_mlpseq_tp2d_cs_cs_b64_d1024_h2048_v7x_xy2x2_bf16_1_alg».proof.KernelIdeal
import proofs.«901003_g7700000000001004_dist_mlpseq_tp2d_cs_cs_b64_d1024_h2048_v7x_xy2x2_bf16_1_alg».proof.Proof.Gen.KernelIdeal
import proofs.«901003_g7700000000001004_dist_mlpseq_tp2d_cs_cs_b64_d1024_h2048_v7x_xy2x2_bf16_1_alg».proof.Proof.Gen.KernelIdeal.Skeleton
import proofs.«901003_g7700000000001004_dist_mlpseq_tp2d_cs_cs_b64_d1024_h2048_v7x_xy2x2_bf16_1_alg».proof.Proof.Gen.KernelIdeal.Launch
import proofs.«901003_g7700000000001004_dist_mlpseq_tp2d_cs_cs_b64_d1024_h2048_v7x_xy2x2_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool

abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

def xp (c : Dev nD) : Dev nD := ⟨((c.val % 2) + 2) - 2 * (c.val / 2), by have := c.isLt; revert this; generalize c.val = v; decide +revert⟩

def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
@[sl_canon] theorem dev1_eq (c : Dev nD) : (⟨k0_dev1 c, k0_dev1_lt c⟩ : Dev nD) = xp c := Fin.ext (k0_dev1_eq c)
@[sl_canon] theorem dev7_eq (c : Dev nD) : (⟨k0_dev7 c, k0_dev7_lt c⟩ : Dev nD) = xp c := Fin.ext (k0_dev7_eq c)
@[sl_canon] theorem dev8_eq (c : Dev nD) : (⟨k0_dev8 c, k0_dev8_lt c⟩ : Dev nD) = xp c := Fin.ext (k0_dev8_eq c)
@[sl_canon] theorem dev9_eq (c : Dev nD) : (⟨k0_dev9 c, k0_dev9_lt c⟩ : Dev nD) = xp c := Fin.ext (k0_dev9_eq c)
@[sl_canon] theorem dev10_eq (c : Dev nD) : (⟨k0_dev10 c, k0_dev10_lt c⟩ : Dev nD) = xp c := Fin.ext (k0_dev10_eq c)
@[sl_canon] theorem dev15_eq (c : Dev nD) : (⟨k0_dev15 c, k0_dev15_lt c⟩ : Dev nD) = xp c := Fin.ext (k0_dev15_eq c)
@[sl_canon] theorem dev16_eq (c : Dev nD) : (⟨k0_dev16 c, k0_dev16_lt c⟩ : Dev nD) = xp c := Fin.ext (k0_dev16_eq c)
@[sl_canon] theorem dev17_eq (c : Dev nD) : (⟨k0_dev17 c, k0_dev17_lt c⟩ : Dev nD) = xp c := Fin.ext (k0_dev17_eq c)
@[sl_canon] theorem dev18_eq (c : Dev nD) : (⟨k0_dev18 c, k0_dev18_lt c⟩ : Dev nD) = xp c := Fin.ext (k0_dev18_eq c)
@[sl_canon] theorem dev23_eq (c : Dev nD) : (⟨k0_dev23 c, k0_dev23_lt c⟩ : Dev nD) = xp c := Fin.ext (k0_dev23_eq c)
@[sl_canon] theorem dev24_eq (c : Dev nD) : (⟨k0_dev24 c, k0_dev24_lt c⟩ : Dev nD) = xp c := Fin.ext (k0_dev24_eq c)
@[sl_canon] theorem dev25_eq (c : Dev nD) : (⟨k0_dev25 c, k0_dev25_lt c⟩ : Dev nD) = xp c := Fin.ext (k0_dev25_eq c)
@[sl_canon] theorem dev26_eq (c : Dev nD) : (⟨k0_dev26 c, k0_dev26_lt c⟩ : Dev nD) = xp c := Fin.ext (k0_dev26_eq c)
@[sl_canon] theorem dev2_eq (c : Dev nD) : (⟨k0_dev2 c, k0_dev2_lt c⟩ : Dev nD) = yp c := Fin.ext (k0_dev2_eq c)
@[sl_canon] theorem dev3_eq (c : Dev nD) : (⟨k0_dev3 c, k0_dev3_lt c⟩ : Dev nD) = yp c := Fin.ext (k0_dev3_eq c)
@[sl_canon] theorem dev4_eq (c : Dev nD) : (⟨k0_dev4 c, k0_dev4_lt c⟩ : Dev nD) = yp c := Fin.ext (k0_dev4_eq c)
@[sl_canon] theorem dev5_eq (c : Dev nD) : (⟨k0_dev5 c, k0_dev5_lt c⟩ : Dev nD) = yp c := Fin.ext (k0_dev5_eq c)
@[sl_canon] theorem dev6_eq (c : Dev nD) : (⟨k0_dev6 c, k0_dev6_lt c⟩ : Dev nD) = yp c := Fin.ext (k0_dev6_eq c)
@[sl_canon] theorem dev11_eq (c : Dev nD) : (⟨k0_dev11 c, k0_dev11_lt c⟩ : Dev nD) = yp c := Fin.ext (k0_dev11_eq c)
@[sl_canon] theorem dev12_eq (c : Dev nD) : (⟨k0_dev12 c, k0_dev12_lt c⟩ : Dev nD) = yp c := Fin.ext (k0_dev12_eq c)
@[sl_canon] theorem dev13_eq (c : Dev nD) : (⟨k0_dev13 c, k0_dev13_lt c⟩ : Dev nD) = yp c := Fin.ext (k0_dev13_eq c)
@[sl_canon] theorem dev14_eq (c : Dev nD) : (⟨k0_dev14 c, k0_dev14_lt c⟩ : Dev nD) = yp c := Fin.ext (k0_dev14_eq c)
@[sl_canon] theorem dev19_eq (c : Dev nD) : (⟨k0_dev19 c, k0_dev19_lt c⟩ : Dev nD) = yp c := Fin.ext (k0_dev19_eq c)
@[sl_canon] theorem dev20_eq (c : Dev nD) : (⟨k0_dev20 c, k0_dev20_lt c⟩ : Dev nD) = yp c := Fin.ext (k0_dev20_eq c)
@[sl_canon] theorem dev21_eq (c : Dev nD) : (⟨k0_dev21 c, k0_dev21_lt c⟩ : Dev nD) = yp c := Fin.ext (k0_dev21_eq c)
@[sl_canon] theorem dev22_eq (c : Dev nD) : (⟨k0_dev22 c, k0_dev22_lt c⟩ : Dev nD) = yp c := Fin.ext (k0_dev22_eq c)

def xswap : Dev nD ≃ Dev nD := ⟨xp, xp, xp_xp, xp_xp⟩
def yswap : Dev nD ≃ Dev nD := ⟨yp, yp, yp_yp, yp_yp⟩

abbrev barS : Sem sig := (SemArray.scalar (sig.barrier 0 rfl) : Sems sig S_).sem

theorem inb64 (i : Fin 6) (j : Fin 4) : ∀ a, (![i.val, j.val] : Fin 2 → Nat) a + S1x1.size a ≤ S6x4.size a := by
  intro a; have := i.isLt; have := j.isLt
  match a with
  | ⟨0, _⟩ => show i.val + 1 ≤ 6; omega
  | ⟨1, _⟩ => show j.val + 1 ≤ 4; omega

abbrev semAt (A : DmaSems sig S6x4) (i : Fin 6) (j : Fin 4) : DmaSem sig :=
  ((A.slice (Rect.unit (s := S6x4) ![i.val, j.val] S1x1.size (inb64 i j))).squeeze S_ squeezes_S1x1_S_).sem

abbrev sndS (i : Fin 6) (j : Fin 4) : DmaSem sig := semAt cc0_scratch8 i j

abbrev rcvS (i : Fin 6) (j : Fin 4) : DmaSem sig := semAt cc0_scratch9 i j

abbrev barCell (c : Dev nD) : GSem nD τ sig := ((c : Thread nD τ), .reg barS)
abbrev sndCell (c : Dev nD) (i : Fin 6) (j : Fin 4) : GSem nD τ sig := ((c : Thread nD τ), .dma (sndS i j))
abbrev rcvCell (c : Dev nD) (i : Fin 6) (j : Fin 4) : GSem nD τ sig := ((c : Thread nD τ), .dma (rcvS i j))

def peer (i : Fin 6) (c : Dev nD) : Dev nD := if i.val % 2 = 0 then yp c else xp c
theorem peer_peer (i : Fin 6) (c : Dev nD) : peer i (peer i c) = c := by
  unfold peer; split <;> simp [xp_xp, yp_yp]
end Cert.KernelIdeal.Hand

end
-- ==== Proof.Vals.lean ====
import proofs.«901003_g7700000000001004_dist_mlpseq_tp2d_cs_cs_b64_d1024_h2048_v7x_xy2x2_bf16_1_alg».proof.Proof.Base
import Idealize.ShloMosaic.Lib.ValueIdx

noncomputable section

namespace Cert.KernelIdeal.Hand

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

def xA (c : Dev nD) : FVec F S64x1024 .f32 := m ((c : Thread nD τ).loc main_arg0)

def winA (l : Fin 3) (c : Dev nD) : FVec F S1024x2048 .f32 :=
  match l with
  | ⟨0, _⟩ => m ((c : Thread nD τ).loc main_arg1)
  | ⟨1, _⟩ => m ((c : Thread nD τ).loc main_arg3)
  | ⟨2, _⟩ => m ((c : Thread nD τ).loc main_arg5)

def woutA (l : Fin 3) (c : Dev nD) : FVec F S2048x1024 .f32 :=
  match l with
  | ⟨0, _⟩ => m ((c : Thread nD τ).loc main_arg2)
  | ⟨1, _⟩ => m ((c : Thread nD τ).loc main_arg4)
  | ⟨2, _⟩ => m ((c : Thread nD τ).loc main_arg6)

def winN (l : Fin 3) (c : Dev nD) : FVec F S1024x2048 .bf16 := truncf .bf16 (winA m l c) bitsLt_bf16_f32
def woutN (l : Fin 3) (c : Dev nD) : FVec F S2048x1024 .bf16 := truncf .bf16 (woutA m l c) bitsLt_bf16_f32

def cols512 {φ : FTy} (V : FVec F S1024x2048 φ) (j : Fin 4) : FVec F S1024x512 φ :=
  fun i => V (ValueIdx.ix2 (n0 := 1024) (n1 := 2048) ⟨(i 0).val, (i 0).isLt⟩ ⟨512 * j.val + (i 1).val, by have := ValueIdx.idx2_lt1 (n0 := 1024) (n1 := 512) i; have := j.isLt; omega⟩)

def rows256 {φ : FTy} (V : FVec F S1024x2048 φ) (j : Fin 4) : FVec F S256x2048 φ :=
  fun i => V (ValueIdx.ix2 (n0 := 1024) (n1 := 2048) ⟨256 * j.val + (i 0).val, by have := ValueIdx.idx2_lt0 (n0 := 256) (n1 := 2048) i; have := j.isLt; omega⟩ ⟨(i 1).val, (i 1).isLt⟩)

def rows512 {φ : FTy} (V : FVec F S2048x1024 φ) (j : Fin 4) : FVec F S512x1024 φ :=
  fun i => V (ValueIdx.ix2 (n0 := 2048) (n1 := 1024) ⟨512 * j.val + (i 0).val, by have := ValueIdx.idx2_lt0 (n0 := 512) (n1 := 1024) i; have := j.isLt; omega⟩ ⟨(i 1).val, (i 1).isLt⟩)

def cut512 (X : FVec F S64x2048 .f32) (j : Fin 4) : FVec F S64x512 .f32 :=
  match j with
  | ⟨0, _⟩ => extractStridedSlice S64x512 ![0, 0] X slices_S64x2048_o0_0_S64x512
  | ⟨1, _⟩ => extractStridedSlice S64x512 ![0, 512] X slices_S64x2048_o0_512_S64x512
  | ⟨2, _⟩ => extractStridedSlice S64x512 ![0, 1024] X slices_S64x2048_o0_1024_S64x512
  | ⟨3, _⟩ => extractStridedSlice S64x512 ![0, 1536] X slices_S64x2048_o0_1536_S64x512

def cut256 (X : FVec F S64x1024 .f32) (j : Fin 4) : FVec F S64x256 .f32 :=
  match j with
  | ⟨0, _⟩ => extractStridedSlice S64x256 ![0, 0] X slices_S64x1024_o0_0_S64x256
  | ⟨1, _⟩ => extractStridedSlice S64x256 ![0, 256] X slices_S64x1024_o0_256_S64x256
  | ⟨2, _⟩ => extractStridedSlice S64x256 ![0, 512] X slices_S64x1024_o0_512_S64x256
  | ⟨3, _⟩ => extractStridedSlice S64x256 ![0, 768] X slices_S64x1024_o0_768_S64x256

def sum4 {s : Shape} (t : Fin 4 → FVec F s .f32) : FVec F s .f32 := addf (addf (addf (t 0) (t 1)) (t 2)) (t 3)

def hpFirst (c : Dev nD) (j : Fin 4) : FVec F S64x512 .f32 :=
  matmul dot_S64x1024_S1024x512_S64x512_1_0_0_1_n_n none (truncf .bf16 (xA m c) bitsLt_bf16_f32) (cols512 (winN m 0 c) j) (constant S64x512 .f32 0x00000000#32)

def hpLater (l : Fin 3) (A : Dev nD → Fin 4 → FVec F S64x256 .f32) (c : Dev nD) (j : Fin 4) : FVec F S64x512 .f32 :=
  cut512 (sum4 fun k => matmul dot_S64x256_S256x2048_S64x2048_1_0_0_1_n_n none (truncf .bf16 (A c k) bitsLt_bf16_f32) (rows256 (winN m l c) k) (constant S64x2048 .f32 0x00000000#32)) j

def hSent (hp : Dev nD → Fin 4 → FVec F S64x512 .f32) (c : Dev nD) (j : Fin 4) : FVec F S64x512 .bf16 := truncf .bf16 (hp c j) bitsLt_bf16_f32

def hid (hp : Dev nD → Fin 4 → FVec F S64x512 .f32) (c : Dev nD) (j : Fin 4) : FVec F S64x512 .bf16 :=
  truncf .bf16 (maximumf (addf (hp c j) (extf .f32 (hSent hp (yp c) j) bitsLt_bf16_f32)) (broadcast S64x512 (Scalar.ofBits .f32 0x00000000#32))) bitsLt_bf16_f32

def gpFull (l : Fin 3) (hp : Dev nD → Fin 4 → FVec F S64x512 .f32) (c : Dev nD) : FVec F S64x1024 .f32 :=
  sum4 fun k => matmul dot_S64x512_S512x1024_S64x1024_1_0_0_1_n_n none (hid hp c k) (rows512 (woutN m l c) k) (constant S64x1024 .f32 0x00000000#32)

def gSent (l : Fin 3) (hp : Dev nD → Fin 4 → FVec F S64x512 .f32) (c : Dev nD) (j : Fin 4) : FVec F S64x256 .bf16 :=
  truncf .bf16 (cut256 (gpFull m l hp c) j) bitsLt_bf16_f32

def layerOut (l : Fin 3) (hp : Dev nD → Fin 4 → FVec F S64x512 .f32) (c : Dev nD) (j : Fin 4) : FVec F S64x256 .f32 :=
  addf (cut256 (gpFull m l hp c) j) (extf .f32 (gSent m l hp (xp c) j) bitsLt_bf16_f32)

def hp0 : Dev nD → Fin 4 → FVec F S64x512 .f32 := hpFirst m
def acc0 : Dev nD → Fin 4 → FVec F S64x256 .f32 := layerOut m 0 (hp0 m)
def hp1 : Dev nD → Fin 4 → FVec F S64x512 .f32 := hpLater m 1 (acc0 m)
def acc1 : Dev nD → Fin 4 → FVec F S64x256 .f32 := layerOut m 1 (hp1 m)
def hp2 : Dev nD → Fin 4 → FVec F S64x512 .f32 := hpLater m 2 (acc1 m)
def acc2 : Dev nD → Fin 4 → FVec F S64x256 .f32 := layerOut m 2 (hp2 m)

def hpL (l : Fin 3) : Dev nD → Fin 4 → FVec F S64x512 .f32 :=
  match l with | ⟨0, _⟩ => hp0 m | ⟨1, _⟩ => hp1 m | ⟨2, _⟩ => hp2 m

def hLanded (l : Fin 3) (c : Dev nD) (j : Fin 4) : FVec F S64x512 .bf16 := hSent (hpL m l) (yp c) j

def gLanded (l : Fin 3) (c : Dev nD) (j : Fin 4) : FVec F S64x256 .bf16 := gSent m l (hpL m l) (xp c) j

def outA (c : Dev nD) : FVec F S64x1024 .f32 :=
  fun i => acc2 m c ⟨(i 1).val / 256, by have := ValueIdx.idx2_lt1 (n0 := 64) (n1 := 1024) i; omega⟩
    (ValueIdx.ix2 (n0 := 64) (n1 := 256) ⟨(i 0).val, (i 0).isLt⟩ ⟨(i 1).val % 256, Nat.mod_lt _ (by decide)⟩)

end Cert.KernelIdeal.Hand

end
-- ==== Proof.Sched.lean ====
import proofs.«901003_g7700000000001004_dist_mlpseq_tp2d_cs_cs_b64_d1024_h2048_v7x_xy2x2_bf16_1_alg».proof.Proof.Vals

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inbH (l : Fin 3) (j : Fin 4) : ∀ a, (![l.val, 0, 512 * j.val] : Fin 3 → Nat) a + S1x64x512.size a ≤ S3x64x2048.size a := by
  intro a; have := l.isLt; have := j.isLt
  match a with
  | ⟨0, _⟩ => show l.val + 1 ≤ 3; omega
  | ⟨1, _⟩ => show 0 + 64 ≤ 64; omega
  | ⟨2, _⟩ => show 512 * j.val + 512 ≤ 2048; omega
theorem inbG (l : Fin 3) (j : Fin 4) : ∀ a, (![l.val, 0, 256 * j.val] : Fin 3 → Nat) a + S1x64x256.size a ≤ S3x64x1024.size a := by
  intro a; have := l.isLt; have := j.isLt
  match a with
  | ⟨0, _⟩ => show l.val + 1 ≤ 3; omega
  | ⟨1, _⟩ => show 0 + 64 ≤ 64; omega
  | ⟨2, _⟩ => show 256 * j.val + 256 ≤ 1024; omega

abbrev hsM (l : Fin 3) (j : Fin 4) : Memref sig .tc .vmem S64x512 .bf16 :=
  ((Memref.whole cc0_scratch4).slice (Rect.unit (s := S3x64x2048) ![l.val, 0, 512 * j.val] S1x64x512.size (inbH l j)) (fun _ => rfl)).squeeze S64x512 squeezes_S1x64x512_S64x512
abbrev hrM (l : Fin 3) (j : Fin 4) : Memref sig .tc .vmem S64x512 .bf16 :=
  ((Memref.whole cc0_scratch5).slice (Rect.unit (s := S3x64x2048) ![l.val, 0, 512 * j.val] S1x64x512.size (inbH l j)) (fun _ => rfl)).squeeze S64x512 squeezes_S1x64x512_S64x512
abbrev gsM (l : Fin 3) (j : Fin 4) : Memref sig .tc .vmem S64x256 .bf16 :=
  ((Memref.whole cc0_scratch6).slice (Rect.unit (s := S3x64x1024) ![l.val, 0, 256 * j.val] S1x64x256.size (inbG l j)) (fun _ => rfl)).squeeze S64x256 squeezes_S1x64x256_S64x256
abbrev grM (l : Fin 3) (j : Fin 4) : Memref sig .tc .vmem S64x256 .bf16 :=
  ((Memref.whole cc0_scratch7).slice (Rect.unit (s := S3x64x1024) ![l.val, 0, 256 * j.val] S1x64x256.size (inbG l j)) (fun _ => rfl)).squeeze S64x256 squeezes_S1x64x256_S64x256

abbrev Nh : ℕ := (hrM 0 0).view.dmaCredit
abbrev Ng : ℕ := (grM 0 0).view.dmaCredit
theorem Nh_pos : 0 < Nh := View.dmaCredit_pos _ (by decide)
theorem Ng_pos : 0 < Ng := View.dmaCredit_pos _ (by decide)

def lay (i : Fin 6) : Fin 3 := ⟨i.val / 2, by have := i.isLt; omega⟩

abbrev isH (i : Fin 6) : Prop := i.val % 2 = 0

def exH (l : Fin 3) : Fin 6 := ⟨2 * l.val, by have := l.isLt; omega⟩
def exG (l : Fin 3) : Fin 6 := ⟨2 * l.val + 1, by have := l.isLt; omega⟩

def heldS (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

def heldAt (c : Dev nD) {sp : Space} {S : Shape} {e : EltTy} (M : Memref sig .tc sp S e) (v : S.Idx → Elt F e) : sProp 𝕄 :=
  iprop(∃ f : Buf (Elt F) (M.view.loc (c : Thread nD τ)), (M.view.loc (c : Thread nD τ) ↦[M.view.set]{fullShare} f) ∗ ⌜M.view.read (Elt F) f = v⌝)

instance heldS_storable (c : Dev nD) {sp : Space} {S : Shape} {e : EltTy} (M : Memref sig .tc sp S e) : BI.Storable (upEmb : UEmb _ 𝕄) (heldS (F := F) c M) := by
  unfold heldS; infer_instance
instance heldAt_storable (c : Dev nD) {sp : Space} {S : Shape} {e : EltTy} (M : Memref sig .tc sp S e) (v : S.Idx → Elt F e) : BI.Storable (upEmb : UEmb _ 𝕄) (heldAt c M v) := by
  unfold heldAt; infer_instance

def sndPay (c : Dev nD) (i : Fin 6) (j : Fin 4) : sProp 𝕄 :=
  if isH i then heldS c (hsM (lay i) j) else heldS c (gsM (lay i) j)

def rcvPay (c : Dev nD) (i : Fin 6) (j : Fin 4) : sProp 𝕄 :=
  if isH i then heldAt c (hrM (lay i) j) (hLanded m (lay i) c j) else heldAt c (grM (lay i) j) (gLanded m (lay i) c j)

def barPay (d : Dev nD) (b : Bool) : sProp 𝕄 :=
  if b then iprop((bigSep Finset.univ fun lj : Fin 3 × Fin 4 => heldS (yp d) (hrM lj.1 lj.2))
              ∗ bigSep Finset.univ fun lj : Fin 3 × Fin 4 => reached ER (rcvCell (yp d) (exH lj.1) lj.2) 0)
  else iprop((bigSep Finset.univ fun lj : Fin 3 × Fin 4 => heldS (xp d) (grM lj.1 lj.2))
              ∗ bigSep Finset.univ fun lj : Fin 3 × Fin 4 => reached ER (rcvCell (xp d) (exG lj.1) lj.2) 0)

instance sndPay_storable (c : Dev nD) (i : Fin 6) (j : Fin 4) : BI.Storable (upEmb : UEmb _ 𝕄) (sndPay (F := F) c i j) := by
  unfold sndPay; split <;> infer_instance
instance rcvPay_storable (c : Dev nD) (i : Fin 6) (j : Fin 4) : BI.Storable (upEmb : UEmb _ 𝕄) (rcvPay m c i j) := by
  unfold rcvPay; split <;> infer_instance
instance barPay_storable (d : Dev nD) (b : Bool) : BI.Storable (upEmb : UEmb _ 𝕄) (barPay (F := F) d b) := by
  unfold barPay; split <;> infer_instance

def semOf (k : Bool × Fin 6 × Fin 4) : SemLoc sig := .dma (if k.1 then rcvS k.2.1 k.2.2 else sndS k.2.1 k.2.2)

def allK : List (Bool × Fin 6 × Fin 4) :=
  (List.finRange 6).flatMap fun i => (List.finRange 4).flatMap fun j => [(false, i, j), (true, i, j)]

def kindOf (s : SemLoc sig) : Option (Bool × Fin 6 × Fin 4) := allK.find? fun k => decide (semOf k = s)

theorem kindOf_semOf : ∀ k, kindOf (semOf k) = some k := by decide
theorem kindOf_bar : kindOf (SemLoc.reg barS : SemLoc sig) = none := by decide
theorem kindOf_snd (i : Fin 6) (j : Fin 4) : kindOf (SemLoc.dma (sndS i j) : SemLoc sig) = some (false, i, j) := kindOf_semOf (false, i, j)
theorem kindOf_rcv (i : Fin 6) (j : Fin 4) : kindOf (SemLoc.dma (rcvS i j) : SemLoc sig) = some (true, i, j) := kindOf_semOf (true, i, j)
theorem snd_ne_bar (i : Fin 6) (j : Fin 4) : (SemLoc.dma (sndS i j) : SemLoc sig) ≠ .reg barS := fun h => by cases h
theorem rcv_ne_bar (i : Fin 6) (j : Fin 4) : (SemLoc.dma (rcvS i j) : SemLoc sig) ≠ .reg barS := fun h => by cases h

def amt (i : Fin 6) : ℕ := if isH i then Nh else Ng
theorem amt_pos (i : Fin 6) : 0 < amt i := by unfold amt; split; exact Nh_pos; exact Ng_pos

def rd : Rounds.Schedule (GSem nD τ sig) Bool 𝕄 where
  duties g r :=
    if r = 0 ∧ g.1.2 = .tc then (if g.2 = .reg barS then Finset.univ else if (kindOf g.2).isSome then {false} else ∅) else ∅
  unitless _ := False
  amount g _ _ := match kindOf g.2 with | some k => amt k.2.1 | none => 1
  payload g _ d :=
    if g.2 = .reg barS then barPay g.1.1 d
    else match kindOf g.2 with
      | some (false, i, j) => sndPay g.1.1 i j
      | some (true, i, j) => rcvPay m g.1.1 i j
      | none => iprop(emp)
  amount_pos g _ _ _ := by
    cases h : kindOf g.2 with
    | none => exact Nat.one_pos
    | some k => exact amt_pos _

instance rd_payload_storable (g : GSem nD τ sig) (r : ℕ) (d : Bool) : BI.Storable (upEmb : UEmb _ 𝕄) ((rd (F := F) m).payload g r d) := by
  show BI.Storable upEmb (if g.2 = .reg barS then barPay g.1.1 d else match kindOf g.2 with
      | some (false, i, j) => sndPay g.1.1 i j | some (true, i, j) => rcvPay m g.1.1 i j | none => iprop(emp))
  split
  · infer_instance
  · split <;> infer_instance

section Tables
variable (c : Dev nD) (i : Fin 6) (j : Fin 4)

theorem duties_bar : (rd (F := F) m).duties (barCell c) 0 = Finset.univ := by
  dsimp only [rd]; rw [if_pos ⟨rfl, rfl⟩, if_pos rfl]
theorem duties_snd : (rd (F := F) m).duties (sndCell c i j) 0 = {false} := by
  dsimp only [rd]; rw [if_pos ⟨rfl, rfl⟩, if_neg (snd_ne_bar i j), kindOf_snd]; rfl
theorem duties_rcv : (rd (F := F) m).duties (rcvCell c i j) 0 = {false} := by
  dsimp only [rd]; rw [if_pos ⟨rfl, rfl⟩, if_neg (rcv_ne_bar i j), kindOf_rcv]; rfl
theorem duties_later (g : GSem nD τ sig) : ∀ r, 1 ≤ r → (rd (F := F) m).duties g r = ∅ :=
  fun r hr => by dsimp only [rd]; exact if_neg fun h => by omega

theorem amount_bar (d : Bool) : (rd (F := F) m).amount (barCell c) 0 d = 1 := by dsimp only [rd]; rw [kindOf_bar]
theorem amount_snd (d : Bool) : (rd (F := F) m).amount (sndCell c i j) 0 d = amt i := by dsimp only [rd]; rw [kindOf_snd]
theorem amount_rcv (d : Bool) : (rd (F := F) m).amount (rcvCell c i j) 0 d = amt i := by dsimp only [rd]; rw [kindOf_rcv]

theorem expect_bar : (rd (F := F) m).expect (barCell c) 0 = 2 := by
  unfold Schedule.expect Schedule.amountOf; rw [duties_bar, Finset.sum_congr rfl fun d _ => amount_bar m c d]; decide
theorem expect_snd : (rd (F := F) m).expect (sndCell c i j) 0 = amt i := by
  unfold Schedule.expect Schedule.amountOf; rw [duties_snd, Finset.sum_singleton, amount_snd]
theorem expect_rcv : (rd (F := F) m).expect (rcvCell c i j) 0 = amt i := by
  unfold Schedule.expect Schedule.amountOf; rw [duties_rcv, Finset.sum_singleton, amount_rcv]

theorem payload_bar (d : Bool) : (rd (F := F) m).payload (barCell c) 0 d = barPay c d := by dsimp only [rd]; rw [if_pos rfl]
theorem payload_snd (d : Bool) : (rd (F := F) m).payload (sndCell c i j) 0 d = sndPay c i j := by
  dsimp only [rd]; rw [if_neg (snd_ne_bar i j), kindOf_snd]
theorem payload_rcv (d : Bool) : (rd (F := F) m).payload (rcvCell c i j) 0 d = rcvPay m c i j := by
  dsimp only [rd]; rw [if_neg (rcv_ne_bar i j), kindOf_rcv]

theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide)]
  simp only [payload_bar]; rfl
theorem rest_snd : bigSep ((rd (F := F) m).duties (sndCell c i j) 0 \ ∅) (fun d => (rd (F := F) m).payload (sndCell c i j) 0 d) = sndPay c i j := by
  rw [Finset.sdiff_empty, duties_snd, bigSep_singleton, payload_snd]
theorem rest_rcv : bigSep ((rd (F := F) m).duties (rcvCell c i j) 0 \ ∅) (fun d => (rd (F := F) m).payload (rcvCell c i j) 0 d) = rcvPay m c i j := by
  rw [Finset.sdiff_empty, duties_rcv, bigSep_singleton, payload_rcv]

end Tables

end Cert.KernelIdeal.Hand

end
-- ==== Proof.Ghost.lean ====
import proofs.«901003_g7700000000001004_dist_mlpseq_tp2d_cs_cs_b64_d1024_h2048_v7x_xy2x2_bf16_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def oweX (c : Dev nD) (i : Fin 6) : CellTallies nD τ sig Unit :=
  tallyAt (rcvCell (peer i c) i 0) () (amt i) + tallyAt (rcvCell (peer i c) i 1) () (amt i)
    + tallyAt (rcvCell (peer i c) i 2) () (amt i) + tallyAt (rcvCell (peer i c) i 3) () (amt i)

def O₀ (c : Dev nD) : CellTallies nD τ sig Unit :=
  oweX c 5 + oweX c 4 + oweX c 3 + oweX c 2 + oweX c 1 + oweX c 0 + tallyAt (barCell (yp c)) () 1 + tallyAt (barCell (xp c)) () 1

def L (g : GSem nD τ sig) : Finset Unit := if g.1.2 = .tc then {()} else ∅
def lv (g : GSem nD τ sig) (_ : Unit) : ℕ :=
  if g.2 = .reg barS then 1 else match kindOf g.2 with | some (true, i, _) => 2 + i.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [if_pos rfl]
theorem lv_rcv (c : Dev nD) (i : Fin 6) (j : Fin 4) : lv (rcvCell c i j) () = 2 + i.val := by
  unfold lv; rw [if_neg (rcv_ne_bar i j), kindOf_rcv]
theorem lv_snd (c : Dev nD) (i : Fin 6) (j : Fin 4) : lv (sndCell c i j) () = 0 := by
  unfold lv; rw [if_neg (snd_ne_bar i j), kindOf_snd]

abbrev Kix : Type := Option (Bool × Fin 6 × Fin 4)
def csem : Kix → SemLoc sig
  | none => .reg barS
  | some k => semOf k
abbrev kcell (ck : Dev nD × Kix) : GSem nD τ sig := ((ck.1 : Thread nD τ), csem ck.2)

def invs (K : Dev nD × Kix → ℕ) (c : Dev nD) : sProp 𝕄 :=
  iprop((bigSep Finset.univ fun k : Kix => cellInv ER (rd m) (K (c, k)) (kcell (c, k)))
    ∗ cellInv ER (rd m) (K (xp c, none)) (barCell (xp c)) ∗ cellInv ER (rd m) (K (yp c, none)) (barCell (yp c))
    ∗ bigSep Finset.univ fun ij : Fin 6 × Fin 4 => cellInv ER (rd m) (K (peer ij.1 c, some (true, ij.1, ij.2))) (rcvCell (peer ij.1 c) ij.1 ij.2))

instance invs_persistent (K : Dev nD × Kix → ℕ) (c : Dev nD) : BI.Persistent (invs m K c) := by unfold invs; infer_instance

def reacheds (c : Dev nD) : sProp 𝕄 :=
  iprop(reached ER (barCell (xp c)) 0 ∗ reached ER (barCell (yp c)) 0
    ∗ (bigSep Finset.univ fun ij : Fin 6 × Fin 4 => reached ER (rcvCell (peer ij.1 c) ij.1 ij.2) 0)
    ∗ (bigSep Finset.univ fun ij : Fin 6 × Fin 4 => reached ER (sndCell c ij.1 ij.2) 0)
    ∗ (bigSep Finset.univ fun ij : Fin 6 × Fin 4 => reached ER (rcvCell c ij.1 ij.2) 0))

instance reacheds_persistent (c : Dev nD) : BI.Persistent (reacheds (F := F) c) := by unfold reacheds; infer_instance

def payToks (c : Dev nD) : sProp 𝕄 :=
  iprop(dutyTok ER (barCell (xp c)) 0 false ∗ dutyTok ER (barCell (yp c)) 0 true
    ∗ (bigSep Finset.univ fun ij : Fin 6 × Fin 4 => dutyTok ER (rcvCell (peer ij.1 c) ij.1 ij.2) 0 false)
    ∗ (bigSep Finset.univ fun ij : Fin 6 × Fin 4 => dutyTok ER (sndCell c ij.1 ij.2) 0 false))

def positions (c : Dev nD) : sProp 𝕄 := bigSep Finset.univ fun k : Kix => atPos ER (kcell (c, k)) 0 ∅ 0

def ghost (K : Dev nD × Kix → ℕ) (c : Dev nD) : sProp 𝕄 :=
  iprop(invs m K c ∗ reacheds c ∗ positions c ∗ payToks c)

def creds (c : Dev nD) : sProp 𝕄 :=
  iprop(cred (tallyAt (barCell c) () 2) ∗ bigSep Finset.univ fun ij : Fin 6 × Fin 4 => cred (tallyAt (rcvCell c ij.1 ij.2) () (amt ij.1)))

abbrev s2a (A : DmaSems sig S2) : DmaSem sig := ((A.slice (Rect.unit (s := S2) ![0] S1.size inb_S2_S1_0)).squeeze S_ squeezes_S1_S_).sem
abbrev s2b (A : DmaSems sig S2) : DmaSem sig := ((A.slice (Rect.unit (s := S2) ![1] S1.size inb_S2_S1_1)).squeeze S_ squeezes_S1_S_).sem
theorem inb4 (j : Fin 4) : ∀ a, (![j.val] : Fin 1 → Nat) a + S1.size a ≤ S4.size a := by
  intro a; have := j.isLt; match a with | ⟨0, _⟩ => show j.val + 1 ≤ 4; omega
abbrev s4 (j : Fin 4) : DmaSem sig := ((cc0_scratch14.slice (Rect.unit (s := S4) ![j.val] S1.size (inb4 j))).squeeze S_ squeezes_S1_S_).sem

abbrev lsem (c : Dev nD) (s : DmaSem sig) : sProp 𝕄 := semVal (((c : Thread nD τ), .dma s) : GSem nD τ sig) 0

def localSems (c : Dev nD) : sProp 𝕄 :=
  iprop(lsem c (s2a cc0_scratch10) ∗ lsem c (s2b cc0_scratch10) ∗ lsem c (s2a cc0_scratch11) ∗ lsem c (s2b cc0_scratch11)
    ∗ lsem c (s2a cc0_scratch12) ∗ lsem c (s2b cc0_scratch12) ∗ lsem c (s4 0) ∗ lsem c (s4 1) ∗ lsem c (s4 2) ∗ lsem c (s4 3))

abbrev ptw (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦{fullShare} f

def argsAt (c : Dev nD) : sProp 𝕄 :=
  iprop(ptw c main_arg1 (m ((c : Thread nD τ).loc main_arg1)) ∗ ptw c main_arg2 (m ((c : Thread nD τ).loc main_arg2))
    ∗ ptw c main_arg3 (m ((c : Thread nD τ).loc main_arg3)) ∗ ptw c main_arg4 (m ((c : Thread nD τ).loc main_arg4))
    ∗ ptw c main_arg5 (m ((c : Thread nD τ).loc main_arg5)) ∗ ptw c main_arg6 (m ((c : Thread nD τ).loc main_arg6)))

def scratchAny (c : Dev nD) : sProp 𝕄 :=
  iprop((∃ f, ptw c cc0_scratch0 f) ∗ (∃ f, ptw c cc0_scratch1 f) ∗ (∃ f, ptw c cc0_scratch2 f) ∗ (∃ f, ptw c cc0_scratch3 f)
    ∗ (∃ f, ptw c cc0_scratch4 f) ∗ (∃ f, ptw c cc0_scratch5 f) ∗ (∃ f, ptw c cc0_scratch6 f) ∗ (∃ f, ptw c cc0_scratch7 f)
    ∗ (∃ f, ptw c cc0_scratch13 f))

def Φ₀ (c : Dev nD) : sProp 𝕄 :=
  iprop((∃ K, ghost m K c) ∗ creds c ∗ levAts L lv ∗ localSems c ∗ argsAt m c ∗ (∃ f, ptw c main_v1 f) ∗ scratchAny c)

def Φ₁ (c : Dev nD) : sProp 𝕄 :=
  iprop((bigSep Finset.univ fun ij : Fin 6 × Fin 4 => iprop(semVal (sndCell c ij.1 ij.2) 0 ∗ semVal (rcvCell c ij.1 ij.2) 0))
    ∗ localSems c ∗ argsAt m c ∗ ptw c main_v1 (outA m c) ∗ scratchAny c)

def xstg (c : Dev nD) : (cc0_stg0_0 : Ref sig .tc).ty.Contents (Elt F) :=
  (win0_0.blk (0 : Fin 1)).view.read (Elt F) (m ((c : Thread nD τ).loc main_arg0))

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Hand

end
-- ==== Proof.LaunchGhost.lean ====
import proofs.«901003_g7700000000001004_dist_mlpseq_tp2d_cs_cs_b64_d1024_h2048_v7x_xy2x2_bf16_1_alg».proof.Proof.Ghost
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 58 → SemLoc sig := fun k => .dma ⟨k.val + 1, by have := k.isLt; show k.val + 1 < 59; omega⟩

theorem ownSemFacts : Pipeline.OwnSemFacts cfg0.spec osem := by decide

theorem kindOf_csem (k : Kix) : kindOf (csem k) = k := by
  cases k with
  | none => exact kindOf_bar
  | some k => exact kindOf_semOf k

theorem kcell_injective : Function.Injective (kcell : Dev nD × Kix → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by rw [← kindOf_csem k, ← kindOf_csem k', h2]
  subst this; rfl

def protoCells : Finset (GSem nD τ sig) := Finset.univ.map ⟨kcell, kcell_injective⟩

def tokOf (x : Dev nD × (Kix ⊕ Unit)) : GSem nD τ sig × ℕ × Bool := match x.2 with
  | .inl k => (kcell (x.1, k), 0, false)
  | .inr _ => (barCell x.1, 0, true)

theorem tokOf_injective : Function.Injective (tokOf : Dev nD × (Kix ⊕ Unit) → GSem nD τ sig × ℕ × Bool) := by
  rintro ⟨c, x⟩ ⟨c', x'⟩ h
  cases x with
  | inl k =>
    cases x' with
    | inl k' =>
      have := kcell_injective (congrArg Prod.fst h)
      cases this; rfl
    | inr u' => have h' : false = true := congrArg (fun t : GSem nD τ sig × ℕ × Bool => t.2.2) h; cases h'
  | inr u =>
    cases x' with
    | inl k' => have h' : true = false := congrArg (fun t : GSem nD τ sig × ℕ × Bool => t.2.2) h; cases h'
    | inr u' =>
      have h1 : c = c' := congrArg (fun t : GSem nD τ sig × ℕ × Bool => t.1.1.1) h
      subst h1; rfl

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((bigSep Finset.univ fun k : Kix => dutyTok ER (kcell (c, k)) 0 false) ∗ dutyTok ER (barCell c) 0 true)

def G (c : Dev nD) : sProp 𝕄 :=
  iprop((bigSep Finset.univ fun k : Kix => roundState ER (rd m) (kcell (c, k)) 0)
    ∗ (bigSep Finset.univ fun k : Kix => iprop(atPos ER (kcell (c, k)) 0 ∅ 0 ∗ reached ER (kcell (c, k)) 0)) ∗ toks c)

omit [FloatOps F] in

theorem bigSep_kix (Φ : Kix → sProp 𝕄) :
    bigSep Finset.univ Φ = iprop(Φ none ∗ (bigSep Finset.univ fun ij : Fin 6 × Fin 4 => Φ (some (false, ij)))
      ∗ bigSep Finset.univ fun ij : Fin 6 × Fin 4 => Φ (some (true, ij))) := by
  rw [bigSep_univ_equiv (Equiv.optionEquivSumPUnit.{0, 0} (Bool × Fin 6 × Fin 4)).symm Φ, bigSep_univ_sum,
    bigSep_univ_of_subsingleton PUnit.unit, bigSep_univ_prod,
    bigSep_univ_eq_bigSepL [false, true] (by decide) (by decide)]
  exact Std.Commutative.comm (op := (BI.sep : sProp 𝕄 → sProp 𝕄 → sProp 𝕄)) _ _

omit [FloatOps F] in

theorem bigSep_sum_unit {A : Type} [Fintype A] (Φ : A ⊕ Unit → sProp 𝕄) :
    bigSep Finset.univ Φ = iprop((bigSep Finset.univ fun a => Φ (.inl a)) ∗ Φ (.inr ())) := by
  rw [bigSep_univ_sum, bigSep_univ_of_subsingleton ()]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Kix => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_sum_unit]; rfl
  iintro HX
  imod (Rounds.fund ER (rd m) protoCells protoToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HR⟩
  ihave H2 := (own_pair_emb embR _ _) $$ HR
  icases H2 with ⟨HX, -⟩
  imod (fund_proto m) $$ HX with HG
  imodintro
  isplitl [HP] <;> iassumption

def G' (c : Dev nD) : sProp 𝕄 := iprop((∃ K, ghost m K c) ∗ localSems c)

def ownEquiv : (Fin 6 × Fin 4) ⊕ ((Fin 6 × Fin 4) ⊕ Fin 10) ≃ Fin 58 :=
  (Equiv.sumCongr finProdFinEquiv (Equiv.sumCongr finProdFinEquiv (Equiv.refl (Fin 10)))).trans
    ((Equiv.sumCongr (Equiv.refl (Fin (6 * 4))) finSumFinEquiv).trans finSumFinEquiv)

def locS : Fin 10 → DmaSem sig
  | 0 => s2a cc0_scratch10 | 1 => s2b cc0_scratch10 | 2 => s2a cc0_scratch11 | 3 => s2b cc0_scratch11
  | 4 => s2a cc0_scratch12 | 5 => s2b cc0_scratch12 | 6 => s4 0 | 7 => s4 1 | 8 => s4 2 | 9 => s4 3

theorem osem_snd : ∀ ij : Fin 6 × Fin 4, osem (ownEquiv (.inl ij)) = .dma (sndS ij.1 ij.2) := by decide
theorem osem_rcv : ∀ ij : Fin 6 × Fin 4, osem (ownEquiv (.inr (.inl ij))) = .dma (rcvS ij.1 ij.2) := by decide
theorem osem_loc : ∀ t : Fin 10, osem (ownEquiv (.inr (.inr t))) = .dma (locS t) := by decide

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in

theorem ownSems0_eq (c : Dev nD) : (Pipeline.ownSems0 (Ix := Unit) (Name := ℕ) (U := UU) (Lvl := ℕ) (Val := Elt F) (τ := τ) osem c : sProp 𝕄)
    = iprop((bigSep Finset.univ fun ij : Fin 6 × Fin 4 => semVal (sndCell c ij.1 ij.2) 0)
        ∗ (bigSep Finset.univ fun ij : Fin 6 × Fin 4 => semVal (rcvCell c ij.1 ij.2) 0) ∗ localSems c) := by
  unfold Pipeline.ownSems0
  rw [bigSep_univ_equiv ownEquiv, bigSep_univ_sum, bigSep_univ_sum, bigSep_fin10]
  simp only [osem_snd, osem_rcv, osem_loc]
  rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Kix => semVal (kcell (c, k)) 0) ∗ localSems c) : sProp 𝕄) := by
  rw [ownSems0_eq, unscopedSems0_eq, bigSep_kix]
  iintro ⟨⟨HS, HV, HL⟩, HB⟩
  isplitr [HL]
  · isplitl [HB]; · iexact HB
    isplitl [HS]; · iexact HS
    iexact HV
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kix => iprop(∃ κ : ℕ, cellInv ER (rd m) κ (kcell (c, k))))
          ∗ (bigSep Finset.univ fun k : Kix => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Kix => semVal (kcell (c, k)) 0) ∗ bigSep Finset.univ fun k : Kix => roundState ER (rd m) (kcell (c, k)) 0)
      ⊢ (|={Set.univ}=> bigSep Finset.univ fun k : Kix => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : Dev nD × Kix → ℕ) : sProp 𝕄 :=
  iprop((bigSep Finset.univ fun ck : Dev nD × Kix => cellInv ER (rd m) (K ck) (kcell ck))
    ∗ bigSep Finset.univ fun ck : Dev nD × Kix => reached ER (kcell ck) 0)

instance records_persistent (K : Dev nD × Kix → ℕ) : BI.Persistent (records m K) := by unfold records; infer_instance

theorem inv_at (K : Dev nD × Kix → ℕ) (ck : Dev nD × Kix) : records m K ⊢ cellInv ER (rd m) (K ck) (kcell ck) := by
  have h : (bigSep Finset.univ fun ck : Dev nD × Kix => (cellInv ER (rd m) (K ck) (kcell ck) : sProp 𝕄)) ⊢ cellInv ER (rd m) (K ck) (kcell ck) :=
    bigSep_elim (Finset.mem_univ ck)
  unfold records
  iintro ⟨HI, -⟩
  iapply h
  iexact HI
theorem reached_at (K : Dev nD × Kix → ℕ) (ck : Dev nD × Kix) : records m K ⊢ reached ER (kcell ck) 0 := by
  have h : (bigSep Finset.univ fun ck : Dev nD × Kix => (reached ER (kcell ck) 0 : sProp 𝕄)) ⊢ reached ER (kcell ck) 0 :=
    bigSep_elim (Finset.mem_univ ck)
  unfold records
  iintro ⟨-, HR⟩
  iapply h
  iexact HR

theorem invs_intro (K : Dev nD × Kix → ℕ) (c : Dev nD) : records m K ⊢ invs m K c := by
  unfold invs
  iintro #H
  isplitr; · iapply (bigSep_intro_persistent (R := records m K) fun k _ => inv_at m K (c, k)); iexact H
  isplitr; · iapply (inv_at m K (xp c, none)); iexact H
  isplitr; · iapply (inv_at m K (yp c, none)); iexact H
  iapply (bigSep_intro_persistent (R := records m K) fun ij _ => inv_at m K (peer ij.1 c, some (true, ij.1, ij.2))); iexact H

theorem reacheds_intro (K : Dev nD × Kix → ℕ) (c : Dev nD) : records m K ⊢ reacheds c := by
  unfold reacheds
  iintro #H
  isplitr; · iapply (reached_at m K (xp c, none)); iexact H
  isplitr; · iapply (reached_at m K (yp c, none)); iexact H
  isplitr; · iapply (bigSep_intro_persistent (R := records m K) fun ij _ => reached_at m K (peer ij.1 c, some (true, ij.1, ij.2))); iexact H
  isplitr; · iapply (bigSep_intro_persistent (R := records m K) fun ij _ => reached_at m K (c, some (false, ij.1, ij.2))); iexact H
  iapply (bigSep_intro_persistent (R := records m K) fun ij _ => reached_at m K (c, some (true, ij.1, ij.2))); iexact H

def linear (c : Dev nD) : sProp 𝕄 := iprop(positions c ∗ payToks c)

theorem ghost_intro (K : Dev nD × Kix → ℕ) (c : Dev nD) : iprop(records m K ∗ iprop(linear c ∗ localSems c)) ⊢ G' m c := by
  unfold linear G' ghost
  iintro ⟨#HR, ⟨Hpos, Htok⟩, Hloc⟩
  isplitr [Hloc]
  · iexists K
    isplitr; · iapply (invs_intro m K c); iexact HR
    isplitr; · iapply (reacheds_intro m K c); iexact HR
    isplitl [Hpos]; · iexact Hpos
    iexact Htok
  iexact Hloc

def pswap : Dev nD × (Fin 6 × Fin 4) ≃ Dev nD × (Fin 6 × Fin 4) where
  toFun x := (peer x.2.1 x.1, x.2)
  invFun x := (peer x.2.1 x.1, x.2)
  left_inv x := by show (peer x.2.1 (peer x.2.1 x.1), x.2) = x; rw [peer_peer]
  right_inv x := by show (peer x.2.1 (peer x.2.1 x.1), x.2) = x; rw [peer_peer]

omit [FloatOps F] in

theorem rcv_across : (bigSep Finset.univ fun c : Dev nD => bigSep Finset.univ fun ij : Fin 6 × Fin 4 => (dutyTok ER (kcell (c, some (true, ij))) 0 false : sProp 𝕄))
    = bigSep Finset.univ fun c : Dev nD => bigSep Finset.univ fun ij : Fin 6 × Fin 4 => dutyTok ER (rcvCell (peer ij.1 c) ij.1 ij.2) 0 false :=
  (bigSep_univ_prod (fun x : Dev nD × (Fin 6 × Fin 4) => (dutyTok ER (rcvCell x.1 x.2.1 x.2.2) 0 false : sProp 𝕄))).symm.trans
    ((bigSep_univ_equiv pswap _).trans (bigSep_univ_prod _))

omit [FloatOps F] in

theorem toks_around : (bigSep Finset.univ fun c : Dev nD => (toks c : sProp 𝕄)) ⊢ bigSep Finset.univ fun c : Dev nD => payToks c := by
  have e1 : (bigSep Finset.univ fun c : Dev nD => (toks c : sProp 𝕄))
      = iprop(((bigSep Finset.univ fun c : Dev nD => dutyTok ER (barCell c) 0 false)
          ∗ (bigSep Finset.univ fun c : Dev nD => bigSep Finset.univ fun ij : Fin 6 × Fin 4 => dutyTok ER (kcell (c, some (false, ij))) 0 false)
          ∗ (bigSep Finset.univ fun c : Dev nD => bigSep Finset.univ fun ij : Fin 6 × Fin 4 => dutyTok ER (kcell (c, some (true, ij))) 0 false))
        ∗ bigSep Finset.univ fun c : Dev nD => dutyTok ER (barCell c) 0 true) := by
    unfold toks; simp only [bigSep_kix, bigSep_sep']; rfl
  have e2 : (bigSep Finset.univ fun c : Dev nD => (payToks c : sProp 𝕄))
      = iprop((bigSep Finset.univ fun c : Dev nD => dutyTok ER (barCell (xp c)) 0 false)
          ∗ (bigSep Finset.univ fun c : Dev nD => dutyTok ER (barCell (yp c)) 0 true)
          ∗ (bigSep Finset.univ fun c : Dev nD => bigSep Finset.univ fun ij : Fin 6 × Fin 4 => dutyTok ER (rcvCell (peer ij.1 c) ij.1 ij.2) 0 false)
          ∗ bigSep Finset.univ fun c : Dev nD => bigSep Finset.univ fun ij : Fin 6 × Fin 4 => dutyTok ER (sndCell c ij.1 ij.2) 0 false) := by
    unfold payToks; simp only [bigSep_sep']
  rw [e1, e2, rcv_across, bigSep_univ_equiv xswap (fun c : Dev nD => (dutyTok ER (barCell c) 0 false : sProp 𝕄)),
    bigSep_univ_equiv yswap (fun c : Dev nD => (dutyTok ER (barCell c) 0 true : sProp 𝕄))]
  iintro ⟨⟨HA, HS, HR⟩, HT⟩
  isplitl [HA]; · iexact HA
  isplitl [HT]; · iexact HT
  isplitl [HR]; · iexact HR
  iexact HS

theorem regroup :
    (bigSep Finset.univ fun c : Dev nD => iprop((bigSep Finset.univ fun k : Kix => iprop(∃ κ : ℕ, cellInv ER (rd m) κ (kcell (c, k))))
          ∗ (bigSep Finset.univ fun k : Kix => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Kix => iprop(∃ κ : ℕ, cellInv ER (rd m) κ (kcell ck))),
    bigSep_congr (s := Finset.univ) (fun (c : Dev nD) _ => bigSep_sep' Finset.univ (fun k : Kix => (atPos ER (kcell (c, k)) 0 ∅ 0 : sProp 𝕄)) (fun k => reached ER (kcell (c, k)) 0)),
    bigSep_sep', ← bigSep_univ_prod (fun ck : Dev nD × Kix => (reached ER (kcell ck) 0 : sProp 𝕄))]
  iintro ⟨HI, ⟨Hat, #HR⟩, Htok, Hloc⟩
  ihave HK := (BI.bigSep_exists_pi Finset.univ (fun (ck : Dev nD × Kix) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => linear c) (fun c : Dev nD => localSems c)).symm)
    isplitr [Hloc]
    · iapply (Entails.of_eq (bigSep_sep' Finset.univ (fun c : Dev nD => positions c) (fun c : Dev nD => payToks c)).symm)
      isplitl [Hat]; · iexact Hat
      iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end
-- ==== Proof.LaunchRun.lean ====
import proofs.«901003_g7700000000001004_dist_mlpseq_tp2d_cs_cs_b64_d1024_h2048_v7x_xy2x2_bf16_1_alg».proof.Proof.LaunchGhost
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sepFin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sepFin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem launchCred_rcv (c : Dev nD) (i : Fin 6) (j : Fin 4) :
    (Pipeline.launchCred (fun d : Dev nD => (tallyAt (rcvCell (peer i d) i j) () (amt i) : CellTallies nD τ sig Unit)) c : sProp 𝕄)
      ⊢ cred (tallyAt (rcvCell c i j) () (amt i)) :=
  Pipeline.launchCred_tallyAt (.dma (rcvS i j)) (peer i) (peer i) (peer_peer i) (peer_peer i) () (amt i) c

theorem launchCred_oweX (c : Dev nD) (i : Fin 6) :
    (Pipeline.launchCred (fun d : Dev nD => oweX d i) c : sProp 𝕄)
      ⊢ bigSep Finset.univ fun j : Fin 4 => cred (tallyAt (rcvCell c i j) () (amt i)) := by
  unfold oweX
  rw [Pipeline.launchCred_add, Pipeline.launchCred_add, Pipeline.launchCred_add, sepFin4]
  iintro ⟨⟨⟨H0, H1⟩, H2⟩, H3⟩
  isplitl [H0]; · iapply (launchCred_rcv (F := F) c i 0); iexact H0
  isplitl [H1]; · iapply (launchCred_rcv (F := F) c i 1); iexact H1
  isplitl [H2]; · iapply (launchCred_rcv (F := F) c i 2); iexact H2
  iapply (launchCred_rcv (F := F) c i 3); iexact H3

theorem creds_of_launch (c : Dev nD) : (Pipeline.launchCred O₀ c : sProp 𝕄) ⊢ creds c := by
  show (Pipeline.launchCred (fun d : Dev nD => oweX d 5 + oweX d 4 + oweX d 3 + oweX d 2 + oweX d 1 + oweX d 0
      + tallyAt (barCell (yp d)) () 1 + tallyAt (barCell (xp d)) () 1) c : sProp 𝕄) ⊢ creds c
  rw [Pipeline.launchCred_add, Pipeline.launchCred_add, Pipeline.launchCred_add, Pipeline.launchCred_add, Pipeline.launchCred_add,
    Pipeline.launchCred_add, Pipeline.launchCred_add]
  unfold creds
  rw [bigSep_univ_prod, sepFin6]
  iintro ⟨⟨⟨⟨⟨⟨⟨H5, H4⟩, H3⟩, H2⟩, H1⟩, H0⟩, HY⟩, HX⟩
  isplitl [HY HX]
  · ihave HY' := (Pipeline.launchCred_tallyAt (Val := Elt F) (Name := ℕ) (U := UU) (Lvl := ℕ) (.reg barS) yp yp yp_yp yp_yp () 1 c) $$ HY
    ihave HX' := (Pipeline.launchCred_tallyAt (Val := Elt F) (Name := ℕ) (U := UU) (Lvl := ℕ) (.reg barS) xp xp xp_xp xp_xp () 1 c) $$ HX
    rw [show (tallyAt (barCell c) () 2 : CellTallies nD τ sig Unit) = tallyAt (barCell c) () 1 + tallyAt (barCell c) () 1 from (tallyAt_add _ _ 1 1).symm]
    iapply (cred_add _ _).2
    isplitl [HY'] <;> iassumption
  isplitl [H0]; · iapply (launchCred_oweX (F := F) c 0); iexact H0
  isplitl [H1]; · iapply (launchCred_oweX (F := F) c 1); iexact H1
  isplitl [H2]; · iapply (launchCred_oweX (F := F) c 2); iexact H2
  isplitl [H3]; · iapply (launchCred_oweX (F := F) c 3); iexact H3
  isplitl [H4]; · iapply (launchCred_oweX (F := F) c 4); iexact H4
  iapply (launchCred_oweX (F := F) c 5); iexact H5

theorem oweX_pos {c : Dev nD} {i : Fin 6} {g : GSem nD τ sig} {u : Unit} (h : 0 < oweX c i g u) : ∃ j, g = rcvCell (peer i c) i j := by
  unfold oweX at h
  rcases Pipeline.add_pos_cases h with h | h
  · rcases Pipeline.add_pos_cases h with h | h
    · rcases Pipeline.add_pos_cases h with h | h
      · exact ⟨0, (Pipeline.tallyAt_pos h).1⟩
      · exact ⟨1, (Pipeline.tallyAt_pos h).1⟩
    · exact ⟨2, (Pipeline.tallyAt_pos h).1⟩
  · exact ⟨3, (Pipeline.tallyAt_pos h).1⟩

theorem oweAll_pos {c : Dev nD} {g : GSem nD τ sig} {u : Unit}
    (h : 0 < (oweX c 5 + oweX c 4 + oweX c 3 + oweX c 2 + oweX c 1 + oweX c 0) g u) : ∃ i j, g = rcvCell (peer i c) i j := by
  rcases Pipeline.add_pos_cases h with h | h
  · rcases Pipeline.add_pos_cases h with h | h
    · rcases Pipeline.add_pos_cases h with h | h
      · rcases Pipeline.add_pos_cases h with h | h
        · rcases Pipeline.add_pos_cases h with h | h
          · exact ⟨5, oweX_pos h⟩
          · exact ⟨4, oweX_pos h⟩
        · exact ⟨3, oweX_pos h⟩
      · exact ⟨2, oweX_pos h⟩
    · exact ⟨1, oweX_pos h⟩
  · exact ⟨0, oweX_pos h⟩

theorem O₀_pos {c : Dev nD} {g : GSem nD τ sig} {u : Unit} (h : 0 < O₀ c g u) :
    (∃ i j, g = rcvCell (peer i c) i j) ∨ g = barCell (yp c) ∨ g = barCell (xp c) := by
  unfold O₀ at h
  rcases Pipeline.add_pos_cases h with h | h
  · rcases Pipeline.add_pos_cases h with h | h
    · exact Or.inl (oweAll_pos h)
    · exact Or.inr (Or.inl (Pipeline.tallyAt_pos h).1)
  · exact Or.inr (Or.inr (Pipeline.tallyAt_pos h).1)

theorem mayWait_level (c : Dev nD) (sm : SemLoc sig) (n : ℕ) (hn : lv ((c : Thread nD τ), sm) () = n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [show L g = {()} from if_pos (hO g u hg).1]; exact Finset.mem_singleton.mpr rfl)
    (fun p hp => by rw [Finset.mem_singleton.mp hp]; exact le_of_eq hn)
    (fun g u hg => (hO g u hg).2)

theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine mayWait_level c (.dma q) 0 hq _ fun g u hg => ?_
    cases u
    rcases O₀_pos hg with ⟨i, j, rfl⟩ | rfl | rfl
    · exact ⟨rfl, by rw [lv_rcv]; omega⟩
    · exact ⟨rfl, by rw [lv_bar]; omega⟩
    · exact ⟨rfl, by rw [lv_bar]; omega⟩
  · rw [MayWait_zero]; iintro -; iempintro

theorem lv_stage (c : Dev nD) : lv ((c : Thread nD τ), .dma cc0_sem0_0) () = 0 := by
  unfold lv
  rw [if_neg (fun h => by cases h), show kindOf (SemLoc.dma cc0_sem0_0 : SemLoc sig) = none from by decide]

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> exact lv_stage c) _ (by
      rcases t with ⟨_ | _, ht⟩
      · exact Or.inl rfl
      · exact Or.inr rfl)

theorem share_eq (c : Dev nD) (w : Fin cfg0.W) : (dats m 0 c).share w = fullShare := by unfold Dat.share; split <;> rfl

theorem ptw_eq (c : Dev nD) (b : Ref sig .tc) (f : Buf (Elt F) ((c : Thread nD τ).loc b)) :
    ptw c b f = ((((c : Thread nD τ).loc b) ↦{fullShare} f) : sProp 𝕄) := rfl

def startX (c : Dev nD) : sProp 𝕄 :=
  iprop((∃ K, ghost m K c) ∗ creds c ∗ levAts L lv ∗ localSems c ∗ argsAt m c ∗ (∃ f, ptw c main_v1 f))

def endY (c : Dev nD) : sProp 𝕄 := iprop(argsAt m c ∗ ptw c main_v1 (outA m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  iintro ⟨⟨H1, H2, H3, H4, H5, H6, Hv⟩, Hlev, Hcr, -, HG⟩
  ihave Hc := (creds_of_launch (F := F) c) $$ Hcr
  unfold G'
  icases HG with ⟨Hg, Hls⟩
  imodintro
  unfold startX argsAt
  isplitl
  · isplitl [Hg]; · iexact Hg
    isplitl [Hc]; · iexact Hc
    isplitl [Hlev]; · iexact Hlev
    isplitl [Hls]; · iexact Hls
    isplitl [H1 H2 H3 H4 H5 H6]
    · isplitl [H1]; · iexact H1
      isplitl [H2]; · iexact H2
      isplitl [H3]; · iexact H3
      isplitl [H4]; · iexact H4
      isplitl [H5]; · iexact H5
      iexact H6
    · iexists _; iexact Hv
  · iempintro

theorem phi0_intro (c : Dev nD) :
    iprop(startX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ startX scratchAny
  iintro ⟨⟨Hg, Hcr, Hlev, Hls, Hargs, Hv⟩, -, Hscr⟩
  isplitl [Hg]; · iexact Hg
  isplitl [Hcr]; · iexact Hcr
  isplitl [Hlev]; · iexact Hlev
  isplitl [Hls]; · iexact Hls
  isplitl [Hargs]; · iexact Hargs
  isplitl [Hv]; · iexact Hv
  iexact Hscr

theorem ownSems0_intro (c : Dev nD) :
    iprop((bigSep Finset.univ fun ij : Fin 6 × Fin 4 => iprop(semVal (sndCell c ij.1 ij.2) 0 ∗ semVal (rcvCell c ij.1 ij.2) 0)) ∗ localSems c)
      ⊢ (Pipeline.ownSems0 (Ix := Unit) (Name := ℕ) (U := UU) (Lvl := ℕ) (Val := Elt F) (τ := τ) osem c : sProp 𝕄) := by
  rw [ownSems0_eq, bigSep_sep']
  iintro ⟨⟨HS, HR⟩, HL⟩
  isplitl [HS]; · iexact HS
  isplitl [HR] <;> iassumption

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq]
  unfold Φ₁ endY scratchAny
  iintro ⟨Hsem, Hls, Hargs, Hv, Hscr⟩
  isplitl [Hargs Hv]
  · isplitl [Hargs] <;> iassumption
  isplitl [Hsem Hls]
  · iapply (ownSems0_intro (F := F) c)
    isplitl [Hsem] <;> iassumption
  iexact Hscr

def QY (c : Dev nD) (s : MemSt nD τ sig (Elt F)) : Prop :=
  s.mem ((c.tc : Thread nD τ).loc main_v1) = outA m c
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)

theorem read_back (c : Dev nD) (s' : Phys nD τ sig (Elt F)) :
    iprop(endY m c ∗ emp ∗ SI s') ⊢ |={Set.univ}=> iprop(⌜QY m c s'.mem⌝ ∗ SI s') := by
  unfold endY argsAt
  iintro ⟨⟨⟨H1, H2, H3, H4, H5, H6⟩, Hv⟩, -, HSI⟩
  icombine HSI Hv gives %hv
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ hv, Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

def finalA (c : Dev nD) (w : Fin cfg0.W) : Buf (Elt F) ((cfg0.win w).arr.view.loc (c : Thread nD τ)) := (dats m 0 c).arrAt w cfg0.N

theorem finalA_x (c : Dev nD) : finalA m c (0 : Fin 1) = m (win0_0.arr.view.loc (c : Thread nD τ)) :=
  (dats (F := F) m 0 c).arrAt_in (0 : Fin 1) rfl _

set_option maxRecDepth 65536 in

theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := startX m) (Y := endY m) (Z := fun _ => iprop(emp))
    (hX := start_intro m ρ) (hin := phi0_intro m) (hout := phi1_exit m)
    (QY := QY m)
    (hY := read_back m)
    (hQ := fun s h c => ⟨(h c).2.2.1, ((h c).1 0).trans (finalA_x m c), (h c).2.2.2⟩)

end Cert.KernelIdeal.Hand

end
-- ==== Proof.BaseK.lean ====
import proofs.«901003_g7700000000001004_dist_mlpseq_tp2d_cs_cs_b64_d1024_h2048_v7x_xy2x2_bf16_1_alg».proof.Kernel
import proofs.«901003_g7700000000001004_dist_mlpseq_tp2d_cs_cs_b64_d1024_h2048_v7x_xy2x2_bf16_1_alg».proof.Proof.Gen.Kernel
import proofs.«901003_g7700000000001004_dist_mlpseq_tp2d_cs_cs_b64_d1024_h2048_v7x_xy2x2_bf16_1_alg».proof.Proof.Gen.Kernel.Skeleton
import proofs.«901003_g7700000000001004_dist_mlpseq_tp2d_cs_cs_b64_d1024_h2048_v7x_xy2x2_bf16_1_alg».proof.Proof.Gen.Kernel.Launch
import proofs.«901003_g7700000000001004_dist_mlpseq_tp2d_cs_cs_b64_d1024_h2048_v7x_xy2x2_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool

abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

def xp (c : Dev nD) : Dev nD := ⟨((c.val % 2) + 2) - 2 * (c.val / 2), by have := c.isLt; revert this; generalize c.val = v; decide +revert⟩

def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
@[sl_canon] theorem dev1_eq (c : Dev nD) : (⟨k0_dev1 c, k0_dev1_lt c⟩ : Dev nD) = xp c := Fin.ext (k0_dev1_eq c)
@[sl_canon] theorem dev7_eq (c : Dev nD) : (⟨k0_dev7 c, k0_dev7_lt c⟩ : Dev nD) = xp c := Fin.ext (k0_dev7_eq c)
@[sl_canon] theorem dev8_eq (c : Dev nD) : (⟨k0_dev8 c, k0_dev8_lt c⟩ : Dev nD) = xp c := Fin.ext (k0_dev8_eq c)
@[sl_canon] theorem dev9_eq (c : Dev nD) : (⟨k0_dev9 c, k0_dev9_lt c⟩ : Dev nD) = xp c := Fin.ext (k0_dev9_eq c)
@[sl_canon] theorem dev10_eq (c : Dev nD) : (⟨k0_dev10 c, k0_dev10_lt c⟩ : Dev nD) = xp c := Fin.ext (k0_dev10_eq c)
@[sl_canon] theorem dev15_eq (c : Dev nD) : (⟨k0_dev15 c, k0_dev15_lt c⟩ : Dev nD) = xp c := Fin.ext (k0_dev15_eq c)
@[sl_canon] theorem dev16_eq (c : Dev nD) : (⟨k0_dev16 c, k0_dev16_lt c⟩ : Dev nD) = xp c := Fin.ext (k0_dev16_eq c)
@[sl_canon] theorem dev17_eq (c : Dev nD) : (⟨k0_dev17 c, k0_dev17_lt c⟩ : Dev nD) = xp c := Fin.ext (k0_dev17_eq c)
@[sl_canon] theorem dev18_eq (c : Dev nD) : (⟨k0_dev18 c, k0_dev18_lt c⟩ : Dev nD) = xp c := Fin.ext (k0_dev18_eq c)
@[sl_canon] theorem dev23_eq (c : Dev nD) : (⟨k0_dev23 c, k0_dev23_lt c⟩ : Dev nD) = xp c := Fin.ext (k0_dev23_eq c)
@[sl_canon] theorem dev24_eq (c : Dev nD) : (⟨k0_dev24 c, k0_dev24_lt c⟩ : Dev nD) = xp c := Fin.ext (k0_dev24_eq c)
@[sl_canon] theorem dev25_eq (c : Dev nD) : (⟨k0_dev25 c, k0_dev25_lt c⟩ : Dev nD) = xp c := Fin.ext (k0_dev25_eq c)
@[sl_canon] theorem dev26_eq (c : Dev nD) : (⟨k0_dev26 c, k0_dev26_lt c⟩ : Dev nD) = xp c := Fin.ext (k0_dev26_eq c)
@[sl_canon] theorem dev2_eq (c : Dev nD) : (⟨k0_dev2 c, k0_dev2_lt c⟩ : Dev nD) = yp c := Fin.ext (k0_dev2_eq c)
@[sl_canon] theorem dev3_eq (c : Dev nD) : (⟨k0_dev3 c, k0_dev3_lt c⟩ : Dev nD) = yp c := Fin.ext (k0_dev3_eq c)
@[sl_canon] theorem dev4_eq (c : Dev nD) : (⟨k0_dev4 c, k0_dev4_lt c⟩ : Dev nD) = yp c := Fin.ext (k0_dev4_eq c)
@[sl_canon] theorem dev5_eq (c : Dev nD) : (⟨k0_dev5 c, k0_dev5_lt c⟩ : Dev nD) = yp c := Fin.ext (k0_dev5_eq c)
@[sl_canon] theorem dev6_eq (c : Dev nD) : (⟨k0_dev6 c, k0_dev6_lt c⟩ : Dev nD) = yp c := Fin.ext (k0_dev6_eq c)
@[sl_canon] theorem dev11_eq (c : Dev nD) : (⟨k0_dev11 c, k0_dev11_lt c⟩ : Dev nD) = yp c := Fin.ext (k0_dev11_eq c)
@[sl_canon] theorem dev12_eq (c : Dev nD) : (⟨k0_dev12 c, k0_dev12_lt c⟩ : Dev nD) = yp c := Fin.ext (k0_dev12_eq c)
@[sl_canon] theorem dev13_eq (c : Dev nD) : (⟨k0_dev13 c, k0_dev13_lt c⟩ : Dev nD) = yp c := Fin.ext (k0_dev13_eq c)
@[sl_canon] theorem dev14_eq (c : Dev nD) : (⟨k0_dev14 c, k0_dev14_lt c⟩ : Dev nD) = yp c := Fin.ext (k0_dev14_eq c)
@[sl_canon] theorem dev19_eq (c : Dev nD) : (⟨k0_dev19 c, k0_dev19_lt c⟩ : Dev nD) = yp c := Fin.ext (k0_dev19_eq c)
@[sl_canon] theorem dev20_eq (c : Dev nD) : (⟨k0_dev20 c, k0_dev20_lt c⟩ : Dev nD) = yp c := Fin.ext (k0_dev20_eq c)
@[sl_canon] theorem dev21_eq (c : Dev nD) : (⟨k0_dev21 c, k0_dev21_lt c⟩ : Dev nD) = yp c := Fin.ext (k0_dev21_eq c)
@[sl_canon] theorem dev22_eq (c : Dev nD) : (⟨k0_dev22 c, k0_dev22_lt c⟩ : Dev nD) = yp c := Fin.ext (k0_dev22_eq c)

def xswap : Dev nD ≃ Dev nD := ⟨xp, xp, xp_xp, xp_xp⟩
def yswap : Dev nD ≃ Dev nD := ⟨yp, yp, yp_yp, yp_yp⟩

abbrev barS : Sem sig := (SemArray.scalar (sig.barrier 0 rfl) : Sems sig S_).sem

theorem inb64 (i : Fin 6) (j : Fin 4) : ∀ a, (![i.val, j.val] : Fin 2 → Nat) a + S1x1.size a ≤ S6x4.size a := by
  intro a; have := i.isLt; have := j.isLt
  match a with
  | ⟨0, _⟩ => show i.val + 1 ≤ 6; omega
  | ⟨1, _⟩ => show j.val + 1 ≤ 4; omega

abbrev semAt (A : DmaSems sig S6x4) (i : Fin 6) (j : Fin 4) : DmaSem sig :=
  ((A.slice (Rect.unit (s := S6x4) ![i.val, j.val] S1x1.size (inb64 i j))).squeeze S_ squeezes_S1x1_S_).sem

abbrev sndS (i : Fin 6) (j : Fin 4) : DmaSem sig := semAt cc0_scratch8 i j

abbrev rcvS (i : Fin 6) (j : Fin 4) : DmaSem sig := semAt cc0_scratch9 i j

abbrev barCell (c : Dev nD) : GSem nD τ sig := ((c : Thread nD τ), .reg barS)
abbrev sndCell (c : Dev nD) (i : Fin 6) (j : Fin 4) : GSem nD τ sig := ((c : Thread nD τ), .dma (sndS i j))
abbrev rcvCell (c : Dev nD) (i : Fin 6) (j : Fin 4) : GSem nD τ sig := ((c : Thread nD τ), .dma (rcvS i j))

def peer (i : Fin 6) (c : Dev nD) : Dev nD := if i.val % 2 = 0 then yp c else xp c
theorem peer_peer (i : Fin 6) (c : Dev nD) : peer i (peer i c) = c := by
  unfold peer; split <;> simp [xp_xp, yp_yp]
end Cert.Kernel.Hand

end
-- ==== Proof.ValsK.lean ====
import proofs.«901003_g7700000000001004_dist_mlpseq_tp2d_cs_cs_b64_d1024_h2048_v7x_xy2x2_bf16_1_alg».proof.Proof.BaseK
import Idealize.ShloMosaic.Lib.ValueIdx

noncomputable section

namespace Cert.Kernel.Hand

open Cert.Kernel Cert.Kernel.Gen
open Idealize.ShloMosaic
open Idealize.ShloMosaic.TcCoe
open Idealize.SL.Sem

variable {F : FTy → Type} [FloatOps F]
variable (m : (ℓ : Loc nD τ sig) → Buf (Elt F) ℓ)

def xA (c : Dev nD) : FVec F S64x1024 .f32 := m ((c : Thread nD τ).loc main_arg0)

def winA (l : Fin 3) (c : Dev nD) : FVec F S1024x2048 .f32 :=
  match l with
  | ⟨0, _⟩ => m ((c : Thread nD τ).loc main_arg1)
  | ⟨1, _⟩ => m ((c : Thread nD τ).loc main_arg3)
  | ⟨2, _⟩ => m ((c : Thread nD τ).loc main_arg5)

def woutA (l : Fin 3) (c : Dev nD) : FVec F S2048x1024 .f32 :=
  match l with
  | ⟨0, _⟩ => m ((c : Thread nD τ).loc main_arg2)
  | ⟨1, _⟩ => m ((c : Thread nD τ).loc main_arg4)
  | ⟨2, _⟩ => m ((c : Thread nD τ).loc main_arg6)

def winN (l : Fin 3) (c : Dev nD) : FVec F S1024x2048 .bf16 := truncf .bf16 (winA m l c) bitsLt_bf16_f32
def woutN (l : Fin 3) (c : Dev nD) : FVec F S2048x1024 .bf16 := truncf .bf16 (woutA m l c) bitsLt_bf16_f32

def cols512 {φ : FTy} (V : FVec F S1024x2048 φ) (j : Fin 4) : FVec F S1024x512 φ :=
  fun i => V (ValueIdx.ix2 (n0 := 1024) (n1 := 2048) ⟨(i 0).val, (i 0).isLt⟩ ⟨512 * j.val + (i 1).val, by have := ValueIdx.idx2_lt1 (n0 := 1024) (n1 := 512) i; have := j.isLt; omega⟩)

def rows256 {φ : FTy} (V : FVec F S1024x2048 φ) (j : Fin 4) : FVec F S256x2048 φ :=
  fun i => V (ValueIdx.ix2 (n0 := 1024) (n1 := 2048) ⟨256 * j.val + (i 0).val, by have := ValueIdx.idx2_lt0 (n0 := 256) (n1 := 2048) i; have := j.isLt; omega⟩ ⟨(i 1).val, (i 1).isLt⟩)

def rows512 {φ : FTy} (V : FVec F S2048x1024 φ) (j : Fin 4) : FVec F S512x1024 φ :=
  fun i => V (ValueIdx.ix2 (n0 := 2048) (n1 := 1024) ⟨512 * j.val + (i 0).val, by have := ValueIdx.idx2_lt0 (n0 := 512) (n1 := 1024) i; have := j.isLt; omega⟩ ⟨(i 1).val, (i 1).isLt⟩)

def cut512 (X : FVec F S64x2048 .f32) (j : Fin 4) : FVec F S64x512 .f32 :=
  match j with
  | ⟨0, _⟩ => extractStridedSlice S64x512 ![0, 0] X slices_S64x2048_o0_0_S64x512
  | ⟨1, _⟩ => extractStridedSlice S64x512 ![0, 512] X slices_S64x2048_o0_512_S64x512
  | ⟨2, _⟩ => extractStridedSlice S64x512 ![0, 1024] X slices_S64x2048_o0_1024_S64x512
  | ⟨3, _⟩ => extractStridedSlice S64x512 ![0, 1536] X slices_S64x2048_o0_1536_S64x512

def cut256 (X : FVec F S64x1024 .f32) (j : Fin 4) : FVec F S64x256 .f32 :=
  match j with
  | ⟨0, _⟩ => extractStridedSlice S64x256 ![0, 0] X slices_S64x1024_o0_0_S64x256
  | ⟨1, _⟩ => extractStridedSlice S64x256 ![0, 256] X slices_S64x1024_o0_256_S64x256
  | ⟨2, _⟩ => extractStridedSlice S64x256 ![0, 512] X slices_S64x1024_o0_512_S64x256
  | ⟨3, _⟩ => extractStridedSlice S64x256 ![0, 768] X slices_S64x1024_o0_768_S64x256

def sum4 {s : Shape} (t : Fin 4 → FVec F s .f32) : FVec F s .f32 := addf (addf (addf (t 0) (t 1)) (t 2)) (t 3)

def hpFirst (c : Dev nD) (j : Fin 4) : FVec F S64x512 .f32 :=
  matmul dot_S64x1024_S1024x512_S64x512_1_0_0_1_n_n none (truncf .bf16 (xA m c) bitsLt_bf16_f32) (cols512 (winN m 0 c) j) (constant S64x512 .f32 0x00000000#32)

def hpLater (l : Fin 3) (A : Dev nD → Fin 4 → FVec F S64x256 .f32) (c : Dev nD) (j : Fin 4) : FVec F S64x512 .f32 :=
  cut512 (sum4 fun k => matmul dot_S64x256_S256x2048_S64x2048_1_0_0_1_n_n none (truncf .bf16 (A c k) bitsLt_bf16_f32) (rows256 (winN m l c) k) (constant S64x2048 .f32 0x00000000#32)) j

def hSent (hp : Dev nD → Fin 4 → FVec F S64x512 .f32) (c : Dev nD) (j : Fin 4) : FVec F S64x512 .bf16 := truncf .bf16 (hp c j) bitsLt_bf16_f32

def hid (hp : Dev nD → Fin 4 → FVec F S64x512 .f32) (c : Dev nD) (j : Fin 4) : FVec F S64x512 .bf16 :=
  truncf .bf16 (maximumf (addf (hp c j) (extf .f32 (hSent hp (yp c) j) bitsLt_bf16_f32)) (broadcast S64x512 (Scalar.ofBits .f32 0x00000000#32))) bitsLt_bf16_f32

def gpFull (l : Fin 3) (hp : Dev nD → Fin 4 → FVec F S64x512 .f32) (c : Dev nD) : FVec F S64x1024 .f32 :=
  sum4 fun k => matmul dot_S64x512_S512x1024_S64x1024_1_0_0_1_n_n none (hid hp c k) (rows512 (woutN m l c) k) (constant S64x1024 .f32 0x00000000#32)

def gSent (l : Fin 3) (hp : Dev nD → Fin 4 → FVec F S64x512 .f32) (c : Dev nD) (j : Fin 4) : FVec F S64x256 .bf16 :=
  truncf .bf16 (cut256 (gpFull m l hp c) j) bitsLt_bf16_f32

def layerOut (l : Fin 3) (hp : Dev nD → Fin 4 → FVec F S64x512 .f32) (c : Dev nD) (j : Fin 4) : FVec F S64x256 .f32 :=
  addf (cut256 (gpFull m l hp c) j) (extf .f32 (gSent m l hp (xp c) j) bitsLt_bf16_f32)

def hp0 : Dev nD → Fin 4 → FVec F S64x512 .f32 := hpFirst m
def acc0 : Dev nD → Fin 4 → FVec F S64x256 .f32 := layerOut m 0 (hp0 m)
def hp1 : Dev nD → Fin 4 → FVec F S64x512 .f32 := hpLater m 1 (acc0 m)
def acc1 : Dev nD → Fin 4 → FVec F S64x256 .f32 := layerOut m 1 (hp1 m)
def hp2 : Dev nD → Fin 4 → FVec F S64x512 .f32 := hpLater m 2 (acc1 m)
def acc2 : Dev nD → Fin 4 → FVec F S64x256 .f32 := layerOut m 2 (hp2 m)

def hpL (l : Fin 3) : Dev nD → Fin 4 → FVec F S64x512 .f32 :=
  match l with | ⟨0, _⟩ => hp0 m | ⟨1, _⟩ => hp1 m | ⟨2, _⟩ => hp2 m

def hLanded (l : Fin 3) (c : Dev nD) (j : Fin 4) : FVec F S64x512 .bf16 := hSent (hpL m l) (yp c) j

def gLanded (l : Fin 3) (c : Dev nD) (j : Fin 4) : FVec F S64x256 .bf16 := gSent m l (hpL m l) (xp c) j

def outA (c : Dev nD) : FVec F S64x1024 .f32 :=
  fun i => acc2 m c ⟨(i 1).val / 256, by have := ValueIdx.idx2_lt1 (n0 := 64) (n1 := 1024) i; omega⟩
    (ValueIdx.ix2 (n0 := 64) (n1 := 256) ⟨(i 0).val, (i 0).isLt⟩ ⟨(i 1).val % 256, Nat.mod_lt _ (by decide)⟩)

end Cert.Kernel.Hand

end
-- ==== Proof.SchedK.lean ====
import proofs.«901003_g7700000000001004_dist_mlpseq_tp2d_cs_cs_b64_d1024_h2048_v7x_xy2x2_bf16_1_alg».proof.Proof.ValsK

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inbH (l : Fin 3) (j : Fin 4) : ∀ a, (![l.val, 0, 512 * j.val] : Fin 3 → Nat) a + S1x64x512.size a ≤ S3x64x2048.size a := by
  intro a; have := l.isLt; have := j.isLt
  match a with
  | ⟨0, _⟩ => show l.val + 1 ≤ 3; omega
  | ⟨1, _⟩ => show 0 + 64 ≤ 64; omega
  | ⟨2, _⟩ => show 512 * j.val + 512 ≤ 2048; omega
theorem inbG (l : Fin 3) (j : Fin 4) : ∀ a, (![l.val, 0, 256 * j.val] : Fin 3 → Nat) a + S1x64x256.size a ≤ S3x64x1024.size a := by
  intro a; have := l.isLt; have := j.isLt
  match a with
  | ⟨0, _⟩ => show l.val + 1 ≤ 3; omega
  | ⟨1, _⟩ => show 0 + 64 ≤ 64; omega
  | ⟨2, _⟩ => show 256 * j.val + 256 ≤ 1024; omega

abbrev hsM (l : Fin 3) (j : Fin 4) : Memref sig .tc .vmem S64x512 .bf16 :=
  ((Memref.whole cc0_scratch4).slice (Rect.unit (s := S3x64x2048) ![l.val, 0, 512 * j.val] S1x64x512.size (inbH l j)) (fun _ => rfl)).squeeze S64x512 squeezes_S1x64x512_S64x512
abbrev hrM (l : Fin 3) (j : Fin 4) : Memref sig .tc .vmem S64x512 .bf16 :=
  ((Memref.whole cc0_scratch5).slice (Rect.unit (s := S3x64x2048) ![l.val, 0, 512 * j.val] S1x64x512.size (inbH l j)) (fun _ => rfl)).squeeze S64x512 squeezes_S1x64x512_S64x512
abbrev gsM (l : Fin 3) (j : Fin 4) : Memref sig .tc .vmem S64x256 .bf16 :=
  ((Memref.whole cc0_scratch6).slice (Rect.unit (s := S3x64x1024) ![l.val, 0, 256 * j.val] S1x64x256.size (inbG l j)) (fun _ => rfl)).squeeze S64x256 squeezes_S1x64x256_S64x256
abbrev grM (l : Fin 3) (j : Fin 4) : Memref sig .tc .vmem S64x256 .bf16 :=
  ((Memref.whole cc0_scratch7).slice (Rect.unit (s := S3x64x1024) ![l.val, 0, 256 * j.val] S1x64x256.size (inbG l j)) (fun _ => rfl)).squeeze S64x256 squeezes_S1x64x256_S64x256

abbrev Nh : ℕ := (hrM 0 0).view.dmaCredit
abbrev Ng : ℕ := (grM 0 0).view.dmaCredit
theorem Nh_pos : 0 < Nh := View.dmaCredit_pos _ (by decide)
theorem Ng_pos : 0 < Ng := View.dmaCredit_pos _ (by decide)

def lay (i : Fin 6) : Fin 3 := ⟨i.val / 2, by have := i.isLt; omega⟩

abbrev isH (i : Fin 6) : Prop := i.val % 2 = 0

def exH (l : Fin 3) : Fin 6 := ⟨2 * l.val, by have := l.isLt; omega⟩
def exG (l : Fin 3) : Fin 6 := ⟨2 * l.val + 1, by have := l.isLt; omega⟩

def heldS (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

def heldAt (c : Dev nD) {sp : Space} {S : Shape} {e : EltTy} (M : Memref sig .tc sp S e) (v : S.Idx → Elt F e) : sProp 𝕄 :=
  iprop(∃ f : Buf (Elt F) (M.view.loc (c : Thread nD τ)), (M.view.loc (c : Thread nD τ) ↦[M.view.set]{fullShare} f) ∗ ⌜M.view.read (Elt F) f = v⌝)

instance heldS_storable (c : Dev nD) {sp : Space} {S : Shape} {e : EltTy} (M : Memref sig .tc sp S e) : BI.Storable (upEmb : UEmb _ 𝕄) (heldS (F := F) c M) := by
  unfold heldS; infer_instance
instance heldAt_storable (c : Dev nD) {sp : Space} {S : Shape} {e : EltTy} (M : Memref sig .tc sp S e) (v : S.Idx → Elt F e) : BI.Storable (upEmb : UEmb _ 𝕄) (heldAt c M v) := by
  unfold heldAt; infer_instance

def sndPay (c : Dev nD) (i : Fin 6) (j : Fin 4) : sProp 𝕄 :=
  if isH i then heldS c (hsM (lay i) j) else heldS c (gsM (lay i) j)

def rcvPay (c : Dev nD) (i : Fin 6) (j : Fin 4) : sProp 𝕄 :=
  if isH i then heldAt c (hrM (lay i) j) (hLanded m (lay i) c j) else heldAt c (grM (lay i) j) (gLanded m (lay i) c j)

def barPay (d : Dev nD) (b : Bool) : sProp 𝕄 :=
  if b then iprop((bigSep Finset.univ fun lj : Fin 3 × Fin 4 => heldS (yp d) (hrM lj.1 lj.2))
              ∗ bigSep Finset.univ fun lj : Fin 3 × Fin 4 => reached ER (rcvCell (yp d) (exH lj.1) lj.2) 0)
  else iprop((bigSep Finset.univ fun lj : Fin 3 × Fin 4 => heldS (xp d) (grM lj.1 lj.2))
              ∗ bigSep Finset.univ fun lj : Fin 3 × Fin 4 => reached ER (rcvCell (xp d) (exG lj.1) lj.2) 0)

instance sndPay_storable (c : Dev nD) (i : Fin 6) (j : Fin 4) : BI.Storable (upEmb : UEmb _ 𝕄) (sndPay (F := F) c i j) := by
  unfold sndPay; split <;> infer_instance
instance rcvPay_storable (c : Dev nD) (i : Fin 6) (j : Fin 4) : BI.Storable (upEmb : UEmb _ 𝕄) (rcvPay m c i j) := by
  unfold rcvPay; split <;> infer_instance
instance barPay_storable (d : Dev nD) (b : Bool) : BI.Storable (upEmb : UEmb _ 𝕄) (barPay (F := F) d b) := by
  unfold barPay; split <;> infer_instance

def semOf (k : Bool × Fin 6 × Fin 4) : SemLoc sig := .dma (if k.1 then rcvS k.2.1 k.2.2 else sndS k.2.1 k.2.2)

def allK : List (Bool × Fin 6 × Fin 4) :=
  (List.finRange 6).flatMap fun i => (List.finRange 4).flatMap fun j => [(false, i, j), (true, i, j)]

def kindOf (s : SemLoc sig) : Option (Bool × Fin 6 × Fin 4) := allK.find? fun k => decide (semOf k = s)

theorem kindOf_semOf : ∀ k, kindOf (semOf k) = some k := by decide
theorem kindOf_bar : kindOf (SemLoc.reg barS : SemLoc sig) = none := by decide
theorem kindOf_snd (i : Fin 6) (j : Fin 4) : kindOf (SemLoc.dma (sndS i j) : SemLoc sig) = some (false, i, j) := kindOf_semOf (false, i, j)
theorem kindOf_rcv (i : Fin 6) (j : Fin 4) : kindOf (SemLoc.dma (rcvS i j) : SemLoc sig) = some (true, i, j) := kindOf_semOf (true, i, j)
theorem snd_ne_bar (i : Fin 6) (j : Fin 4) : (SemLoc.dma (sndS i j) : SemLoc sig) ≠ .reg barS := fun h => by cases h
theorem rcv_ne_bar (i : Fin 6) (j : Fin 4) : (SemLoc.dma (rcvS i j) : SemLoc sig) ≠ .reg barS := fun h => by cases h

def amt (i : Fin 6) : ℕ := if isH i then Nh else Ng
theorem amt_pos (i : Fin 6) : 0 < amt i := by unfold amt; split; exact Nh_pos; exact Ng_pos

def rd : Rounds.Schedule (GSem nD τ sig) Bool 𝕄 where
  duties g r :=
    if r = 0 ∧ g.1.2 = .tc then (if g.2 = .reg barS then Finset.univ else if (kindOf g.2).isSome then {false} else ∅) else ∅
  unitless _ := False
  amount g _ _ := match kindOf g.2 with | some k => amt k.2.1 | none => 1
  payload g _ d :=
    if g.2 = .reg barS then barPay g.1.1 d
    else match kindOf g.2 with
      | some (false, i, j) => sndPay g.1.1 i j
      | some (true, i, j) => rcvPay m g.1.1 i j
      | none => iprop(emp)
  amount_pos g _ _ _ := by
    cases h : kindOf g.2 with
    | none => exact Nat.one_pos
    | some k => exact amt_pos _

instance rd_payload_storable (g : GSem nD τ sig) (r : ℕ) (d : Bool) : BI.Storable (upEmb : UEmb _ 𝕄) ((rd (F := F) m).payload g r d) := by
  show BI.Storable upEmb (if g.2 = .reg barS then barPay g.1.1 d else match kindOf g.2 with
      | some (false, i, j) => sndPay g.1.1 i j | some (true, i, j) => rcvPay m g.1.1 i j | none => iprop(emp))
  split
  · infer_instance
  · split <;> infer_instance

section Tables
variable (c : Dev nD) (i : Fin 6) (j : Fin 4)

theorem duties_bar : (rd (F := F) m).duties (barCell c) 0 = Finset.univ := by
  dsimp only [rd]; rw [if_pos ⟨rfl, rfl⟩, if_pos rfl]
theorem duties_snd : (rd (F := F) m).duties (sndCell c i j) 0 = {false} := by
  dsimp only [rd]; rw [if_pos ⟨rfl, rfl⟩, if_neg (snd_ne_bar i j), kindOf_snd]; rfl
theorem duties_rcv : (rd (F := F) m).duties (rcvCell c i j) 0 = {false} := by
  dsimp only [rd]; rw [if_pos ⟨rfl, rfl⟩, if_neg (rcv_ne_bar i j), kindOf_rcv]; rfl
theorem duties_later (g : GSem nD τ sig) : ∀ r, 1 ≤ r → (rd (F := F) m).duties g r = ∅ :=
  fun r hr => by dsimp only [rd]; exact if_neg fun h => by omega

theorem amount_bar (d : Bool) : (rd (F := F) m).amount (barCell c) 0 d = 1 := by dsimp only [rd]; rw [kindOf_bar]
theorem amount_snd (d : Bool) : (rd (F := F) m).amount (sndCell c i j) 0 d = amt i := by dsimp only [rd]; rw [kindOf_snd]
theorem amount_rcv (d : Bool) : (rd (F := F) m).amount (rcvCell c i j) 0 d = amt i := by dsimp only [rd]; rw [kindOf_rcv]

theorem expect_bar : (rd (F := F) m).expect (barCell c) 0 = 2 := by
  unfold Schedule.expect Schedule.amountOf; rw [duties_bar, Finset.sum_congr rfl fun d _ => amount_bar m c d]; decide
theorem expect_snd : (rd (F := F) m).expect (sndCell c i j) 0 = amt i := by
  unfold Schedule.expect Schedule.amountOf; rw [duties_snd, Finset.sum_singleton, amount_snd]
theorem expect_rcv : (rd (F := F) m).expect (rcvCell c i j) 0 = amt i := by
  unfold Schedule.expect Schedule.amountOf; rw [duties_rcv, Finset.sum_singleton, amount_rcv]

theorem payload_bar (d : Bool) : (rd (F := F) m).payload (barCell c) 0 d = barPay c d := by dsimp only [rd]; rw [if_pos rfl]
theorem payload_snd (d : Bool) : (rd (F := F) m).payload (sndCell c i j) 0 d = sndPay c i j := by
  dsimp only [rd]; rw [if_neg (snd_ne_bar i j), kindOf_snd]
theorem payload_rcv (d : Bool) : (rd (F := F) m).payload (rcvCell c i j) 0 d = rcvPay m c i j := by
  dsimp only [rd]; rw [if_neg (rcv_ne_bar i j), kindOf_rcv]

theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide)]
  simp only [payload_bar]; rfl
theorem rest_snd : bigSep ((rd (F := F) m).duties (sndCell c i j) 0 \ ∅) (fun d => (rd (F := F) m).payload (sndCell c i j) 0 d) = sndPay c i j := by
  rw [Finset.sdiff_empty, duties_snd, bigSep_singleton, payload_snd]
theorem rest_rcv : bigSep ((rd (F := F) m).duties (rcvCell c i j) 0 \ ∅) (fun d => (rd (F := F) m).payload (rcvCell c i j) 0 d) = rcvPay m c i j := by
  rw [Finset.sdiff_empty, duties_rcv, bigSep_singleton, payload_rcv]

end Tables

end Cert.Kernel.Hand

end
-- ==== Proof.GhostK.lean ====
import proofs.«901003_g7700000000001004_dist_mlpseq_tp2d_cs_cs_b64_d1024_h2048_v7x_xy2x2_bf16_1_alg».proof.Proof.SchedK

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def oweX (c : Dev nD) (i : Fin 6) : CellTallies nD τ sig Unit :=
  tallyAt (rcvCell (peer i c) i 0) () (amt i) + tallyAt (rcvCell (peer i c) i 1) () (amt i)
    + tallyAt (rcvCell (peer i c) i 2) () (amt i) + tallyAt (rcvCell (peer i c) i 3) () (amt i)

def O₀ (c : Dev nD) : CellTallies nD τ sig Unit :=
  oweX c 5 + oweX c 4 + oweX c 3 + oweX c 2 + oweX c 1 + oweX c 0 + tallyAt (barCell (yp c)) () 1 + tallyAt (barCell (xp c)) () 1

def L (g : GSem nD τ sig) : Finset Unit := if g.1.2 = .tc then {()} else ∅
def lv (g : GSem nD τ sig) (_ : Unit) : ℕ :=
  if g.2 = .reg barS then 1 else match kindOf g.2 with | some (true, i, _) => 2 + i.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [if_pos rfl]
theorem lv_rcv (c : Dev nD) (i : Fin 6) (j : Fin 4) : lv (rcvCell c i j) () = 2 + i.val := by
  unfold lv; rw [if_neg (rcv_ne_bar i j), kindOf_rcv]
theorem lv_snd (c : Dev nD) (i : Fin 6) (j : Fin 4) : lv (sndCell c i j) () = 0 := by
  unfold lv; rw [if_neg (snd_ne_bar i j), kindOf_snd]

abbrev Kix : Type := Option (Bool × Fin 6 × Fin 4)
def csem : Kix → SemLoc sig
  | none => .reg barS
  | some k => semOf k
abbrev kcell (ck : Dev nD × Kix) : GSem nD τ sig := ((ck.1 : Thread nD τ), csem ck.2)

def invs (K : Dev nD × Kix → ℕ) (c : Dev nD) : sProp 𝕄 :=
  iprop((bigSep Finset.univ fun k : Kix => cellInv ER (rd m) (K (c, k)) (kcell (c, k)))
    ∗ cellInv ER (rd m) (K (xp c, none)) (barCell (xp c)) ∗ cellInv ER (rd m) (K (yp c, none)) (barCell (yp c))
    ∗ bigSep Finset.univ fun ij : Fin 6 × Fin 4 => cellInv ER (rd m) (K (peer ij.1 c, some (true, ij.1, ij.2))) (rcvCell (peer ij.1 c) ij.1 ij.2))

instance invs_persistent (K : Dev nD × Kix → ℕ) (c : Dev nD) : BI.Persistent (invs m K c) := by unfold invs; infer_instance

def reacheds (c : Dev nD) : sProp 𝕄 :=
  iprop(reached ER (barCell (xp c)) 0 ∗ reached ER (barCell (yp c)) 0
    ∗ (bigSep Finset.univ fun ij : Fin 6 × Fin 4 => reached ER (rcvCell (peer ij.1 c) ij.1 ij.2) 0)
    ∗ (bigSep Finset.univ fun ij : Fin 6 × Fin 4 => reached ER (sndCell c ij.1 ij.2) 0)
    ∗ (bigSep Finset.univ fun ij : Fin 6 × Fin 4 => reached ER (rcvCell c ij.1 ij.2) 0))

instance reacheds_persistent (c : Dev nD) : BI.Persistent (reacheds (F := F) c) := by unfold reacheds; infer_instance

def payToks (c : Dev nD) : sProp 𝕄 :=
  iprop(dutyTok ER (barCell (xp c)) 0 false ∗ dutyTok ER (barCell (yp c)) 0 true
    ∗ (bigSep Finset.univ fun ij : Fin 6 × Fin 4 => dutyTok ER (rcvCell (peer ij.1 c) ij.1 ij.2) 0 false)
    ∗ (bigSep Finset.univ fun ij : Fin 6 × Fin 4 => dutyTok ER (sndCell c ij.1 ij.2) 0 false))

def positions (c : Dev nD) : sProp 𝕄 := bigSep Finset.univ fun k : Kix => atPos ER (kcell (c, k)) 0 ∅ 0

def ghost (K : Dev nD × Kix → ℕ) (c : Dev nD) : sProp 𝕄 :=
  iprop(invs m K c ∗ reacheds c ∗ positions c ∗ payToks c)

def creds (c : Dev nD) : sProp 𝕄 :=
  iprop(cred (tallyAt (barCell c) () 2) ∗ bigSep Finset.univ fun ij : Fin 6 × Fin 4 => cred (tallyAt (rcvCell c ij.1 ij.2) () (amt ij.1)))

abbrev s2a (A : DmaSems sig S2) : DmaSem sig := ((A.slice (Rect.unit (s := S2) ![0] S1.size inb_S2_S1_0)).squeeze S_ squeezes_S1_S_).sem
abbrev s2b (A : DmaSems sig S2) : DmaSem sig := ((A.slice (Rect.unit (s := S2) ![1] S1.size inb_S2_S1_1)).squeeze S_ squeezes_S1_S_).sem
theorem inb4 (j : Fin 4) : ∀ a, (![j.val] : Fin 1 → Nat) a + S1.size a ≤ S4.size a := by
  intro a; have := j.isLt; match a with | ⟨0, _⟩ => show j.val + 1 ≤ 4; omega
abbrev s4 (j : Fin 4) : DmaSem sig := ((cc0_scratch14.slice (Rect.unit (s := S4) ![j.val] S1.size (inb4 j))).squeeze S_ squeezes_S1_S_).sem

abbrev lsem (c : Dev nD) (s : DmaSem sig) : sProp 𝕄 := semVal (((c : Thread nD τ), .dma s) : GSem nD τ sig) 0

def localSems (c : Dev nD) : sProp 𝕄 :=
  iprop(lsem c (s2a cc0_scratch10) ∗ lsem c (s2b cc0_scratch10) ∗ lsem c (s2a cc0_scratch11) ∗ lsem c (s2b cc0_scratch11)
    ∗ lsem c (s2a cc0_scratch12) ∗ lsem c (s2b cc0_scratch12) ∗ lsem c (s4 0) ∗ lsem c (s4 1) ∗ lsem c (s4 2) ∗ lsem c (s4 3))

abbrev ptw (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦{fullShare} f

def argsAt (c : Dev nD) : sProp 𝕄 :=
  iprop(ptw c main_arg1 (m ((c : Thread nD τ).loc main_arg1)) ∗ ptw c main_arg2 (m ((c : Thread nD τ).loc main_arg2))
    ∗ ptw c main_arg3 (m ((c : Thread nD τ).loc main_arg3)) ∗ ptw c main_arg4 (m ((c : Thread nD τ).loc main_arg4))
    ∗ ptw c main_arg5 (m ((c : Thread nD τ).loc main_arg5)) ∗ ptw c main_arg6 (m ((c : Thread nD τ).loc main_arg6)))

def scratchAny (c : Dev nD) : sProp 𝕄 :=
  iprop((∃ f, ptw c cc0_scratch0 f) ∗ (∃ f, ptw c cc0_scratch1 f) ∗ (∃ f, ptw c cc0_scratch2 f) ∗ (∃ f, ptw c cc0_scratch3 f)
    ∗ (∃ f, ptw c cc0_scratch4 f) ∗ (∃ f, ptw c cc0_scratch5 f) ∗ (∃ f, ptw c cc0_scratch6 f) ∗ (∃ f, ptw c cc0_scratch7 f)
    ∗ (∃ f, ptw c cc0_scratch13 f))

def Φ₀ (c : Dev nD) : sProp 𝕄 :=
  iprop((∃ K, ghost m K c) ∗ creds c ∗ levAts L lv ∗ localSems c ∗ argsAt m c ∗ (∃ f, ptw c main_v1 f) ∗ scratchAny c)

def Φ₁ (c : Dev nD) : sProp 𝕄 :=
  iprop((bigSep Finset.univ fun ij : Fin 6 × Fin 4 => iprop(semVal (sndCell c ij.1 ij.2) 0 ∗ semVal (rcvCell c ij.1 ij.2) 0))
    ∗ localSems c ∗ argsAt m c ∗ ptw c main_v1 (outA m c) ∗ scratchAny c)

def xstg (c : Dev nD) : (cc0_stg0_0 : Ref sig .tc).ty.Contents (Elt F) :=
  (win0_0.blk (0 : Fin 1)).view.read (Elt F) (m ((c : Thread nD τ).loc main_arg0))

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Hand

end
-- ==== Proof.LaunchGhostK.lean ====
import proofs.«901003_g7700000000001004_dist_mlpseq_tp2d_cs_cs_b64_d1024_h2048_v7x_xy2x2_bf16_1_alg».proof.Proof.GhostK
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 58 → SemLoc sig := fun k => .dma ⟨k.val + 1, by have := k.isLt; show k.val + 1 < 59; omega⟩

theorem ownSemFacts : Pipeline.OwnSemFacts cfg0.spec osem := by decide

theorem kindOf_csem (k : Kix) : kindOf (csem k) = k := by
  cases k with
  | none => exact kindOf_bar
  | some k => exact kindOf_semOf k

theorem kcell_injective : Function.Injective (kcell : Dev nD × Kix → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by rw [← kindOf_csem k, ← kindOf_csem k', h2]
  subst this; rfl

def protoCells : Finset (GSem nD τ sig) := Finset.univ.map ⟨kcell, kcell_injective⟩

def tokOf (x : Dev nD × (Kix ⊕ Unit)) : GSem nD τ sig × ℕ × Bool := match x.2 with
  | .inl k => (kcell (x.1, k), 0, false)
  | .inr _ => (barCell x.1, 0, true)

theorem tokOf_injective : Function.Injective (tokOf : Dev nD × (Kix ⊕ Unit) → GSem nD τ sig × ℕ × Bool) := by
  rintro ⟨c, x⟩ ⟨c', x'⟩ h
  cases x with
  | inl k =>
    cases x' with
    | inl k' =>
      have := kcell_injective (congrArg Prod.fst h)
      cases this; rfl
    | inr u' => have h' : false = true := congrArg (fun t : GSem nD τ sig × ℕ × Bool => t.2.2) h; cases h'
  | inr u =>
    cases x' with
    | inl k' => have h' : true = false := congrArg (fun t : GSem nD τ sig × ℕ × Bool => t.2.2) h; cases h'
    | inr u' =>
      have h1 : c = c' := congrArg (fun t : GSem nD τ sig × ℕ × Bool => t.1.1.1) h
      subst h1; rfl

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((bigSep Finset.univ fun k : Kix => dutyTok ER (kcell (c, k)) 0 false) ∗ dutyTok ER (barCell c) 0 true)

def G (c : Dev nD) : sProp 𝕄 :=
  iprop((bigSep Finset.univ fun k : Kix => roundState ER (rd m) (kcell (c, k)) 0)
    ∗ (bigSep Finset.univ fun k : Kix => iprop(atPos ER (kcell (c, k)) 0 ∅ 0 ∗ reached ER (kcell (c, k)) 0)) ∗ toks c)

omit [FloatOps F] in

theorem bigSep_kix (Φ : Kix → sProp 𝕄) :
    bigSep Finset.univ Φ = iprop(Φ none ∗ (bigSep Finset.univ fun ij : Fin 6 × Fin 4 => Φ (some (false, ij)))
      ∗ bigSep Finset.univ fun ij : Fin 6 × Fin 4 => Φ (some (true, ij))) := by
  rw [bigSep_univ_equiv (Equiv.optionEquivSumPUnit.{0, 0} (Bool × Fin 6 × Fin 4)).symm Φ, bigSep_univ_sum,
    bigSep_univ_of_subsingleton PUnit.unit, bigSep_univ_prod,
    bigSep_univ_eq_bigSepL [false, true] (by decide) (by decide)]
  exact Std.Commutative.comm (op := (BI.sep : sProp 𝕄 → sProp 𝕄 → sProp 𝕄)) _ _

omit [FloatOps F] in

theorem bigSep_sum_unit {A : Type} [Fintype A] (Φ : A ⊕ Unit → sProp 𝕄) :
    bigSep Finset.univ Φ = iprop((bigSep Finset.univ fun a => Φ (.inl a)) ∗ Φ (.inr ())) := by
  rw [bigSep_univ_sum, bigSep_univ_of_subsingleton ()]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Kix => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_sum_unit]; rfl
  iintro HX
  imod (Rounds.fund ER (rd m) protoCells protoToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HR⟩
  ihave H2 := (own_pair_emb embR _ _) $$ HR
  icases H2 with ⟨HX, -⟩
  imod (fund_proto m) $$ HX with HG
  imodintro
  isplitl [HP] <;> iassumption

def G' (c : Dev nD) : sProp 𝕄 := iprop((∃ K, ghost m K c) ∗ localSems c)

def ownEquiv : (Fin 6 × Fin 4) ⊕ ((Fin 6 × Fin 4) ⊕ Fin 10) ≃ Fin 58 :=
  (Equiv.sumCongr finProdFinEquiv (Equiv.sumCongr finProdFinEquiv (Equiv.refl (Fin 10)))).trans
    ((Equiv.sumCongr (Equiv.refl (Fin (6 * 4))) finSumFinEquiv).trans finSumFinEquiv)

def locS : Fin 10 → DmaSem sig
  | 0 => s2a cc0_scratch10 | 1 => s2b cc0_scratch10 | 2 => s2a cc0_scratch11 | 3 => s2b cc0_scratch11
  | 4 => s2a cc0_scratch12 | 5 => s2b cc0_scratch12 | 6 => s4 0 | 7 => s4 1 | 8 => s4 2 | 9 => s4 3

theorem osem_snd : ∀ ij : Fin 6 × Fin 4, osem (ownEquiv (.inl ij)) = .dma (sndS ij.1 ij.2) := by decide
theorem osem_rcv : ∀ ij : Fin 6 × Fin 4, osem (ownEquiv (.inr (.inl ij))) = .dma (rcvS ij.1 ij.2) := by decide
theorem osem_loc : ∀ t : Fin 10, osem (ownEquiv (.inr (.inr t))) = .dma (locS t) := by decide

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in

theorem ownSems0_eq (c : Dev nD) : (Pipeline.ownSems0 (Ix := Unit) (Name := ℕ) (U := UU) (Lvl := ℕ) (Val := Elt F) (τ := τ) osem c : sProp 𝕄)
    = iprop((bigSep Finset.univ fun ij : Fin 6 × Fin 4 => semVal (sndCell c ij.1 ij.2) 0)
        ∗ (bigSep Finset.univ fun ij : Fin 6 × Fin 4 => semVal (rcvCell c ij.1 ij.2) 0) ∗ localSems c) := by
  unfold Pipeline.ownSems0
  rw [bigSep_univ_equiv ownEquiv, bigSep_univ_sum, bigSep_univ_sum, bigSep_fin10]
  simp only [osem_snd, osem_rcv, osem_loc]
  rfl

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Kix => semVal (kcell (c, k)) 0) ∗ localSems c) : sProp 𝕄) := by
  rw [ownSems0_eq, unscopedSems0_eq, bigSep_kix]
  iintro ⟨⟨HS, HV, HL⟩, HB⟩
  isplitr [HL]
  · isplitl [HB]; · iexact HB
    isplitl [HS]; · iexact HS
    iexact HV
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kix => iprop(∃ κ : ℕ, cellInv ER (rd m) κ (kcell (c, k))))
          ∗ (bigSep Finset.univ fun k : Kix => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Kix => semVal (kcell (c, k)) 0) ∗ bigSep Finset.univ fun k : Kix => roundState ER (rd m) (kcell (c, k)) 0)
      ⊢ (|={Set.univ}=> bigSep Finset.univ fun k : Kix => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : Dev nD × Kix → ℕ) : sProp 𝕄 :=
  iprop((bigSep Finset.univ fun ck : Dev nD × Kix => cellInv ER (rd m) (K ck) (kcell ck))
    ∗ bigSep Finset.univ fun ck : Dev nD × Kix => reached ER (kcell ck) 0)

instance records_persistent (K : Dev nD × Kix → ℕ) : BI.Persistent (records m K) := by unfold records; infer_instance

theorem inv_at (K : Dev nD × Kix → ℕ) (ck : Dev nD × Kix) : records m K ⊢ cellInv ER (rd m) (K ck) (kcell ck) := by
  have h : (bigSep Finset.univ fun ck : Dev nD × Kix => (cellInv ER (rd m) (K ck) (kcell ck) : sProp 𝕄)) ⊢ cellInv ER (rd m) (K ck) (kcell ck) :=
    bigSep_elim (Finset.mem_univ ck)
  unfold records
  iintro ⟨HI, -⟩
  iapply h
  iexact HI
theorem reached_at (K : Dev nD × Kix → ℕ) (ck : Dev nD × Kix) : records m K ⊢ reached ER (kcell ck) 0 := by
  have h : (bigSep Finset.univ fun ck : Dev nD × Kix => (reached ER (kcell ck) 0 : sProp 𝕄)) ⊢ reached ER (kcell ck) 0 :=
    bigSep_elim (Finset.mem_univ ck)
  unfold records
  iintro ⟨-, HR⟩
  iapply h
  iexact HR

theorem invs_intro (K : Dev nD × Kix → ℕ) (c : Dev nD) : records m K ⊢ invs m K c := by
  unfold invs
  iintro #H
  isplitr; · iapply (bigSep_intro_persistent (R := records m K) fun k _ => inv_at m K (c, k)); iexact H
  isplitr; · iapply (inv_at m K (xp c, none)); iexact H
  isplitr; · iapply (inv_at m K (yp c, none)); iexact H
  iapply (bigSep_intro_persistent (R := records m K) fun ij _ => inv_at m K (peer ij.1 c, some (true, ij.1, ij.2))); iexact H

theorem reacheds_intro (K : Dev nD × Kix → ℕ) (c : Dev nD) : records m K ⊢ reacheds c := by
  unfold reacheds
  iintro #H
  isplitr; · iapply (reached_at m K (xp c, none)); iexact H
  isplitr; · iapply (reached_at m K (yp c, none)); iexact H
  isplitr; · iapply (bigSep_intro_persistent (R := records m K) fun ij _ => reached_at m K (peer ij.1 c, some (true, ij.1, ij.2))); iexact H
  isplitr; · iapply (bigSep_intro_persistent (R := records m K) fun ij _ => reached_at m K (c, some (false, ij.1, ij.2))); iexact H
  iapply (bigSep_intro_persistent (R := records m K) fun ij _ => reached_at m K (c, some (true, ij.1, ij.2))); iexact H

def linear (c : Dev nD) : sProp 𝕄 := iprop(positions c ∗ payToks c)

theorem ghost_intro (K : Dev nD × Kix → ℕ) (c : Dev nD) : iprop(records m K ∗ iprop(linear c ∗ localSems c)) ⊢ G' m c := by
  unfold linear G' ghost
  iintro ⟨#HR, ⟨Hpos, Htok⟩, Hloc⟩
  isplitr [Hloc]
  · iexists K
    isplitr; · iapply (invs_intro m K c); iexact HR
    isplitr; · iapply (reacheds_intro m K c); iexact HR
    isplitl [Hpos]; · iexact Hpos
    iexact Htok
  iexact Hloc

def pswap : Dev nD × (Fin 6 × Fin 4) ≃ Dev nD × (Fin 6 × Fin 4) where
  toFun x := (peer x.2.1 x.1, x.2)
  invFun x := (peer x.2.1 x.1, x.2)
  left_inv x := by show (peer x.2.1 (peer x.2.1 x.1), x.2) = x; rw [peer_peer]
  right_inv x := by show (peer x.2.1 (peer x.2.1 x.1), x.2) = x; rw [peer_peer]

omit [FloatOps F] in

theorem rcv_across : (bigSep Finset.univ fun c : Dev nD => bigSep Finset.univ fun ij : Fin 6 × Fin 4 => (dutyTok ER (kcell (c, some (true, ij))) 0 false : sProp 𝕄))
    = bigSep Finset.univ fun c : Dev nD => bigSep Finset.univ fun ij : Fin 6 × Fin 4 => dutyTok ER (rcvCell (peer ij.1 c) ij.1 ij.2) 0 false :=
  (bigSep_univ_prod (fun x : Dev nD × (Fin 6 × Fin 4) => (dutyTok ER (rcvCell x.1 x.2.1 x.2.2) 0 false : sProp 𝕄))).symm.trans
    ((bigSep_univ_equiv pswap _).trans (bigSep_univ_prod _))

omit [FloatOps F] in

theorem toks_around : (bigSep Finset.univ fun c : Dev nD => (toks c : sProp 𝕄)) ⊢ bigSep Finset.univ fun c : Dev nD => payToks c := by
  have e1 : (bigSep Finset.univ fun c : Dev nD => (toks c : sProp 𝕄))
      = iprop(((bigSep Finset.univ fun c : Dev nD => dutyTok ER (barCell c) 0 false)
          ∗ (bigSep Finset.univ fun c : Dev nD => bigSep Finset.univ fun ij : Fin 6 × Fin 4 => dutyTok ER (kcell (c, some (false, ij))) 0 false)
          ∗ (bigSep Finset.univ fun c : Dev nD => bigSep Finset.univ fun ij : Fin 6 × Fin 4 => dutyTok ER (kcell (c, some (true, ij))) 0 false))
        ∗ bigSep Finset.univ fun c : Dev nD => dutyTok ER (barCell c) 0 true) := by
    unfold toks; simp only [bigSep_kix, bigSep_sep']; rfl
  have e2 : (bigSep Finset.univ fun c : Dev nD => (payToks c : sProp 𝕄))
      = iprop((bigSep Finset.univ fun c : Dev nD => dutyTok ER (barCell (xp c)) 0 false)
          ∗ (bigSep Finset.univ fun c : Dev nD => dutyTok ER (barCell (yp c)) 0 true)
          ∗ (bigSep Finset.univ fun c : Dev nD => bigSep Finset.univ fun ij : Fin 6 × Fin 4 => dutyTok ER (rcvCell (peer ij.1 c) ij.1 ij.2) 0 false)
          ∗ bigSep Finset.univ fun c : Dev nD => bigSep Finset.univ fun ij : Fin 6 × Fin 4 => dutyTok ER (sndCell c ij.1 ij.2) 0 false) := by
    unfold payToks; simp only [bigSep_sep']
  rw [e1, e2, rcv_across, bigSep_univ_equiv xswap (fun c : Dev nD => (dutyTok ER (barCell c) 0 false : sProp 𝕄)),
    bigSep_univ_equiv yswap (fun c : Dev nD => (dutyTok ER (barCell c) 0 true : sProp 𝕄))]
  iintro ⟨⟨HA, HS, HR⟩, HT⟩
  isplitl [HA]; · iexact HA
  isplitl [HT]; · iexact HT
  isplitl [HR]; · iexact HR
  iexact HS

theorem regroup :
    (bigSep Finset.univ fun c : Dev nD => iprop((bigSep Finset.univ fun k : Kix => iprop(∃ κ : ℕ, cellInv ER (rd m) κ (kcell (c, k))))
          ∗ (bigSep Finset.univ fun k : Kix => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Kix => iprop(∃ κ : ℕ, cellInv ER (rd m) κ (kcell ck))),
    bigSep_congr (s := Finset.univ) (fun (c : Dev nD) _ => bigSep_sep' Finset.univ (fun k : Kix => (atPos ER (kcell (c, k)) 0 ∅ 0 : sProp 𝕄)) (fun k => reached ER (kcell (c, k)) 0)),
    bigSep_sep', ← bigSep_univ_prod (fun ck : Dev nD × Kix => (reached ER (kcell ck) 0 : sProp 𝕄))]
  iintro ⟨HI, ⟨Hat, #HR⟩, Htok, Hloc⟩
  ihave HK := (BI.bigSep_exists_pi Finset.univ (fun (ck : Dev nD × Kix) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => linear c) (fun c : Dev nD => localSems c)).symm)
    isplitr [Hloc]
    · iapply (Entails.of_eq (bigSep_sep' Finset.univ (fun c : Dev nD => positions c) (fun c : Dev nD => payToks c)).symm)
      isplitl [Hat]; · iexact Hat
      iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Hand

end
-- ==== Proof.LaunchRunK.lean ====
import proofs.«901003_g7700000000001004_dist_mlpseq_tp2d_cs_cs_b64_d1024_h2048_v7x_xy2x2_bf16_1_alg».proof.Proof.LaunchGhostK
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sepFin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sepFin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem launchCred_rcv (c : Dev nD) (i : Fin 6) (j : Fin 4) :
    (Pipeline.launchCred (fun d : Dev nD => (tallyAt (rcvCell (peer i d) i j) () (amt i) : CellTallies nD τ sig Unit)) c : sProp 𝕄)
      ⊢ cred (tallyAt (rcvCell c i j) () (amt i)) :=
  Pipeline.launchCred_tallyAt (.dma (rcvS i j)) (peer i) (peer i) (peer_peer i) (peer_peer i) () (amt i) c

theorem launchCred_oweX (c : Dev nD) (i : Fin 6) :
    (Pipeline.launchCred (fun d : Dev nD => oweX d i) c : sProp 𝕄)
      ⊢ bigSep Finset.univ fun j : Fin 4 => cred (tallyAt (rcvCell c i j) () (amt i)) := by
  unfold oweX
  rw [Pipeline.launchCred_add, Pipeline.launchCred_add, Pipeline.launchCred_add, sepFin4]
  iintro ⟨⟨⟨H0, H1⟩, H2⟩, H3⟩
  isplitl [H0]; · iapply (launchCred_rcv (F := F) c i 0); iexact H0
  isplitl [H1]; · iapply (launchCred_rcv (F := F) c i 1); iexact H1
  isplitl [H2]; · iapply (launchCred_rcv (F := F) c i 2); iexact H2
  iapply (launchCred_rcv (F := F) c i 3); iexact H3

theorem creds_of_launch (c : Dev nD) : (Pipeline.launchCred O₀ c : sProp 𝕄) ⊢ creds c := by
  show (Pipeline.launchCred (fun d : Dev nD => oweX d 5 + oweX d 4 + oweX d 3 + oweX d 2 + oweX d 1 + oweX d 0
      + tallyAt (barCell (yp d)) () 1 + tallyAt (barCell (xp d)) () 1) c : sProp 𝕄) ⊢ creds c
  rw [Pipeline.launchCred_add, Pipeline.launchCred_add, Pipeline.launchCred_add, Pipeline.launchCred_add, Pipeline.launchCred_add,
    Pipeline.launchCred_add, Pipeline.launchCred_add]
  unfold creds
  rw [bigSep_univ_prod, sepFin6]
  iintro ⟨⟨⟨⟨⟨⟨⟨H5, H4⟩, H3⟩, H2⟩, H1⟩, H0⟩, HY⟩, HX⟩
  isplitl [HY HX]
  · ihave HY' := (Pipeline.launchCred_tallyAt (Val := Elt F) (Name := ℕ) (U := UU) (Lvl := ℕ) (.reg barS) yp yp yp_yp yp_yp () 1 c) $$ HY
    ihave HX' := (Pipeline.launchCred_tallyAt (Val := Elt F) (Name := ℕ) (U := UU) (Lvl := ℕ) (.reg barS) xp xp xp_xp xp_xp () 1 c) $$ HX
    rw [show (tallyAt (barCell c) () 2 : CellTallies nD τ sig Unit) = tallyAt (barCell c) () 1 + tallyAt (barCell c) () 1 from (tallyAt_add _ _ 1 1).symm]
    iapply (cred_add _ _).2
    isplitl [HY'] <;> iassumption
  isplitl [H0]; · iapply (launchCred_oweX (F := F) c 0); iexact H0
  isplitl [H1]; · iapply (launchCred_oweX (F := F) c 1); iexact H1
  isplitl [H2]; · iapply (launchCred_oweX (F := F) c 2); iexact H2
  isplitl [H3]; · iapply (launchCred_oweX (F := F) c 3); iexact H3
  isplitl [H4]; · iapply (launchCred_oweX (F := F) c 4); iexact H4
  iapply (launchCred_oweX (F := F) c 5); iexact H5

theorem oweX_pos {c : Dev nD} {i : Fin 6} {g : GSem nD τ sig} {u : Unit} (h : 0 < oweX c i g u) : ∃ j, g = rcvCell (peer i c) i j := by
  unfold oweX at h
  rcases Pipeline.add_pos_cases h with h | h
  · rcases Pipeline.add_pos_cases h with h | h
    · rcases Pipeline.add_pos_cases h with h | h
      · exact ⟨0, (Pipeline.tallyAt_pos h).1⟩
      · exact ⟨1, (Pipeline.tallyAt_pos h).1⟩
    · exact ⟨2, (Pipeline.tallyAt_pos h).1⟩
  · exact ⟨3, (Pipeline.tallyAt_pos h).1⟩

theorem oweAll_pos {c : Dev nD} {g : GSem nD τ sig} {u : Unit}
    (h : 0 < (oweX c 5 + oweX c 4 + oweX c 3 + oweX c 2 + oweX c 1 + oweX c 0) g u) : ∃ i j, g = rcvCell (peer i c) i j := by
  rcases Pipeline.add_pos_cases h with h | h
  · rcases Pipeline.add_pos_cases h with h | h
    · rcases Pipeline.add_pos_cases h with h | h
      · rcases Pipeline.add_pos_cases h with h | h
        · rcases Pipeline.add_pos_cases h with h | h
          · exact ⟨5, oweX_pos h⟩
          · exact ⟨4, oweX_pos h⟩
        · exact ⟨3, oweX_pos h⟩
      · exact ⟨2, oweX_pos h⟩
    · exact ⟨1, oweX_pos h⟩
  · exact ⟨0, oweX_pos h⟩

theorem O₀_pos {c : Dev nD} {g : GSem nD τ sig} {u : Unit} (h : 0 < O₀ c g u) :
    (∃ i j, g = rcvCell (peer i c) i j) ∨ g = barCell (yp c) ∨ g = barCell (xp c) := by
  unfold O₀ at h
  rcases Pipeline.add_pos_cases h with h | h
  · rcases Pipeline.add_pos_cases h with h | h
    · exact Or.inl (oweAll_pos h)
    · exact Or.inr (Or.inl (Pipeline.tallyAt_pos h).1)
  · exact Or.inr (Or.inr (Pipeline.tallyAt_pos h).1)

theorem mayWait_level (c : Dev nD) (sm : SemLoc sig) (n : ℕ) (hn : lv ((c : Thread nD τ), sm) () = n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [show L g = {()} from if_pos (hO g u hg).1]; exact Finset.mem_singleton.mpr rfl)
    (fun p hp => by rw [Finset.mem_singleton.mp hp]; exact le_of_eq hn)
    (fun g u hg => (hO g u hg).2)

theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine mayWait_level c (.dma q) 0 hq _ fun g u hg => ?_
    cases u
    rcases O₀_pos hg with ⟨i, j, rfl⟩ | rfl | rfl
    · exact ⟨rfl, by rw [lv_rcv]; omega⟩
    · exact ⟨rfl, by rw [lv_bar]; omega⟩
    · exact ⟨rfl, by rw [lv_bar]; omega⟩
  · rw [MayWait_zero]; iintro -; iempintro

theorem lv_stage (c : Dev nD) : lv ((c : Thread nD τ), .dma cc0_sem0_0) () = 0 := by
  unfold lv
  rw [if_neg (fun h => by cases h), show kindOf (SemLoc.dma cc0_sem0_0 : SemLoc sig) = none from by decide]

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> exact lv_stage c) _ (by
      rcases t with ⟨_ | _, ht⟩
      · exact Or.inl rfl
      · exact Or.inr rfl)

theorem share_eq (c : Dev nD) (w : Fin cfg0.W) : (dats m 0 c).share w = fullShare := by unfold Dat.share; split <;> rfl

theorem ptw_eq (c : Dev nD) (b : Ref sig .tc) (f : Buf (Elt F) ((c : Thread nD τ).loc b)) :
    ptw c b f = ((((c : Thread nD τ).loc b) ↦{fullShare} f) : sProp 𝕄) := rfl

def startX (c : Dev nD) : sProp 𝕄 :=
  iprop((∃ K, ghost m K c) ∗ creds c ∗ levAts L lv ∗ localSems c ∗ argsAt m c ∗ (∃ f, ptw c main_v1 f))

def endY (c : Dev nD) : sProp 𝕄 := iprop(argsAt m c ∗ ptw c main_v1 (outA m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  iintro ⟨⟨H1, H2, H3, H4, H5, H6, Hv⟩, Hlev, Hcr, -, HG⟩
  ihave Hc := (creds_of_launch (F := F) c) $$ Hcr
  unfold G'
  icases HG with ⟨Hg, Hls⟩
  imodintro
  unfold startX argsAt
  isplitl
  · isplitl [Hg]; · iexact Hg
    isplitl [Hc]; · iexact Hc
    isplitl [Hlev]; · iexact Hlev
    isplitl [Hls]; · iexact Hls
    isplitl [H1 H2 H3 H4 H5 H6]
    · isplitl [H1]; · iexact H1
      isplitl [H2]; · iexact H2
      isplitl [H3]; · iexact H3
      isplitl [H4]; · iexact H4
      isplitl [H5]; · iexact H5
      iexact H6
    · iexists _; iexact Hv
  · iempintro

theorem phi0_intro (c : Dev nD) :
    iprop(startX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ startX scratchAny
  iintro ⟨⟨Hg, Hcr, Hlev, Hls, Hargs, Hv⟩, -, Hscr⟩
  isplitl [Hg]; · iexact Hg
  isplitl [Hcr]; · iexact Hcr
  isplitl [Hlev]; · iexact Hlev
  isplitl [Hls]; · iexact Hls
  isplitl [Hargs]; · iexact Hargs
  isplitl [Hv]; · iexact Hv
  iexact Hscr

theorem ownSems0_intro (c : Dev nD) :
    iprop((bigSep Finset.univ fun ij : Fin 6 × Fin 4 => iprop(semVal (sndCell c ij.1 ij.2) 0 ∗ semVal (rcvCell c ij.1 ij.2) 0)) ∗ localSems c)
      ⊢ (Pipeline.ownSems0 (Ix := Unit) (Name := ℕ) (U := UU) (Lvl := ℕ) (Val := Elt F) (τ := τ) osem c : sProp 𝕄) := by
  rw [ownSems0_eq, bigSep_sep']
  iintro ⟨⟨HS, HR⟩, HL⟩
  isplitl [HS]; · iexact HS
  isplitl [HR] <;> iassumption

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq]
  unfold Φ₁ endY scratchAny
  iintro ⟨Hsem, Hls, Hargs, Hv, Hscr⟩
  isplitl [Hargs Hv]
  · isplitl [Hargs] <;> iassumption
  isplitl [Hsem Hls]
  · iapply (ownSems0_intro (F := F) c)
    isplitl [Hsem] <;> iassumption
  iexact Hscr

def QY (c : Dev nD) (s : MemSt nD τ sig (Elt F)) : Prop :=
  s.mem ((c.tc : Thread nD τ).loc main_v1) = outA m c
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)

theorem read_back (c : Dev nD) (s' : Phys nD τ sig (Elt F)) :
    iprop(endY m c ∗ emp ∗ SI s') ⊢ |={Set.univ}=> iprop(⌜QY m c s'.mem⌝ ∗ SI s') := by
  unfold endY argsAt
  iintro ⟨⟨⟨H1, H2, H3, H4, H5, H6⟩, Hv⟩, -, HSI⟩
  icombine HSI Hv gives %hv
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ hv, Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

def finalA (c : Dev nD) (w : Fin cfg0.W) : Buf (Elt F) ((cfg0.win w).arr.view.loc (c : Thread nD τ)) := (dats m 0 c).arrAt w cfg0.N

theorem finalA_x (c : Dev nD) : finalA m c (0 : Fin 1) = m (win0_0.arr.view.loc (c : Thread nD τ)) :=
  (dats (F := F) m 0 c).arrAt_in (0 : Fin 1) rfl _

set_option maxRecDepth 65536 in

theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := startX m) (Y := endY m) (Z := fun _ => iprop(emp))
    (hX := start_intro m ρ) (hin := phi0_intro m) (hout := phi1_exit m)
    (QY := QY m)
    (hY := read_back m)
    (hQ := fun s h c => ⟨(h c).2.2.1, ((h c).1 0).trans (finalA_x m c), (h c).2.2.2⟩)

end Cert.Kernel.Hand

end
-- ==== Proof.Steps.lean ====
import proofs.«901003_g7700000000001004_dist_mlpseq_tp2d_cs_cs_b64_d1024_h2048_v7x_xy2x2_bf16_1_alg».proof.Proof.Ghost
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem isH_exH (l : Fin 3) : isH (exH l) := by show (2 * l.val) % 2 = 0; omega
theorem not_isH_exG (l : Fin 3) : ¬ isH (exG l) := by show ¬ (2 * l.val + 1) % 2 = 0; omega
theorem lay_exH (l : Fin 3) : lay (exH l) = l := Fin.ext (by show (2 * l.val) / 2 = l.val; omega)
theorem lay_exG (l : Fin 3) : lay (exG l) = l := Fin.ext (by show (2 * l.val + 1) / 2 = l.val; omega)
theorem amt_exH (l : Fin 3) : amt (exH l) = Nh := by unfold amt; rw [if_pos (isH_exH l)]
theorem amt_exG (l : Fin 3) : amt (exG l) = Ng := by unfold amt; rw [if_neg (not_isH_exG l)]
theorem peer_exH (l : Fin 3) (c : Dev nD) : peer (exH l) c = yp c := by unfold peer; rw [if_pos (isH_exH l)]
theorem peer_exG (l : Fin 3) (c : Dev nD) : peer (exG l) c = xp c := by unfold peer; rw [if_neg (not_isH_exG l)]

theorem hr_amount (l : Fin 3) (j : Fin 4) (s : DmaSem sig) : (hrM l j).view.amount (.dma s) = Nh := rfl
theorem gr_amount (l : Fin 3) (j : Fin 4) (s : DmaSem sig) : (grM l j).view.amount (.dma s) = Ng := rfl

omit [FloatOps F] in
theorem sndPay_exH (c : Dev nD) (l : Fin 3) (j : Fin 4) : sndPay (F := F) c (exH l) j = heldS c (hsM l j) := by
  unfold sndPay; rw [if_pos (isH_exH l), lay_exH]
omit [FloatOps F] in
theorem sndPay_exG (c : Dev nD) (l : Fin 3) (j : Fin 4) : sndPay (F := F) c (exG l) j = heldS c (gsM l j) := by
  unfold sndPay; rw [if_neg (not_isH_exG l), lay_exG]
theorem rcvPay_exH (c : Dev nD) (l : Fin 3) (j : Fin 4) : rcvPay m c (exH l) j = heldAt c (hrM l j) (hLanded m l c j) := by
  unfold rcvPay; rw [if_pos (isH_exH l), lay_exH]
theorem rcvPay_exG (c : Dev nD) (l : Fin 3) (j : Fin 4) : rcvPay m c (exG l) j = heldAt c (grM l j) (gLanded m l c j) := by
  unfold rcvPay; rw [if_neg (not_isH_exG l), lay_exG]

theorem wp_send_H (K : Dev nD × Kix → ℕ) (c n : Dev nD) (hn : n = yp c) (l : Fin 3) (j : Fin 4)
    {hsc : (hrM l j : Memref sig (Dev.tc n : Thread nD τ).2.kind .vmem S64x512 .bf16).view.ref.isScScratch = false}
    {hsrc : (hsM l j).view.WordExact} {hdst : (hrM l j).view.WordExact}
    {hsem : DmaTarget.Typed .vmem (.dma (rcvS (exH l) j)) (.remote (Dev.tc n : Thread nD τ) (hrM l j) (.dma (sndS (exH l) j)) hsc)}
    {α : Type} {Q : α → sProp 𝕄} {k : PUnit → Prog (TpuEff nD τ sig (Elt F) Λ₀ .tc) α}
    (fs : Buf (Elt F) ((hsM l j).view.loc (c : Thread nD τ))) (fd : Buf (Elt F) ((hrM l j).view.loc (yp c : Thread nD τ)))
    (hval : (hsM l j).view.read (Elt F) fs = hSent (hpL m l) c j)
    (O : CellTallies nD τ sig Unit) (W : Waits sig Unit) :
    iprop(cellInv ER (rd m) (K (c, some (false, exH l, j))) (sndCell c (exH l) j)
        ∗ cellInv ER (rd m) (K (yp c, some (true, exH l, j))) (rcvCell (yp c) (exH l) j)
        ∗ ((hsM l j).view.loc (c : Thread nD τ) ↦[(hsM l j).view.set]{fullShare} fs)
        ∗ ((hrM l j).view.loc (yp c : Thread nD τ) ↦[(hrM l j).view.set]{fullShare} fd)
        ∗ owes (c : Thread nD τ) (O + tallyAt (rcvCell (yp c) (exH l) j) () Nh) W
        ∗ dutyTok ER (sndCell c (exH l) j) 0 false ∗ reached ER (sndCell c (exH l) j) 0
        ∗ dutyTok ER (rcvCell (yp c) (exH l) j) 0 false ∗ reached ER (rcvCell (yp c) (exH l) j) 0)
      ⊢ iprop(((cred (tallyAt (sndCell c (exH l) j) () Nh) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hsM l j) (.remote (Dev.tc n : Thread nD τ) (hrM l j) (.dma (sndS (exH l) j)) hsc) (.dma (rcvS (exH l) j)) hsrc hdst hsem) k) Q) := by
  subst hn
  exact Rounds.wp_send_pointsTo 𝒱₀ ER (rd m) (c : Thread nD τ) none (c' := (yp c : Thread nD τ)) (src := hsM l j) (dst := hrM l j)
    (q := fullShare) (fs := fs) (fd := fd) (κ₁ := K (c, some (false, exH l, j))) (κ₂ := K (yp c, some (true, exH l, j)))
    (r₁ := 0) (r₂ := 0) (d₁ := false) (d₂ := false)
    (by rw [duties_snd]; exact Finset.mem_singleton_self _) (by rw [duties_rcv]; exact Finset.mem_singleton_self _)
    () () Nh (hr_amount l j _) ((amount_snd m c (exH l) j false).trans (amt_exH l)) ((amount_rcv m (yp c) (exH l) j false).trans (amt_exH l))
    O rfl (W := W)
    (by
      rw [payload_snd, sndPay_exH]; unfold heldS
      iintro H; iexists fs; iexact H)
    (by
      rw [payload_rcv, rcvPay_exH]; unfold heldAt
      iintro H
      iexists (hrM l j).view.write (Elt F) fd ((hsM l j).view.read (Elt F) fs) Finset.univ
      isplitl; · iexact H
      ipureintro
      rw [View.read_write_univ, hval]; unfold hLanded; rw [yp_yp])

theorem wp_send_G (K : Dev nD × Kix → ℕ) (c n : Dev nD) (hn : n = xp c) (l : Fin 3) (j : Fin 4)
    {hsc : (grM l j : Memref sig (Dev.tc n : Thread nD τ).2.kind .vmem S64x256 .bf16).view.ref.isScScratch = false}
    {hsrc : (gsM l j).view.WordExact} {hdst : (grM l j).view.WordExact}
    {hsem : DmaTarget.Typed .vmem (.dma (rcvS (exG l) j)) (.remote (Dev.tc n : Thread nD τ) (grM l j) (.dma (sndS (exG l) j)) hsc)}
    {α : Type} {Q : α → sProp 𝕄} {k : PUnit → Prog (TpuEff nD τ sig (Elt F) Λ₀ .tc) α}
    (fs : Buf (Elt F) ((gsM l j).view.loc (c : Thread nD τ))) (fd : Buf (Elt F) ((grM l j).view.loc (xp c : Thread nD τ)))
    (hval : (gsM l j).view.read (Elt F) fs = gSent m l (hpL m l) c j)
    (O : CellTallies nD τ sig Unit) (W : Waits sig Unit) :
    iprop(cellInv ER (rd m) (K (c, some (false, exG l, j))) (sndCell c (exG l) j)
        ∗ cellInv ER (rd m) (K (xp c, some (true, exG l, j))) (rcvCell (xp c) (exG l) j)
        ∗ ((gsM l j).view.loc (c : Thread nD τ) ↦[(gsM l j).view.set]{fullShare} fs)
        ∗ ((grM l j).view.loc (xp c : Thread nD τ) ↦[(grM l j).view.set]{fullShare} fd)
        ∗ owes (c : Thread nD τ) (O + tallyAt (rcvCell (xp c) (exG l) j) () Ng) W
        ∗ dutyTok ER (sndCell c (exG l) j) 0 false ∗ reached ER (sndCell c (exG l) j) 0
        ∗ dutyTok ER (rcvCell (xp c) (exG l) j) 0 false ∗ reached ER (rcvCell (xp c) (exG l) j) 0)
      ⊢ iprop(((cred (tallyAt (sndCell c (exG l) j) () Ng) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gsM l j) (.remote (Dev.tc n : Thread nD τ) (grM l j) (.dma (sndS (exG l) j)) hsc) (.dma (rcvS (exG l) j)) hsrc hdst hsem) k) Q) := by
  subst hn
  exact Rounds.wp_send_pointsTo 𝒱₀ ER (rd m) (c : Thread nD τ) none (c' := (xp c : Thread nD τ)) (src := gsM l j) (dst := grM l j)
    (q := fullShare) (fs := fs) (fd := fd) (κ₁ := K (c, some (false, exG l, j))) (κ₂ := K (xp c, some (true, exG l, j)))
    (r₁ := 0) (r₂ := 0) (d₁ := false) (d₂ := false)
    (by rw [duties_snd]; exact Finset.mem_singleton_self _) (by rw [duties_rcv]; exact Finset.mem_singleton_self _)
    () () Ng (gr_amount l j _) ((amount_snd m c (exG l) j false).trans (amt_exG l)) ((amount_rcv m (xp c) (exG l) j false).trans (amt_exG l))
    O rfl (W := W)
    (by
      rw [payload_snd, sndPay_exG]; unfold heldS
      iintro H; iexists fs; iexact H)
    (by
      rw [payload_rcv, rcvPay_exG]; unfold heldAt
      iintro H
      iexists (grM l j).view.write (Elt F) fd ((gsM l j).view.read (Elt F) fs) Finset.univ
      isplitl; · iexact H
      ipureintro
      rw [View.read_write_univ, hval]; unfold gLanded; rw [xp_xp])

theorem wp_recv_H (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exH l) j)) Nh K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exH l) j)) () O) :
    iprop(cellInv ER (rd m) (K (c, some (true, exH l, j))) (rcvCell c (exH l) j) ∗ cred (tallyAt (rcvCell c (exH l) j) () Nh)
        ∗ owes (c : Thread nD τ) O W ∗ levAts L lv ∗ atPos ER (rcvCell c (exH l) j) 0 ∅ 0)
      ⊢ iprop(((owes (c : Thread nD τ) O (insert (SemLoc.dma (rcvS (exH l) j), ()) W) ∗ atPos ER (rcvCell c (exH l) j) 1 ∅ 0
              ∗ heldAt c (hrM l j) (hLanded m l c j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hlev, Hat⟩ Hk
  iapply (Rounds.wp_wait_rest_token 𝒱₀ ER (rd m) (c : Thread nD τ) none (κ := K (c, some (true, exH l, j)))
      hw (Set.mem_univ _) () (O := O) (W := W) (R := 0) (m := 0) (T := ∅)
      (by rw [Nat.zero_add, expect_rcv, amt_exH])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq ((rest_rcv m c (exH l) j).trans (rcvPay_exH m c l j))) $$ Hpay
  iapply Hk
  isplitl [HO]; · iexact HO
  isplitl [Hat]; · iexact Hat
  iexact Hp

theorem wp_recv_G (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exG l) j)) Ng K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exG l) j)) () O) :
    iprop(cellInv ER (rd m) (K (c, some (true, exG l, j))) (rcvCell c (exG l) j) ∗ cred (tallyAt (rcvCell c (exG l) j) () Ng)
        ∗ owes (c : Thread nD τ) O W ∗ levAts L lv ∗ atPos ER (rcvCell c (exG l) j) 0 ∅ 0)
      ⊢ iprop(((owes (c : Thread nD τ) O (insert (SemLoc.dma (rcvS (exG l) j), ()) W) ∗ atPos ER (rcvCell c (exG l) j) 1 ∅ 0
              ∗ heldAt c (grM l j) (gLanded m l c j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hlev, Hat⟩ Hk
  iapply (Rounds.wp_wait_rest_token 𝒱₀ ER (rd m) (c : Thread nD τ) none (κ := K (c, some (true, exG l, j)))
      hw (Set.mem_univ _) () (O := O) (W := W) (R := 0) (m := 0) (T := ∅)
      (by rw [Nat.zero_add, expect_rcv, amt_exG])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq ((rest_rcv m c (exG l) j).trans (rcvPay_exG m c l j))) $$ Hpay
  iapply Hk
  isplitl [HO]; · iexact HO
  isplitl [Hat]; · iexact Hat
  iexact Hp

theorem wp_sent_H (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exH l) j)) Nh K')
    {α : Type} {Q : α → sProp 𝕄} {k : PUnit → Prog (TpuEff nD τ sig (Elt F) Λ₀ .tc) α}
    (W : Waits sig Unit) :
    iprop(cellInv ER (rd m) (K (c, some (false, exH l, j))) (sndCell c (exH l) j) ∗ cred (tallyAt (sndCell c (exH l) j) () Nh)
        ∗ owes (c : Thread nD τ) 0 W ∗ atPos ER (sndCell c (exH l) j) 0 ∅ 0)
      ⊢ iprop(((owes (c : Thread nD τ) 0 (insert (SemLoc.dma (sndS (exH l) j), ()) W) ∗ atPos ER (sndCell c (exH l) j) 1 ∅ 0
              ∗ heldS c (hsM l j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hat⟩ Hk
  iapply (Rounds.wp_wait_rest_token 𝒱₀ ER (rd m) (c : Thread nD τ) none (κ := K (c, some (false, exH l, j)))
      hw (Set.mem_univ _) () (O := 0) (W := W) (R := 0) (m := 0) (T := ∅)
      (by rw [Nat.zero_add, expect_snd, amt_exH])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq ((rest_snd m c (exH l) j).trans (sndPay_exH c l j))) $$ Hpay
  iapply Hk
  isplitl [HO]; · iexact HO
  isplitl [Hat]; · iexact Hat
  iexact Hp

theorem wp_sent_G (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exG l) j)) Ng K')
    {α : Type} {Q : α → sProp 𝕄} {k : PUnit → Prog (TpuEff nD τ sig (Elt F) Λ₀ .tc) α}
    (W : Waits sig Unit) :
    iprop(cellInv ER (rd m) (K (c, some (false, exG l, j))) (sndCell c (exG l) j) ∗ cred (tallyAt (sndCell c (exG l) j) () Ng)
        ∗ owes (c : Thread nD τ) 0 W ∗ atPos ER (sndCell c (exG l) j) 0 ∅ 0)
      ⊢ iprop(((owes (c : Thread nD τ) 0 (insert (SemLoc.dma (sndS (exG l) j), ()) W) ∗ atPos ER (sndCell c (exG l) j) 1 ∅ 0
              ∗ heldS c (gsM l j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hat⟩ Hk
  iapply (Rounds.wp_wait_rest_token 𝒱₀ ER (rd m) (c : Thread nD τ) none (κ := K (c, some (false, exG l, j)))
      hw (Set.mem_univ _) () (O := 0) (W := W) (R := 0) (m := 0) (T := ∅)
      (by rw [Nat.zero_add, expect_snd, amt_exG])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq ((rest_snd m c (exG l) j).trans (sndPay_exG c l j))) $$ Hpay
  iapply Hk
  isplitl [HO]; · iexact HO
  isplitl [Hat]; · iexact Hat
  iexact Hp

theorem close_cell (K : Dev nD × Kix → ℕ) (c : Dev nD) (k : Bool × Fin 6 × Fin 4) :
    iprop(cellInv ER (rd m) (K (c, some k)) (kcell (c, some k)) ∗ atPos ER (kcell (c, some k)) 1 ∅ 0)
      ⊢ |={Set.univ}=> semVal (kcell (c, some k)) 0 :=
  Rounds.cell_close ER (rd m) (Set.mem_univ (K (c, some k))) (fun h => h) (R := 1) (duties_later m (kcell (c, some k)))

end Cert.KernelIdeal.Hand

end
-- ==== Proof.StepsW.lean ====
import proofs.«901003_g7700000000001004_dist_mlpseq_tp2d_cs_cs_b64_d1024_h2048_v7x_xy2x2_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_own (K : Dev nD × Kix → ℕ) (c : Dev nD) (k : Kix) :
    (bigSep Finset.univ fun k : Kix => (cellInv ER (rd m) (K (c, k)) (kcell (c, k)) : sProp 𝕄)) ⊢ cellInv ER (rd m) (K (c, k)) (kcell (c, k)) :=
  bigSep_elim (Finset.mem_univ k)
theorem inv_snd (K : Dev nD × Kix → ℕ) (c : Dev nD) (i : Fin 6) (j : Fin 4) :
    (bigSep Finset.univ fun k : Kix => (cellInv ER (rd m) (K (c, k)) (kcell (c, k)) : sProp 𝕄)) ⊢ cellInv ER (rd m) (K (c, some (false, i, j))) (sndCell c i j) :=
  inv_own m K c (some (false, i, j))
theorem inv_rcv (K : Dev nD × Kix → ℕ) (c : Dev nD) (i : Fin 6) (j : Fin 4) :
    (bigSep Finset.univ fun k : Kix => (cellInv ER (rd m) (K (c, k)) (kcell (c, k)) : sProp 𝕄)) ⊢ cellInv ER (rd m) (K (c, some (true, i, j))) (rcvCell c i j) :=
  inv_own m K c (some (true, i, j))
theorem inv_peer (K : Dev nD × Kix → ℕ) (c : Dev nD) (ij : Fin 6 × Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (peer ij.1 c, some (true, ij.1, ij.2))) (rcvCell (peer ij.1 c) ij.1 ij.2) :=
  bigSep_elim (Finset.mem_univ ij)
theorem inv_peerY (K : Dev nD × Kix → ℕ) (c : Dev nD) (l : Fin 3) (j : Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (yp c, some (true, exH l, j))) (rcvCell (yp c) (exH l) j) := by
  have h := inv_peer m K c (exH l, j)
  rw [show peer (exH l, j).1 c = yp c from peer_exH l c] at h
  exact h
theorem inv_peerX (K : Dev nD × Kix → ℕ) (c : Dev nD) (l : Fin 3) (j : Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (xp c, some (true, exG l, j))) (rcvCell (xp c) (exG l) j) := by
  have h := inv_peer m K c (exG l, j)
  rw [show peer (exG l, j).1 c = xp c from peer_exG l c] at h
  exact h

omit [FloatOps F] in
theorem rch_snd (c : Dev nD) (i : Fin 6) (j : Fin 4) :
    (bigSep Finset.univ fun ij : Fin 6 × Fin 4 => (reached ER (sndCell c ij.1 ij.2) 0 : sProp 𝕄)) ⊢ reached ER (sndCell c i j) 0 :=
  bigSep_elim (Finset.mem_univ ((i, j) : Fin 6 × Fin 4))
omit [FloatOps F] in
theorem rch_rcvY (c : Dev nD) (l : Fin 3) (j : Fin 4) :
    (bigSep Finset.univ fun lj : Fin 3 × Fin 4 => (reached ER (rcvCell (yp c) (exH lj.1) lj.2) 0 : sProp 𝕄)) ⊢ reached ER (rcvCell (yp c) (exH l) j) 0 :=
  bigSep_elim (Finset.mem_univ ((l, j) : Fin 3 × Fin 4))
omit [FloatOps F] in
theorem rch_rcvX (c : Dev nD) (l : Fin 3) (j : Fin 4) :
    (bigSep Finset.univ fun lj : Fin 3 × Fin 4 => (reached ER (rcvCell (xp c) (exG lj.1) lj.2) 0 : sProp 𝕄)) ⊢ reached ER (rcvCell (xp c) (exG l) j) 0 :=
  bigSep_elim (Finset.mem_univ ((l, j) : Fin 3 × Fin 4))

theorem wp_send_Hw (K : Dev nD × Kix → ℕ) (c n : Dev nD) (hn : n = yp c) (l : Fin 3) (j : Fin 4)
    {hsc : (hrM l j : Memref sig (Dev.tc n : Thread nD τ).2.kind .vmem S64x512 .bf16).view.ref.isScScratch = false}
    {hsrc : (hsM l j).view.WordExact} {hdst : (hrM l j).view.WordExact}
    {hsem : DmaTarget.Typed .vmem (.dma (rcvS (exH l) j)) (.remote (Dev.tc n : Thread nD τ) (hrM l j) (.dma (sndS (exH l) j)) hsc)}
    {α : Type} {Q : α → sProp 𝕄} {k : PUnit → Prog (TpuEff nD τ sig (Elt F) Λ₀ .tc) α}
    (fs : Buf (Elt F) ((hsM l j).view.loc (c : Thread nD τ))) (fd : Buf (Elt F) ((hrM l j).view.loc (yp c : Thread nD τ)))
    (hval : (hsM l j).view.read (Elt F) fs = hSent (hpL m l) c j) (O : CellTallies nD τ sig Unit) (W : Waits sig Unit) :
    (bigSep Finset.univ fun k : Kix => (cellInv ER (rd m) (K (c, k)) (kcell (c, k)) : sProp 𝕄))
      ⊢ iprop((bigSep Finset.univ fun ij : Fin 6 × Fin 4 => (cellInv ER (rd m) (K (peer ij.1 c, some (true, ij.1, ij.2))) (rcvCell (peer ij.1 c) ij.1 ij.2) : sProp 𝕄))
        -∗ (bigSep Finset.univ fun ij : Fin 6 × Fin 4 => (reached ER (sndCell c ij.1 ij.2) 0 : sProp 𝕄))
        -∗ (bigSep Finset.univ fun lj : Fin 3 × Fin 4 => (reached ER (rcvCell (yp c) (exH lj.1) lj.2) 0 : sProp 𝕄))
        -∗ ((hsM l j).view.loc (c : Thread nD τ) ↦[(hsM l j).view.set]{fullShare} fs)
        -∗ ((hrM l j).view.loc (yp c : Thread nD τ) ↦[(hrM l j).view.set]{fullShare} fd)
        -∗ owes (c : Thread nD τ) (O + tallyAt (rcvCell (yp c) (exH l) j) () Nh) W
        -∗ dutyTok ER (sndCell c (exH l) j) 0 false
        -∗ dutyTok ER (rcvCell (yp c) (exH l) j) 0 false
        -∗ ((cred (tallyAt (sndCell c (exH l) j) () Nh) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (hsM l j) (.remote (Dev.tc n : Thread nD τ) (hrM l j) (.dma (sndS (exH l) j)) hsc) (.dma (rcvS (exH l) j)) hsrc hdst hsem) k) Q) := by
  iintro #HIown #HIpeer #HrSnd #HrR Hs Hd HO Ts Tr Hk
  iapply (wp_send_H m K c n hn l j fs fd hval O W) $$ [Hs Hd HO Ts Tr]
  · isplitr; · iapply (inv_snd m K c (exH l) j); iexact HIown
    isplitr; · iapply (inv_peerY m K c l j); iexact HIpeer
    isplitl [Hs]; · iexact Hs
    isplitl [Hd]; · iexact Hd
    isplitl [HO]; · iexact HO
    isplitl [Ts]; · iexact Ts
    isplitr; · iapply (rch_snd (F := F) c (exH l) j); iexact HrSnd
    isplitl [Tr]; · iexact Tr
    iapply (rch_rcvY (F := F) c l j); iexact HrR
  iexact Hk

theorem wp_send_Gw (K : Dev nD × Kix → ℕ) (c n : Dev nD) (hn : n = xp c) (l : Fin 3) (j : Fin 4)
    {hsc : (grM l j : Memref sig (Dev.tc n : Thread nD τ).2.kind .vmem S64x256 .bf16).view.ref.isScScratch = false}
    {hsrc : (gsM l j).view.WordExact} {hdst : (grM l j).view.WordExact}
    {hsem : DmaTarget.Typed .vmem (.dma (rcvS (exG l) j)) (.remote (Dev.tc n : Thread nD τ) (grM l j) (.dma (sndS (exG l) j)) hsc)}
    {α : Type} {Q : α → sProp 𝕄} {k : PUnit → Prog (TpuEff nD τ sig (Elt F) Λ₀ .tc) α}
    (fs : Buf (Elt F) ((gsM l j).view.loc (c : Thread nD τ))) (fd : Buf (Elt F) ((grM l j).view.loc (xp c : Thread nD τ)))
    (hval : (gsM l j).view.read (Elt F) fs = gSent m l (hpL m l) c j) (O : CellTallies nD τ sig Unit) (W : Waits sig Unit) :
    (bigSep Finset.univ fun k : Kix => (cellInv ER (rd m) (K (c, k)) (kcell (c, k)) : sProp 𝕄))
      ⊢ iprop((bigSep Finset.univ fun ij : Fin 6 × Fin 4 => (cellInv ER (rd m) (K (peer ij.1 c, some (true, ij.1, ij.2))) (rcvCell (peer ij.1 c) ij.1 ij.2) : sProp 𝕄))
        -∗ (bigSep Finset.univ fun ij : Fin 6 × Fin 4 => (reached ER (sndCell c ij.1 ij.2) 0 : sProp 𝕄))
        -∗ (bigSep Finset.univ fun lj : Fin 3 × Fin 4 => (reached ER (rcvCell (xp c) (exG lj.1) lj.2) 0 : sProp 𝕄))
        -∗ ((gsM l j).view.loc (c : Thread nD τ) ↦[(gsM l j).view.set]{fullShare} fs)
        -∗ ((grM l j).view.loc (xp c : Thread nD τ) ↦[(grM l j).view.set]{fullShare} fd)
        -∗ owes (c : Thread nD τ) (O + tallyAt (rcvCell (xp c) (exG l) j) () Ng) W
        -∗ dutyTok ER (sndCell c (exG l) j) 0 false
        -∗ dutyTok ER (rcvCell (xp c) (exG l) j) 0 false
        -∗ ((cred (tallyAt (sndCell c (exG l) j) () Ng) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (gsM l j) (.remote (Dev.tc n : Thread nD τ) (grM l j) (.dma (sndS (exG l) j)) hsc) (.dma (rcvS (exG l) j)) hsrc hdst hsem) k) Q) := by
  iintro #HIown #HIpeer #HrSnd #HrR Hs Hd HO Ts Tr Hk
  iapply (wp_send_G m K c n hn l j fs fd hval O W) $$ [Hs Hd HO Ts Tr]
  · isplitr; · iapply (inv_snd m K c (exG l) j); iexact HIown
    isplitr; · iapply (inv_peerX m K c l j); iexact HIpeer
    isplitl [Hs]; · iexact Hs
    isplitl [Hd]; · iexact Hd
    isplitl [HO]; · iexact HO
    isplitl [Ts]; · iexact Ts
    isplitr; · iapply (rch_snd (F := F) c (exG l) j); iexact HrSnd
    isplitl [Tr]; · iexact Tr
    iapply (rch_rcvX (F := F) c l j); iexact HrR
  iexact Hk

theorem wp_recv_Hw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exH l) j)) Nh K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exH l) j)) () O) :
    (bigSep Finset.univ fun k : Kix => (cellInv ER (rd m) (K (c, k)) (kcell (c, k)) : sProp 𝕄))
      ⊢ iprop(levAts L lv
        -∗ cred (tallyAt (rcvCell c (exH l) j) () Nh)
        -∗ owes (c : Thread nD τ) O W
        -∗ atPos ER (rcvCell c (exH l) j) 0 ∅ 0
        -∗ ((owes (c : Thread nD τ) O (insert (SemLoc.dma (rcvS (exH l) j), ()) W) ∗ atPos ER (rcvCell c (exH l) j) 1 ∅ 0
              ∗ heldAt c (hrM l j) (hLanded m l c j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hlev Hc HO Hat Hk
  iapply (wp_recv_H m K c l j hw O W hmw) $$ [Hlev Hc HO Hat]
  · isplitr; · iapply (inv_rcv m K c (exH l) j); iexact HIown
    isplitl [Hc]; · iexact Hc
    isplitl [HO]; · iexact HO
    isplitl [Hlev]; · iexact Hlev
    iexact Hat
  iexact Hk

theorem wp_recv_Gw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exG l) j)) Ng K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exG l) j)) () O) :
    (bigSep Finset.univ fun k : Kix => (cellInv ER (rd m) (K (c, k)) (kcell (c, k)) : sProp 𝕄))
      ⊢ iprop(levAts L lv
        -∗ cred (tallyAt (rcvCell c (exG l) j) () Ng)
        -∗ owes (c : Thread nD τ) O W
        -∗ atPos ER (rcvCell c (exG l) j) 0 ∅ 0
        -∗ ((owes (c : Thread nD τ) O (insert (SemLoc.dma (rcvS (exG l) j), ()) W) ∗ atPos ER (rcvCell c (exG l) j) 1 ∅ 0
              ∗ heldAt c (grM l j) (gLanded m l c j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hlev Hc HO Hat Hk
  iapply (wp_recv_G m K c l j hw O W hmw) $$ [Hlev Hc HO Hat]
  · isplitr; · iapply (inv_rcv m K c (exG l) j); iexact HIown
    isplitl [Hc]; · iexact Hc
    isplitl [HO]; · iexact HO
    isplitl [Hlev]; · iexact Hlev
    iexact Hat
  iexact Hk

theorem wp_sent_Hw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exH l) j)) Nh K')
    {α : Type} {Q : α → sProp 𝕄} {k : PUnit → Prog (TpuEff nD τ sig (Elt F) Λ₀ .tc) α}
    (W : Waits sig Unit) :
    (bigSep Finset.univ fun k : Kix => (cellInv ER (rd m) (K (c, k)) (kcell (c, k)) : sProp 𝕄))
      ⊢ iprop(cred (tallyAt (sndCell c (exH l) j) () Nh)
        -∗ owes (c : Thread nD τ) 0 W
        -∗ atPos ER (sndCell c (exH l) j) 0 ∅ 0
        -∗ ((owes (c : Thread nD τ) 0 (insert (SemLoc.dma (sndS (exH l) j), ()) W) ∗ atPos ER (sndCell c (exH l) j) 1 ∅ 0
              ∗ heldS c (hsM l j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hc HO Hat Hk
  iapply (wp_sent_H m K c l j hw W) $$ [Hc HO Hat]
  · isplitr; · iapply (inv_snd m K c (exH l) j); iexact HIown
    isplitl [Hc]; · iexact Hc
    isplitl [HO]; · iexact HO
    iexact Hat
  iexact Hk

theorem wp_sent_Gw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exG l) j)) Ng K')
    {α : Type} {Q : α → sProp 𝕄} {k : PUnit → Prog (TpuEff nD τ sig (Elt F) Λ₀ .tc) α}
    (W : Waits sig Unit) :
    (bigSep Finset.univ fun k : Kix => (cellInv ER (rd m) (K (c, k)) (kcell (c, k)) : sProp 𝕄))
      ⊢ iprop(cred (tallyAt (sndCell c (exG l) j) () Ng)
        -∗ owes (c : Thread nD τ) 0 W
        -∗ atPos ER (sndCell c (exG l) j) 0 ∅ 0
        -∗ ((owes (c : Thread nD τ) 0 (insert (SemLoc.dma (sndS (exG l) j), ()) W) ∗ atPos ER (sndCell c (exG l) j) 1 ∅ 0
              ∗ heldS c (gsM l j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hc HO Hat Hk
  iapply (wp_sent_G m K c l j hw W) $$ [Hc HO Hat]
  · isplitr; · iapply (inv_snd m K c (exG l) j); iexact HIown
    isplitl [Hc]; · iexact Hc
    isplitl [HO]; · iexact HO
    iexact Hat
  iexact Hk

theorem close_cellw (K : Dev nD × Kix → ℕ) (c : Dev nD) (k : Bool × Fin 6 × Fin 4) :
    (bigSep Finset.univ fun k : Kix => (cellInv ER (rd m) (K (c, k)) (kcell (c, k)) : sProp 𝕄))
      ⊢ iprop(atPos ER (kcell (c, some k)) 1 ∅ 0 -∗ |={Set.univ}=> semVal (kcell (c, some k)) 0) := by
  iintro #HIown Hat
  iapply (close_cell m K c k)
  isplitr; · iapply (inv_own m K c (some k)); iexact HIown
  iexact Hat

end Cert.KernelIdeal.Hand

end
-- ==== Proof.Slices.lean ====
import proofs.«901003_g7700000000001004_dist_mlpseq_tp2d_cs_cs_b64_d1024_h2048_v7x_xy2x2_bf16_1_alg».proof.Proof.Ghost
import Idealize.ShloMosaic.Lib.Memref
import Idealize.ShloMosaic.Lib.Ring

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance eltNonempty (e : EltTy) : Nonempty (Elt F e) := by
  cases e <;> first | exact ⟨(0 : BitVec _)⟩ | exact ⟨FloatOps.ofBits _ 0⟩

theorem blocks_split (c : Dev nD) (b : Ref sig .tc) {B : Type} [Fintype B] [DecidableEq B]
    (I : B → Finset (Idx ((Memref.whole b : Memref sig .tc _ _ _).view.loc (c : Thread nD τ))))
    (hd : ∀ t t', t ≠ t' → Disjoint (I t) (I t')) (hc : Finset.univ.biUnion I = Finset.univ)
    (P : B → sProp 𝕄)
    (hP : ∀ t f, ((Memref.whole b : Memref sig .tc _ _ _).view.loc (c : Thread nD τ) ↦[I t]{fullShare} f : sProp 𝕄) ⊢ P t) :
    iprop(∃ f, ptw (F := F) c b f) ⊢ bigSep Finset.univ P := by
  iintro ⟨%f, H⟩
  iapply ((Entails.of_eq (Ring.pointsTo_blocks (ℓ := (Memref.whole b : Memref sig .tc _ _ _).view.loc (c : Thread nD τ))
    (q := fullShare) I hd hc f)).trans (BI.bigSep_mono fun t _ => hP t f))
  iexact H

theorem blocks_join (c : Dev nD) (b : Ref sig .tc) {B : Type} [Fintype B] [DecidableEq B]
    (I : B → Finset (Idx ((Memref.whole b : Memref sig .tc _ _ _).view.loc (c : Thread nD τ))))
    (hd : ∀ t t', t ≠ t' → Disjoint (I t) (I t')) (hc : Finset.univ.biUnion I = Finset.univ)
    (P : B → sProp 𝕄)
    (hP : ∀ t, P t ⊢ iprop(∃ f, ((Memref.whole b : Memref sig .tc _ _ _).view.loc (c : Thread nD τ) ↦[I t]{fullShare} f : sProp 𝕄))) :
    bigSep Finset.univ P ⊢ iprop(∃ f, ptw (F := F) c b f) :=
  (BI.bigSep_mono fun t _ => hP t).trans
    (Ring.pointsTo_blocks_join_exists (ℓ := (Memref.whole b : Memref sig .tc _ _ _).view.loc (c : Thread nD τ))
      (q := fullShare) I hd hc (Memref.whole b : Memref sig .tc _ _ _).view.junk)

abbrev rH (lj : Fin 3 × Fin 4) : Rect S3x64x2048 := Rect.unit (s := S3x64x2048) ![lj.1.val, 0, 512 * lj.2.val] S1x64x512.size (inbH lj.1 lj.2)

theorem mem_rH (lj : Fin 3 × Fin 4) (y : S3x64x2048.Idx) :
    y ∈ (rH lj).set ↔ (y 0).val = lj.1.val ∧ 512 * lj.2.val ≤ (y 2).val ∧ (y 2).val < 512 * lj.2.val + 512 := by
  rw [Rect.mem_set_unit]
  have h1 : (y 1).val < 64 := (y 1).isLt
  constructor
  · intro H
    have a0 : lj.1.val ≤ (y 0).val ∧ (y 0).val < lj.1.val + 1 := H 0
    have a2 : 512 * lj.2.val ≤ (y 2).val ∧ (y 2).val < 512 * lj.2.val + 512 := H 2
    omega
  · intro H a; fin_cases a
    · show lj.1.val ≤ (y 0).val ∧ (y 0).val < lj.1.val + 1; omega
    · show 0 ≤ (y 1).val ∧ (y 1).val < 0 + 64; omega
    · show 512 * lj.2.val ≤ (y 2).val ∧ (y 2).val < 512 * lj.2.val + 512; omega

theorem rH_disjoint : ∀ t t' : Fin 3 × Fin 4, t ≠ t' → Disjoint (rH t).set (rH t').set := fun t t' hne => by
  rw [Finset.disjoint_left]; intro y hy hy'; rw [mem_rH] at hy hy'
  exact hne (Prod.ext (Fin.ext (by omega)) (Fin.ext (by omega)))

theorem rH_cover : Finset.univ.biUnion (fun t => (rH t).set) = Finset.univ := by
  ext y; simp only [Finset.mem_biUnion, Finset.mem_univ, true_and, iff_true]
  have h2 : (y 2).val < 2048 := (y 2).isLt
  refine ⟨(y 0, ⟨(y 2).val / 512, by omega⟩), (mem_rH _ _).mpr ⟨rfl, ?_, ?_⟩⟩
  · show 512 * ((y 2).val / 512) ≤ (y 2).val; omega
  · show (y 2).val < 512 * ((y 2).val / 512) + 512; omega

abbrev rG (lj : Fin 3 × Fin 4) : Rect S3x64x1024 := Rect.unit (s := S3x64x1024) ![lj.1.val, 0, 256 * lj.2.val] S1x64x256.size (inbG lj.1 lj.2)

theorem mem_rG (lj : Fin 3 × Fin 4) (y : S3x64x1024.Idx) :
    y ∈ (rG lj).set ↔ (y 0).val = lj.1.val ∧ 256 * lj.2.val ≤ (y 2).val ∧ (y 2).val < 256 * lj.2.val + 256 := by
  rw [Rect.mem_set_unit]
  have h1 : (y 1).val < 64 := (y 1).isLt
  constructor
  · intro H
    have a0 : lj.1.val ≤ (y 0).val ∧ (y 0).val < lj.1.val + 1 := H 0
    have a2 : 256 * lj.2.val ≤ (y 2).val ∧ (y 2).val < 256 * lj.2.val + 256 := H 2
    omega
  · intro H a; fin_cases a
    · show lj.1.val ≤ (y 0).val ∧ (y 0).val < lj.1.val + 1; omega
    · show 0 ≤ (y 1).val ∧ (y 1).val < 0 + 64; omega
    · show 256 * lj.2.val ≤ (y 2).val ∧ (y 2).val < 256 * lj.2.val + 256; omega

theorem rG_disjoint : ∀ t t' : Fin 3 × Fin 4, t ≠ t' → Disjoint (rG t).set (rG t').set := fun t t' hne => by
  rw [Finset.disjoint_left]; intro y hy hy'; rw [mem_rG] at hy hy'
  exact hne (Prod.ext (Fin.ext (by omega)) (Fin.ext (by omega)))

theorem rG_cover : Finset.univ.biUnion (fun t => (rG t).set) = Finset.univ := by
  ext y; simp only [Finset.mem_biUnion, Finset.mem_univ, true_and, iff_true]
  have h2 : (y 2).val < 1024 := (y 2).isLt
  refine ⟨(y 0, ⟨(y 2).val / 256, by omega⟩), (mem_rG _ _).mpr ⟨rfl, ?_, ?_⟩⟩
  · show 256 * ((y 2).val / 256) ≤ (y 2).val; omega
  · show (y 2).val < 256 * ((y 2).val / 256) + 256; omega

theorem hs_set (lj : Fin 3 × Fin 4) : (hsM lj.1 lj.2).view.set = (rH lj).set :=
  (View.set_reshape _ _).trans (View.set_slice_whole _ _)

theorem hs_split (c : Dev nD) :
    iprop(∃ f, ptw (F := F) c cc0_scratch4 f) ⊢ bigSep Finset.univ fun lj : Fin 3 × Fin 4 => heldS c (hsM lj.1 lj.2) :=
  blocks_split c cc0_scratch4 (fun lj => (rH lj).set) rH_disjoint rH_cover _ fun lj f => by
    unfold heldS; rw [hs_set]; iintro H; iexists f; iexact H

theorem hs_join (c : Dev nD) :
    (bigSep Finset.univ fun lj : Fin 3 × Fin 4 => heldS (F := F) c (hsM lj.1 lj.2)) ⊢ iprop(∃ f, ptw c cc0_scratch4 f) :=
  blocks_join c cc0_scratch4 (fun lj => (rH lj).set) rH_disjoint rH_cover _ fun lj => by
    unfold heldS; rw [hs_set]

theorem hr_set (lj : Fin 3 × Fin 4) : (hrM lj.1 lj.2).view.set = (rH lj).set :=
  (View.set_reshape _ _).trans (View.set_slice_whole _ _)

theorem hr_split (c : Dev nD) :
    iprop(∃ f, ptw (F := F) c cc0_scratch5 f) ⊢ bigSep Finset.univ fun lj : Fin 3 × Fin 4 => heldS c (hrM lj.1 lj.2) :=
  blocks_split c cc0_scratch5 (fun lj => (rH lj).set) rH_disjoint rH_cover _ fun lj f => by
    unfold heldS; rw [hr_set]; iintro H; iexists f; iexact H

theorem hr_join (c : Dev nD) :
    (bigSep Finset.univ fun lj : Fin 3 × Fin 4 => heldS (F := F) c (hrM lj.1 lj.2)) ⊢ iprop(∃ f, ptw c cc0_scratch5 f) :=
  blocks_join c cc0_scratch5 (fun lj => (rH lj).set) rH_disjoint rH_cover _ fun lj => by
    unfold heldS; rw [hr_set]

theorem gs_set (lj : Fin 3 × Fin 4) : (gsM lj.1 lj.2).view.set = (rG lj).set :=
  (View.set_reshape _ _).trans (View.set_slice_whole _ _)

theorem gs_split (c : Dev nD) :
    iprop(∃ f, ptw (F := F) c cc0_scratch6 f) ⊢ bigSep Finset.univ fun lj : Fin 3 × Fin 4 => heldS c (gsM lj.1 lj.2) :=
  blocks_split c cc0_scratch6 (fun lj => (rG lj).set) rG_disjoint rG_cover _ fun lj f => by
    unfold heldS; rw [gs_set]; iintro H; iexists f; iexact H

theorem gs_join (c : Dev nD) :
    (bigSep Finset.univ fun lj : Fin 3 × Fin 4 => heldS (F := F) c (gsM lj.1 lj.2)) ⊢ iprop(∃ f, ptw c cc0_scratch6 f) :=
  blocks_join c cc0_scratch6 (fun lj => (rG lj).set) rG_disjoint rG_cover _ fun lj => by
    unfold heldS; rw [gs_set]

theorem gr_set (lj : Fin 3 × Fin 4) : (grM lj.1 lj.2).view.set = (rG lj).set :=
  (View.set_reshape _ _).trans (View.set_slice_whole _ _)

theorem gr_split (c : Dev nD) :
    iprop(∃ f, ptw (F := F) c cc0_scratch7 f) ⊢ bigSep Finset.univ fun lj : Fin 3 × Fin 4 => heldS c (grM lj.1 lj.2) :=
  blocks_split c cc0_scratch7 (fun lj => (rG lj).set) rG_disjoint rG_cover _ fun lj f => by
    unfold heldS; rw [gr_set]; iintro H; iexists f; iexact H

theorem gr_join (c : Dev nD) :
    (bigSep Finset.univ fun lj : Fin 3 × Fin 4 => heldS (F := F) c (grM lj.1 lj.2)) ⊢ iprop(∃ f, ptw c cc0_scratch7 f) :=
  blocks_join c cc0_scratch7 (fun lj => (rG lj).set) rG_disjoint rG_cover _ fun lj => by
    unfold heldS; rw [gr_set]

theorem inbO (j : Fin 4) : ∀ a, (![0, 256 * j.val] : Fin 2 → Nat) a + S64x256.size a ≤ S64x1024.size a := by
  intro a; have := j.isLt
  match a with
  | ⟨0, _⟩ => show 0 + 64 ≤ 64; omega
  | ⟨1, _⟩ => show 256 * j.val + 256 ≤ 1024; omega

abbrev ovM (j : Fin 4) : Memref sig .tc .vmem S64x256 .f32 := (Memref.whole cc0_scratch13).slice (Rect.unit (s := S64x1024) ![0, 256 * j.val] S64x256.size (inbO j)) (fun _ => rfl)

abbrev outM (j : Fin 4) : Memref sig .tc .hbm S64x256 .f32 := (Memref.whole main_v1).slice (Rect.unit (s := S64x1024) ![0, 256 * j.val] S64x256.size (inbO j)) (fun _ => rfl)

abbrev rO (j : Fin 4) : Rect S64x1024 := Rect.unit (s := S64x1024) ![0, 256 * j.val] S64x256.size (inbO j)

theorem mem_rO (j : Fin 4) (y : S64x1024.Idx) :
    y ∈ (rO j).set ↔ 256 * j.val ≤ (y 1).val ∧ (y 1).val < 256 * j.val + 256 := by
  rw [Rect.mem_set_unit]
  have h0 : (y 0).val < 64 := (y 0).isLt
  constructor
  · intro H
    have a1 : 256 * j.val ≤ (y 1).val ∧ (y 1).val < 256 * j.val + 256 := H 1
    omega
  · intro H a; fin_cases a
    · show 0 ≤ (y 0).val ∧ (y 0).val < 0 + 64; omega
    · show 256 * j.val ≤ (y 1).val ∧ (y 1).val < 256 * j.val + 256; omega

theorem rO_disjoint : ∀ t t' : Fin 4, t ≠ t' → Disjoint (rO t).set (rO t').set := fun t t' hne => by
  rw [Finset.disjoint_left]; intro y hy hy'; rw [mem_rO] at hy hy'
  exact hne (Fin.ext (by omega))

theorem rO_cover : Finset.univ.biUnion (fun t => (rO t).set) = Finset.univ := by
  ext y; simp only [Finset.mem_biUnion, Finset.mem_univ, true_and, iff_true]
  have h1 : (y 1).val < 1024 := (y 1).isLt
  refine ⟨⟨(y 1).val / 256, by omega⟩, (mem_rO _ _).mpr ⟨?_, ?_⟩⟩
  · show 256 * ((y 1).val / 256) ≤ (y 1).val; omega
  · show (y 1).val < 256 * ((y 1).val / 256) + 256; omega

theorem ov_set (j : Fin 4) : (ovM j).view.set = (rO j).set := View.set_slice_whole _ _
theorem out_set (j : Fin 4) : (outM j).view.set = (rO j).set := View.set_slice_whole _ _

theorem ov_split (c : Dev nD) :
    iprop(∃ f, ptw (F := F) c cc0_scratch13 f) ⊢ bigSep Finset.univ fun j : Fin 4 => heldS c (ovM j) :=
  blocks_split c cc0_scratch13 (fun j => (rO j).set) rO_disjoint rO_cover _ fun j f => by
    unfold heldS; rw [ov_set]; iintro H; iexists f; iexact H

theorem ov_join (c : Dev nD) :
    (bigSep Finset.univ fun j : Fin 4 => heldS (F := F) c (ovM j)) ⊢ iprop(∃ f, ptw c cc0_scratch13 f) :=
  blocks_join c cc0_scratch13 (fun j => (rO j).set) rO_disjoint rO_cover _ fun j => by
    unfold heldS; rw [ov_set]

theorem out_split (c : Dev nD) :
    iprop(∃ f, ptw (F := F) c main_v1 f) ⊢ bigSep Finset.univ fun j : Fin 4 => heldS c (outM j) :=
  blocks_split c main_v1 (fun j => (rO j).set) rO_disjoint rO_cover _ fun j f => by
    unfold heldS; rw [out_set]; iintro H; iexists f; iexact H

theorem outA_chunk (m : (ℓ : Loc nD τ sig) → Buf (Elt F) ℓ) (c : Dev nD) (j : Fin 4) :
    (fun i => outA m c ((rO j).emb i)) = acc2 m c j := by
  funext i
  have hi1 : (i 1).val < 256 := (i 1).isLt
  exact congrArg₂ (acc2 m c)
    (Fin.ext (by show (256 * j.val + 1 * (i 1).val) / 256 = j.val; omega))
    (funext fun a => by
      match a with
      | ⟨0, _⟩ => exact Fin.ext (by show 0 + 1 * (i 0).val = (i 0).val; omega)
      | ⟨1, _⟩ => exact Fin.ext (by show (256 * j.val + 1 * (i 1).val) % 256 = (i 1).val; omega))

theorem heldAt_owns (c : Dev nD) {sp : Space} {S : Shape} {e : EltTy} (M : Memref sig .tc sp S e) (v : S.Idx → Elt F e) :
    heldAt c M v ⊢ (owns (c : Thread nD τ) M fullShare v : sProp 𝕄) := by
  unfold heldAt owns
  iintro ⟨%f, H, %hf⟩
  iexists f
  isplitr
  · ipureintro; exact hf
  · iexact H

theorem out_join_at (m : (ℓ : Loc nD τ sig) → Buf (Elt F) ℓ) (c : Dev nD) :
    (bigSep Finset.univ fun j : Fin 4 => heldAt c (outM j) (acc2 m c j)) ⊢ ptw c main_v1 (outA m c) := by
  have hw : (owns (c : Thread nD τ) (Memref.whole main_v1 : Memref sig .tc _ _ _) fullShare (outA m c) : sProp 𝕄)
      ⊢ ptw c main_v1 (outA m c) := by
    unfold owns
    iintro ⟨%g, %hg, H⟩
    simp only [Memref.view_whole, View.read_whole] at hg
    subst hg
    simp only [View.set_whole]
    iexact H
  refine (BI.bigSep_mono fun j _ => ?_).trans
    ((owns_of_rects (c : Thread nD τ) (Memref.whole main_v1 : Memref sig .tc _ _ _) fullShare rO (fun _ _ => rfl) rO_disjoint rO_cover (outA m c)).trans hw)
  rw [outA_chunk]
  exact heldAt_owns c (outM j) (acc2 m c j)

theorem any_join {ℓ : Loc nD τ sig} {I J K : Finset (Idx ℓ)} (hd : Disjoint I J) (hu : I ∪ J = K) :
    iprop((∃ f, (ℓ ↦[I]{fullShare} f : sProp 𝕄)) ∗ (∃ g, (ℓ ↦[J]{fullShare} g : sProp 𝕄)))
      ⊢ iprop(∃ h, (ℓ ↦[K]{fullShare} h : sProp 𝕄)) := by
  subst hu
  iintro ⟨⟨%f, Hf⟩, ⟨%g, Hg⟩⟩
  iexists J.piecewise g f
  iapply (pointsTo_join hd)
  isplitl [Hf]
  · iexact Hf
  · iexact Hg

theorem any_split {ℓ : Loc nD τ sig} {I J K : Finset (Idx ℓ)} (hd : Disjoint I J) (hu : I ∪ J = K) :
    iprop(∃ h, (ℓ ↦[K]{fullShare} h : sProp 𝕄))
      ⊢ iprop((∃ f, (ℓ ↦[I]{fullShare} f : sProp 𝕄)) ∗ (∃ g, (ℓ ↦[J]{fullShare} g : sProp 𝕄))) := by
  subst hu
  iintro ⟨%h, H⟩
  ihave H' := (pointsTo_union hd).1 $$ H
  icases H' with ⟨Hf, Hg⟩
  isplitl [Hf]
  · iexists h; iexact Hf
  · iexists h; iexact Hg

abbrev a1A : Memref sig .tc .hbm S1024x1024 .f32 := (Memref.whole main_arg1).slice (Rect.unit (s := S1024x2048) ![0, 0] S1024x1024.size inb_S1024x2048_S1024x1024_0_0) (fun _ => rfl)
abbrev a1B : Memref sig .tc .hbm S1024x1024 .f32 := (Memref.whole main_arg1).slice (Rect.unit (s := S1024x2048) ![0, 1024] S1024x1024.size inb_S1024x2048_S1024x1024_0_1024) (fun _ => rfl)

abbrev rAA : Rect S1024x2048 := Rect.unit (s := S1024x2048) ![0, 0] S1024x1024.size inb_S1024x2048_S1024x1024_0_0
abbrev rAB : Rect S1024x2048 := Rect.unit (s := S1024x2048) ![0, 1024] S1024x1024.size inb_S1024x2048_S1024x1024_0_1024

theorem mem_rAA (y : S1024x2048.Idx) : y ∈ rAA.set ↔ (y 1).val < 1024 := by
  rw [Rect.mem_set_unit]
  have h0 : (y 0).val < 1024 := (y 0).isLt
  constructor
  · intro H
    have a1 : 0 ≤ (y 1).val ∧ (y 1).val < 0 + 1024 := H 1
    omega
  · intro H a; fin_cases a
    · show 0 ≤ (y 0).val ∧ (y 0).val < 0 + 1024; omega
    · show 0 ≤ (y 1).val ∧ (y 1).val < 0 + 1024; omega

theorem mem_rAB (y : S1024x2048.Idx) : y ∈ rAB.set ↔ 1024 ≤ (y 1).val := by
  rw [Rect.mem_set_unit]
  have h0 : (y 0).val < 1024 := (y 0).isLt
  have h1 : (y 1).val < 2048 := (y 1).isLt
  constructor
  · intro H
    have a1 : 1024 ≤ (y 1).val ∧ (y 1).val < 1024 + 1024 := H 1
    omega
  · intro H a; fin_cases a
    · show 0 ≤ (y 0).val ∧ (y 0).val < 0 + 1024; omega
    · show 1024 ≤ (y 1).val ∧ (y 1).val < 1024 + 1024; omega

theorem rAAB_disjoint : Disjoint rAA.set rAB.set := by
  rw [Finset.disjoint_left]; intro y hy hy'; rw [mem_rAA] at hy; rw [mem_rAB] at hy'; omega

theorem rAAB_union : rAA.set ∪ rAB.set = Finset.univ := by
  ext y; simp only [Finset.mem_union, Finset.mem_univ, iff_true]; rw [mem_rAA, mem_rAB]; omega

theorem a1A_set : a1A.view.set = rAA.set := View.set_slice_whole _ _
theorem a1B_set : a1B.view.set = rAB.set := View.set_slice_whole _ _

theorem arg1_split (c : Dev nD) (f : Buf (Elt F) ((Memref.whole main_arg1 : Memref sig .tc _ _ _).view.loc (c : Thread nD τ))) :
    ptw c main_arg1 f ⊢ iprop((a1A.view.loc (c : Thread nD τ) ↦[a1A.view.set]{fullShare} f) ∗ (a1B.view.loc (c : Thread nD τ) ↦[a1B.view.set]{fullShare} f)) := by
  rw [a1A_set, a1B_set]
  exact (Entails.of_eq (congrArg (fun K => (((Memref.whole main_arg1 : Memref sig .tc _ _ _).view.loc (c : Thread nD τ)) ↦[K]{fullShare} f : sProp 𝕄)) rAAB_union.symm)).trans
    (pointsTo_union rAAB_disjoint).1

theorem arg1_join (c : Dev nD) (f : Buf (Elt F) ((Memref.whole main_arg1 : Memref sig .tc _ _ _).view.loc (c : Thread nD τ))) :
    iprop((a1A.view.loc (c : Thread nD τ) ↦[a1A.view.set]{fullShare} f) ∗ (a1B.view.loc (c : Thread nD τ) ↦[a1B.view.set]{fullShare} f)) ⊢ ptw c main_arg1 f := by
  rw [a1A_set, a1B_set]
  exact (pointsTo_union rAAB_disjoint).2.trans
    (Entails.of_eq (congrArg (fun K => (((Memref.whole main_arg1 : Memref sig .tc _ _ _).view.loc (c : Thread nD τ)) ↦[K]{fullShare} f : sProp 𝕄)) rAAB_union))

abbrev wbA : Memref sig .tc .vmem S1024x1024 .f32 := ((Memref.whole cc0_scratch0).slice (Rect.unit (s := S2x1024x2048) ![0, 0, 0] S1x1024x1024.size inb_S2x1024x2048_S1x1024x1024_0_0_0) (fun _ => rfl)).squeeze S1024x1024 squeezes_S1x1024x1024_S1024x1024
abbrev wbB : Memref sig .tc .vmem S1024x1024 .f32 := ((Memref.whole cc0_scratch0).slice (Rect.unit (s := S2x1024x2048) ![0, 0, 1024] S1x1024x1024.size inb_S2x1024x2048_S1x1024x1024_0_0_1024) (fun _ => rfl)).squeeze S1024x1024 squeezes_S1x1024x1024_S1024x1024
abbrev wbC : Memref sig .tc .vmem S1024x2048 .f32 := ((Memref.whole cc0_scratch0).slice (Rect.unit (s := S2x1024x2048) ![1, 0, 0] S1x1024x2048.size inb_S2x1024x2048_S1x1024x2048_1_0_0) (fun _ => rfl)).squeeze S1024x2048 squeezes_S1x1024x2048_S1024x2048
abbrev wb0 : Memref sig .tc .vmem S1024x2048 .f32 := ((Memref.whole cc0_scratch0).slice (Rect.unit (s := S2x1024x2048) ![0, 0, 0] S1x1024x2048.size inb_S2x1024x2048_S1x1024x2048_0_0_0) (fun _ => rfl)).squeeze S1024x2048 squeezes_S1x1024x2048_S1024x2048
abbrev vbA : Memref sig .tc .vmem S2048x1024 .f32 := ((Memref.whole cc0_scratch1).slice (Rect.unit (s := S2x2048x1024) ![0, 0, 0] S1x2048x1024.size inb_S2x2048x1024_S1x2048x1024_0_0_0) (fun _ => rfl)).squeeze S2048x1024 squeezes_S1x2048x1024_S2048x1024
abbrev vbB : Memref sig .tc .vmem S2048x1024 .f32 := ((Memref.whole cc0_scratch1).slice (Rect.unit (s := S2x2048x1024) ![1, 0, 0] S1x2048x1024.size inb_S2x2048x1024_S1x2048x1024_1_0_0) (fun _ => rfl)).squeeze S2048x1024 squeezes_S1x2048x1024_S2048x1024

abbrev rWA : Rect S2x1024x2048 := Rect.unit (s := S2x1024x2048) ![0, 0, 0] S1x1024x1024.size inb_S2x1024x2048_S1x1024x1024_0_0_0
abbrev rWB : Rect S2x1024x2048 := Rect.unit (s := S2x1024x2048) ![0, 0, 1024] S1x1024x1024.size inb_S2x1024x2048_S1x1024x1024_0_0_1024
abbrev rWC : Rect S2x1024x2048 := Rect.unit (s := S2x1024x2048) ![1, 0, 0] S1x1024x2048.size inb_S2x1024x2048_S1x1024x2048_1_0_0
abbrev rW0 : Rect S2x1024x2048 := Rect.unit (s := S2x1024x2048) ![0, 0, 0] S1x1024x2048.size inb_S2x1024x2048_S1x1024x2048_0_0_0

abbrev rVA : Rect S2x2048x1024 := Rect.unit (s := S2x2048x1024) ![0, 0, 0] S1x2048x1024.size inb_S2x2048x1024_S1x2048x1024_0_0_0
abbrev rVB : Rect S2x2048x1024 := Rect.unit (s := S2x2048x1024) ![1, 0, 0] S1x2048x1024.size inb_S2x2048x1024_S1x2048x1024_1_0_0

theorem mem_rWA (y : S2x1024x2048.Idx) : y ∈ rWA.set ↔ (y 0).val = 0 ∧ (y 2).val < 1024 := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 0 ≤ (y 2).val ∧ (y 2).val < 0 + 1024 := H 2
    omega
  · intro H a; fin_cases a
    · show 0 ≤ (y 0).val ∧ (y 0).val < 0 + 1; omega
    · show 0 ≤ (y 1).val ∧ (y 1).val < 0 + 1024; omega
    · show 0 ≤ (y 2).val ∧ (y 2).val < 0 + 1024; omega

theorem mem_rWB (y : S2x1024x2048.Idx) : y ∈ rWB.set ↔ (y 0).val = 0 ∧ 1024 ≤ (y 2).val := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 1024 ≤ (y 2).val ∧ (y 2).val < 1024 + 1024 := H 2
    omega
  · intro H a; fin_cases a
    · show 0 ≤ (y 0).val ∧ (y 0).val < 0 + 1; omega
    · show 0 ≤ (y 1).val ∧ (y 1).val < 0 + 1024; omega
    · show 1024 ≤ (y 2).val ∧ (y 2).val < 1024 + 1024; omega

theorem mem_rWC (y : S2x1024x2048.Idx) : y ∈ rWC.set ↔ (y 0).val = 1 := by
  rw [Rect.mem_set_unit]
  have h0 : (y 0).val < 2 := (y 0).isLt
  have h1 : (y 1).val < 1024 := (y 1).isLt
  have h2 : (y 2).val < 2048 := (y 2).isLt
  constructor
  · intro H
    have a0 : 1 ≤ (y 0).val ∧ (y 0).val < 1 + 1 := H 0
    have a2 : 0 ≤ (y 2).val ∧ (y 2).val < 0 + 2048 := H 2
    omega
  · intro H a; fin_cases a
    · show 1 ≤ (y 0).val ∧ (y 0).val < 1 + 1; omega
    · show 0 ≤ (y 1).val ∧ (y 1).val < 0 + 1024; omega
    · show 0 ≤ (y 2).val ∧ (y 2).val < 0 + 2048; omega

theorem mem_rW0 (y : S2x1024x2048.Idx) : y ∈ rW0.set ↔ (y 0).val = 0 := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 0 ≤ (y 2).val ∧ (y 2).val < 0 + 2048 := H 2
    omega
  · intro H a; fin_cases a
    · show 0 ≤ (y 0).val ∧ (y 0).val < 0 + 1; omega
    · show 0 ≤ (y 1).val ∧ (y 1).val < 0 + 1024; omega
    · show 0 ≤ (y 2).val ∧ (y 2).val < 0 + 2048; omega

theorem mem_rVA (y : S2x2048x1024.Idx) : y ∈ rVA.set ↔ (y 0).val = 0 := by
  rw [Rect.mem_set_unit]
  have h0 : (y 0).val < 2 := (y 0).isLt
  have h1 : (y 1).val < 2048 := (y 1).isLt
  have h2 : (y 2).val < 1024 := (y 2).isLt
  constructor
  · intro H
    have a0 : 0 ≤ (y 0).val ∧ (y 0).val < 0 + 1 := H 0
    have a2 : 0 ≤ (y 2).val ∧ (y 2).val < 0 + 1024 := H 2
    omega
  · intro H a; fin_cases a
    · show 0 ≤ (y 0).val ∧ (y 0).val < 0 + 1; omega
    · show 0 ≤ (y 1).val ∧ (y 1).val < 0 + 2048; omega
    · show 0 ≤ (y 2).val ∧ (y 2).val < 0 + 1024; omega

theorem mem_rVB (y : S2x2048x1024.Idx) : y ∈ rVB.set ↔ (y 0).val = 1 := by
  rw [Rect.mem_set_unit]
  have h0 : (y 0).val < 2 := (y 0).isLt
  have h1 : (y 1).val < 2048 := (y 1).isLt
  have h2 : (y 2).val < 1024 := (y 2).isLt
  constructor
  · intro H
    have a0 : 1 ≤ (y 0).val ∧ (y 0).val < 1 + 1 := H 0
    have a2 : 0 ≤ (y 2).val ∧ (y 2).val < 0 + 1024 := H 2
    omega
  · intro H a; fin_cases a
    · show 1 ≤ (y 0).val ∧ (y 0).val < 1 + 1; omega
    · show 0 ≤ (y 1).val ∧ (y 1).val < 0 + 2048; omega
    · show 0 ≤ (y 2).val ∧ (y 2).val < 0 + 1024; omega

theorem rWAB_disjoint : Disjoint rWA.set rWB.set := by
  rw [Finset.disjoint_left]; intro y hy hy'; rw [mem_rWA] at hy; rw [mem_rWB] at hy'; omega
theorem rWAB_union : rWA.set ∪ rWB.set = rW0.set := by
  ext y; rw [Finset.mem_union, mem_rWA, mem_rWB, mem_rW0]; omega
theorem rW0C_disjoint : Disjoint rW0.set rWC.set := by
  rw [Finset.disjoint_left]; intro y hy hy'; rw [mem_rW0] at hy; rw [mem_rWC] at hy'; omega
theorem rW0C_union : rW0.set ∪ rWC.set = Finset.univ := by
  ext y; have h0 : (y 0).val < 2 := (y 0).isLt
  simp only [Finset.mem_union, Finset.mem_univ, iff_true]; rw [mem_rW0, mem_rWC]; omega
theorem rVAB_disjoint : Disjoint rVA.set rVB.set := by
  rw [Finset.disjoint_left]; intro y hy hy'; rw [mem_rVA] at hy; rw [mem_rVB] at hy'; omega
theorem rVAB_union : rVA.set ∪ rVB.set = Finset.univ := by
  ext y; have h0 : (y 0).val < 2 := (y 0).isLt
  simp only [Finset.mem_union, Finset.mem_univ, iff_true]; rw [mem_rVA, mem_rVB]; omega

theorem wbA_set : wbA.view.set = rWA.set := (View.set_reshape _ _).trans (View.set_slice_whole _ _)
theorem wbB_set : wbB.view.set = rWB.set := (View.set_reshape _ _).trans (View.set_slice_whole _ _)
theorem wbC_set : wbC.view.set = rWC.set := (View.set_reshape _ _).trans (View.set_slice_whole _ _)
theorem wb0_set : wb0.view.set = rW0.set := (View.set_reshape _ _).trans (View.set_slice_whole _ _)
theorem vbA_set : vbA.view.set = rVA.set := (View.set_reshape _ _).trans (View.set_slice_whole _ _)
theorem vbB_set : vbB.view.set = rVB.set := (View.set_reshape _ _).trans (View.set_slice_whole _ _)

theorem heldS_wbA (c : Dev nD) : heldS (F := F) c wbA = iprop(∃ f, (((Memref.whole cc0_scratch0 : Memref sig .tc _ _ _).view.loc (c : Thread nD τ)) ↦[rWA.set]{fullShare} f : sProp 𝕄)) := by
  unfold heldS; rw [wbA_set]
theorem heldS_wbB (c : Dev nD) : heldS (F := F) c wbB = iprop(∃ f, (((Memref.whole cc0_scratch0 : Memref sig .tc _ _ _).view.loc (c : Thread nD τ)) ↦[rWB.set]{fullShare} f : sProp 𝕄)) := by
  unfold heldS; rw [wbB_set]
theorem heldS_wbC (c : Dev nD) : heldS (F := F) c wbC = iprop(∃ f, (((Memref.whole cc0_scratch0 : Memref sig .tc _ _ _).view.loc (c : Thread nD τ)) ↦[rWC.set]{fullShare} f : sProp 𝕄)) := by
  unfold heldS; rw [wbC_set]
theorem heldS_wb0 (c : Dev nD) : heldS (F := F) c wb0 = iprop(∃ f, (((Memref.whole cc0_scratch0 : Memref sig .tc _ _ _).view.loc (c : Thread nD τ)) ↦[rW0.set]{fullShare} f : sProp 𝕄)) := by
  unfold heldS; rw [wb0_set]
theorem heldS_vbA (c : Dev nD) : heldS (F := F) c vbA = iprop(∃ f, (((Memref.whole cc0_scratch1 : Memref sig .tc _ _ _).view.loc (c : Thread nD τ)) ↦[rVA.set]{fullShare} f : sProp 𝕄)) := by
  unfold heldS; rw [vbA_set]
theorem heldS_vbB (c : Dev nD) : heldS (F := F) c vbB = iprop(∃ f, (((Memref.whole cc0_scratch1 : Memref sig .tc _ _ _).view.loc (c : Thread nD τ)) ↦[rVB.set]{fullShare} f : sProp 𝕄)) := by
  unfold heldS; rw [vbB_set]

theorem sc0_split (c : Dev nD) :
    iprop(∃ f, ptw (F := F) c cc0_scratch0 f) ⊢ iprop(heldS c wbA ∗ heldS c wbB ∗ heldS c wbC) := by
  rw [heldS_wbA, heldS_wbB, heldS_wbC]
  refine (any_split (ℓ := ((Memref.whole cc0_scratch0 : Memref sig .tc _ _ _).view.loc (c : Thread nD τ))) rW0C_disjoint rW0C_union).trans ?_
  iintro ⟨H0, HC⟩
  ihave H2 := (any_split (ℓ := ((Memref.whole cc0_scratch0 : Memref sig .tc _ _ _).view.loc (c : Thread nD τ))) rWAB_disjoint rWAB_union) $$ H0
  icases H2 with ⟨HA, HB⟩
  isplitl [HA]
  · iexact HA
  isplitl [HB]
  · iexact HB
  · iexact HC

theorem halves_join (c : Dev nD) : iprop(heldS (F := F) c wbA ∗ heldS c wbB) ⊢ heldS c wb0 := by
  rw [heldS_wbA, heldS_wbB, heldS_wb0]
  exact any_join rWAB_disjoint rWAB_union

theorem sc0_join (c : Dev nD) : iprop(heldS (F := F) c wb0 ∗ heldS c wbC) ⊢ iprop(∃ f, ptw c cc0_scratch0 f) := by
  rw [heldS_wb0, heldS_wbC]
  exact any_join rW0C_disjoint rW0C_union

theorem sc1_split (c : Dev nD) :
    iprop(∃ f, ptw (F := F) c cc0_scratch1 f) ⊢ iprop(heldS c vbA ∗ heldS c vbB) := by
  rw [heldS_vbA, heldS_vbB]
  exact any_split rVAB_disjoint rVAB_union

theorem sc1_join (c : Dev nD) : iprop(heldS (F := F) c vbA ∗ heldS c vbB) ⊢ iprop(∃ f, ptw c cc0_scratch1 f) := by
  rw [heldS_vbA, heldS_vbB]
  exact any_join rVAB_disjoint rVAB_union

end Cert.KernelIdeal.Hand

end
-- ==== Proof.Evidence.lean ====
import proofs.«901003_g7700000000001004_dist_mlpseq_tp2d_cs_cs_b64_d1024_h2048_v7x_xy2x2_bf16_1_alg».proof.Proof.LaunchRun
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def Above (n : ℕ) (O : CellTallies nD τ sig Unit) : Prop := ∀ g u, 0 < O g u → g.1.2 = .tc ∧ n < lv g u

theorem Above.zero (n : ℕ) : Above n (0 : CellTallies nD τ sig Unit) := fun g u h => by
  rw [Pi.zero_apply, Finsupp.zero_apply] at h; exact absurd h (Nat.lt_irrefl 0)

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)

def lvOf (sm : SemLoc sig) : ℕ := lv (((0 : Dev nD) : Thread nD τ), sm) ()

theorem lv_eq_lvOf (c : Dev nD) (sm : SemLoc sig) : lv ((c : Thread nD τ), sm) () = lvOf sm := rfl

theorem Above.tally {n : ℕ} (d : Dev nD) (sm : SemLoc sig) (a : ℕ) (h : n < lvOf sm) :
    Above n (tallyAt ((d : Thread nD τ), sm) () a) := fun g u hg => by
  obtain ⟨rfl, rfl⟩ := Pipeline.tallyAt_pos hg
  exact ⟨rfl, h⟩

theorem Above.tally_rcv {n : ℕ} (c : Dev nD) (i : Fin 6) (j : Fin 4) (a : ℕ) (h : n < 2 + i.val) :
    Above n (tallyAt (rcvCell c i j) () a) := fun g u hg => by
  obtain ⟨rfl, rfl⟩ := Pipeline.tallyAt_pos hg
  exact ⟨rfl, by rw [lv_rcv]; exact h⟩

theorem Above.tally_bar {n : ℕ} (c : Dev nD) (a : ℕ) (h : n < 1) : Above n (tallyAt (barCell c) () a) := fun g u hg => by
  obtain ⟨rfl, rfl⟩ := Pipeline.tallyAt_pos hg
  exact ⟨rfl, by rw [lv_bar]; exact h⟩

theorem Above.oweX {n : ℕ} (c : Dev nD) (i : Fin 6) (h : n < 2 + i.val) : Above n (oweX c i) := fun g u hg => by
  obtain ⟨j, rfl⟩ := oweX_pos hg
  cases u
  exact ⟨rfl, by rw [lv_rcv]; exact h⟩

theorem mayWait_at (c : Dev nD) (sm : SemLoc sig) (O : CellTallies nD τ sig Unit) (hO : Above (lvOf sm) O) :
    (levAts L lv : sProp 𝕄) ⊢ MayWait (c : Thread nD τ) sm () O :=
  mayWait_level c sm (lvOf sm) rfl O hO

macro "lv_tac" : tactic => `(tactic|
  first
    | exact (lv_eq_lvOf _ _).trans (by decide)
    | exact lv_eq_lvOf _ _
    | exact lv_rcv _ _ _
    | exact lv_snd _ _ _
    | exact lv_bar _)

macro "above_tac" : tactic => `(tactic|
  ((try rw [lv_eq_lvOf]);
   repeat' (first
    | (with_reducible apply Above.add)
    | (with_reducible exact Above.zero _)
    | ((with_reducible refine Above.oweX _ _ ?_); decide)
    | ((with_reducible refine Above.tally_rcv _ _ _ _ ?_); decide)
    | ((with_reducible refine Above.tally_bar _ _ ?_); decide)
    | ((with_reducible refine Above.tally _ _ _ ?_); decide))))

example (c : Dev nD) : Above 0 (oweX c 5 + oweX c 4 + oweX c 3 + oweX c 2 + oweX c 1 + oweX c 0) := by above_tac
example (c : Dev nD) : Above 2 (oweX c 5 + oweX c 4 + oweX c 3 + oweX c 2 + oweX c 1) := by above_tac
example (c : Dev nD) : Above 2 (oweX c 5 + oweX c 4 + oweX c 3 + oweX c 2
    + (tallyAt (rcvCell (peer 1 c) 1 2) () (amt 1) + tallyAt (rcvCell (peer 1 c) 1 3) () (amt 1))) := by above_tac
example (c : Dev nD) : Above (lvOf (SemLoc.dma (rcvS 0 1))) (oweX c 5 + oweX c 4 + oweX c 3 + oweX c 2 + oweX c 1) := by above_tac
example (c : Dev nD) : Above (lvOf (SemLoc.dma (s2a cc0_scratch12)))
    (oweX c 5 + (tallyAt (((yp c : Dev nD) : Thread nD τ), SemLoc.dma (rcvS 0 3)) () Nh + 0)) := by above_tac
example (c : Dev nD) : Above (lv ((c : Thread nD τ), SemLoc.dma (sndS 3 2)) ()) (oweX c 5 + oweX c 4) := by above_tac
example (c : Dev nD) : lv ((c : Thread nD τ), SemLoc.dma (rcvS 0 1)) () = 2 := by lv_tac
example (c : Dev nD) : lv ((c : Thread nD τ), SemLoc.dma (s2a cc0_scratch12)) () = 0 := by lv_tac
example (c : Dev nD) : lv ((c : Thread nD τ), SemLoc.dma (sndS 3 2)) () = 0 := by lv_tac
example (c : Dev nD) : lv ((c : Thread nD τ), SemLoc.reg barS) () = 1 := by lv_tac
example (c : Dev nD) :
    lv ((c : Thread nD τ), SemLoc.dma ((SemArray.slice cc0_scratch12 (Rect.unit (s := S2) ![0] S1.size inb_S2_S1_0)).squeeze S_ squeezes_S1_S_).sem) () = 0 := by
  lv_tac
example (c : Dev nD) : (levAts L lv : sProp 𝕄) ⊢ MayWait (c : Thread nD τ) (SemLoc.dma (rcvS 2 1)) () (oweX c 5 + oweX c 4 + oweX c 3) :=
  mayWait_at c _ _ (by above_tac)

end Cert.KernelIdeal.Hand

end
-- ==== Proof.Tally.lean ====
import proofs.«901003_g7700000000001004_dist_mlpseq_tp2d_cs_cs_b64_d1024_h2048_v7x_xy2x2_bf16_1_alg».proof.Proof.Evidence
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def tly (c : Dev nD) (n : ℕ) : CellTallies nD τ sig Unit :=
  if (n / 4) % 2 = 0 then tallyAt (rcvCell (yp c) (exH ⟨(n / 8) % 3, Nat.mod_lt _ (by decide)⟩) ⟨n % 4, Nat.mod_lt _ (by decide)⟩) () Nh
  else tallyAt (rcvCell (xp c) (exG ⟨(n / 8) % 3, Nat.mod_lt _ (by decide)⟩) ⟨n % 4, Nat.mod_lt _ (by decide)⟩) () Ng

def Rm (c : Dev nD) : ℕ → CellTallies nD τ sig Unit
  | 0 => 0
  | k + 1 => Rm c k + tly c (23 - k)

theorem tly_H (c : Dev nD) (l : Fin 3) (j : Fin 4) : tly c (8 * l.val + j.val) = tallyAt (rcvCell (yp c) (exH l) j) () Nh := by
  have hl := l.isLt; have hj := j.isLt
  unfold tly
  rw [if_pos (by omega)]
  have e1 : (⟨(8 * l.val + j.val) / 8 % 3, Nat.mod_lt _ (by decide)⟩ : Fin 3) = l := Fin.ext (by show (8 * l.val + j.val) / 8 % 3 = l.val; omega)
  have e2 : (⟨(8 * l.val + j.val) % 4, Nat.mod_lt _ (by decide)⟩ : Fin 4) = j := Fin.ext (by show (8 * l.val + j.val) % 4 = j.val; omega)
  rw [e1, e2]

theorem tly_G (c : Dev nD) (l : Fin 3) (j : Fin 4) : tly c (8 * l.val + 4 + j.val) = tallyAt (rcvCell (xp c) (exG l) j) () Ng := by
  have hl := l.isLt; have hj := j.isLt
  unfold tly
  rw [if_neg (by omega)]
  have e1 : (⟨(8 * l.val + 4 + j.val) / 8 % 3, Nat.mod_lt _ (by decide)⟩ : Fin 3) = l := Fin.ext (by show (8 * l.val + 4 + j.val) / 8 % 3 = l.val; omega)
  have e2 : (⟨(8 * l.val + 4 + j.val) % 4, Nat.mod_lt _ (by decide)⟩ : Fin 4) = j := Fin.ext (by show (8 * l.val + 4 + j.val) % 4 = j.val; omega)
  rw [e1, e2]

theorem oweX_tly0 (c : Dev nD) : oweX c 0 = tly c 0 + tly c 1 + tly c 2 + tly c 3 := rfl
theorem oweX_tly1 (c : Dev nD) : oweX c 1 = tly c 4 + tly c 5 + tly c 6 + tly c 7 := rfl
theorem oweX_tly2 (c : Dev nD) : oweX c 2 = tly c 8 + tly c 9 + tly c 10 + tly c 11 := rfl
theorem oweX_tly3 (c : Dev nD) : oweX c 3 = tly c 12 + tly c 13 + tly c 14 + tly c 15 := rfl
theorem oweX_tly4 (c : Dev nD) : oweX c 4 = tly c 16 + tly c 17 + tly c 18 + tly c 19 := rfl
theorem oweX_tly5 (c : Dev nD) : oweX c 5 = tly c 20 + tly c 21 + tly c 22 + tly c 23 := rfl

theorem Rm_24 (c : Dev nD) : Rm c 24 = oweX c 5 + oweX c 4 + oweX c 3 + oweX c 2 + oweX c 1 + oweX c 0 := by
  rw [oweX_tly5, oweX_tly4, oweX_tly3, oweX_tly2, oweX_tly1, oweX_tly0]
  show 0 + tly c 23 + tly c 22 + tly c 21 + tly c 20 + tly c 19 + tly c 18 + tly c 17 + tly c 16 + tly c 15 + tly c 14 + tly c 13 + tly c 12 + tly c 11 + tly c 10 + tly c 9 + tly c 8 + tly c 7 + tly c 6 + tly c 5 + tly c 4 + tly c 3 + tly c 2 + tly c 1 + tly c 0 = _
  rw [zero_add]
  ac_rfl

theorem O₀_eq (c : Dev nD) : O₀ c = Rm c 24 + tallyAt (barCell (yp c)) () 1 + tallyAt (barCell (xp c)) () 1 := by
  rw [Rm_24]; rfl

theorem Above_tly {lvl : ℕ} (c : Dev nD) (n : ℕ) (hn : n < 24) (h : lvl < 2 + n / 4) : Above lvl (tly c n) := by
  unfold tly
  split
  · exact Above.tally_rcv _ _ _ _ (by show lvl < 2 + 2 * ((n / 8) % 3); omega)
  · exact Above.tally_rcv _ _ _ _ (by show lvl < 2 + (2 * ((n / 8) % 3) + 1); omega)

theorem Above_Rm (c : Dev nD) (k lvl : ℕ) (hk : k ≤ 24) (h : lvl < 2 + (24 - k) / 4) : Above lvl (Rm c k) := by
  induction k with
  | zero => exact Above.zero _
  | succ k ih =>
    show Above lvl (Rm c k + tly c (23 - k))
    exact Above.add (ih (by omega) (by omega)) (Above_tly c (23 - k) (by omega) (by omega))

macro "rm_tac" : tactic => `(tactic|
  ((try rw [lv_eq_lvOf]);
   repeat' (first
    | (with_reducible apply Above.add)
    | (with_reducible exact Above.zero _)
    | ((with_reducible refine Above_Rm _ _ _ ?_ ?_) <;> decide)
    | ((with_reducible refine Above_tly _ _ ?_ ?_) <;> decide)
    | ((with_reducible refine Above.oweX _ _ ?_); decide)
    | ((with_reducible refine Above.tally_rcv _ _ _ _ ?_); decide)
    | ((with_reducible refine Above.tally_bar _ _ ?_); decide)
    | ((with_reducible refine Above.tally _ _ _ ?_); decide))))

example (c : Dev nD) : Rm c 24 = Rm c 23 + tly c 0 := rfl
example (c : Dev nD) : Above (lvOf (SemLoc.dma (s2a cc0_scratch12))) (Rm c 24) := by rm_tac
example (c : Dev nD) : Above (lvOf (SemLoc.dma (rcvS 0 1))) (Rm c 20) := by rm_tac
example (c : Dev nD) : Above (lvOf (SemLoc.reg barS)) (Rm c 24) := by rm_tac
example (c : Dev nD) : Above (lv ((c : Thread nD τ), SemLoc.dma (rcvS 2 3)) ()) (Rm c 12) := by rm_tac
example (c : Dev nD) : Above 0 (Rm c 17 + tly c 6) := by rm_tac
example (c : Dev nD) : Above 3 (Rm c 12 + tly c 11 + tly c 9) := by rm_tac
example (c : Dev nD) : Above (lvOf (SemLoc.dma (sndS 1 2))) (Rm c 18 + tallyAt (rcvCell (xp c) 1 1) () Ng) := by rm_tac

end Cert.KernelIdeal.Hand

end
-- ==== Proof.Finish.lean ====
import proofs.«901003_g7700000000001004_dist_mlpseq_tp2d_cs_cs_b64_d1024_h2048_v7x_xy2x2_bf16_1_alg».proof.Proof.StepsW
import proofs.«901003_g7700000000001004_dist_mlpseq_tp2d_cs_cs_b64_d1024_h2048_v7x_xy2x2_bf16_1_alg».proof.Proof.Slices

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
omit [FloatOps F] in
theorem heldAt_intro (c : Dev nD) {sp : Space} {S : Shape} {e : EltTy} (M : Memref sig .tc sp S e) (v : S.Idx → Elt F e)
    (f : Buf (Elt F) (M.view.loc (c : Thread nD τ))) (h : M.view.read (Elt F) f = v) :
    (M.view.loc (c : Thread nD τ) ↦[M.view.set]{fullShare} f : sProp 𝕄) ⊢ heldAt c M v := by
  unfold heldAt
  iintro H
  iexists f
  isplitl; · iexact H
  ipureintro; exact h

omit [FloatOps F] in
omit [FloatOps F] in

theorem sep24f (Φ : Fin 6 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)
        ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3)) :=
  bigSep_univ_eq_bigSepL [(0, 0), (0, 1), (0, 2), (0, 3), (1, 0), (1, 1), (1, 2), (1, 3), (2, 0), (2, 1), (2, 2), (2, 3),
    (3, 0), (3, 1), (3, 2), (3, 3), (4, 0), (4, 1), (4, 2), (4, 3), (5, 0), (5, 1), (5, 2), (5, 3)] (by decide) (by decide) Φ

theorem close_sndw (K : Dev nD × Kix → ℕ) (c : Dev nD) (i : Fin 6) (j : Fin 4) :
    (bigSep Finset.univ fun k : Kix => (cellInv ER (rd m) (K (c, k)) (kcell (c, k)) : sProp 𝕄))
      ⊢ iprop(atPos ER (sndCell c i j) 1 ∅ 0 -∗ |={Set.univ}=> semVal (sndCell c i j) 0) :=
  close_cellw m K c (false, i, j)

theorem close_rcvw (K : Dev nD × Kix → ℕ) (c : Dev nD) (i : Fin 6) (j : Fin 4) :
    (bigSep Finset.univ fun k : Kix => (cellInv ER (rd m) (K (c, k)) (kcell (c, k)) : sProp 𝕄))
      ⊢ iprop(atPos ER (rcvCell c i j) 1 ∅ 0 -∗ |={Set.univ}=> semVal (rcvCell c i j) 0) :=
  close_cellw m K c (true, i, j)

theorem close_snd (K : Dev nD × Kix → ℕ) (c : Dev nD) (i : Fin 6) (j : Fin 4) :
    iprop((bigSep Finset.univ fun k : Kix => (cellInv ER (rd m) (K (c, k)) (kcell (c, k)) : sProp 𝕄)) ∗ atPos ER (sndCell c i j) 1 ∅ 0)
      ⊢ |={Set.univ}=> semVal (sndCell c i j) 0 := by
  iintro ⟨HI, Hat⟩
  iapply (close_sndw m K c i j) $$ HI Hat

theorem close_rcv (K : Dev nD × Kix → ℕ) (c : Dev nD) (i : Fin 6) (j : Fin 4) :
    iprop((bigSep Finset.univ fun k : Kix => (cellInv ER (rd m) (K (c, k)) (kcell (c, k)) : sProp 𝕄)) ∗ atPos ER (rcvCell c i j) 1 ∅ 0)
      ⊢ |={Set.univ}=> semVal (rcvCell c i j) 0 := by
  iintro ⟨HI, Hat⟩
  iapply (close_rcvw m K c i j) $$ HI Hat

theorem close_all (K : Dev nD × Kix → ℕ) (c : Dev nD) :
    (bigSep Finset.univ fun k : Kix => (cellInv ER (rd m) (K (c, k)) (kcell (c, k)) : sProp 𝕄))
      ⊢ iprop((bigSep Finset.univ fun ij : Fin 6 × Fin 4 => atPos ER (sndCell c ij.1 ij.2) 1 ∅ 0)
        -∗ (bigSep Finset.univ fun ij : Fin 6 × Fin 4 => atPos ER (rcvCell c ij.1 ij.2) 1 ∅ 0)
        -∗ |={Set.univ}=> bigSep Finset.univ fun ij : Fin 6 × Fin 4 => iprop(semVal (sndCell c ij.1 ij.2) 0 ∗ semVal (rcvCell c ij.1 ij.2) 0)) := by
  have hS : iprop((bigSep Finset.univ fun k : Kix => (cellInv ER (rd m) (K (c, k)) (kcell (c, k)) : sProp 𝕄))
        ∗ bigSep Finset.univ fun ij : Fin 6 × Fin 4 => atPos ER (sndCell c ij.1 ij.2) 1 ∅ 0)
      ⊢ (|={Set.univ}=> bigSep Finset.univ fun ij : Fin 6 × Fin 4 => semVal (sndCell c ij.1 ij.2) 0 : sProp 𝕄) :=
    (bigSep_with_persistent fun ij _ => close_snd m K c ij.1 ij.2).trans (bigSep_fupd _ _)
  have hR : iprop((bigSep Finset.univ fun k : Kix => (cellInv ER (rd m) (K (c, k)) (kcell (c, k)) : sProp 𝕄))
        ∗ bigSep Finset.univ fun ij : Fin 6 × Fin 4 => atPos ER (rcvCell c ij.1 ij.2) 1 ∅ 0)
      ⊢ (|={Set.univ}=> bigSep Finset.univ fun ij : Fin 6 × Fin 4 => semVal (rcvCell c ij.1 ij.2) 0 : sProp 𝕄) :=
    (bigSep_with_persistent fun ij _ => close_rcv m K c ij.1 ij.2).trans (bigSep_fupd _ _)
  iintro #HI HS HR
  imod hS $$ [HS] with HzS
  · isplitr; · iexact HI
    iexact HS
  imod hR $$ [HR] with HzR
  · isplitr; · iexact HI
    iexact HR
  imodintro
  iapply (Entails.of_eq (bigSep_sep' Finset.univ (fun ij : Fin 6 × Fin 4 => (semVal (sndCell c ij.1 ij.2) 0 : sProp 𝕄))
    (fun ij : Fin 6 × Fin 4 => semVal (rcvCell c ij.1 ij.2) 0)).symm)
  isplitl [HzS]; · iexact HzS
  iexact HzR

omit [FloatOps F] in
theorem sepPS1 (c : Dev nD) : (bigSep Finset.univ fun ij : Fin 6 × Fin 4 => (atPos ER (sndCell c ij.1 ij.2) 1 ∅ 0 : sProp 𝕄))
    = iprop(atPos ER (sndCell c (exH 0) 0) 1 ∅ 0 ∗ atPos ER (sndCell c (exH 0) 1) 1 ∅ 0 ∗ atPos ER (sndCell c (exH 0) 2) 1 ∅ 0 ∗ atPos ER (sndCell c (exH 0) 3) 1 ∅ 0
      ∗ atPos ER (sndCell c (exG 0) 0) 1 ∅ 0 ∗ atPos ER (sndCell c (exG 0) 1) 1 ∅ 0 ∗ atPos ER (sndCell c (exG 0) 2) 1 ∅ 0 ∗ atPos ER (sndCell c (exG 0) 3) 1 ∅ 0
      ∗ atPos ER (sndCell c (exH 1) 0) 1 ∅ 0 ∗ atPos ER (sndCell c (exH 1) 1) 1 ∅ 0 ∗ atPos ER (sndCell c (exH 1) 2) 1 ∅ 0 ∗ atPos ER (sndCell c (exH 1) 3) 1 ∅ 0
      ∗ atPos ER (sndCell c (exG 1) 0) 1 ∅ 0 ∗ atPos ER (sndCell c (exG 1) 1) 1 ∅ 0 ∗ atPos ER (sndCell c (exG 1) 2) 1 ∅ 0 ∗ atPos ER (sndCell c (exG 1) 3) 1 ∅ 0
      ∗ atPos ER (sndCell c (exH 2) 0) 1 ∅ 0 ∗ atPos ER (sndCell c (exH 2) 1) 1 ∅ 0 ∗ atPos ER (sndCell c (exH 2) 2) 1 ∅ 0 ∗ atPos ER (sndCell c (exH 2) 3) 1 ∅ 0
      ∗ atPos ER (sndCell c (exG 2) 0) 1 ∅ 0 ∗ atPos ER (sndCell c (exG 2) 1) 1 ∅ 0 ∗ atPos ER (sndCell c (exG 2) 2) 1 ∅ 0 ∗ atPos ER (sndCell c (exG 2) 3) 1 ∅ 0) :=
  (sep24f _).trans rfl

omit [FloatOps F] in
theorem sepPR1 (c : Dev nD) : (bigSep Finset.univ fun ij : Fin 6 × Fin 4 => (atPos ER (rcvCell c ij.1 ij.2) 1 ∅ 0 : sProp 𝕄))
    = iprop(atPos ER (rcvCell c (exH 0) 0) 1 ∅ 0 ∗ atPos ER (rcvCell c (exH 0) 1) 1 ∅ 0 ∗ atPos ER (rcvCell c (exH 0) 2) 1 ∅ 0 ∗ atPos ER (rcvCell c (exH 0) 3) 1 ∅ 0
      ∗ atPos ER (rcvCell c (exG 0) 0) 1 ∅ 0 ∗ atPos ER (rcvCell c (exG 0) 1) 1 ∅ 0 ∗ atPos ER (rcvCell c (exG 0) 2) 1 ∅ 0 ∗ atPos ER (rcvCell c (exG 0) 3) 1 ∅ 0
      ∗ atPos ER (rcvCell c (exH 1) 0) 1 ∅ 0 ∗ atPos ER (rcvCell c (exH 1) 1) 1 ∅ 0 ∗ atPos ER (rcvCell c (exH 1) 2) 1 ∅ 0 ∗ atPos ER (rcvCell c (exH 1) 3) 1 ∅ 0
      ∗ atPos ER (rcvCell c (exG 1) 0) 1 ∅ 0 ∗ atPos ER (rcvCell c (exG 1) 1) 1 ∅ 0 ∗ atPos ER (rcvCell c (exG 1) 2) 1 ∅ 0 ∗ atPos ER (rcvCell c (exG 1) 3) 1 ∅ 0
      ∗ atPos ER (rcvCell c (exH 2) 0) 1 ∅ 0 ∗ atPos ER (rcvCell c (exH 2) 1) 1 ∅ 0 ∗ atPos ER (rcvCell c (exH 2) 2) 1 ∅ 0 ∗ atPos ER (rcvCell c (exH 2) 3) 1 ∅ 0
      ∗ atPos ER (rcvCell c (exG 2) 0) 1 ∅ 0 ∗ atPos ER (rcvCell c (exG 2) 1) 1 ∅ 0 ∗ atPos ER (rcvCell c (exG 2) 2) 1 ∅ 0 ∗ atPos ER (rcvCell c (exG 2) 3) 1 ∅ 0) :=
  (sep24f _).trans rfl

end Cert.KernelIdeal.Hand

end
-- ==== Proof.Restate.lean ====
import proofs.«901003_g7700000000001004_dist_mlpseq_tp2d_cs_cs_b64_d1024_h2048_v7x_xy2x2_bf16_1_alg».proof.Proof.Slices
import Idealize.ShloMosaic.Lib.Pipeline.Value

noncomputable section

namespace Cert.KernelIdeal.Hand

open Cert.KernelIdeal Cert.KernelIdeal.Gen
open Idealize.ShloMosaic
open Idealize.ShloMosaic.TcCoe
open Idealize.SL.Sem
open Idealize.ShloMosaic.ValueIdx

variable {F : FTy → Type} [FloatOps F]

section General
variable {sig : RefSig} {κ : Kind} {sp : Space} {s : Shape} {e : EltTy} {Val : EltTy → Type}

theorem readCov_cons_inside [∀ e, Nonempty (Val e)] (v : View sig κ sp s e) (r : Rect s) (w : r.shape.Idx → Val e)
    (L : List (View.Piece Val s e)) (B : LoadRect s) (x : B.shape.Idx → r.shape.Idx) (h : ∀ i, B.idx i = r.emb (x i)) :
    v.readCov (⟨r, w⟩ :: L) B = fun i => w (x i) := by
  rw [View.readCov_eq_canon']; funext i; rw [h i, View.canon_cons_emb]

end General

section General2
variable {sig : RefSig} {κ : Kind} {sp : Space} {s s' : Shape} {e : EltTy} {Val : EltTy → Type}

theorem readAt_writes_whole_squeeze {cs : Space} (M : Memref sig κ cs s e) (r : Rect s) (hr : ∀ a, r.stride a = 1)
    (hq : r.shape.Squeezes s') (hc : r.shape.ShapeCasts s') (hc' : s'.ShapeCasts r.shape)
    (f : M.view.ty.Contents Val) (g : s'.Idx → Val e) :
    M.view.readAt Val r.toLoadRect (((M.slice r hr).squeeze s' hq).view.writes Val f [⟨Rect.whole s', g⟩])
      = shapeCast r.shape g hc' := by
  have h1 := Memref.read_squeeze_slice (Val := Val) M r hr hq hc (((M.slice r hr).squeeze s' hq).view.writes Val f [⟨Rect.whole s', g⟩])
  have h2 := View.read_writes_whole (Val := Val) ((M.slice r hr).squeeze s' hq).view f g
  rw [← shapeCast_shapeCast (M.view.readAt Val r.toLoadRect _) hc hc', ← h1, h2]

theorem readCov_unit_in_unit [∀ e, Nonempty (Val e)] (v : View sig κ sp s e)
    (offP sizeP : Fin s.rank → Nat) (inbP : ∀ a, offP a + sizeP a ≤ s.size a) (w : (Rect.unit offP sizeP inbP).shape.Idx → Val e)
    (L : List (View.Piece Val s e))
    (offB sizeB : Fin s.rank → Nat) (inbB : ∀ a, offB a + sizeB a ≤ s.size a)
    (hin : ∀ a, offP a ≤ offB a ∧ offB a + sizeB a ≤ offP a + sizeP a) :
    v.readCov (⟨Rect.unit offP sizeP inbP, w⟩ :: L) (Rect.unit offB sizeB inbB).toLoadRect
      = fun i => w (fun a => ⟨offB a - offP a + (i a).val, by have hi : (i a).val < sizeB a := (i a).isLt; have := hin a; show _ < sizeP a; omega⟩) := by
  refine readCov_cons_inside v _ w L _ _ fun i => ?_
  funext a; refine Fin.ext ?_
  have := hin a
  show offB a + 1 * (i a).val = offP a + 1 * (offB a - offP a + (i a).val)
  omega

end General2

section Casts
variable {α : Type}

theorem shapeCast_add1 {n1 n2 : Nat} (v : (⟨2, ![n1, n2]⟩ : Shape).Idx → α)
    (h : (⟨2, ![n1, n2]⟩ : Shape).ShapeCasts ⟨3, ![1, n1, n2]⟩) (j : (⟨3, ![1, n1, n2]⟩ : Shape).Idx) :
    shapeCast ⟨3, ![1, n1, n2]⟩ v h j = v (ix2 (n0 := n1) (n1 := n2) ⟨(j 1).val, (j 1).isLt⟩ ⟨(j 2).val, (j 2).isLt⟩) := by
  refine shapeCast_apply v h j _ ?_
  rw [Shape.rowMajor_val_two, Shape.rowMajor_val_three]
  have h0 : (j 0).val = 0 := by have : (j 0).val < 1 := (j 0).isLt; omega
  show (j 1).val * n2 + (j 2).val = ((j 0).val * n1 + (j 1).val) * n2 + (j 2).val
  rw [h0, Nat.zero_mul, Nat.zero_add]

theorem shapeCast_drop1 {n1 n2 : Nat} (v : (⟨3, ![1, n1, n2]⟩ : Shape).Idx → α)
    (h : (⟨3, ![1, n1, n2]⟩ : Shape).ShapeCasts ⟨2, ![n1, n2]⟩) (j : (⟨2, ![n1, n2]⟩ : Shape).Idx) :
    shapeCast ⟨2, ![n1, n2]⟩ v h j
      = v (ix3 (n0 := 1) (n1 := n1) (n2 := n2) ⟨0, Nat.one_pos⟩ ⟨(j 0).val, (j 0).isLt⟩ ⟨(j 1).val, (j 1).isLt⟩) := by
  refine shapeCast_apply v h j _ ?_
  rw [Shape.rowMajor_val_two, Shape.rowMajor_val_three]
  show (0 * n1 + (j 0).val) * n2 + (j 1).val = (j 0).val * n2 + (j 1).val
  rw [Nat.zero_mul, Nat.zero_add]

end Casts

section Concrete

theorem stg_load (fx : Vec F S64x1024 .f32) :
    (Memref.whole cc0_stg0_0 : Memref sig .tc _ _ _).view.readAt (Elt F) (Rect.unit ![0, 0] S64x1024.size inb_S64x1024_S64x1024_0_0).toLoadRect fx = fx :=
  Memref.readAt_unit_zero (Elt F) cc0_stg0_0 (funext fun a => match a with | ⟨0, _⟩ => rfl | ⟨1, _⟩ => rfl) _ fx

theorem pay1_stg (fx : Vec F S64x1024 .f32) :
    k0_pay1 ((Memref.whole cc0_stg0_0 : Memref sig .tc _ _ _).view.readAt (Elt F) (Rect.unit ![0, 0] S64x1024.size inb_S64x1024_S64x1024_0_0).toLoadRect fx)
      = truncf .bf16 fx bitsLt_bf16_f32 := by
  rw [stg_load]; unfold k0_pay1; rw [shapeCast_self]

end Concrete

section Weights

def halfN (V : FVec F S1024x2048 .f32) (o : Nat) (ho : o + 1024 ≤ 2048) : FVec F S1x1024x1024 .bf16 :=
  fun i => truncf .bf16 V bitsLt_bf16_f32
    (ix2 (n0 := 1024) (n1 := 2048) ⟨(i 1).val, (i 1).isLt⟩ ⟨o + (i 2).val, by have : (i 2).val < 1024 := (i 2).isLt; omega⟩)

theorem pay7_eq_pay2 (v : Vec F S1x1024x1024 .f32) : k0_pay7 v = k0_pay2 v := rfl

theorem payH_eq (o : Nat) (ho : o + 1024 ≤ 2048)
    (inbW : ∀ a, (![0, 0, o] : Fin 3 → Nat) a + S1x1024x1024.size a ≤ S2x1024x2048.size a)
    (inbA : ∀ a, (![0, o] : Fin 2 → Nat) a + S1024x1024.size a ≤ S1024x2048.size a)
    (f0 : Vec F S2x1024x2048 .f32) (f1 : Vec F S1024x2048 .f32) :
    k0_pay2 ((Memref.whole cc0_scratch0 : Memref sig .tc _ _ _).view.readAt (Elt F) (Rect.unit (s := S2x1024x2048) ![0, 0, o] S1x1024x1024.size inbW).toLoadRect
      ((((Memref.whole cc0_scratch0 : Memref sig .tc _ _ _).slice (Rect.unit (s := S2x1024x2048) ![0, 0, o] S1x1024x1024.size inbW) (fun _ => rfl)).squeeze S1024x1024
            squeezes_S1x1024x1024_S1024x1024).view.writes (Elt F) f0
        [⟨Rect.whole S1024x1024, ReadAs.same.apply (((Memref.whole main_arg1 : Memref sig .tc _ _ _).slice
            (Rect.unit (s := S1024x2048) ![0, o] S1024x1024.size inbA) (fun _ => rfl)).view.read (Elt F) f1)⟩]))
      = halfN f1 o ho := by
  refine (congrArg k0_pay2 (readAt_writes_whole_squeeze (Val := Elt F) (Memref.whole cc0_scratch0 : Memref sig .tc _ _ _)
    (Rect.unit (s := S2x1024x2048) ![0, 0, o] S1x1024x1024.size inbW) (fun _ => rfl) squeezes_S1x1024x1024_S1024x1024
    shapeCasts_S1x1024x1024_S1024x1024 shapeCasts_S1024x1024_S1x1024x1024 f0 _)).trans ?_
  show shapeCast S1x1024x1024 (truncf .bf16 (shapeCast S1024x1024 (shapeCast S1x1024x1024
    (((Memref.whole main_arg1 : Memref sig .tc _ _ _).slice (Rect.unit (s := S1024x2048) ![0, o] S1024x1024.size inbA) (fun _ => rfl)).view.read (Elt F) f1)
    shapeCasts_S1024x1024_S1x1024x1024) shapeCasts_S1x1024x1024_S1024x1024) bitsLt_bf16_f32) shapeCasts_S1024x1024_S1x1024x1024 = _
  rw [shapeCast_shapeCast]
  funext i
  refine (shapeCast_add1 _ _ i).trans ?_
  show FloatOps.truncf .bf16 bitsLt_bf16_f32 (f1 _) = FloatOps.truncf .bf16 bitsLt_bf16_f32 (f1 _)
  refine congrArg (fun k => FloatOps.truncf .bf16 bitsLt_bf16_f32 (f1 k)) (funext fun a => Fin.ext ?_)
  match a with
  | ⟨0, _⟩ => show 0 + 1 * (i 1).val = (i 1).val; omega
  | ⟨1, _⟩ => show o + 1 * (i 2).val = o + (i 2).val; omega

end Weights

section Loads

theorem load_half (V : FVec F S1024x2048 .f32) (o : Nat) (ho : o + 1024 ≤ 2048) (j : Fin 4) (b : Nat)
    (hb : b = 512 * j.val) (hlo : o ≤ b) (hhi : b + 512 ≤ o + 1024)
    (inbP : ∀ a, (![0, 0, o] : Fin 3 → Nat) a + S1x1024x1024.size a ≤ S2x1024x2048.size a)
    (inbB : ∀ a, (![0, 0, b] : Fin 3 → Nat) a + S1x1024x512.size a ≤ S2x1024x2048.size a)
    (L : List (View.Piece (Elt F) S2x1024x2048 .bf16)) :
    shapeCast S1024x512 ((Memref.whole cc0_scratch2 : Memref sig .tc _ _ _).view.readCov
        (⟨Rect.unit (s := S2x1024x2048) ![0, 0, o] S1x1024x1024.size inbP, halfN V o ho⟩ :: L)
        (Rect.unit (s := S2x1024x2048) ![0, 0, b] S1x1024x512.size inbB).toLoadRect) shapeCasts_S1x1024x512_S1024x512
      = cols512 (truncf .bf16 V bitsLt_bf16_f32) j := by
  have hin : ∀ a, (![0, 0, o] : Fin 3 → Nat) a ≤ (![0, 0, b] : Fin 3 → Nat) a
      ∧ (![0, 0, b] : Fin 3 → Nat) a + S1x1024x512.size a ≤ (![0, 0, o] : Fin 3 → Nat) a + S1x1024x1024.size a := by
    intro a
    match a with
    | ⟨0, _⟩ => show 0 ≤ 0 ∧ 0 + 1 ≤ 0 + 1; omega
    | ⟨1, _⟩ => show 0 ≤ 0 ∧ 0 + 1024 ≤ 0 + 1024; omega
    | ⟨2, _⟩ => exact ⟨hlo, hhi⟩
  have h := readCov_unit_in_unit (Val := Elt F) (Memref.whole cc0_scratch2 : Memref sig .tc _ _ _).view
    (s := S2x1024x2048) ![0, 0, o] S1x1024x1024.size inbP (halfN V o ho) L ![0, 0, b] S1x1024x512.size inbB hin
  refine (congrArg (fun W => shapeCast S1024x512 W shapeCasts_S1x1024x512_S1024x512) h).trans ?_
  funext k
  refine (shapeCast_drop1 _ _ k).trans ?_
  show truncf .bf16 V bitsLt_bf16_f32 _ = truncf .bf16 V bitsLt_bf16_f32 _
  refine congrArg (truncf .bf16 V bitsLt_bf16_f32) (funext fun a => Fin.ext ?_)
  match a with
  | ⟨0, _⟩ => show 0 - 0 + (k 0).val = (k 0).val; omega
  | ⟨1, _⟩ => show o + (b - o + (k 1).val) = 512 * j.val + (k 1).val; omega

end Loads

section Send

theorem hs_read_write (c : Dev nD) (l : Fin 3) (j : Fin 4) (off : Fin 3 → Nat) (hoff : off = ![l.val, 0, 512 * j.val])
    (inb : ∀ a, off a + S1x64x512.size a ≤ S3x64x2048.size a)
    (fs : Buf (Elt F) ((hsM l j).view.loc (c : Thread nD τ))) (v : Vec F S1x64x512 .bf16) :
    (hsM l j).view.read (Elt F)
        (((Memref.whole cc0_scratch4 : Memref sig .tc _ _ _).access (Rect.unit (s := S3x64x2048) off S1x64x512.size inb)).write (Elt F) fs v Finset.univ)
      = shapeCast S64x512 v shapeCasts_S1x64x512_S64x512 := by
  subst hoff
  show shapeCast S64x512 (((Memref.whole cc0_scratch4 : Memref sig .tc _ _ _).view.slice
      (Rect.unit (s := S3x64x2048) ![l.val, 0, 512 * j.val] S1x64x512.size inb)).read (Elt F)
        ((((Memref.whole cc0_scratch4 : Memref sig .tc _ _ _).view.slice
      (Rect.unit (s := S3x64x2048) ![l.val, 0, 512 * j.val] S1x64x512.size inb))).write (Elt F) fs v Finset.univ)) shapeCasts_S1x64x512_S64x512 = _
  rw [View.read_write_univ]

theorem pay3_eq (A : FVec F S64x1024 .bf16) (W : Vec F S1x1024x512 .bf16) :
    k0_pay3 A W = matmul dot_S64x1024_S1024x512_S64x512_1_0_0_1_n_n none A
      (shapeCast S1024x512 W shapeCasts_S1x1024x512_S1024x512) (constant S64x512 .f32 0x00000000#32) := rfl

theorem pay4_cast (A : FVec F S64x1024 .bf16) (W : Vec F S1x1024x512 .bf16) :
    shapeCast S64x512 (k0_pay4 A W) shapeCasts_S1x64x512_S64x512 = truncf .bf16 (k0_pay3 A W) bitsLt_bf16_f32 := by
  show shapeCast S64x512 (shapeCast S1x64x512 (truncf .bf16 (k0_pay3 A W) bitsLt_bf16_f32) shapeCasts_S64x512_S1x64x512) shapeCasts_S1x64x512_S64x512 = _
  rw [shapeCast_shapeCast]

end Send

section Chunks

theorem pay6_cast (A : FVec F S64x1024 .bf16) (W : Vec F S1x1024x512 .bf16) :
    shapeCast S64x512 (k0_pay6 A W) shapeCasts_S1x64x512_S64x512 = truncf .bf16 (k0_pay5 A W) bitsLt_bf16_f32 := pay4_cast A W
theorem pay9_cast (A : FVec F S64x1024 .bf16) (W : Vec F S1x1024x512 .bf16) :
    shapeCast S64x512 (k0_pay9 A W) shapeCasts_S1x64x512_S64x512 = truncf .bf16 (k0_pay8 A W) bitsLt_bf16_f32 := pay4_cast A W
theorem pay11_cast (A : FVec F S64x1024 .bf16) (W : Vec F S1x1024x512 .bf16) :
    shapeCast S64x512 (k0_pay11 A W) shapeCasts_S1x64x512_S64x512 = truncf .bf16 (k0_pay10 A W) bitsLt_bf16_f32 := pay4_cast A W

end Chunks

section Chunks1

end Chunks1

end Cert.KernelIdeal.Hand

end
-- ==== Proof.RestateH.lean ====
import proofs.«901003_g7700000000001004_dist_mlpseq_tp2d_cs_cs_b64_d1024_h2048_v7x_xy2x2_bf16_1_alg».proof.Proof.Restate

noncomputable section

namespace Cert.KernelIdeal.Hand

open Cert.KernelIdeal Cert.KernelIdeal.Gen
open Idealize.ShloMosaic
open Idealize.ShloMosaic.TcCoe
open Idealize.SL.Sem
open Idealize.ShloMosaic.ValueIdx

variable {F : FTy → Type} [FloatOps F]

section Blocks
variable {sig' : RefSig} {κ : Kind} {sp : Space} {e : EltTy} {Val : EltTy → Type}

theorem load_blockH [∀ e, Nonempty (Val e)] {n0 n1 n2 m1 m2 p1 p2 : Nat} (v : View sig' κ sp ⟨3, ![n0, n1, n2]⟩ e)
    (s r0 q0 r q : Nat)
    (inbP : ∀ a, (![s, r0, q0] : Fin 3 → Nat) a + (![1, m1, m2] : Fin 3 → Nat) a ≤ (⟨3, ![n0, n1, n2]⟩ : Shape).size a)
    (inbB : ∀ a, (![s, r, q] : Fin 3 → Nat) a + (![1, p1, p2] : Fin 3 → Nat) a ≤ (⟨3, ![n0, n1, n2]⟩ : Shape).size a)
    (hr0 : r0 ≤ r) (hr1 : r + p1 ≤ r0 + m1) (hq0 : q0 ≤ q) (hq1 : q + p2 ≤ q0 + m2)
    (G : (⟨2, ![m1, m2]⟩ : Shape).Idx → Val e)
    (hc : (⟨2, ![m1, m2]⟩ : Shape).ShapeCasts ⟨3, ![1, m1, m2]⟩)
    (hc' : (⟨3, ![1, p1, p2]⟩ : Shape).ShapeCasts ⟨2, ![p1, p2]⟩)
    (L : List (View.Piece Val ⟨3, ![n0, n1, n2]⟩ e)) :
    shapeCast ⟨2, ![p1, p2]⟩
        (v.readCov (⟨Rect.unit (s := ⟨3, ![n0, n1, n2]⟩) ![s, r0, q0] ![1, m1, m2] inbP, shapeCast ⟨3, ![1, m1, m2]⟩ G hc⟩ :: L)
          (Rect.unit (s := ⟨3, ![n0, n1, n2]⟩) ![s, r, q] ![1, p1, p2] inbB).toLoadRect) hc'
      = fun i => G (ix2 (n0 := m1) (n1 := m2)
          ⟨r - r0 + (i 0).val, by have : (i 0).val < p1 := (i 0).isLt; omega⟩
          ⟨q - q0 + (i 1).val, by have : (i 1).val < p2 := (i 1).isLt; omega⟩) := by
  have hin : ∀ a, (![s, r0, q0] : Fin 3 → Nat) a ≤ (![s, r, q] : Fin 3 → Nat) a
      ∧ (![s, r, q] : Fin 3 → Nat) a + (![1, p1, p2] : Fin 3 → Nat) a ≤ (![s, r0, q0] : Fin 3 → Nat) a + (![1, m1, m2] : Fin 3 → Nat) a := by
    intro a
    match a with
    | ⟨0, _⟩ => show s ≤ s ∧ s + 1 ≤ s + 1; omega
    | ⟨1, _⟩ => exact ⟨hr0, hr1⟩
    | ⟨2, _⟩ => exact ⟨hq0, hq1⟩
  have h := readCov_unit_in_unit (Val := Val) v ![s, r0, q0] ![1, m1, m2] inbP (shapeCast ⟨3, ![1, m1, m2]⟩ G hc) L
    ![s, r, q] ![1, p1, p2] inbB hin
  refine (congrArg (fun W => shapeCast ⟨2, ![p1, p2]⟩ W hc') h).trans ?_
  funext i
  refine (shapeCast_drop1 _ _ i).trans ?_
  refine (shapeCast_add1 G hc _).trans ?_
  refine congrArg G (funext fun a => Fin.ext ?_)
  match a with
  | ⟨0, _⟩ => rfl
  | ⟨1, _⟩ => rfl

end Blocks

section TailWrites
variable {sig' : RefSig} {κ : Kind} {s s' : Shape} {e : EltTy} {Val : EltTy → Type}

theorem readAt_writes_cons_whole_squeezeH {cs : Space} (M : Memref sig' κ cs s e) (r : Rect s) (hr : ∀ a, r.stride a = 1)
    (hq : r.shape.Squeezes s') (hc : r.shape.ShapeCasts s') (hc' : s'.ShapeCasts r.shape)
    (f : M.view.ty.Contents Val) (g : s'.Idx → Val e) (Lw : List (View.Piece Val s' e)) :
    M.view.readAt Val r.toLoadRect (((M.slice r hr).squeeze s' hq).view.writes Val f (⟨Rect.whole s', g⟩ :: Lw))
      = shapeCast r.shape g hc' := by
  have h1 := Memref.read_squeeze_slice (Val := Val) M r hr hq hc (((M.slice r hr).squeeze s' hq).view.writes Val f (⟨Rect.whole s', g⟩ :: Lw))
  have h2 : ((M.slice r hr).squeeze s' hq).view.read Val (((M.slice r hr).squeeze s' hq).view.writes Val f (⟨Rect.whole s', g⟩ :: Lw)) = g := by
    funext y
    have h := View.read_writes_cons_emb ((M.slice r hr).squeeze s' hq).view f (Rect.whole s') g Lw y
    rwa [Rect.emb_whole_apply] at h
  rw [← shapeCast_shapeCast (M.view.readAt Val r.toLoadRect _) hc hc', ← h1, h2]

end TailWrites

section SlabWeights

theorem pay37_eq_pay12H (v : Vec F S1x2048x1024 .f32) : k0_pay37 v = k0_pay12 v := rfl
theorem pay63_eq_pay12H (v : Vec F S1x2048x1024 .f32) : k0_pay63 v = k0_pay12 v := rfl
theorem pay50_eq_pay25H (v : Vec F S1x1024x2048 .f32) : k0_pay50 v = k0_pay25 v := rfl

theorem pay12_loadH (s : Nat)
    (inbW : ∀ a, (![s, 0, 0] : Fin 3 → Nat) a + S1x2048x1024.size a ≤ S2x2048x1024.size a)
    (f0 : Vec F S2x2048x1024 .f32) (g : FVec F S2048x1024 .f32) (Lw : List (View.Piece (Elt F) S2048x1024 .f32)) :
    k0_pay12 ((Memref.whole cc0_scratch1 : Memref sig .tc _ _ _).view.readAt (Elt F) (Rect.unit (s := S2x2048x1024) ![s, 0, 0] S1x2048x1024.size inbW).toLoadRect
      ((((Memref.whole cc0_scratch1 : Memref sig .tc _ _ _).slice (Rect.unit (s := S2x2048x1024) ![s, 0, 0] S1x2048x1024.size inbW) (fun _ => rfl)).squeeze S2048x1024
            squeezes_S1x2048x1024_S2048x1024).view.writes (Elt F) f0 (⟨Rect.whole S2048x1024, g⟩ :: Lw)))
      = shapeCast S1x2048x1024 (truncf .bf16 g bitsLt_bf16_f32) shapeCasts_S2048x1024_S1x2048x1024 := by
  refine (congrArg k0_pay12 (readAt_writes_cons_whole_squeezeH (Val := Elt F) (Memref.whole cc0_scratch1 : Memref sig .tc _ _ _)
    (Rect.unit (s := S2x2048x1024) ![s, 0, 0] S1x2048x1024.size inbW) (fun _ => rfl) squeezes_S1x2048x1024_S2048x1024
    shapeCasts_S1x2048x1024_S2048x1024 shapeCasts_S2048x1024_S1x2048x1024 f0 g Lw)).trans ?_
  show shapeCast S1x2048x1024 (truncf .bf16 (shapeCast S2048x1024 (shapeCast S1x2048x1024 g
    shapeCasts_S2048x1024_S1x2048x1024) shapeCasts_S1x2048x1024_S2048x1024) bitsLt_bf16_f32) shapeCasts_S2048x1024_S1x2048x1024 = _
  rw [shapeCast_shapeCast]

theorem load_rows512H (V : FVec F S2048x1024 .f32) (s : Nat) (k : Fin 4) (r : Nat) (hr : r = 512 * k.val)
    (inbP : ∀ a, (![s, 0, 0] : Fin 3 → Nat) a + S1x2048x1024.size a ≤ S2x2048x1024.size a)
    (inbB : ∀ a, (![s, r, 0] : Fin 3 → Nat) a + S1x512x1024.size a ≤ S2x2048x1024.size a)
    (L : List (View.Piece (Elt F) S2x2048x1024 .bf16)) :
    shapeCast S512x1024 ((Memref.whole cc0_scratch3 : Memref sig .tc _ _ _).view.readCov
        (⟨Rect.unit (s := S2x2048x1024) ![s, 0, 0] S1x2048x1024.size inbP,
          shapeCast S1x2048x1024 (truncf .bf16 V bitsLt_bf16_f32) shapeCasts_S2048x1024_S1x2048x1024⟩ :: L)
        (Rect.unit (s := S2x2048x1024) ![s, r, 0] S1x512x1024.size inbB).toLoadRect) shapeCasts_S1x512x1024_S512x1024
      = rows512 (truncf .bf16 V bitsLt_bf16_f32) k := by
  have hk := k.isLt
  refine (load_blockH (Val := Elt F) (Memref.whole cc0_scratch3 : Memref sig .tc _ _ _).view s 0 0 r 0 inbP inbB
    (Nat.zero_le _) (by omega) (Nat.le_refl _) (Nat.le_refl _) (truncf .bf16 V bitsLt_bf16_f32)
    shapeCasts_S2048x1024_S1x2048x1024 shapeCasts_S1x512x1024_S512x1024 L).trans ?_
  funext i
  show truncf .bf16 V bitsLt_bf16_f32 _ = truncf .bf16 V bitsLt_bf16_f32 _
  refine congrArg (truncf .bf16 V bitsLt_bf16_f32) (funext fun a => Fin.ext ?_)
  match a with
  | ⟨0, _⟩ => show r - 0 + (i 0).val = 512 * k.val + (i 0).val; omega
  | ⟨1, _⟩ => show 0 - 0 + (i 1).val = (i 1).val; omega

theorem pay25_loadH (s : Nat)
    (inbW : ∀ a, (![s, 0, 0] : Fin 3 → Nat) a + S1x1024x2048.size a ≤ S2x1024x2048.size a)
    (f0 : Vec F S2x1024x2048 .f32) (g : FVec F S1024x2048 .f32) (Lw : List (View.Piece (Elt F) S1024x2048 .f32)) :
    k0_pay25 ((Memref.whole cc0_scratch0 : Memref sig .tc _ _ _).view.readAt (Elt F) (Rect.unit (s := S2x1024x2048) ![s, 0, 0] S1x1024x2048.size inbW).toLoadRect
      ((((Memref.whole cc0_scratch0 : Memref sig .tc _ _ _).slice (Rect.unit (s := S2x1024x2048) ![s, 0, 0] S1x1024x2048.size inbW) (fun _ => rfl)).squeeze S1024x2048
            squeezes_S1x1024x2048_S1024x2048).view.writes (Elt F) f0 (⟨Rect.whole S1024x2048, g⟩ :: Lw)))
      = shapeCast S1x1024x2048 (truncf .bf16 g bitsLt_bf16_f32) shapeCasts_S1024x2048_S1x1024x2048 := by
  refine (congrArg k0_pay25 (readAt_writes_cons_whole_squeezeH (Val := Elt F) (Memref.whole cc0_scratch0 : Memref sig .tc _ _ _)
    (Rect.unit (s := S2x1024x2048) ![s, 0, 0] S1x1024x2048.size inbW) (fun _ => rfl) squeezes_S1x1024x2048_S1024x2048
    shapeCasts_S1x1024x2048_S1024x2048 shapeCasts_S1024x2048_S1x1024x2048 f0 g Lw)).trans ?_
  show shapeCast S1x1024x2048 (truncf .bf16 (shapeCast S1024x2048 (shapeCast S1x1024x2048 g
    shapeCasts_S1024x2048_S1x1024x2048) shapeCasts_S1x1024x2048_S1024x2048) bitsLt_bf16_f32) shapeCasts_S1024x2048_S1x1024x2048 = _
  rw [shapeCast_shapeCast]

theorem load_rows256H (V : FVec F S1024x2048 .f32) (s : Nat) (k : Fin 4) (r : Nat) (hr : r = 256 * k.val)
    (inbP : ∀ a, (![s, 0, 0] : Fin 3 → Nat) a + S1x1024x2048.size a ≤ S2x1024x2048.size a)
    (inbB : ∀ a, (![s, r, 0] : Fin 3 → Nat) a + S1x256x2048.size a ≤ S2x1024x2048.size a)
    (L : List (View.Piece (Elt F) S2x1024x2048 .bf16)) :
    shapeCast S256x2048 ((Memref.whole cc0_scratch2 : Memref sig .tc _ _ _).view.readCov
        (⟨Rect.unit (s := S2x1024x2048) ![s, 0, 0] S1x1024x2048.size inbP,
          shapeCast S1x1024x2048 (truncf .bf16 V bitsLt_bf16_f32) shapeCasts_S1024x2048_S1x1024x2048⟩ :: L)
        (Rect.unit (s := S2x1024x2048) ![s, r, 0] S1x256x2048.size inbB).toLoadRect) shapeCasts_S1x256x2048_S256x2048
      = rows256 (truncf .bf16 V bitsLt_bf16_f32) k := by
  have hk := k.isLt
  refine (load_blockH (Val := Elt F) (Memref.whole cc0_scratch2 : Memref sig .tc _ _ _).view s 0 0 r 0 inbP inbB
    (Nat.zero_le _) (by omega) (Nat.le_refl _) (Nat.le_refl _) (truncf .bf16 V bitsLt_bf16_f32)
    shapeCasts_S1024x2048_S1x1024x2048 shapeCasts_S1x256x2048_S256x2048 L).trans ?_
  funext i
  show truncf .bf16 V bitsLt_bf16_f32 _ = truncf .bf16 V bitsLt_bf16_f32 _
  refine congrArg (truncf .bf16 V bitsLt_bf16_f32) (funext fun a => Fin.ext ?_)
  match a with
  | ⟨0, _⟩ => show r - 0 + (i 0).val = 256 * k.val + (i 0).val; omega
  | ⟨1, _⟩ => show 0 - 0 + (i 1).val = (i 1).val; omega

end SlabWeights

section Exchange

theorem hr_loadH (c : Dev nD) (l : Fin 3) (j : Fin 4) (off : Fin 3 → Nat) (hoff : off = ![l.val, 0, 512 * j.val])
    (inb : ∀ a, off a + S1x64x512.size a ≤ S3x64x2048.size a)
    (f : Buf (Elt F) ((hrM l j).view.loc (c : Thread nD τ))) :
    shapeCast S64x512 ((Memref.whole cc0_scratch5 : Memref sig .tc _ _ _).view.readAt (Elt F)
        (Rect.unit (s := S3x64x2048) off S1x64x512.size inb).toLoadRect f) shapeCasts_S1x64x512_S64x512
      = (hrM l j).view.read (Elt F) f := by
  subst hoff; rfl

theorem gr_loadH (c : Dev nD) (l : Fin 3) (j : Fin 4) (off : Fin 3 → Nat) (hoff : off = ![l.val, 0, 256 * j.val])
    (inb : ∀ a, off a + S1x64x256.size a ≤ S3x64x1024.size a)
    (f : Buf (Elt F) ((grM l j).view.loc (c : Thread nD τ))) :
    shapeCast S64x256 ((Memref.whole cc0_scratch7 : Memref sig .tc _ _ _).view.readAt (Elt F)
        (Rect.unit (s := S3x64x1024) off S1x64x256.size inb).toLoadRect f) shapeCasts_S1x64x256_S64x256
      = (grM l j).view.read (Elt F) f := by
  subst hoff; rfl

theorem gs_read_writeH (c : Dev nD) (l : Fin 3) (j : Fin 4) (off : Fin 3 → Nat) (hoff : off = ![l.val, 0, 256 * j.val])
    (inb : ∀ a, off a + S1x64x256.size a ≤ S3x64x1024.size a)
    (fs : Buf (Elt F) ((gsM l j).view.loc (c : Thread nD τ))) (v : Vec F S1x64x256 .bf16) :
    (gsM l j).view.read (Elt F)
        (((Memref.whole cc0_scratch6 : Memref sig .tc _ _ _).access (Rect.unit (s := S3x64x1024) off S1x64x256.size inb)).write (Elt F) fs v Finset.univ)
      = shapeCast S64x256 v shapeCasts_S1x64x256_S64x256 := by
  subst hoff
  show shapeCast S64x256 (((Memref.whole cc0_scratch6 : Memref sig .tc _ _ _).view.slice
      (Rect.unit (s := S3x64x1024) ![l.val, 0, 256 * j.val] S1x64x256.size inb)).read (Elt F)
        ((((Memref.whole cc0_scratch6 : Memref sig .tc _ _ _).view.slice
      (Rect.unit (s := S3x64x1024) ![l.val, 0, 256 * j.val] S1x64x256.size inb))).write (Elt F) fs v Finset.univ)) shapeCasts_S1x64x256_S64x256 = _
  rw [View.read_write_univ]

-- What landed from the partner, loaded through a chunk's rectangle, is the chunk the partner sent.
theorem hr_valH (m : (ℓ : Loc nD τ sig) → Buf (Elt F) ℓ) (c : Dev nD) (l : Fin 3) (k : Fin 4) (off : Fin 3 → Nat) (hoff : off = ![l.val, 0, 512 * k.val])
    (inb : ∀ a, off a + S1x64x512.size a ≤ S3x64x2048.size a)
    (f : Buf (Elt F) ((hrM l k).view.loc (c : Thread nD τ))) (hf : (hrM l k).view.read (Elt F) f = hLanded m l c k) :
    shapeCast S64x512 ((Memref.whole cc0_scratch5 : Memref sig .tc _ _ _).view.readAt (Elt F)
        (Rect.unit (s := S3x64x2048) off S1x64x512.size inb).toLoadRect f) shapeCasts_S1x64x512_S64x512
      = hLanded m l c k := (hr_loadH c l k off hoff inb f).trans hf

-- A column chunk of a layer's second product plus what landed from the partner is the layer's output chunk.
theorem out_ofH (m : (ℓ : Loc nD τ sig) → Buf (Elt F) ℓ) (l : Fin 3) (c : Dev nD) (k : Fin 4) (y : FVec F S64x256 .f32) (gp : FVec F S64x1024 .f32)
    (hy : y = cut256 gp k) (hgp : gp = gpFull m l (hpL m l) c) (off : Fin 3 → Nat) (hoff : off = ![l.val, 0, 256 * k.val])
    (inb : ∀ a, off a + S1x64x256.size a ≤ S3x64x1024.size a)
    (rg : Buf (Elt F) ((grM l k).view.loc (c : Thread nD τ))) (hrg : (grM l k).view.read (Elt F) rg = gLanded m l c k) :
    addf y (extf .f32 (shapeCast S64x256 ((Memref.whole cc0_scratch7 : Memref sig .tc _ _ _).view.readAt (Elt F)
        (Rect.unit (s := S3x64x1024) off S1x64x256.size inb).toLoadRect rg) shapeCasts_S1x64x256_S64x256) bitsLt_bf16_f32)
      = layerOut m l (hpL m l) c k := by
  subst hy hgp; rw [gr_loadH c l k off hoff inb rg, hrg]; rfl

end Exchange

section SecondHalf
variable (m : (ℓ : Loc nD τ sig) → Buf (Elt F) ℓ)

theorem gp_l0H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0) (hx1 : x1 = hp c 1) (hx2 : x2 = hp c 2) (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay16 x3 (k0_pay15 x2 (k0_pay13 x0 R0 V0) (k0_pay14 x1 R1) V1 R2 V2) R3 V3 = gpFull m l hp c := by
  subst hx0 hx1 hx2 hx3
  unfold gpFull sum4 hid
  beta_reduce
  rw [← hR0, ← hR1, ← hR2, ← hR3, ← hV0, ← hV1, ← hV2, ← hV3]
  rfl

end SecondHalf

section Payloads
variable (m : (ℓ : Loc nD τ sig) → Buf (Elt F) ℓ)

theorem pay17_eqH (x : FVec F S64x512 .f32) (a : FVec F S64x1024 .f32) (R : Vec F S1x64x512 .bf16) (V : Vec F S1x512x1024 .bf16) : k0_pay17 x a R V = cut256 (k0_pay16 x a R V) 0 := rfl
theorem pay19_eqH (X : FVec F S64x1024 .f32) : k0_pay19 X = cut256 X 1 := rfl
theorem pay21_eqH (X : FVec F S64x1024 .f32) : k0_pay21 X = cut256 X 2 := rfl
theorem pay23_eqH (X : FVec F S64x1024 .f32) : k0_pay23 X = cut256 X 3 := rfl
theorem pay42_eqH (x : FVec F S64x512 .f32) (a : FVec F S64x1024 .f32) (R : Vec F S1x64x512 .bf16) (V : Vec F S1x512x1024 .bf16) : k0_pay42 x a R V = cut256 (k0_pay41 x a R V) 0 := rfl
theorem pay44_eqH (X : FVec F S64x1024 .f32) : k0_pay44 X = cut256 X 1 := rfl
theorem pay46_eqH (X : FVec F S64x1024 .f32) : k0_pay46 X = cut256 X 2 := rfl
theorem pay48_eqH (X : FVec F S64x1024 .f32) : k0_pay48 X = cut256 X 3 := rfl
theorem cast256H (X : FVec F S64x256 .f32) :
    shapeCast S64x256 (shapeCast S1x64x256 (truncf .bf16 X bitsLt_bf16_f32) shapeCasts_S64x256_S1x64x256) shapeCasts_S1x64x256_S64x256
      = truncf .bf16 X bitsLt_bf16_f32 := shapeCast_shapeCast _ _ _

theorem cast512H (X : FVec F S64x512 .bf16) :
    shapeCast S64x512 (shapeCast S1x64x512 X shapeCasts_S64x512_S1x64x512) shapeCasts_S1x64x512_S64x512 = X := shapeCast_shapeCast _ _ _

theorem pay18_castH (x : FVec F S64x512 .f32) (a : FVec F S64x1024 .f32) (R : Vec F S1x64x512 .bf16) (V : Vec F S1x512x1024 .bf16) :
    shapeCast S64x256 (k0_pay18 x a R V) shapeCasts_S1x64x256_S64x256 = truncf .bf16 (cut256 (k0_pay16 x a R V) 0) bitsLt_bf16_f32 := cast256H _
theorem pay20_castH (X : FVec F S64x1024 .f32) : shapeCast S64x256 (k0_pay20 X) shapeCasts_S1x64x256_S64x256 = truncf .bf16 (cut256 X 1) bitsLt_bf16_f32 := cast256H _
theorem pay22_castH (X : FVec F S64x1024 .f32) : shapeCast S64x256 (k0_pay22 X) shapeCasts_S1x64x256_S64x256 = truncf .bf16 (cut256 X 2) bitsLt_bf16_f32 := cast256H _
theorem pay24_castH (X : FVec F S64x1024 .f32) : shapeCast S64x256 (k0_pay24 X) shapeCasts_S1x64x256_S64x256 = truncf .bf16 (cut256 X 3) bitsLt_bf16_f32 := cast256H _
theorem pay43_castH (x : FVec F S64x512 .f32) (a : FVec F S64x1024 .f32) (R : Vec F S1x64x512 .bf16) (V : Vec F S1x512x1024 .bf16) :
    shapeCast S64x256 (k0_pay43 x a R V) shapeCasts_S1x64x256_S64x256 = truncf .bf16 (cut256 (k0_pay41 x a R V) 0) bitsLt_bf16_f32 := cast256H _
theorem pay45_castH (X : FVec F S64x1024 .f32) : shapeCast S64x256 (k0_pay45 X) shapeCasts_S1x64x256_S64x256 = truncf .bf16 (cut256 X 1) bitsLt_bf16_f32 := cast256H _
theorem pay47_castH (X : FVec F S64x1024 .f32) : shapeCast S64x256 (k0_pay47 X) shapeCasts_S1x64x256_S64x256 = truncf .bf16 (cut256 X 2) bitsLt_bf16_f32 := cast256H _
theorem pay49_castH (X : FVec F S64x1024 .f32) : shapeCast S64x256 (k0_pay49 X) shapeCasts_S1x64x256_S64x256 = truncf .bf16 (cut256 X 3) bitsLt_bf16_f32 := cast256H _
theorem pay68_castH (x : FVec F S64x512 .f32) (a : FVec F S64x1024 .f32) (R : Vec F S1x64x512 .bf16) (V : Vec F S1x512x1024 .bf16) :
    shapeCast S64x256 (k0_pay68 x a R V) shapeCasts_S1x64x256_S64x256 = truncf .bf16 (cut256 (k0_pay66 x a R V) 0) bitsLt_bf16_f32 := cast256H _
theorem pay70_castH (X : FVec F S64x1024 .f32) : shapeCast S64x256 (k0_pay70 X) shapeCasts_S1x64x256_S64x256 = truncf .bf16 (cut256 X 1) bitsLt_bf16_f32 := cast256H _
theorem pay72_castH (X : FVec F S64x1024 .f32) : shapeCast S64x256 (k0_pay72 X) shapeCasts_S1x64x256_S64x256 = truncf .bf16 (cut256 X 2) bitsLt_bf16_f32 := cast256H _
theorem pay74_castH (X : FVec F S64x1024 .f32) : shapeCast S64x256 (k0_pay74 X) shapeCasts_S1x64x256_S64x256 = truncf .bf16 (cut256 X 3) bitsLt_bf16_f32 := cast256H _

theorem pay30_castH (v : FVec F S64x512 .f32) : shapeCast S64x512 (k0_pay30 v) shapeCasts_S1x64x512_S64x512 = truncf .bf16 v bitsLt_bf16_f32 := cast512H _
theorem pay32_castH (X : FVec F S64x2048 .f32) : shapeCast S64x512 (k0_pay32 X) shapeCasts_S1x64x512_S64x512 = truncf .bf16 (cut512 X 1) bitsLt_bf16_f32 := cast512H _
theorem pay34_castH (X : FVec F S64x2048 .f32) : shapeCast S64x512 (k0_pay34 X) shapeCasts_S1x64x512_S64x512 = truncf .bf16 (cut512 X 2) bitsLt_bf16_f32 := cast512H _
theorem pay36_castH (X : FVec F S64x2048 .f32) : shapeCast S64x512 (k0_pay36 X) shapeCasts_S1x64x512_S64x512 = truncf .bf16 (cut512 X 3) bitsLt_bf16_f32 := cast512H _
theorem pay56_castH (v : FVec F S64x512 .bf16) : shapeCast S64x512 (k0_pay56 v) shapeCasts_S1x64x512_S64x512 = v := cast512H _
theorem pay58_castH (X : FVec F S64x2048 .f32) : shapeCast S64x512 (k0_pay58 X) shapeCasts_S1x64x512_S64x512 = truncf .bf16 (cut512 X 1) bitsLt_bf16_f32 := cast512H _
theorem pay60_castH (X : FVec F S64x2048 .f32) : shapeCast S64x512 (k0_pay60 X) shapeCasts_S1x64x512_S64x512 = truncf .bf16 (cut512 X 2) bitsLt_bf16_f32 := cast512H _
theorem pay62_castH (X : FVec F S64x2048 .f32) : shapeCast S64x512 (k0_pay62 X) shapeCasts_S1x64x512_S64x512 = truncf .bf16 (cut512 X 3) bitsLt_bf16_f32 := cast512H _

theorem hp_laterH (l : Fin 3) (A : Dev nD → Fin 4 → FVec F S64x256 .f32) (c : Dev nD)
    (y0 y1 y2 y3 : FVec F S64x256 .f32) (G0 G1 G2 G3 : Vec F S1x64x256 .bf16) (W0 W1 W2 W3 : Vec F S1x256x2048 .bf16)
    (hA0 : addf y0 (extf .f32 (shapeCast S64x256 G0 shapeCasts_S1x64x256_S64x256) bitsLt_bf16_f32) = A c 0)
    (hA1 : addf y1 (extf .f32 (shapeCast S64x256 G1 shapeCasts_S1x64x256_S64x256) bitsLt_bf16_f32) = A c 1)
    (hA2 : addf y2 (extf .f32 (shapeCast S64x256 G2 shapeCasts_S1x64x256_S64x256) bitsLt_bf16_f32) = A c 2)
    (hA3 : addf y3 (extf .f32 (shapeCast S64x256 G3 shapeCasts_S1x64x256_S64x256) bitsLt_bf16_f32) = A c 3)
    (hW0 : shapeCast S256x2048 W0 shapeCasts_S1x256x2048_S256x2048 = rows256 (winN m l c) 0)
    (hW1 : shapeCast S256x2048 W1 shapeCasts_S1x256x2048_S256x2048 = rows256 (winN m l c) 1)
    (hW2 : shapeCast S256x2048 W2 shapeCasts_S1x256x2048_S256x2048 = rows256 (winN m l c) 2)
    (hW3 : shapeCast S256x2048 W3 shapeCasts_S1x256x2048_S256x2048 = rows256 (winN m l c) 3)
    (j : Fin 4) :
    cut512 (k0_pay28 y2 y3 (k0_pay27 y1 (k0_pay26 y0 G0 W0) G1 W1) G2 W2 G3 W3) j = hpLater m l A c j := by
  unfold hpLater sum4
  beta_reduce
  rw [← hA0, ← hA1, ← hA2, ← hA3, ← hW0, ← hW1, ← hW2, ← hW3]
  rfl

theorem gp_l1H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0)
    (hx1 : x1 = hp c 1)
    (hx2 : x2 = hp c 2)
    (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay41 x3 (k0_pay40 x2 (k0_pay38 x0 R0 V0) (k0_pay39 x1 R1) V1 R2 V2) R3 V3 = gpFull m l hp c := by
  subst hx0 hx1 hx2 hx3
  unfold gpFull sum4 hid
  beta_reduce
  rw [← hR0, ← hR1, ← hR2, ← hR3, ← hV0, ← hV1, ← hV2, ← hV3]
  rfl

theorem gp_l2H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0)
    (hx1 : x1 = hp c 1)
    (hx2 : x2 = hp c 2)
    (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay66 x3 (k0_pay65 x2 (k0_pay64 x0 x1 R0 V0 R1 V1) R2 V2) R3 V3 = gpFull m l hp c := by
  subst hx0 hx1 hx2 hx3
  unfold gpFull sum4 hid
  beta_reduce
  rw [← hR0, ← hR1, ← hR2, ← hR3, ← hV0, ← hV1, ← hV2, ← hV3]
  rfl

end Payloads

section LaterSend

-- A send slice written with the narrowed chunk x reads back the chunk that is sent.
theorem hs_sent (c : Dev nD) (l : Fin 3) (j : Fin 4) (off : Fin 3 → Nat) (hoff : off = ![l.val, 0, 512 * j.val])
    (inb : ∀ a, off a + S1x64x512.size a ≤ S3x64x2048.size a)
    (fs : Buf (Elt F) ((hsM l j).view.loc (c : Thread nD τ))) (P : Vec F S1x64x512 .bf16)
    (hp : Dev nD → Fin 4 → FVec F S64x512 .f32) (x : FVec F S64x512 .f32)
    (hP : shapeCast S64x512 P shapeCasts_S1x64x512_S64x512 = truncf .bf16 x bitsLt_bf16_f32) (hx : x = hp c j) :
    (hsM l j).view.read (Elt F)
        (((Memref.whole cc0_scratch4 : Memref sig .tc _ _ _).access (Rect.unit (s := S3x64x2048) off S1x64x512.size inb)).write (Elt F) fs P Finset.univ)
      = hSent hp c j :=
  (hs_read_write c l j off hoff inb fs P).trans (hP.trans (congrArg (fun X => truncf .bf16 X bitsLt_bf16_f32) hx))

-- The same for the second exchange: the slice reads back the narrowed column chunk of the second product.
theorem gs_sent (m : (ℓ : Loc nD τ sig) → Buf (Elt F) ℓ) (c : Dev nD) (l : Fin 3) (j : Fin 4) (off : Fin 3 → Nat) (hoff : off = ![l.val, 0, 256 * j.val])
    (inb : ∀ a, off a + S1x64x256.size a ≤ S3x64x1024.size a)
    (fs : Buf (Elt F) ((gsM l j).view.loc (c : Thread nD τ))) (P : Vec F S1x64x256 .bf16)
    (hp : Dev nD → Fin 4 → FVec F S64x512 .f32) (G : FVec F S64x1024 .f32)
    (hP : shapeCast S64x256 P shapeCasts_S1x64x256_S64x256 = truncf .bf16 (cut256 G j) bitsLt_bf16_f32) (hG : G = gpFull m l hp c) :
    (gsM l j).view.read (Elt F)
        (((Memref.whole cc0_scratch6 : Memref sig .tc _ _ _).access (Rect.unit (s := S3x64x1024) off S1x64x256.size inb)).write (Elt F) fs P Finset.univ)
      = gSent m l hp c j :=
  (gs_read_writeH c l j off hoff inb fs P).trans (hP.trans (congrArg (fun X => truncf .bf16 (cut256 X j) bitsLt_bf16_f32) hG))

end LaterSend

section Layer0X
variable (m : (ℓ : Loc nD τ sig) → Buf (Elt F) ℓ)

theorem xstg_eqH (c : Dev nD) : xstg m c = xA m c := by
  unfold xstg xA
  funext x
  show m ((c : Thread nD τ).loc main_arg0) ((win0_0.rect (0 : Fin 1)).emb x) = m ((c : Thread nD τ).loc main_arg0) x
  refine congrArg (m ((c : Thread nD τ).loc main_arg0)) (funext fun a => Fin.ext ?_)
  refine (Pipeline.Window.rect_emb_val win0_0 _ x a).trans ?_
  match a with
  | ⟨0, _⟩ => show 0 * 64 + (x 0).val = (x 0).val; omega
  | ⟨1, _⟩ => show 0 * 1024 + (x 1).val = (x 1).val; omega

end Layer0X

section Layer0Hp
variable (m : (ℓ : Loc nD τ sig) → Buf (Elt F) ℓ)

theorem hp_val_genH (j : Fin 4) (o b : Nat) (ho : o + 1024 ≤ 2048) (hb : b = 512 * j.val) (hlo : o ≤ b)
    (hhi : b + 512 ≤ o + 1024)
    (inbP : ∀ a, (![0, 0, o] : Fin 3 → Nat) a + S1x1024x1024.size a ≤ S2x1024x2048.size a)
    (inbB : ∀ a, (![0, 0, b] : Fin 3 → Nat) a + S1x1024x512.size a ≤ S2x1024x2048.size a)
    (fx : Vec F S64x1024 .f32) (V : FVec F S1024x2048 .f32)
    (L : List (View.Piece (Elt F) S2x1024x2048 .bf16)) :
    k0_pay3
        (k0_pay1 ((Memref.whole cc0_stg0_0 : Memref sig .tc _ _ _).view.readAt (Elt F) (Rect.unit ![0, 0] S64x1024.size inb_S64x1024_S64x1024_0_0).toLoadRect fx))
        ((Memref.whole cc0_scratch2 : Memref sig .tc _ _ _).view.readCov
          (⟨Rect.unit (s := S2x1024x2048) ![0, 0, o] S1x1024x1024.size inbP, halfN V o ho⟩ :: L)
          (Rect.unit (s := S2x1024x2048) ![0, 0, b] S1x1024x512.size inbB).toLoadRect)
      = matmul dot_S64x1024_S1024x512_S64x512_1_0_0_1_n_n none (truncf .bf16 fx bitsLt_bf16_f32)
          (cols512 (truncf .bf16 V bitsLt_bf16_f32) j) (constant S64x512 .f32 0x00000000#32) := by
  rw [pay3_eq, pay1_stg, load_half V o ho j b hb hlo hhi inbP inbB L]

theorem hp_valx_0H (c : Dev nD) :
    k0_pay3
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 0] S1x1024x512.size inb_S2x1024x2048_S1x1024x512_0_0_0).toLoadRect)
    = hpL m 0 c 0 := by
  have hP := payH_eq (F := F) 0 (by omega) inb_S2x1024x2048_S1x1024x1024_0_0_0 inb_S1024x2048_S1024x1024_0_0 (wbA.view.junk (Val := Elt F)) (m ((c : Thread nD τ).loc main_arg1))
  rw [hP, xstg_eqH]
  exact hp_val_genH 0 0 0 (by omega) rfl (by omega) (by omega) _ _ (xA m c) (m ((c : Thread nD τ).loc main_arg1)) _

theorem hp_valx_1H (c : Dev nD) :
    k0_pay5
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 512] S1x1024x512.size inb_S2x1024x2048_S1x1024x512_0_0_512).toLoadRect)
    = hpL m 0 c 1 := by
  have hP := payH_eq (F := F) 0 (by omega) inb_S2x1024x2048_S1x1024x1024_0_0_0 inb_S1024x2048_S1024x1024_0_0 (wbA.view.junk (Val := Elt F)) (m ((c : Thread nD τ).loc main_arg1))
  rw [hP, xstg_eqH]
  exact hp_val_genH 1 0 512 (by omega) rfl (by omega) (by omega) _ _ (xA m c) (m ((c : Thread nD τ).loc main_arg1)) _

theorem hp_valx_2H (c : Dev nD) :
    k0_pay8
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
             ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 1024] S1x1024x512.size inb_S2x1024x2048_S1x1024x512_0_0_1024).toLoadRect)
    = hpL m 0 c 2 := by
  have hP := payH_eq (F := F) 1024 (by omega) inb_S2x1024x2048_S1x1024x1024_0_0_1024 inb_S1024x2048_S1024x1024_0_1024 (wbB.view.junk (Val := Elt F)) (m ((c : Thread nD τ).loc main_arg1))
  rw [pay7_eq_pay2, hP, xstg_eqH]
  exact hp_val_genH 2 1024 1024 (by omega) rfl (by omega) (by omega) _ _ (xA m c) (m ((c : Thread nD τ).loc main_arg1)) _

theorem hp_valx_3H (c : Dev nD) :
    k0_pay10
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
             ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 1536] S1x1024x512.size inb_S2x1024x2048_S1x1024x512_0_0_1536).toLoadRect)
    = hpL m 0 c 3 := by
  have hP := payH_eq (F := F) 1024 (by omega) inb_S2x1024x2048_S1x1024x1024_0_0_1024 inb_S1024x2048_S1024x1024_0_1024 (wbB.view.junk (Val := Elt F)) (m ((c : Thread nD τ).loc main_arg1))
  rw [pay7_eq_pay2, hP, xstg_eqH]
  exact hp_val_genH 3 1024 1536 (by omega) rfl (by omega) (by omega) _ _ (xA m c) (m ((c : Thread nD τ).loc main_arg1)) _

end Layer0Hp

section Pieces
variable (m : (ℓ : Loc nD τ sig) → Buf (Elt F) ℓ) (c : Dev nD)

abbrev sc2L0H : List (View.Piece (Elt F) S2x1024x2048 .bf16) :=
  [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
   ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]

abbrev sc3L0H : List (View.Piece (Elt F) S2x2048x1024 .bf16) :=
  [⟨Rect.unit (s := S2x2048x1024) ![0, 0, 0] S1x2048x1024.size inb_S2x2048x1024_S1x2048x1024_0_0_0,
               k0_pay12 (View.readAt (Elt F) (Memref.whole cc0_scratch1).view (Rect.unit (s := S2x2048x1024) ![0, 0, 0] S1x2048x1024.size inb_S2x2048x1024_S1x2048x1024_0_0_0).toLoadRect
                 (vbA.view.writes (Elt F) vbA.view.junk [⟨Rect.whole S2048x1024, ReadAs.same.apply (View.read (Elt F) (Memref.whole main_arg2).view (m ((c : Thread nD τ).loc main_arg2)))⟩]))⟩]

end Pieces

section LaterFacts

-- The first weight of the layer, narrowed, as the newest piece of its array.
abbrev wcP1 (m : (ℓ : Loc nD τ sig) → Buf (Elt F) ℓ) (c : Dev nD) (f0 : Vec F S2x1024x2048 .f32) (Lw : List (View.Piece (Elt F) S1024x2048 .f32)) :
    View.Piece (Elt F) S2x1024x2048 .bf16 :=
  ⟨Rect.unit (s := S2x1024x2048) ![1, 0, 0] S1x1024x2048.size inb_S2x1024x2048_S1x1024x2048_1_0_0,
               k0_pay25 (View.readAt (Elt F) (Memref.whole cc0_scratch0).view (Rect.unit (s := S2x1024x2048) ![1, 0, 0] S1x1024x2048.size inb_S2x1024x2048_S1x1024x2048_1_0_0).toLoadRect
                 (wbC.view.writes (Elt F) f0 (⟨Rect.whole S1024x2048, ReadAs.same.apply (View.read (Elt F) (Memref.whole main_arg3).view (m ((c : Thread nD τ).loc main_arg3)))⟩ :: Lw)))⟩

-- The first partial product of the layer as the body computes it, its last operation K left open.
abbrev hpB1 {β : Type} (K : FVec F S64x256 .f32 → FVec F S64x256 .f32 → FVec F S64x2048 .f32 → Vec F S1x64x256 .bf16 → Vec F S1x256x2048 .bf16 → Vec F S1x64x256 .bf16 → Vec F S1x256x2048 .bf16 → β)
    (m : (ℓ : Loc nD τ sig) → Buf (Elt F) ℓ) (c : Dev nD)
    (x3 : FVec F S64x512 .f32) (a : FVec F S64x1024 .f32) (R3 : Vec F S1x64x512 .bf16) (V3 : Vec F S1x512x1024 .bf16)
    (rg00 : Buf (Elt F) ((grM 0 0).view.loc (c : Thread nD τ))) (rg01 : Buf (Elt F) ((grM 0 1).view.loc (c : Thread nD τ))) (rg02 : Buf (Elt F) ((grM 0 2).view.loc (c : Thread nD τ))) (rg03 : Buf (Elt F) ((grM 0 3).view.loc (c : Thread nD τ)))
    (f0 : Vec F S2x1024x2048 .f32) (L : List (View.Piece (Elt F) S2x1024x2048 .bf16)) (Lw : List (View.Piece (Elt F) S1024x2048 .f32)) : β :=
  K (k0_pay21 (k0_pay16 x3 a R3 V3)) (k0_pay23 (k0_pay16 x3 a R3 V3)) (k0_pay27 (k0_pay19 (k0_pay16 x3 a R3 V3)) (k0_pay26 (k0_pay17 x3 a R3 V3) (View.readAt (Elt F) (Memref.whole cc0_scratch7).view (Rect.unit (s := S3x64x1024) ![0, 0, 0] S1x64x256.size inb_S3x64x1024_S1x64x256_0_0_0).toLoadRect rg00) ((Memref.whole cc0_scratch2).view.readCov (wcP1 m c f0 Lw :: L)
            (Rect.unit (s := S2x1024x2048) ![1, 0, 0] S1x256x2048.size inb_S2x1024x2048_S1x256x2048_1_0_0).toLoadRect)) (View.readAt (Elt F) (Memref.whole cc0_scratch7).view (Rect.unit (s := S3x64x1024) ![0, 0, 256] S1x64x256.size inb_S3x64x1024_S1x64x256_0_0_256).toLoadRect rg01) ((Memref.whole cc0_scratch2).view.readCov (wcP1 m c f0 Lw :: L)
            (Rect.unit (s := S2x1024x2048) ![1, 256, 0] S1x256x2048.size inb_S2x1024x2048_S1x256x2048_1_256_0).toLoadRect)) (View.readAt (Elt F) (Memref.whole cc0_scratch7).view (Rect.unit (s := S3x64x1024) ![0, 0, 512] S1x64x256.size inb_S3x64x1024_S1x64x256_0_0_512).toLoadRect rg02) ((Memref.whole cc0_scratch2).view.readCov (wcP1 m c f0 Lw :: L)
            (Rect.unit (s := S2x1024x2048) ![1, 512, 0] S1x256x2048.size inb_S2x1024x2048_S1x256x2048_1_512_0).toLoadRect) (View.readAt (Elt F) (Memref.whole cc0_scratch7).view (Rect.unit (s := S3x64x1024) ![0, 0, 768] S1x64x256.size inb_S3x64x1024_S1x64x256_0_0_768).toLoadRect rg03) ((Memref.whole cc0_scratch2).view.readCov (wcP1 m c f0 Lw :: L)
            (Rect.unit (s := S2x1024x2048) ![1, 768, 0] S1x256x2048.size inb_S2x1024x2048_S1x256x2048_1_768_0).toLoadRect)

theorem hp_full_1H (c : Dev nD) (m : (ℓ : Loc nD τ sig) → Buf (Elt F) ℓ)
    (x3 : FVec F S64x512 .f32) (a : FVec F S64x1024 .f32) (R3 : Vec F S1x64x512 .bf16) (V3 : Vec F S1x512x1024 .bf16)
    (hgp : k0_pay16 x3 a R3 V3 = gpFull m 0 (hpL m 0) c)
    (rg00 : Buf (Elt F) ((grM 0 0).view.loc (c : Thread nD τ))) (rg01 : Buf (Elt F) ((grM 0 1).view.loc (c : Thread nD τ))) (rg02 : Buf (Elt F) ((grM 0 2).view.loc (c : Thread nD τ))) (rg03 : Buf (Elt F) ((grM 0 3).view.loc (c : Thread nD τ)))
    (hrg00 : (grM 0 0).view.read (Elt F) rg00 = gLanded m 0 c 0)
    (hrg01 : (grM 0 1).view.read (Elt F) rg01 = gLanded m 0 c 1)
    (hrg02 : (grM 0 2).view.read (Elt F) rg02 = gLanded m 0 c 2)
    (hrg03 : (grM 0 3).view.read (Elt F) rg03 = gLanded m 0 c 3)
    (f0 : Vec F S2x1024x2048 .f32) (L : List (View.Piece (Elt F) S2x1024x2048 .bf16)) (Lw : List (View.Piece (Elt F) S1024x2048 .f32)) :
    (∀ j, cut512 (hpB1 k0_pay28 m c x3 a R3 V3 rg00 rg01 rg02 rg03 f0 L Lw) j = hpL m 1 c j)
      ∧ (hpB1 k0_pay29 m c x3 a R3 V3 rg00 rg01 rg02 rg03 f0 L Lw = hpL m 1 c 0 ∧ k0_pay31 (hpB1 k0_pay28 m c x3 a R3 V3 rg00 rg01 rg02 rg03 f0 L Lw) = hpL m 1 c 1
        ∧ k0_pay33 (hpB1 k0_pay28 m c x3 a R3 V3 rg00 rg01 rg02 rg03 f0 L Lw) = hpL m 1 c 2 ∧ k0_pay35 (hpB1 k0_pay28 m c x3 a R3 V3 rg00 rg01 rg02 rg03 f0 L Lw) = hpL m 1 c 3) := by
  have hW : ∀ (k : Fin 4) (r : Nat) (hr : r = 256 * k.val) (inb : ∀ a, (![1, r, 0] : Fin 3 → Nat) a + S1x256x2048.size a ≤ S2x1024x2048.size a),
      shapeCast S256x2048 ((Memref.whole cc0_scratch2).view.readCov (wcP1 m c f0 Lw :: L)
        (Rect.unit (s := S2x1024x2048) ![1, r, 0] S1x256x2048.size inb).toLoadRect) shapeCasts_S1x256x2048_S256x2048 = rows256 (winN m 1 c) k := by
    intro k r hr inb; unfold wcP1; rw [pay25_loadH 1 _ f0 _ Lw]; exact load_rows256H (winA m 1 c) 1 k r hr _ _ L
  have h := hp_laterH m 1 (layerOut m 0 (hpL m 0)) c _ _ _ _ _ _ _ _ _ _ _ _ (out_ofH m 0 c 0 _ _ (pay17_eqH x3 a R3 V3) hgp _ rfl inb_S3x64x1024_S1x64x256_0_0_0 rg00 hrg00) (out_ofH m 0 c 1 _ _ (pay19_eqH _) hgp _ rfl inb_S3x64x1024_S1x64x256_0_0_256 rg01 hrg01) (out_ofH m 0 c 2 _ _ (pay21_eqH _) hgp _ rfl inb_S3x64x1024_S1x64x256_0_0_512 rg02 hrg02) (out_ofH m 0 c 3 _ _ (pay23_eqH _) hgp _ rfl inb_S3x64x1024_S1x64x256_0_0_768 rg03 hrg03) (hW 0 0 rfl inb_S2x1024x2048_S1x256x2048_1_0_0) (hW 1 256 rfl inb_S2x1024x2048_S1x256x2048_1_256_0) (hW 2 512 rfl inb_S2x1024x2048_S1x256x2048_1_512_0) (hW 3 768 rfl inb_S2x1024x2048_S1x256x2048_1_768_0)
  exact ⟨h, h 0, h 1, h 2, h 3⟩

-- The first weight of the layer, narrowed, as the newest piece of its array.
abbrev wcP2 (m : (ℓ : Loc nD τ sig) → Buf (Elt F) ℓ) (c : Dev nD) (f0 : Vec F S2x1024x2048 .f32) (Lw : List (View.Piece (Elt F) S1024x2048 .f32)) :
    View.Piece (Elt F) S2x1024x2048 .bf16 :=
  ⟨Rect.unit (s := S2x1024x2048) ![0, 0, 0] S1x1024x2048.size inb_S2x1024x2048_S1x1024x2048_0_0_0,
               k0_pay50 (View.readAt (Elt F) (Memref.whole cc0_scratch0).view (Rect.unit (s := S2x1024x2048) ![0, 0, 0] S1x1024x2048.size inb_S2x1024x2048_S1x1024x2048_0_0_0).toLoadRect
                 (wb0.view.writes (Elt F) f0 (⟨Rect.whole S1024x2048, ReadAs.same.apply (View.read (Elt F) (Memref.whole main_arg5).view (m ((c : Thread nD τ).loc main_arg5)))⟩ :: Lw)))⟩

-- The first partial product of the layer as the body computes it, its last operation K left open.
abbrev hpB2 {β : Type} (K : FVec F S64x256 .f32 → FVec F S64x256 .f32 → FVec F S64x2048 .f32 → Vec F S1x64x256 .bf16 → Vec F S1x256x2048 .bf16 → Vec F S1x64x256 .bf16 → Vec F S1x256x2048 .bf16 → β)
    (m : (ℓ : Loc nD τ sig) → Buf (Elt F) ℓ) (c : Dev nD)
    (x3 : FVec F S64x512 .f32) (a : FVec F S64x1024 .f32) (R3 : Vec F S1x64x512 .bf16) (V3 : Vec F S1x512x1024 .bf16)
    (rg10 : Buf (Elt F) ((grM 1 0).view.loc (c : Thread nD τ))) (rg11 : Buf (Elt F) ((grM 1 1).view.loc (c : Thread nD τ))) (rg12 : Buf (Elt F) ((grM 1 2).view.loc (c : Thread nD τ))) (rg13 : Buf (Elt F) ((grM 1 3).view.loc (c : Thread nD τ)))
    (f0 : Vec F S2x1024x2048 .f32) (L : List (View.Piece (Elt F) S2x1024x2048 .bf16)) (Lw : List (View.Piece (Elt F) S1024x2048 .f32)) : β :=
  K (k0_pay46 (k0_pay41 x3 a R3 V3)) (k0_pay48 (k0_pay41 x3 a R3 V3)) (k0_pay52 (k0_pay44 (k0_pay41 x3 a R3 V3)) (k0_pay51 (k0_pay42 x3 a R3 V3) (View.readAt (Elt F) (Memref.whole cc0_scratch7).view (Rect.unit (s := S3x64x1024) ![1, 0, 0] S1x64x256.size inb_S3x64x1024_S1x64x256_1_0_0).toLoadRect rg10) ((Memref.whole cc0_scratch2).view.readCov (wcP2 m c f0 Lw :: L)
            (Rect.unit (s := S2x1024x2048) ![0, 0, 0] S1x256x2048.size inb_S2x1024x2048_S1x256x2048_0_0_0).toLoadRect)) (View.readAt (Elt F) (Memref.whole cc0_scratch7).view (Rect.unit (s := S3x64x1024) ![1, 0, 256] S1x64x256.size inb_S3x64x1024_S1x64x256_1_0_256).toLoadRect rg11) ((Memref.whole cc0_scratch2).view.readCov (wcP2 m c f0 Lw :: L)
            (Rect.unit (s := S2x1024x2048) ![0, 256, 0] S1x256x2048.size inb_S2x1024x2048_S1x256x2048_0_256_0).toLoadRect)) (View.readAt (Elt F) (Memref.whole cc0_scratch7).view (Rect.unit (s := S3x64x1024) ![1, 0, 512] S1x64x256.size inb_S3x64x1024_S1x64x256_1_0_512).toLoadRect rg12) ((Memref.whole cc0_scratch2).view.readCov (wcP2 m c f0 Lw :: L)
            (Rect.unit (s := S2x1024x2048) ![0, 512, 0] S1x256x2048.size inb_S2x1024x2048_S1x256x2048_0_512_0).toLoadRect) (View.readAt (Elt F) (Memref.whole cc0_scratch7).view (Rect.unit (s := S3x64x1024) ![1, 0, 768] S1x64x256.size inb_S3x64x1024_S1x64x256_1_0_768).toLoadRect rg13) ((Memref.whole cc0_scratch2).view.readCov (wcP2 m c f0 Lw :: L)
            (Rect.unit (s := S2x1024x2048) ![0, 768, 0] S1x256x2048.size inb_S2x1024x2048_S1x256x2048_0_768_0).toLoadRect)

theorem hp_full_2H (c : Dev nD) (m : (ℓ : Loc nD τ sig) → Buf (Elt F) ℓ)
    (x3 : FVec F S64x512 .f32) (a : FVec F S64x1024 .f32) (R3 : Vec F S1x64x512 .bf16) (V3 : Vec F S1x512x1024 .bf16)
    (hgp : k0_pay41 x3 a R3 V3 = gpFull m 1 (hpL m 1) c)
    (rg10 : Buf (Elt F) ((grM 1 0).view.loc (c : Thread nD τ))) (rg11 : Buf (Elt F) ((grM 1 1).view.loc (c : Thread nD τ))) (rg12 : Buf (Elt F) ((grM 1 2).view.loc (c : Thread nD τ))) (rg13 : Buf (Elt F) ((grM 1 3).view.loc (c : Thread nD τ)))
    (hrg10 : (grM 1 0).view.read (Elt F) rg10 = gLanded m 1 c 0)
    (hrg11 : (grM 1 1).view.read (Elt F) rg11 = gLanded m 1 c 1)
    (hrg12 : (grM 1 2).view.read (Elt F) rg12 = gLanded m 1 c 2)
    (hrg13 : (grM 1 3).view.read (Elt F) rg13 = gLanded m 1 c 3)
    (f0 : Vec F S2x1024x2048 .f32) (L : List (View.Piece (Elt F) S2x1024x2048 .bf16)) (Lw : List (View.Piece (Elt F) S1024x2048 .f32)) :
    (∀ j, cut512 (hpB2 k0_pay53 m c x3 a R3 V3 rg10 rg11 rg12 rg13 f0 L Lw) j = hpL m 2 c j)
      ∧ (hpB2 k0_pay54 m c x3 a R3 V3 rg10 rg11 rg12 rg13 f0 L Lw = hpL m 2 c 0 ∧ k0_pay57 (hpB2 k0_pay53 m c x3 a R3 V3 rg10 rg11 rg12 rg13 f0 L Lw) = hpL m 2 c 1
        ∧ k0_pay59 (hpB2 k0_pay53 m c x3 a R3 V3 rg10 rg11 rg12 rg13 f0 L Lw) = hpL m 2 c 2 ∧ k0_pay61 (hpB2 k0_pay53 m c x3 a R3 V3 rg10 rg11 rg12 rg13 f0 L Lw) = hpL m 2 c 3)
      ∧ hpB2 k0_pay55 m c x3 a R3 V3 rg10 rg11 rg12 rg13 f0 L Lw = hSent (hpL m 2) c 0 := by
  have hW : ∀ (k : Fin 4) (r : Nat) (hr : r = 256 * k.val) (inb : ∀ a, (![0, r, 0] : Fin 3 → Nat) a + S1x256x2048.size a ≤ S2x1024x2048.size a),
      shapeCast S256x2048 ((Memref.whole cc0_scratch2).view.readCov (wcP2 m c f0 Lw :: L)
        (Rect.unit (s := S2x1024x2048) ![0, r, 0] S1x256x2048.size inb).toLoadRect) shapeCasts_S1x256x2048_S256x2048 = rows256 (winN m 2 c) k := by
    intro k r hr inb; unfold wcP2; rw [pay50_eq_pay25H, pay25_loadH 0 _ f0 _ Lw]; exact load_rows256H (winA m 2 c) 0 k r hr _ _ L
  have h := hp_laterH m 2 (layerOut m 1 (hpL m 1)) c _ _ _ _ _ _ _ _ _ _ _ _ (out_ofH m 1 c 0 _ _ (pay42_eqH x3 a R3 V3) hgp _ rfl inb_S3x64x1024_S1x64x256_1_0_0 rg10 hrg10) (out_ofH m 1 c 1 _ _ (pay44_eqH _) hgp _ rfl inb_S3x64x1024_S1x64x256_1_0_256 rg11 hrg11) (out_ofH m 1 c 2 _ _ (pay46_eqH _) hgp _ rfl inb_S3x64x1024_S1x64x256_1_0_512 rg12 hrg12) (out_ofH m 1 c 3 _ _ (pay48_eqH _) hgp _ rfl inb_S3x64x1024_S1x64x256_1_0_768 rg13 hrg13) (hW 0 0 rfl inb_S2x1024x2048_S1x256x2048_0_0_0) (hW 1 256 rfl inb_S2x1024x2048_S1x256x2048_0_256_0) (hW 2 512 rfl inb_S2x1024x2048_S1x256x2048_0_512_0) (hW 3 768 rfl inb_S2x1024x2048_S1x256x2048_0_768_0)
  exact ⟨h, ⟨h 0, h 1, h 2, h 3⟩, congrArg (fun X => truncf .bf16 X bitsLt_bf16_f32) (h 0)⟩

end LaterFacts

section GFacts

-- The second weight of the layer, narrowed, as the newest piece of its array.
abbrev wvP0 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![0, 0, 0] S1x2048x1024.size inb_S2x2048x1024_S1x2048x1024_0_0_0,
               k0_pay12 (View.readAt (Elt F) (Memref.whole cc0_scratch1).view (Rect.unit (s := S2x2048x1024) ![0, 0, 0] S1x2048x1024.size inb_S2x2048x1024_S1x2048x1024_0_0_0).toLoadRect
                 (vbA.view.writes (Elt F) f1 (⟨Rect.whole S2048x1024, ReadAs.same.apply (View.read (Elt F) (Memref.whole main_arg2).view (m ((c : Thread nD τ).loc main_arg2)))⟩ :: Lw)))⟩

theorem gp_full_0H (c : Dev nD) (m : (ℓ : Loc nD τ sig) → Buf (Elt F) ℓ)
    (x0 x1 x2 x3 : FVec F S64x512 .f32)
    (hx : x0 = hpL m 0 c 0 ∧ x1 = hpL m 0 c 1 ∧ x2 = hpL m 0 c 2 ∧ x3 = hpL m 0 c 3)
    (hr00 : Buf (Elt F) ((hrM 0 0).view.loc (c : Thread nD τ))) (hr01 : Buf (Elt F) ((hrM 0 1).view.loc (c : Thread nD τ))) (hr02 : Buf (Elt F) ((hrM 0 2).view.loc (c : Thread nD τ))) (hr03 : Buf (Elt F) ((hrM 0 3).view.loc (c : Thread nD τ)))
    (hhr00 : (hrM 0 0).view.read (Elt F) hr00 = hLanded m 0 c 0)
    (hhr01 : (hrM 0 1).view.read (Elt F) hr01 = hLanded m 0 c 1)
    (hhr02 : (hrM 0 2).view.read (Elt F) hr02 = hLanded m 0 c 2)
    (hhr03 : (hrM 0 3).view.read (Elt F) hr03 = hLanded m 0 c 3)
    (f1 : Vec F S2x2048x1024 .f32) (L : List (View.Piece (Elt F) S2x2048x1024 .bf16)) (Lw : List (View.Piece (Elt F) S2048x1024 .f32)) :
    (k0_pay16 x3 (k0_pay15 x2 (k0_pay13 x0 (View.readAt (Elt F) (Memref.whole cc0_scratch5).view (Rect.unit (s := S3x64x2048) ![0, 0, 0] S1x64x512.size inb_S3x64x2048_S1x64x512_0_0_0).toLoadRect hr00) ((Memref.whole cc0_scratch3).view.readCov (wvP0 m c f1 Lw :: L)
            (Rect.unit (s := S2x2048x1024) ![0, 0, 0] S1x512x1024.size inb_S2x2048x1024_S1x512x1024_0_0_0).toLoadRect)) (k0_pay14 x1 (View.readAt (Elt F) (Memref.whole cc0_scratch5).view (Rect.unit (s := S3x64x2048) ![0, 0, 512] S1x64x512.size inb_S3x64x2048_S1x64x512_0_0_512).toLoadRect hr01)) ((Memref.whole cc0_scratch3).view.readCov (wvP0 m c f1 Lw :: L)
            (Rect.unit (s := S2x2048x1024) ![0, 512, 0] S1x512x1024.size inb_S2x2048x1024_S1x512x1024_0_512_0).toLoadRect) (View.readAt (Elt F) (Memref.whole cc0_scratch5).view (Rect.unit (s := S3x64x2048) ![0, 0, 1024] S1x64x512.size inb_S3x64x2048_S1x64x512_0_0_1024).toLoadRect hr02) ((Memref.whole cc0_scratch3).view.readCov (wvP0 m c f1 Lw :: L)
            (Rect.unit (s := S2x2048x1024) ![0, 1024, 0] S1x512x1024.size inb_S2x2048x1024_S1x512x1024_0_1024_0).toLoadRect)) (View.readAt (Elt F) (Memref.whole cc0_scratch5).view (Rect.unit (s := S3x64x2048) ![0, 0, 1536] S1x64x512.size inb_S3x64x2048_S1x64x512_0_0_1536).toLoadRect hr03) ((Memref.whole cc0_scratch3).view.readCov (wvP0 m c f1 Lw :: L)
            (Rect.unit (s := S2x2048x1024) ![0, 1536, 0] S1x512x1024.size inb_S2x2048x1024_S1x512x1024_0_1536_0).toLoadRect)) = gpFull m 0 (hpL m 0) c := by
  have hV : ∀ (k : Fin 4) (r : Nat) (hr : r = 512 * k.val) (inb : ∀ a, (![0, r, 0] : Fin 3 → Nat) a + S1x512x1024.size a ≤ S2x2048x1024.size a),
      shapeCast S512x1024 ((Memref.whole cc0_scratch3).view.readCov (wvP0 m c f1 Lw :: L)
        (Rect.unit (s := S2x2048x1024) ![0, r, 0] S1x512x1024.size inb).toLoadRect) shapeCasts_S1x512x1024_S512x1024 = rows512 (woutN m 0 c) k := by
    intro k r hr inb; unfold wvP0; rw [pay12_loadH 0 _ f1 _ Lw]; exact load_rows512H (woutA m 0 c) 0 k r hr _ _ L
  exact gp_l0H m 0 (hpL m 0) c x0 x1 x2 x3 _ _ _ _ _ _ _ _ hx.1 hx.2.1 hx.2.2.1 hx.2.2.2 (hr_valH m c 0 0 _ rfl _ hr00 hhr00) (hr_valH m c 0 1 _ rfl _ hr01 hhr01) (hr_valH m c 0 2 _ rfl _ hr02 hhr02) (hr_valH m c 0 3 _ rfl _ hr03 hhr03) (hV 0 0 rfl _) (hV 1 512 rfl _) (hV 2 1024 rfl _) (hV 3 1536 rfl _)

-- The second weight of the layer, narrowed, as the newest piece of its array.
abbrev wvP1 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![1, 0, 0] S1x2048x1024.size inb_S2x2048x1024_S1x2048x1024_1_0_0,
               k0_pay37 (View.readAt (Elt F) (Memref.whole cc0_scratch1).view (Rect.unit (s := S2x2048x1024) ![1, 0, 0] S1x2048x1024.size inb_S2x2048x1024_S1x2048x1024_1_0_0).toLoadRect
                 (vbB.view.writes (Elt F) f1 (⟨Rect.whole S2048x1024, ReadAs.same.apply (View.read (Elt F) (Memref.whole main_arg4).view (m ((c : Thread nD τ).loc main_arg4)))⟩ :: Lw)))⟩

theorem gp_full_1H (c : Dev nD) (m : (ℓ : Loc nD τ sig) → Buf (Elt F) ℓ)
    (x0 x1 x2 x3 : FVec F S64x512 .f32)
    (hx : x0 = hpL m 1 c 0 ∧ x1 = hpL m 1 c 1 ∧ x2 = hpL m 1 c 2 ∧ x3 = hpL m 1 c 3)
    (hr10 : Buf (Elt F) ((hrM 1 0).view.loc (c : Thread nD τ))) (hr11 : Buf (Elt F) ((hrM 1 1).view.loc (c : Thread nD τ))) (hr12 : Buf (Elt F) ((hrM 1 2).view.loc (c : Thread nD τ))) (hr13 : Buf (Elt F) ((hrM 1 3).view.loc (c : Thread nD τ)))
    (hhr10 : (hrM 1 0).view.read (Elt F) hr10 = hLanded m 1 c 0)
    (hhr11 : (hrM 1 1).view.read (Elt F) hr11 = hLanded m 1 c 1)
    (hhr12 : (hrM 1 2).view.read (Elt F) hr12 = hLanded m 1 c 2)
    (hhr13 : (hrM 1 3).view.read (Elt F) hr13 = hLanded m 1 c 3)
    (f1 : Vec F S2x2048x1024 .f32) (L : List (View.Piece (Elt F) S2x2048x1024 .bf16)) (Lw : List (View.Piece (Elt F) S2048x1024 .f32)) :
    (k0_pay41 x3 (k0_pay40 x2 (k0_pay38 x0 (View.readAt (Elt F) (Memref.whole cc0_scratch5).view (Rect.unit (s := S3x64x2048) ![1, 0, 0] S1x64x512.size inb_S3x64x2048_S1x64x512_1_0_0).toLoadRect hr10) ((Memref.whole cc0_scratch3).view.readCov (wvP1 m c f1 Lw :: L)
            (Rect.unit (s := S2x2048x1024) ![1, 0, 0] S1x512x1024.size inb_S2x2048x1024_S1x512x1024_1_0_0).toLoadRect)) (k0_pay39 x1 (View.readAt (Elt F) (Memref.whole cc0_scratch5).view (Rect.unit (s := S3x64x2048) ![1, 0, 512] S1x64x512.size inb_S3x64x2048_S1x64x512_1_0_512).toLoadRect hr11)) ((Memref.whole cc0_scratch3).view.readCov (wvP1 m c f1 Lw :: L)
            (Rect.unit (s := S2x2048x1024) ![1, 512, 0] S1x512x1024.size inb_S2x2048x1024_S1x512x1024_1_512_0).toLoadRect) (View.readAt (Elt F) (Memref.whole cc0_scratch5).view (Rect.unit (s := S3x64x2048) ![1, 0, 1024] S1x64x512.size inb_S3x64x2048_S1x64x512_1_0_1024).toLoadRect hr12) ((Memref.whole cc0_scratch3).view.readCov (wvP1 m c f1 Lw :: L)
            (Rect.unit (s := S2x2048x1024) ![1, 1024, 0] S1x512x1024.size inb_S2x2048x1024_S1x512x1024_1_1024_0).toLoadRect)) (View.readAt (Elt F) (Memref.whole cc0_scratch5).view (Rect.unit (s := S3x64x2048) ![1, 0, 1536] S1x64x512.size inb_S3x64x2048_S1x64x512_1_0_1536).toLoadRect hr13) ((Memref.whole cc0_scratch3).view.readCov (wvP1 m c f1 Lw :: L)
            (Rect.unit (s := S2x2048x1024) ![1, 1536, 0] S1x512x1024.size inb_S2x2048x1024_S1x512x1024_1_1536_0).toLoadRect)) = gpFull m 1 (hpL m 1) c := by
  have hV : ∀ (k : Fin 4) (r : Nat) (hr : r = 512 * k.val) (inb : ∀ a, (![1, r, 0] : Fin 3 → Nat) a + S1x512x1024.size a ≤ S2x2048x1024.size a),
      shapeCast S512x1024 ((Memref.whole cc0_scratch3).view.readCov (wvP1 m c f1 Lw :: L)
        (Rect.unit (s := S2x2048x1024) ![1, r, 0] S1x512x1024.size inb).toLoadRect) shapeCasts_S1x512x1024_S512x1024 = rows512 (woutN m 1 c) k := by
    intro k r hr inb; unfold wvP1; rw [pay37_eq_pay12H, pay12_loadH 1 _ f1 _ Lw]; exact load_rows512H (woutA m 1 c) 1 k r hr _ _ L
  exact gp_l1H m 1 (hpL m 1) c x0 x1 x2 x3 _ _ _ _ _ _ _ _ hx.1 hx.2.1 hx.2.2.1 hx.2.2.2 (hr_valH m c 1 0 _ rfl _ hr10 hhr10) (hr_valH m c 1 1 _ rfl _ hr11 hhr11) (hr_valH m c 1 2 _ rfl _ hr12 hhr12) (hr_valH m c 1 3 _ rfl _ hr13 hhr13) (hV 0 0 rfl _) (hV 1 512 rfl _) (hV 2 1024 rfl _) (hV 3 1536 rfl _)

-- The second weight of the layer, narrowed, as the newest piece of its array.
abbrev wvP2 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![0, 0, 0] S1x2048x1024.size inb_S2x2048x1024_S1x2048x1024_0_0_0,
               k0_pay63 (View.readAt (Elt F) (Memref.whole cc0_scratch1).view (Rect.unit (s := S2x2048x1024) ![0, 0, 0] S1x2048x1024.size inb_S2x2048x1024_S1x2048x1024_0_0_0).toLoadRect
                 (vbA.view.writes (Elt F) f1 (⟨Rect.whole S2048x1024, ReadAs.same.apply (View.read (Elt F) (Memref.whole main_arg6).view (m ((c : Thread nD τ).loc main_arg6)))⟩ :: Lw)))⟩

theorem gp_full_2H (c : Dev nD) (m : (ℓ : Loc nD τ sig) → Buf (Elt F) ℓ)
    (x0 x1 x2 x3 : FVec F S64x512 .f32)
    (hx : x0 = hpL m 2 c 0 ∧ x1 = hpL m 2 c 1 ∧ x2 = hpL m 2 c 2 ∧ x3 = hpL m 2 c 3)
    (hr20 : Buf (Elt F) ((hrM 2 0).view.loc (c : Thread nD τ))) (hr21 : Buf (Elt F) ((hrM 2 1).view.loc (c : Thread nD τ))) (hr22 : Buf (Elt F) ((hrM 2 2).view.loc (c : Thread nD τ))) (hr23 : Buf (Elt F) ((hrM 2 3).view.loc (c : Thread nD τ)))
    (hhr20 : (hrM 2 0).view.read (Elt F) hr20 = hLanded m 2 c 0)
    (hhr21 : (hrM 2 1).view.read (Elt F) hr21 = hLanded m 2 c 1)
    (hhr22 : (hrM 2 2).view.read (Elt F) hr22 = hLanded m 2 c 2)
    (hhr23 : (hrM 2 3).view.read (Elt F) hr23 = hLanded m 2 c 3)
    (f1 : Vec F S2x2048x1024 .f32) (L : List (View.Piece (Elt F) S2x2048x1024 .bf16)) (Lw : List (View.Piece (Elt F) S2048x1024 .f32)) :
    (k0_pay66 x3 (k0_pay65 x2 (k0_pay64 x0 x1 (View.readAt (Elt F) (Memref.whole cc0_scratch5).view (Rect.unit (s := S3x64x2048) ![2, 0, 0] S1x64x512.size inb_S3x64x2048_S1x64x512_2_0_0).toLoadRect hr20) ((Memref.whole cc0_scratch3).view.readCov (wvP2 m c f1 Lw :: L)
            (Rect.unit (s := S2x2048x1024) ![0, 0, 0] S1x512x1024.size inb_S2x2048x1024_S1x512x1024_0_0_0).toLoadRect) (View.readAt (Elt F) (Memref.whole cc0_scratch5).view (Rect.unit (s := S3x64x2048) ![2, 0, 512] S1x64x512.size inb_S3x64x2048_S1x64x512_2_0_512).toLoadRect hr21) ((Memref.whole cc0_scratch3).view.readCov (wvP2 m c f1 Lw :: L)
            (Rect.unit (s := S2x2048x1024) ![0, 512, 0] S1x512x1024.size inb_S2x2048x1024_S1x512x1024_0_512_0).toLoadRect)) (View.readAt (Elt F) (Memref.whole cc0_scratch5).view (Rect.unit (s := S3x64x2048) ![2, 0, 1024] S1x64x512.size inb_S3x64x2048_S1x64x512_2_0_1024).toLoadRect hr22) ((Memref.whole cc0_scratch3).view.readCov (wvP2 m c f1 Lw :: L)
            (Rect.unit (s := S2x2048x1024) ![0, 1024, 0] S1x512x1024.size inb_S2x2048x1024_S1x512x1024_0_1024_0).toLoadRect)) (View.readAt (Elt F) (Memref.whole cc0_scratch5).view (Rect.unit (s := S3x64x2048) ![2, 0, 1536] S1x64x512.size inb_S3x64x2048_S1x64x512_2_0_1536).toLoadRect hr23) ((Memref.whole cc0_scratch3).view.readCov (wvP2 m c f1 Lw :: L)
            (Rect.unit (s := S2x2048x1024) ![0, 1536, 0] S1x512x1024.size inb_S2x2048x1024_S1x512x1024_0_1536_0).toLoadRect)) = gpFull m 2 (hpL m 2) c := by
  have hV : ∀ (k : Fin 4) (r : Nat) (hr : r = 512 * k.val) (inb : ∀ a, (![0, r, 0] : Fin 3 → Nat) a + S1x512x1024.size a ≤ S2x2048x1024.size a),
      shapeCast S512x1024 ((Memref.whole cc0_scratch3).view.readCov (wvP2 m c f1 Lw :: L)
        (Rect.unit (s := S2x2048x1024) ![0, r, 0] S1x512x1024.size inb).toLoadRect) shapeCasts_S1x512x1024_S512x1024 = rows512 (woutN m 2 c) k := by
    intro k r hr inb; unfold wvP2; rw [pay63_eq_pay12H, pay12_loadH 0 _ f1 _ Lw]; exact load_rows512H (woutA m 2 c) 0 k r hr _ _ L
  exact gp_l2H m 2 (hpL m 2) c x0 x1 x2 x3 _ _ _ _ _ _ _ _ hx.1 hx.2.1 hx.2.2.1 hx.2.2.2 (hr_valH m c 2 0 _ rfl _ hr20 hhr20) (hr_valH m c 2 1 _ rfl _ hr21 hhr21) (hr_valH m c 2 2 _ rfl _ hr22 hhr22) (hr_valH m c 2 3 _ rfl _ hr23 hhr23) (hV 0 0 rfl _) (hV 1 512 rfl _) (hV 2 1024 rfl _) (hV 3 1536 rfl _)

end GFacts

end Cert.KernelIdeal.Hand

end
-- ==== Proof.RestateG.lean ====
import proofs.«901003_g7700000000001004_dist_mlpseq_tp2d_cs_cs_b64_d1024_h2048_v7x_xy2x2_bf16_1_alg».proof.Proof.RestateH

noncomputable section

namespace Cert.KernelIdeal.Hand

namespace G

open Cert.KernelIdeal Cert.KernelIdeal.Gen
open Idealize.ShloMosaic
open Idealize.ShloMosaic.TcCoe
open Idealize.SL.Sem
open Idealize.ShloMosaic.ValueIdx

variable {F : FTy → Type} [FloatOps F]

def hidOf (a : FVec F S64x512 .f32) (r : Vec F S1x64x512 .bf16) : FVec F S64x512 .bf16 :=
  truncf .bf16 (maximumf (addf a (extf .f32 (shapeCast S64x512 r shapeCasts_S1x64x512_S64x512) bitsLt_bf16_f32))
    (broadcast S64x512 (Scalar.ofBits .f32 0x00000000#32))) bitsLt_bf16_f32

def termOf (a : FVec F S64x512 .f32) (r : Vec F S1x64x512 .bf16) (w : Vec F S1x512x1024 .bf16) : FVec F S64x1024 .f32 :=
  matmul dot_S64x512_S512x1024_S64x1024_1_0_0_1_n_n none (hidOf a r) (shapeCast S512x1024 w shapeCasts_S1x512x1024_S512x1024)
    (constant S64x1024 .f32 0x00000000#32)

def gpOf (a0 a1 a2 a3 : FVec F S64x512 .f32) (r0 r1 r2 r3 : Vec F S1x64x512 .bf16) (w0 w1 w2 w3 : Vec F S1x512x1024 .bf16) :
    FVec F S64x1024 .f32 :=
  addf (addf (addf (termOf a0 r0 w0) (termOf a1 r1 w1)) (termOf a2 r2 w2)) (termOf a3 r3 w3)

variable (m : (ℓ : Loc nD τ sig) → Buf (Elt F) ℓ)

def rowN (V : FVec F S2048x1024 .f32) : FVec F S1x2048x1024 .bf16 :=
  fun i => truncf .bf16 V bitsLt_bf16_f32 (ix2 (n0 := 2048) (n1 := 1024) ⟨(i 1).val, (i 1).isLt⟩ ⟨(i 2).val, (i 2).isLt⟩)

theorem gr_load (c : Dev nD) (l : Fin 3) (k : Fin 4) (off : Fin 3 → Nat) (hoff : off = ![l.val, 0, 256 * k.val])
    (inb : ∀ a, off a + S1x64x256.size a ≤ S3x64x1024.size a)
    (f : Buf (Elt F) ((grM l k).view.loc (c : Thread nD τ))) :
    shapeCast S64x256 ((Memref.whole cc0_scratch7 : Memref sig .tc _ _ _).view.readAt (Elt F)
        (Rect.unit (s := S3x64x1024) off S1x64x256.size inb).toLoadRect f) shapeCasts_S1x64x256_S64x256
      = (grM l k).view.read (Elt F) f := by
  subst hoff
  exact (Memref.read_squeeze_slice (Val := Elt F) (Memref.whole cc0_scratch7 : Memref sig .tc _ _ _)
    (Rect.unit (s := S3x64x1024) ![l.val, 0, 256 * k.val] S1x64x256.size inb) (fun _ => rfl) squeezes_S1x64x256_S64x256
    shapeCasts_S1x64x256_S64x256 f).symm

theorem acc_val (c : Dev nD) (j : Fin 4) (G : FVec F S64x1024 .f32) (g : Vec F S1x64x256 .bf16)
    (hG : G = gpFull m 2 (hpL m 2) c) (hg : shapeCast S64x256 g shapeCasts_S1x64x256_S64x256 = gLanded m 2 c j) :
    shapeCast S64x256 (addf (cut256 G j) (extf .f32 (shapeCast S64x256 g shapeCasts_S1x64x256_S64x256) bitsLt_bf16_f32)) shapeCasts_S64x256_S64x256
      = acc2 m c j := by
  subst hG
  rw [shapeCast_self, hg]
  rfl

-- Once the last layer's second product is the specified one, each result chunk is that layer's output chunk.
theorem res_H (c : Dev nD) (x3 : FVec F S64x512 .f32) (a : FVec F S64x1024 .f32) (R3 : Vec F S1x64x512 .bf16) (V3 : Vec F S1x512x1024 .bf16)
    (hgp : k0_pay66 x3 a R3 V3 = gpFull m 2 (hpL m 2) c) :
    (∀ g, shapeCast S64x256 g shapeCasts_S1x64x256_S64x256 = gLanded m 2 c 0 → k0_pay75 (k0_pay67 x3 a R3 V3) g = acc2 m c 0)
      ∧ (∀ g, shapeCast S64x256 g shapeCasts_S1x64x256_S64x256 = gLanded m 2 c 1 → k0_pay76 (k0_pay69 (k0_pay66 x3 a R3 V3)) g = acc2 m c 1)
      ∧ (∀ g, shapeCast S64x256 g shapeCasts_S1x64x256_S64x256 = gLanded m 2 c 2 → k0_pay77 (k0_pay71 (k0_pay66 x3 a R3 V3)) g = acc2 m c 2)
      ∧ (∀ g, shapeCast S64x256 g shapeCasts_S1x64x256_S64x256 = gLanded m 2 c 3 → k0_pay78 (k0_pay73 (k0_pay66 x3 a R3 V3)) g = acc2 m c 3) :=
  ⟨fun g hg => acc_val m c 0 _ g hgp hg, fun g hg => acc_val m c 1 _ g hgp hg,
    fun g hg => acc_val m c 2 _ g hgp hg, fun g hg => acc_val m c 3 _ g hgp hg⟩

theorem ov_read_write (c : Dev nD) (j : Fin 4) (off : Fin 2 → Nat) (hoff : off = ![0, 256 * j.val])
    (inb : ∀ a, off a + S64x256.size a ≤ S64x1024.size a)
    (fs : Buf (Elt F) ((ovM j).view.loc (c : Thread nD τ))) (v : Vec F S64x256 .f32) :
    (ovM j).view.read (Elt F)
        (((Memref.whole cc0_scratch13 : Memref sig .tc _ _ _).access (Rect.unit (s := S64x1024) off S64x256.size inb)).write (Elt F) fs v Finset.univ)
      = v := by
  subst hoff
  show (((Memref.whole cc0_scratch13 : Memref sig .tc _ _ _).view.slice
      (Rect.unit (s := S64x1024) ![0, 256 * j.val] S64x256.size inb)).read (Elt F)
        ((((Memref.whole cc0_scratch13 : Memref sig .tc _ _ _).view.slice
      (Rect.unit (s := S64x1024) ![0, 256 * j.val] S64x256.size inb))).write (Elt F) fs v Finset.univ)) = _
  rw [View.read_write_univ]

theorem out_read_writes (c : Dev nD) (j : Fin 4) (fo : Buf (Elt F) ((outM j).view.loc (c : Thread nD τ))) (X : Vec F S64x256 .f32) :
    (outM j).view.read (Elt F) ((outM j).view.writes (Elt F) fo [⟨Rect.whole S64x256, X⟩]) = X :=
  View.read_writes_whole (Val := Elt F) (outM j).view fo X

theorem gr_val (c : Dev nD) (l : Fin 3) (k : Fin 4) (off : Fin 3 → Nat) (hoff : off = ![l.val, 0, 256 * k.val])
    (inb : ∀ a, off a + S1x64x256.size a ≤ S3x64x1024.size a)
    (f : Buf (Elt F) ((grM l k).view.loc (c : Thread nD τ))) (hf : (grM l k).view.read (Elt F) f = gLanded m l c k) :
    shapeCast S64x256 (View.readAt (Elt F) (Memref.whole cc0_scratch7 : Memref sig .tc _ _ _).view
        (Rect.unit (s := S3x64x1024) off S1x64x256.size inb).toLoadRect f) shapeCasts_S1x64x256_S64x256
      = gLanded m l c k :=
  (gr_load c l k off hoff inb f).trans hf

end G

end Cert.KernelIdeal.Hand

end
-- ==== Proof.Body.lean ====
import proofs.«901003_g7700000000001004_dist_mlpseq_tp2d_cs_cs_b64_d1024_h2048_v7x_xy2x2_bf16_1_alg».proof.Proof.StepsW
import proofs.«901003_g7700000000001004_dist_mlpseq_tp2d_cs_cs_b64_d1024_h2048_v7x_xy2x2_bf16_1_alg».proof.Proof.Slices
import proofs.«901003_g7700000000001004_dist_mlpseq_tp2d_cs_cs_b64_d1024_h2048_v7x_xy2x2_bf16_1_alg».proof.Proof.Tally
import proofs.«901003_g7700000000001004_dist_mlpseq_tp2d_cs_cs_b64_d1024_h2048_v7x_xy2x2_bf16_1_alg».proof.Proof.Finish
import proofs.«901003_g7700000000001004_dist_mlpseq_tp2d_cs_cs_b64_d1024_h2048_v7x_xy2x2_bf16_1_alg».proof.Proof.RestateH
import proofs.«901003_g7700000000001004_dist_mlpseq_tp2d_cs_cs_b64_d1024_h2048_v7x_xy2x2_bf16_1_alg».proof.Proof.RestateG

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem sep12 (Φ : Fin 3 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [(0, 0), (0, 1), (0, 2), (0, 3), (1, 0), (1, 1), (1, 2), (1, 3), (2, 0), (2, 1), (2, 2), (2, 3)] (by decide) (by decide) Φ
omit [FloatOps F] in
theorem sep24 (Φ : Fin 6 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)
        ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3)) :=
  bigSep_univ_eq_bigSepL [(0, 0), (0, 1), (0, 2), (0, 3), (1, 0), (1, 1), (1, 2), (1, 3), (2, 0), (2, 1), (2, 2), (2, 3),
    (3, 0), (3, 1), (3, 2), (3, 3), (4, 0), (4, 1), (4, 2), (4, 3), (5, 0), (5, 1), (5, 2), (5, 3)] (by decide) (by decide) Φ

omit [FloatOps F] in
theorem heldS_open (c : Dev nD) {sp : Space} {S : Shape} {e : EltTy} (M : Memref sig .tc sp S e) :
    (heldS (F := F) c M : sProp 𝕄) ⊢ iprop(∃ f : Buf (Elt F) (M.view.loc (c : Thread nD τ)), M.view.loc (c : Thread nD τ) ↦[M.view.set]{fullShare} f) := by
  unfold heldS; exact .rfl
omit [FloatOps F] in
theorem heldS_close (c : Dev nD) {sp : Space} {S : Shape} {e : EltTy} (M : Memref sig .tc sp S e) (f : Buf (Elt F) (M.view.loc (c : Thread nD τ))) :
    (M.view.loc (c : Thread nD τ) ↦[M.view.set]{fullShare} f : sProp 𝕄) ⊢ heldS c M := by
  unfold heldS; iintro H; iexists f; iexact H

omit [FloatOps F] in
theorem heldAt_open' (c : Dev nD) {sp : Space} {S : Shape} {e : EltTy} (M : Memref sig .tc sp S e) (v : S.Idx → Elt F e) :
    (heldAt c M v : sProp 𝕄) ⊢ iprop(∃ f : Buf (Elt F) (M.view.loc (c : Thread nD τ)), (M.view.loc (c : Thread nD τ) ↦[M.view.set]{fullShare} f) ∗ ⌜M.view.read (Elt F) f = v⌝) := by
  unfold heldAt; exact .rfl

omit [FloatOps F] in
theorem rch_G (c : Dev nD) : (bigSep Finset.univ fun ij : Fin 6 × Fin 4 => (reached ER (rcvCell c ij.1 ij.2) 0 : sProp 𝕄))
    ⊢ bigSep Finset.univ fun lj : Fin 3 × Fin 4 => reached ER (rcvCell c (exG lj.1) lj.2) 0 :=
  bigSep_intro_persistent fun lj _ => bigSep_elim (Finset.mem_univ (exG lj.1, lj.2))
omit [FloatOps F] in
theorem rch_H (c : Dev nD) : (bigSep Finset.univ fun ij : Fin 6 × Fin 4 => (reached ER (rcvCell c ij.1 ij.2) 0 : sProp 𝕄))
    ⊢ bigSep Finset.univ fun lj : Fin 3 × Fin 4 => reached ER (rcvCell c (exH lj.1) lj.2) 0 :=
  bigSep_intro_persistent fun lj _ => bigSep_elim (Finset.mem_univ (exH lj.1, lj.2))

omit [FloatOps F] in
theorem sepTS (c : Dev nD) : (bigSep Finset.univ fun ij : Fin 6 × Fin 4 => (dutyTok ER (sndCell c ij.1 ij.2) 0 false : sProp 𝕄))
    = iprop(dutyTok ER (sndCell c (exH 0) 0) 0 false ∗ dutyTok ER (sndCell c (exH 0) 1) 0 false ∗ dutyTok ER (sndCell c (exH 0) 2) 0 false ∗ dutyTok ER (sndCell c (exH 0) 3) 0 false
      ∗ dutyTok ER (sndCell c (exG 0) 0) 0 false ∗ dutyTok ER (sndCell c (exG 0) 1) 0 false ∗ dutyTok ER (sndCell c (exG 0) 2) 0 false ∗ dutyTok ER (sndCell c (exG 0) 3) 0 false
      ∗ dutyTok ER (sndCell c (exH 1) 0) 0 false ∗ dutyTok ER (sndCell c (exH 1) 1) 0 false ∗ dutyTok ER (sndCell c (exH 1) 2) 0 false ∗ dutyTok ER (sndCell c (exH 1) 3) 0 false
      ∗ dutyTok ER (sndCell c (exG 1) 0) 0 false ∗ dutyTok ER (sndCell c (exG 1) 1) 0 false ∗ dutyTok ER (sndCell c (exG 1) 2) 0 false ∗ dutyTok ER (sndCell c (exG 1) 3) 0 false
      ∗ dutyTok ER (sndCell c (exH 2) 0) 0 false ∗ dutyTok ER (sndCell c (exH 2) 1) 0 false ∗ dutyTok ER (sndCell c (exH 2) 2) 0 false ∗ dutyTok ER (sndCell c (exH 2) 3) 0 false
      ∗ dutyTok ER (sndCell c (exG 2) 0) 0 false ∗ dutyTok ER (sndCell c (exG 2) 1) 0 false ∗ dutyTok ER (sndCell c (exG 2) 2) 0 false ∗ dutyTok ER (sndCell c (exG 2) 3) 0 false) :=
  (sep24 _).trans rfl

omit [FloatOps F] in
theorem sepTR (c : Dev nD) : (bigSep Finset.univ fun ij : Fin 6 × Fin 4 => (dutyTok ER (rcvCell (peer ij.1 c) ij.1 ij.2) 0 false : sProp 𝕄))
    = iprop(dutyTok ER (rcvCell (yp c) (exH 0) 0) 0 false ∗ dutyTok ER (rcvCell (yp c) (exH 0) 1) 0 false ∗ dutyTok ER (rcvCell (yp c) (exH 0) 2) 0 false ∗ dutyTok ER (rcvCell (yp c) (exH 0) 3) 0 false
      ∗ dutyTok ER (rcvCell (xp c) (exG 0) 0) 0 false ∗ dutyTok ER (rcvCell (xp c) (exG 0) 1) 0 false ∗ dutyTok ER (rcvCell (xp c) (exG 0) 2) 0 false ∗ dutyTok ER (rcvCell (xp c) (exG 0) 3) 0 false
      ∗ dutyTok ER (rcvCell (yp c) (exH 1) 0) 0 false ∗ dutyTok ER (rcvCell (yp c) (exH 1) 1) 0 false ∗ dutyTok ER (rcvCell (yp c) (exH 1) 2) 0 false ∗ dutyTok ER (rcvCell (yp c) (exH 1) 3) 0 false
      ∗ dutyTok ER (rcvCell (xp c) (exG 1) 0) 0 false ∗ dutyTok ER (rcvCell (xp c) (exG 1) 1) 0 false ∗ dutyTok ER (rcvCell (xp c) (exG 1) 2) 0 false ∗ dutyTok ER (rcvCell (xp c) (exG 1) 3) 0 false
      ∗ dutyTok ER (rcvCell (yp c) (exH 2) 0) 0 false ∗ dutyTok ER (rcvCell (yp c) (exH 2) 1) 0 false ∗ dutyTok ER (rcvCell (yp c) (exH 2) 2) 0 false ∗ dutyTok ER (rcvCell (yp c) (exH 2) 3) 0 false
      ∗ dutyTok ER (rcvCell (xp c) (exG 2) 0) 0 false ∗ dutyTok ER (rcvCell (xp c) (exG 2) 1) 0 false ∗ dutyTok ER (rcvCell (xp c) (exG 2) 2) 0 false ∗ dutyTok ER (rcvCell (xp c) (exG 2) 3) 0 false) :=
  (sep24 _).trans rfl

omit [FloatOps F] in
theorem sepCR (c : Dev nD) : (bigSep Finset.univ fun ij : Fin 6 × Fin 4 => (cred (tallyAt (rcvCell c ij.1 ij.2) () (amt ij.1)) : sProp 𝕄))
    = iprop(cred (tallyAt (rcvCell c (exH 0) 0) () Nh) ∗ cred (tallyAt (rcvCell c (exH 0) 1) () Nh) ∗ cred (tallyAt (rcvCell c (exH 0) 2) () Nh) ∗ cred (tallyAt (rcvCell c (exH 0) 3) () Nh)
      ∗ cred (tallyAt (rcvCell c (exG 0) 0) () Ng) ∗ cred (tallyAt (rcvCell c (exG 0) 1) () Ng) ∗ cred (tallyAt (rcvCell c (exG 0) 2) () Ng) ∗ cred (tallyAt (rcvCell c (exG 0) 3) () Ng)
      ∗ cred (tallyAt (rcvCell c (exH 1) 0) () Nh) ∗ cred (tallyAt (rcvCell c (exH 1) 1) () Nh) ∗ cred (tallyAt (rcvCell c (exH 1) 2) () Nh) ∗ cred (tallyAt (rcvCell c (exH 1) 3) () Nh)
      ∗ cred (tallyAt (rcvCell c (exG 1) 0) () Ng) ∗ cred (tallyAt (rcvCell c (exG 1) 1) () Ng) ∗ cred (tallyAt (rcvCell c (exG 1) 2) () Ng) ∗ cred (tallyAt (rcvCell c (exG 1) 3) () Ng)
      ∗ cred (tallyAt (rcvCell c (exH 2) 0) () Nh) ∗ cred (tallyAt (rcvCell c (exH 2) 1) () Nh) ∗ cred (tallyAt (rcvCell c (exH 2) 2) () Nh) ∗ cred (tallyAt (rcvCell c (exH 2) 3) () Nh)
      ∗ cred (tallyAt (rcvCell c (exG 2) 0) () Ng) ∗ cred (tallyAt (rcvCell c (exG 2) 1) () Ng) ∗ cred (tallyAt (rcvCell c (exG 2) 2) () Ng) ∗ cred (tallyAt (rcvCell c (exG 2) 3) () Ng)) :=
  (sep24 _).trans rfl

omit [FloatOps F] in
theorem sepPS (c : Dev nD) : (bigSep Finset.univ fun ij : Fin 6 × Fin 4 => (atPos ER (kcell (c, some (false, ij))) 0 ∅ 0 : sProp 𝕄))
    = iprop(atPos ER (sndCell c (exH 0) 0) 0 ∅ 0 ∗ atPos ER (sndCell c (exH 0) 1) 0 ∅ 0 ∗ atPos ER (sndCell c (exH 0) 2) 0 ∅ 0 ∗ atPos ER (sndCell c (exH 0) 3) 0 ∅ 0
      ∗ atPos ER (sndCell c (exG 0) 0) 0 ∅ 0 ∗ atPos ER (sndCell c (exG 0) 1) 0 ∅ 0 ∗ atPos ER (sndCell c (exG 0) 2) 0 ∅ 0 ∗ atPos ER (sndCell c (exG 0) 3) 0 ∅ 0
      ∗ atPos ER (sndCell c (exH 1) 0) 0 ∅ 0 ∗ atPos ER (sndCell c (exH 1) 1) 0 ∅ 0 ∗ atPos ER (sndCell c (exH 1) 2) 0 ∅ 0 ∗ atPos ER (sndCell c (exH 1) 3) 0 ∅ 0
      ∗ atPos ER (sndCell c (exG 1) 0) 0 ∅ 0 ∗ atPos ER (sndCell c (exG 1) 1) 0 ∅ 0 ∗ atPos ER (sndCell c (exG 1) 2) 0 ∅ 0 ∗ atPos ER (sndCell c (exG 1) 3) 0 ∅ 0
      ∗ atPos ER (sndCell c (exH 2) 0) 0 ∅ 0 ∗ atPos ER (sndCell c (exH 2) 1) 0 ∅ 0 ∗ atPos ER (sndCell c (exH 2) 2) 0 ∅ 0 ∗ atPos ER (sndCell c (exH 2) 3) 0 ∅ 0
      ∗ atPos ER (sndCell c (exG 2) 0) 0 ∅ 0 ∗ atPos ER (sndCell c (exG 2) 1) 0 ∅ 0 ∗ atPos ER (sndCell c (exG 2) 2) 0 ∅ 0 ∗ atPos ER (sndCell c (exG 2) 3) 0 ∅ 0) :=
  (sep24 _).trans rfl

omit [FloatOps F] in
theorem sepPR (c : Dev nD) : (bigSep Finset.univ fun ij : Fin 6 × Fin 4 => (atPos ER (kcell (c, some (true, ij))) 0 ∅ 0 : sProp 𝕄))
    = iprop(atPos ER (rcvCell c (exH 0) 0) 0 ∅ 0 ∗ atPos ER (rcvCell c (exH 0) 1) 0 ∅ 0 ∗ atPos ER (rcvCell c (exH 0) 2) 0 ∅ 0 ∗ atPos ER (rcvCell c (exH 0) 3) 0 ∅ 0
      ∗ atPos ER (rcvCell c (exG 0) 0) 0 ∅ 0 ∗ atPos ER (rcvCell c (exG 0) 1) 0 ∅ 0 ∗ atPos ER (rcvCell c (exG 0) 2) 0 ∅ 0 ∗ atPos ER (rcvCell c (exG 0) 3) 0 ∅ 0
      ∗ atPos ER (rcvCell c (exH 1) 0) 0 ∅ 0 ∗ atPos ER (rcvCell c (exH 1) 1) 0 ∅ 0 ∗ atPos ER (rcvCell c (exH 1) 2) 0 ∅ 0 ∗ atPos ER (rcvCell c (exH 1) 3) 0 ∅ 0
      ∗ atPos ER (rcvCell c (exG 1) 0) 0 ∅ 0 ∗ atPos ER (rcvCell c (exG 1) 1) 0 ∅ 0 ∗ atPos ER (rcvCell c (exG 1) 2) 0 ∅ 0 ∗ atPos ER (rcvCell c (exG 1) 3) 0 ∅ 0
      ∗ atPos ER (rcvCell c (exH 2) 0) 0 ∅ 0 ∗ atPos ER (rcvCell c (exH 2) 1) 0 ∅ 0 ∗ atPos ER (rcvCell c (exH 2) 2) 0 ∅ 0 ∗ atPos ER (rcvCell c (exH 2) 3) 0 ∅ 0
      ∗ atPos ER (rcvCell c (exG 2) 0) 0 ∅ 0 ∗ atPos ER (rcvCell c (exG 2) 1) 0 ∅ 0 ∗ atPos ER (rcvCell c (exG 2) 2) 0 ∅ 0 ∗ atPos ER (rcvCell c (exG 2) 3) 0 ∅ 0) :=
  (sep24 _).trans rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Kix → ℕ) (c : Dev nD) : sProp 𝕄 :=
  iprop((ghost m K c ∗ creds c ∗ levAts L lv ∗ localSems c ∗ argsAt m c ∗ (∃ f, ptw c main_v1 f) ∗ scratchAny c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

abbrev theBody : Prog (TpuEff nD τ sig (Elt F) Λ₀ .tc) PUnit :=
  cc0_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Memref.whole cc0_scratch13) (Memref.isWhole_whole _) cc0_scratch14

theorem fetch_0 (t : Fin cfg0.N) : (cfg0.win (0 : Fin 1)).fetch t = true := by rw [fin_N t]; rfl

set_option maxHeartbeats 16000000 in
set_option maxRecDepth 65536 in

theorem sound_body (K : Dev nD × Kix → ℕ) (c : Dev nD) (Kt : PUnit → sProp 𝕄) :
    iprop(bodyPre m K c ∗ (bodyPost m c -∗ Kt ⟨⟩))
      ⊢ wp frame (wpE (defs₀ (F := F)) 𝒱₀ c none) Set.univ (theBody (F := F)) Kt := by
  unfold bodyPre ghost invs reacheds payToks positions creds localSems argsAt scratchAny
  iintro ⟨⟨⟨⟨⟨#HIown, #HIbx, #HIby, #HIpeer⟩, ⟨#HrBx, #HrBy, #HrPeer, #HrSnd, #HrRcv⟩, Hpos, ⟨HtBx, HtBy, HtRp, HtSn⟩⟩, ⟨HcB, Hcr⟩, #Hlev,
      ⟨S100, S101, S110, S111, S120, S121, S140, S141, S142, S143⟩, ⟨H1, H2, H3, H4, H5, H6⟩, Ho, ⟨G0, G1, ⟨%g2, G2⟩, ⟨%g3, G3⟩, G4, G5, G6, G7, G13⟩⟩,
      HOw, ⟨%d0, %gx, %hgx, Hx⟩⟩, Hk⟩
  have hx : gx = xstg m c := by rw [hgx]; unfold Dat.before; rw [if_pos (fetch_0 t₀)]; rfl
  subst hx
  unfold Dat.owesAt Pipeline.owesWithin
  icases HOw with ⟨%W, %hW, HO⟩
  rw [show (dats m 0 c).owed t₀.castSucc = O₀ c from rfl, O₀_eq]

  ihave G0s := (sc0_split c) $$ G0
  icases G0s with ⟨G0a, G0b, G0c⟩
  ihave G0a := (heldS_open c wbA) $$ G0a
  icases G0a with ⟨%ga, G0a⟩
  ihave G0b := (heldS_open c wbB) $$ G0b
  icases G0b with ⟨%gb, G0b⟩
  ihave G0c := (heldS_open c wbC) $$ G0c
  icases G0c with ⟨%gc, G0c⟩
  ihave G1s := (sc1_split c) $$ G1
  icases G1s with ⟨G1a, G1b⟩
  ihave G1a := (heldS_open c vbA) $$ G1a
  icases G1a with ⟨%va, G1a⟩
  ihave G1b := (heldS_open c vbB) $$ G1b
  icases G1b with ⟨%vb, G1b⟩
  ihave H1s := (arg1_split c _) $$ H1
  icases H1s with ⟨H1a, H1b⟩
  ihave G4s := (hs_split c) $$ G4
  ihave G4s := (Entails.of_eq (sep12 fun lj : Fin 3 × Fin 4 => (heldS c (hsM lj.1 lj.2) : sProp 𝕄))) $$ G4s
  icases G4s with ⟨HS00, HS01, HS02, HS03, HS10, HS11, HS12, HS13, HS20, HS21, HS22, HS23⟩
  ihave HS00 := (heldS_open c (hsM 0 0)) $$ HS00
  icases HS00 with ⟨%fs00, HS00⟩
  ihave HS01 := (heldS_open c (hsM 0 1)) $$ HS01
  icases HS01 with ⟨%fs01, HS01⟩
  ihave HS02 := (heldS_open c (hsM 0 2)) $$ HS02
  icases HS02 with ⟨%fs02, HS02⟩
  ihave HS03 := (heldS_open c (hsM 0 3)) $$ HS03
  icases HS03 with ⟨%fs03, HS03⟩
  ihave HS10 := (heldS_open c (hsM 1 0)) $$ HS10
  icases HS10 with ⟨%fs10, HS10⟩
  ihave HS11 := (heldS_open c (hsM 1 1)) $$ HS11
  icases HS11 with ⟨%fs11, HS11⟩
  ihave HS12 := (heldS_open c (hsM 1 2)) $$ HS12
  icases HS12 with ⟨%fs12, HS12⟩
  ihave HS13 := (heldS_open c (hsM 1 3)) $$ HS13
  icases HS13 with ⟨%fs13, HS13⟩
  ihave HS20 := (heldS_open c (hsM 2 0)) $$ HS20
  icases HS20 with ⟨%fs20, HS20⟩
  ihave HS21 := (heldS_open c (hsM 2 1)) $$ HS21
  icases HS21 with ⟨%fs21, HS21⟩
  ihave HS22 := (heldS_open c (hsM 2 2)) $$ HS22
  icases HS22 with ⟨%fs22, HS22⟩
  ihave HS23 := (heldS_open c (hsM 2 3)) $$ HS23
  icases HS23 with ⟨%fs23, HS23⟩
  ihave G6s := (gs_split c) $$ G6
  ihave G6s := (Entails.of_eq (sep12 fun lj : Fin 3 × Fin 4 => (heldS c (gsM lj.1 lj.2) : sProp 𝕄))) $$ G6s
  icases G6s with ⟨GS00, GS01, GS02, GS03, GS10, GS11, GS12, GS13, GS20, GS21, GS22, GS23⟩
  ihave GS00 := (heldS_open c (gsM 0 0)) $$ GS00
  icases GS00 with ⟨%gs00, GS00⟩
  ihave GS01 := (heldS_open c (gsM 0 1)) $$ GS01
  icases GS01 with ⟨%gs01, GS01⟩
  ihave GS02 := (heldS_open c (gsM 0 2)) $$ GS02
  icases GS02 with ⟨%gs02, GS02⟩
  ihave GS03 := (heldS_open c (gsM 0 3)) $$ GS03
  icases GS03 with ⟨%gs03, GS03⟩
  ihave GS10 := (heldS_open c (gsM 1 0)) $$ GS10
  icases GS10 with ⟨%gs10, GS10⟩
  ihave GS11 := (heldS_open c (gsM 1 1)) $$ GS11
  icases GS11 with ⟨%gs11, GS11⟩
  ihave GS12 := (heldS_open c (gsM 1 2)) $$ GS12
  icases GS12 with ⟨%gs12, GS12⟩
  ihave GS13 := (heldS_open c (gsM 1 3)) $$ GS13
  icases GS13 with ⟨%gs13, GS13⟩
  ihave GS20 := (heldS_open c (gsM 2 0)) $$ GS20
  icases GS20 with ⟨%gs20, GS20⟩
  ihave GS21 := (heldS_open c (gsM 2 1)) $$ GS21
  icases GS21 with ⟨%gs21, GS21⟩
  ihave GS22 := (heldS_open c (gsM 2 2)) $$ GS22
  icases GS22 with ⟨%gs22, GS22⟩
  ihave GS23 := (heldS_open c (gsM 2 3)) $$ GS23
  icases GS23 with ⟨%gs23, GS23⟩
  ihave G13s := (ov_split c) $$ G13
  ihave G13s := (Entails.of_eq (sep4 fun j : Fin 4 => (heldS c (ovM j) : sProp 𝕄))) $$ G13s
  icases G13s with ⟨OV0, OV1, OV2, OV3⟩
  ihave OV0 := (heldS_open c (ovM 0)) $$ OV0
  icases OV0 with ⟨%ov0, OV0⟩
  ihave OV1 := (heldS_open c (ovM 1)) $$ OV1
  icases OV1 with ⟨%ov1, OV1⟩
  ihave OV2 := (heldS_open c (ovM 2)) $$ OV2
  icases OV2 with ⟨%ov2, OV2⟩
  ihave OV3 := (heldS_open c (ovM 3)) $$ OV3
  icases OV3 with ⟨%ov3, OV3⟩
  ihave Hos := (out_split c) $$ Ho
  ihave Hos := (Entails.of_eq (sep4 fun j : Fin 4 => (heldS c (outM j) : sProp 𝕄))) $$ Hos
  icases Hos with ⟨OU0, OU1, OU2, OU3⟩
  ihave OU0 := (heldS_open c (outM 0)) $$ OU0
  icases OU0 with ⟨%ou0, OU0⟩
  ihave OU1 := (heldS_open c (outM 1)) $$ OU1
  icases OU1 with ⟨%ou1, OU1⟩
  ihave OU2 := (heldS_open c (outM 2)) $$ OU2
  icases OU2 with ⟨%ou2, OU2⟩
  ihave OU3 := (heldS_open c (outM 3)) $$ OU3
  icases OU3 with ⟨%ou3, OU3⟩
  ihave G5 := (hr_split c) $$ G5
  ihave G7 := (gr_split c) $$ G7
  ihave Htsn := (Entails.of_eq (sepTS c)) $$ HtSn
  icases Htsn with ⟨TS00, TS01, TS02, TS03, TS10, TS11, TS12, TS13, TS20, TS21, TS22, TS23, TS30, TS31, TS32, TS33, TS40, TS41, TS42, TS43, TS50, TS51, TS52, TS53⟩
  ihave Htrp := (Entails.of_eq (sepTR c)) $$ HtRp
  icases Htrp with ⟨TR00, TR01, TR02, TR03, TR10, TR11, TR12, TR13, TR20, TR21, TR22, TR23, TR30, TR31, TR32, TR33, TR40, TR41, TR42, TR43, TR50, TR51, TR52, TR53⟩
  ihave Hcrs := (Entails.of_eq (sepCR c)) $$ Hcr
  icases Hcrs with ⟨CR00, CR01, CR02, CR03, CR10, CR11, CR12, CR13, CR20, CR21, CR22, CR23, CR30, CR31, CR32, CR33, CR40, CR41, CR42, CR43, CR50, CR51, CR52, CR53⟩
  ihave Hp := (Entails.of_eq (bigSep_kix fun k : Kix => (atPos ER (kcell (c, k)) 0 ∅ 0 : sProp 𝕄))) $$ Hpos
  icases Hp with ⟨HatB, Hps, Hpr⟩
  ihave Hps := (Entails.of_eq (sepPS c)) $$ Hps
  icases Hps with ⟨PS00, PS01, PS02, PS03, PS10, PS11, PS12, PS13, PS20, PS21, PS22, PS23, PS30, PS31, PS32, PS33, PS40, PS41, PS42, PS43, PS50, PS51, PS52, PS53⟩
  ihave Hpr := (Entails.of_eq (sepPR c)) $$ Hpr
  icases Hpr with ⟨PR00, PR01, PR02, PR03, PR10, PR11, PR12, PR13, PR20, PR21, PR22, PR23, PR30, PR31, PR32, PR33, PR40, PR41, PR42, PR43, PR50, PR51, PR52, PR53⟩

  have hMW := fun (sm : SemLoc sig) (O' : CellTallies nD τ sig Unit) (h : Above (lvOf sm) O') => mayWait_at (F := F) c sm O' h

  ihave Hx := (Entails.of_eq (ptw_eq c cc0_stg0_0 (xstg m c)).symm) $$ Hx
  sl_exec_parts! (disch := rm_tac)

  iapply (Rounds.wp_signal 𝒱₀ ER (rd m) (c : Thread nD τ) none (dst := (xp c : Thread nD τ)) (κ := K (xp c, none))
      (d := false) (by rw [duties_bar]; exact Finset.mem_univ _) ((amount_bar m (xp c) false).trans (by decide)) () (Rm c 24 + tallyAt (barCell (yp c)) () 1) rfl)
    $$ [HO HtBx G7]
  · isplitr; · iexact HIbx
    isplitl [HO]; · iexact HO
    isplitl [HtBx]; · iexact HtBx
    isplitl [G7]
    · rw [payload_bar]; unfold barPay; rw [if_neg (by decide), xp_xp]
      isplitl [G7]; · iexact G7
      iapply (rch_G c); iexact HrRcv
    · iexact HrBx
  iintro HO
  sl_exec (disch := rm_tac)

  iapply (Rounds.wp_signal 𝒱₀ ER (rd m) (c : Thread nD τ) none (dst := (yp c : Thread nD τ)) (κ := K (yp c, none))
      (d := true) (by rw [duties_bar]; exact Finset.mem_univ _) ((amount_bar m (yp c) true).trans (by decide)) () (Rm c 24) rfl)
    $$ [HO HtBy G5]
  · isplitr; · iexact HIby
    isplitl [HO]; · iexact HO
    isplitl [HtBy]; · iexact HtBy
    isplitl [G5]
    · rw [payload_bar]; unfold barPay; rw [if_pos rfl, yp_yp]
      isplitl [G5]; · iexact G5
      iapply (rch_H c); iexact HrRcv
    · iexact HrBy
  iintro HO
  sl_exec (disch := rm_tac)

  iapply (Rounds.wp_wait_rest_token 𝒱₀ ER (rd m) (c : Thread nD τ) none (κ := K (c, none))
      (wpE_semWait_eq 𝒱₀ (c : Thread nD τ) none Set.univ) (Set.mem_univ _) () (O := Rm c 24) (W := W) (R := 0) (m := 0) (T := ∅)
      (by rw [expect_bar]; decide)) $$ [HcB HO HatB]
  · isplitr; · iapply (inv_own m K c none); iexact HIown
    isplitl [HcB]; · iexact HcB
    isplitl [HO]; · iexact HO
    isplitr; · iapply (mayWait_at c (.reg barS) (Rm c 24) (by rm_tac)); iexact Hlev
    iexact HatB
  iintro ⟨HO, HatB, -, Hpay⟩
  ihave Hp := (Entails.of_eq (rest_bar m c)) $$ Hpay
  unfold barPay
  rw [if_neg (by decide), if_pos rfl]
  icases Hp with ⟨⟨HgrX, #HrRX⟩, ⟨HhrY, #HrRY⟩⟩

  ihave Hy := (Entails.of_eq (sep12 fun lj : Fin 3 × Fin 4 => (heldS (yp c) (hrM lj.1 lj.2) : sProp 𝕄))) $$ HhrY
  icases Hy with ⟨YR00, YR01, YR02, YR03, YR10, YR11, YR12, YR13, YR20, YR21, YR22, YR23⟩
  ihave Hxx := (Entails.of_eq (sep12 fun lj : Fin 3 × Fin 4 => (heldS (xp c) (grM lj.1 lj.2) : sProp 𝕄))) $$ HgrX
  icases Hxx with ⟨XR00, XR01, XR02, XR03, XR10, XR11, XR12, XR13, XR20, XR21, XR22, XR23⟩

  sl_exec (disch := rm_tac)
  ihave YR00 := (heldS_open (yp c) (hrM 0 0)) $$ YR00
  icases YR00 with ⟨%fr00, YR00⟩
  rw [show Rm c 24 = Rm c 23 + tallyAt (rcvCell (yp c) (exH 0) 0) () Nh from congrArg (Rm c 23 + ·) (tly_H c 0 0)]
  iapply (wp_send_Hw m K c _ (dev3_eq c) 0 0 _ fr00 (by exact hs_sent c 0 0 _ rfl _ fs00 _ (hpL m 0) _ (pay4_cast _ _) (hp_valx_0H m c)) (Rm c 23) _) $$ HIown HIpeer HrSnd HrRY HS00 YR00 HO TS00 TR00
  iintro ⟨CS00, HO⟩

  sl_exec (disch := rm_tac)
  ihave YR01 := (heldS_open (yp c) (hrM 0 1)) $$ YR01
  icases YR01 with ⟨%fr01, YR01⟩
  rw [show Rm c 23 = Rm c 22 + tallyAt (rcvCell (yp c) (exH 0) 1) () Nh from congrArg (Rm c 22 + ·) (tly_H c 0 1)]
  iapply (wp_send_Hw m K c _ (dev4_eq c) 0 1 _ fr01 (by exact hs_sent c 0 1 _ rfl _ fs01 _ (hpL m 0) _ (pay6_cast _ _) (hp_valx_1H m c)) (Rm c 22) _) $$ HIown HIpeer HrSnd HrRY HS01 YR01 HO TS01 TR01
  iintro ⟨CS01, HO⟩

  sl_exec (disch := rm_tac)
  ihave YR02 := (heldS_open (yp c) (hrM 0 2)) $$ YR02
  icases YR02 with ⟨%fr02, YR02⟩
  rw [show Rm c 22 = Rm c 21 + tallyAt (rcvCell (yp c) (exH 0) 2) () Nh from congrArg (Rm c 21 + ·) (tly_H c 0 2)]
  iapply (wp_send_Hw m K c _ (dev5_eq c) 0 2 _ fr02 (by exact hs_sent c 0 2 _ rfl _ fs02 _ (hpL m 0) _ (pay9_cast _ _) (hp_valx_2H m c)) (Rm c 21) _) $$ HIown HIpeer HrSnd HrRY HS02 YR02 HO TS02 TR02
  iintro ⟨CS02, HO⟩

  sl_exec (disch := rm_tac)
  ihave YR03 := (heldS_open (yp c) (hrM 0 3)) $$ YR03
  icases YR03 with ⟨%fr03, YR03⟩
  rw [show Rm c 21 = Rm c 20 + tallyAt (rcvCell (yp c) (exH 0) 3) () Nh from congrArg (Rm c 20 + ·) (tly_H c 0 3)]
  iapply (wp_send_Hw m K c _ (dev6_eq c) 0 3 _ fr03 (by exact hs_sent c 0 3 _ rfl _ fs03 _ (hpL m 0) _ (pay11_cast _ _) (hp_valx_3H m c)) (Rm c 20) _) $$ HIown HIpeer HrSnd HrRY HS03 YR03 HO TS03 TR03
  iintro ⟨CS03, HO⟩
  sl_exec (disch := rm_tac)

  ihave G0a := (heldS_close c wbA _) $$ G0a
  ihave G0b := (heldS_close c wbB _) $$ G0b
  ihave G00 := (halves_join c) $$ [G0a G0b]
  · isplitl [G0a]; · iexact G0a
    iexact G0b
  ihave G00 := (heldS_open c wb0) $$ G00
  icases G00 with ⟨%g00, G00⟩
  sl_exec (disch := rm_tac)

  iapply (wp_recv_Hw m K c 0 0 (wpE_waitDma2_eq 𝒱₀ (c : Thread nD τ) none Set.univ (dst := hrM 0 0)) (Rm c 20) _ (mayWait_at c _ (Rm c 20) (by rm_tac))) $$ HIown Hlev CR00 HO PR00
  iintro ⟨HO, PR00, HR00⟩
  ihave HR00 := (heldAt_open' c (hrM 0 0) _) $$ HR00
  icases HR00 with ⟨%hr00, HR00, %hhr00⟩
  sl_exec (disch := rm_tac)
  iapply (wp_recv_Hw m K c 0 1 (wpE_waitDma2_eq 𝒱₀ (c : Thread nD τ) none Set.univ (dst := hrM 0 1)) (Rm c 20) _ (mayWait_at c _ (Rm c 20) (by rm_tac))) $$ HIown Hlev CR01 HO PR01
  iintro ⟨HO, PR01, HR01⟩
  ihave HR01 := (heldAt_open' c (hrM 0 1) _) $$ HR01
  icases HR01 with ⟨%hr01, HR01, %hhr01⟩
  sl_exec (disch := rm_tac)
  iapply (wp_recv_Hw m K c 0 2 (wpE_waitDma2_eq 𝒱₀ (c : Thread nD τ) none Set.univ (dst := hrM 0 2)) (Rm c 20) _ (mayWait_at c _ (Rm c 20) (by rm_tac))) $$ HIown Hlev CR02 HO PR02
  iintro ⟨HO, PR02, HR02⟩
  ihave HR02 := (heldAt_open' c (hrM 0 2) _) $$ HR02
  icases HR02 with ⟨%hr02, HR02, %hhr02⟩
  sl_exec (disch := rm_tac)
  iapply (wp_recv_Hw m K c 0 3 (wpE_waitDma2_eq 𝒱₀ (c : Thread nD τ) none Set.univ (dst := hrM 0 3)) (Rm c 20) _ (mayWait_at c _ (Rm c 20) (by rm_tac))) $$ HIown Hlev CR03 HO PR03
  iintro ⟨HO, PR03, HR03⟩
  ihave HR03 := (heldAt_open' c (hrM 0 3) _) $$ HR03
  icases HR03 with ⟨%hr03, HR03, %hhr03⟩
  have hgp0 := gp_full_0H c m _ _ _ _ ⟨hp_valx_0H m c, hp_valx_1H m c, hp_valx_2H m c, hp_valx_3H m c⟩ hr00 hr01 hr02 hr03 hhr00 hhr01 hhr02 hhr03 (vbA.view.junk (Val := Elt F)) [] []
  sl_exec (disch := rm_tac)

  ihave XR00 := (heldS_open (xp c) (grM 0 0)) $$ XR00
  icases XR00 with ⟨%gr00, XR00⟩
  rw [show Rm c 20 = Rm c 19 + tallyAt (rcvCell (xp c) (exG 0) 0) () Ng from congrArg (Rm c 19 + ·) (tly_G c 0 0)]
  iapply (wp_send_Gw m K c _ (dev7_eq c) 0 0 _ gr00 (by exact gs_sent m c 0 0 _ rfl _ gs00 _ (hpL m 0) _ (pay18_castH _ _ _ _) hgp0) (Rm c 19) _) $$ HIown HIpeer HrSnd HrRX GS00 XR00 HO TS10 TR10
  iintro ⟨CS10, HO⟩
  sl_exec (disch := rm_tac)
  ihave XR01 := (heldS_open (xp c) (grM 0 1)) $$ XR01
  icases XR01 with ⟨%gr01, XR01⟩
  rw [show Rm c 19 = Rm c 18 + tallyAt (rcvCell (xp c) (exG 0) 1) () Ng from congrArg (Rm c 18 + ·) (tly_G c 0 1)]
  iapply (wp_send_Gw m K c _ (dev8_eq c) 0 1 _ gr01 (by exact gs_sent m c 0 1 _ rfl _ gs01 _ (hpL m 0) _ (pay20_castH _) hgp0) (Rm c 18) _) $$ HIown HIpeer HrSnd HrRX GS01 XR01 HO TS11 TR11
  iintro ⟨CS11, HO⟩
  sl_exec (disch := rm_tac)
  ihave XR02 := (heldS_open (xp c) (grM 0 2)) $$ XR02
  icases XR02 with ⟨%gr02, XR02⟩
  rw [show Rm c 18 = Rm c 17 + tallyAt (rcvCell (xp c) (exG 0) 2) () Ng from congrArg (Rm c 17 + ·) (tly_G c 0 2)]
  iapply (wp_send_Gw m K c _ (dev9_eq c) 0 2 _ gr02 (by exact gs_sent m c 0 2 _ rfl _ gs02 _ (hpL m 0) _ (pay22_castH _) hgp0) (Rm c 17) _) $$ HIown HIpeer HrSnd HrRX GS02 XR02 HO TS12 TR12
  iintro ⟨CS12, HO⟩
  sl_exec (disch := rm_tac)
  ihave XR03 := (heldS_open (xp c) (grM 0 3)) $$ XR03
  icases XR03 with ⟨%gr03, XR03⟩
  rw [show Rm c 17 = Rm c 16 + tallyAt (rcvCell (xp c) (exG 0) 3) () Ng from congrArg (Rm c 16 + ·) (tly_G c 0 3)]
  iapply (wp_send_Gw m K c _ (dev10_eq c) 0 3 _ gr03 (by exact gs_sent m c 0 3 _ rfl _ gs03 _ (hpL m 0) _ (pay24_castH _) hgp0) (Rm c 16) _) $$ HIown HIpeer HrSnd HrRX GS03 XR03 HO TS13 TR13
  iintro ⟨CS13, HO⟩
  sl_exec (disch := rm_tac)

  iapply (wp_recv_Gw m K c 0 0 (wpE_waitDma2_eq 𝒱₀ (c : Thread nD τ) none Set.univ (dst := grM 0 0)) (Rm c 16) _ (mayWait_at c _ (Rm c 16) (by rm_tac))) $$ HIown Hlev CR10 HO PR10
  iintro ⟨HO, PR10, GR00⟩
  ihave GR00 := (heldAt_open' c (grM 0 0) _) $$ GR00
  icases GR00 with ⟨%rg00, GR00, %hrg00⟩
  sl_exec (disch := rm_tac)
  iapply (wp_recv_Gw m K c 0 1 (wpE_waitDma2_eq 𝒱₀ (c : Thread nD τ) none Set.univ (dst := grM 0 1)) (Rm c 16) _ (mayWait_at c _ (Rm c 16) (by rm_tac))) $$ HIown Hlev CR11 HO PR11
  iintro ⟨HO, PR11, GR01⟩
  ihave GR01 := (heldAt_open' c (grM 0 1) _) $$ GR01
  icases GR01 with ⟨%rg01, GR01, %hrg01⟩
  sl_exec (disch := rm_tac)
  iapply (wp_recv_Gw m K c 0 2 (wpE_waitDma2_eq 𝒱₀ (c : Thread nD τ) none Set.univ (dst := grM 0 2)) (Rm c 16) _ (mayWait_at c _ (Rm c 16) (by rm_tac))) $$ HIown Hlev CR12 HO PR12
  iintro ⟨HO, PR12, GR02⟩
  ihave GR02 := (heldAt_open' c (grM 0 2) _) $$ GR02
  icases GR02 with ⟨%rg02, GR02, %hrg02⟩
  sl_exec (disch := rm_tac)
  iapply (wp_recv_Gw m K c 0 3 (wpE_waitDma2_eq 𝒱₀ (c : Thread nD τ) none Set.univ (dst := grM 0 3)) (Rm c 16) _ (mayWait_at c _ (Rm c 16) (by rm_tac))) $$ HIown Hlev CR13 HO PR13
  iintro ⟨HO, PR13, GR03⟩
  ihave GR03 := (heldAt_open' c (grM 0 3) _) $$ GR03
  icases GR03 with ⟨%rg03, GR03, %hrg03⟩
  sl_exec (disch := rm_tac)

  ihave YR10 := (heldS_open (yp c) (hrM 1 0)) $$ YR10
  icases YR10 with ⟨%fr10, YR10⟩
  rw [show Rm c 16 = Rm c 15 + tallyAt (rcvCell (yp c) (exH 1) 0) () Nh from congrArg (Rm c 15 + ·) (tly_H c 1 0)]
  iapply (wp_send_Hw m K c _ (dev11_eq c) 1 0 _ fr10 (by exact hs_sent c 1 0 _ rfl _ fs10 _ (hpL m 1) _ (pay30_castH _) (hp_full_1H c m _ _ _ _ hgp0 rg00 rg01 rg02 rg03 hrg00 hrg01 hrg02 hrg03 _ _ _).2.1) (Rm c 15) _) $$ HIown HIpeer HrSnd HrRY HS10 YR10 HO TS20 TR20
  iintro ⟨CS20, HO⟩
  sl_exec (disch := rm_tac)
  ihave YR11 := (heldS_open (yp c) (hrM 1 1)) $$ YR11
  icases YR11 with ⟨%fr11, YR11⟩
  rw [show Rm c 15 = Rm c 14 + tallyAt (rcvCell (yp c) (exH 1) 1) () Nh from congrArg (Rm c 14 + ·) (tly_H c 1 1)]
  iapply (wp_send_Hw m K c _ (dev12_eq c) 1 1 _ fr11 (by exact hs_sent c 1 1 _ rfl _ fs11 _ (hpL m 1) _ (pay32_castH _) ((hp_full_1H c m _ _ _ _ hgp0 rg00 rg01 rg02 rg03 hrg00 hrg01 hrg02 hrg03 _ _ _).1 1)) (Rm c 14) _) $$ HIown HIpeer HrSnd HrRY HS11 YR11 HO TS21 TR21
  iintro ⟨CS21, HO⟩
  sl_exec (disch := rm_tac)
  ihave YR12 := (heldS_open (yp c) (hrM 1 2)) $$ YR12
  icases YR12 with ⟨%fr12, YR12⟩
  rw [show Rm c 14 = Rm c 13 + tallyAt (rcvCell (yp c) (exH 1) 2) () Nh from congrArg (Rm c 13 + ·) (tly_H c 1 2)]
  iapply (wp_send_Hw m K c _ (dev13_eq c) 1 2 _ fr12 (by exact hs_sent c 1 2 _ rfl _ fs12 _ (hpL m 1) _ (pay34_castH _) ((hp_full_1H c m _ _ _ _ hgp0 rg00 rg01 rg02 rg03 hrg00 hrg01 hrg02 hrg03 _ _ _).1 2)) (Rm c 13) _) $$ HIown HIpeer HrSnd HrRY HS12 YR12 HO TS22 TR22
  iintro ⟨CS22, HO⟩
  sl_exec (disch := rm_tac)
  ihave YR13 := (heldS_open (yp c) (hrM 1 3)) $$ YR13
  icases YR13 with ⟨%fr13, YR13⟩
  rw [show Rm c 13 = Rm c 12 + tallyAt (rcvCell (yp c) (exH 1) 3) () Nh from congrArg (Rm c 12 + ·) (tly_H c 1 3)]
  iapply (wp_send_Hw m K c _ (dev14_eq c) 1 3 _ fr13 (by exact hs_sent c 1 3 _ rfl _ fs13 _ (hpL m 1) _ (pay36_castH _) ((hp_full_1H c m _ _ _ _ hgp0 rg00 rg01 rg02 rg03 hrg00 hrg01 hrg02 hrg03 _ _ _).1 3)) (Rm c 12) _) $$ HIown HIpeer HrSnd HrRY HS13 YR13 HO TS23 TR23
  iintro ⟨CS23, HO⟩
  sl_exec (disch := rm_tac)

  iapply (wp_recv_Hw m K c 1 0 (wpE_waitDma2_eq 𝒱₀ (c : Thread nD τ) none Set.univ (dst := hrM 1 0)) (Rm c 12) _ (mayWait_at c _ (Rm c 12) (by rm_tac))) $$ HIown Hlev CR20 HO PR20
  iintro ⟨HO, PR20, HR10⟩
  ihave HR10 := (heldAt_open' c (hrM 1 0) _) $$ HR10
  icases HR10 with ⟨%hr10, HR10, %hhr10⟩
  sl_exec (disch := rm_tac)
  iapply (wp_recv_Hw m K c 1 1 (wpE_waitDma2_eq 𝒱₀ (c : Thread nD τ) none Set.univ (dst := hrM 1 1)) (Rm c 12) _ (mayWait_at c _ (Rm c 12) (by rm_tac))) $$ HIown Hlev CR21 HO PR21
  iintro ⟨HO, PR21, HR11⟩
  ihave HR11 := (heldAt_open' c (hrM 1 1) _) $$ HR11
  icases HR11 with ⟨%hr11, HR11, %hhr11⟩
  sl_exec (disch := rm_tac)
  iapply (wp_recv_Hw m K c 1 2 (wpE_waitDma2_eq 𝒱₀ (c : Thread nD τ) none Set.univ (dst := hrM 1 2)) (Rm c 12) _ (mayWait_at c _ (Rm c 12) (by rm_tac))) $$ HIown Hlev CR22 HO PR22
  iintro ⟨HO, PR22, HR12⟩
  ihave HR12 := (heldAt_open' c (hrM 1 2) _) $$ HR12
  icases HR12 with ⟨%hr12, HR12, %hhr12⟩
  sl_exec (disch := rm_tac)
  iapply (wp_recv_Hw m K c 1 3 (wpE_waitDma2_eq 𝒱₀ (c : Thread nD τ) none Set.univ (dst := hrM 1 3)) (Rm c 12) _ (mayWait_at c _ (Rm c 12) (by rm_tac))) $$ HIown Hlev CR23 HO PR23
  iintro ⟨HO, PR23, HR13⟩
  ihave HR13 := (heldAt_open' c (hrM 1 3) _) $$ HR13
  icases HR13 with ⟨%hr13, HR13, %hhr13⟩
  have hgp1 := gp_full_1H c m _ _ _ _ (hp_full_1H c m _ _ _ _ hgp0 rg00 rg01 rg02 rg03 hrg00 hrg01 hrg02 hrg03 (wbC.view.junk (Val := Elt F)) (sc2L0H m c) []).2 hr10 hr11 hr12 hr13 hhr10 hhr11 hhr12 hhr13 (vbB.view.junk (Val := Elt F)) (sc3L0H m c) []
  sl_exec (disch := rm_tac)

  ihave XR10 := (heldS_open (xp c) (grM 1 0)) $$ XR10
  icases XR10 with ⟨%gr10, XR10⟩
  rw [show Rm c 12 = Rm c 11 + tallyAt (rcvCell (xp c) (exG 1) 0) () Ng from congrArg (Rm c 11 + ·) (tly_G c 1 0)]
  iapply (wp_send_Gw m K c _ (dev15_eq c) 1 0 _ gr10 (by exact gs_sent m c 1 0 _ rfl _ gs10 _ (hpL m 1) _ (pay43_castH _ _ _ _) hgp1) (Rm c 11) _) $$ HIown HIpeer HrSnd HrRX GS10 XR10 HO TS30 TR30
  iintro ⟨CS30, HO⟩
  sl_exec (disch := rm_tac)
  ihave XR11 := (heldS_open (xp c) (grM 1 1)) $$ XR11
  icases XR11 with ⟨%gr11, XR11⟩
  rw [show Rm c 11 = Rm c 10 + tallyAt (rcvCell (xp c) (exG 1) 1) () Ng from congrArg (Rm c 10 + ·) (tly_G c 1 1)]
  iapply (wp_send_Gw m K c _ (dev16_eq c) 1 1 _ gr11 (by exact gs_sent m c 1 1 _ rfl _ gs11 _ (hpL m 1) _ (pay45_castH _) hgp1) (Rm c 10) _) $$ HIown HIpeer HrSnd HrRX GS11 XR11 HO TS31 TR31
  iintro ⟨CS31, HO⟩
  sl_exec (disch := rm_tac)
  ihave XR12 := (heldS_open (xp c) (grM 1 2)) $$ XR12
  icases XR12 with ⟨%gr12, XR12⟩
  rw [show Rm c 10 = Rm c 9 + tallyAt (rcvCell (xp c) (exG 1) 2) () Ng from congrArg (Rm c 9 + ·) (tly_G c 1 2)]
  iapply (wp_send_Gw m K c _ (dev17_eq c) 1 2 _ gr12 (by exact gs_sent m c 1 2 _ rfl _ gs12 _ (hpL m 1) _ (pay47_castH _) hgp1) (Rm c 9) _) $$ HIown HIpeer HrSnd HrRX GS12 XR12 HO TS32 TR32
  iintro ⟨CS32, HO⟩
  sl_exec (disch := rm_tac)
  ihave XR13 := (heldS_open (xp c) (grM 1 3)) $$ XR13
  icases XR13 with ⟨%gr13, XR13⟩
  rw [show Rm c 9 = Rm c 8 + tallyAt (rcvCell (xp c) (exG 1) 3) () Ng from congrArg (Rm c 8 + ·) (tly_G c 1 3)]
  iapply (wp_send_Gw m K c _ (dev18_eq c) 1 3 _ gr13 (by exact gs_sent m c 1 3 _ rfl _ gs13 _ (hpL m 1) _ (pay49_castH _) hgp1) (Rm c 8) _) $$ HIown HIpeer HrSnd HrRX GS13 XR13 HO TS33 TR33
  iintro ⟨CS33, HO⟩
  sl_exec (disch := rm_tac)

  iapply (wp_recv_Gw m K c 1 0 (wpE_waitDma2_eq 𝒱₀ (c : Thread nD τ) none Set.univ (dst := grM 1 0)) (Rm c 8) _ (mayWait_at c _ (Rm c 8) (by rm_tac))) $$ HIown Hlev CR30 HO PR30
  iintro ⟨HO, PR30, GR10⟩
  ihave GR10 := (heldAt_open' c (grM 1 0) _) $$ GR10
  icases GR10 with ⟨%rg10, GR10, %hrg10⟩
  sl_exec (disch := rm_tac)
  iapply (wp_recv_Gw m K c 1 1 (wpE_waitDma2_eq 𝒱₀ (c : Thread nD τ) none Set.univ (dst := grM 1 1)) (Rm c 8) _ (mayWait_at c _ (Rm c 8) (by rm_tac))) $$ HIown Hlev CR31 HO PR31
  iintro ⟨HO, PR31, GR11⟩
  ihave GR11 := (heldAt_open' c (grM 1 1) _) $$ GR11
  icases GR11 with ⟨%rg11, GR11, %hrg11⟩
  sl_exec (disch := rm_tac)
  iapply (wp_recv_Gw m K c 1 2 (wpE_waitDma2_eq 𝒱₀ (c : Thread nD τ) none Set.univ (dst := grM 1 2)) (Rm c 8) _ (mayWait_at c _ (Rm c 8) (by rm_tac))) $$ HIown Hlev CR32 HO PR32
  iintro ⟨HO, PR32, GR12⟩
  ihave GR12 := (heldAt_open' c (grM 1 2) _) $$ GR12
  icases GR12 with ⟨%rg12, GR12, %hrg12⟩
  sl_exec (disch := rm_tac)
  iapply (wp_recv_Gw m K c 1 3 (wpE_waitDma2_eq 𝒱₀ (c : Thread nD τ) none Set.univ (dst := grM 1 3)) (Rm c 8) _ (mayWait_at c _ (Rm c 8) (by rm_tac))) $$ HIown Hlev CR33 HO PR33
  iintro ⟨HO, PR33, GR13⟩
  ihave GR13 := (heldAt_open' c (grM 1 3) _) $$ GR13
  icases GR13 with ⟨%rg13, GR13, %hrg13⟩
  sl_exec (disch := rm_tac)

  ihave YR20 := (heldS_open (yp c) (hrM 2 0)) $$ YR20
  icases YR20 with ⟨%fr20, YR20⟩
  rw [show Rm c 8 = Rm c 7 + tallyAt (rcvCell (yp c) (exH 2) 0) () Nh from congrArg (Rm c 7 + ·) (tly_H c 2 0)]
  iapply (wp_send_Hw m K c _ (dev19_eq c) 2 0 _ fr20 (by exact (hs_read_write c 2 0 _ rfl _ fs20 _).trans ((pay56_castH _).trans (hp_full_2H c m _ _ _ _ hgp1 rg10 rg11 rg12 rg13 hrg10 hrg11 hrg12 hrg13 _ _ _).2.2)) (Rm c 7) _) $$ HIown HIpeer HrSnd HrRY HS20 YR20 HO TS40 TR40
  iintro ⟨CS40, HO⟩
  sl_exec (disch := rm_tac)
  ihave YR21 := (heldS_open (yp c) (hrM 2 1)) $$ YR21
  icases YR21 with ⟨%fr21, YR21⟩
  rw [show Rm c 7 = Rm c 6 + tallyAt (rcvCell (yp c) (exH 2) 1) () Nh from congrArg (Rm c 6 + ·) (tly_H c 2 1)]
  iapply (wp_send_Hw m K c _ (dev20_eq c) 2 1 _ fr21 (by exact hs_sent c 2 1 _ rfl _ fs21 _ (hpL m 2) _ (pay58_castH _) ((hp_full_2H c m _ _ _ _ hgp1 rg10 rg11 rg12 rg13 hrg10 hrg11 hrg12 hrg13 _ _ _).1 1)) (Rm c 6) _) $$ HIown HIpeer HrSnd HrRY HS21 YR21 HO TS41 TR41
  iintro ⟨CS41, HO⟩
  sl_exec (disch := rm_tac)
  ihave YR22 := (heldS_open (yp c) (hrM 2 2)) $$ YR22
  icases YR22 with ⟨%fr22, YR22⟩
  rw [show Rm c 6 = Rm c 5 + tallyAt (rcvCell (yp c) (exH 2) 2) () Nh from congrArg (Rm c 5 + ·) (tly_H c 2 2)]
  iapply (wp_send_Hw m K c _ (dev21_eq c) 2 2 _ fr22 (by exact hs_sent c 2 2 _ rfl _ fs22 _ (hpL m 2) _ (pay60_castH _) ((hp_full_2H c m _ _ _ _ hgp1 rg10 rg11 rg12 rg13 hrg10 hrg11 hrg12 hrg13 _ _ _).1 2)) (Rm c 5) _) $$ HIown HIpeer HrSnd HrRY HS22 YR22 HO TS42 TR42
  iintro ⟨CS42, HO⟩
  sl_exec (disch := rm_tac)
  ihave YR23 := (heldS_open (yp c) (hrM 2 3)) $$ YR23
  icases YR23 with ⟨%fr23, YR23⟩
  rw [show Rm c 5 = Rm c 4 + tallyAt (rcvCell (yp c) (exH 2) 3) () Nh from congrArg (Rm c 4 + ·) (tly_H c 2 3)]
  iapply (wp_send_Hw m K c _ (dev22_eq c) 2 3 _ fr23 (by exact hs_sent c 2 3 _ rfl _ fs23 _ (hpL m 2) _ (pay62_castH _) ((hp_full_2H c m _ _ _ _ hgp1 rg10 rg11 rg12 rg13 hrg10 hrg11 hrg12 hrg13 _ _ _).1 3)) (Rm c 4) _) $$ HIown HIpeer HrSnd HrRY HS23 YR23 HO TS43 TR43
  iintro ⟨CS43, HO⟩
  sl_exec (disch := rm_tac)

  iapply (wp_recv_Hw m K c 2 0 (wpE_waitDma2_eq 𝒱₀ (c : Thread nD τ) none Set.univ (dst := hrM 2 0)) (Rm c 4) _ (mayWait_at c _ (Rm c 4) (by rm_tac))) $$ HIown Hlev CR40 HO PR40
  iintro ⟨HO, PR40, HR20⟩
  ihave HR20 := (heldAt_open' c (hrM 2 0) _) $$ HR20
  icases HR20 with ⟨%hr20, HR20, %hhr20⟩
  sl_exec (disch := rm_tac)
  iapply (wp_recv_Hw m K c 2 1 (wpE_waitDma2_eq 𝒱₀ (c : Thread nD τ) none Set.univ (dst := hrM 2 1)) (Rm c 4) _ (mayWait_at c _ (Rm c 4) (by rm_tac))) $$ HIown Hlev CR41 HO PR41
  iintro ⟨HO, PR41, HR21⟩
  ihave HR21 := (heldAt_open' c (hrM 2 1) _) $$ HR21
  icases HR21 with ⟨%hr21, HR21, %hhr21⟩
  sl_exec (disch := rm_tac)
  iapply (wp_recv_Hw m K c 2 2 (wpE_waitDma2_eq 𝒱₀ (c : Thread nD τ) none Set.univ (dst := hrM 2 2)) (Rm c 4) _ (mayWait_at c _ (Rm c 4) (by rm_tac))) $$ HIown Hlev CR42 HO PR42
  iintro ⟨HO, PR42, HR22⟩
  ihave HR22 := (heldAt_open' c (hrM 2 2) _) $$ HR22
  icases HR22 with ⟨%hr22, HR22, %hhr22⟩
  sl_exec (disch := rm_tac)
  iapply (wp_recv_Hw m K c 2 3 (wpE_waitDma2_eq 𝒱₀ (c : Thread nD τ) none Set.univ (dst := hrM 2 3)) (Rm c 4) _ (mayWait_at c _ (Rm c 4) (by rm_tac))) $$ HIown Hlev CR43 HO PR43
  iintro ⟨HO, PR43, HR23⟩
  ihave HR23 := (heldAt_open' c (hrM 2 3) _) $$ HR23
  icases HR23 with ⟨%hr23, HR23, %hhr23⟩
  sl_exec (disch := rm_tac)

  ihave XR20 := (heldS_open (xp c) (grM 2 0)) $$ XR20
  icases XR20 with ⟨%gr20, XR20⟩
  rw [show Rm c 4 = Rm c 3 + tallyAt (rcvCell (xp c) (exG 2) 0) () Ng from congrArg (Rm c 3 + ·) (tly_G c 2 0)]
  iapply (wp_send_Gw m K c _ (dev23_eq c) 2 0 _ gr20 (by exact gs_sent m c 2 0 _ rfl _ gs20 _ (hpL m 2) _ (pay68_castH _ _ _ _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 3) _) $$ HIown HIpeer HrSnd HrRX GS20 XR20 HO TS50 TR50
  iintro ⟨CS50, HO⟩
  sl_exec (disch := rm_tac)
  ihave XR21 := (heldS_open (xp c) (grM 2 1)) $$ XR21
  icases XR21 with ⟨%gr21, XR21⟩
  rw [show Rm c 3 = Rm c 2 + tallyAt (rcvCell (xp c) (exG 2) 1) () Ng from congrArg (Rm c 2 + ·) (tly_G c 2 1)]
  iapply (wp_send_Gw m K c _ (dev24_eq c) 2 1 _ gr21 (by exact gs_sent m c 2 1 _ rfl _ gs21 _ (hpL m 2) _ (pay70_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 2) _) $$ HIown HIpeer HrSnd HrRX GS21 XR21 HO TS51 TR51
  iintro ⟨CS51, HO⟩
  sl_exec (disch := rm_tac)
  ihave XR22 := (heldS_open (xp c) (grM 2 2)) $$ XR22
  icases XR22 with ⟨%gr22, XR22⟩
  rw [show Rm c 2 = Rm c 1 + tallyAt (rcvCell (xp c) (exG 2) 2) () Ng from congrArg (Rm c 1 + ·) (tly_G c 2 2)]
  iapply (wp_send_Gw m K c _ (dev25_eq c) 2 2 _ gr22 (by exact gs_sent m c 2 2 _ rfl _ gs22 _ (hpL m 2) _ (pay72_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 1) _) $$ HIown HIpeer HrSnd HrRX GS22 XR22 HO TS52 TR52
  iintro ⟨CS52, HO⟩
  sl_exec (disch := rm_tac)
  ihave XR23 := (heldS_open (xp c) (grM 2 3)) $$ XR23
  icases XR23 with ⟨%gr23, XR23⟩
  rw [show Rm c 1 = Rm c 0 + tallyAt (rcvCell (xp c) (exG 2) 3) () Ng from congrArg (Rm c 0 + ·) (tly_G c 2 3)]
  iapply (wp_send_Gw m K c _ (dev26_eq c) 2 3 _ gr23 (by exact gs_sent m c 2 3 _ rfl _ gs23 _ (hpL m 2) _ (pay74_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 0) _) $$ HIown HIpeer HrSnd HrRX GS23 XR23 HO TS53 TR53
  iintro ⟨CS53, HO⟩
  sl_exec (disch := rm_tac)

  iapply (wp_recv_Gw m K c 2 0 (wpE_waitDma2_eq 𝒱₀ (c : Thread nD τ) none Set.univ (dst := grM 2 0)) (Rm c 0) _ (mayWait_at c _ (Rm c 0) (by rm_tac))) $$ HIown Hlev CR50 HO PR50
  iintro ⟨HO, PR50, GR20⟩
  ihave GR20 := (heldAt_open' c (grM 2 0) _) $$ GR20
  icases GR20 with ⟨%rg20, GR20, %hrg20⟩
  sl_exec (disch := rm_tac)
  iapply (wp_recv_Gw m K c 2 1 (wpE_waitDma2_eq 𝒱₀ (c : Thread nD τ) none Set.univ (dst := grM 2 1)) (Rm c 0) _ (mayWait_at c _ (Rm c 0) (by rm_tac))) $$ HIown Hlev CR51 HO PR51
  iintro ⟨HO, PR51, GR21⟩
  ihave GR21 := (heldAt_open' c (grM 2 1) _) $$ GR21
  icases GR21 with ⟨%rg21, GR21, %hrg21⟩
  sl_exec (disch := rm_tac)
  iapply (wp_recv_Gw m K c 2 2 (wpE_waitDma2_eq 𝒱₀ (c : Thread nD τ) none Set.univ (dst := grM 2 2)) (Rm c 0) _ (mayWait_at c _ (Rm c 0) (by rm_tac))) $$ HIown Hlev CR52 HO PR52
  iintro ⟨HO, PR52, GR22⟩
  ihave GR22 := (heldAt_open' c (grM 2 2) _) $$ GR22
  icases GR22 with ⟨%rg22, GR22, %hrg22⟩
  sl_exec (disch := rm_tac)
  iapply (wp_recv_Gw m K c 2 3 (wpE_waitDma2_eq 𝒱₀ (c : Thread nD τ) none Set.univ (dst := grM 2 3)) (Rm c 0) _ (mayWait_at c _ (Rm c 0) (by rm_tac))) $$ HIown Hlev CR53 HO PR53
  iintro ⟨HO, PR53, GR23⟩
  ihave GR23 := (heldAt_open' c (grM 2 3) _) $$ GR23
  icases GR23 with ⟨%rg23, GR23, %hrg23⟩
  sl_exec (disch := rm_tac)

  rw [show Rm c 0 = 0 from rfl]
  iapply (wp_sent_Hw m K c 0 0 (wpE_waitDma2_eq 𝒱₀ (c : Thread nD τ) none Set.univ (dst := hsM 0 0)) _) $$ HIown CS00 HO PS00
  iintro ⟨HO, PS00, HS00⟩
  sl_exec (disch := rm_tac)
  iapply (wp_sent_Hw m K c 0 1 (wpE_waitDma2_eq 𝒱₀ (c : Thread nD τ) none Set.univ (dst := hsM 0 1)) _) $$ HIown CS01 HO PS01
  iintro ⟨HO, PS01, HS01⟩
  sl_exec (disch := rm_tac)
  iapply (wp_sent_Hw m K c 0 2 (wpE_waitDma2_eq 𝒱₀ (c : Thread nD τ) none Set.univ (dst := hsM 0 2)) _) $$ HIown CS02 HO PS02
  iintro ⟨HO, PS02, HS02⟩
  sl_exec (disch := rm_tac)
  iapply (wp_sent_Hw m K c 0 3 (wpE_waitDma2_eq 𝒱₀ (c : Thread nD τ) none Set.univ (dst := hsM 0 3)) _) $$ HIown CS03 HO PS03
  iintro ⟨HO, PS03, HS03⟩
  sl_exec (disch := rm_tac)
  iapply (wp_sent_Gw m K c 0 0 (wpE_waitDma2_eq 𝒱₀ (c : Thread nD τ) none Set.univ (dst := gsM 0 0)) _) $$ HIown CS10 HO PS10
  iintro ⟨HO, PS10, GS00⟩
  sl_exec (disch := rm_tac)
  iapply (wp_sent_Gw m K c 0 1 (wpE_waitDma2_eq 𝒱₀ (c : Thread nD τ) none Set.univ (dst := gsM 0 1)) _) $$ HIown CS11 HO PS11
  iintro ⟨HO, PS11, GS01⟩
  sl_exec (disch := rm_tac)
  iapply (wp_sent_Gw m K c 0 2 (wpE_waitDma2_eq 𝒱₀ (c : Thread nD τ) none Set.univ (dst := gsM 0 2)) _) $$ HIown CS12 HO PS12
  iintro ⟨HO, PS12, GS02⟩
  sl_exec (disch := rm_tac)
  iapply (wp_sent_Gw m K c 0 3 (wpE_waitDma2_eq 𝒱₀ (c : Thread nD τ) none Set.univ (dst := gsM 0 3)) _) $$ HIown CS13 HO PS13
  iintro ⟨HO, PS13, GS03⟩
  sl_exec (disch := rm_tac)
  iapply (wp_sent_Hw m K c 1 0 (wpE_waitDma2_eq 𝒱₀ (c : Thread nD τ) none Set.univ (dst := hsM 1 0)) _) $$ HIown CS20 HO PS20
  iintro ⟨HO, PS20, HS10⟩
  sl_exec (disch := rm_tac)
  iapply (wp_sent_Hw m K c 1 1 (wpE_waitDma2_eq 𝒱₀ (c : Thread nD τ) none Set.univ (dst := hsM 1 1)) _) $$ HIown CS21 HO PS21
  iintro ⟨HO, PS21, HS11⟩
  sl_exec (disch := rm_tac)
  iapply (wp_sent_Hw m K c 1 2 (wpE_waitDma2_eq 𝒱₀ (c : Thread nD τ) none Set.univ (dst := hsM 1 2)) _) $$ HIown CS22 HO PS22
  iintro ⟨HO, PS22, HS12⟩
  sl_exec (disch := rm_tac)
  iapply (wp_sent_Hw m K c 1 3 (wpE_waitDma2_eq 𝒱₀ (c : Thread nD τ) none Set.univ (dst := hsM 1 3)) _) $$ HIown CS23 HO PS23
  iintro ⟨HO, PS23, HS13⟩
  sl_exec (disch := rm_tac)
  iapply (wp_sent_Gw m K c 1 0 (wpE_waitDma2_eq 𝒱₀ (c : Thread nD τ) none Set.univ (dst := gsM 1 0)) _) $$ HIown CS30 HO PS30
  iintro ⟨HO, PS30, GS10⟩
  sl_exec (disch := rm_tac)
  iapply (wp_sent_Gw m K c 1 1 (wpE_waitDma2_eq 𝒱₀ (c : Thread nD τ) none Set.univ (dst := gsM 1 1)) _) $$ HIown CS31 HO PS31
  iintro ⟨HO, PS31, GS11⟩
  sl_exec (disch := rm_tac)
  iapply (wp_sent_Gw m K c 1 2 (wpE_waitDma2_eq 𝒱₀ (c : Thread nD τ) none Set.univ (dst := gsM 1 2)) _) $$ HIown CS32 HO PS32
  iintro ⟨HO, PS32, GS12⟩
  sl_exec (disch := rm_tac)
  iapply (wp_sent_Gw m K c 1 3 (wpE_waitDma2_eq 𝒱₀ (c : Thread nD τ) none Set.univ (dst := gsM 1 3)) _) $$ HIown CS33 HO PS33
  iintro ⟨HO, PS33, GS13⟩
  sl_exec (disch := rm_tac)
  iapply (wp_sent_Hw m K c 2 0 (wpE_waitDma2_eq 𝒱₀ (c : Thread nD τ) none Set.univ (dst := hsM 2 0)) _) $$ HIown CS40 HO PS40
  iintro ⟨HO, PS40, HS20⟩
  sl_exec (disch := rm_tac)
  iapply (wp_sent_Hw m K c 2 1 (wpE_waitDma2_eq 𝒱₀ (c : Thread nD τ) none Set.univ (dst := hsM 2 1)) _) $$ HIown CS41 HO PS41
  iintro ⟨HO, PS41, HS21⟩
  sl_exec (disch := rm_tac)
  iapply (wp_sent_Hw m K c 2 2 (wpE_waitDma2_eq 𝒱₀ (c : Thread nD τ) none Set.univ (dst := hsM 2 2)) _) $$ HIown CS42 HO PS42
  iintro ⟨HO, PS42, HS22⟩
  sl_exec (disch := rm_tac)
  iapply (wp_sent_Hw m K c 2 3 (wpE_waitDma2_eq 𝒱₀ (c : Thread nD τ) none Set.univ (dst := hsM 2 3)) _) $$ HIown CS43 HO PS43
  iintro ⟨HO, PS43, HS23⟩
  sl_exec (disch := rm_tac)
  iapply (wp_sent_Gw m K c 2 0 (wpE_waitDma2_eq 𝒱₀ (c : Thread nD τ) none Set.univ (dst := gsM 2 0)) _) $$ HIown CS50 HO PS50
  iintro ⟨HO, PS50, GS20⟩
  sl_exec (disch := rm_tac)
  iapply (wp_sent_Gw m K c 2 1 (wpE_waitDma2_eq 𝒱₀ (c : Thread nD τ) none Set.univ (dst := gsM 2 1)) _) $$ HIown CS51 HO PS51
  iintro ⟨HO, PS51, GS21⟩
  sl_exec (disch := rm_tac)
  iapply (wp_sent_Gw m K c 2 2 (wpE_waitDma2_eq 𝒱₀ (c : Thread nD τ) none Set.univ (dst := gsM 2 2)) _) $$ HIown CS52 HO PS52
  iintro ⟨HO, PS52, GS22⟩
  sl_exec (disch := rm_tac)
  iapply (wp_sent_Gw m K c 2 3 (wpE_waitDma2_eq 𝒱₀ (c : Thread nD τ) none Set.univ (dst := gsM 2 3)) _) $$ HIown CS53 HO PS53
  iintro ⟨HO, PS53, GS23⟩
  sl_exec (disch := rm_tac)

  ihave Hps1 := (Entails.of_eq (sepPS1 (F := F) c).symm) $$ [PS00 PS01 PS02 PS03 PS10 PS11 PS12 PS13 PS20 PS21 PS22 PS23 PS30 PS31 PS32 PS33 PS40 PS41 PS42 PS43 PS50 PS51 PS52 PS53]
  · isplitl [PS00]; · iexact PS00
    isplitl [PS01]; · iexact PS01
    isplitl [PS02]; · iexact PS02
    isplitl [PS03]; · iexact PS03
    isplitl [PS10]; · iexact PS10
    isplitl [PS11]; · iexact PS11
    isplitl [PS12]; · iexact PS12
    isplitl [PS13]; · iexact PS13
    isplitl [PS20]; · iexact PS20
    isplitl [PS21]; · iexact PS21
    isplitl [PS22]; · iexact PS22
    isplitl [PS23]; · iexact PS23
    isplitl [PS30]; · iexact PS30
    isplitl [PS31]; · iexact PS31
    isplitl [PS32]; · iexact PS32
    isplitl [PS33]; · iexact PS33
    isplitl [PS40]; · iexact PS40
    isplitl [PS41]; · iexact PS41
    isplitl [PS42]; · iexact PS42
    isplitl [PS43]; · iexact PS43
    isplitl [PS50]; · iexact PS50
    isplitl [PS51]; · iexact PS51
    isplitl [PS52]; · iexact PS52
    iexact PS53
  ihave Hpr1 := (Entails.of_eq (sepPR1 (F := F) c).symm) $$ [PR00 PR01 PR02 PR03 PR10 PR11 PR12 PR13 PR20 PR21 PR22 PR23 PR30 PR31 PR32 PR33 PR40 PR41 PR42 PR43 PR50 PR51 PR52 PR53]
  · isplitl [PR00]; · iexact PR00
    isplitl [PR01]; · iexact PR01
    isplitl [PR02]; · iexact PR02
    isplitl [PR03]; · iexact PR03
    isplitl [PR10]; · iexact PR10
    isplitl [PR11]; · iexact PR11
    isplitl [PR12]; · iexact PR12
    isplitl [PR13]; · iexact PR13
    isplitl [PR20]; · iexact PR20
    isplitl [PR21]; · iexact PR21
    isplitl [PR22]; · iexact PR22
    isplitl [PR23]; · iexact PR23
    isplitl [PR30]; · iexact PR30
    isplitl [PR31]; · iexact PR31
    isplitl [PR32]; · iexact PR32
    isplitl [PR33]; · iexact PR33
    isplitl [PR40]; · iexact PR40
    isplitl [PR41]; · iexact PR41
    isplitl [PR42]; · iexact PR42
    isplitl [PR43]; · iexact PR43
    isplitl [PR50]; · iexact PR50
    isplitl [PR51]; · iexact PR51
    isplitl [PR52]; · iexact PR52
    iexact PR53
  imod (close_all m K c) $$ HIown Hps1 Hpr1 with Hcells

  sl_step
  iapply Hk
  unfold bodyPost Φ₁ Dat.owesAt Pipeline.owesWithin localSems argsAt scratchAny
  rw [show (dats m 0 c).owed t₀.succ = 0 from rfl]
  isplitr [HO Hx]
  · isplitl [Hcells]; · iexact Hcells
    isplitl [S100 S101 S110 S111 S120 S121 S140 S141 S142 S143]
    · isplitl [S100]; · iexact S100
      isplitl [S101]; · iexact S101
      isplitl [S110]; · iexact S110
      isplitl [S111]; · iexact S111
      isplitl [S120]; · iexact S120
      isplitl [S121]; · iexact S121
      isplitl [S140]; · iexact S140
      isplitl [S141]; · iexact S141
      isplitl [S142]; · iexact S142
      iexact S143
    isplitl [H1a H1b H2 H3 H4 H5 H6]
    · isplitl [H1a H1b]
      · iapply (arg1_join c _)
        isplitl [H1a]; · iexact H1a
        iexact H1b
      isplitl [H2]; · iexact H2
      isplitl [H3]; · iexact H3
      isplitl [H4]; · iexact H4
      isplitl [H5]; · iexact H5
      iexact H6
    isplitl [OU0 OU1 OU2 OU3]
    · iapply (out_join_at m c)
      rw [sep4 fun j : Fin 4 => (heldAt c (outM j) (acc2 m c j) : sProp 𝕄)]
      isplitl [OU0]; · iapply (heldAt_intro c (outM 0) (acc2 m c 0) _ (by exact ((G.out_read_writes c 0 ou0 _).trans ((G.ov_read_write c 0 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).1 _ (G.gr_val m c 2 0 _ rfl _ rg20 hrg20)))))) $$ OU0
      isplitl [OU1]; · iapply (heldAt_intro c (outM 1) (acc2 m c 1) _ (by exact ((G.out_read_writes c 1 ou1 _).trans ((G.ov_read_write c 1 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.1 _ (G.gr_val m c 2 1 _ rfl _ rg21 hrg21)))))) $$ OU1
      isplitl [OU2]; · iapply (heldAt_intro c (outM 2) (acc2 m c 2) _ (by exact ((G.out_read_writes c 2 ou2 _).trans ((G.ov_read_write c 2 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.2.1 _ (G.gr_val m c 2 2 _ rfl _ rg22 hrg22)))))) $$ OU2
      iapply (heldAt_intro c (outM 3) (acc2 m c 3) _ (by exact ((G.out_read_writes c 3 ou3 _).trans ((G.ov_read_write c 3 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.2.2 _ (G.gr_val m c 2 3 _ rfl _ rg23 hrg23)))))) $$ OU3

    isplitl [G00 G0c]
    · iapply (sc0_join c)
      isplitl [G00]; · iapply (heldS_close c wb0 _); iexact G00
      iapply (heldS_close c wbC _); iexact G0c
    isplitl [G1a G1b]
    · iapply (sc1_join c)
      isplitl [G1a]; · iapply (heldS_close c vbA _); iexact G1a
      iapply (heldS_close c vbB _); iexact G1b
    isplitl [G2]; · iexists _; iexact G2
    isplitl [G3]; · iexists _; iexact G3
    isplitl [HS00 HS01 HS02 HS03 HS10 HS11 HS12 HS13 HS20 HS21 HS22 HS23]
    · iapply (hs_join c)
      rw [sep12 fun lj : Fin 3 × Fin 4 => (heldS c (hsM lj.1 lj.2) : sProp 𝕄)]
      isplitl [HS00]; · iexact HS00
      isplitl [HS01]; · iexact HS01
      isplitl [HS02]; · iexact HS02
      isplitl [HS03]; · iexact HS03
      isplitl [HS10]; · iexact HS10
      isplitl [HS11]; · iexact HS11
      isplitl [HS12]; · iexact HS12
      isplitl [HS13]; · iexact HS13
      isplitl [HS20]; · iexact HS20
      isplitl [HS21]; · iexact HS21
      isplitl [HS22]; · iexact HS22
      iexact HS23
    isplitl [HR00 HR01 HR02 HR03 HR10 HR11 HR12 HR13 HR20 HR21 HR22 HR23]
    · iapply (hr_join c)
      rw [sep12 fun lj : Fin 3 × Fin 4 => (heldS c (hrM lj.1 lj.2) : sProp 𝕄)]
      isplitl [HR00]; · iapply (heldS_close c (hrM 0 0) _); iexact HR00
      isplitl [HR01]; · iapply (heldS_close c (hrM 0 1) _); iexact HR01
      isplitl [HR02]; · iapply (heldS_close c (hrM 0 2) _); iexact HR02
      isplitl [HR03]; · iapply (heldS_close c (hrM 0 3) _); iexact HR03
      isplitl [HR10]; · iapply (heldS_close c (hrM 1 0) _); iexact HR10
      isplitl [HR11]; · iapply (heldS_close c (hrM 1 1) _); iexact HR11
      isplitl [HR12]; · iapply (heldS_close c (hrM 1 2) _); iexact HR12
      isplitl [HR13]; · iapply (heldS_close c (hrM 1 3) _); iexact HR13
      isplitl [HR20]; · iapply (heldS_close c (hrM 2 0) _); iexact HR20
      isplitl [HR21]; · iapply (heldS_close c (hrM 2 1) _); iexact HR21
      isplitl [HR22]; · iapply (heldS_close c (hrM 2 2) _); iexact HR22
      iapply (heldS_close c (hrM 2 3) _); iexact HR23
    isplitl [GS00 GS01 GS02 GS03 GS10 GS11 GS12 GS13 GS20 GS21 GS22 GS23]
    · iapply (gs_join c)
      rw [sep12 fun lj : Fin 3 × Fin 4 => (heldS c (gsM lj.1 lj.2) : sProp 𝕄)]
      isplitl [GS00]; · iexact GS00
      isplitl [GS01]; · iexact GS01
      isplitl [GS02]; · iexact GS02
      isplitl [GS03]; · iexact GS03
      isplitl [GS10]; · iexact GS10
      isplitl [GS11]; · iexact GS11
      isplitl [GS12]; · iexact GS12
      isplitl [GS13]; · iexact GS13
      isplitl [GS20]; · iexact GS20
      isplitl [GS21]; · iexact GS21
      isplitl [GS22]; · iexact GS22
      iexact GS23
    isplitl [GR00 GR01 GR02 GR03 GR10 GR11 GR12 GR13 GR20 GR21 GR22 GR23]
    · iapply (gr_join c)
      rw [sep12 fun lj : Fin 3 × Fin 4 => (heldS c (grM lj.1 lj.2) : sProp 𝕄)]
      isplitl [GR00]; · iapply (heldS_close c (grM 0 0) _); iexact GR00
      isplitl [GR01]; · iapply (heldS_close c (grM 0 1) _); iexact GR01
      isplitl [GR02]; · iapply (heldS_close c (grM 0 2) _); iexact GR02
      isplitl [GR03]; · iapply (heldS_close c (grM 0 3) _); iexact GR03
      isplitl [GR10]; · iapply (heldS_close c (grM 1 0) _); iexact GR10
      isplitl [GR11]; · iapply (heldS_close c (grM 1 1) _); iexact GR11
      isplitl [GR12]; · iapply (heldS_close c (grM 1 2) _); iexact GR12
      isplitl [GR13]; · iapply (heldS_close c (grM 1 3) _); iexact GR13
      isplitl [GR20]; · iapply (heldS_close c (grM 2 0) _); iexact GR20
      isplitl [GR21]; · iapply (heldS_close c (grM 2 1) _); iexact GR21
      isplitl [GR22]; · iapply (heldS_close c (grM 2 2) _); iexact GR22
      iapply (heldS_close c (grM 2 3) _); iexact GR23
    iapply (ov_join c)
    rw [sep4 fun j : Fin 4 => (heldS c (ovM j) : sProp 𝕄)]
    isplitl [OV0]; · iapply (heldS_close c (ovM 0) _); iexact OV0
    isplitl [OV1]; · iapply (heldS_close c (ovM 1) _); iexact OV1
    isplitl [OV2]; · iapply (heldS_close c (ovM 2) _); iexact OV2
    iapply (heldS_close c (ovM 3) _); iexact OV3
  · isplitl [HO]
    · iexists _
      isplitr
      rotate_left
      · iexact HO
      · ipureintro; exact fun _ _ => Or.inl trivial
    · iexists _
      isplitr; · (ipureintro; rfl)
      iexact Hx

end Cert.KernelIdeal.Hand

end
-- ==== Proof.BodyOb.lean ====
import proofs.«901003_g7700000000001004_dist_mlpseq_tp2d_cs_cs_b64_d1024_h2048_v7x_xy2x2_bf16_1_alg».proof.Proof.Body

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 65536 in

theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ (theBody (F := F)) (fun _ => bodyPost m c)
  unfold bodyPre' Φ₀
  iintro ⟨⟨⟨%K, Hg⟩, Hrest⟩, Ho, Hx⟩
  iapply (sound_body m K c fun _ => bodyPost m c)
  unfold bodyPre
  isplitr []
  · isplitl [Hg Hrest]
    · isplitl [Hg]; · iexact Hg
      iexact Hrest
    isplitl [Ho]; · iexact Ho
    iexact Hx
  · iintro H; iexact H

end Cert.KernelIdeal.Hand

end
-- ==== Proof.StepsK.lean ====
import proofs.«901003_g7700000000001004_dist_mlpseq_tp2d_cs_cs_b64_d1024_h2048_v7x_xy2x2_bf16_1_alg».proof.Proof.GhostK
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem isH_exH (l : Fin 3) : isH (exH l) := by show (2 * l.val) % 2 = 0; omega
theorem not_isH_exG (l : Fin 3) : ¬ isH (exG l) := by show ¬ (2 * l.val + 1) % 2 = 0; omega
theorem lay_exH (l : Fin 3) : lay (exH l) = l := Fin.ext (by show (2 * l.val) / 2 = l.val; omega)
theorem lay_exG (l : Fin 3) : lay (exG l) = l := Fin.ext (by show (2 * l.val + 1) / 2 = l.val; omega)
theorem amt_exH (l : Fin 3) : amt (exH l) = Nh := by unfold amt; rw [if_pos (isH_exH l)]
theorem amt_exG (l : Fin 3) : amt (exG l) = Ng := by unfold amt; rw [if_neg (not_isH_exG l)]
theorem peer_exH (l : Fin 3) (c : Dev nD) : peer (exH l) c = yp c := by unfold peer; rw [if_pos (isH_exH l)]
theorem peer_exG (l : Fin 3) (c : Dev nD) : peer (exG l) c = xp c := by unfold peer; rw [if_neg (not_isH_exG l)]

theorem hr_amount (l : Fin 3) (j : Fin 4) (s : DmaSem sig) : (hrM l j).view.amount (.dma s) = Nh := rfl
theorem gr_amount (l : Fin 3) (j : Fin 4) (s : DmaSem sig) : (grM l j).view.amount (.dma s) = Ng := rfl

omit [FloatOps F] in
theorem sndPay_exH (c : Dev nD) (l : Fin 3) (j : Fin 4) : sndPay (F := F) c (exH l) j = heldS c (hsM l j) := by
  unfold sndPay; rw [if_pos (isH_exH l), lay_exH]
omit [FloatOps F] in
theorem sndPay_exG (c : Dev nD) (l : Fin 3) (j : Fin 4) : sndPay (F := F) c (exG l) j = heldS c (gsM l j) := by
  unfold sndPay; rw [if_neg (not_isH_exG l), lay_exG]
theorem rcvPay_exH (c : Dev nD) (l : Fin 3) (j : Fin 4) : rcvPay m c (exH l) j = heldAt c (hrM l j) (hLanded m l c j) := by
  unfold rcvPay; rw [if_pos (isH_exH l), lay_exH]
theorem rcvPay_exG (c : Dev nD) (l : Fin 3) (j : Fin 4) : rcvPay m c (exG l) j = heldAt c (grM l j) (gLanded m l c j) := by
  unfold rcvPay; rw [if_neg (not_isH_exG l), lay_exG]

theorem wp_send_H (K : Dev nD × Kix → ℕ) (c n : Dev nD) (hn : n = yp c) (l : Fin 3) (j : Fin 4)
    {hsc : (hrM l j : Memref sig (Dev.tc n : Thread nD τ).2.kind .vmem S64x512 .bf16).view.ref.isScScratch = false}
    {hsrc : (hsM l j).view.WordExact} {hdst : (hrM l j).view.WordExact}
    {hsem : DmaTarget.Typed .vmem (.dma (rcvS (exH l) j)) (.remote (Dev.tc n : Thread nD τ) (hrM l j) (.dma (sndS (exH l) j)) hsc)}
    {α : Type} {Q : α → sProp 𝕄} {k : PUnit → Prog (TpuEff nD τ sig (Elt F) Λ₀ .tc) α}
    (fs : Buf (Elt F) ((hsM l j).view.loc (c : Thread nD τ))) (fd : Buf (Elt F) ((hrM l j).view.loc (yp c : Thread nD τ)))
    (hval : (hsM l j).view.read (Elt F) fs = hSent (hpL m l) c j)
    (O : CellTallies nD τ sig Unit) (W : Waits sig Unit) :
    iprop(cellInv ER (rd m) (K (c, some (false, exH l, j))) (sndCell c (exH l) j)
        ∗ cellInv ER (rd m) (K (yp c, some (true, exH l, j))) (rcvCell (yp c) (exH l) j)
        ∗ ((hsM l j).view.loc (c : Thread nD τ) ↦[(hsM l j).view.set]{fullShare} fs)
        ∗ ((hrM l j).view.loc (yp c : Thread nD τ) ↦[(hrM l j).view.set]{fullShare} fd)
        ∗ owes (c : Thread nD τ) (O + tallyAt (rcvCell (yp c) (exH l) j) () Nh) W
        ∗ dutyTok ER (sndCell c (exH l) j) 0 false ∗ reached ER (sndCell c (exH l) j) 0
        ∗ dutyTok ER (rcvCell (yp c) (exH l) j) 0 false ∗ reached ER (rcvCell (yp c) (exH l) j) 0)
      ⊢ iprop(((cred (tallyAt (sndCell c (exH l) j) () Nh) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hsM l j) (.remote (Dev.tc n : Thread nD τ) (hrM l j) (.dma (sndS (exH l) j)) hsc) (.dma (rcvS (exH l) j)) hsrc hdst hsem) k) Q) := by
  subst hn
  exact Rounds.wp_send_pointsTo 𝒱₀ ER (rd m) (c : Thread nD τ) none (c' := (yp c : Thread nD τ)) (src := hsM l j) (dst := hrM l j)
    (q := fullShare) (fs := fs) (fd := fd) (κ₁ := K (c, some (false, exH l, j))) (κ₂ := K (yp c, some (true, exH l, j)))
    (r₁ := 0) (r₂ := 0) (d₁ := false) (d₂ := false)
    (by rw [duties_snd]; exact Finset.mem_singleton_self _) (by rw [duties_rcv]; exact Finset.mem_singleton_self _)
    () () Nh (hr_amount l j _) ((amount_snd m c (exH l) j false).trans (amt_exH l)) ((amount_rcv m (yp c) (exH l) j false).trans (amt_exH l))
    O rfl (W := W)
    (by
      rw [payload_snd, sndPay_exH]; unfold heldS
      iintro H; iexists fs; iexact H)
    (by
      rw [payload_rcv, rcvPay_exH]; unfold heldAt
      iintro H
      iexists (hrM l j).view.write (Elt F) fd ((hsM l j).view.read (Elt F) fs) Finset.univ
      isplitl; · iexact H
      ipureintro
      rw [View.read_write_univ, hval]; unfold hLanded; rw [yp_yp])

theorem wp_send_G (K : Dev nD × Kix → ℕ) (c n : Dev nD) (hn : n = xp c) (l : Fin 3) (j : Fin 4)
    {hsc : (grM l j : Memref sig (Dev.tc n : Thread nD τ).2.kind .vmem S64x256 .bf16).view.ref.isScScratch = false}
    {hsrc : (gsM l j).view.WordExact} {hdst : (grM l j).view.WordExact}
    {hsem : DmaTarget.Typed .vmem (.dma (rcvS (exG l) j)) (.remote (Dev.tc n : Thread nD τ) (grM l j) (.dma (sndS (exG l) j)) hsc)}
    {α : Type} {Q : α → sProp 𝕄} {k : PUnit → Prog (TpuEff nD τ sig (Elt F) Λ₀ .tc) α}
    (fs : Buf (Elt F) ((gsM l j).view.loc (c : Thread nD τ))) (fd : Buf (Elt F) ((grM l j).view.loc (xp c : Thread nD τ)))
    (hval : (gsM l j).view.read (Elt F) fs = gSent m l (hpL m l) c j)
    (O : CellTallies nD τ sig Unit) (W : Waits sig Unit) :
    iprop(cellInv ER (rd m) (K (c, some (false, exG l, j))) (sndCell c (exG l) j)
        ∗ cellInv ER (rd m) (K (xp c, some (true, exG l, j))) (rcvCell (xp c) (exG l) j)
        ∗ ((gsM l j).view.loc (c : Thread nD τ) ↦[(gsM l j).view.set]{fullShare} fs)
        ∗ ((grM l j).view.loc (xp c : Thread nD τ) ↦[(grM l j).view.set]{fullShare} fd)
        ∗ owes (c : Thread nD τ) (O + tallyAt (rcvCell (xp c) (exG l) j) () Ng) W
        ∗ dutyTok ER (sndCell c (exG l) j) 0 false ∗ reached ER (sndCell c (exG l) j) 0
        ∗ dutyTok ER (rcvCell (xp c) (exG l) j) 0 false ∗ reached ER (rcvCell (xp c) (exG l) j) 0)
      ⊢ iprop(((cred (tallyAt (sndCell c (exG l) j) () Ng) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gsM l j) (.remote (Dev.tc n : Thread nD τ) (grM l j) (.dma (sndS (exG l) j)) hsc) (.dma (rcvS (exG l) j)) hsrc hdst hsem) k) Q) := by
  subst hn
  exact Rounds.wp_send_pointsTo 𝒱₀ ER (rd m) (c : Thread nD τ) none (c' := (xp c : Thread nD τ)) (src := gsM l j) (dst := grM l j)
    (q := fullShare) (fs := fs) (fd := fd) (κ₁ := K (c, some (false, exG l, j))) (κ₂ := K (xp c, some (true, exG l, j)))
    (r₁ := 0) (r₂ := 0) (d₁ := false) (d₂ := false)
    (by rw [duties_snd]; exact Finset.mem_singleton_self _) (by rw [duties_rcv]; exact Finset.mem_singleton_self _)
    () () Ng (gr_amount l j _) ((amount_snd m c (exG l) j false).trans (amt_exG l)) ((amount_rcv m (xp c) (exG l) j false).trans (amt_exG l))
    O rfl (W := W)
    (by
      rw [payload_snd, sndPay_exG]; unfold heldS
      iintro H; iexists fs; iexact H)
    (by
      rw [payload_rcv, rcvPay_exG]; unfold heldAt
      iintro H
      iexists (grM l j).view.write (Elt F) fd ((gsM l j).view.read (Elt F) fs) Finset.univ
      isplitl; · iexact H
      ipureintro
      rw [View.read_write_univ, hval]; unfold gLanded; rw [xp_xp])

theorem wp_recv_H (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exH l) j)) Nh K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exH l) j)) () O) :
    iprop(cellInv ER (rd m) (K (c, some (true, exH l, j))) (rcvCell c (exH l) j) ∗ cred (tallyAt (rcvCell c (exH l) j) () Nh)
        ∗ owes (c : Thread nD τ) O W ∗ levAts L lv ∗ atPos ER (rcvCell c (exH l) j) 0 ∅ 0)
      ⊢ iprop(((owes (c : Thread nD τ) O (insert (SemLoc.dma (rcvS (exH l) j), ()) W) ∗ atPos ER (rcvCell c (exH l) j) 1 ∅ 0
              ∗ heldAt c (hrM l j) (hLanded m l c j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hlev, Hat⟩ Hk
  iapply (Rounds.wp_wait_rest_token 𝒱₀ ER (rd m) (c : Thread nD τ) none (κ := K (c, some (true, exH l, j)))
      hw (Set.mem_univ _) () (O := O) (W := W) (R := 0) (m := 0) (T := ∅)
      (by rw [Nat.zero_add, expect_rcv, amt_exH])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq ((rest_rcv m c (exH l) j).trans (rcvPay_exH m c l j))) $$ Hpay
  iapply Hk
  isplitl [HO]; · iexact HO
  isplitl [Hat]; · iexact Hat
  iexact Hp

theorem wp_recv_G (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exG l) j)) Ng K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exG l) j)) () O) :
    iprop(cellInv ER (rd m) (K (c, some (true, exG l, j))) (rcvCell c (exG l) j) ∗ cred (tallyAt (rcvCell c (exG l) j) () Ng)
        ∗ owes (c : Thread nD τ) O W ∗ levAts L lv ∗ atPos ER (rcvCell c (exG l) j) 0 ∅ 0)
      ⊢ iprop(((owes (c : Thread nD τ) O (insert (SemLoc.dma (rcvS (exG l) j), ()) W) ∗ atPos ER (rcvCell c (exG l) j) 1 ∅ 0
              ∗ heldAt c (grM l j) (gLanded m l c j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hlev, Hat⟩ Hk
  iapply (Rounds.wp_wait_rest_token 𝒱₀ ER (rd m) (c : Thread nD τ) none (κ := K (c, some (true, exG l, j)))
      hw (Set.mem_univ _) () (O := O) (W := W) (R := 0) (m := 0) (T := ∅)
      (by rw [Nat.zero_add, expect_rcv, amt_exG])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq ((rest_rcv m c (exG l) j).trans (rcvPay_exG m c l j))) $$ Hpay
  iapply Hk
  isplitl [HO]; · iexact HO
  isplitl [Hat]; · iexact Hat
  iexact Hp

theorem wp_sent_H (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exH l) j)) Nh K')
    {α : Type} {Q : α → sProp 𝕄} {k : PUnit → Prog (TpuEff nD τ sig (Elt F) Λ₀ .tc) α}
    (W : Waits sig Unit) :
    iprop(cellInv ER (rd m) (K (c, some (false, exH l, j))) (sndCell c (exH l) j) ∗ cred (tallyAt (sndCell c (exH l) j) () Nh)
        ∗ owes (c : Thread nD τ) 0 W ∗ atPos ER (sndCell c (exH l) j) 0 ∅ 0)
      ⊢ iprop(((owes (c : Thread nD τ) 0 (insert (SemLoc.dma (sndS (exH l) j), ()) W) ∗ atPos ER (sndCell c (exH l) j) 1 ∅ 0
              ∗ heldS c (hsM l j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hat⟩ Hk
  iapply (Rounds.wp_wait_rest_token 𝒱₀ ER (rd m) (c : Thread nD τ) none (κ := K (c, some (false, exH l, j)))
      hw (Set.mem_univ _) () (O := 0) (W := W) (R := 0) (m := 0) (T := ∅)
      (by rw [Nat.zero_add, expect_snd, amt_exH])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq ((rest_snd m c (exH l) j).trans (sndPay_exH c l j))) $$ Hpay
  iapply Hk
  isplitl [HO]; · iexact HO
  isplitl [Hat]; · iexact Hat
  iexact Hp

theorem wp_sent_G (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exG l) j)) Ng K')
    {α : Type} {Q : α → sProp 𝕄} {k : PUnit → Prog (TpuEff nD τ sig (Elt F) Λ₀ .tc) α}
    (W : Waits sig Unit) :
    iprop(cellInv ER (rd m) (K (c, some (false, exG l, j))) (sndCell c (exG l) j) ∗ cred (tallyAt (sndCell c (exG l) j) () Ng)
        ∗ owes (c : Thread nD τ) 0 W ∗ atPos ER (sndCell c (exG l) j) 0 ∅ 0)
      ⊢ iprop(((owes (c : Thread nD τ) 0 (insert (SemLoc.dma (sndS (exG l) j), ()) W) ∗ atPos ER (sndCell c (exG l) j) 1 ∅ 0
              ∗ heldS c (gsM l j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨HI, Hc, HO, Hat⟩ Hk
  iapply (Rounds.wp_wait_rest_token 𝒱₀ ER (rd m) (c : Thread nD τ) none (κ := K (c, some (false, exG l, j)))
      hw (Set.mem_univ _) () (O := 0) (W := W) (R := 0) (m := 0) (T := ∅)
      (by rw [Nat.zero_add, expect_snd, amt_exG])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq ((rest_snd m c (exG l) j).trans (sndPay_exG c l j))) $$ Hpay
  iapply Hk
  isplitl [HO]; · iexact HO
  isplitl [Hat]; · iexact Hat
  iexact Hp

theorem close_cell (K : Dev nD × Kix → ℕ) (c : Dev nD) (k : Bool × Fin 6 × Fin 4) :
    iprop(cellInv ER (rd m) (K (c, some k)) (kcell (c, some k)) ∗ atPos ER (kcell (c, some k)) 1 ∅ 0)
      ⊢ |={Set.univ}=> semVal (kcell (c, some k)) 0 :=
  Rounds.cell_close ER (rd m) (Set.mem_univ (K (c, some k))) (fun h => h) (R := 1) (duties_later m (kcell (c, some k)))

end Cert.Kernel.Hand

end
-- ==== Proof.StepsWK.lean ====
import proofs.«901003_g7700000000001004_dist_mlpseq_tp2d_cs_cs_b64_d1024_h2048_v7x_xy2x2_bf16_1_alg».proof.Proof.StepsK

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_own (K : Dev nD × Kix → ℕ) (c : Dev nD) (k : Kix) :
    (bigSep Finset.univ fun k : Kix => (cellInv ER (rd m) (K (c, k)) (kcell (c, k)) : sProp 𝕄)) ⊢ cellInv ER (rd m) (K (c, k)) (kcell (c, k)) :=
  bigSep_elim (Finset.mem_univ k)
theorem inv_snd (K : Dev nD × Kix → ℕ) (c : Dev nD) (i : Fin 6) (j : Fin 4) :
    (bigSep Finset.univ fun k : Kix => (cellInv ER (rd m) (K (c, k)) (kcell (c, k)) : sProp 𝕄)) ⊢ cellInv ER (rd m) (K (c, some (false, i, j))) (sndCell c i j) :=
  inv_own m K c (some (false, i, j))
theorem inv_rcv (K : Dev nD × Kix → ℕ) (c : Dev nD) (i : Fin 6) (j : Fin 4) :
    (bigSep Finset.univ fun k : Kix => (cellInv ER (rd m) (K (c, k)) (kcell (c, k)) : sProp 𝕄)) ⊢ cellInv ER (rd m) (K (c, some (true, i, j))) (rcvCell c i j) :=
  inv_own m K c (some (true, i, j))
theorem inv_peer (K : Dev nD × Kix → ℕ) (c : Dev nD) (ij : Fin 6 × Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (peer ij.1 c, some (true, ij.1, ij.2))) (rcvCell (peer ij.1 c) ij.1 ij.2) :=
  bigSep_elim (Finset.mem_univ ij)
theorem inv_peerY (K : Dev nD × Kix → ℕ) (c : Dev nD) (l : Fin 3) (j : Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (yp c, some (true, exH l, j))) (rcvCell (yp c) (exH l) j) := by
  have h := inv_peer m K c (exH l, j)
  rw [show peer (exH l, j).1 c = yp c from peer_exH l c] at h
  exact h
theorem inv_peerX (K : Dev nD × Kix → ℕ) (c : Dev nD) (l : Fin 3) (j : Fin 4) :
    (bigSep Finset.univ fun ij : Fin 6 × Fin 4 => (cellInv ER (rd m) (K (peer ij.1 c, some (true, ij.1, ij.2))) (rcvCell (peer ij.1 c) ij.1 ij.2) : sProp 𝕄))
      ⊢ cellInv ER (rd m) (K (xp c, some (true, exG l, j))) (rcvCell (xp c) (exG l) j) := by
  have h := inv_peer m K c (exG l, j)
  rw [show peer (exG l, j).1 c = xp c from peer_exG l c] at h
  exact h

omit [FloatOps F] in
theorem rch_snd (c : Dev nD) (i : Fin 6) (j : Fin 4) :
    (bigSep Finset.univ fun ij : Fin 6 × Fin 4 => (reached ER (sndCell c ij.1 ij.2) 0 : sProp 𝕄)) ⊢ reached ER (sndCell c i j) 0 :=
  bigSep_elim (Finset.mem_univ ((i, j) : Fin 6 × Fin 4))
omit [FloatOps F] in
theorem rch_rcvY (c : Dev nD) (l : Fin 3) (j : Fin 4) :
    (bigSep Finset.univ fun lj : Fin 3 × Fin 4 => (reached ER (rcvCell (yp c) (exH lj.1) lj.2) 0 : sProp 𝕄)) ⊢ reached ER (rcvCell (yp c) (exH l) j) 0 :=
  bigSep_elim (Finset.mem_univ ((l, j) : Fin 3 × Fin 4))
omit [FloatOps F] in
theorem rch_rcvX (c : Dev nD) (l : Fin 3) (j : Fin 4) :
    (bigSep Finset.univ fun lj : Fin 3 × Fin 4 => (reached ER (rcvCell (xp c) (exG lj.1) lj.2) 0 : sProp 𝕄)) ⊢ reached ER (rcvCell (xp c) (exG l) j) 0 :=
  bigSep_elim (Finset.mem_univ ((l, j) : Fin 3 × Fin 4))

theorem wp_send_Hw (K : Dev nD × Kix → ℕ) (c n : Dev nD) (hn : n = yp c) (l : Fin 3) (j : Fin 4)
    {hsc : (hrM l j : Memref sig (Dev.tc n : Thread nD τ).2.kind .vmem S64x512 .bf16).view.ref.isScScratch = false}
    {hsrc : (hsM l j).view.WordExact} {hdst : (hrM l j).view.WordExact}
    {hsem : DmaTarget.Typed .vmem (.dma (rcvS (exH l) j)) (.remote (Dev.tc n : Thread nD τ) (hrM l j) (.dma (sndS (exH l) j)) hsc)}
    {α : Type} {Q : α → sProp 𝕄} {k : PUnit → Prog (TpuEff nD τ sig (Elt F) Λ₀ .tc) α}
    (fs : Buf (Elt F) ((hsM l j).view.loc (c : Thread nD τ))) (fd : Buf (Elt F) ((hrM l j).view.loc (yp c : Thread nD τ)))
    (hval : (hsM l j).view.read (Elt F) fs = hSent (hpL m l) c j) (O : CellTallies nD τ sig Unit) (W : Waits sig Unit) :
    (bigSep Finset.univ fun k : Kix => (cellInv ER (rd m) (K (c, k)) (kcell (c, k)) : sProp 𝕄))
      ⊢ iprop((bigSep Finset.univ fun ij : Fin 6 × Fin 4 => (cellInv ER (rd m) (K (peer ij.1 c, some (true, ij.1, ij.2))) (rcvCell (peer ij.1 c) ij.1 ij.2) : sProp 𝕄))
        -∗ (bigSep Finset.univ fun ij : Fin 6 × Fin 4 => (reached ER (sndCell c ij.1 ij.2) 0 : sProp 𝕄))
        -∗ (bigSep Finset.univ fun lj : Fin 3 × Fin 4 => (reached ER (rcvCell (yp c) (exH lj.1) lj.2) 0 : sProp 𝕄))
        -∗ ((hsM l j).view.loc (c : Thread nD τ) ↦[(hsM l j).view.set]{fullShare} fs)
        -∗ ((hrM l j).view.loc (yp c : Thread nD τ) ↦[(hrM l j).view.set]{fullShare} fd)
        -∗ owes (c : Thread nD τ) (O + tallyAt (rcvCell (yp c) (exH l) j) () Nh) W
        -∗ dutyTok ER (sndCell c (exH l) j) 0 false
        -∗ dutyTok ER (rcvCell (yp c) (exH l) j) 0 false
        -∗ ((cred (tallyAt (sndCell c (exH l) j) () Nh) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (hsM l j) (.remote (Dev.tc n : Thread nD τ) (hrM l j) (.dma (sndS (exH l) j)) hsc) (.dma (rcvS (exH l) j)) hsrc hdst hsem) k) Q) := by
  iintro #HIown #HIpeer #HrSnd #HrR Hs Hd HO Ts Tr Hk
  iapply (wp_send_H m K c n hn l j fs fd hval O W) $$ [Hs Hd HO Ts Tr]
  · isplitr; · iapply (inv_snd m K c (exH l) j); iexact HIown
    isplitr; · iapply (inv_peerY m K c l j); iexact HIpeer
    isplitl [Hs]; · iexact Hs
    isplitl [Hd]; · iexact Hd
    isplitl [HO]; · iexact HO
    isplitl [Ts]; · iexact Ts
    isplitr; · iapply (rch_snd (F := F) c (exH l) j); iexact HrSnd
    isplitl [Tr]; · iexact Tr
    iapply (rch_rcvY (F := F) c l j); iexact HrR
  iexact Hk

theorem wp_send_Gw (K : Dev nD × Kix → ℕ) (c n : Dev nD) (hn : n = xp c) (l : Fin 3) (j : Fin 4)
    {hsc : (grM l j : Memref sig (Dev.tc n : Thread nD τ).2.kind .vmem S64x256 .bf16).view.ref.isScScratch = false}
    {hsrc : (gsM l j).view.WordExact} {hdst : (grM l j).view.WordExact}
    {hsem : DmaTarget.Typed .vmem (.dma (rcvS (exG l) j)) (.remote (Dev.tc n : Thread nD τ) (grM l j) (.dma (sndS (exG l) j)) hsc)}
    {α : Type} {Q : α → sProp 𝕄} {k : PUnit → Prog (TpuEff nD τ sig (Elt F) Λ₀ .tc) α}
    (fs : Buf (Elt F) ((gsM l j).view.loc (c : Thread nD τ))) (fd : Buf (Elt F) ((grM l j).view.loc (xp c : Thread nD τ)))
    (hval : (gsM l j).view.read (Elt F) fs = gSent m l (hpL m l) c j) (O : CellTallies nD τ sig Unit) (W : Waits sig Unit) :
    (bigSep Finset.univ fun k : Kix => (cellInv ER (rd m) (K (c, k)) (kcell (c, k)) : sProp 𝕄))
      ⊢ iprop((bigSep Finset.univ fun ij : Fin 6 × Fin 4 => (cellInv ER (rd m) (K (peer ij.1 c, some (true, ij.1, ij.2))) (rcvCell (peer ij.1 c) ij.1 ij.2) : sProp 𝕄))
        -∗ (bigSep Finset.univ fun ij : Fin 6 × Fin 4 => (reached ER (sndCell c ij.1 ij.2) 0 : sProp 𝕄))
        -∗ (bigSep Finset.univ fun lj : Fin 3 × Fin 4 => (reached ER (rcvCell (xp c) (exG lj.1) lj.2) 0 : sProp 𝕄))
        -∗ ((gsM l j).view.loc (c : Thread nD τ) ↦[(gsM l j).view.set]{fullShare} fs)
        -∗ ((grM l j).view.loc (xp c : Thread nD τ) ↦[(grM l j).view.set]{fullShare} fd)
        -∗ owes (c : Thread nD τ) (O + tallyAt (rcvCell (xp c) (exG l) j) () Ng) W
        -∗ dutyTok ER (sndCell c (exG l) j) 0 false
        -∗ dutyTok ER (rcvCell (xp c) (exG l) j) 0 false
        -∗ ((cred (tallyAt (sndCell c (exG l) j) () Ng) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (gsM l j) (.remote (Dev.tc n : Thread nD τ) (grM l j) (.dma (sndS (exG l) j)) hsc) (.dma (rcvS (exG l) j)) hsrc hdst hsem) k) Q) := by
  iintro #HIown #HIpeer #HrSnd #HrR Hs Hd HO Ts Tr Hk
  iapply (wp_send_G m K c n hn l j fs fd hval O W) $$ [Hs Hd HO Ts Tr]
  · isplitr; · iapply (inv_snd m K c (exG l) j); iexact HIown
    isplitr; · iapply (inv_peerX m K c l j); iexact HIpeer
    isplitl [Hs]; · iexact Hs
    isplitl [Hd]; · iexact Hd
    isplitl [HO]; · iexact HO
    isplitl [Ts]; · iexact Ts
    isplitr; · iapply (rch_snd (F := F) c (exG l) j); iexact HrSnd
    isplitl [Tr]; · iexact Tr
    iapply (rch_rcvX (F := F) c l j); iexact HrR
  iexact Hk

theorem wp_recv_Hw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exH l) j)) Nh K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exH l) j)) () O) :
    (bigSep Finset.univ fun k : Kix => (cellInv ER (rd m) (K (c, k)) (kcell (c, k)) : sProp 𝕄))
      ⊢ iprop(levAts L lv
        -∗ cred (tallyAt (rcvCell c (exH l) j) () Nh)
        -∗ owes (c : Thread nD τ) O W
        -∗ atPos ER (rcvCell c (exH l) j) 0 ∅ 0
        -∗ ((owes (c : Thread nD τ) O (insert (SemLoc.dma (rcvS (exH l) j), ()) W) ∗ atPos ER (rcvCell c (exH l) j) 1 ∅ 0
              ∗ heldAt c (hrM l j) (hLanded m l c j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hlev Hc HO Hat Hk
  iapply (wp_recv_H m K c l j hw O W hmw) $$ [Hlev Hc HO Hat]
  · isplitr; · iapply (inv_rcv m K c (exH l) j); iexact HIown
    isplitl [Hc]; · iexact Hc
    isplitl [HO]; · iexact HO
    isplitl [Hlev]; · iexact Hlev
    iexact Hat
  iexact Hk

theorem wp_recv_Gw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (rcvS (exG l) j)) Ng K')
    {α : Type} {Q : α → sProp 𝕄} {k : PUnit → Prog (TpuEff nD τ sig (Elt F) Λ₀ .tc) α}
    (O : CellTallies nD τ sig Unit) (W : Waits sig Unit)
    (hmw : (levAts L lv : sProp 𝕄) ⊢ MayWait (c : Thread nD τ) (.dma (rcvS (exG l) j)) () O) :
    (bigSep Finset.univ fun k : Kix => (cellInv ER (rd m) (K (c, k)) (kcell (c, k)) : sProp 𝕄))
      ⊢ iprop(levAts L lv
        -∗ cred (tallyAt (rcvCell c (exG l) j) () Ng)
        -∗ owes (c : Thread nD τ) O W
        -∗ atPos ER (rcvCell c (exG l) j) 0 ∅ 0
        -∗ ((owes (c : Thread nD τ) O (insert (SemLoc.dma (rcvS (exG l) j), ()) W) ∗ atPos ER (rcvCell c (exG l) j) 1 ∅ 0
              ∗ heldAt c (grM l j) (gLanded m l c j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hlev Hc HO Hat Hk
  iapply (wp_recv_G m K c l j hw O W hmw) $$ [Hlev Hc HO Hat]
  · isplitr; · iapply (inv_rcv m K c (exG l) j); iexact HIown
    isplitl [Hc]; · iexact Hc
    isplitl [HO]; · iexact HO
    isplitl [Hlev]; · iexact Hlev
    iexact Hat
  iexact Hk

theorem wp_sent_Hw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exH l) j)) Nh K')
    {α : Type} {Q : α → sProp 𝕄} {k : PUnit → Prog (TpuEff nD τ sig (Elt F) Λ₀ .tc) α}
    (W : Waits sig Unit) :
    (bigSep Finset.univ fun k : Kix => (cellInv ER (rd m) (K (c, k)) (kcell (c, k)) : sProp 𝕄))
      ⊢ iprop(cred (tallyAt (sndCell c (exH l) j) () Nh)
        -∗ owes (c : Thread nD τ) 0 W
        -∗ atPos ER (sndCell c (exH l) j) 0 ∅ 0
        -∗ ((owes (c : Thread nD τ) 0 (insert (SemLoc.dma (sndS (exH l) j), ()) W) ∗ atPos ER (sndCell c (exH l) j) 1 ∅ 0
              ∗ heldS c (hsM l j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hc HO Hat Hk
  iapply (wp_sent_H m K c l j hw W) $$ [Hc HO Hat]
  · isplitr; · iapply (inv_snd m K c (exH l) j); iexact HIown
    isplitl [Hc]; · iexact Hc
    isplitl [HO]; · iexact HO
    iexact Hat
  iexact Hk

theorem wp_sent_Gw (K : Dev nD × Kix → ℕ) (c : Dev nD) (l : Fin 3) (j : Fin 4)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma (sndS (exG l) j)) Ng K')
    {α : Type} {Q : α → sProp 𝕄} {k : PUnit → Prog (TpuEff nD τ sig (Elt F) Λ₀ .tc) α}
    (W : Waits sig Unit) :
    (bigSep Finset.univ fun k : Kix => (cellInv ER (rd m) (K (c, k)) (kcell (c, k)) : sProp 𝕄))
      ⊢ iprop(cred (tallyAt (sndCell c (exG l) j) () Ng)
        -∗ owes (c : Thread nD τ) 0 W
        -∗ atPos ER (sndCell c (exG l) j) 0 ∅ 0
        -∗ ((owes (c : Thread nD τ) 0 (insert (SemLoc.dma (sndS (exG l) j), ()) W) ∗ atPos ER (sndCell c (exG l) j) 1 ∅ 0
              ∗ heldS c (gsM l j)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro #HIown Hc HO Hat Hk
  iapply (wp_sent_G m K c l j hw W) $$ [Hc HO Hat]
  · isplitr; · iapply (inv_snd m K c (exG l) j); iexact HIown
    isplitl [Hc]; · iexact Hc
    isplitl [HO]; · iexact HO
    iexact Hat
  iexact Hk

theorem close_cellw (K : Dev nD × Kix → ℕ) (c : Dev nD) (k : Bool × Fin 6 × Fin 4) :
    (bigSep Finset.univ fun k : Kix => (cellInv ER (rd m) (K (c, k)) (kcell (c, k)) : sProp 𝕄))
      ⊢ iprop(atPos ER (kcell (c, some k)) 1 ∅ 0 -∗ |={Set.univ}=> semVal (kcell (c, some k)) 0) := by
  iintro #HIown Hat
  iapply (close_cell m K c k)
  isplitr; · iapply (inv_own m K c (some k)); iexact HIown
  iexact Hat

end Cert.Kernel.Hand

end
-- ==== Proof.SlicesK.lean ====
import proofs.«901003_g7700000000001004_dist_mlpseq_tp2d_cs_cs_b64_d1024_h2048_v7x_xy2x2_bf16_1_alg».proof.Proof.GhostK
import Idealize.ShloMosaic.Lib.Memref
import Idealize.ShloMosaic.Lib.Ring

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance eltNonempty (e : EltTy) : Nonempty (Elt F e) := by
  cases e <;> first | exact ⟨(0 : BitVec _)⟩ | exact ⟨FloatOps.ofBits _ 0⟩

theorem blocks_split (c : Dev nD) (b : Ref sig .tc) {B : Type} [Fintype B] [DecidableEq B]
    (I : B → Finset (Idx ((Memref.whole b : Memref sig .tc _ _ _).view.loc (c : Thread nD τ))))
    (hd : ∀ t t', t ≠ t' → Disjoint (I t) (I t')) (hc : Finset.univ.biUnion I = Finset.univ)
    (P : B → sProp 𝕄)
    (hP : ∀ t f, ((Memref.whole b : Memref sig .tc _ _ _).view.loc (c : Thread nD τ) ↦[I t]{fullShare} f : sProp 𝕄) ⊢ P t) :
    iprop(∃ f, ptw (F := F) c b f) ⊢ bigSep Finset.univ P := by
  iintro ⟨%f, H⟩
  iapply ((Entails.of_eq (Ring.pointsTo_blocks (ℓ := (Memref.whole b : Memref sig .tc _ _ _).view.loc (c : Thread nD τ))
    (q := fullShare) I hd hc f)).trans (BI.bigSep_mono fun t _ => hP t f))
  iexact H

theorem blocks_join (c : Dev nD) (b : Ref sig .tc) {B : Type} [Fintype B] [DecidableEq B]
    (I : B → Finset (Idx ((Memref.whole b : Memref sig .tc _ _ _).view.loc (c : Thread nD τ))))
    (hd : ∀ t t', t ≠ t' → Disjoint (I t) (I t')) (hc : Finset.univ.biUnion I = Finset.univ)
    (P : B → sProp 𝕄)
    (hP : ∀ t, P t ⊢ iprop(∃ f, ((Memref.whole b : Memref sig .tc _ _ _).view.loc (c : Thread nD τ) ↦[I t]{fullShare} f : sProp 𝕄))) :
    bigSep Finset.univ P ⊢ iprop(∃ f, ptw (F := F) c b f) :=
  (BI.bigSep_mono fun t _ => hP t).trans
    (Ring.pointsTo_blocks_join_exists (ℓ := (Memref.whole b : Memref sig .tc _ _ _).view.loc (c : Thread nD τ))
      (q := fullShare) I hd hc (Memref.whole b : Memref sig .tc _ _ _).view.junk)

abbrev rH (lj : Fin 3 × Fin 4) : Rect S3x64x2048 := Rect.unit (s := S3x64x2048) ![lj.1.val, 0, 512 * lj.2.val] S1x64x512.size (inbH lj.1 lj.2)

theorem mem_rH (lj : Fin 3 × Fin 4) (y : S3x64x2048.Idx) :
    y ∈ (rH lj).set ↔ (y 0).val = lj.1.val ∧ 512 * lj.2.val ≤ (y 2).val ∧ (y 2).val < 512 * lj.2.val + 512 := by
  rw [Rect.mem_set_unit]
  have h1 : (y 1).val < 64 := (y 1).isLt
  constructor
  · intro H
    have a0 : lj.1.val ≤ (y 0).val ∧ (y 0).val < lj.1.val + 1 := H 0
    have a2 : 512 * lj.2.val ≤ (y 2).val ∧ (y 2).val < 512 * lj.2.val + 512 := H 2
    omega
  · intro H a; fin_cases a
    · show lj.1.val ≤ (y 0).val ∧ (y 0).val < lj.1.val + 1; omega
    · show 0 ≤ (y 1).val ∧ (y 1).val < 0 + 64; omega
    · show 512 * lj.2.val ≤ (y 2).val ∧ (y 2).val < 512 * lj.2.val + 512; omega

theorem rH_disjoint : ∀ t t' : Fin 3 × Fin 4, t ≠ t' → Disjoint (rH t).set (rH t').set := fun t t' hne => by
  rw [Finset.disjoint_left]; intro y hy hy'; rw [mem_rH] at hy hy'
  exact hne (Prod.ext (Fin.ext (by omega)) (Fin.ext (by omega)))

theorem rH_cover : Finset.univ.biUnion (fun t => (rH t).set) = Finset.univ := by
  ext y; simp only [Finset.mem_biUnion, Finset.mem_univ, true_and, iff_true]
  have h2 : (y 2).val < 2048 := (y 2).isLt
  refine ⟨(y 0, ⟨(y 2).val / 512, by omega⟩), (mem_rH _ _).mpr ⟨rfl, ?_, ?_⟩⟩
  · show 512 * ((y 2).val / 512) ≤ (y 2).val; omega
  · show (y 2).val < 512 * ((y 2).val / 512) + 512; omega

abbrev rG (lj : Fin 3 × Fin 4) : Rect S3x64x1024 := Rect.unit (s := S3x64x1024) ![lj.1.val, 0, 256 * lj.2.val] S1x64x256.size (inbG lj.1 lj.2)

theorem mem_rG (lj : Fin 3 × Fin 4) (y : S3x64x1024.Idx) :
    y ∈ (rG lj).set ↔ (y 0).val = lj.1.val ∧ 256 * lj.2.val ≤ (y 2).val ∧ (y 2).val < 256 * lj.2.val + 256 := by
  rw [Rect.mem_set_unit]
  have h1 : (y 1).val < 64 := (y 1).isLt
  constructor
  · intro H
    have a0 : lj.1.val ≤ (y 0).val ∧ (y 0).val < lj.1.val + 1 := H 0
    have a2 : 256 * lj.2.val ≤ (y 2).val ∧ (y 2).val < 256 * lj.2.val + 256 := H 2
    omega
  · intro H a; fin_cases a
    · show lj.1.val ≤ (y 0).val ∧ (y 0).val < lj.1.val + 1; omega
    · show 0 ≤ (y 1).val ∧ (y 1).val < 0 + 64; omega
    · show 256 * lj.2.val ≤ (y 2).val ∧ (y 2).val < 256 * lj.2.val + 256; omega

theorem rG_disjoint : ∀ t t' : Fin 3 × Fin 4, t ≠ t' → Disjoint (rG t).set (rG t').set := fun t t' hne => by
  rw [Finset.disjoint_left]; intro y hy hy'; rw [mem_rG] at hy hy'
  exact hne (Prod.ext (Fin.ext (by omega)) (Fin.ext (by omega)))

theorem rG_cover : Finset.univ.biUnion (fun t => (rG t).set) = Finset.univ := by
  ext y; simp only [Finset.mem_biUnion, Finset.mem_univ, true_and, iff_true]
  have h2 : (y 2).val < 1024 := (y 2).isLt
  refine ⟨(y 0, ⟨(y 2).val / 256, by omega⟩), (mem_rG _ _).mpr ⟨rfl, ?_, ?_⟩⟩
  · show 256 * ((y 2).val / 256) ≤ (y 2).val; omega
  · show (y 2).val < 256 * ((y 2).val / 256) + 256; omega

theorem hs_set (lj : Fin 3 × Fin 4) : (hsM lj.1 lj.2).view.set = (rH lj).set :=
  (View.set_reshape _ _).trans (View.set_slice_whole _ _)

theorem hs_split (c : Dev nD) :
    iprop(∃ f, ptw (F := F) c cc0_scratch4 f) ⊢ bigSep Finset.univ fun lj : Fin 3 × Fin 4 => heldS c (hsM lj.1 lj.2) :=
  blocks_split c cc0_scratch4 (fun lj => (rH lj).set) rH_disjoint rH_cover _ fun lj f => by
    unfold heldS; rw [hs_set]; iintro H; iexists f; iexact H

theorem hs_join (c : Dev nD) :
    (bigSep Finset.univ fun lj : Fin 3 × Fin 4 => heldS (F := F) c (hsM lj.1 lj.2)) ⊢ iprop(∃ f, ptw c cc0_scratch4 f) :=
  blocks_join c cc0_scratch4 (fun lj => (rH lj).set) rH_disjoint rH_cover _ fun lj => by
    unfold heldS; rw [hs_set]

theorem hr_set (lj : Fin 3 × Fin 4) : (hrM lj.1 lj.2).view.set = (rH lj).set :=
  (View.set_reshape _ _).trans (View.set_slice_whole _ _)

theorem hr_split (c : Dev nD) :
    iprop(∃ f, ptw (F := F) c cc0_scratch5 f) ⊢ bigSep Finset.univ fun lj : Fin 3 × Fin 4 => heldS c (hrM lj.1 lj.2) :=
  blocks_split c cc0_scratch5 (fun lj => (rH lj).set) rH_disjoint rH_cover _ fun lj f => by
    unfold heldS; rw [hr_set]; iintro H; iexists f; iexact H

theorem hr_join (c : Dev nD) :
    (bigSep Finset.univ fun lj : Fin 3 × Fin 4 => heldS (F := F) c (hrM lj.1 lj.2)) ⊢ iprop(∃ f, ptw c cc0_scratch5 f) :=
  blocks_join c cc0_scratch5 (fun lj => (rH lj).set) rH_disjoint rH_cover _ fun lj => by
    unfold heldS; rw [hr_set]

theorem gs_set (lj : Fin 3 × Fin 4) : (gsM lj.1 lj.2).view.set = (rG lj).set :=
  (View.set_reshape _ _).trans (View.set_slice_whole _ _)

theorem gs_split (c : Dev nD) :
    iprop(∃ f, ptw (F := F) c cc0_scratch6 f) ⊢ bigSep Finset.univ fun lj : Fin 3 × Fin 4 => heldS c (gsM lj.1 lj.2) :=
  blocks_split c cc0_scratch6 (fun lj => (rG lj).set) rG_disjoint rG_cover _ fun lj f => by
    unfold heldS; rw [gs_set]; iintro H; iexists f; iexact H

theorem gs_join (c : Dev nD) :
    (bigSep Finset.univ fun lj : Fin 3 × Fin 4 => heldS (F := F) c (gsM lj.1 lj.2)) ⊢ iprop(∃ f, ptw c cc0_scratch6 f) :=
  blocks_join c cc0_scratch6 (fun lj => (rG lj).set) rG_disjoint rG_cover _ fun lj => by
    unfold heldS; rw [gs_set]

theorem gr_set (lj : Fin 3 × Fin 4) : (grM lj.1 lj.2).view.set = (rG lj).set :=
  (View.set_reshape _ _).trans (View.set_slice_whole _ _)

theorem gr_split (c : Dev nD) :
    iprop(∃ f, ptw (F := F) c cc0_scratch7 f) ⊢ bigSep Finset.univ fun lj : Fin 3 × Fin 4 => heldS c (grM lj.1 lj.2) :=
  blocks_split c cc0_scratch7 (fun lj => (rG lj).set) rG_disjoint rG_cover _ fun lj f => by
    unfold heldS; rw [gr_set]; iintro H; iexists f; iexact H

theorem gr_join (c : Dev nD) :
    (bigSep Finset.univ fun lj : Fin 3 × Fin 4 => heldS (F := F) c (grM lj.1 lj.2)) ⊢ iprop(∃ f, ptw c cc0_scratch7 f) :=
  blocks_join c cc0_scratch7 (fun lj => (rG lj).set) rG_disjoint rG_cover _ fun lj => by
    unfold heldS; rw [gr_set]

theorem inbO (j : Fin 4) : ∀ a, (![0, 256 * j.val] : Fin 2 → Nat) a + S64x256.size a ≤ S64x1024.size a := by
  intro a; have := j.isLt
  match a with
  | ⟨0, _⟩ => show 0 + 64 ≤ 64; omega
  | ⟨1, _⟩ => show 256 * j.val + 256 ≤ 1024; omega

abbrev ovM (j : Fin 4) : Memref sig .tc .vmem S64x256 .f32 := (Memref.whole cc0_scratch13).slice (Rect.unit (s := S64x1024) ![0, 256 * j.val] S64x256.size (inbO j)) (fun _ => rfl)

abbrev outM (j : Fin 4) : Memref sig .tc .hbm S64x256 .f32 := (Memref.whole main_v1).slice (Rect.unit (s := S64x1024) ![0, 256 * j.val] S64x256.size (inbO j)) (fun _ => rfl)

abbrev rO (j : Fin 4) : Rect S64x1024 := Rect.unit (s := S64x1024) ![0, 256 * j.val] S64x256.size (inbO j)

theorem mem_rO (j : Fin 4) (y : S64x1024.Idx) :
    y ∈ (rO j).set ↔ 256 * j.val ≤ (y 1).val ∧ (y 1).val < 256 * j.val + 256 := by
  rw [Rect.mem_set_unit]
  have h0 : (y 0).val < 64 := (y 0).isLt
  constructor
  · intro H
    have a1 : 256 * j.val ≤ (y 1).val ∧ (y 1).val < 256 * j.val + 256 := H 1
    omega
  · intro H a; fin_cases a
    · show 0 ≤ (y 0).val ∧ (y 0).val < 0 + 64; omega
    · show 256 * j.val ≤ (y 1).val ∧ (y 1).val < 256 * j.val + 256; omega

theorem rO_disjoint : ∀ t t' : Fin 4, t ≠ t' → Disjoint (rO t).set (rO t').set := fun t t' hne => by
  rw [Finset.disjoint_left]; intro y hy hy'; rw [mem_rO] at hy hy'
  exact hne (Fin.ext (by omega))

theorem rO_cover : Finset.univ.biUnion (fun t => (rO t).set) = Finset.univ := by
  ext y; simp only [Finset.mem_biUnion, Finset.mem_univ, true_and, iff_true]
  have h1 : (y 1).val < 1024 := (y 1).isLt
  refine ⟨⟨(y 1).val / 256, by omega⟩, (mem_rO _ _).mpr ⟨?_, ?_⟩⟩
  · show 256 * ((y 1).val / 256) ≤ (y 1).val; omega
  · show (y 1).val < 256 * ((y 1).val / 256) + 256; omega

theorem ov_set (j : Fin 4) : (ovM j).view.set = (rO j).set := View.set_slice_whole _ _
theorem out_set (j : Fin 4) : (outM j).view.set = (rO j).set := View.set_slice_whole _ _

theorem ov_split (c : Dev nD) :
    iprop(∃ f, ptw (F := F) c cc0_scratch13 f) ⊢ bigSep Finset.univ fun j : Fin 4 => heldS c (ovM j) :=
  blocks_split c cc0_scratch13 (fun j => (rO j).set) rO_disjoint rO_cover _ fun j f => by
    unfold heldS; rw [ov_set]; iintro H; iexists f; iexact H

theorem ov_join (c : Dev nD) :
    (bigSep Finset.univ fun j : Fin 4 => heldS (F := F) c (ovM j)) ⊢ iprop(∃ f, ptw c cc0_scratch13 f) :=
  blocks_join c cc0_scratch13 (fun j => (rO j).set) rO_disjoint rO_cover _ fun j => by
    unfold heldS; rw [ov_set]

theorem out_split (c : Dev nD) :
    iprop(∃ f, ptw (F := F) c main_v1 f) ⊢ bigSep Finset.univ fun j : Fin 4 => heldS c (outM j) :=
  blocks_split c main_v1 (fun j => (rO j).set) rO_disjoint rO_cover _ fun j f => by
    unfold heldS; rw [out_set]; iintro H; iexists f; iexact H

theorem outA_chunk (m : (ℓ : Loc nD τ sig) → Buf (Elt F) ℓ) (c : Dev nD) (j : Fin 4) :
    (fun i => outA m c ((rO j).emb i)) = acc2 m c j := by
  funext i
  have hi1 : (i 1).val < 256 := (i 1).isLt
  exact congrArg₂ (acc2 m c)
    (Fin.ext (by show (256 * j.val + 1 * (i 1).val) / 256 = j.val; omega))
    (funext fun a => by
      match a with
      | ⟨0, _⟩ => exact Fin.ext (by show 0 + 1 * (i 0).val = (i 0).val; omega)
      | ⟨1, _⟩ => exact Fin.ext (by show (256 * j.val + 1 * (i 1).val) % 256 = (i 1).val; omega))

theorem heldAt_owns (c : Dev nD) {sp : Space} {S : Shape} {e : EltTy} (M : Memref sig .tc sp S e) (v : S.Idx → Elt F e) :
    heldAt c M v ⊢ (owns (c : Thread nD τ) M fullShare v : sProp 𝕄) := by
  unfold heldAt owns
  iintro ⟨%f, H, %hf⟩
  iexists f
  isplitr
  · ipureintro; exact hf
  · iexact H

theorem out_join_at (m : (ℓ : Loc nD τ sig) → Buf (Elt F) ℓ) (c : Dev nD) :
    (bigSep Finset.univ fun j : Fin 4 => heldAt c (outM j) (acc2 m c j)) ⊢ ptw c main_v1 (outA m c) := by
  have hw : (owns (c : Thread nD τ) (Memref.whole main_v1 : Memref sig .tc _ _ _) fullShare (outA m c) : sProp 𝕄)
      ⊢ ptw c main_v1 (outA m c) := by
    unfold owns
    iintro ⟨%g, %hg, H⟩
    simp only [Memref.view_whole, View.read_whole] at hg
    subst hg
    simp only [View.set_whole]
    iexact H
  refine (BI.bigSep_mono fun j _ => ?_).trans
    ((owns_of_rects (c : Thread nD τ) (Memref.whole main_v1 : Memref sig .tc _ _ _) fullShare rO (fun _ _ => rfl) rO_disjoint rO_cover (outA m c)).trans hw)
  rw [outA_chunk]
  exact heldAt_owns c (outM j) (acc2 m c j)

theorem any_join {ℓ : Loc nD τ sig} {I J K : Finset (Idx ℓ)} (hd : Disjoint I J) (hu : I ∪ J = K) :
    iprop((∃ f, (ℓ ↦[I]{fullShare} f : sProp 𝕄)) ∗ (∃ g, (ℓ ↦[J]{fullShare} g : sProp 𝕄)))
      ⊢ iprop(∃ h, (ℓ ↦[K]{fullShare} h : sProp 𝕄)) := by
  subst hu
  iintro ⟨⟨%f, Hf⟩, ⟨%g, Hg⟩⟩
  iexists J.piecewise g f
  iapply (pointsTo_join hd)
  isplitl [Hf]
  · iexact Hf
  · iexact Hg

theorem any_split {ℓ : Loc nD τ sig} {I J K : Finset (Idx ℓ)} (hd : Disjoint I J) (hu : I ∪ J = K) :
    iprop(∃ h, (ℓ ↦[K]{fullShare} h : sProp 𝕄))
      ⊢ iprop((∃ f, (ℓ ↦[I]{fullShare} f : sProp 𝕄)) ∗ (∃ g, (ℓ ↦[J]{fullShare} g : sProp 𝕄))) := by
  subst hu
  iintro ⟨%h, H⟩
  ihave H' := (pointsTo_union hd).1 $$ H
  icases H' with ⟨Hf, Hg⟩
  isplitl [Hf]
  · iexists h; iexact Hf
  · iexists h; iexact Hg

abbrev a1A : Memref sig .tc .hbm S1024x1024 .f32 := (Memref.whole main_arg1).slice (Rect.unit (s := S1024x2048) ![0, 0] S1024x1024.size inb_S1024x2048_S1024x1024_0_0) (fun _ => rfl)
abbrev a1B : Memref sig .tc .hbm S1024x1024 .f32 := (Memref.whole main_arg1).slice (Rect.unit (s := S1024x2048) ![0, 1024] S1024x1024.size inb_S1024x2048_S1024x1024_0_1024) (fun _ => rfl)

abbrev rAA : Rect S1024x2048 := Rect.unit (s := S1024x2048) ![0, 0] S1024x1024.size inb_S1024x2048_S1024x1024_0_0
abbrev rAB : Rect S1024x2048 := Rect.unit (s := S1024x2048) ![0, 1024] S1024x1024.size inb_S1024x2048_S1024x1024_0_1024

theorem mem_rAA (y : S1024x2048.Idx) : y ∈ rAA.set ↔ (y 1).val < 1024 := by
  rw [Rect.mem_set_unit]
  have h0 : (y 0).val < 1024 := (y 0).isLt
  constructor
  · intro H
    have a1 : 0 ≤ (y 1).val ∧ (y 1).val < 0 + 1024 := H 1
    omega
  · intro H a; fin_cases a
    · show 0 ≤ (y 0).val ∧ (y 0).val < 0 + 1024; omega
    · show 0 ≤ (y 1).val ∧ (y 1).val < 0 + 1024; omega

theorem mem_rAB (y : S1024x2048.Idx) : y ∈ rAB.set ↔ 1024 ≤ (y 1).val := by
  rw [Rect.mem_set_unit]
  have h0 : (y 0).val < 1024 := (y 0).isLt
  have h1 : (y 1).val < 2048 := (y 1).isLt
  constructor
  · intro H
    have a1 : 1024 ≤ (y 1).val ∧ (y 1).val < 1024 + 1024 := H 1
    omega
  · intro H a; fin_cases a
    · show 0 ≤ (y 0).val ∧ (y 0).val < 0 + 1024; omega
    · show 1024 ≤ (y 1).val ∧ (y 1).val < 1024 + 1024; omega

theorem rAAB_disjoint : Disjoint rAA.set rAB.set := by
  rw [Finset.disjoint_left]; intro y hy hy'; rw [mem_rAA] at hy; rw [mem_rAB] at hy'; omega

theorem rAAB_union : rAA.set ∪ rAB.set = Finset.univ := by
  ext y; simp only [Finset.mem_union, Finset.mem_univ, iff_true]; rw [mem_rAA, mem_rAB]; omega

theorem a1A_set : a1A.view.set = rAA.set := View.set_slice_whole _ _
theorem a1B_set : a1B.view.set = rAB.set := View.set_slice_whole _ _

theorem arg1_split (c : Dev nD) (f : Buf (Elt F) ((Memref.whole main_arg1 : Memref sig .tc _ _ _).view.loc (c : Thread nD τ))) :
    ptw c main_arg1 f ⊢ iprop((a1A.view.loc (c : Thread nD τ) ↦[a1A.view.set]{fullShare} f) ∗ (a1B.view.loc (c : Thread nD τ) ↦[a1B.view.set]{fullShare} f)) := by
  rw [a1A_set, a1B_set]
  exact (Entails.of_eq (congrArg (fun K => (((Memref.whole main_arg1 : Memref sig .tc _ _ _).view.loc (c : Thread nD τ)) ↦[K]{fullShare} f : sProp 𝕄)) rAAB_union.symm)).trans
    (pointsTo_union rAAB_disjoint).1

theorem arg1_join (c : Dev nD) (f : Buf (Elt F) ((Memref.whole main_arg1 : Memref sig .tc _ _ _).view.loc (c : Thread nD τ))) :
    iprop((a1A.view.loc (c : Thread nD τ) ↦[a1A.view.set]{fullShare} f) ∗ (a1B.view.loc (c : Thread nD τ) ↦[a1B.view.set]{fullShare} f)) ⊢ ptw c main_arg1 f := by
  rw [a1A_set, a1B_set]
  exact (pointsTo_union rAAB_disjoint).2.trans
    (Entails.of_eq (congrArg (fun K => (((Memref.whole main_arg1 : Memref sig .tc _ _ _).view.loc (c : Thread nD τ)) ↦[K]{fullShare} f : sProp 𝕄)) rAAB_union))

abbrev wbA : Memref sig .tc .vmem S1024x1024 .f32 := ((Memref.whole cc0_scratch0).slice (Rect.unit (s := S2x1024x2048) ![0, 0, 0] S1x1024x1024.size inb_S2x1024x2048_S1x1024x1024_0_0_0) (fun _ => rfl)).squeeze S1024x1024 squeezes_S1x1024x1024_S1024x1024
abbrev wbB : Memref sig .tc .vmem S1024x1024 .f32 := ((Memref.whole cc0_scratch0).slice (Rect.unit (s := S2x1024x2048) ![0, 0, 1024] S1x1024x1024.size inb_S2x1024x2048_S1x1024x1024_0_0_1024) (fun _ => rfl)).squeeze S1024x1024 squeezes_S1x1024x1024_S1024x1024
abbrev wbC : Memref sig .tc .vmem S1024x2048 .f32 := ((Memref.whole cc0_scratch0).slice (Rect.unit (s := S2x1024x2048) ![1, 0, 0] S1x1024x2048.size inb_S2x1024x2048_S1x1024x2048_1_0_0) (fun _ => rfl)).squeeze S1024x2048 squeezes_S1x1024x2048_S1024x2048
abbrev wb0 : Memref sig .tc .vmem S1024x2048 .f32 := ((Memref.whole cc0_scratch0).slice (Rect.unit (s := S2x1024x2048) ![0, 0, 0] S1x1024x2048.size inb_S2x1024x2048_S1x1024x2048_0_0_0) (fun _ => rfl)).squeeze S1024x2048 squeezes_S1x1024x2048_S1024x2048
abbrev vbA : Memref sig .tc .vmem S2048x1024 .f32 := ((Memref.whole cc0_scratch1).slice (Rect.unit (s := S2x2048x1024) ![0, 0, 0] S1x2048x1024.size inb_S2x2048x1024_S1x2048x1024_0_0_0) (fun _ => rfl)).squeeze S2048x1024 squeezes_S1x2048x1024_S2048x1024
abbrev vbB : Memref sig .tc .vmem S2048x1024 .f32 := ((Memref.whole cc0_scratch1).slice (Rect.unit (s := S2x2048x1024) ![1, 0, 0] S1x2048x1024.size inb_S2x2048x1024_S1x2048x1024_1_0_0) (fun _ => rfl)).squeeze S2048x1024 squeezes_S1x2048x1024_S2048x1024

abbrev rWA : Rect S2x1024x2048 := Rect.unit (s := S2x1024x2048) ![0, 0, 0] S1x1024x1024.size inb_S2x1024x2048_S1x1024x1024_0_0_0
abbrev rWB : Rect S2x1024x2048 := Rect.unit (s := S2x1024x2048) ![0, 0, 1024] S1x1024x1024.size inb_S2x1024x2048_S1x1024x1024_0_0_1024
abbrev rWC : Rect S2x1024x2048 := Rect.unit (s := S2x1024x2048) ![1, 0, 0] S1x1024x2048.size inb_S2x1024x2048_S1x1024x2048_1_0_0
abbrev rW0 : Rect S2x1024x2048 := Rect.unit (s := S2x1024x2048) ![0, 0, 0] S1x1024x2048.size inb_S2x1024x2048_S1x1024x2048_0_0_0

abbrev rVA : Rect S2x2048x1024 := Rect.unit (s := S2x2048x1024) ![0, 0, 0] S1x2048x1024.size inb_S2x2048x1024_S1x2048x1024_0_0_0
abbrev rVB : Rect S2x2048x1024 := Rect.unit (s := S2x2048x1024) ![1, 0, 0] S1x2048x1024.size inb_S2x2048x1024_S1x2048x1024_1_0_0

theorem mem_rWA (y : S2x1024x2048.Idx) : y ∈ rWA.set ↔ (y 0).val = 0 ∧ (y 2).val < 1024 := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 0 ≤ (y 2).val ∧ (y 2).val < 0 + 1024 := H 2
    omega
  · intro H a; fin_cases a
    · show 0 ≤ (y 0).val ∧ (y 0).val < 0 + 1; omega
    · show 0 ≤ (y 1).val ∧ (y 1).val < 0 + 1024; omega
    · show 0 ≤ (y 2).val ∧ (y 2).val < 0 + 1024; omega

theorem mem_rWB (y : S2x1024x2048.Idx) : y ∈ rWB.set ↔ (y 0).val = 0 ∧ 1024 ≤ (y 2).val := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 1024 ≤ (y 2).val ∧ (y 2).val < 1024 + 1024 := H 2
    omega
  · intro H a; fin_cases a
    · show 0 ≤ (y 0).val ∧ (y 0).val < 0 + 1; omega
    · show 0 ≤ (y 1).val ∧ (y 1).val < 0 + 1024; omega
    · show 1024 ≤ (y 2).val ∧ (y 2).val < 1024 + 1024; omega

theorem mem_rWC (y : S2x1024x2048.Idx) : y ∈ rWC.set ↔ (y 0).val = 1 := by
  rw [Rect.mem_set_unit]
  have h0 : (y 0).val < 2 := (y 0).isLt
  have h1 : (y 1).val < 1024 := (y 1).isLt
  have h2 : (y 2).val < 2048 := (y 2).isLt
  constructor
  · intro H
    have a0 : 1 ≤ (y 0).val ∧ (y 0).val < 1 + 1 := H 0
    have a2 : 0 ≤ (y 2).val ∧ (y 2).val < 0 + 2048 := H 2
    omega
  · intro H a; fin_cases a
    · show 1 ≤ (y 0).val ∧ (y 0).val < 1 + 1; omega
    · show 0 ≤ (y 1).val ∧ (y 1).val < 0 + 1024; omega
    · show 0 ≤ (y 2).val ∧ (y 2).val < 0 + 2048; omega

theorem mem_rW0 (y : S2x1024x2048.Idx) : y ∈ rW0.set ↔ (y 0).val = 0 := by
  rw [Rect.mem_set_unit]
  have h0 : (y 0).val < 2 := (y 0).isLt
  have h1 : (y 1).val < 1024 := (y 1).isLt
  have h2 : (y 2).val < 2048 := (y 2).isLt
  constructor
  · intro H
    have a0 : 0 ≤ (y 0).val ∧ (y 0).val < 0 + 1 := H 0
    have a2 : 0 ≤ (y 2).val ∧ (y 2).val < 0 + 2048 := H 2
    omega
  · intro H a; fin_cases a
    · show 0 ≤ (y 0).val ∧ (y 0).val < 0 + 1; omega
    · show 0 ≤ (y 1).val ∧ (y 1).val < 0 + 1024; omega
    · show 0 ≤ (y 2).val ∧ (y 2).val < 0 + 2048; omega

theorem mem_rVA (y : S2x2048x1024.Idx) : y ∈ rVA.set ↔ (y 0).val = 0 := by
  rw [Rect.mem_set_unit]
  have h0 : (y 0).val < 2 := (y 0).isLt
  have h1 : (y 1).val < 2048 := (y 1).isLt
  have h2 : (y 2).val < 1024 := (y 2).isLt
  constructor
  · intro H
    have a0 : 0 ≤ (y 0).val ∧ (y 0).val < 0 + 1 := H 0
    have a2 : 0 ≤ (y 2).val ∧ (y 2).val < 0 + 1024 := H 2
    omega
  · intro H a; fin_cases a
    · show 0 ≤ (y 0).val ∧ (y 0).val < 0 + 1; omega
    · show 0 ≤ (y 1).val ∧ (y 1).val < 0 + 2048; omega
    · show 0 ≤ (y 2).val ∧ (y 2).val < 0 + 1024; omega

theorem mem_rVB (y : S2x2048x1024.Idx) : y ∈ rVB.set ↔ (y 0).val = 1 := by
  rw [Rect.mem_set_unit]
  have h0 : (y 0).val < 2 := (y 0).isLt
  have h1 : (y 1).val < 2048 := (y 1).isLt
  have h2 : (y 2).val < 1024 := (y 2).isLt
  constructor
  · intro H
    have a0 : 1 ≤ (y 0).val ∧ (y 0).val < 1 + 1 := H 0
    have a2 : 0 ≤ (y 2).val ∧ (y 2).val < 0 + 1024 := H 2
    omega
  · intro H a; fin_cases a
    · show 1 ≤ (y 0).val ∧ (y 0).val < 1 + 1; omega
    · show 0 ≤ (y 1).val ∧ (y 1).val < 0 + 2048; omega
    · show 0 ≤ (y 2).val ∧ (y 2).val < 0 + 1024; omega

theorem rWAB_disjoint : Disjoint rWA.set rWB.set := by
  rw [Finset.disjoint_left]; intro y hy hy'; rw [mem_rWA] at hy; rw [mem_rWB] at hy'; omega
theorem rWAB_union : rWA.set ∪ rWB.set = rW0.set := by
  ext y; rw [Finset.mem_union, mem_rWA, mem_rWB, mem_rW0]; omega
theorem rW0C_disjoint : Disjoint rW0.set rWC.set := by
  rw [Finset.disjoint_left]; intro y hy hy'; rw [mem_rW0] at hy; rw [mem_rWC] at hy'; omega
theorem rW0C_union : rW0.set ∪ rWC.set = Finset.univ := by
  ext y; have h0 : (y 0).val < 2 := (y 0).isLt
  simp only [Finset.mem_union, Finset.mem_univ, iff_true]; rw [mem_rW0, mem_rWC]; omega
theorem rVAB_disjoint : Disjoint rVA.set rVB.set := by
  rw [Finset.disjoint_left]; intro y hy hy'; rw [mem_rVA] at hy; rw [mem_rVB] at hy'; omega
theorem rVAB_union : rVA.set ∪ rVB.set = Finset.univ := by
  ext y; have h0 : (y 0).val < 2 := (y 0).isLt
  simp only [Finset.mem_union, Finset.mem_univ, iff_true]; rw [mem_rVA, mem_rVB]; omega

theorem wbA_set : wbA.view.set = rWA.set := (View.set_reshape _ _).trans (View.set_slice_whole _ _)
theorem wbB_set : wbB.view.set = rWB.set := (View.set_reshape _ _).trans (View.set_slice_whole _ _)
theorem wbC_set : wbC.view.set = rWC.set := (View.set_reshape _ _).trans (View.set_slice_whole _ _)
theorem wb0_set : wb0.view.set = rW0.set := (View.set_reshape _ _).trans (View.set_slice_whole _ _)
theorem vbA_set : vbA.view.set = rVA.set := (View.set_reshape _ _).trans (View.set_slice_whole _ _)
theorem vbB_set : vbB.view.set = rVB.set := (View.set_reshape _ _).trans (View.set_slice_whole _ _)

theorem heldS_wbA (c : Dev nD) : heldS (F := F) c wbA = iprop(∃ f, (((Memref.whole cc0_scratch0 : Memref sig .tc _ _ _).view.loc (c : Thread nD τ)) ↦[rWA.set]{fullShare} f : sProp 𝕄)) := by
  unfold heldS; rw [wbA_set]
theorem heldS_wbB (c : Dev nD) : heldS (F := F) c wbB = iprop(∃ f, (((Memref.whole cc0_scratch0 : Memref sig .tc _ _ _).view.loc (c : Thread nD τ)) ↦[rWB.set]{fullShare} f : sProp 𝕄)) := by
  unfold heldS; rw [wbB_set]
theorem heldS_wbC (c : Dev nD) : heldS (F := F) c wbC = iprop(∃ f, (((Memref.whole cc0_scratch0 : Memref sig .tc _ _ _).view.loc (c : Thread nD τ)) ↦[rWC.set]{fullShare} f : sProp 𝕄)) := by
  unfold heldS; rw [wbC_set]
theorem heldS_wb0 (c : Dev nD) : heldS (F := F) c wb0 = iprop(∃ f, (((Memref.whole cc0_scratch0 : Memref sig .tc _ _ _).view.loc (c : Thread nD τ)) ↦[rW0.set]{fullShare} f : sProp 𝕄)) := by
  unfold heldS; rw [wb0_set]
theorem heldS_vbA (c : Dev nD) : heldS (F := F) c vbA = iprop(∃ f, (((Memref.whole cc0_scratch1 : Memref sig .tc _ _ _).view.loc (c : Thread nD τ)) ↦[rVA.set]{fullShare} f : sProp 𝕄)) := by
  unfold heldS; rw [vbA_set]
theorem heldS_vbB (c : Dev nD) : heldS (F := F) c vbB = iprop(∃ f, (((Memref.whole cc0_scratch1 : Memref sig .tc _ _ _).view.loc (c : Thread nD τ)) ↦[rVB.set]{fullShare} f : sProp 𝕄)) := by
  unfold heldS; rw [vbB_set]

theorem sc0_split (c : Dev nD) :
    iprop(∃ f, ptw (F := F) c cc0_scratch0 f) ⊢ iprop(heldS c wbA ∗ heldS c wbB ∗ heldS c wbC) := by
  rw [heldS_wbA, heldS_wbB, heldS_wbC]
  refine (any_split (ℓ := ((Memref.whole cc0_scratch0 : Memref sig .tc _ _ _).view.loc (c : Thread nD τ))) rW0C_disjoint rW0C_union).trans ?_
  iintro ⟨H0, HC⟩
  ihave H2 := (any_split (ℓ := ((Memref.whole cc0_scratch0 : Memref sig .tc _ _ _).view.loc (c : Thread nD τ))) rWAB_disjoint rWAB_union) $$ H0
  icases H2 with ⟨HA, HB⟩
  isplitl [HA]
  · iexact HA
  isplitl [HB]
  · iexact HB
  · iexact HC

theorem halves_join (c : Dev nD) : iprop(heldS (F := F) c wbA ∗ heldS c wbB) ⊢ heldS c wb0 := by
  rw [heldS_wbA, heldS_wbB, heldS_wb0]
  exact any_join rWAB_disjoint rWAB_union

theorem sc0_join (c : Dev nD) : iprop(heldS (F := F) c wb0 ∗ heldS c wbC) ⊢ iprop(∃ f, ptw c cc0_scratch0 f) := by
  rw [heldS_wb0, heldS_wbC]
  exact any_join rW0C_disjoint rW0C_union

theorem sc1_split (c : Dev nD) :
    iprop(∃ f, ptw (F := F) c cc0_scratch1 f) ⊢ iprop(heldS c vbA ∗ heldS c vbB) := by
  rw [heldS_vbA, heldS_vbB]
  exact any_split rVAB_disjoint rVAB_union

theorem sc1_join (c : Dev nD) : iprop(heldS (F := F) c vbA ∗ heldS c vbB) ⊢ iprop(∃ f, ptw c cc0_scratch1 f) := by
  rw [heldS_vbA, heldS_vbB]
  exact any_join rVAB_disjoint rVAB_union

end Cert.Kernel.Hand

end
-- ==== Proof.EvidenceK.lean ====
import proofs.«901003_g7700000000001004_dist_mlpseq_tp2d_cs_cs_b64_d1024_h2048_v7x_xy2x2_bf16_1_alg».proof.Proof.LaunchRunK
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def Above (n : ℕ) (O : CellTallies nD τ sig Unit) : Prop := ∀ g u, 0 < O g u → g.1.2 = .tc ∧ n < lv g u

theorem Above.zero (n : ℕ) : Above n (0 : CellTallies nD τ sig Unit) := fun g u h => by
  rw [Pi.zero_apply, Finsupp.zero_apply] at h; exact absurd h (Nat.lt_irrefl 0)

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)

def lvOf (sm : SemLoc sig) : ℕ := lv (((0 : Dev nD) : Thread nD τ), sm) ()

theorem lv_eq_lvOf (c : Dev nD) (sm : SemLoc sig) : lv ((c : Thread nD τ), sm) () = lvOf sm := rfl

theorem Above.tally {n : ℕ} (d : Dev nD) (sm : SemLoc sig) (a : ℕ) (h : n < lvOf sm) :
    Above n (tallyAt ((d : Thread nD τ), sm) () a) := fun g u hg => by
  obtain ⟨rfl, rfl⟩ := Pipeline.tallyAt_pos hg
  exact ⟨rfl, h⟩

theorem Above.tally_rcv {n : ℕ} (c : Dev nD) (i : Fin 6) (j : Fin 4) (a : ℕ) (h : n < 2 + i.val) :
    Above n (tallyAt (rcvCell c i j) () a) := fun g u hg => by
  obtain ⟨rfl, rfl⟩ := Pipeline.tallyAt_pos hg
  exact ⟨rfl, by rw [lv_rcv]; exact h⟩

theorem Above.tally_bar {n : ℕ} (c : Dev nD) (a : ℕ) (h : n < 1) : Above n (tallyAt (barCell c) () a) := fun g u hg => by
  obtain ⟨rfl, rfl⟩ := Pipeline.tallyAt_pos hg
  exact ⟨rfl, by rw [lv_bar]; exact h⟩

theorem Above.oweX {n : ℕ} (c : Dev nD) (i : Fin 6) (h : n < 2 + i.val) : Above n (oweX c i) := fun g u hg => by
  obtain ⟨j, rfl⟩ := oweX_pos hg
  cases u
  exact ⟨rfl, by rw [lv_rcv]; exact h⟩

theorem mayWait_at (c : Dev nD) (sm : SemLoc sig) (O : CellTallies nD τ sig Unit) (hO : Above (lvOf sm) O) :
    (levAts L lv : sProp 𝕄) ⊢ MayWait (c : Thread nD τ) sm () O :=
  mayWait_level c sm (lvOf sm) rfl O hO

macro "lv_tac" : tactic => `(tactic|
  first
    | exact (lv_eq_lvOf _ _).trans (by decide)
    | exact lv_eq_lvOf _ _
    | exact lv_rcv _ _ _
    | exact lv_snd _ _ _
    | exact lv_bar _)

macro "above_tac" : tactic => `(tactic|
  ((try rw [lv_eq_lvOf]);
   repeat' (first
    | (with_reducible apply Above.add)
    | (with_reducible exact Above.zero _)
    | ((with_reducible refine Above.oweX _ _ ?_); decide)
    | ((with_reducible refine Above.tally_rcv _ _ _ _ ?_); decide)
    | ((with_reducible refine Above.tally_bar _ _ ?_); decide)
    | ((with_reducible refine Above.tally _ _ _ ?_); decide))))

example (c : Dev nD) : Above 0 (oweX c 5 + oweX c 4 + oweX c 3 + oweX c 2 + oweX c 1 + oweX c 0) := by above_tac
example (c : Dev nD) : Above 2 (oweX c 5 + oweX c 4 + oweX c 3 + oweX c 2 + oweX c 1) := by above_tac
example (c : Dev nD) : Above 2 (oweX c 5 + oweX c 4 + oweX c 3 + oweX c 2
    + (tallyAt (rcvCell (peer 1 c) 1 2) () (amt 1) + tallyAt (rcvCell (peer 1 c) 1 3) () (amt 1))) := by above_tac
example (c : Dev nD) : Above (lvOf (SemLoc.dma (rcvS 0 1))) (oweX c 5 + oweX c 4 + oweX c 3 + oweX c 2 + oweX c 1) := by above_tac
example (c : Dev nD) : Above (lvOf (SemLoc.dma (s2a cc0_scratch12)))
    (oweX c 5 + (tallyAt (((yp c : Dev nD) : Thread nD τ), SemLoc.dma (rcvS 0 3)) () Nh + 0)) := by above_tac
example (c : Dev nD) : Above (lv ((c : Thread nD τ), SemLoc.dma (sndS 3 2)) ()) (oweX c 5 + oweX c 4) := by above_tac
example (c : Dev nD) : lv ((c : Thread nD τ), SemLoc.dma (rcvS 0 1)) () = 2 := by lv_tac
example (c : Dev nD) : lv ((c : Thread nD τ), SemLoc.dma (s2a cc0_scratch12)) () = 0 := by lv_tac
example (c : Dev nD) : lv ((c : Thread nD τ), SemLoc.dma (sndS 3 2)) () = 0 := by lv_tac
example (c : Dev nD) : lv ((c : Thread nD τ), SemLoc.reg barS) () = 1 := by lv_tac
example (c : Dev nD) :
    lv ((c : Thread nD τ), SemLoc.dma ((SemArray.slice cc0_scratch12 (Rect.unit (s := S2) ![0] S1.size inb_S2_S1_0)).squeeze S_ squeezes_S1_S_).sem) () = 0 := by
  lv_tac
example (c : Dev nD) : (levAts L lv : sProp 𝕄) ⊢ MayWait (c : Thread nD τ) (SemLoc.dma (rcvS 2 1)) () (oweX c 5 + oweX c 4 + oweX c 3) :=
  mayWait_at c _ _ (by above_tac)

end Cert.Kernel.Hand

end
-- ==== Proof.TallyK.lean ====
import proofs.«901003_g7700000000001004_dist_mlpseq_tp2d_cs_cs_b64_d1024_h2048_v7x_xy2x2_bf16_1_alg».proof.Proof.EvidenceK
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def tly (c : Dev nD) (n : ℕ) : CellTallies nD τ sig Unit :=
  if (n / 4) % 2 = 0 then tallyAt (rcvCell (yp c) (exH ⟨(n / 8) % 3, Nat.mod_lt _ (by decide)⟩) ⟨n % 4, Nat.mod_lt _ (by decide)⟩) () Nh
  else tallyAt (rcvCell (xp c) (exG ⟨(n / 8) % 3, Nat.mod_lt _ (by decide)⟩) ⟨n % 4, Nat.mod_lt _ (by decide)⟩) () Ng

def Rm (c : Dev nD) : ℕ → CellTallies nD τ sig Unit
  | 0 => 0
  | k + 1 => Rm c k + tly c (23 - k)

theorem tly_H (c : Dev nD) (l : Fin 3) (j : Fin 4) : tly c (8 * l.val + j.val) = tallyAt (rcvCell (yp c) (exH l) j) () Nh := by
  have hl := l.isLt; have hj := j.isLt
  unfold tly
  rw [if_pos (by omega)]
  have e1 : (⟨(8 * l.val + j.val) / 8 % 3, Nat.mod_lt _ (by decide)⟩ : Fin 3) = l := Fin.ext (by show (8 * l.val + j.val) / 8 % 3 = l.val; omega)
  have e2 : (⟨(8 * l.val + j.val) % 4, Nat.mod_lt _ (by decide)⟩ : Fin 4) = j := Fin.ext (by show (8 * l.val + j.val) % 4 = j.val; omega)
  rw [e1, e2]

theorem tly_G (c : Dev nD) (l : Fin 3) (j : Fin 4) : tly c (8 * l.val + 4 + j.val) = tallyAt (rcvCell (xp c) (exG l) j) () Ng := by
  have hl := l.isLt; have hj := j.isLt
  unfold tly
  rw [if_neg (by omega)]
  have e1 : (⟨(8 * l.val + 4 + j.val) / 8 % 3, Nat.mod_lt _ (by decide)⟩ : Fin 3) = l := Fin.ext (by show (8 * l.val + 4 + j.val) / 8 % 3 = l.val; omega)
  have e2 : (⟨(8 * l.val + 4 + j.val) % 4, Nat.mod_lt _ (by decide)⟩ : Fin 4) = j := Fin.ext (by show (8 * l.val + 4 + j.val) % 4 = j.val; omega)
  rw [e1, e2]

theorem oweX_tly0 (c : Dev nD) : oweX c 0 = tly c 0 + tly c 1 + tly c 2 + tly c 3 := rfl
theorem oweX_tly1 (c : Dev nD) : oweX c 1 = tly c 4 + tly c 5 + tly c 6 + tly c 7 := rfl
theorem oweX_tly2 (c : Dev nD) : oweX c 2 = tly c 8 + tly c 9 + tly c 10 + tly c 11 := rfl
theorem oweX_tly3 (c : Dev nD) : oweX c 3 = tly c 12 + tly c 13 + tly c 14 + tly c 15 := rfl
theorem oweX_tly4 (c : Dev nD) : oweX c 4 = tly c 16 + tly c 17 + tly c 18 + tly c 19 := rfl
theorem oweX_tly5 (c : Dev nD) : oweX c 5 = tly c 20 + tly c 21 + tly c 22 + tly c 23 := rfl

theorem Rm_24 (c : Dev nD) : Rm c 24 = oweX c 5 + oweX c 4 + oweX c 3 + oweX c 2 + oweX c 1 + oweX c 0 := by
  rw [oweX_tly5, oweX_tly4, oweX_tly3, oweX_tly2, oweX_tly1, oweX_tly0]
  show 0 + tly c 23 + tly c 22 + tly c 21 + tly c 20 + tly c 19 + tly c 18 + tly c 17 + tly c 16 + tly c 15 + tly c 14 + tly c 13 + tly c 12 + tly c 11 + tly c 10 + tly c 9 + tly c 8 + tly c 7 + tly c 6 + tly c 5 + tly c 4 + tly c 3 + tly c 2 + tly c 1 + tly c 0 = _
  rw [zero_add]
  ac_rfl

theorem O₀_eq (c : Dev nD) : O₀ c = Rm c 24 + tallyAt (barCell (yp c)) () 1 + tallyAt (barCell (xp c)) () 1 := by
  rw [Rm_24]; rfl

theorem Above_tly {lvl : ℕ} (c : Dev nD) (n : ℕ) (hn : n < 24) (h : lvl < 2 + n / 4) : Above lvl (tly c n) := by
  unfold tly
  split
  · exact Above.tally_rcv _ _ _ _ (by show lvl < 2 + 2 * ((n / 8) % 3); omega)
  · exact Above.tally_rcv _ _ _ _ (by show lvl < 2 + (2 * ((n / 8) % 3) + 1); omega)

theorem Above_Rm (c : Dev nD) (k lvl : ℕ) (hk : k ≤ 24) (h : lvl < 2 + (24 - k) / 4) : Above lvl (Rm c k) := by
  induction k with
  | zero => exact Above.zero _
  | succ k ih =>
    show Above lvl (Rm c k + tly c (23 - k))
    exact Above.add (ih (by omega) (by omega)) (Above_tly c (23 - k) (by omega) (by omega))

macro "rm_tac" : tactic => `(tactic|
  ((try rw [lv_eq_lvOf]);
   repeat' (first
    | (with_reducible apply Above.add)
    | (with_reducible exact Above.zero _)
    | ((with_reducible refine Above_Rm _ _ _ ?_ ?_) <;> decide)
    | ((with_reducible refine Above_tly _ _ ?_ ?_) <;> decide)
    | ((with_reducible refine Above.oweX _ _ ?_); decide)
    | ((with_reducible refine Above.tally_rcv _ _ _ _ ?_); decide)
    | ((with_reducible refine Above.tally_bar _ _ ?_); decide)
    | ((with_reducible refine Above.tally _ _ _ ?_); decide))))

example (c : Dev nD) : Rm c 24 = Rm c 23 + tly c 0 := rfl
example (c : Dev nD) : Above (lvOf (SemLoc.dma (s2a cc0_scratch12))) (Rm c 24) := by rm_tac
example (c : Dev nD) : Above (lvOf (SemLoc.dma (rcvS 0 1))) (Rm c 20) := by rm_tac
example (c : Dev nD) : Above (lvOf (SemLoc.reg barS)) (Rm c 24) := by rm_tac
example (c : Dev nD) : Above (lv ((c : Thread nD τ), SemLoc.dma (rcvS 2 3)) ()) (Rm c 12) := by rm_tac
example (c : Dev nD) : Above 0 (Rm c 17 + tly c 6) := by rm_tac
example (c : Dev nD) : Above 3 (Rm c 12 + tly c 11 + tly c 9) := by rm_tac
example (c : Dev nD) : Above (lvOf (SemLoc.dma (sndS 1 2))) (Rm c 18 + tallyAt (rcvCell (xp c) 1 1) () Ng) := by rm_tac

end Cert.Kernel.Hand

end
-- ==== Proof.FinishK.lean ====
import proofs.«901003_g7700000000001004_dist_mlpseq_tp2d_cs_cs_b64_d1024_h2048_v7x_xy2x2_bf16_1_alg».proof.Proof.StepsWK
import proofs.«901003_g7700000000001004_dist_mlpseq_tp2d_cs_cs_b64_d1024_h2048_v7x_xy2x2_bf16_1_alg».proof.Proof.SlicesK

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
omit [FloatOps F] in
theorem heldAt_intro (c : Dev nD) {sp : Space} {S : Shape} {e : EltTy} (M : Memref sig .tc sp S e) (v : S.Idx → Elt F e)
    (f : Buf (Elt F) (M.view.loc (c : Thread nD τ))) (h : M.view.read (Elt F) f = v) :
    (M.view.loc (c : Thread nD τ) ↦[M.view.set]{fullShare} f : sProp 𝕄) ⊢ heldAt c M v := by
  unfold heldAt
  iintro H
  iexists f
  isplitl; · iexact H
  ipureintro; exact h

omit [FloatOps F] in
omit [FloatOps F] in

theorem sep24f (Φ : Fin 6 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)
        ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3)) :=
  bigSep_univ_eq_bigSepL [(0, 0), (0, 1), (0, 2), (0, 3), (1, 0), (1, 1), (1, 2), (1, 3), (2, 0), (2, 1), (2, 2), (2, 3),
    (3, 0), (3, 1), (3, 2), (3, 3), (4, 0), (4, 1), (4, 2), (4, 3), (5, 0), (5, 1), (5, 2), (5, 3)] (by decide) (by decide) Φ

theorem close_sndw (K : Dev nD × Kix → ℕ) (c : Dev nD) (i : Fin 6) (j : Fin 4) :
    (bigSep Finset.univ fun k : Kix => (cellInv ER (rd m) (K (c, k)) (kcell (c, k)) : sProp 𝕄))
      ⊢ iprop(atPos ER (sndCell c i j) 1 ∅ 0 -∗ |={Set.univ}=> semVal (sndCell c i j) 0) :=
  close_cellw m K c (false, i, j)

theorem close_rcvw (K : Dev nD × Kix → ℕ) (c : Dev nD) (i : Fin 6) (j : Fin 4) :
    (bigSep Finset.univ fun k : Kix => (cellInv ER (rd m) (K (c, k)) (kcell (c, k)) : sProp 𝕄))
      ⊢ iprop(atPos ER (rcvCell c i j) 1 ∅ 0 -∗ |={Set.univ}=> semVal (rcvCell c i j) 0) :=
  close_cellw m K c (true, i, j)

theorem close_snd (K : Dev nD × Kix → ℕ) (c : Dev nD) (i : Fin 6) (j : Fin 4) :
    iprop((bigSep Finset.univ fun k : Kix => (cellInv ER (rd m) (K (c, k)) (kcell (c, k)) : sProp 𝕄)) ∗ atPos ER (sndCell c i j) 1 ∅ 0)
      ⊢ |={Set.univ}=> semVal (sndCell c i j) 0 := by
  iintro ⟨HI, Hat⟩
  iapply (close_sndw m K c i j) $$ HI Hat

theorem close_rcv (K : Dev nD × Kix → ℕ) (c : Dev nD) (i : Fin 6) (j : Fin 4) :
    iprop((bigSep Finset.univ fun k : Kix => (cellInv ER (rd m) (K (c, k)) (kcell (c, k)) : sProp 𝕄)) ∗ atPos ER (rcvCell c i j) 1 ∅ 0)
      ⊢ |={Set.univ}=> semVal (rcvCell c i j) 0 := by
  iintro ⟨HI, Hat⟩
  iapply (close_rcvw m K c i j) $$ HI Hat

theorem close_all (K : Dev nD × Kix → ℕ) (c : Dev nD) :
    (bigSep Finset.univ fun k : Kix => (cellInv ER (rd m) (K (c, k)) (kcell (c, k)) : sProp 𝕄))
      ⊢ iprop((bigSep Finset.univ fun ij : Fin 6 × Fin 4 => atPos ER (sndCell c ij.1 ij.2) 1 ∅ 0)
        -∗ (bigSep Finset.univ fun ij : Fin 6 × Fin 4 => atPos ER (rcvCell c ij.1 ij.2) 1 ∅ 0)
        -∗ |={Set.univ}=> bigSep Finset.univ fun ij : Fin 6 × Fin 4 => iprop(semVal (sndCell c ij.1 ij.2) 0 ∗ semVal (rcvCell c ij.1 ij.2) 0)) := by
  have hS : iprop((bigSep Finset.univ fun k : Kix => (cellInv ER (rd m) (K (c, k)) (kcell (c, k)) : sProp 𝕄))
        ∗ bigSep Finset.univ fun ij : Fin 6 × Fin 4 => atPos ER (sndCell c ij.1 ij.2) 1 ∅ 0)
      ⊢ (|={Set.univ}=> bigSep Finset.univ fun ij : Fin 6 × Fin 4 => semVal (sndCell c ij.1 ij.2) 0 : sProp 𝕄) :=
    (bigSep_with_persistent fun ij _ => close_snd m K c ij.1 ij.2).trans (bigSep_fupd _ _)
  have hR : iprop((bigSep Finset.univ fun k : Kix => (cellInv ER (rd m) (K (c, k)) (kcell (c, k)) : sProp 𝕄))
        ∗ bigSep Finset.univ fun ij : Fin 6 × Fin 4 => atPos ER (rcvCell c ij.1 ij.2) 1 ∅ 0)
      ⊢ (|={Set.univ}=> bigSep Finset.univ fun ij : Fin 6 × Fin 4 => semVal (rcvCell c ij.1 ij.2) 0 : sProp 𝕄) :=
    (bigSep_with_persistent fun ij _ => close_rcv m K c ij.1 ij.2).trans (bigSep_fupd _ _)
  iintro #HI HS HR
  imod hS $$ [HS] with HzS
  · isplitr; · iexact HI
    iexact HS
  imod hR $$ [HR] with HzR
  · isplitr; · iexact HI
    iexact HR
  imodintro
  iapply (Entails.of_eq (bigSep_sep' Finset.univ (fun ij : Fin 6 × Fin 4 => (semVal (sndCell c ij.1 ij.2) 0 : sProp 𝕄))
    (fun ij : Fin 6 × Fin 4 => semVal (rcvCell c ij.1 ij.2) 0)).symm)
  isplitl [HzS]; · iexact HzS
  iexact HzR

omit [FloatOps F] in
theorem sepPS1 (c : Dev nD) : (bigSep Finset.univ fun ij : Fin 6 × Fin 4 => (atPos ER (sndCell c ij.1 ij.2) 1 ∅ 0 : sProp 𝕄))
    = iprop(atPos ER (sndCell c (exH 0) 0) 1 ∅ 0 ∗ atPos ER (sndCell c (exH 0) 1) 1 ∅ 0 ∗ atPos ER (sndCell c (exH 0) 2) 1 ∅ 0 ∗ atPos ER (sndCell c (exH 0) 3) 1 ∅ 0
      ∗ atPos ER (sndCell c (exG 0) 0) 1 ∅ 0 ∗ atPos ER (sndCell c (exG 0) 1) 1 ∅ 0 ∗ atPos ER (sndCell c (exG 0) 2) 1 ∅ 0 ∗ atPos ER (sndCell c (exG 0) 3) 1 ∅ 0
      ∗ atPos ER (sndCell c (exH 1) 0) 1 ∅ 0 ∗ atPos ER (sndCell c (exH 1) 1) 1 ∅ 0 ∗ atPos ER (sndCell c (exH 1) 2) 1 ∅ 0 ∗ atPos ER (sndCell c (exH 1) 3) 1 ∅ 0
      ∗ atPos ER (sndCell c (exG 1) 0) 1 ∅ 0 ∗ atPos ER (sndCell c (exG 1) 1) 1 ∅ 0 ∗ atPos ER (sndCell c (exG 1) 2) 1 ∅ 0 ∗ atPos ER (sndCell c (exG 1) 3) 1 ∅ 0
      ∗ atPos ER (sndCell c (exH 2) 0) 1 ∅ 0 ∗ atPos ER (sndCell c (exH 2) 1) 1 ∅ 0 ∗ atPos ER (sndCell c (exH 2) 2) 1 ∅ 0 ∗ atPos ER (sndCell c (exH 2) 3) 1 ∅ 0
      ∗ atPos ER (sndCell c (exG 2) 0) 1 ∅ 0 ∗ atPos ER (sndCell c (exG 2) 1) 1 ∅ 0 ∗ atPos ER (sndCell c (exG 2) 2) 1 ∅ 0 ∗ atPos ER (sndCell c (exG 2) 3) 1 ∅ 0) :=
  (sep24f _).trans rfl

omit [FloatOps F] in
theorem sepPR1 (c : Dev nD) : (bigSep Finset.univ fun ij : Fin 6 × Fin 4 => (atPos ER (rcvCell c ij.1 ij.2) 1 ∅ 0 : sProp 𝕄))
    = iprop(atPos ER (rcvCell c (exH 0) 0) 1 ∅ 0 ∗ atPos ER (rcvCell c (exH 0) 1) 1 ∅ 0 ∗ atPos ER (rcvCell c (exH 0) 2) 1 ∅ 0 ∗ atPos ER (rcvCell c (exH 0) 3) 1 ∅ 0
      ∗ atPos ER (rcvCell c (exG 0) 0) 1 ∅ 0 ∗ atPos ER (rcvCell c (exG 0) 1) 1 ∅ 0 ∗ atPos ER (rcvCell c (exG 0) 2) 1 ∅ 0 ∗ atPos ER (rcvCell c (exG 0) 3) 1 ∅ 0
      ∗ atPos ER (rcvCell c (exH 1) 0) 1 ∅ 0 ∗ atPos ER (rcvCell c (exH 1) 1) 1 ∅ 0 ∗ atPos ER (rcvCell c (exH 1) 2) 1 ∅ 0 ∗ atPos ER (rcvCell c (exH 1) 3) 1 ∅ 0
      ∗ atPos ER (rcvCell c (exG 1) 0) 1 ∅ 0 ∗ atPos ER (rcvCell c (exG 1) 1) 1 ∅ 0 ∗ atPos ER (rcvCell c (exG 1) 2) 1 ∅ 0 ∗ atPos ER (rcvCell c (exG 1) 3) 1 ∅ 0
      ∗ atPos ER (rcvCell c (exH 2) 0) 1 ∅ 0 ∗ atPos ER (rcvCell c (exH 2) 1) 1 ∅ 0 ∗ atPos ER (rcvCell c (exH 2) 2) 1 ∅ 0 ∗ atPos ER (rcvCell c (exH 2) 3) 1 ∅ 0
      ∗ atPos ER (rcvCell c (exG 2) 0) 1 ∅ 0 ∗ atPos ER (rcvCell c (exG 2) 1) 1 ∅ 0 ∗ atPos ER (rcvCell c (exG 2) 2) 1 ∅ 0 ∗ atPos ER (rcvCell c (exG 2) 3) 1 ∅ 0) :=
  (sep24f _).trans rfl

end Cert.Kernel.Hand

end
-- ==== Proof.RestateK.lean ====
import proofs.«901003_g7700000000001004_dist_mlpseq_tp2d_cs_cs_b64_d1024_h2048_v7x_xy2x2_bf16_1_alg».proof.Proof.SlicesK
import Idealize.ShloMosaic.Lib.Pipeline.Value

noncomputable section

namespace Cert.Kernel.Hand

open Cert.Kernel Cert.Kernel.Gen
open Idealize.ShloMosaic
open Idealize.ShloMosaic.TcCoe
open Idealize.SL.Sem
open Idealize.ShloMosaic.ValueIdx

variable {F : FTy → Type} [FloatOps F]

section General
variable {sig : RefSig} {κ : Kind} {sp : Space} {s : Shape} {e : EltTy} {Val : EltTy → Type}

theorem readCov_cons_inside [∀ e, Nonempty (Val e)] (v : View sig κ sp s e) (r : Rect s) (w : r.shape.Idx → Val e)
    (L : List (View.Piece Val s e)) (B : LoadRect s) (x : B.shape.Idx → r.shape.Idx) (h : ∀ i, B.idx i = r.emb (x i)) :
    v.readCov (⟨r, w⟩ :: L) B = fun i => w (x i) := by
  rw [View.readCov_eq_canon']; funext i; rw [h i, View.canon_cons_emb]

end General

section General2
variable {sig : RefSig} {κ : Kind} {sp : Space} {s s' : Shape} {e : EltTy} {Val : EltTy → Type}

theorem readAt_writes_whole_squeeze {cs : Space} (M : Memref sig κ cs s e) (r : Rect s) (hr : ∀ a, r.stride a = 1)
    (hq : r.shape.Squeezes s') (hc : r.shape.ShapeCasts s') (hc' : s'.ShapeCasts r.shape)
    (f : M.view.ty.Contents Val) (g : s'.Idx → Val e) :
    M.view.readAt Val r.toLoadRect (((M.slice r hr).squeeze s' hq).view.writes Val f [⟨Rect.whole s', g⟩])
      = shapeCast r.shape g hc' := by
  have h1 := Memref.read_squeeze_slice (Val := Val) M r hr hq hc (((M.slice r hr).squeeze s' hq).view.writes Val f [⟨Rect.whole s', g⟩])
  have h2 := View.read_writes_whole (Val := Val) ((M.slice r hr).squeeze s' hq).view f g
  rw [← shapeCast_shapeCast (M.view.readAt Val r.toLoadRect _) hc hc', ← h1, h2]

theorem readCov_unit_in_unit [∀ e, Nonempty (Val e)] (v : View sig κ sp s e)
    (offP sizeP : Fin s.rank → Nat) (inbP : ∀ a, offP a + sizeP a ≤ s.size a) (w : (Rect.unit offP sizeP inbP).shape.Idx → Val e)
    (L : List (View.Piece Val s e))
    (offB sizeB : Fin s.rank → Nat) (inbB : ∀ a, offB a + sizeB a ≤ s.size a)
    (hin : ∀ a, offP a ≤ offB a ∧ offB a + sizeB a ≤ offP a + sizeP a) :
    v.readCov (⟨Rect.unit offP sizeP inbP, w⟩ :: L) (Rect.unit offB sizeB inbB).toLoadRect
      = fun i => w (fun a => ⟨offB a - offP a + (i a).val, by have hi : (i a).val < sizeB a := (i a).isLt; have := hin a; show _ < sizeP a; omega⟩) := by
  refine readCov_cons_inside v _ w L _ _ fun i => ?_
  funext a; refine Fin.ext ?_
  have := hin a
  show offB a + 1 * (i a).val = offP a + 1 * (offB a - offP a + (i a).val)
  omega

end General2

section Casts
variable {α : Type}

theorem shapeCast_add1 {n1 n2 : Nat} (v : (⟨2, ![n1, n2]⟩ : Shape).Idx → α)
    (h : (⟨2, ![n1, n2]⟩ : Shape).ShapeCasts ⟨3, ![1, n1, n2]⟩) (j : (⟨3, ![1, n1, n2]⟩ : Shape).Idx) :
    shapeCast ⟨3, ![1, n1, n2]⟩ v h j = v (ix2 (n0 := n1) (n1 := n2) ⟨(j 1).val, (j 1).isLt⟩ ⟨(j 2).val, (j 2).isLt⟩) := by
  refine shapeCast_apply v h j _ ?_
  rw [Shape.rowMajor_val_two, Shape.rowMajor_val_three]
  have h0 : (j 0).val = 0 := by have : (j 0).val < 1 := (j 0).isLt; omega
  show (j 1).val * n2 + (j 2).val = ((j 0).val * n1 + (j 1).val) * n2 + (j 2).val
  rw [h0, Nat.zero_mul, Nat.zero_add]

theorem shapeCast_drop1 {n1 n2 : Nat} (v : (⟨3, ![1, n1, n2]⟩ : Shape).Idx → α)
    (h : (⟨3, ![1, n1, n2]⟩ : Shape).ShapeCasts ⟨2, ![n1, n2]⟩) (j : (⟨2, ![n1, n2]⟩ : Shape).Idx) :
    shapeCast ⟨2, ![n1, n2]⟩ v h j
      = v (ix3 (n0 := 1) (n1 := n1) (n2 := n2) ⟨0, Nat.one_pos⟩ ⟨(j 0).val, (j 0).isLt⟩ ⟨(j 1).val, (j 1).isLt⟩) := by
  refine shapeCast_apply v h j _ ?_
  rw [Shape.rowMajor_val_two, Shape.rowMajor_val_three]
  show (0 * n1 + (j 0).val) * n2 + (j 1).val = (j 0).val * n2 + (j 1).val
  rw [Nat.zero_mul, Nat.zero_add]

end Casts

section Concrete

theorem stg_load (fx : Vec F S64x1024 .f32) :
    (Memref.whole cc0_stg0_0 : Memref sig .tc _ _ _).view.readAt (Elt F) (Rect.unit ![0, 0] S64x1024.size inb_S64x1024_S64x1024_0_0).toLoadRect fx = fx :=
  Memref.readAt_unit_zero (Elt F) cc0_stg0_0 (funext fun a => match a with | ⟨0, _⟩ => rfl | ⟨1, _⟩ => rfl) _ fx

theorem pay1_stg (fx : Vec F S64x1024 .f32) :
    k0_pay1 ((Memref.whole cc0_stg0_0 : Memref sig .tc _ _ _).view.readAt (Elt F) (Rect.unit ![0, 0] S64x1024.size inb_S64x1024_S64x1024_0_0).toLoadRect fx)
      = truncf .bf16 fx bitsLt_bf16_f32 := by
  rw [stg_load]; unfold k0_pay1; rw [shapeCast_self]

end Concrete

section Weights

def halfN (V : FVec F S1024x2048 .f32) (o : Nat) (ho : o + 1024 ≤ 2048) : FVec F S1x1024x1024 .bf16 :=
  fun i => truncf .bf16 V bitsLt_bf16_f32
    (ix2 (n0 := 1024) (n1 := 2048) ⟨(i 1).val, (i 1).isLt⟩ ⟨o + (i 2).val, by have : (i 2).val < 1024 := (i 2).isLt; omega⟩)

theorem pay7_eq_pay2 (v : Vec F S1x1024x1024 .f32) : k0_pay7 v = k0_pay2 v := rfl

theorem payH_eq (o : Nat) (ho : o + 1024 ≤ 2048)
    (inbW : ∀ a, (![0, 0, o] : Fin 3 → Nat) a + S1x1024x1024.size a ≤ S2x1024x2048.size a)
    (inbA : ∀ a, (![0, o] : Fin 2 → Nat) a + S1024x1024.size a ≤ S1024x2048.size a)
    (f0 : Vec F S2x1024x2048 .f32) (f1 : Vec F S1024x2048 .f32) :
    k0_pay2 ((Memref.whole cc0_scratch0 : Memref sig .tc _ _ _).view.readAt (Elt F) (Rect.unit (s := S2x1024x2048) ![0, 0, o] S1x1024x1024.size inbW).toLoadRect
      ((((Memref.whole cc0_scratch0 : Memref sig .tc _ _ _).slice (Rect.unit (s := S2x1024x2048) ![0, 0, o] S1x1024x1024.size inbW) (fun _ => rfl)).squeeze S1024x1024
            squeezes_S1x1024x1024_S1024x1024).view.writes (Elt F) f0
        [⟨Rect.whole S1024x1024, ReadAs.same.apply (((Memref.whole main_arg1 : Memref sig .tc _ _ _).slice
            (Rect.unit (s := S1024x2048) ![0, o] S1024x1024.size inbA) (fun _ => rfl)).view.read (Elt F) f1)⟩]))
      = halfN f1 o ho := by
  refine (congrArg k0_pay2 (readAt_writes_whole_squeeze (Val := Elt F) (Memref.whole cc0_scratch0 : Memref sig .tc _ _ _)
    (Rect.unit (s := S2x1024x2048) ![0, 0, o] S1x1024x1024.size inbW) (fun _ => rfl) squeezes_S1x1024x1024_S1024x1024
    shapeCasts_S1x1024x1024_S1024x1024 shapeCasts_S1024x1024_S1x1024x1024 f0 _)).trans ?_
  show shapeCast S1x1024x1024 (truncf .bf16 (shapeCast S1024x1024 (shapeCast S1x1024x1024
    (((Memref.whole main_arg1 : Memref sig .tc _ _ _).slice (Rect.unit (s := S1024x2048) ![0, o] S1024x1024.size inbA) (fun _ => rfl)).view.read (Elt F) f1)
    shapeCasts_S1024x1024_S1x1024x1024) shapeCasts_S1x1024x1024_S1024x1024) bitsLt_bf16_f32) shapeCasts_S1024x1024_S1x1024x1024 = _
  rw [shapeCast_shapeCast]
  funext i
  refine (shapeCast_add1 _ _ i).trans ?_
  show FloatOps.truncf .bf16 bitsLt_bf16_f32 (f1 _) = FloatOps.truncf .bf16 bitsLt_bf16_f32 (f1 _)
  refine congrArg (fun k => FloatOps.truncf .bf16 bitsLt_bf16_f32 (f1 k)) (funext fun a => Fin.ext ?_)
  match a with
  | ⟨0, _⟩ => show 0 + 1 * (i 1).val = (i 1).val; omega
  | ⟨1, _⟩ => show o + 1 * (i 2).val = o + (i 2).val; omega

end Weights

section Loads

theorem load_half (V : FVec F S1024x2048 .f32) (o : Nat) (ho : o + 1024 ≤ 2048) (j : Fin 4) (b : Nat)
    (hb : b = 512 * j.val) (hlo : o ≤ b) (hhi : b + 512 ≤ o + 1024)
    (inbP : ∀ a, (![0, 0, o] : Fin 3 → Nat) a + S1x1024x1024.size a ≤ S2x1024x2048.size a)
    (inbB : ∀ a, (![0, 0, b] : Fin 3 → Nat) a + S1x1024x512.size a ≤ S2x1024x2048.size a)
    (L : List (View.Piece (Elt F) S2x1024x2048 .bf16)) :
    shapeCast S1024x512 ((Memref.whole cc0_scratch2 : Memref sig .tc _ _ _).view.readCov
        (⟨Rect.unit (s := S2x1024x2048) ![0, 0, o] S1x1024x1024.size inbP, halfN V o ho⟩ :: L)
        (Rect.unit (s := S2x1024x2048) ![0, 0, b] S1x1024x512.size inbB).toLoadRect) shapeCasts_S1x1024x512_S1024x512
      = cols512 (truncf .bf16 V bitsLt_bf16_f32) j := by
  have hin : ∀ a, (![0, 0, o] : Fin 3 → Nat) a ≤ (![0, 0, b] : Fin 3 → Nat) a
      ∧ (![0, 0, b] : Fin 3 → Nat) a + S1x1024x512.size a ≤ (![0, 0, o] : Fin 3 → Nat) a + S1x1024x1024.size a := by
    intro a
    match a with
    | ⟨0, _⟩ => show 0 ≤ 0 ∧ 0 + 1 ≤ 0 + 1; omega
    | ⟨1, _⟩ => show 0 ≤ 0 ∧ 0 + 1024 ≤ 0 + 1024; omega
    | ⟨2, _⟩ => exact ⟨hlo, hhi⟩
  have h := readCov_unit_in_unit (Val := Elt F) (Memref.whole cc0_scratch2 : Memref sig .tc _ _ _).view
    (s := S2x1024x2048) ![0, 0, o] S1x1024x1024.size inbP (halfN V o ho) L ![0, 0, b] S1x1024x512.size inbB hin
  refine (congrArg (fun W => shapeCast S1024x512 W shapeCasts_S1x1024x512_S1024x512) h).trans ?_
  funext k
  refine (shapeCast_drop1 _ _ k).trans ?_
  show truncf .bf16 V bitsLt_bf16_f32 _ = truncf .bf16 V bitsLt_bf16_f32 _
  refine congrArg (truncf .bf16 V bitsLt_bf16_f32) (funext fun a => Fin.ext ?_)
  match a with
  | ⟨0, _⟩ => show 0 - 0 + (k 0).val = (k 0).val; omega
  | ⟨1, _⟩ => show o + (b - o + (k 1).val) = 512 * j.val + (k 1).val; omega

end Loads

section Send

theorem hs_read_write (c : Dev nD) (l : Fin 3) (j : Fin 4) (off : Fin 3 → Nat) (hoff : off = ![l.val, 0, 512 * j.val])
    (inb : ∀ a, off a + S1x64x512.size a ≤ S3x64x2048.size a)
    (fs : Buf (Elt F) ((hsM l j).view.loc (c : Thread nD τ))) (v : Vec F S1x64x512 .bf16) :
    (hsM l j).view.read (Elt F)
        (((Memref.whole cc0_scratch4 : Memref sig .tc _ _ _).access (Rect.unit (s := S3x64x2048) off S1x64x512.size inb)).write (Elt F) fs v Finset.univ)
      = shapeCast S64x512 v shapeCasts_S1x64x512_S64x512 := by
  subst hoff
  show shapeCast S64x512 (((Memref.whole cc0_scratch4 : Memref sig .tc _ _ _).view.slice
      (Rect.unit (s := S3x64x2048) ![l.val, 0, 512 * j.val] S1x64x512.size inb)).read (Elt F)
        ((((Memref.whole cc0_scratch4 : Memref sig .tc _ _ _).view.slice
      (Rect.unit (s := S3x64x2048) ![l.val, 0, 512 * j.val] S1x64x512.size inb))).write (Elt F) fs v Finset.univ)) shapeCasts_S1x64x512_S64x512 = _
  rw [View.read_write_univ]

theorem pay3_eq (A : FVec F S64x1024 .bf16) (W : Vec F S1x1024x512 .bf16) :
    k0_pay3 A W = matmul dot_S64x1024_S1024x512_S64x512_1_0_0_1_n_n none A
      (shapeCast S1024x512 W shapeCasts_S1x1024x512_S1024x512) (constant S64x512 .f32 0x00000000#32) := rfl

theorem pay4_cast (A : FVec F S64x1024 .bf16) (W : Vec F S1x1024x512 .bf16) :
    shapeCast S64x512 (k0_pay4 A W) shapeCasts_S1x64x512_S64x512 = truncf .bf16 (k0_pay3 A W) bitsLt_bf16_f32 := by
  show shapeCast S64x512 (shapeCast S1x64x512 (truncf .bf16 (k0_pay3 A W) bitsLt_bf16_f32) shapeCasts_S64x512_S1x64x512) shapeCasts_S1x64x512_S64x512 = _
  rw [shapeCast_shapeCast]

end Send

section Chunks

theorem pay6_cast (A : FVec F S64x1024 .bf16) (W : Vec F S1x1024x512 .bf16) :
    shapeCast S64x512 (k0_pay6 A W) shapeCasts_S1x64x512_S64x512 = truncf .bf16 (k0_pay5 A W) bitsLt_bf16_f32 := pay4_cast A W
theorem pay9_cast (A : FVec F S64x1024 .bf16) (W : Vec F S1x1024x512 .bf16) :
    shapeCast S64x512 (k0_pay9 A W) shapeCasts_S1x64x512_S64x512 = truncf .bf16 (k0_pay8 A W) bitsLt_bf16_f32 := pay4_cast A W
theorem pay11_cast (A : FVec F S64x1024 .bf16) (W : Vec F S1x1024x512 .bf16) :
    shapeCast S64x512 (k0_pay11 A W) shapeCasts_S1x64x512_S64x512 = truncf .bf16 (k0_pay10 A W) bitsLt_bf16_f32 := pay4_cast A W

end Chunks

section Chunks1

end Chunks1

end Cert.Kernel.Hand

end
-- ==== Proof.RestateHK.lean ====
import proofs.«901003_g7700000000001004_dist_mlpseq_tp2d_cs_cs_b64_d1024_h2048_v7x_xy2x2_bf16_1_alg».proof.Proof.RestateK

noncomputable section

namespace Cert.Kernel.Hand

open Cert.Kernel Cert.Kernel.Gen
open Idealize.ShloMosaic
open Idealize.ShloMosaic.TcCoe
open Idealize.SL.Sem
open Idealize.ShloMosaic.ValueIdx

variable {F : FTy → Type} [FloatOps F]

section Blocks
variable {sig' : RefSig} {κ : Kind} {sp : Space} {e : EltTy} {Val : EltTy → Type}

theorem load_blockH [∀ e, Nonempty (Val e)] {n0 n1 n2 m1 m2 p1 p2 : Nat} (v : View sig' κ sp ⟨3, ![n0, n1, n2]⟩ e)
    (s r0 q0 r q : Nat)
    (inbP : ∀ a, (![s, r0, q0] : Fin 3 → Nat) a + (![1, m1, m2] : Fin 3 → Nat) a ≤ (⟨3, ![n0, n1, n2]⟩ : Shape).size a)
    (inbB : ∀ a, (![s, r, q] : Fin 3 → Nat) a + (![1, p1, p2] : Fin 3 → Nat) a ≤ (⟨3, ![n0, n1, n2]⟩ : Shape).size a)
    (hr0 : r0 ≤ r) (hr1 : r + p1 ≤ r0 + m1) (hq0 : q0 ≤ q) (hq1 : q + p2 ≤ q0 + m2)
    (G : (⟨2, ![m1, m2]⟩ : Shape).Idx → Val e)
    (hc : (⟨2, ![m1, m2]⟩ : Shape).ShapeCasts ⟨3, ![1, m1, m2]⟩)
    (hc' : (⟨3, ![1, p1, p2]⟩ : Shape).ShapeCasts ⟨2, ![p1, p2]⟩)
    (L : List (View.Piece Val ⟨3, ![n0, n1, n2]⟩ e)) :
    shapeCast ⟨2, ![p1, p2]⟩
        (v.readCov (⟨Rect.unit (s := ⟨3, ![n0, n1, n2]⟩) ![s, r0, q0] ![1, m1, m2] inbP, shapeCast ⟨3, ![1, m1, m2]⟩ G hc⟩ :: L)
          (Rect.unit (s := ⟨3, ![n0, n1, n2]⟩) ![s, r, q] ![1, p1, p2] inbB).toLoadRect) hc'
      = fun i => G (ix2 (n0 := m1) (n1 := m2)
          ⟨r - r0 + (i 0).val, by have : (i 0).val < p1 := (i 0).isLt; omega⟩
          ⟨q - q0 + (i 1).val, by have : (i 1).val < p2 := (i 1).isLt; omega⟩) := by
  have hin : ∀ a, (![s, r0, q0] : Fin 3 → Nat) a ≤ (![s, r, q] : Fin 3 → Nat) a
      ∧ (![s, r, q] : Fin 3 → Nat) a + (![1, p1, p2] : Fin 3 → Nat) a ≤ (![s, r0, q0] : Fin 3 → Nat) a + (![1, m1, m2] : Fin 3 → Nat) a := by
    intro a
    match a with
    | ⟨0, _⟩ => show s ≤ s ∧ s + 1 ≤ s + 1; omega
    | ⟨1, _⟩ => exact ⟨hr0, hr1⟩
    | ⟨2, _⟩ => exact ⟨hq0, hq1⟩
  have h := readCov_unit_in_unit (Val := Val) v ![s, r0, q0] ![1, m1, m2] inbP (shapeCast ⟨3, ![1, m1, m2]⟩ G hc) L
    ![s, r, q] ![1, p1, p2] inbB hin
  refine (congrArg (fun W => shapeCast ⟨2, ![p1, p2]⟩ W hc') h).trans ?_
  funext i
  refine (shapeCast_drop1 _ _ i).trans ?_
  refine (shapeCast_add1 G hc _).trans ?_
  refine congrArg G (funext fun a => Fin.ext ?_)
  match a with
  | ⟨0, _⟩ => rfl
  | ⟨1, _⟩ => rfl

end Blocks

section TailWrites
variable {sig' : RefSig} {κ : Kind} {s s' : Shape} {e : EltTy} {Val : EltTy → Type}

theorem readAt_writes_cons_whole_squeezeH {cs : Space} (M : Memref sig' κ cs s e) (r : Rect s) (hr : ∀ a, r.stride a = 1)
    (hq : r.shape.Squeezes s') (hc : r.shape.ShapeCasts s') (hc' : s'.ShapeCasts r.shape)
    (f : M.view.ty.Contents Val) (g : s'.Idx → Val e) (Lw : List (View.Piece Val s' e)) :
    M.view.readAt Val r.toLoadRect (((M.slice r hr).squeeze s' hq).view.writes Val f (⟨Rect.whole s', g⟩ :: Lw))
      = shapeCast r.shape g hc' := by
  have h1 := Memref.read_squeeze_slice (Val := Val) M r hr hq hc (((M.slice r hr).squeeze s' hq).view.writes Val f (⟨Rect.whole s', g⟩ :: Lw))
  have h2 : ((M.slice r hr).squeeze s' hq).view.read Val (((M.slice r hr).squeeze s' hq).view.writes Val f (⟨Rect.whole s', g⟩ :: Lw)) = g := by
    funext y
    have h := View.read_writes_cons_emb ((M.slice r hr).squeeze s' hq).view f (Rect.whole s') g Lw y
    rwa [Rect.emb_whole_apply] at h
  rw [← shapeCast_shapeCast (M.view.readAt Val r.toLoadRect _) hc hc', ← h1, h2]

end TailWrites

section SlabWeights

theorem pay37_eq_pay12H (v : Vec F S1x2048x1024 .f32) : k0_pay37 v = k0_pay12 v := rfl
theorem pay63_eq_pay12H (v : Vec F S1x2048x1024 .f32) : k0_pay63 v = k0_pay12 v := rfl
theorem pay50_eq_pay25H (v : Vec F S1x1024x2048 .f32) : k0_pay50 v = k0_pay25 v := rfl

theorem pay12_loadH (s : Nat)
    (inbW : ∀ a, (![s, 0, 0] : Fin 3 → Nat) a + S1x2048x1024.size a ≤ S2x2048x1024.size a)
    (f0 : Vec F S2x2048x1024 .f32) (g : FVec F S2048x1024 .f32) (Lw : List (View.Piece (Elt F) S2048x1024 .f32)) :
    k0_pay12 ((Memref.whole cc0_scratch1 : Memref sig .tc _ _ _).view.readAt (Elt F) (Rect.unit (s := S2x2048x1024) ![s, 0, 0] S1x2048x1024.size inbW).toLoadRect
      ((((Memref.whole cc0_scratch1 : Memref sig .tc _ _ _).slice (Rect.unit (s := S2x2048x1024) ![s, 0, 0] S1x2048x1024.size inbW) (fun _ => rfl)).squeeze S2048x1024
            squeezes_S1x2048x1024_S2048x1024).view.writes (Elt F) f0 (⟨Rect.whole S2048x1024, g⟩ :: Lw)))
      = shapeCast S1x2048x1024 (truncf .bf16 g bitsLt_bf16_f32) shapeCasts_S2048x1024_S1x2048x1024 := by
  refine (congrArg k0_pay12 (readAt_writes_cons_whole_squeezeH (Val := Elt F) (Memref.whole cc0_scratch1 : Memref sig .tc _ _ _)
    (Rect.unit (s := S2x2048x1024) ![s, 0, 0] S1x2048x1024.size inbW) (fun _ => rfl) squeezes_S1x2048x1024_S2048x1024
    shapeCasts_S1x2048x1024_S2048x1024 shapeCasts_S2048x1024_S1x2048x1024 f0 g Lw)).trans ?_
  show shapeCast S1x2048x1024 (truncf .bf16 (shapeCast S2048x1024 (shapeCast S1x2048x1024 g
    shapeCasts_S2048x1024_S1x2048x1024) shapeCasts_S1x2048x1024_S2048x1024) bitsLt_bf16_f32) shapeCasts_S2048x1024_S1x2048x1024 = _
  rw [shapeCast_shapeCast]

theorem load_rows512H (V : FVec F S2048x1024 .f32) (s : Nat) (k : Fin 4) (r : Nat) (hr : r = 512 * k.val)
    (inbP : ∀ a, (![s, 0, 0] : Fin 3 → Nat) a + S1x2048x1024.size a ≤ S2x2048x1024.size a)
    (inbB : ∀ a, (![s, r, 0] : Fin 3 → Nat) a + S1x512x1024.size a ≤ S2x2048x1024.size a)
    (L : List (View.Piece (Elt F) S2x2048x1024 .bf16)) :
    shapeCast S512x1024 ((Memref.whole cc0_scratch3 : Memref sig .tc _ _ _).view.readCov
        (⟨Rect.unit (s := S2x2048x1024) ![s, 0, 0] S1x2048x1024.size inbP,
          shapeCast S1x2048x1024 (truncf .bf16 V bitsLt_bf16_f32) shapeCasts_S2048x1024_S1x2048x1024⟩ :: L)
        (Rect.unit (s := S2x2048x1024) ![s, r, 0] S1x512x1024.size inbB).toLoadRect) shapeCasts_S1x512x1024_S512x1024
      = rows512 (truncf .bf16 V bitsLt_bf16_f32) k := by
  have hk := k.isLt
  refine (load_blockH (Val := Elt F) (Memref.whole cc0_scratch3 : Memref sig .tc _ _ _).view s 0 0 r 0 inbP inbB
    (Nat.zero_le _) (by omega) (Nat.le_refl _) (Nat.le_refl _) (truncf .bf16 V bitsLt_bf16_f32)
    shapeCasts_S2048x1024_S1x2048x1024 shapeCasts_S1x512x1024_S512x1024 L).trans ?_
  funext i
  show truncf .bf16 V bitsLt_bf16_f32 _ = truncf .bf16 V bitsLt_bf16_f32 _
  refine congrArg (truncf .bf16 V bitsLt_bf16_f32) (funext fun a => Fin.ext ?_)
  match a with
  | ⟨0, _⟩ => show r - 0 + (i 0).val = 512 * k.val + (i 0).val; omega
  | ⟨1, _⟩ => show 0 - 0 + (i 1).val = (i 1).val; omega

theorem pay25_loadH (s : Nat)
    (inbW : ∀ a, (![s, 0, 0] : Fin 3 → Nat) a + S1x1024x2048.size a ≤ S2x1024x2048.size a)
    (f0 : Vec F S2x1024x2048 .f32) (g : FVec F S1024x2048 .f32) (Lw : List (View.Piece (Elt F) S1024x2048 .f32)) :
    k0_pay25 ((Memref.whole cc0_scratch0 : Memref sig .tc _ _ _).view.readAt (Elt F) (Rect.unit (s := S2x1024x2048) ![s, 0, 0] S1x1024x2048.size inbW).toLoadRect
      ((((Memref.whole cc0_scratch0 : Memref sig .tc _ _ _).slice (Rect.unit (s := S2x1024x2048) ![s, 0, 0] S1x1024x2048.size inbW) (fun _ => rfl)).squeeze S1024x2048
            squeezes_S1x1024x2048_S1024x2048).view.writes (Elt F) f0 (⟨Rect.whole S1024x2048, g⟩ :: Lw)))
      = shapeCast S1x1024x2048 (truncf .bf16 g bitsLt_bf16_f32) shapeCasts_S1024x2048_S1x1024x2048 := by
  refine (congrArg k0_pay25 (readAt_writes_cons_whole_squeezeH (Val := Elt F) (Memref.whole cc0_scratch0 : Memref sig .tc _ _ _)
    (Rect.unit (s := S2x1024x2048) ![s, 0, 0] S1x1024x2048.size inbW) (fun _ => rfl) squeezes_S1x1024x2048_S1024x2048
    shapeCasts_S1x1024x2048_S1024x2048 shapeCasts_S1024x2048_S1x1024x2048 f0 g Lw)).trans ?_
  show shapeCast S1x1024x2048 (truncf .bf16 (shapeCast S1024x2048 (shapeCast S1x1024x2048 g
    shapeCasts_S1024x2048_S1x1024x2048) shapeCasts_S1x1024x2048_S1024x2048) bitsLt_bf16_f32) shapeCasts_S1024x2048_S1x1024x2048 = _
  rw [shapeCast_shapeCast]

theorem load_rows256H (V : FVec F S1024x2048 .f32) (s : Nat) (k : Fin 4) (r : Nat) (hr : r = 256 * k.val)
    (inbP : ∀ a, (![s, 0, 0] : Fin 3 → Nat) a + S1x1024x2048.size a ≤ S2x1024x2048.size a)
    (inbB : ∀ a, (![s, r, 0] : Fin 3 → Nat) a + S1x256x2048.size a ≤ S2x1024x2048.size a)
    (L : List (View.Piece (Elt F) S2x1024x2048 .bf16)) :
    shapeCast S256x2048 ((Memref.whole cc0_scratch2 : Memref sig .tc _ _ _).view.readCov
        (⟨Rect.unit (s := S2x1024x2048) ![s, 0, 0] S1x1024x2048.size inbP,
          shapeCast S1x1024x2048 (truncf .bf16 V bitsLt_bf16_f32) shapeCasts_S1024x2048_S1x1024x2048⟩ :: L)
        (Rect.unit (s := S2x1024x2048) ![s, r, 0] S1x256x2048.size inbB).toLoadRect) shapeCasts_S1x256x2048_S256x2048
      = rows256 (truncf .bf16 V bitsLt_bf16_f32) k := by
  have hk := k.isLt
  refine (load_blockH (Val := Elt F) (Memref.whole cc0_scratch2 : Memref sig .tc _ _ _).view s 0 0 r 0 inbP inbB
    (Nat.zero_le _) (by omega) (Nat.le_refl _) (Nat.le_refl _) (truncf .bf16 V bitsLt_bf16_f32)
    shapeCasts_S1024x2048_S1x1024x2048 shapeCasts_S1x256x2048_S256x2048 L).trans ?_
  funext i
  show truncf .bf16 V bitsLt_bf16_f32 _ = truncf .bf16 V bitsLt_bf16_f32 _
  refine congrArg (truncf .bf16 V bitsLt_bf16_f32) (funext fun a => Fin.ext ?_)
  match a with
  | ⟨0, _⟩ => show r - 0 + (i 0).val = 256 * k.val + (i 0).val; omega
  | ⟨1, _⟩ => show 0 - 0 + (i 1).val = (i 1).val; omega

end SlabWeights

section Exchange

theorem hr_loadH (c : Dev nD) (l : Fin 3) (j : Fin 4) (off : Fin 3 → Nat) (hoff : off = ![l.val, 0, 512 * j.val])
    (inb : ∀ a, off a + S1x64x512.size a ≤ S3x64x2048.size a)
    (f : Buf (Elt F) ((hrM l j).view.loc (c : Thread nD τ))) :
    shapeCast S64x512 ((Memref.whole cc0_scratch5 : Memref sig .tc _ _ _).view.readAt (Elt F)
        (Rect.unit (s := S3x64x2048) off S1x64x512.size inb).toLoadRect f) shapeCasts_S1x64x512_S64x512
      = (hrM l j).view.read (Elt F) f := by
  subst hoff; rfl

theorem gr_loadH (c : Dev nD) (l : Fin 3) (j : Fin 4) (off : Fin 3 → Nat) (hoff : off = ![l.val, 0, 256 * j.val])
    (inb : ∀ a, off a + S1x64x256.size a ≤ S3x64x1024.size a)
    (f : Buf (Elt F) ((grM l j).view.loc (c : Thread nD τ))) :
    shapeCast S64x256 ((Memref.whole cc0_scratch7 : Memref sig .tc _ _ _).view.readAt (Elt F)
        (Rect.unit (s := S3x64x1024) off S1x64x256.size inb).toLoadRect f) shapeCasts_S1x64x256_S64x256
      = (grM l j).view.read (Elt F) f := by
  subst hoff; rfl

theorem gs_read_writeH (c : Dev nD) (l : Fin 3) (j : Fin 4) (off : Fin 3 → Nat) (hoff : off = ![l.val, 0, 256 * j.val])
    (inb : ∀ a, off a + S1x64x256.size a ≤ S3x64x1024.size a)
    (fs : Buf (Elt F) ((gsM l j).view.loc (c : Thread nD τ))) (v : Vec F S1x64x256 .bf16) :
    (gsM l j).view.read (Elt F)
        (((Memref.whole cc0_scratch6 : Memref sig .tc _ _ _).access (Rect.unit (s := S3x64x1024) off S1x64x256.size inb)).write (Elt F) fs v Finset.univ)
      = shapeCast S64x256 v shapeCasts_S1x64x256_S64x256 := by
  subst hoff
  show shapeCast S64x256 (((Memref.whole cc0_scratch6 : Memref sig .tc _ _ _).view.slice
      (Rect.unit (s := S3x64x1024) ![l.val, 0, 256 * j.val] S1x64x256.size inb)).read (Elt F)
        ((((Memref.whole cc0_scratch6 : Memref sig .tc _ _ _).view.slice
      (Rect.unit (s := S3x64x1024) ![l.val, 0, 256 * j.val] S1x64x256.size inb))).write (Elt F) fs v Finset.univ)) shapeCasts_S1x64x256_S64x256 = _
  rw [View.read_write_univ]

-- What landed from the partner, loaded through a chunk's rectangle, is the chunk the partner sent.
theorem hr_valH (m : (ℓ : Loc nD τ sig) → Buf (Elt F) ℓ) (c : Dev nD) (l : Fin 3) (k : Fin 4) (off : Fin 3 → Nat) (hoff : off = ![l.val, 0, 512 * k.val])
    (inb : ∀ a, off a + S1x64x512.size a ≤ S3x64x2048.size a)
    (f : Buf (Elt F) ((hrM l k).view.loc (c : Thread nD τ))) (hf : (hrM l k).view.read (Elt F) f = hLanded m l c k) :
    shapeCast S64x512 ((Memref.whole cc0_scratch5 : Memref sig .tc _ _ _).view.readAt (Elt F)
        (Rect.unit (s := S3x64x2048) off S1x64x512.size inb).toLoadRect f) shapeCasts_S1x64x512_S64x512
      = hLanded m l c k := (hr_loadH c l k off hoff inb f).trans hf

-- A column chunk of a layer's second product plus what landed from the partner is the layer's output chunk.
theorem out_ofH (m : (ℓ : Loc nD τ sig) → Buf (Elt F) ℓ) (l : Fin 3) (c : Dev nD) (k : Fin 4) (y : FVec F S64x256 .f32) (gp : FVec F S64x1024 .f32)
    (hy : y = cut256 gp k) (hgp : gp = gpFull m l (hpL m l) c) (off : Fin 3 → Nat) (hoff : off = ![l.val, 0, 256 * k.val])
    (inb : ∀ a, off a + S1x64x256.size a ≤ S3x64x1024.size a)
    (rg : Buf (Elt F) ((grM l k).view.loc (c : Thread nD τ))) (hrg : (grM l k).view.read (Elt F) rg = gLanded m l c k) :
    addf y (extf .f32 (shapeCast S64x256 ((Memref.whole cc0_scratch7 : Memref sig .tc _ _ _).view.readAt (Elt F)
        (Rect.unit (s := S3x64x1024) off S1x64x256.size inb).toLoadRect rg) shapeCasts_S1x64x256_S64x256) bitsLt_bf16_f32)
      = layerOut m l (hpL m l) c k := by
  subst hy hgp; rw [gr_loadH c l k off hoff inb rg, hrg]; rfl

end Exchange

section SecondHalf
variable (m : (ℓ : Loc nD τ sig) → Buf (Elt F) ℓ)

theorem gp_l0H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0) (hx1 : x1 = hp c 1) (hx2 : x2 = hp c 2) (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay16 x3 (k0_pay15 x2 (k0_pay13 x0 R0 V0) (k0_pay14 x1 R1) V1 R2 V2) R3 V3 = gpFull m l hp c := by
  subst hx0 hx1 hx2 hx3
  unfold gpFull sum4 hid
  beta_reduce
  rw [← hR0, ← hR1, ← hR2, ← hR3, ← hV0, ← hV1, ← hV2, ← hV3]
  rfl

end SecondHalf

section Payloads
variable (m : (ℓ : Loc nD τ sig) → Buf (Elt F) ℓ)

theorem pay17_eqH (x : FVec F S64x512 .f32) (a : FVec F S64x1024 .f32) (R : Vec F S1x64x512 .bf16) (V : Vec F S1x512x1024 .bf16) : k0_pay17 x a R V = cut256 (k0_pay16 x a R V) 0 := rfl
theorem pay19_eqH (X : FVec F S64x1024 .f32) : k0_pay19 X = cut256 X 1 := rfl
theorem pay21_eqH (X : FVec F S64x1024 .f32) : k0_pay21 X = cut256 X 2 := rfl
theorem pay23_eqH (X : FVec F S64x1024 .f32) : k0_pay23 X = cut256 X 3 := rfl
theorem pay42_eqH (x : FVec F S64x512 .f32) (a : FVec F S64x1024 .f32) (R : Vec F S1x64x512 .bf16) (V : Vec F S1x512x1024 .bf16) : k0_pay42 x a R V = cut256 (k0_pay41 x a R V) 0 := rfl
theorem pay44_eqH (X : FVec F S64x1024 .f32) : k0_pay44 X = cut256 X 1 := rfl
theorem pay46_eqH (X : FVec F S64x1024 .f32) : k0_pay46 X = cut256 X 2 := rfl
theorem pay48_eqH (X : FVec F S64x1024 .f32) : k0_pay48 X = cut256 X 3 := rfl
theorem cast256H (X : FVec F S64x256 .f32) :
    shapeCast S64x256 (shapeCast S1x64x256 (truncf .bf16 X bitsLt_bf16_f32) shapeCasts_S64x256_S1x64x256) shapeCasts_S1x64x256_S64x256
      = truncf .bf16 X bitsLt_bf16_f32 := shapeCast_shapeCast _ _ _

theorem cast512H (X : FVec F S64x512 .bf16) :
    shapeCast S64x512 (shapeCast S1x64x512 X shapeCasts_S64x512_S1x64x512) shapeCasts_S1x64x512_S64x512 = X := shapeCast_shapeCast _ _ _

theorem pay18_castH (x : FVec F S64x512 .f32) (a : FVec F S64x1024 .f32) (R : Vec F S1x64x512 .bf16) (V : Vec F S1x512x1024 .bf16) :
    shapeCast S64x256 (k0_pay18 x a R V) shapeCasts_S1x64x256_S64x256 = truncf .bf16 (cut256 (k0_pay16 x a R V) 0) bitsLt_bf16_f32 := cast256H _
theorem pay20_castH (X : FVec F S64x1024 .f32) : shapeCast S64x256 (k0_pay20 X) shapeCasts_S1x64x256_S64x256 = truncf .bf16 (cut256 X 1) bitsLt_bf16_f32 := cast256H _
theorem pay22_castH (X : FVec F S64x1024 .f32) : shapeCast S64x256 (k0_pay22 X) shapeCasts_S1x64x256_S64x256 = truncf .bf16 (cut256 X 2) bitsLt_bf16_f32 := cast256H _
theorem pay24_castH (X : FVec F S64x1024 .f32) : shapeCast S64x256 (k0_pay24 X) shapeCasts_S1x64x256_S64x256 = truncf .bf16 (cut256 X 3) bitsLt_bf16_f32 := cast256H _
theorem pay43_castH (x : FVec F S64x512 .f32) (a : FVec F S64x1024 .f32) (R : Vec F S1x64x512 .bf16) (V : Vec F S1x512x1024 .bf16) :
    shapeCast S64x256 (k0_pay43 x a R V) shapeCasts_S1x64x256_S64x256 = truncf .bf16 (cut256 (k0_pay41 x a R V) 0) bitsLt_bf16_f32 := cast256H _
theorem pay45_castH (X : FVec F S64x1024 .f32) : shapeCast S64x256 (k0_pay45 X) shapeCasts_S1x64x256_S64x256 = truncf .bf16 (cut256 X 1) bitsLt_bf16_f32 := cast256H _
theorem pay47_castH (X : FVec F S64x1024 .f32) : shapeCast S64x256 (k0_pay47 X) shapeCasts_S1x64x256_S64x256 = truncf .bf16 (cut256 X 2) bitsLt_bf16_f32 := cast256H _
theorem pay49_castH (X : FVec F S64x1024 .f32) : shapeCast S64x256 (k0_pay49 X) shapeCasts_S1x64x256_S64x256 = truncf .bf16 (cut256 X 3) bitsLt_bf16_f32 := cast256H _
theorem pay68_castH (x : FVec F S64x512 .f32) (a : FVec F S64x1024 .f32) (R : Vec F S1x64x512 .bf16) (V : Vec F S1x512x1024 .bf16) :
    shapeCast S64x256 (k0_pay68 x a R V) shapeCasts_S1x64x256_S64x256 = truncf .bf16 (cut256 (k0_pay66 x a R V) 0) bitsLt_bf16_f32 := cast256H _
theorem pay70_castH (X : FVec F S64x1024 .f32) : shapeCast S64x256 (k0_pay70 X) shapeCasts_S1x64x256_S64x256 = truncf .bf16 (cut256 X 1) bitsLt_bf16_f32 := cast256H _
theorem pay72_castH (X : FVec F S64x1024 .f32) : shapeCast S64x256 (k0_pay72 X) shapeCasts_S1x64x256_S64x256 = truncf .bf16 (cut256 X 2) bitsLt_bf16_f32 := cast256H _
theorem pay74_castH (X : FVec F S64x1024 .f32) : shapeCast S64x256 (k0_pay74 X) shapeCasts_S1x64x256_S64x256 = truncf .bf16 (cut256 X 3) bitsLt_bf16_f32 := cast256H _

theorem pay30_castH (v : FVec F S64x512 .f32) : shapeCast S64x512 (k0_pay30 v) shapeCasts_S1x64x512_S64x512 = truncf .bf16 v bitsLt_bf16_f32 := cast512H _
theorem pay32_castH (X : FVec F S64x2048 .f32) : shapeCast S64x512 (k0_pay32 X) shapeCasts_S1x64x512_S64x512 = truncf .bf16 (cut512 X 1) bitsLt_bf16_f32 := cast512H _
theorem pay34_castH (X : FVec F S64x2048 .f32) : shapeCast S64x512 (k0_pay34 X) shapeCasts_S1x64x512_S64x512 = truncf .bf16 (cut512 X 2) bitsLt_bf16_f32 := cast512H _
theorem pay36_castH (X : FVec F S64x2048 .f32) : shapeCast S64x512 (k0_pay36 X) shapeCasts_S1x64x512_S64x512 = truncf .bf16 (cut512 X 3) bitsLt_bf16_f32 := cast512H _
theorem pay56_castH (v : FVec F S64x512 .bf16) : shapeCast S64x512 (k0_pay56 v) shapeCasts_S1x64x512_S64x512 = v := cast512H _
theorem pay58_castH (X : FVec F S64x2048 .f32) : shapeCast S64x512 (k0_pay58 X) shapeCasts_S1x64x512_S64x512 = truncf .bf16 (cut512 X 1) bitsLt_bf16_f32 := cast512H _
theorem pay60_castH (X : FVec F S64x2048 .f32) : shapeCast S64x512 (k0_pay60 X) shapeCasts_S1x64x512_S64x512 = truncf .bf16 (cut512 X 2) bitsLt_bf16_f32 := cast512H _
theorem pay62_castH (X : FVec F S64x2048 .f32) : shapeCast S64x512 (k0_pay62 X) shapeCasts_S1x64x512_S64x512 = truncf .bf16 (cut512 X 3) bitsLt_bf16_f32 := cast512H _

theorem hp_laterH (l : Fin 3) (A : Dev nD → Fin 4 → FVec F S64x256 .f32) (c : Dev nD)
    (y0 y1 y2 y3 : FVec F S64x256 .f32) (G0 G1 G2 G3 : Vec F S1x64x256 .bf16) (W0 W1 W2 W3 : Vec F S1x256x2048 .bf16)
    (hA0 : addf y0 (extf .f32 (shapeCast S64x256 G0 shapeCasts_S1x64x256_S64x256) bitsLt_bf16_f32) = A c 0)
    (hA1 : addf y1 (extf .f32 (shapeCast S64x256 G1 shapeCasts_S1x64x256_S64x256) bitsLt_bf16_f32) = A c 1)
    (hA2 : addf y2 (extf .f32 (shapeCast S64x256 G2 shapeCasts_S1x64x256_S64x256) bitsLt_bf16_f32) = A c 2)
    (hA3 : addf y3 (extf .f32 (shapeCast S64x256 G3 shapeCasts_S1x64x256_S64x256) bitsLt_bf16_f32) = A c 3)
    (hW0 : shapeCast S256x2048 W0 shapeCasts_S1x256x2048_S256x2048 = rows256 (winN m l c) 0)
    (hW1 : shapeCast S256x2048 W1 shapeCasts_S1x256x2048_S256x2048 = rows256 (winN m l c) 1)
    (hW2 : shapeCast S256x2048 W2 shapeCasts_S1x256x2048_S256x2048 = rows256 (winN m l c) 2)
    (hW3 : shapeCast S256x2048 W3 shapeCasts_S1x256x2048_S256x2048 = rows256 (winN m l c) 3)
    (j : Fin 4) :
    cut512 (k0_pay28 y2 y3 (k0_pay27 y1 (k0_pay26 y0 G0 W0) G1 W1) G2 W2 G3 W3) j = hpLater m l A c j := by
  unfold hpLater sum4
  beta_reduce
  rw [← hA0, ← hA1, ← hA2, ← hA3, ← hW0, ← hW1, ← hW2, ← hW3]
  rfl

theorem gp_l1H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0)
    (hx1 : x1 = hp c 1)
    (hx2 : x2 = hp c 2)
    (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay41 x3 (k0_pay40 x2 (k0_pay38 x0 R0 V0) (k0_pay39 x1 R1) V1 R2 V2) R3 V3 = gpFull m l hp c := by
  subst hx0 hx1 hx2 hx3
  unfold gpFull sum4 hid
  beta_reduce
  rw [← hR0, ← hR1, ← hR2, ← hR3, ← hV0, ← hV1, ← hV2, ← hV3]
  rfl

theorem gp_l2H (l : Fin 3) (hp : Dev nD → Fin 4 → FVec F S64x512 .f32) (c : Dev nD)
    (x0 x1 x2 x3 : FVec F S64x512 .f32) (R0 R1 R2 R3 : Vec F S1x64x512 .bf16) (V0 V1 V2 V3 : Vec F S1x512x1024 .bf16)
    (hx0 : x0 = hp c 0)
    (hx1 : x1 = hp c 1)
    (hx2 : x2 = hp c 2)
    (hx3 : x3 = hp c 3)
    (hR0 : shapeCast S64x512 R0 shapeCasts_S1x64x512_S64x512 = hSent hp (yp c) 0)
    (hR1 : shapeCast S64x512 R1 shapeCasts_S1x64x512_S64x512 = hSent hp (yp c) 1)
    (hR2 : shapeCast S64x512 R2 shapeCasts_S1x64x512_S64x512 = hSent hp (yp c) 2)
    (hR3 : shapeCast S64x512 R3 shapeCasts_S1x64x512_S64x512 = hSent hp (yp c) 3)
    (hV0 : shapeCast S512x1024 V0 shapeCasts_S1x512x1024_S512x1024 = rows512 (woutN m l c) 0)
    (hV1 : shapeCast S512x1024 V1 shapeCasts_S1x512x1024_S512x1024 = rows512 (woutN m l c) 1)
    (hV2 : shapeCast S512x1024 V2 shapeCasts_S1x512x1024_S512x1024 = rows512 (woutN m l c) 2)
    (hV3 : shapeCast S512x1024 V3 shapeCasts_S1x512x1024_S512x1024 = rows512 (woutN m l c) 3) :
    k0_pay66 x3 (k0_pay65 x2 (k0_pay64 x0 x1 R0 V0 R1 V1) R2 V2) R3 V3 = gpFull m l hp c := by
  subst hx0 hx1 hx2 hx3
  unfold gpFull sum4 hid
  beta_reduce
  rw [← hR0, ← hR1, ← hR2, ← hR3, ← hV0, ← hV1, ← hV2, ← hV3]
  rfl

end Payloads

section LaterSend

-- A send slice written with the narrowed chunk x reads back the chunk that is sent.
theorem hs_sent (c : Dev nD) (l : Fin 3) (j : Fin 4) (off : Fin 3 → Nat) (hoff : off = ![l.val, 0, 512 * j.val])
    (inb : ∀ a, off a + S1x64x512.size a ≤ S3x64x2048.size a)
    (fs : Buf (Elt F) ((hsM l j).view.loc (c : Thread nD τ))) (P : Vec F S1x64x512 .bf16)
    (hp : Dev nD → Fin 4 → FVec F S64x512 .f32) (x : FVec F S64x512 .f32)
    (hP : shapeCast S64x512 P shapeCasts_S1x64x512_S64x512 = truncf .bf16 x bitsLt_bf16_f32) (hx : x = hp c j) :
    (hsM l j).view.read (Elt F)
        (((Memref.whole cc0_scratch4 : Memref sig .tc _ _ _).access (Rect.unit (s := S3x64x2048) off S1x64x512.size inb)).write (Elt F) fs P Finset.univ)
      = hSent hp c j :=
  (hs_read_write c l j off hoff inb fs P).trans (hP.trans (congrArg (fun X => truncf .bf16 X bitsLt_bf16_f32) hx))

-- The same for the second exchange: the slice reads back the narrowed column chunk of the second product.
theorem gs_sent (m : (ℓ : Loc nD τ sig) → Buf (Elt F) ℓ) (c : Dev nD) (l : Fin 3) (j : Fin 4) (off : Fin 3 → Nat) (hoff : off = ![l.val, 0, 256 * j.val])
    (inb : ∀ a, off a + S1x64x256.size a ≤ S3x64x1024.size a)
    (fs : Buf (Elt F) ((gsM l j).view.loc (c : Thread nD τ))) (P : Vec F S1x64x256 .bf16)
    (hp : Dev nD → Fin 4 → FVec F S64x512 .f32) (G : FVec F S64x1024 .f32)
    (hP : shapeCast S64x256 P shapeCasts_S1x64x256_S64x256 = truncf .bf16 (cut256 G j) bitsLt_bf16_f32) (hG : G = gpFull m l hp c) :
    (gsM l j).view.read (Elt F)
        (((Memref.whole cc0_scratch6 : Memref sig .tc _ _ _).access (Rect.unit (s := S3x64x1024) off S1x64x256.size inb)).write (Elt F) fs P Finset.univ)
      = gSent m l hp c j :=
  (gs_read_writeH c l j off hoff inb fs P).trans (hP.trans (congrArg (fun X => truncf .bf16 (cut256 X j) bitsLt_bf16_f32) hG))

end LaterSend

section Layer0X
variable (m : (ℓ : Loc nD τ sig) → Buf (Elt F) ℓ)

theorem xstg_eqH (c : Dev nD) : xstg m c = xA m c := by
  unfold xstg xA
  funext x
  show m ((c : Thread nD τ).loc main_arg0) ((win0_0.rect (0 : Fin 1)).emb x) = m ((c : Thread nD τ).loc main_arg0) x
  refine congrArg (m ((c : Thread nD τ).loc main_arg0)) (funext fun a => Fin.ext ?_)
  refine (Pipeline.Window.rect_emb_val win0_0 _ x a).trans ?_
  match a with
  | ⟨0, _⟩ => show 0 * 64 + (x 0).val = (x 0).val; omega
  | ⟨1, _⟩ => show 0 * 1024 + (x 1).val = (x 1).val; omega

end Layer0X

section Layer0Hp
variable (m : (ℓ : Loc nD τ sig) → Buf (Elt F) ℓ)

theorem hp_val_genH (j : Fin 4) (o b : Nat) (ho : o + 1024 ≤ 2048) (hb : b = 512 * j.val) (hlo : o ≤ b)
    (hhi : b + 512 ≤ o + 1024)
    (inbP : ∀ a, (![0, 0, o] : Fin 3 → Nat) a + S1x1024x1024.size a ≤ S2x1024x2048.size a)
    (inbB : ∀ a, (![0, 0, b] : Fin 3 → Nat) a + S1x1024x512.size a ≤ S2x1024x2048.size a)
    (fx : Vec F S64x1024 .f32) (V : FVec F S1024x2048 .f32)
    (L : List (View.Piece (Elt F) S2x1024x2048 .bf16)) :
    k0_pay3
        (k0_pay1 ((Memref.whole cc0_stg0_0 : Memref sig .tc _ _ _).view.readAt (Elt F) (Rect.unit ![0, 0] S64x1024.size inb_S64x1024_S64x1024_0_0).toLoadRect fx))
        ((Memref.whole cc0_scratch2 : Memref sig .tc _ _ _).view.readCov
          (⟨Rect.unit (s := S2x1024x2048) ![0, 0, o] S1x1024x1024.size inbP, halfN V o ho⟩ :: L)
          (Rect.unit (s := S2x1024x2048) ![0, 0, b] S1x1024x512.size inbB).toLoadRect)
      = matmul dot_S64x1024_S1024x512_S64x512_1_0_0_1_n_n none (truncf .bf16 fx bitsLt_bf16_f32)
          (cols512 (truncf .bf16 V bitsLt_bf16_f32) j) (constant S64x512 .f32 0x00000000#32) := by
  rw [pay3_eq, pay1_stg, load_half V o ho j b hb hlo hhi inbP inbB L]

theorem hp_valx_0H (c : Dev nD) :
    k0_pay3
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 0] S1x1024x512.size inb_S2x1024x2048_S1x1024x512_0_0_0).toLoadRect)
    = hpL m 0 c 0 := by
  have hP := payH_eq (F := F) 0 (by omega) inb_S2x1024x2048_S1x1024x1024_0_0_0 inb_S1024x2048_S1024x1024_0_0 (wbA.view.junk (Val := Elt F)) (m ((c : Thread nD τ).loc main_arg1))
  rw [hP, xstg_eqH]
  exact hp_val_genH 0 0 0 (by omega) rfl (by omega) (by omega) _ _ (xA m c) (m ((c : Thread nD τ).loc main_arg1)) _

theorem hp_valx_1H (c : Dev nD) :
    k0_pay5
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 512] S1x1024x512.size inb_S2x1024x2048_S1x1024x512_0_0_512).toLoadRect)
    = hpL m 0 c 1 := by
  have hP := payH_eq (F := F) 0 (by omega) inb_S2x1024x2048_S1x1024x1024_0_0_0 inb_S1024x2048_S1024x1024_0_0 (wbA.view.junk (Val := Elt F)) (m ((c : Thread nD τ).loc main_arg1))
  rw [hP, xstg_eqH]
  exact hp_val_genH 1 0 512 (by omega) rfl (by omega) (by omega) _ _ (xA m c) (m ((c : Thread nD τ).loc main_arg1)) _

theorem hp_valx_2H (c : Dev nD) :
    k0_pay8
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
             ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 1024] S1x1024x512.size inb_S2x1024x2048_S1x1024x512_0_0_1024).toLoadRect)
    = hpL m 0 c 2 := by
  have hP := payH_eq (F := F) 1024 (by omega) inb_S2x1024x2048_S1x1024x1024_0_0_1024 inb_S1024x2048_S1024x1024_0_1024 (wbB.view.junk (Val := Elt F)) (m ((c : Thread nD τ).loc main_arg1))
  rw [pay7_eq_pay2, hP, xstg_eqH]
  exact hp_val_genH 2 1024 1024 (by omega) rfl (by omega) (by omega) _ _ (xA m c) (m ((c : Thread nD τ).loc main_arg1)) _

theorem hp_valx_3H (c : Dev nD) :
    k0_pay10
        (k0_pay1 (View.readAt (Elt F) (Memref.whole cc0_stg0_0).view (Rect.unit ![0, 0] S64x1024.size inb_S64x1024_S64x1024_0_0).toLoadRect (xstg m c)))
        ((Memref.whole cc0_scratch2).view.readCov
            [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
             ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]
            (Rect.unit (s := S2x1024x2048) ![0, 0, 1536] S1x1024x512.size inb_S2x1024x2048_S1x1024x512_0_0_1536).toLoadRect)
    = hpL m 0 c 3 := by
  have hP := payH_eq (F := F) 1024 (by omega) inb_S2x1024x2048_S1x1024x1024_0_0_1024 inb_S1024x2048_S1024x1024_0_1024 (wbB.view.junk (Val := Elt F)) (m ((c : Thread nD τ).loc main_arg1))
  rw [pay7_eq_pay2, hP, xstg_eqH]
  exact hp_val_genH 3 1024 1536 (by omega) rfl (by omega) (by omega) _ _ (xA m c) (m ((c : Thread nD τ).loc main_arg1)) _

end Layer0Hp

section Pieces
variable (m : (ℓ : Loc nD τ sig) → Buf (Elt F) ℓ) (c : Dev nD)

abbrev sc2L0H : List (View.Piece (Elt F) S2x1024x2048 .bf16) :=
  [⟨Rect.unit ![0, 0, 1024] S1x1024x1024.size inb_S2x1024x2048_S1x1024x1024_0_0_1024,
               k0_pay7 (View.readAt (Elt F) (Memref.whole cc0_scratch0).view (Rect.unit (s := S2x1024x2048) ![0, 0, 1024] S1x1024x1024.size inb_S2x1024x2048_S1x1024x1024_0_0_1024).toLoadRect
                 (wbB.view.writes (Elt F) wbB.view.junk [⟨Rect.whole S1024x1024, ReadAs.same.apply (View.read (Elt F) a1B.view (m ((c : Thread nD τ).loc main_arg1)))⟩]))⟩,
   ⟨Rect.unit ![0, 0, 0] S1x1024x1024.size inb_S2x1024x2048_S1x1024x1024_0_0_0,
               k0_pay2 (View.readAt (Elt F) (Memref.whole cc0_scratch0).view (Rect.unit (s := S2x1024x2048) ![0, 0, 0] S1x1024x1024.size inb_S2x1024x2048_S1x1024x1024_0_0_0).toLoadRect
                 (wbA.view.writes (Elt F) wbA.view.junk [⟨Rect.whole S1024x1024, ReadAs.same.apply (View.read (Elt F) a1A.view (m ((c : Thread nD τ).loc main_arg1)))⟩]))⟩]

abbrev sc3L0H : List (View.Piece (Elt F) S2x2048x1024 .bf16) :=
  [⟨Rect.unit (s := S2x2048x1024) ![0, 0, 0] S1x2048x1024.size inb_S2x2048x1024_S1x2048x1024_0_0_0,
               k0_pay12 (View.readAt (Elt F) (Memref.whole cc0_scratch1).view (Rect.unit (s := S2x2048x1024) ![0, 0, 0] S1x2048x1024.size inb_S2x2048x1024_S1x2048x1024_0_0_0).toLoadRect
                 (vbA.view.writes (Elt F) vbA.view.junk [⟨Rect.whole S2048x1024, ReadAs.same.apply (View.read (Elt F) (Memref.whole main_arg2).view (m ((c : Thread nD τ).loc main_arg2)))⟩]))⟩]

end Pieces

section LaterFacts

-- The first weight of the layer, narrowed, as the newest piece of its array.
abbrev wcP1 (m : (ℓ : Loc nD τ sig) → Buf (Elt F) ℓ) (c : Dev nD) (f0 : Vec F S2x1024x2048 .f32) (Lw : List (View.Piece (Elt F) S1024x2048 .f32)) :
    View.Piece (Elt F) S2x1024x2048 .bf16 :=
  ⟨Rect.unit (s := S2x1024x2048) ![1, 0, 0] S1x1024x2048.size inb_S2x1024x2048_S1x1024x2048_1_0_0,
               k0_pay25 (View.readAt (Elt F) (Memref.whole cc0_scratch0).view (Rect.unit (s := S2x1024x2048) ![1, 0, 0] S1x1024x2048.size inb_S2x1024x2048_S1x1024x2048_1_0_0).toLoadRect
                 (wbC.view.writes (Elt F) f0 (⟨Rect.whole S1024x2048, ReadAs.same.apply (View.read (Elt F) (Memref.whole main_arg3).view (m ((c : Thread nD τ).loc main_arg3)))⟩ :: Lw)))⟩

-- The first partial product of the layer as the body computes it, its last operation K left open.
abbrev hpB1 {β : Type} (K : FVec F S64x256 .f32 → FVec F S64x256 .f32 → FVec F S64x2048 .f32 → Vec F S1x64x256 .bf16 → Vec F S1x256x2048 .bf16 → Vec F S1x64x256 .bf16 → Vec F S1x256x2048 .bf16 → β)
    (m : (ℓ : Loc nD τ sig) → Buf (Elt F) ℓ) (c : Dev nD)
    (x3 : FVec F S64x512 .f32) (a : FVec F S64x1024 .f32) (R3 : Vec F S1x64x512 .bf16) (V3 : Vec F S1x512x1024 .bf16)
    (rg00 : Buf (Elt F) ((grM 0 0).view.loc (c : Thread nD τ))) (rg01 : Buf (Elt F) ((grM 0 1).view.loc (c : Thread nD τ))) (rg02 : Buf (Elt F) ((grM 0 2).view.loc (c : Thread nD τ))) (rg03 : Buf (Elt F) ((grM 0 3).view.loc (c : Thread nD τ)))
    (f0 : Vec F S2x1024x2048 .f32) (L : List (View.Piece (Elt F) S2x1024x2048 .bf16)) (Lw : List (View.Piece (Elt F) S1024x2048 .f32)) : β :=
  K (k0_pay21 (k0_pay16 x3 a R3 V3)) (k0_pay23 (k0_pay16 x3 a R3 V3)) (k0_pay27 (k0_pay19 (k0_pay16 x3 a R3 V3)) (k0_pay26 (k0_pay17 x3 a R3 V3) (View.readAt (Elt F) (Memref.whole cc0_scratch7).view (Rect.unit (s := S3x64x1024) ![0, 0, 0] S1x64x256.size inb_S3x64x1024_S1x64x256_0_0_0).toLoadRect rg00) ((Memref.whole cc0_scratch2).view.readCov (wcP1 m c f0 Lw :: L)
            (Rect.unit (s := S2x1024x2048) ![1, 0, 0] S1x256x2048.size inb_S2x1024x2048_S1x256x2048_1_0_0).toLoadRect)) (View.readAt (Elt F) (Memref.whole cc0_scratch7).view (Rect.unit (s := S3x64x1024) ![0, 0, 256] S1x64x256.size inb_S3x64x1024_S1x64x256_0_0_256).toLoadRect rg01) ((Memref.whole cc0_scratch2).view.readCov (wcP1 m c f0 Lw :: L)
            (Rect.unit (s := S2x1024x2048) ![1, 256, 0] S1x256x2048.size inb_S2x1024x2048_S1x256x2048_1_256_0).toLoadRect)) (View.readAt (Elt F) (Memref.whole cc0_scratch7).view (Rect.unit (s := S3x64x1024) ![0, 0, 512] S1x64x256.size inb_S3x64x1024_S1x64x256_0_0_512).toLoadRect rg02) ((Memref.whole cc0_scratch2).view.readCov (wcP1 m c f0 Lw :: L)
            (Rect.unit (s := S2x1024x2048) ![1, 512, 0] S1x256x2048.size inb_S2x1024x2048_S1x256x2048_1_512_0).toLoadRect) (View.readAt (Elt F) (Memref.whole cc0_scratch7).view (Rect.unit (s := S3x64x1024) ![0, 0, 768] S1x64x256.size inb_S3x64x1024_S1x64x256_0_0_768).toLoadRect rg03) ((Memref.whole cc0_scratch2).view.readCov (wcP1 m c f0 Lw :: L)
            (Rect.unit (s := S2x1024x2048) ![1, 768, 0] S1x256x2048.size inb_S2x1024x2048_S1x256x2048_1_768_0).toLoadRect)

theorem hp_full_1H (c : Dev nD) (m : (ℓ : Loc nD τ sig) → Buf (Elt F) ℓ)
    (x3 : FVec F S64x512 .f32) (a : FVec F S64x1024 .f32) (R3 : Vec F S1x64x512 .bf16) (V3 : Vec F S1x512x1024 .bf16)
    (hgp : k0_pay16 x3 a R3 V3 = gpFull m 0 (hpL m 0) c)
    (rg00 : Buf (Elt F) ((grM 0 0).view.loc (c : Thread nD τ))) (rg01 : Buf (Elt F) ((grM 0 1).view.loc (c : Thread nD τ))) (rg02 : Buf (Elt F) ((grM 0 2).view.loc (c : Thread nD τ))) (rg03 : Buf (Elt F) ((grM 0 3).view.loc (c : Thread nD τ)))
    (hrg00 : (grM 0 0).view.read (Elt F) rg00 = gLanded m 0 c 0)
    (hrg01 : (grM 0 1).view.read (Elt F) rg01 = gLanded m 0 c 1)
    (hrg02 : (grM 0 2).view.read (Elt F) rg02 = gLanded m 0 c 2)
    (hrg03 : (grM 0 3).view.read (Elt F) rg03 = gLanded m 0 c 3)
    (f0 : Vec F S2x1024x2048 .f32) (L : List (View.Piece (Elt F) S2x1024x2048 .bf16)) (Lw : List (View.Piece (Elt F) S1024x2048 .f32)) :
    (∀ j, cut512 (hpB1 k0_pay28 m c x3 a R3 V3 rg00 rg01 rg02 rg03 f0 L Lw) j = hpL m 1 c j)
      ∧ (hpB1 k0_pay29 m c x3 a R3 V3 rg00 rg01 rg02 rg03 f0 L Lw = hpL m 1 c 0 ∧ k0_pay31 (hpB1 k0_pay28 m c x3 a R3 V3 rg00 rg01 rg02 rg03 f0 L Lw) = hpL m 1 c 1
        ∧ k0_pay33 (hpB1 k0_pay28 m c x3 a R3 V3 rg00 rg01 rg02 rg03 f0 L Lw) = hpL m 1 c 2 ∧ k0_pay35 (hpB1 k0_pay28 m c x3 a R3 V3 rg00 rg01 rg02 rg03 f0 L Lw) = hpL m 1 c 3) := by
  have hW : ∀ (k : Fin 4) (r : Nat) (hr : r = 256 * k.val) (inb : ∀ a, (![1, r, 0] : Fin 3 → Nat) a + S1x256x2048.size a ≤ S2x1024x2048.size a),
      shapeCast S256x2048 ((Memref.whole cc0_scratch2).view.readCov (wcP1 m c f0 Lw :: L)
        (Rect.unit (s := S2x1024x2048) ![1, r, 0] S1x256x2048.size inb).toLoadRect) shapeCasts_S1x256x2048_S256x2048 = rows256 (winN m 1 c) k := by
    intro k r hr inb; unfold wcP1; rw [pay25_loadH 1 _ f0 _ Lw]; exact load_rows256H (winA m 1 c) 1 k r hr _ _ L
  have h := hp_laterH m 1 (layerOut m 0 (hpL m 0)) c _ _ _ _ _ _ _ _ _ _ _ _ (out_ofH m 0 c 0 _ _ (pay17_eqH x3 a R3 V3) hgp _ rfl inb_S3x64x1024_S1x64x256_0_0_0 rg00 hrg00) (out_ofH m 0 c 1 _ _ (pay19_eqH _) hgp _ rfl inb_S3x64x1024_S1x64x256_0_0_256 rg01 hrg01) (out_ofH m 0 c 2 _ _ (pay21_eqH _) hgp _ rfl inb_S3x64x1024_S1x64x256_0_0_512 rg02 hrg02) (out_ofH m 0 c 3 _ _ (pay23_eqH _) hgp _ rfl inb_S3x64x1024_S1x64x256_0_0_768 rg03 hrg03) (hW 0 0 rfl inb_S2x1024x2048_S1x256x2048_1_0_0) (hW 1 256 rfl inb_S2x1024x2048_S1x256x2048_1_256_0) (hW 2 512 rfl inb_S2x1024x2048_S1x256x2048_1_512_0) (hW 3 768 rfl inb_S2x1024x2048_S1x256x2048_1_768_0)
  exact ⟨h, h 0, h 1, h 2, h 3⟩

-- The first weight of the layer, narrowed, as the newest piece of its array.
abbrev wcP2 (m : (ℓ : Loc nD τ sig) → Buf (Elt F) ℓ) (c : Dev nD) (f0 : Vec F S2x1024x2048 .f32) (Lw : List (View.Piece (Elt F) S1024x2048 .f32)) :
    View.Piece (Elt F) S2x1024x2048 .bf16 :=
  ⟨Rect.unit (s := S2x1024x2048) ![0, 0, 0] S1x1024x2048.size inb_S2x1024x2048_S1x1024x2048_0_0_0,
               k0_pay50 (View.readAt (Elt F) (Memref.whole cc0_scratch0).view (Rect.unit (s := S2x1024x2048) ![0, 0, 0] S1x1024x2048.size inb_S2x1024x2048_S1x1024x2048_0_0_0).toLoadRect
                 (wb0.view.writes (Elt F) f0 (⟨Rect.whole S1024x2048, ReadAs.same.apply (View.read (Elt F) (Memref.whole main_arg5).view (m ((c : Thread nD τ).loc main_arg5)))⟩ :: Lw)))⟩

-- The first partial product of the layer as the body computes it, its last operation K left open.
abbrev hpB2 {β : Type} (K : FVec F S64x256 .f32 → FVec F S64x256 .f32 → FVec F S64x2048 .f32 → Vec F S1x64x256 .bf16 → Vec F S1x256x2048 .bf16 → Vec F S1x64x256 .bf16 → Vec F S1x256x2048 .bf16 → β)
    (m : (ℓ : Loc nD τ sig) → Buf (Elt F) ℓ) (c : Dev nD)
    (x3 : FVec F S64x512 .f32) (a : FVec F S64x1024 .f32) (R3 : Vec F S1x64x512 .bf16) (V3 : Vec F S1x512x1024 .bf16)
    (rg10 : Buf (Elt F) ((grM 1 0).view.loc (c : Thread nD τ))) (rg11 : Buf (Elt F) ((grM 1 1).view.loc (c : Thread nD τ))) (rg12 : Buf (Elt F) ((grM 1 2).view.loc (c : Thread nD τ))) (rg13 : Buf (Elt F) ((grM 1 3).view.loc (c : Thread nD τ)))
    (f0 : Vec F S2x1024x2048 .f32) (L : List (View.Piece (Elt F) S2x1024x2048 .bf16)) (Lw : List (View.Piece (Elt F) S1024x2048 .f32)) : β :=
  K (k0_pay46 (k0_pay41 x3 a R3 V3)) (k0_pay48 (k0_pay41 x3 a R3 V3)) (k0_pay52 (k0_pay44 (k0_pay41 x3 a R3 V3)) (k0_pay51 (k0_pay42 x3 a R3 V3) (View.readAt (Elt F) (Memref.whole cc0_scratch7).view (Rect.unit (s := S3x64x1024) ![1, 0, 0] S1x64x256.size inb_S3x64x1024_S1x64x256_1_0_0).toLoadRect rg10) ((Memref.whole cc0_scratch2).view.readCov (wcP2 m c f0 Lw :: L)
            (Rect.unit (s := S2x1024x2048) ![0, 0, 0] S1x256x2048.size inb_S2x1024x2048_S1x256x2048_0_0_0).toLoadRect)) (View.readAt (Elt F) (Memref.whole cc0_scratch7).view (Rect.unit (s := S3x64x1024) ![1, 0, 256] S1x64x256.size inb_S3x64x1024_S1x64x256_1_0_256).toLoadRect rg11) ((Memref.whole cc0_scratch2).view.readCov (wcP2 m c f0 Lw :: L)
            (Rect.unit (s := S2x1024x2048) ![0, 256, 0] S1x256x2048.size inb_S2x1024x2048_S1x256x2048_0_256_0).toLoadRect)) (View.readAt (Elt F) (Memref.whole cc0_scratch7).view (Rect.unit (s := S3x64x1024) ![1, 0, 512] S1x64x256.size inb_S3x64x1024_S1x64x256_1_0_512).toLoadRect rg12) ((Memref.whole cc0_scratch2).view.readCov (wcP2 m c f0 Lw :: L)
            (Rect.unit (s := S2x1024x2048) ![0, 512, 0] S1x256x2048.size inb_S2x1024x2048_S1x256x2048_0_512_0).toLoadRect) (View.readAt (Elt F) (Memref.whole cc0_scratch7).view (Rect.unit (s := S3x64x1024) ![1, 0, 768] S1x64x256.size inb_S3x64x1024_S1x64x256_1_0_768).toLoadRect rg13) ((Memref.whole cc0_scratch2).view.readCov (wcP2 m c f0 Lw :: L)
            (Rect.unit (s := S2x1024x2048) ![0, 768, 0] S1x256x2048.size inb_S2x1024x2048_S1x256x2048_0_768_0).toLoadRect)

theorem hp_full_2H (c : Dev nD) (m : (ℓ : Loc nD τ sig) → Buf (Elt F) ℓ)
    (x3 : FVec F S64x512 .f32) (a : FVec F S64x1024 .f32) (R3 : Vec F S1x64x512 .bf16) (V3 : Vec F S1x512x1024 .bf16)
    (hgp : k0_pay41 x3 a R3 V3 = gpFull m 1 (hpL m 1) c)
    (rg10 : Buf (Elt F) ((grM 1 0).view.loc (c : Thread nD τ))) (rg11 : Buf (Elt F) ((grM 1 1).view.loc (c : Thread nD τ))) (rg12 : Buf (Elt F) ((grM 1 2).view.loc (c : Thread nD τ))) (rg13 : Buf (Elt F) ((grM 1 3).view.loc (c : Thread nD τ)))
    (hrg10 : (grM 1 0).view.read (Elt F) rg10 = gLanded m 1 c 0)
    (hrg11 : (grM 1 1).view.read (Elt F) rg11 = gLanded m 1 c 1)
    (hrg12 : (grM 1 2).view.read (Elt F) rg12 = gLanded m 1 c 2)
    (hrg13 : (grM 1 3).view.read (Elt F) rg13 = gLanded m 1 c 3)
    (f0 : Vec F S2x1024x2048 .f32) (L : List (View.Piece (Elt F) S2x1024x2048 .bf16)) (Lw : List (View.Piece (Elt F) S1024x2048 .f32)) :
    (∀ j, cut512 (hpB2 k0_pay53 m c x3 a R3 V3 rg10 rg11 rg12 rg13 f0 L Lw) j = hpL m 2 c j)
      ∧ (hpB2 k0_pay54 m c x3 a R3 V3 rg10 rg11 rg12 rg13 f0 L Lw = hpL m 2 c 0 ∧ k0_pay57 (hpB2 k0_pay53 m c x3 a R3 V3 rg10 rg11 rg12 rg13 f0 L Lw) = hpL m 2 c 1
        ∧ k0_pay59 (hpB2 k0_pay53 m c x3 a R3 V3 rg10 rg11 rg12 rg13 f0 L Lw) = hpL m 2 c 2 ∧ k0_pay61 (hpB2 k0_pay53 m c x3 a R3 V3 rg10 rg11 rg12 rg13 f0 L Lw) = hpL m 2 c 3)
      ∧ hpB2 k0_pay55 m c x3 a R3 V3 rg10 rg11 rg12 rg13 f0 L Lw = hSent (hpL m 2) c 0 := by
  have hW : ∀ (k : Fin 4) (r : Nat) (hr : r = 256 * k.val) (inb : ∀ a, (![0, r, 0] : Fin 3 → Nat) a + S1x256x2048.size a ≤ S2x1024x2048.size a),
      shapeCast S256x2048 ((Memref.whole cc0_scratch2).view.readCov (wcP2 m c f0 Lw :: L)
        (Rect.unit (s := S2x1024x2048) ![0, r, 0] S1x256x2048.size inb).toLoadRect) shapeCasts_S1x256x2048_S256x2048 = rows256 (winN m 2 c) k := by
    intro k r hr inb; unfold wcP2; rw [pay50_eq_pay25H, pay25_loadH 0 _ f0 _ Lw]; exact load_rows256H (winA m 2 c) 0 k r hr _ _ L
  have h := hp_laterH m 2 (layerOut m 1 (hpL m 1)) c _ _ _ _ _ _ _ _ _ _ _ _ (out_ofH m 1 c 0 _ _ (pay42_eqH x3 a R3 V3) hgp _ rfl inb_S3x64x1024_S1x64x256_1_0_0 rg10 hrg10) (out_ofH m 1 c 1 _ _ (pay44_eqH _) hgp _ rfl inb_S3x64x1024_S1x64x256_1_0_256 rg11 hrg11) (out_ofH m 1 c 2 _ _ (pay46_eqH _) hgp _ rfl inb_S3x64x1024_S1x64x256_1_0_512 rg12 hrg12) (out_ofH m 1 c 3 _ _ (pay48_eqH _) hgp _ rfl inb_S3x64x1024_S1x64x256_1_0_768 rg13 hrg13) (hW 0 0 rfl inb_S2x1024x2048_S1x256x2048_0_0_0) (hW 1 256 rfl inb_S2x1024x2048_S1x256x2048_0_256_0) (hW 2 512 rfl inb_S2x1024x2048_S1x256x2048_0_512_0) (hW 3 768 rfl inb_S2x1024x2048_S1x256x2048_0_768_0)
  exact ⟨h, ⟨h 0, h 1, h 2, h 3⟩, congrArg (fun X => truncf .bf16 X bitsLt_bf16_f32) (h 0)⟩

end LaterFacts

section GFacts

-- The second weight of the layer, narrowed, as the newest piece of its array.
abbrev wvP0 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![0, 0, 0] S1x2048x1024.size inb_S2x2048x1024_S1x2048x1024_0_0_0,
               k0_pay12 (View.readAt (Elt F) (Memref.whole cc0_scratch1).view (Rect.unit (s := S2x2048x1024) ![0, 0, 0] S1x2048x1024.size inb_S2x2048x1024_S1x2048x1024_0_0_0).toLoadRect
                 (vbA.view.writes (Elt F) f1 (⟨Rect.whole S2048x1024, ReadAs.same.apply (View.read (Elt F) (Memref.whole main_arg2).view (m ((c : Thread nD τ).loc main_arg2)))⟩ :: Lw)))⟩

theorem gp_full_0H (c : Dev nD) (m : (ℓ : Loc nD τ sig) → Buf (Elt F) ℓ)
    (x0 x1 x2 x3 : FVec F S64x512 .f32)
    (hx : x0 = hpL m 0 c 0 ∧ x1 = hpL m 0 c 1 ∧ x2 = hpL m 0 c 2 ∧ x3 = hpL m 0 c 3)
    (hr00 : Buf (Elt F) ((hrM 0 0).view.loc (c : Thread nD τ))) (hr01 : Buf (Elt F) ((hrM 0 1).view.loc (c : Thread nD τ))) (hr02 : Buf (Elt F) ((hrM 0 2).view.loc (c : Thread nD τ))) (hr03 : Buf (Elt F) ((hrM 0 3).view.loc (c : Thread nD τ)))
    (hhr00 : (hrM 0 0).view.read (Elt F) hr00 = hLanded m 0 c 0)
    (hhr01 : (hrM 0 1).view.read (Elt F) hr01 = hLanded m 0 c 1)
    (hhr02 : (hrM 0 2).view.read (Elt F) hr02 = hLanded m 0 c 2)
    (hhr03 : (hrM 0 3).view.read (Elt F) hr03 = hLanded m 0 c 3)
    (f1 : Vec F S2x2048x1024 .f32) (L : List (View.Piece (Elt F) S2x2048x1024 .bf16)) (Lw : List (View.Piece (Elt F) S2048x1024 .f32)) :
    (k0_pay16 x3 (k0_pay15 x2 (k0_pay13 x0 (View.readAt (Elt F) (Memref.whole cc0_scratch5).view (Rect.unit (s := S3x64x2048) ![0, 0, 0] S1x64x512.size inb_S3x64x2048_S1x64x512_0_0_0).toLoadRect hr00) ((Memref.whole cc0_scratch3).view.readCov (wvP0 m c f1 Lw :: L)
            (Rect.unit (s := S2x2048x1024) ![0, 0, 0] S1x512x1024.size inb_S2x2048x1024_S1x512x1024_0_0_0).toLoadRect)) (k0_pay14 x1 (View.readAt (Elt F) (Memref.whole cc0_scratch5).view (Rect.unit (s := S3x64x2048) ![0, 0, 512] S1x64x512.size inb_S3x64x2048_S1x64x512_0_0_512).toLoadRect hr01)) ((Memref.whole cc0_scratch3).view.readCov (wvP0 m c f1 Lw :: L)
            (Rect.unit (s := S2x2048x1024) ![0, 512, 0] S1x512x1024.size inb_S2x2048x1024_S1x512x1024_0_512_0).toLoadRect) (View.readAt (Elt F) (Memref.whole cc0_scratch5).view (Rect.unit (s := S3x64x2048) ![0, 0, 1024] S1x64x512.size inb_S3x64x2048_S1x64x512_0_0_1024).toLoadRect hr02) ((Memref.whole cc0_scratch3).view.readCov (wvP0 m c f1 Lw :: L)
            (Rect.unit (s := S2x2048x1024) ![0, 1024, 0] S1x512x1024.size inb_S2x2048x1024_S1x512x1024_0_1024_0).toLoadRect)) (View.readAt (Elt F) (Memref.whole cc0_scratch5).view (Rect.unit (s := S3x64x2048) ![0, 0, 1536] S1x64x512.size inb_S3x64x2048_S1x64x512_0_0_1536).toLoadRect hr03) ((Memref.whole cc0_scratch3).view.readCov (wvP0 m c f1 Lw :: L)
            (Rect.unit (s := S2x2048x1024) ![0, 1536, 0] S1x512x1024.size inb_S2x2048x1024_S1x512x1024_0_1536_0).toLoadRect)) = gpFull m 0 (hpL m 0) c := by
  have hV : ∀ (k : Fin 4) (r : Nat) (hr : r = 512 * k.val) (inb : ∀ a, (![0, r, 0] : Fin 3 → Nat) a + S1x512x1024.size a ≤ S2x2048x1024.size a),
      shapeCast S512x1024 ((Memref.whole cc0_scratch3).view.readCov (wvP0 m c f1 Lw :: L)
        (Rect.unit (s := S2x2048x1024) ![0, r, 0] S1x512x1024.size inb).toLoadRect) shapeCasts_S1x512x1024_S512x1024 = rows512 (woutN m 0 c) k := by
    intro k r hr inb; unfold wvP0; rw [pay12_loadH 0 _ f1 _ Lw]; exact load_rows512H (woutA m 0 c) 0 k r hr _ _ L
  exact gp_l0H m 0 (hpL m 0) c x0 x1 x2 x3 _ _ _ _ _ _ _ _ hx.1 hx.2.1 hx.2.2.1 hx.2.2.2 (hr_valH m c 0 0 _ rfl _ hr00 hhr00) (hr_valH m c 0 1 _ rfl _ hr01 hhr01) (hr_valH m c 0 2 _ rfl _ hr02 hhr02) (hr_valH m c 0 3 _ rfl _ hr03 hhr03) (hV 0 0 rfl _) (hV 1 512 rfl _) (hV 2 1024 rfl _) (hV 3 1536 rfl _)

-- The second weight of the layer, narrowed, as the newest piece of its array.
abbrev wvP1 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![1, 0, 0] S1x2048x1024.size inb_S2x2048x1024_S1x2048x1024_1_0_0,
               k0_pay37 (View.readAt (Elt F) (Memref.whole cc0_scratch1).view (Rect.unit (s := S2x2048x1024) ![1, 0, 0] S1x2048x1024.size inb_S2x2048x1024_S1x2048x1024_1_0_0).toLoadRect
                 (vbB.view.writes (Elt F) f1 (⟨Rect.whole S2048x1024, ReadAs.same.apply (View.read (Elt F) (Memref.whole main_arg4).view (m ((c : Thread nD τ).loc main_arg4)))⟩ :: Lw)))⟩

theorem gp_full_1H (c : Dev nD) (m : (ℓ : Loc nD τ sig) → Buf (Elt F) ℓ)
    (x0 x1 x2 x3 : FVec F S64x512 .f32)
    (hx : x0 = hpL m 1 c 0 ∧ x1 = hpL m 1 c 1 ∧ x2 = hpL m 1 c 2 ∧ x3 = hpL m 1 c 3)
    (hr10 : Buf (Elt F) ((hrM 1 0).view.loc (c : Thread nD τ))) (hr11 : Buf (Elt F) ((hrM 1 1).view.loc (c : Thread nD τ))) (hr12 : Buf (Elt F) ((hrM 1 2).view.loc (c : Thread nD τ))) (hr13 : Buf (Elt F) ((hrM 1 3).view.loc (c : Thread nD τ)))
    (hhr10 : (hrM 1 0).view.read (Elt F) hr10 = hLanded m 1 c 0)
    (hhr11 : (hrM 1 1).view.read (Elt F) hr11 = hLanded m 1 c 1)
    (hhr12 : (hrM 1 2).view.read (Elt F) hr12 = hLanded m 1 c 2)
    (hhr13 : (hrM 1 3).view.read (Elt F) hr13 = hLanded m 1 c 3)
    (f1 : Vec F S2x2048x1024 .f32) (L : List (View.Piece (Elt F) S2x2048x1024 .bf16)) (Lw : List (View.Piece (Elt F) S2048x1024 .f32)) :
    (k0_pay41 x3 (k0_pay40 x2 (k0_pay38 x0 (View.readAt (Elt F) (Memref.whole cc0_scratch5).view (Rect.unit (s := S3x64x2048) ![1, 0, 0] S1x64x512.size inb_S3x64x2048_S1x64x512_1_0_0).toLoadRect hr10) ((Memref.whole cc0_scratch3).view.readCov (wvP1 m c f1 Lw :: L)
            (Rect.unit (s := S2x2048x1024) ![1, 0, 0] S1x512x1024.size inb_S2x2048x1024_S1x512x1024_1_0_0).toLoadRect)) (k0_pay39 x1 (View.readAt (Elt F) (Memref.whole cc0_scratch5).view (Rect.unit (s := S3x64x2048) ![1, 0, 512] S1x64x512.size inb_S3x64x2048_S1x64x512_1_0_512).toLoadRect hr11)) ((Memref.whole cc0_scratch3).view.readCov (wvP1 m c f1 Lw :: L)
            (Rect.unit (s := S2x2048x1024) ![1, 512, 0] S1x512x1024.size inb_S2x2048x1024_S1x512x1024_1_512_0).toLoadRect) (View.readAt (Elt F) (Memref.whole cc0_scratch5).view (Rect.unit (s := S3x64x2048) ![1, 0, 1024] S1x64x512.size inb_S3x64x2048_S1x64x512_1_0_1024).toLoadRect hr12) ((Memref.whole cc0_scratch3).view.readCov (wvP1 m c f1 Lw :: L)
            (Rect.unit (s := S2x2048x1024) ![1, 1024, 0] S1x512x1024.size inb_S2x2048x1024_S1x512x1024_1_1024_0).toLoadRect)) (View.readAt (Elt F) (Memref.whole cc0_scratch5).view (Rect.unit (s := S3x64x2048) ![1, 0, 1536] S1x64x512.size inb_S3x64x2048_S1x64x512_1_0_1536).toLoadRect hr13) ((Memref.whole cc0_scratch3).view.readCov (wvP1 m c f1 Lw :: L)
            (Rect.unit (s := S2x2048x1024) ![1, 1536, 0] S1x512x1024.size inb_S2x2048x1024_S1x512x1024_1_1536_0).toLoadRect)) = gpFull m 1 (hpL m 1) c := by
  have hV : ∀ (k : Fin 4) (r : Nat) (hr : r = 512 * k.val) (inb : ∀ a, (![1, r, 0] : Fin 3 → Nat) a + S1x512x1024.size a ≤ S2x2048x1024.size a),
      shapeCast S512x1024 ((Memref.whole cc0_scratch3).view.readCov (wvP1 m c f1 Lw :: L)
        (Rect.unit (s := S2x2048x1024) ![1, r, 0] S1x512x1024.size inb).toLoadRect) shapeCasts_S1x512x1024_S512x1024 = rows512 (woutN m 1 c) k := by
    intro k r hr inb; unfold wvP1; rw [pay37_eq_pay12H, pay12_loadH 1 _ f1 _ Lw]; exact load_rows512H (woutA m 1 c) 1 k r hr _ _ L
  exact gp_l1H m 1 (hpL m 1) c x0 x1 x2 x3 _ _ _ _ _ _ _ _ hx.1 hx.2.1 hx.2.2.1 hx.2.2.2 (hr_valH m c 1 0 _ rfl _ hr10 hhr10) (hr_valH m c 1 1 _ rfl _ hr11 hhr11) (hr_valH m c 1 2 _ rfl _ hr12 hhr12) (hr_valH m c 1 3 _ rfl _ hr13 hhr13) (hV 0 0 rfl _) (hV 1 512 rfl _) (hV 2 1024 rfl _) (hV 3 1536 rfl _)

-- The second weight of the layer, narrowed, as the newest piece of its array.
abbrev wvP2 (m : (ℓ : Loc nD τ sig) → Buf (Elt F) ℓ) (c : Dev nD) (f1 : Vec F S2x2048x1024 .f32) (Lw : List (View.Piece (Elt F) S2048x1024 .f32)) :
    View.Piece (Elt F) S2x2048x1024 .bf16 :=
  ⟨Rect.unit (s := S2x2048x1024) ![0, 0, 0] S1x2048x1024.size inb_S2x2048x1024_S1x2048x1024_0_0_0,
               k0_pay63 (View.readAt (Elt F) (Memref.whole cc0_scratch1).view (Rect.unit (s := S2x2048x1024) ![0, 0, 0] S1x2048x1024.size inb_S2x2048x1024_S1x2048x1024_0_0_0).toLoadRect
                 (vbA.view.writes (Elt F) f1 (⟨Rect.whole S2048x1024, ReadAs.same.apply (View.read (Elt F) (Memref.whole main_arg6).view (m ((c : Thread nD τ).loc main_arg6)))⟩ :: Lw)))⟩

theorem gp_full_2H (c : Dev nD) (m : (ℓ : Loc nD τ sig) → Buf (Elt F) ℓ)
    (x0 x1 x2 x3 : FVec F S64x512 .f32)
    (hx : x0 = hpL m 2 c 0 ∧ x1 = hpL m 2 c 1 ∧ x2 = hpL m 2 c 2 ∧ x3 = hpL m 2 c 3)
    (hr20 : Buf (Elt F) ((hrM 2 0).view.loc (c : Thread nD τ))) (hr21 : Buf (Elt F) ((hrM 2 1).view.loc (c : Thread nD τ))) (hr22 : Buf (Elt F) ((hrM 2 2).view.loc (c : Thread nD τ))) (hr23 : Buf (Elt F) ((hrM 2 3).view.loc (c : Thread nD τ)))
    (hhr20 : (hrM 2 0).view.read (Elt F) hr20 = hLanded m 2 c 0)
    (hhr21 : (hrM 2 1).view.read (Elt F) hr21 = hLanded m 2 c 1)
    (hhr22 : (hrM 2 2).view.read (Elt F) hr22 = hLanded m 2 c 2)
    (hhr23 : (hrM 2 3).view.read (Elt F) hr23 = hLanded m 2 c 3)
    (f1 : Vec F S2x2048x1024 .f32) (L : List (View.Piece (Elt F) S2x2048x1024 .bf16)) (Lw : List (View.Piece (Elt F) S2048x1024 .f32)) :
    (k0_pay66 x3 (k0_pay65 x2 (k0_pay64 x0 x1 (View.readAt (Elt F) (Memref.whole cc0_scratch5).view (Rect.unit (s := S3x64x2048) ![2, 0, 0] S1x64x512.size inb_S3x64x2048_S1x64x512_2_0_0).toLoadRect hr20) ((Memref.whole cc0_scratch3).view.readCov (wvP2 m c f1 Lw :: L)
            (Rect.unit (s := S2x2048x1024) ![0, 0, 0] S1x512x1024.size inb_S2x2048x1024_S1x512x1024_0_0_0).toLoadRect) (View.readAt (Elt F) (Memref.whole cc0_scratch5).view (Rect.unit (s := S3x64x2048) ![2, 0, 512] S1x64x512.size inb_S3x64x2048_S1x64x512_2_0_512).toLoadRect hr21) ((Memref.whole cc0_scratch3).view.readCov (wvP2 m c f1 Lw :: L)
            (Rect.unit (s := S2x2048x1024) ![0, 512, 0] S1x512x1024.size inb_S2x2048x1024_S1x512x1024_0_512_0).toLoadRect)) (View.readAt (Elt F) (Memref.whole cc0_scratch5).view (Rect.unit (s := S3x64x2048) ![2, 0, 1024] S1x64x512.size inb_S3x64x2048_S1x64x512_2_0_1024).toLoadRect hr22) ((Memref.whole cc0_scratch3).view.readCov (wvP2 m c f1 Lw :: L)
            (Rect.unit (s := S2x2048x1024) ![0, 1024, 0] S1x512x1024.size inb_S2x2048x1024_S1x512x1024_0_1024_0).toLoadRect)) (View.readAt (Elt F) (Memref.whole cc0_scratch5).view (Rect.unit (s := S3x64x2048) ![2, 0, 1536] S1x64x512.size inb_S3x64x2048_S1x64x512_2_0_1536).toLoadRect hr23) ((Memref.whole cc0_scratch3).view.readCov (wvP2 m c f1 Lw :: L)
            (Rect.unit (s := S2x2048x1024) ![0, 1536, 0] S1x512x1024.size inb_S2x2048x1024_S1x512x1024_0_1536_0).toLoadRect)) = gpFull m 2 (hpL m 2) c := by
  have hV : ∀ (k : Fin 4) (r : Nat) (hr : r = 512 * k.val) (inb : ∀ a, (![0, r, 0] : Fin 3 → Nat) a + S1x512x1024.size a ≤ S2x2048x1024.size a),
      shapeCast S512x1024 ((Memref.whole cc0_scratch3).view.readCov (wvP2 m c f1 Lw :: L)
        (Rect.unit (s := S2x2048x1024) ![0, r, 0] S1x512x1024.size inb).toLoadRect) shapeCasts_S1x512x1024_S512x1024 = rows512 (woutN m 2 c) k := by
    intro k r hr inb; unfold wvP2; rw [pay63_eq_pay12H, pay12_loadH 0 _ f1 _ Lw]; exact load_rows512H (woutA m 2 c) 0 k r hr _ _ L
  exact gp_l2H m 2 (hpL m 2) c x0 x1 x2 x3 _ _ _ _ _ _ _ _ hx.1 hx.2.1 hx.2.2.1 hx.2.2.2 (hr_valH m c 2 0 _ rfl _ hr20 hhr20) (hr_valH m c 2 1 _ rfl _ hr21 hhr21) (hr_valH m c 2 2 _ rfl _ hr22 hhr22) (hr_valH m c 2 3 _ rfl _ hr23 hhr23) (hV 0 0 rfl _) (hV 1 512 rfl _) (hV 2 1024 rfl _) (hV 3 1536 rfl _)

end GFacts

end Cert.Kernel.Hand

end
-- ==== Proof.RestateGK.lean ====
import proofs.«901003_g7700000000001004_dist_mlpseq_tp2d_cs_cs_b64_d1024_h2048_v7x_xy2x2_bf16_1_alg».proof.Proof.RestateHK

noncomputable section

namespace Cert.Kernel.Hand

namespace G

open Cert.Kernel Cert.Kernel.Gen
open Idealize.ShloMosaic
open Idealize.ShloMosaic.TcCoe
open Idealize.SL.Sem
open Idealize.ShloMosaic.ValueIdx

variable {F : FTy → Type} [FloatOps F]

def hidOf (a : FVec F S64x512 .f32) (r : Vec F S1x64x512 .bf16) : FVec F S64x512 .bf16 :=
  truncf .bf16 (maximumf (addf a (extf .f32 (shapeCast S64x512 r shapeCasts_S1x64x512_S64x512) bitsLt_bf16_f32))
    (broadcast S64x512 (Scalar.ofBits .f32 0x00000000#32))) bitsLt_bf16_f32

def termOf (a : FVec F S64x512 .f32) (r : Vec F S1x64x512 .bf16) (w : Vec F S1x512x1024 .bf16) : FVec F S64x1024 .f32 :=
  matmul dot_S64x512_S512x1024_S64x1024_1_0_0_1_n_n none (hidOf a r) (shapeCast S512x1024 w shapeCasts_S1x512x1024_S512x1024)
    (constant S64x1024 .f32 0x00000000#32)

def gpOf (a0 a1 a2 a3 : FVec F S64x512 .f32) (r0 r1 r2 r3 : Vec F S1x64x512 .bf16) (w0 w1 w2 w3 : Vec F S1x512x1024 .bf16) :
    FVec F S64x1024 .f32 :=
  addf (addf (addf (termOf a0 r0 w0) (termOf a1 r1 w1)) (termOf a2 r2 w2)) (termOf a3 r3 w3)

variable (m : (ℓ : Loc nD τ sig) → Buf (Elt F) ℓ)

def rowN (V : FVec F S2048x1024 .f32) : FVec F S1x2048x1024 .bf16 :=
  fun i => truncf .bf16 V bitsLt_bf16_f32 (ix2 (n0 := 2048) (n1 := 1024) ⟨(i 1).val, (i 1).isLt⟩ ⟨(i 2).val, (i 2).isLt⟩)

theorem gr_load (c : Dev nD) (l : Fin 3) (k : Fin 4) (off : Fin 3 → Nat) (hoff : off = ![l.val, 0, 256 * k.val])
    (inb : ∀ a, off a + S1x64x256.size a ≤ S3x64x1024.size a)
    (f : Buf (Elt F) ((grM l k).view.loc (c : Thread nD τ))) :
    shapeCast S64x256 ((Memref.whole cc0_scratch7 : Memref sig .tc _ _ _).view.readAt (Elt F)
        (Rect.unit (s := S3x64x1024) off S1x64x256.size inb).toLoadRect f) shapeCasts_S1x64x256_S64x256
      = (grM l k).view.read (Elt F) f := by
  subst hoff
  exact (Memref.read_squeeze_slice (Val := Elt F) (Memref.whole cc0_scratch7 : Memref sig .tc _ _ _)
    (Rect.unit (s := S3x64x1024) ![l.val, 0, 256 * k.val] S1x64x256.size inb) (fun _ => rfl) squeezes_S1x64x256_S64x256
    shapeCasts_S1x64x256_S64x256 f).symm

theorem acc_val (c : Dev nD) (j : Fin 4) (G : FVec F S64x1024 .f32) (g : Vec F S1x64x256 .bf16)
    (hG : G = gpFull m 2 (hpL m 2) c) (hg : shapeCast S64x256 g shapeCasts_S1x64x256_S64x256 = gLanded m 2 c j) :
    shapeCast S64x256 (addf (cut256 G j) (extf .f32 (shapeCast S64x256 g shapeCasts_S1x64x256_S64x256) bitsLt_bf16_f32)) shapeCasts_S64x256_S64x256
      = acc2 m c j := by
  subst hG
  rw [shapeCast_self, hg]
  rfl

-- Once the last layer's second product is the specified one, each result chunk is that layer's output chunk.
theorem res_H (c : Dev nD) (x3 : FVec F S64x512 .f32) (a : FVec F S64x1024 .f32) (R3 : Vec F S1x64x512 .bf16) (V3 : Vec F S1x512x1024 .bf16)
    (hgp : k0_pay66 x3 a R3 V3 = gpFull m 2 (hpL m 2) c) :
    (∀ g, shapeCast S64x256 g shapeCasts_S1x64x256_S64x256 = gLanded m 2 c 0 → k0_pay75 (k0_pay67 x3 a R3 V3) g = acc2 m c 0)
      ∧ (∀ g, shapeCast S64x256 g shapeCasts_S1x64x256_S64x256 = gLanded m 2 c 1 → k0_pay76 (k0_pay69 (k0_pay66 x3 a R3 V3)) g = acc2 m c 1)
      ∧ (∀ g, shapeCast S64x256 g shapeCasts_S1x64x256_S64x256 = gLanded m 2 c 2 → k0_pay77 (k0_pay71 (k0_pay66 x3 a R3 V3)) g = acc2 m c 2)
      ∧ (∀ g, shapeCast S64x256 g shapeCasts_S1x64x256_S64x256 = gLanded m 2 c 3 → k0_pay78 (k0_pay73 (k0_pay66 x3 a R3 V3)) g = acc2 m c 3) :=
  ⟨fun g hg => acc_val m c 0 _ g hgp hg, fun g hg => acc_val m c 1 _ g hgp hg,
    fun g hg => acc_val m c 2 _ g hgp hg, fun g hg => acc_val m c 3 _ g hgp hg⟩

theorem ov_read_write (c : Dev nD) (j : Fin 4) (off : Fin 2 → Nat) (hoff : off = ![0, 256 * j.val])
    (inb : ∀ a, off a + S64x256.size a ≤ S64x1024.size a)
    (fs : Buf (Elt F) ((ovM j).view.loc (c : Thread nD τ))) (v : Vec F S64x256 .f32) :
    (ovM j).view.read (Elt F)
        (((Memref.whole cc0_scratch13 : Memref sig .tc _ _ _).access (Rect.unit (s := S64x1024) off S64x256.size inb)).write (Elt F) fs v Finset.univ)
      = v := by
  subst hoff
  show (((Memref.whole cc0_scratch13 : Memref sig .tc _ _ _).view.slice
      (Rect.unit (s := S64x1024) ![0, 256 * j.val] S64x256.size inb)).read (Elt F)
        ((((Memref.whole cc0_scratch13 : Memref sig .tc _ _ _).view.slice
      (Rect.unit (s := S64x1024) ![0, 256 * j.val] S64x256.size inb))).write (Elt F) fs v Finset.univ)) = _
  rw [View.read_write_univ]

theorem out_read_writes (c : Dev nD) (j : Fin 4) (fo : Buf (Elt F) ((outM j).view.loc (c : Thread nD τ))) (X : Vec F S64x256 .f32) :
    (outM j).view.read (Elt F) ((outM j).view.writes (Elt F) fo [⟨Rect.whole S64x256, X⟩]) = X :=
  View.read_writes_whole (Val := Elt F) (outM j).view fo X

theorem gr_val (c : Dev nD) (l : Fin 3) (k : Fin 4) (off : Fin 3 → Nat) (hoff : off = ![l.val, 0, 256 * k.val])
    (inb : ∀ a, off a + S1x64x256.size a ≤ S3x64x1024.size a)
    (f : Buf (Elt F) ((grM l k).view.loc (c : Thread nD τ))) (hf : (grM l k).view.read (Elt F) f = gLanded m l c k) :
    shapeCast S64x256 (View.readAt (Elt F) (Memref.whole cc0_scratch7 : Memref sig .tc _ _ _).view
        (Rect.unit (s := S3x64x1024) off S1x64x256.size inb).toLoadRect f) shapeCasts_S1x64x256_S64x256
      = gLanded m l c k :=
  (gr_load c l k off hoff inb f).trans hf

end G

end Cert.Kernel.Hand

end
-- ==== Proof.BodyK.lean ====
import proofs.«901003_g7700000000001004_dist_mlpseq_tp2d_cs_cs_b64_d1024_h2048_v7x_xy2x2_bf16_1_alg».proof.Proof.StepsWK
import proofs.«901003_g7700000000001004_dist_mlpseq_tp2d_cs_cs_b64_d1024_h2048_v7x_xy2x2_bf16_1_alg».proof.Proof.SlicesK
import proofs.«901003_g7700000000001004_dist_mlpseq_tp2d_cs_cs_b64_d1024_h2048_v7x_xy2x2_bf16_1_alg».proof.Proof.TallyK
import proofs.«901003_g7700000000001004_dist_mlpseq_tp2d_cs_cs_b64_d1024_h2048_v7x_xy2x2_bf16_1_alg».proof.Proof.FinishK
import proofs.«901003_g7700000000001004_dist_mlpseq_tp2d_cs_cs_b64_d1024_h2048_v7x_xy2x2_bf16_1_alg».proof.Proof.RestateHK
import proofs.«901003_g7700000000001004_dist_mlpseq_tp2d_cs_cs_b64_d1024_h2048_v7x_xy2x2_bf16_1_alg».proof.Proof.RestateGK

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem sep12 (Φ : Fin 3 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [(0, 0), (0, 1), (0, 2), (0, 3), (1, 0), (1, 1), (1, 2), (1, 3), (2, 0), (2, 1), (2, 2), (2, 3)] (by decide) (by decide) Φ
omit [FloatOps F] in
theorem sep24 (Φ : Fin 6 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)
        ∗ Φ (3, 0) ∗ Φ (3, 1) ∗ Φ (3, 2) ∗ Φ (3, 3) ∗ Φ (4, 0) ∗ Φ (4, 1) ∗ Φ (4, 2) ∗ Φ (4, 3) ∗ Φ (5, 0) ∗ Φ (5, 1) ∗ Φ (5, 2) ∗ Φ (5, 3)) :=
  bigSep_univ_eq_bigSepL [(0, 0), (0, 1), (0, 2), (0, 3), (1, 0), (1, 1), (1, 2), (1, 3), (2, 0), (2, 1), (2, 2), (2, 3),
    (3, 0), (3, 1), (3, 2), (3, 3), (4, 0), (4, 1), (4, 2), (4, 3), (5, 0), (5, 1), (5, 2), (5, 3)] (by decide) (by decide) Φ

omit [FloatOps F] in
theorem heldS_open (c : Dev nD) {sp : Space} {S : Shape} {e : EltTy} (M : Memref sig .tc sp S e) :
    (heldS (F := F) c M : sProp 𝕄) ⊢ iprop(∃ f : Buf (Elt F) (M.view.loc (c : Thread nD τ)), M.view.loc (c : Thread nD τ) ↦[M.view.set]{fullShare} f) := by
  unfold heldS; exact .rfl
omit [FloatOps F] in
theorem heldS_close (c : Dev nD) {sp : Space} {S : Shape} {e : EltTy} (M : Memref sig .tc sp S e) (f : Buf (Elt F) (M.view.loc (c : Thread nD τ))) :
    (M.view.loc (c : Thread nD τ) ↦[M.view.set]{fullShare} f : sProp 𝕄) ⊢ heldS c M := by
  unfold heldS; iintro H; iexists f; iexact H

omit [FloatOps F] in
theorem heldAt_open' (c : Dev nD) {sp : Space} {S : Shape} {e : EltTy} (M : Memref sig .tc sp S e) (v : S.Idx → Elt F e) :
    (heldAt c M v : sProp 𝕄) ⊢ iprop(∃ f : Buf (Elt F) (M.view.loc (c : Thread nD τ)), (M.view.loc (c : Thread nD τ) ↦[M.view.set]{fullShare} f) ∗ ⌜M.view.read (Elt F) f = v⌝) := by
  unfold heldAt; exact .rfl

omit [FloatOps F] in
theorem rch_G (c : Dev nD) : (bigSep Finset.univ fun ij : Fin 6 × Fin 4 => (reached ER (rcvCell c ij.1 ij.2) 0 : sProp 𝕄))
    ⊢ bigSep Finset.univ fun lj : Fin 3 × Fin 4 => reached ER (rcvCell c (exG lj.1) lj.2) 0 :=
  bigSep_intro_persistent fun lj _ => bigSep_elim (Finset.mem_univ (exG lj.1, lj.2))
omit [FloatOps F] in
theorem rch_H (c : Dev nD) : (bigSep Finset.univ fun ij : Fin 6 × Fin 4 => (reached ER (rcvCell c ij.1 ij.2) 0 : sProp 𝕄))
    ⊢ bigSep Finset.univ fun lj : Fin 3 × Fin 4 => reached ER (rcvCell c (exH lj.1) lj.2) 0 :=
  bigSep_intro_persistent fun lj _ => bigSep_elim (Finset.mem_univ (exH lj.1, lj.2))

omit [FloatOps F] in
theorem sepTS (c : Dev nD) : (bigSep Finset.univ fun ij : Fin 6 × Fin 4 => (dutyTok ER (sndCell c ij.1 ij.2) 0 false : sProp 𝕄))
    = iprop(dutyTok ER (sndCell c (exH 0) 0) 0 false ∗ dutyTok ER (sndCell c (exH 0) 1) 0 false ∗ dutyTok ER (sndCell c (exH 0) 2) 0 false ∗ dutyTok ER (sndCell c (exH 0) 3) 0 false
      ∗ dutyTok ER (sndCell c (exG 0) 0) 0 false ∗ dutyTok ER (sndCell c (exG 0) 1) 0 false ∗ dutyTok ER (sndCell c (exG 0) 2) 0 false ∗ dutyTok ER (sndCell c (exG 0) 3) 0 false
      ∗ dutyTok ER (sndCell c (exH 1) 0) 0 false ∗ dutyTok ER (sndCell c (exH 1) 1) 0 false ∗ dutyTok ER (sndCell c (exH 1) 2) 0 false ∗ dutyTok ER (sndCell c (exH 1) 3) 0 false
      ∗ dutyTok ER (sndCell c (exG 1) 0) 0 false ∗ dutyTok ER (sndCell c (exG 1) 1) 0 false ∗ dutyTok ER (sndCell c (exG 1) 2) 0 false ∗ dutyTok ER (sndCell c (exG 1) 3) 0 false
      ∗ dutyTok ER (sndCell c (exH 2) 0) 0 false ∗ dutyTok ER (sndCell c (exH 2) 1) 0 false ∗ dutyTok ER (sndCell c (exH 2) 2) 0 false ∗ dutyTok ER (sndCell c (exH 2) 3) 0 false
      ∗ dutyTok ER (sndCell c (exG 2) 0) 0 false ∗ dutyTok ER (sndCell c (exG 2) 1) 0 false ∗ dutyTok ER (sndCell c (exG 2) 2) 0 false ∗ dutyTok ER (sndCell c (exG 2) 3) 0 false) :=
  (sep24 _).trans rfl

omit [FloatOps F] in
theorem sepTR (c : Dev nD) : (bigSep Finset.univ fun ij : Fin 6 × Fin 4 => (dutyTok ER (rcvCell (peer ij.1 c) ij.1 ij.2) 0 false : sProp 𝕄))
    = iprop(dutyTok ER (rcvCell (yp c) (exH 0) 0) 0 false ∗ dutyTok ER (rcvCell (yp c) (exH 0) 1) 0 false ∗ dutyTok ER (rcvCell (yp c) (exH 0) 2) 0 false ∗ dutyTok ER (rcvCell (yp c) (exH 0) 3) 0 false
      ∗ dutyTok ER (rcvCell (xp c) (exG 0) 0) 0 false ∗ dutyTok ER (rcvCell (xp c) (exG 0) 1) 0 false ∗ dutyTok ER (rcvCell (xp c) (exG 0) 2) 0 false ∗ dutyTok ER (rcvCell (xp c) (exG 0) 3) 0 false
      ∗ dutyTok ER (rcvCell (yp c) (exH 1) 0) 0 false ∗ dutyTok ER (rcvCell (yp c) (exH 1) 1) 0 false ∗ dutyTok ER (rcvCell (yp c) (exH 1) 2) 0 false ∗ dutyTok ER (rcvCell (yp c) (exH 1) 3) 0 false
      ∗ dutyTok ER (rcvCell (xp c) (exG 1) 0) 0 false ∗ dutyTok ER (rcvCell (xp c) (exG 1) 1) 0 false ∗ dutyTok ER (rcvCell (xp c) (exG 1) 2) 0 false ∗ dutyTok ER (rcvCell (xp c) (exG 1) 3) 0 false
      ∗ dutyTok ER (rcvCell (yp c) (exH 2) 0) 0 false ∗ dutyTok ER (rcvCell (yp c) (exH 2) 1) 0 false ∗ dutyTok ER (rcvCell (yp c) (exH 2) 2) 0 false ∗ dutyTok ER (rcvCell (yp c) (exH 2) 3) 0 false
      ∗ dutyTok ER (rcvCell (xp c) (exG 2) 0) 0 false ∗ dutyTok ER (rcvCell (xp c) (exG 2) 1) 0 false ∗ dutyTok ER (rcvCell (xp c) (exG 2) 2) 0 false ∗ dutyTok ER (rcvCell (xp c) (exG 2) 3) 0 false) :=
  (sep24 _).trans rfl

omit [FloatOps F] in
theorem sepCR (c : Dev nD) : (bigSep Finset.univ fun ij : Fin 6 × Fin 4 => (cred (tallyAt (rcvCell c ij.1 ij.2) () (amt ij.1)) : sProp 𝕄))
    = iprop(cred (tallyAt (rcvCell c (exH 0) 0) () Nh) ∗ cred (tallyAt (rcvCell c (exH 0) 1) () Nh) ∗ cred (tallyAt (rcvCell c (exH 0) 2) () Nh) ∗ cred (tallyAt (rcvCell c (exH 0) 3) () Nh)
      ∗ cred (tallyAt (rcvCell c (exG 0) 0) () Ng) ∗ cred (tallyAt (rcvCell c (exG 0) 1) () Ng) ∗ cred (tallyAt (rcvCell c (exG 0) 2) () Ng) ∗ cred (tallyAt (rcvCell c (exG 0) 3) () Ng)
      ∗ cred (tallyAt (rcvCell c (exH 1) 0) () Nh) ∗ cred (tallyAt (rcvCell c (exH 1) 1) () Nh) ∗ cred (tallyAt (rcvCell c (exH 1) 2) () Nh) ∗ cred (tallyAt (rcvCell c (exH 1) 3) () Nh)
      ∗ cred (tallyAt (rcvCell c (exG 1) 0) () Ng) ∗ cred (tallyAt (rcvCell c (exG 1) 1) () Ng) ∗ cred (tallyAt (rcvCell c (exG 1) 2) () Ng) ∗ cred (tallyAt (rcvCell c (exG 1) 3) () Ng)
      ∗ cred (tallyAt (rcvCell c (exH 2) 0) () Nh) ∗ cred (tallyAt (rcvCell c (exH 2) 1) () Nh) ∗ cred (tallyAt (rcvCell c (exH 2) 2) () Nh) ∗ cred (tallyAt (rcvCell c (exH 2) 3) () Nh)
      ∗ cred (tallyAt (rcvCell c (exG 2) 0) () Ng) ∗ cred (tallyAt (rcvCell c (exG 2) 1) () Ng) ∗ cred (tallyAt (rcvCell c (exG 2) 2) () Ng) ∗ cred (tallyAt (rcvCell c (exG 2) 3) () Ng)) :=
  (sep24 _).trans rfl

omit [FloatOps F] in
theorem sepPS (c : Dev nD) : (bigSep Finset.univ fun ij : Fin 6 × Fin 4 => (atPos ER (kcell (c, some (false, ij))) 0 ∅ 0 : sProp 𝕄))
    = iprop(atPos ER (sndCell c (exH 0) 0) 0 ∅ 0 ∗ atPos ER (sndCell c (exH 0) 1) 0 ∅ 0 ∗ atPos ER (sndCell c (exH 0) 2) 0 ∅ 0 ∗ atPos ER (sndCell c (exH 0) 3) 0 ∅ 0
      ∗ atPos ER (sndCell c (exG 0) 0) 0 ∅ 0 ∗ atPos ER (sndCell c (exG 0) 1) 0 ∅ 0 ∗ atPos ER (sndCell c (exG 0) 2) 0 ∅ 0 ∗ atPos ER (sndCell c (exG 0) 3) 0 ∅ 0
      ∗ atPos ER (sndCell c (exH 1) 0) 0 ∅ 0 ∗ atPos ER (sndCell c (exH 1) 1) 0 ∅ 0 ∗ atPos ER (sndCell c (exH 1) 2) 0 ∅ 0 ∗ atPos ER (sndCell c (exH 1) 3) 0 ∅ 0
      ∗ atPos ER (sndCell c (exG 1) 0) 0 ∅ 0 ∗ atPos ER (sndCell c (exG 1) 1) 0 ∅ 0 ∗ atPos ER (sndCell c (exG 1) 2) 0 ∅ 0 ∗ atPos ER (sndCell c (exG 1) 3) 0 ∅ 0
      ∗ atPos ER (sndCell c (exH 2) 0) 0 ∅ 0 ∗ atPos ER (sndCell c (exH 2) 1) 0 ∅ 0 ∗ atPos ER (sndCell c (exH 2) 2) 0 ∅ 0 ∗ atPos ER (sndCell c (exH 2) 3) 0 ∅ 0
      ∗ atPos ER (sndCell c (exG 2) 0) 0 ∅ 0 ∗ atPos ER (sndCell c (exG 2) 1) 0 ∅ 0 ∗ atPos ER (sndCell c (exG 2) 2) 0 ∅ 0 ∗ atPos ER (sndCell c (exG 2) 3) 0 ∅ 0) :=
  (sep24 _).trans rfl

omit [FloatOps F] in
theorem sepPR (c : Dev nD) : (bigSep Finset.univ fun ij : Fin 6 × Fin 4 => (atPos ER (kcell (c, some (true, ij))) 0 ∅ 0 : sProp 𝕄))
    = iprop(atPos ER (rcvCell c (exH 0) 0) 0 ∅ 0 ∗ atPos ER (rcvCell c (exH 0) 1) 0 ∅ 0 ∗ atPos ER (rcvCell c (exH 0) 2) 0 ∅ 0 ∗ atPos ER (rcvCell c (exH 0) 3) 0 ∅ 0
      ∗ atPos ER (rcvCell c (exG 0) 0) 0 ∅ 0 ∗ atPos ER (rcvCell c (exG 0) 1) 0 ∅ 0 ∗ atPos ER (rcvCell c (exG 0) 2) 0 ∅ 0 ∗ atPos ER (rcvCell c (exG 0) 3) 0 ∅ 0
      ∗ atPos ER (rcvCell c (exH 1) 0) 0 ∅ 0 ∗ atPos ER (rcvCell c (exH 1) 1) 0 ∅ 0 ∗ atPos ER (rcvCell c (exH 1) 2) 0 ∅ 0 ∗ atPos ER (rcvCell c (exH 1) 3) 0 ∅ 0
      ∗ atPos ER (rcvCell c (exG 1) 0) 0 ∅ 0 ∗ atPos ER (rcvCell c (exG 1) 1) 0 ∅ 0 ∗ atPos ER (rcvCell c (exG 1) 2) 0 ∅ 0 ∗ atPos ER (rcvCell c (exG 1) 3) 0 ∅ 0
      ∗ atPos ER (rcvCell c (exH 2) 0) 0 ∅ 0 ∗ atPos ER (rcvCell c (exH 2) 1) 0 ∅ 0 ∗ atPos ER (rcvCell c (exH 2) 2) 0 ∅ 0 ∗ atPos ER (rcvCell c (exH 2) 3) 0 ∅ 0
      ∗ atPos ER (rcvCell c (exG 2) 0) 0 ∅ 0 ∗ atPos ER (rcvCell c (exG 2) 1) 0 ∅ 0 ∗ atPos ER (rcvCell c (exG 2) 2) 0 ∅ 0 ∗ atPos ER (rcvCell c (exG 2) 3) 0 ∅ 0) :=
  (sep24 _).trans rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Kix → ℕ) (c : Dev nD) : sProp 𝕄 :=
  iprop((ghost m K c ∗ creds c ∗ levAts L lv ∗ localSems c ∗ argsAt m c ∗ (∃ f, ptw c main_v1 f) ∗ scratchAny c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

abbrev theBody : Prog (TpuEff nD τ sig (Elt F) Λ₀ .tc) PUnit :=
  cc0_body (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Memref.whole cc0_scratch13) (Memref.isWhole_whole _) cc0_scratch14

theorem fetch_0 (t : Fin cfg0.N) : (cfg0.win (0 : Fin 1)).fetch t = true := by rw [fin_N t]; rfl

set_option maxHeartbeats 16000000 in
set_option maxRecDepth 65536 in

theorem sound_body (K : Dev nD × Kix → ℕ) (c : Dev nD) (Kt : PUnit → sProp 𝕄) :
    iprop(bodyPre m K c ∗ (bodyPost m c -∗ Kt ⟨⟩))
      ⊢ wp frame (wpE (defs₀ (F := F)) 𝒱₀ c none) Set.univ (theBody (F := F)) Kt := by
  unfold bodyPre ghost invs reacheds payToks positions creds localSems argsAt scratchAny
  iintro ⟨⟨⟨⟨⟨#HIown, #HIbx, #HIby, #HIpeer⟩, ⟨#HrBx, #HrBy, #HrPeer, #HrSnd, #HrRcv⟩, Hpos, ⟨HtBx, HtBy, HtRp, HtSn⟩⟩, ⟨HcB, Hcr⟩, #Hlev,
      ⟨S100, S101, S110, S111, S120, S121, S140, S141, S142, S143⟩, ⟨H1, H2, H3, H4, H5, H6⟩, Ho, ⟨G0, G1, ⟨%g2, G2⟩, ⟨%g3, G3⟩, G4, G5, G6, G7, G13⟩⟩,
      HOw, ⟨%d0, %gx, %hgx, Hx⟩⟩, Hk⟩
  have hx : gx = xstg m c := by rw [hgx]; unfold Dat.before; rw [if_pos (fetch_0 t₀)]; rfl
  subst hx
  unfold Dat.owesAt Pipeline.owesWithin
  icases HOw with ⟨%W, %hW, HO⟩
  rw [show (dats m 0 c).owed t₀.castSucc = O₀ c from rfl, O₀_eq]

  ihave G0s := (sc0_split c) $$ G0
  icases G0s with ⟨G0a, G0b, G0c⟩
  ihave G0a := (heldS_open c wbA) $$ G0a
  icases G0a with ⟨%ga, G0a⟩
  ihave G0b := (heldS_open c wbB) $$ G0b
  icases G0b with ⟨%gb, G0b⟩
  ihave G0c := (heldS_open c wbC) $$ G0c
  icases G0c with ⟨%gc, G0c⟩
  ihave G1s := (sc1_split c) $$ G1
  icases G1s with ⟨G1a, G1b⟩
  ihave G1a := (heldS_open c vbA) $$ G1a
  icases G1a with ⟨%va, G1a⟩
  ihave G1b := (heldS_open c vbB) $$ G1b
  icases G1b with ⟨%vb, G1b⟩
  ihave H1s := (arg1_split c _) $$ H1
  icases H1s with ⟨H1a, H1b⟩
  ihave G4s := (hs_split c) $$ G4
  ihave G4s := (Entails.of_eq (sep12 fun lj : Fin 3 × Fin 4 => (heldS c (hsM lj.1 lj.2) : sProp 𝕄))) $$ G4s
  icases G4s with ⟨HS00, HS01, HS02, HS03, HS10, HS11, HS12, HS13, HS20, HS21, HS22, HS23⟩
  ihave HS00 := (heldS_open c (hsM 0 0)) $$ HS00
  icases HS00 with ⟨%fs00, HS00⟩
  ihave HS01 := (heldS_open c (hsM 0 1)) $$ HS01
  icases HS01 with ⟨%fs01, HS01⟩
  ihave HS02 := (heldS_open c (hsM 0 2)) $$ HS02
  icases HS02 with ⟨%fs02, HS02⟩
  ihave HS03 := (heldS_open c (hsM 0 3)) $$ HS03
  icases HS03 with ⟨%fs03, HS03⟩
  ihave HS10 := (heldS_open c (hsM 1 0)) $$ HS10
  icases HS10 with ⟨%fs10, HS10⟩
  ihave HS11 := (heldS_open c (hsM 1 1)) $$ HS11
  icases HS11 with ⟨%fs11, HS11⟩
  ihave HS12 := (heldS_open c (hsM 1 2)) $$ HS12
  icases HS12 with ⟨%fs12, HS12⟩
  ihave HS13 := (heldS_open c (hsM 1 3)) $$ HS13
  icases HS13 with ⟨%fs13, HS13⟩
  ihave HS20 := (heldS_open c (hsM 2 0)) $$ HS20
  icases HS20 with ⟨%fs20, HS20⟩
  ihave HS21 := (heldS_open c (hsM 2 1)) $$ HS21
  icases HS21 with ⟨%fs21, HS21⟩
  ihave HS22 := (heldS_open c (hsM 2 2)) $$ HS22
  icases HS22 with ⟨%fs22, HS22⟩
  ihave HS23 := (heldS_open c (hsM 2 3)) $$ HS23
  icases HS23 with ⟨%fs23, HS23⟩
  ihave G6s := (gs_split c) $$ G6
  ihave G6s := (Entails.of_eq (sep12 fun lj : Fin 3 × Fin 4 => (heldS c (gsM lj.1 lj.2) : sProp 𝕄))) $$ G6s
  icases G6s with ⟨GS00, GS01, GS02, GS03, GS10, GS11, GS12, GS13, GS20, GS21, GS22, GS23⟩
  ihave GS00 := (heldS_open c (gsM 0 0)) $$ GS00
  icases GS00 with ⟨%gs00, GS00⟩
  ihave GS01 := (heldS_open c (gsM 0 1)) $$ GS01
  icases GS01 with ⟨%gs01, GS01⟩
  ihave GS02 := (heldS_open c (gsM 0 2)) $$ GS02
  icases GS02 with ⟨%gs02, GS02⟩
  ihave GS03 := (heldS_open c (gsM 0 3)) $$ GS03
  icases GS03 with ⟨%gs03, GS03⟩
  ihave GS10 := (heldS_open c (gsM 1 0)) $$ GS10
  icases GS10 with ⟨%gs10, GS10⟩
  ihave GS11 := (heldS_open c (gsM 1 1)) $$ GS11
  icases GS11 with ⟨%gs11, GS11⟩
  ihave GS12 := (heldS_open c (gsM 1 2)) $$ GS12
  icases GS12 with ⟨%gs12, GS12⟩
  ihave GS13 := (heldS_open c (gsM 1 3)) $$ GS13
  icases GS13 with ⟨%gs13, GS13⟩
  ihave GS20 := (heldS_open c (gsM 2 0)) $$ GS20
  icases GS20 with ⟨%gs20, GS20⟩
  ihave GS21 := (heldS_open c (gsM 2 1)) $$ GS21
  icases GS21 with ⟨%gs21, GS21⟩
  ihave GS22 := (heldS_open c (gsM 2 2)) $$ GS22
  icases GS22 with ⟨%gs22, GS22⟩
  ihave GS23 := (heldS_open c (gsM 2 3)) $$ GS23
  icases GS23 with ⟨%gs23, GS23⟩
  ihave G13s := (ov_split c) $$ G13
  ihave G13s := (Entails.of_eq (sep4 fun j : Fin 4 => (heldS c (ovM j) : sProp 𝕄))) $$ G13s
  icases G13s with ⟨OV0, OV1, OV2, OV3⟩
  ihave OV0 := (heldS_open c (ovM 0)) $$ OV0
  icases OV0 with ⟨%ov0, OV0⟩
  ihave OV1 := (heldS_open c (ovM 1)) $$ OV1
  icases OV1 with ⟨%ov1, OV1⟩
  ihave OV2 := (heldS_open c (ovM 2)) $$ OV2
  icases OV2 with ⟨%ov2, OV2⟩
  ihave OV3 := (heldS_open c (ovM 3)) $$ OV3
  icases OV3 with ⟨%ov3, OV3⟩
  ihave Hos := (out_split c) $$ Ho
  ihave Hos := (Entails.of_eq (sep4 fun j : Fin 4 => (heldS c (outM j) : sProp 𝕄))) $$ Hos
  icases Hos with ⟨OU0, OU1, OU2, OU3⟩
  ihave OU0 := (heldS_open c (outM 0)) $$ OU0
  icases OU0 with ⟨%ou0, OU0⟩
  ihave OU1 := (heldS_open c (outM 1)) $$ OU1
  icases OU1 with ⟨%ou1, OU1⟩
  ihave OU2 := (heldS_open c (outM 2)) $$ OU2
  icases OU2 with ⟨%ou2, OU2⟩
  ihave OU3 := (heldS_open c (outM 3)) $$ OU3
  icases OU3 with ⟨%ou3, OU3⟩
  ihave G5 := (hr_split c) $$ G5
  ihave G7 := (gr_split c) $$ G7
  ihave Htsn := (Entails.of_eq (sepTS c)) $$ HtSn
  icases Htsn with ⟨TS00, TS01, TS02, TS03, TS10, TS11, TS12, TS13, TS20, TS21, TS22, TS23, TS30, TS31, TS32, TS33, TS40, TS41, TS42, TS43, TS50, TS51, TS52, TS53⟩
  ihave Htrp := (Entails.of_eq (sepTR c)) $$ HtRp
  icases Htrp with ⟨TR00, TR01, TR02, TR03, TR10, TR11, TR12, TR13, TR20, TR21, TR22, TR23, TR30, TR31, TR32, TR33, TR40, TR41, TR42, TR43, TR50, TR51, TR52, TR53⟩
  ihave Hcrs := (Entails.of_eq (sepCR c)) $$ Hcr
  icases Hcrs with ⟨CR00, CR01, CR02, CR03, CR10, CR11, CR12, CR13, CR20, CR21, CR22, CR23, CR30, CR31, CR32, CR33, CR40, CR41, CR42, CR43, CR50, CR51, CR52, CR53⟩
  ihave Hp := (Entails.of_eq (bigSep_kix fun k : Kix => (atPos ER (kcell (c, k)) 0 ∅ 0 : sProp 𝕄))) $$ Hpos
  icases Hp with ⟨HatB, Hps, Hpr⟩
  ihave Hps := (Entails.of_eq (sepPS c)) $$ Hps
  icases Hps with ⟨PS00, PS01, PS02, PS03, PS10, PS11, PS12, PS13, PS20, PS21, PS22, PS23, PS30, PS31, PS32, PS33, PS40, PS41, PS42, PS43, PS50, PS51, PS52, PS53⟩
  ihave Hpr := (Entails.of_eq (sepPR c)) $$ Hpr
  icases Hpr with ⟨PR00, PR01, PR02, PR03, PR10, PR11, PR12, PR13, PR20, PR21, PR22, PR23, PR30, PR31, PR32, PR33, PR40, PR41, PR42, PR43, PR50, PR51, PR52, PR53⟩

  have hMW := fun (sm : SemLoc sig) (O' : CellTallies nD τ sig Unit) (h : Above (lvOf sm) O') => mayWait_at (F := F) c sm O' h

  ihave Hx := (Entails.of_eq (ptw_eq c cc0_stg0_0 (xstg m c)).symm) $$ Hx
  sl_exec_parts! (disch := rm_tac)

  iapply (Rounds.wp_signal 𝒱₀ ER (rd m) (c : Thread nD τ) none (dst := (xp c : Thread nD τ)) (κ := K (xp c, none))
      (d := false) (by rw [duties_bar]; exact Finset.mem_univ _) ((amount_bar m (xp c) false).trans (by decide)) () (Rm c 24 + tallyAt (barCell (yp c)) () 1) rfl)
    $$ [HO HtBx G7]
  · isplitr; · iexact HIbx
    isplitl [HO]; · iexact HO
    isplitl [HtBx]; · iexact HtBx
    isplitl [G7]
    · rw [payload_bar]; unfold barPay; rw [if_neg (by decide), xp_xp]
      isplitl [G7]; · iexact G7
      iapply (rch_G c); iexact HrRcv
    · iexact HrBx
  iintro HO
  sl_exec (disch := rm_tac)

  iapply (Rounds.wp_signal 𝒱₀ ER (rd m) (c : Thread nD τ) none (dst := (yp c : Thread nD τ)) (κ := K (yp c, none))
      (d := true) (by rw [duties_bar]; exact Finset.mem_univ _) ((amount_bar m (yp c) true).trans (by decide)) () (Rm c 24) rfl)
    $$ [HO HtBy G5]
  · isplitr; · iexact HIby
    isplitl [HO]; · iexact HO
    isplitl [HtBy]; · iexact HtBy
    isplitl [G5]
    · rw [payload_bar]; unfold barPay; rw [if_pos rfl, yp_yp]
      isplitl [G5]; · iexact G5
      iapply (rch_H c); iexact HrRcv
    · iexact HrBy
  iintro HO
  sl_exec (disch := rm_tac)

  iapply (Rounds.wp_wait_rest_token 𝒱₀ ER (rd m) (c : Thread nD τ) none (κ := K (c, none))
      (wpE_semWait_eq 𝒱₀ (c : Thread nD τ) none Set.univ) (Set.mem_univ _) () (O := Rm c 24) (W := W) (R := 0) (m := 0) (T := ∅)
      (by rw [expect_bar]; decide)) $$ [HcB HO HatB]
  · isplitr; · iapply (inv_own m K c none); iexact HIown
    isplitl [HcB]; · iexact HcB
    isplitl [HO]; · iexact HO
    isplitr; · iapply (mayWait_at c (.reg barS) (Rm c 24) (by rm_tac)); iexact Hlev
    iexact HatB
  iintro ⟨HO, HatB, -, Hpay⟩
  ihave Hp := (Entails.of_eq (rest_bar m c)) $$ Hpay
  unfold barPay
  rw [if_neg (by decide), if_pos rfl]
  icases Hp with ⟨⟨HgrX, #HrRX⟩, ⟨HhrY, #HrRY⟩⟩

  ihave Hy := (Entails.of_eq (sep12 fun lj : Fin 3 × Fin 4 => (heldS (yp c) (hrM lj.1 lj.2) : sProp 𝕄))) $$ HhrY
  icases Hy with ⟨YR00, YR01, YR02, YR03, YR10, YR11, YR12, YR13, YR20, YR21, YR22, YR23⟩
  ihave Hxx := (Entails.of_eq (sep12 fun lj : Fin 3 × Fin 4 => (heldS (xp c) (grM lj.1 lj.2) : sProp 𝕄))) $$ HgrX
  icases Hxx with ⟨XR00, XR01, XR02, XR03, XR10, XR11, XR12, XR13, XR20, XR21, XR22, XR23⟩

  sl_exec (disch := rm_tac)
  ihave YR00 := (heldS_open (yp c) (hrM 0 0)) $$ YR00
  icases YR00 with ⟨%fr00, YR00⟩
  rw [show Rm c 24 = Rm c 23 + tallyAt (rcvCell (yp c) (exH 0) 0) () Nh from congrArg (Rm c 23 + ·) (tly_H c 0 0)]
  iapply (wp_send_Hw m K c _ (dev3_eq c) 0 0 _ fr00 (by exact hs_sent c 0 0 _ rfl _ fs00 _ (hpL m 0) _ (pay4_cast _ _) (hp_valx_0H m c)) (Rm c 23) _) $$ HIown HIpeer HrSnd HrRY HS00 YR00 HO TS00 TR00
  iintro ⟨CS00, HO⟩

  sl_exec (disch := rm_tac)
  ihave YR01 := (heldS_open (yp c) (hrM 0 1)) $$ YR01
  icases YR01 with ⟨%fr01, YR01⟩
  rw [show Rm c 23 = Rm c 22 + tallyAt (rcvCell (yp c) (exH 0) 1) () Nh from congrArg (Rm c 22 + ·) (tly_H c 0 1)]
  iapply (wp_send_Hw m K c _ (dev4_eq c) 0 1 _ fr01 (by exact hs_sent c 0 1 _ rfl _ fs01 _ (hpL m 0) _ (pay6_cast _ _) (hp_valx_1H m c)) (Rm c 22) _) $$ HIown HIpeer HrSnd HrRY HS01 YR01 HO TS01 TR01
  iintro ⟨CS01, HO⟩

  sl_exec (disch := rm_tac)
  ihave YR02 := (heldS_open (yp c) (hrM 0 2)) $$ YR02
  icases YR02 with ⟨%fr02, YR02⟩
  rw [show Rm c 22 = Rm c 21 + tallyAt (rcvCell (yp c) (exH 0) 2) () Nh from congrArg (Rm c 21 + ·) (tly_H c 0 2)]
  iapply (wp_send_Hw m K c _ (dev5_eq c) 0 2 _ fr02 (by exact hs_sent c 0 2 _ rfl _ fs02 _ (hpL m 0) _ (pay9_cast _ _) (hp_valx_2H m c)) (Rm c 21) _) $$ HIown HIpeer HrSnd HrRY HS02 YR02 HO TS02 TR02
  iintro ⟨CS02, HO⟩

  sl_exec (disch := rm_tac)
  ihave YR03 := (heldS_open (yp c) (hrM 0 3)) $$ YR03
  icases YR03 with ⟨%fr03, YR03⟩
  rw [show Rm c 21 = Rm c 20 + tallyAt (rcvCell (yp c) (exH 0) 3) () Nh from congrArg (Rm c 20 + ·) (tly_H c 0 3)]
  iapply (wp_send_Hw m K c _ (dev6_eq c) 0 3 _ fr03 (by exact hs_sent c 0 3 _ rfl _ fs03 _ (hpL m 0) _ (pay11_cast _ _) (hp_valx_3H m c)) (Rm c 20) _) $$ HIown HIpeer HrSnd HrRY HS03 YR03 HO TS03 TR03
  iintro ⟨CS03, HO⟩
  sl_exec (disch := rm_tac)

  ihave G0a := (heldS_close c wbA _) $$ G0a
  ihave G0b := (heldS_close c wbB _) $$ G0b
  ihave G00 := (halves_join c) $$ [G0a G0b]
  · isplitl [G0a]; · iexact G0a
    iexact G0b
  ihave G00 := (heldS_open c wb0) $$ G00
  icases G00 with ⟨%g00, G00⟩
  sl_exec (disch := rm_tac)

  iapply (wp_recv_Hw m K c 0 0 (wpE_waitDma2_eq 𝒱₀ (c : Thread nD τ) none Set.univ (dst := hrM 0 0)) (Rm c 20) _ (mayWait_at c _ (Rm c 20) (by rm_tac))) $$ HIown Hlev CR00 HO PR00
  iintro ⟨HO, PR00, HR00⟩
  ihave HR00 := (heldAt_open' c (hrM 0 0) _) $$ HR00
  icases HR00 with ⟨%hr00, HR00, %hhr00⟩
  sl_exec (disch := rm_tac)
  iapply (wp_recv_Hw m K c 0 1 (wpE_waitDma2_eq 𝒱₀ (c : Thread nD τ) none Set.univ (dst := hrM 0 1)) (Rm c 20) _ (mayWait_at c _ (Rm c 20) (by rm_tac))) $$ HIown Hlev CR01 HO PR01
  iintro ⟨HO, PR01, HR01⟩
  ihave HR01 := (heldAt_open' c (hrM 0 1) _) $$ HR01
  icases HR01 with ⟨%hr01, HR01, %hhr01⟩
  sl_exec (disch := rm_tac)
  iapply (wp_recv_Hw m K c 0 2 (wpE_waitDma2_eq 𝒱₀ (c : Thread nD τ) none Set.univ (dst := hrM 0 2)) (Rm c 20) _ (mayWait_at c _ (Rm c 20) (by rm_tac))) $$ HIown Hlev CR02 HO PR02
  iintro ⟨HO, PR02, HR02⟩
  ihave HR02 := (heldAt_open' c (hrM 0 2) _) $$ HR02
  icases HR02 with ⟨%hr02, HR02, %hhr02⟩
  sl_exec (disch := rm_tac)
  iapply (wp_recv_Hw m K c 0 3 (wpE_waitDma2_eq 𝒱₀ (c : Thread nD τ) none Set.univ (dst := hrM 0 3)) (Rm c 20) _ (mayWait_at c _ (Rm c 20) (by rm_tac))) $$ HIown Hlev CR03 HO PR03
  iintro ⟨HO, PR03, HR03⟩
  ihave HR03 := (heldAt_open' c (hrM 0 3) _) $$ HR03
  icases HR03 with ⟨%hr03, HR03, %hhr03⟩
  have hgp0 := gp_full_0H c m _ _ _ _ ⟨hp_valx_0H m c, hp_valx_1H m c, hp_valx_2H m c, hp_valx_3H m c⟩ hr00 hr01 hr02 hr03 hhr00 hhr01 hhr02 hhr03 (vbA.view.junk (Val := Elt F)) [] []
  sl_exec (disch := rm_tac)

  ihave XR00 := (heldS_open (xp c) (grM 0 0)) $$ XR00
  icases XR00 with ⟨%gr00, XR00⟩
  rw [show Rm c 20 = Rm c 19 + tallyAt (rcvCell (xp c) (exG 0) 0) () Ng from congrArg (Rm c 19 + ·) (tly_G c 0 0)]
  iapply (wp_send_Gw m K c _ (dev7_eq c) 0 0 _ gr00 (by exact gs_sent m c 0 0 _ rfl _ gs00 _ (hpL m 0) _ (pay18_castH _ _ _ _) hgp0) (Rm c 19) _) $$ HIown HIpeer HrSnd HrRX GS00 XR00 HO TS10 TR10
  iintro ⟨CS10, HO⟩
  sl_exec (disch := rm_tac)
  ihave XR01 := (heldS_open (xp c) (grM 0 1)) $$ XR01
  icases XR01 with ⟨%gr01, XR01⟩
  rw [show Rm c 19 = Rm c 18 + tallyAt (rcvCell (xp c) (exG 0) 1) () Ng from congrArg (Rm c 18 + ·) (tly_G c 0 1)]
  iapply (wp_send_Gw m K c _ (dev8_eq c) 0 1 _ gr01 (by exact gs_sent m c 0 1 _ rfl _ gs01 _ (hpL m 0) _ (pay20_castH _) hgp0) (Rm c 18) _) $$ HIown HIpeer HrSnd HrRX GS01 XR01 HO TS11 TR11
  iintro ⟨CS11, HO⟩
  sl_exec (disch := rm_tac)
  ihave XR02 := (heldS_open (xp c) (grM 0 2)) $$ XR02
  icases XR02 with ⟨%gr02, XR02⟩
  rw [show Rm c 18 = Rm c 17 + tallyAt (rcvCell (xp c) (exG 0) 2) () Ng from congrArg (Rm c 17 + ·) (tly_G c 0 2)]
  iapply (wp_send_Gw m K c _ (dev9_eq c) 0 2 _ gr02 (by exact gs_sent m c 0 2 _ rfl _ gs02 _ (hpL m 0) _ (pay22_castH _) hgp0) (Rm c 17) _) $$ HIown HIpeer HrSnd HrRX GS02 XR02 HO TS12 TR12
  iintro ⟨CS12, HO⟩
  sl_exec (disch := rm_tac)
  ihave XR03 := (heldS_open (xp c) (grM 0 3)) $$ XR03
  icases XR03 with ⟨%gr03, XR03⟩
  rw [show Rm c 17 = Rm c 16 + tallyAt (rcvCell (xp c) (exG 0) 3) () Ng from congrArg (Rm c 16 + ·) (tly_G c 0 3)]
  iapply (wp_send_Gw m K c _ (dev10_eq c) 0 3 _ gr03 (by exact gs_sent m c 0 3 _ rfl _ gs03 _ (hpL m 0) _ (pay24_castH _) hgp0) (Rm c 16) _) $$ HIown HIpeer HrSnd HrRX GS03 XR03 HO TS13 TR13
  iintro ⟨CS13, HO⟩
  sl_exec (disch := rm_tac)

  iapply (wp_recv_Gw m K c 0 0 (wpE_waitDma2_eq 𝒱₀ (c : Thread nD τ) none Set.univ (dst := grM 0 0)) (Rm c 16) _ (mayWait_at c _ (Rm c 16) (by rm_tac))) $$ HIown Hlev CR10 HO PR10
  iintro ⟨HO, PR10, GR00⟩
  ihave GR00 := (heldAt_open' c (grM 0 0) _) $$ GR00
  icases GR00 with ⟨%rg00, GR00, %hrg00⟩
  sl_exec (disch := rm_tac)
  iapply (wp_recv_Gw m K c 0 1 (wpE_waitDma2_eq 𝒱₀ (c : Thread nD τ) none Set.univ (dst := grM 0 1)) (Rm c 16) _ (mayWait_at c _ (Rm c 16) (by rm_tac))) $$ HIown Hlev CR11 HO PR11
  iintro ⟨HO, PR11, GR01⟩
  ihave GR01 := (heldAt_open' c (grM 0 1) _) $$ GR01
  icases GR01 with ⟨%rg01, GR01, %hrg01⟩
  sl_exec (disch := rm_tac)
  iapply (wp_recv_Gw m K c 0 2 (wpE_waitDma2_eq 𝒱₀ (c : Thread nD τ) none Set.univ (dst := grM 0 2)) (Rm c 16) _ (mayWait_at c _ (Rm c 16) (by rm_tac))) $$ HIown Hlev CR12 HO PR12
  iintro ⟨HO, PR12, GR02⟩
  ihave GR02 := (heldAt_open' c (grM 0 2) _) $$ GR02
  icases GR02 with ⟨%rg02, GR02, %hrg02⟩
  sl_exec (disch := rm_tac)
  iapply (wp_recv_Gw m K c 0 3 (wpE_waitDma2_eq 𝒱₀ (c : Thread nD τ) none Set.univ (dst := grM 0 3)) (Rm c 16) _ (mayWait_at c _ (Rm c 16) (by rm_tac))) $$ HIown Hlev CR13 HO PR13
  iintro ⟨HO, PR13, GR03⟩
  ihave GR03 := (heldAt_open' c (grM 0 3) _) $$ GR03
  icases GR03 with ⟨%rg03, GR03, %hrg03⟩
  sl_exec (disch := rm_tac)

  ihave YR10 := (heldS_open (yp c) (hrM 1 0)) $$ YR10
  icases YR10 with ⟨%fr10, YR10⟩
  rw [show Rm c 16 = Rm c 15 + tallyAt (rcvCell (yp c) (exH 1) 0) () Nh from congrArg (Rm c 15 + ·) (tly_H c 1 0)]
  iapply (wp_send_Hw m K c _ (dev11_eq c) 1 0 _ fr10 (by exact hs_sent c 1 0 _ rfl _ fs10 _ (hpL m 1) _ (pay30_castH _) (hp_full_1H c m _ _ _ _ hgp0 rg00 rg01 rg02 rg03 hrg00 hrg01 hrg02 hrg03 _ _ _).2.1) (Rm c 15) _) $$ HIown HIpeer HrSnd HrRY HS10 YR10 HO TS20 TR20
  iintro ⟨CS20, HO⟩
  sl_exec (disch := rm_tac)
  ihave YR11 := (heldS_open (yp c) (hrM 1 1)) $$ YR11
  icases YR11 with ⟨%fr11, YR11⟩
  rw [show Rm c 15 = Rm c 14 + tallyAt (rcvCell (yp c) (exH 1) 1) () Nh from congrArg (Rm c 14 + ·) (tly_H c 1 1)]
  iapply (wp_send_Hw m K c _ (dev12_eq c) 1 1 _ fr11 (by exact hs_sent c 1 1 _ rfl _ fs11 _ (hpL m 1) _ (pay32_castH _) ((hp_full_1H c m _ _ _ _ hgp0 rg00 rg01 rg02 rg03 hrg00 hrg01 hrg02 hrg03 _ _ _).1 1)) (Rm c 14) _) $$ HIown HIpeer HrSnd HrRY HS11 YR11 HO TS21 TR21
  iintro ⟨CS21, HO⟩
  sl_exec (disch := rm_tac)
  ihave YR12 := (heldS_open (yp c) (hrM 1 2)) $$ YR12
  icases YR12 with ⟨%fr12, YR12⟩
  rw [show Rm c 14 = Rm c 13 + tallyAt (rcvCell (yp c) (exH 1) 2) () Nh from congrArg (Rm c 13 + ·) (tly_H c 1 2)]
  iapply (wp_send_Hw m K c _ (dev13_eq c) 1 2 _ fr12 (by exact hs_sent c 1 2 _ rfl _ fs12 _ (hpL m 1) _ (pay34_castH _) ((hp_full_1H c m _ _ _ _ hgp0 rg00 rg01 rg02 rg03 hrg00 hrg01 hrg02 hrg03 _ _ _).1 2)) (Rm c 13) _) $$ HIown HIpeer HrSnd HrRY HS12 YR12 HO TS22 TR22
  iintro ⟨CS22, HO⟩
  sl_exec (disch := rm_tac)
  ihave YR13 := (heldS_open (yp c) (hrM 1 3)) $$ YR13
  icases YR13 with ⟨%fr13, YR13⟩
  rw [show Rm c 13 = Rm c 12 + tallyAt (rcvCell (yp c) (exH 1) 3) () Nh from congrArg (Rm c 12 + ·) (tly_H c 1 3)]
  iapply (wp_send_Hw m K c _ (dev14_eq c) 1 3 _ fr13 (by exact hs_sent c 1 3 _ rfl _ fs13 _ (hpL m 1) _ (pay36_castH _) ((hp_full_1H c m _ _ _ _ hgp0 rg00 rg01 rg02 rg03 hrg00 hrg01 hrg02 hrg03 _ _ _).1 3)) (Rm c 12) _) $$ HIown HIpeer HrSnd HrRY HS13 YR13 HO TS23 TR23
  iintro ⟨CS23, HO⟩
  sl_exec (disch := rm_tac)

  iapply (wp_recv_Hw m K c 1 0 (wpE_waitDma2_eq 𝒱₀ (c : Thread nD τ) none Set.univ (dst := hrM 1 0)) (Rm c 12) _ (mayWait_at c _ (Rm c 12) (by rm_tac))) $$ HIown Hlev CR20 HO PR20
  iintro ⟨HO, PR20, HR10⟩
  ihave HR10 := (heldAt_open' c (hrM 1 0) _) $$ HR10
  icases HR10 with ⟨%hr10, HR10, %hhr10⟩
  sl_exec (disch := rm_tac)
  iapply (wp_recv_Hw m K c 1 1 (wpE_waitDma2_eq 𝒱₀ (c : Thread nD τ) none Set.univ (dst := hrM 1 1)) (Rm c 12) _ (mayWait_at c _ (Rm c 12) (by rm_tac))) $$ HIown Hlev CR21 HO PR21
  iintro ⟨HO, PR21, HR11⟩
  ihave HR11 := (heldAt_open' c (hrM 1 1) _) $$ HR11
  icases HR11 with ⟨%hr11, HR11, %hhr11⟩
  sl_exec (disch := rm_tac)
  iapply (wp_recv_Hw m K c 1 2 (wpE_waitDma2_eq 𝒱₀ (c : Thread nD τ) none Set.univ (dst := hrM 1 2)) (Rm c 12) _ (mayWait_at c _ (Rm c 12) (by rm_tac))) $$ HIown Hlev CR22 HO PR22
  iintro ⟨HO, PR22, HR12⟩
  ihave HR12 := (heldAt_open' c (hrM 1 2) _) $$ HR12
  icases HR12 with ⟨%hr12, HR12, %hhr12⟩
  sl_exec (disch := rm_tac)
  iapply (wp_recv_Hw m K c 1 3 (wpE_waitDma2_eq 𝒱₀ (c : Thread nD τ) none Set.univ (dst := hrM 1 3)) (Rm c 12) _ (mayWait_at c _ (Rm c 12) (by rm_tac))) $$ HIown Hlev CR23 HO PR23
  iintro ⟨HO, PR23, HR13⟩
  ihave HR13 := (heldAt_open' c (hrM 1 3) _) $$ HR13
  icases HR13 with ⟨%hr13, HR13, %hhr13⟩
  have hgp1 := gp_full_1H c m _ _ _ _ (hp_full_1H c m _ _ _ _ hgp0 rg00 rg01 rg02 rg03 hrg00 hrg01 hrg02 hrg03 (wbC.view.junk (Val := Elt F)) (sc2L0H m c) []).2 hr10 hr11 hr12 hr13 hhr10 hhr11 hhr12 hhr13 (vbB.view.junk (Val := Elt F)) (sc3L0H m c) []
  sl_exec (disch := rm_tac)

  ihave XR10 := (heldS_open (xp c) (grM 1 0)) $$ XR10
  icases XR10 with ⟨%gr10, XR10⟩
  rw [show Rm c 12 = Rm c 11 + tallyAt (rcvCell (xp c) (exG 1) 0) () Ng from congrArg (Rm c 11 + ·) (tly_G c 1 0)]
  iapply (wp_send_Gw m K c _ (dev15_eq c) 1 0 _ gr10 (by exact gs_sent m c 1 0 _ rfl _ gs10 _ (hpL m 1) _ (pay43_castH _ _ _ _) hgp1) (Rm c 11) _) $$ HIown HIpeer HrSnd HrRX GS10 XR10 HO TS30 TR30
  iintro ⟨CS30, HO⟩
  sl_exec (disch := rm_tac)
  ihave XR11 := (heldS_open (xp c) (grM 1 1)) $$ XR11
  icases XR11 with ⟨%gr11, XR11⟩
  rw [show Rm c 11 = Rm c 10 + tallyAt (rcvCell (xp c) (exG 1) 1) () Ng from congrArg (Rm c 10 + ·) (tly_G c 1 1)]
  iapply (wp_send_Gw m K c _ (dev16_eq c) 1 1 _ gr11 (by exact gs_sent m c 1 1 _ rfl _ gs11 _ (hpL m 1) _ (pay45_castH _) hgp1) (Rm c 10) _) $$ HIown HIpeer HrSnd HrRX GS11 XR11 HO TS31 TR31
  iintro ⟨CS31, HO⟩
  sl_exec (disch := rm_tac)
  ihave XR12 := (heldS_open (xp c) (grM 1 2)) $$ XR12
  icases XR12 with ⟨%gr12, XR12⟩
  rw [show Rm c 10 = Rm c 9 + tallyAt (rcvCell (xp c) (exG 1) 2) () Ng from congrArg (Rm c 9 + ·) (tly_G c 1 2)]
  iapply (wp_send_Gw m K c _ (dev17_eq c) 1 2 _ gr12 (by exact gs_sent m c 1 2 _ rfl _ gs12 _ (hpL m 1) _ (pay47_castH _) hgp1) (Rm c 9) _) $$ HIown HIpeer HrSnd HrRX GS12 XR12 HO TS32 TR32
  iintro ⟨CS32, HO⟩
  sl_exec (disch := rm_tac)
  ihave XR13 := (heldS_open (xp c) (grM 1 3)) $$ XR13
  icases XR13 with ⟨%gr13, XR13⟩
  rw [show Rm c 9 = Rm c 8 + tallyAt (rcvCell (xp c) (exG 1) 3) () Ng from congrArg (Rm c 8 + ·) (tly_G c 1 3)]
  iapply (wp_send_Gw m K c _ (dev18_eq c) 1 3 _ gr13 (by exact gs_sent m c 1 3 _ rfl _ gs13 _ (hpL m 1) _ (pay49_castH _) hgp1) (Rm c 8) _) $$ HIown HIpeer HrSnd HrRX GS13 XR13 HO TS33 TR33
  iintro ⟨CS33, HO⟩
  sl_exec (disch := rm_tac)

  iapply (wp_recv_Gw m K c 1 0 (wpE_waitDma2_eq 𝒱₀ (c : Thread nD τ) none Set.univ (dst := grM 1 0)) (Rm c 8) _ (mayWait_at c _ (Rm c 8) (by rm_tac))) $$ HIown Hlev CR30 HO PR30
  iintro ⟨HO, PR30, GR10⟩
  ihave GR10 := (heldAt_open' c (grM 1 0) _) $$ GR10
  icases GR10 with ⟨%rg10, GR10, %hrg10⟩
  sl_exec (disch := rm_tac)
  iapply (wp_recv_Gw m K c 1 1 (wpE_waitDma2_eq 𝒱₀ (c : Thread nD τ) none Set.univ (dst := grM 1 1)) (Rm c 8) _ (mayWait_at c _ (Rm c 8) (by rm_tac))) $$ HIown Hlev CR31 HO PR31
  iintro ⟨HO, PR31, GR11⟩
  ihave GR11 := (heldAt_open' c (grM 1 1) _) $$ GR11
  icases GR11 with ⟨%rg11, GR11, %hrg11⟩
  sl_exec (disch := rm_tac)
  iapply (wp_recv_Gw m K c 1 2 (wpE_waitDma2_eq 𝒱₀ (c : Thread nD τ) none Set.univ (dst := grM 1 2)) (Rm c 8) _ (mayWait_at c _ (Rm c 8) (by rm_tac))) $$ HIown Hlev CR32 HO PR32
  iintro ⟨HO, PR32, GR12⟩
  ihave GR12 := (heldAt_open' c (grM 1 2) _) $$ GR12
  icases GR12 with ⟨%rg12, GR12, %hrg12⟩
  sl_exec (disch := rm_tac)
  iapply (wp_recv_Gw m K c 1 3 (wpE_waitDma2_eq 𝒱₀ (c : Thread nD τ) none Set.univ (dst := grM 1 3)) (Rm c 8) _ (mayWait_at c _ (Rm c 8) (by rm_tac))) $$ HIown Hlev CR33 HO PR33
  iintro ⟨HO, PR33, GR13⟩
  ihave GR13 := (heldAt_open' c (grM 1 3) _) $$ GR13
  icases GR13 with ⟨%rg13, GR13, %hrg13⟩
  sl_exec (disch := rm_tac)

  ihave YR20 := (heldS_open (yp c) (hrM 2 0)) $$ YR20
  icases YR20 with ⟨%fr20, YR20⟩
  rw [show Rm c 8 = Rm c 7 + tallyAt (rcvCell (yp c) (exH 2) 0) () Nh from congrArg (Rm c 7 + ·) (tly_H c 2 0)]
  iapply (wp_send_Hw m K c _ (dev19_eq c) 2 0 _ fr20 (by exact (hs_read_write c 2 0 _ rfl _ fs20 _).trans ((pay56_castH _).trans (hp_full_2H c m _ _ _ _ hgp1 rg10 rg11 rg12 rg13 hrg10 hrg11 hrg12 hrg13 _ _ _).2.2)) (Rm c 7) _) $$ HIown HIpeer HrSnd HrRY HS20 YR20 HO TS40 TR40
  iintro ⟨CS40, HO⟩
  sl_exec (disch := rm_tac)
  ihave YR21 := (heldS_open (yp c) (hrM 2 1)) $$ YR21
  icases YR21 with ⟨%fr21, YR21⟩
  rw [show Rm c 7 = Rm c 6 + tallyAt (rcvCell (yp c) (exH 2) 1) () Nh from congrArg (Rm c 6 + ·) (tly_H c 2 1)]
  iapply (wp_send_Hw m K c _ (dev20_eq c) 2 1 _ fr21 (by exact hs_sent c 2 1 _ rfl _ fs21 _ (hpL m 2) _ (pay58_castH _) ((hp_full_2H c m _ _ _ _ hgp1 rg10 rg11 rg12 rg13 hrg10 hrg11 hrg12 hrg13 _ _ _).1 1)) (Rm c 6) _) $$ HIown HIpeer HrSnd HrRY HS21 YR21 HO TS41 TR41
  iintro ⟨CS41, HO⟩
  sl_exec (disch := rm_tac)
  ihave YR22 := (heldS_open (yp c) (hrM 2 2)) $$ YR22
  icases YR22 with ⟨%fr22, YR22⟩
  rw [show Rm c 6 = Rm c 5 + tallyAt (rcvCell (yp c) (exH 2) 2) () Nh from congrArg (Rm c 5 + ·) (tly_H c 2 2)]
  iapply (wp_send_Hw m K c _ (dev21_eq c) 2 2 _ fr22 (by exact hs_sent c 2 2 _ rfl _ fs22 _ (hpL m 2) _ (pay60_castH _) ((hp_full_2H c m _ _ _ _ hgp1 rg10 rg11 rg12 rg13 hrg10 hrg11 hrg12 hrg13 _ _ _).1 2)) (Rm c 5) _) $$ HIown HIpeer HrSnd HrRY HS22 YR22 HO TS42 TR42
  iintro ⟨CS42, HO⟩
  sl_exec (disch := rm_tac)
  ihave YR23 := (heldS_open (yp c) (hrM 2 3)) $$ YR23
  icases YR23 with ⟨%fr23, YR23⟩
  rw [show Rm c 5 = Rm c 4 + tallyAt (rcvCell (yp c) (exH 2) 3) () Nh from congrArg (Rm c 4 + ·) (tly_H c 2 3)]
  iapply (wp_send_Hw m K c _ (dev22_eq c) 2 3 _ fr23 (by exact hs_sent c 2 3 _ rfl _ fs23 _ (hpL m 2) _ (pay62_castH _) ((hp_full_2H c m _ _ _ _ hgp1 rg10 rg11 rg12 rg13 hrg10 hrg11 hrg12 hrg13 _ _ _).1 3)) (Rm c 4) _) $$ HIown HIpeer HrSnd HrRY HS23 YR23 HO TS43 TR43
  iintro ⟨CS43, HO⟩
  sl_exec (disch := rm_tac)

  iapply (wp_recv_Hw m K c 2 0 (wpE_waitDma2_eq 𝒱₀ (c : Thread nD τ) none Set.univ (dst := hrM 2 0)) (Rm c 4) _ (mayWait_at c _ (Rm c 4) (by rm_tac))) $$ HIown Hlev CR40 HO PR40
  iintro ⟨HO, PR40, HR20⟩
  ihave HR20 := (heldAt_open' c (hrM 2 0) _) $$ HR20
  icases HR20 with ⟨%hr20, HR20, %hhr20⟩
  sl_exec (disch := rm_tac)
  iapply (wp_recv_Hw m K c 2 1 (wpE_waitDma2_eq 𝒱₀ (c : Thread nD τ) none Set.univ (dst := hrM 2 1)) (Rm c 4) _ (mayWait_at c _ (Rm c 4) (by rm_tac))) $$ HIown Hlev CR41 HO PR41
  iintro ⟨HO, PR41, HR21⟩
  ihave HR21 := (heldAt_open' c (hrM 2 1) _) $$ HR21
  icases HR21 with ⟨%hr21, HR21, %hhr21⟩
  sl_exec (disch := rm_tac)
  iapply (wp_recv_Hw m K c 2 2 (wpE_waitDma2_eq 𝒱₀ (c : Thread nD τ) none Set.univ (dst := hrM 2 2)) (Rm c 4) _ (mayWait_at c _ (Rm c 4) (by rm_tac))) $$ HIown Hlev CR42 HO PR42
  iintro ⟨HO, PR42, HR22⟩
  ihave HR22 := (heldAt_open' c (hrM 2 2) _) $$ HR22
  icases HR22 with ⟨%hr22, HR22, %hhr22⟩
  sl_exec (disch := rm_tac)
  iapply (wp_recv_Hw m K c 2 3 (wpE_waitDma2_eq 𝒱₀ (c : Thread nD τ) none Set.univ (dst := hrM 2 3)) (Rm c 4) _ (mayWait_at c _ (Rm c 4) (by rm_tac))) $$ HIown Hlev CR43 HO PR43
  iintro ⟨HO, PR43, HR23⟩
  ihave HR23 := (heldAt_open' c (hrM 2 3) _) $$ HR23
  icases HR23 with ⟨%hr23, HR23, %hhr23⟩
  sl_exec (disch := rm_tac)

  ihave XR20 := (heldS_open (xp c) (grM 2 0)) $$ XR20
  icases XR20 with ⟨%gr20, XR20⟩
  rw [show Rm c 4 = Rm c 3 + tallyAt (rcvCell (xp c) (exG 2) 0) () Ng from congrArg (Rm c 3 + ·) (tly_G c 2 0)]
  iapply (wp_send_Gw m K c _ (dev23_eq c) 2 0 _ gr20 (by exact gs_sent m c 2 0 _ rfl _ gs20 _ (hpL m 2) _ (pay68_castH _ _ _ _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 3) _) $$ HIown HIpeer HrSnd HrRX GS20 XR20 HO TS50 TR50
  iintro ⟨CS50, HO⟩
  sl_exec (disch := rm_tac)
  ihave XR21 := (heldS_open (xp c) (grM 2 1)) $$ XR21
  icases XR21 with ⟨%gr21, XR21⟩
  rw [show Rm c 3 = Rm c 2 + tallyAt (rcvCell (xp c) (exG 2) 1) () Ng from congrArg (Rm c 2 + ·) (tly_G c 2 1)]
  iapply (wp_send_Gw m K c _ (dev24_eq c) 2 1 _ gr21 (by exact gs_sent m c 2 1 _ rfl _ gs21 _ (hpL m 2) _ (pay70_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 2) _) $$ HIown HIpeer HrSnd HrRX GS21 XR21 HO TS51 TR51
  iintro ⟨CS51, HO⟩
  sl_exec (disch := rm_tac)
  ihave XR22 := (heldS_open (xp c) (grM 2 2)) $$ XR22
  icases XR22 with ⟨%gr22, XR22⟩
  rw [show Rm c 2 = Rm c 1 + tallyAt (rcvCell (xp c) (exG 2) 2) () Ng from congrArg (Rm c 1 + ·) (tly_G c 2 2)]
  iapply (wp_send_Gw m K c _ (dev25_eq c) 2 2 _ gr22 (by exact gs_sent m c 2 2 _ rfl _ gs22 _ (hpL m 2) _ (pay72_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 1) _) $$ HIown HIpeer HrSnd HrRX GS22 XR22 HO TS52 TR52
  iintro ⟨CS52, HO⟩
  sl_exec (disch := rm_tac)
  ihave XR23 := (heldS_open (xp c) (grM 2 3)) $$ XR23
  icases XR23 with ⟨%gr23, XR23⟩
  rw [show Rm c 1 = Rm c 0 + tallyAt (rcvCell (xp c) (exG 2) 3) () Ng from congrArg (Rm c 0 + ·) (tly_G c 2 3)]
  iapply (wp_send_Gw m K c _ (dev26_eq c) 2 3 _ gr23 (by exact gs_sent m c 2 3 _ rfl _ gs23 _ (hpL m 2) _ (pay74_castH _) (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)) (Rm c 0) _) $$ HIown HIpeer HrSnd HrRX GS23 XR23 HO TS53 TR53
  iintro ⟨CS53, HO⟩
  sl_exec (disch := rm_tac)

  iapply (wp_recv_Gw m K c 2 0 (wpE_waitDma2_eq 𝒱₀ (c : Thread nD τ) none Set.univ (dst := grM 2 0)) (Rm c 0) _ (mayWait_at c _ (Rm c 0) (by rm_tac))) $$ HIown Hlev CR50 HO PR50
  iintro ⟨HO, PR50, GR20⟩
  ihave GR20 := (heldAt_open' c (grM 2 0) _) $$ GR20
  icases GR20 with ⟨%rg20, GR20, %hrg20⟩
  sl_exec (disch := rm_tac)
  iapply (wp_recv_Gw m K c 2 1 (wpE_waitDma2_eq 𝒱₀ (c : Thread nD τ) none Set.univ (dst := grM 2 1)) (Rm c 0) _ (mayWait_at c _ (Rm c 0) (by rm_tac))) $$ HIown Hlev CR51 HO PR51
  iintro ⟨HO, PR51, GR21⟩
  ihave GR21 := (heldAt_open' c (grM 2 1) _) $$ GR21
  icases GR21 with ⟨%rg21, GR21, %hrg21⟩
  sl_exec (disch := rm_tac)
  iapply (wp_recv_Gw m K c 2 2 (wpE_waitDma2_eq 𝒱₀ (c : Thread nD τ) none Set.univ (dst := grM 2 2)) (Rm c 0) _ (mayWait_at c _ (Rm c 0) (by rm_tac))) $$ HIown Hlev CR52 HO PR52
  iintro ⟨HO, PR52, GR22⟩
  ihave GR22 := (heldAt_open' c (grM 2 2) _) $$ GR22
  icases GR22 with ⟨%rg22, GR22, %hrg22⟩
  sl_exec (disch := rm_tac)
  iapply (wp_recv_Gw m K c 2 3 (wpE_waitDma2_eq 𝒱₀ (c : Thread nD τ) none Set.univ (dst := grM 2 3)) (Rm c 0) _ (mayWait_at c _ (Rm c 0) (by rm_tac))) $$ HIown Hlev CR53 HO PR53
  iintro ⟨HO, PR53, GR23⟩
  ihave GR23 := (heldAt_open' c (grM 2 3) _) $$ GR23
  icases GR23 with ⟨%rg23, GR23, %hrg23⟩
  sl_exec (disch := rm_tac)

  rw [show Rm c 0 = 0 from rfl]
  iapply (wp_sent_Hw m K c 0 0 (wpE_waitDma2_eq 𝒱₀ (c : Thread nD τ) none Set.univ (dst := hsM 0 0)) _) $$ HIown CS00 HO PS00
  iintro ⟨HO, PS00, HS00⟩
  sl_exec (disch := rm_tac)
  iapply (wp_sent_Hw m K c 0 1 (wpE_waitDma2_eq 𝒱₀ (c : Thread nD τ) none Set.univ (dst := hsM 0 1)) _) $$ HIown CS01 HO PS01
  iintro ⟨HO, PS01, HS01⟩
  sl_exec (disch := rm_tac)
  iapply (wp_sent_Hw m K c 0 2 (wpE_waitDma2_eq 𝒱₀ (c : Thread nD τ) none Set.univ (dst := hsM 0 2)) _) $$ HIown CS02 HO PS02
  iintro ⟨HO, PS02, HS02⟩
  sl_exec (disch := rm_tac)
  iapply (wp_sent_Hw m K c 0 3 (wpE_waitDma2_eq 𝒱₀ (c : Thread nD τ) none Set.univ (dst := hsM 0 3)) _) $$ HIown CS03 HO PS03
  iintro ⟨HO, PS03, HS03⟩
  sl_exec (disch := rm_tac)
  iapply (wp_sent_Gw m K c 0 0 (wpE_waitDma2_eq 𝒱₀ (c : Thread nD τ) none Set.univ (dst := gsM 0 0)) _) $$ HIown CS10 HO PS10
  iintro ⟨HO, PS10, GS00⟩
  sl_exec (disch := rm_tac)
  iapply (wp_sent_Gw m K c 0 1 (wpE_waitDma2_eq 𝒱₀ (c : Thread nD τ) none Set.univ (dst := gsM 0 1)) _) $$ HIown CS11 HO PS11
  iintro ⟨HO, PS11, GS01⟩
  sl_exec (disch := rm_tac)
  iapply (wp_sent_Gw m K c 0 2 (wpE_waitDma2_eq 𝒱₀ (c : Thread nD τ) none Set.univ (dst := gsM 0 2)) _) $$ HIown CS12 HO PS12
  iintro ⟨HO, PS12, GS02⟩
  sl_exec (disch := rm_tac)
  iapply (wp_sent_Gw m K c 0 3 (wpE_waitDma2_eq 𝒱₀ (c : Thread nD τ) none Set.univ (dst := gsM 0 3)) _) $$ HIown CS13 HO PS13
  iintro ⟨HO, PS13, GS03⟩
  sl_exec (disch := rm_tac)
  iapply (wp_sent_Hw m K c 1 0 (wpE_waitDma2_eq 𝒱₀ (c : Thread nD τ) none Set.univ (dst := hsM 1 0)) _) $$ HIown CS20 HO PS20
  iintro ⟨HO, PS20, HS10⟩
  sl_exec (disch := rm_tac)
  iapply (wp_sent_Hw m K c 1 1 (wpE_waitDma2_eq 𝒱₀ (c : Thread nD τ) none Set.univ (dst := hsM 1 1)) _) $$ HIown CS21 HO PS21
  iintro ⟨HO, PS21, HS11⟩
  sl_exec (disch := rm_tac)
  iapply (wp_sent_Hw m K c 1 2 (wpE_waitDma2_eq 𝒱₀ (c : Thread nD τ) none Set.univ (dst := hsM 1 2)) _) $$ HIown CS22 HO PS22
  iintro ⟨HO, PS22, HS12⟩
  sl_exec (disch := rm_tac)
  iapply (wp_sent_Hw m K c 1 3 (wpE_waitDma2_eq 𝒱₀ (c : Thread nD τ) none Set.univ (dst := hsM 1 3)) _) $$ HIown CS23 HO PS23
  iintro ⟨HO, PS23, HS13⟩
  sl_exec (disch := rm_tac)
  iapply (wp_sent_Gw m K c 1 0 (wpE_waitDma2_eq 𝒱₀ (c : Thread nD τ) none Set.univ (dst := gsM 1 0)) _) $$ HIown CS30 HO PS30
  iintro ⟨HO, PS30, GS10⟩
  sl_exec (disch := rm_tac)
  iapply (wp_sent_Gw m K c 1 1 (wpE_waitDma2_eq 𝒱₀ (c : Thread nD τ) none Set.univ (dst := gsM 1 1)) _) $$ HIown CS31 HO PS31
  iintro ⟨HO, PS31, GS11⟩
  sl_exec (disch := rm_tac)
  iapply (wp_sent_Gw m K c 1 2 (wpE_waitDma2_eq 𝒱₀ (c : Thread nD τ) none Set.univ (dst := gsM 1 2)) _) $$ HIown CS32 HO PS32
  iintro ⟨HO, PS32, GS12⟩
  sl_exec (disch := rm_tac)
  iapply (wp_sent_Gw m K c 1 3 (wpE_waitDma2_eq 𝒱₀ (c : Thread nD τ) none Set.univ (dst := gsM 1 3)) _) $$ HIown CS33 HO PS33
  iintro ⟨HO, PS33, GS13⟩
  sl_exec (disch := rm_tac)
  iapply (wp_sent_Hw m K c 2 0 (wpE_waitDma2_eq 𝒱₀ (c : Thread nD τ) none Set.univ (dst := hsM 2 0)) _) $$ HIown CS40 HO PS40
  iintro ⟨HO, PS40, HS20⟩
  sl_exec (disch := rm_tac)
  iapply (wp_sent_Hw m K c 2 1 (wpE_waitDma2_eq 𝒱₀ (c : Thread nD τ) none Set.univ (dst := hsM 2 1)) _) $$ HIown CS41 HO PS41
  iintro ⟨HO, PS41, HS21⟩
  sl_exec (disch := rm_tac)
  iapply (wp_sent_Hw m K c 2 2 (wpE_waitDma2_eq 𝒱₀ (c : Thread nD τ) none Set.univ (dst := hsM 2 2)) _) $$ HIown CS42 HO PS42
  iintro ⟨HO, PS42, HS22⟩
  sl_exec (disch := rm_tac)
  iapply (wp_sent_Hw m K c 2 3 (wpE_waitDma2_eq 𝒱₀ (c : Thread nD τ) none Set.univ (dst := hsM 2 3)) _) $$ HIown CS43 HO PS43
  iintro ⟨HO, PS43, HS23⟩
  sl_exec (disch := rm_tac)
  iapply (wp_sent_Gw m K c 2 0 (wpE_waitDma2_eq 𝒱₀ (c : Thread nD τ) none Set.univ (dst := gsM 2 0)) _) $$ HIown CS50 HO PS50
  iintro ⟨HO, PS50, GS20⟩
  sl_exec (disch := rm_tac)
  iapply (wp_sent_Gw m K c 2 1 (wpE_waitDma2_eq 𝒱₀ (c : Thread nD τ) none Set.univ (dst := gsM 2 1)) _) $$ HIown CS51 HO PS51
  iintro ⟨HO, PS51, GS21⟩
  sl_exec (disch := rm_tac)
  iapply (wp_sent_Gw m K c 2 2 (wpE_waitDma2_eq 𝒱₀ (c : Thread nD τ) none Set.univ (dst := gsM 2 2)) _) $$ HIown CS52 HO PS52
  iintro ⟨HO, PS52, GS22⟩
  sl_exec (disch := rm_tac)
  iapply (wp_sent_Gw m K c 2 3 (wpE_waitDma2_eq 𝒱₀ (c : Thread nD τ) none Set.univ (dst := gsM 2 3)) _) $$ HIown CS53 HO PS53
  iintro ⟨HO, PS53, GS23⟩
  sl_exec (disch := rm_tac)

  ihave Hps1 := (Entails.of_eq (sepPS1 (F := F) c).symm) $$ [PS00 PS01 PS02 PS03 PS10 PS11 PS12 PS13 PS20 PS21 PS22 PS23 PS30 PS31 PS32 PS33 PS40 PS41 PS42 PS43 PS50 PS51 PS52 PS53]
  · isplitl [PS00]; · iexact PS00
    isplitl [PS01]; · iexact PS01
    isplitl [PS02]; · iexact PS02
    isplitl [PS03]; · iexact PS03
    isplitl [PS10]; · iexact PS10
    isplitl [PS11]; · iexact PS11
    isplitl [PS12]; · iexact PS12
    isplitl [PS13]; · iexact PS13
    isplitl [PS20]; · iexact PS20
    isplitl [PS21]; · iexact PS21
    isplitl [PS22]; · iexact PS22
    isplitl [PS23]; · iexact PS23
    isplitl [PS30]; · iexact PS30
    isplitl [PS31]; · iexact PS31
    isplitl [PS32]; · iexact PS32
    isplitl [PS33]; · iexact PS33
    isplitl [PS40]; · iexact PS40
    isplitl [PS41]; · iexact PS41
    isplitl [PS42]; · iexact PS42
    isplitl [PS43]; · iexact PS43
    isplitl [PS50]; · iexact PS50
    isplitl [PS51]; · iexact PS51
    isplitl [PS52]; · iexact PS52
    iexact PS53
  ihave Hpr1 := (Entails.of_eq (sepPR1 (F := F) c).symm) $$ [PR00 PR01 PR02 PR03 PR10 PR11 PR12 PR13 PR20 PR21 PR22 PR23 PR30 PR31 PR32 PR33 PR40 PR41 PR42 PR43 PR50 PR51 PR52 PR53]
  · isplitl [PR00]; · iexact PR00
    isplitl [PR01]; · iexact PR01
    isplitl [PR02]; · iexact PR02
    isplitl [PR03]; · iexact PR03
    isplitl [PR10]; · iexact PR10
    isplitl [PR11]; · iexact PR11
    isplitl [PR12]; · iexact PR12
    isplitl [PR13]; · iexact PR13
    isplitl [PR20]; · iexact PR20
    isplitl [PR21]; · iexact PR21
    isplitl [PR22]; · iexact PR22
    isplitl [PR23]; · iexact PR23
    isplitl [PR30]; · iexact PR30
    isplitl [PR31]; · iexact PR31
    isplitl [PR32]; · iexact PR32
    isplitl [PR33]; · iexact PR33
    isplitl [PR40]; · iexact PR40
    isplitl [PR41]; · iexact PR41
    isplitl [PR42]; · iexact PR42
    isplitl [PR43]; · iexact PR43
    isplitl [PR50]; · iexact PR50
    isplitl [PR51]; · iexact PR51
    isplitl [PR52]; · iexact PR52
    iexact PR53
  imod (close_all m K c) $$ HIown Hps1 Hpr1 with Hcells

  sl_step
  iapply Hk
  unfold bodyPost Φ₁ Dat.owesAt Pipeline.owesWithin localSems argsAt scratchAny
  rw [show (dats m 0 c).owed t₀.succ = 0 from rfl]
  isplitr [HO Hx]
  · isplitl [Hcells]; · iexact Hcells
    isplitl [S100 S101 S110 S111 S120 S121 S140 S141 S142 S143]
    · isplitl [S100]; · iexact S100
      isplitl [S101]; · iexact S101
      isplitl [S110]; · iexact S110
      isplitl [S111]; · iexact S111
      isplitl [S120]; · iexact S120
      isplitl [S121]; · iexact S121
      isplitl [S140]; · iexact S140
      isplitl [S141]; · iexact S141
      isplitl [S142]; · iexact S142
      iexact S143
    isplitl [H1a H1b H2 H3 H4 H5 H6]
    · isplitl [H1a H1b]
      · iapply (arg1_join c _)
        isplitl [H1a]; · iexact H1a
        iexact H1b
      isplitl [H2]; · iexact H2
      isplitl [H3]; · iexact H3
      isplitl [H4]; · iexact H4
      isplitl [H5]; · iexact H5
      iexact H6
    isplitl [OU0 OU1 OU2 OU3]
    · iapply (out_join_at m c)
      rw [sep4 fun j : Fin 4 => (heldAt c (outM j) (acc2 m c j) : sProp 𝕄)]
      isplitl [OU0]; · iapply (heldAt_intro c (outM 0) (acc2 m c 0) _ (by exact ((G.out_read_writes c 0 ou0 _).trans ((G.ov_read_write c 0 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).1 _ (G.gr_val m c 2 0 _ rfl _ rg20 hrg20)))))) $$ OU0
      isplitl [OU1]; · iapply (heldAt_intro c (outM 1) (acc2 m c 1) _ (by exact ((G.out_read_writes c 1 ou1 _).trans ((G.ov_read_write c 1 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.1 _ (G.gr_val m c 2 1 _ rfl _ rg21 hrg21)))))) $$ OU1
      isplitl [OU2]; · iapply (heldAt_intro c (outM 2) (acc2 m c 2) _ (by exact ((G.out_read_writes c 2 ou2 _).trans ((G.ov_read_write c 2 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.2.1 _ (G.gr_val m c 2 2 _ rfl _ rg22 hrg22)))))) $$ OU2
      iapply (heldAt_intro c (outM 3) (acc2 m c 3) _ (by exact ((G.out_read_writes c 3 ou3 _).trans ((G.ov_read_write c 3 _ rfl _ _ _).trans ((G.res_H m c _ _ _ _ (gp_full_2H c m _ _ _ _ (hp_full_2H c m _ _ _ _ hgp1 rg10 rg11 rg12 rg13 hrg10 hrg11 hrg12 hrg13 _ _ _).2.1 hr20 hr21 hr22 hr23 hhr20 hhr21 hhr22 hhr23 _ _ _)).2.2.2 _ (G.gr_val m c 2 3 _ rfl _ rg23 hrg23)))))) $$ OU3

    isplitl [G00 G0c]
    · iapply (sc0_join c)
      isplitl [G00]; · iapply (heldS_close c wb0 _); iexact G00
      iapply (heldS_close c wbC _); iexact G0c
    isplitl [G1a G1b]
    · iapply (sc1_join c)
      isplitl [G1a]; · iapply (heldS_close c vbA _); iexact G1a
      iapply (heldS_close c vbB _); iexact G1b
    isplitl [G2]; · iexists _; iexact G2
    isplitl [G3]; · iexists _; iexact G3
    isplitl [HS00 HS01 HS02 HS03 HS10 HS11 HS12 HS13 HS20 HS21 HS22 HS23]
    · iapply (hs_join c)
      rw [sep12 fun lj : Fin 3 × Fin 4 => (heldS c (hsM lj.1 lj.2) : sProp 𝕄)]
      isplitl [HS00]; · iexact HS00
      isplitl [HS01]; · iexact HS01
      isplitl [HS02]; · iexact HS02
      isplitl [HS03]; · iexact HS03
      isplitl [HS10]; · iexact HS10
      isplitl [HS11]; · iexact HS11
      isplitl [HS12]; · iexact HS12
      isplitl [HS13]; · iexact HS13
      isplitl [HS20]; · iexact HS20
      isplitl [HS21]; · iexact HS21
      isplitl [HS22]; · iexact HS22
      iexact HS23
    isplitl [HR00 HR01 HR02 HR03 HR10 HR11 HR12 HR13 HR20 HR21 HR22 HR23]
    · iapply (hr_join c)
      rw [sep12 fun lj : Fin 3 × Fin 4 => (heldS c (hrM lj.1 lj.2) : sProp 𝕄)]
      isplitl [HR00]; · iapply (heldS_close c (hrM 0 0) _); iexact HR00
      isplitl [HR01]; · iapply (heldS_close c (hrM 0 1) _); iexact HR01
      isplitl [HR02]; · iapply (heldS_close c (hrM 0 2) _); iexact HR02
      isplitl [HR03]; · iapply (heldS_close c (hrM 0 3) _); iexact HR03
      isplitl [HR10]; · iapply (heldS_close c (hrM 1 0) _); iexact HR10
      isplitl [HR11]; · iapply (heldS_close c (hrM 1 1) _); iexact HR11
      isplitl [HR12]; · iapply (heldS_close c (hrM 1 2) _); iexact HR12
      isplitl [HR13]; · iapply (heldS_close c (hrM 1 3) _); iexact HR13
      isplitl [HR20]; · iapply (heldS_close c (hrM 2 0) _); iexact HR20
      isplitl [HR21]; · iapply (heldS_close c (hrM 2 1) _); iexact HR21
      isplitl [HR22]; · iapply (heldS_close c (hrM 2 2) _); iexact HR22
      iapply (heldS_close c (hrM 2 3) _); iexact HR23
    isplitl [GS00 GS01 GS02 GS03 GS10 GS11 GS12 GS13 GS20 GS21 GS22 GS23]
    · iapply (gs_join c)
      rw [sep12 fun lj : Fin 3 × Fin 4 => (heldS c (gsM lj.1 lj.2) : sProp 𝕄)]
      isplitl [GS00]; · iexact GS00
      isplitl [GS01]; · iexact GS01
      isplitl [GS02]; · iexact GS02
      isplitl [GS03]; · iexact GS03
      isplitl [GS10]; · iexact GS10
      isplitl [GS11]; · iexact GS11
      isplitl [GS12]; · iexact GS12
      isplitl [GS13]; · iexact GS13
      isplitl [GS20]; · iexact GS20
      isplitl [GS21]; · iexact GS21
      isplitl [GS22]; · iexact GS22
      iexact GS23
    isplitl [GR00 GR01 GR02 GR03 GR10 GR11 GR12 GR13 GR20 GR21 GR22 GR23]
    · iapply (gr_join c)
      rw [sep12 fun lj : Fin 3 × Fin 4 => (heldS c (grM lj.1 lj.2) : sProp 𝕄)]
      isplitl [GR00]; · iapply (heldS_close c (grM 0 0) _); iexact GR00
      isplitl [GR01]; · iapply (heldS_close c (grM 0 1) _); iexact GR01
      isplitl [GR02]; · iapply (heldS_close c (grM 0 2) _); iexact GR02
      isplitl [GR03]; · iapply (heldS_close c (grM 0 3) _); iexact GR03
      isplitl [GR10]; · iapply (heldS_close c (grM 1 0) _); iexact GR10
      isplitl [GR11]; · iapply (heldS_close c (grM 1 1) _); iexact GR11
      isplitl [GR12]; · iapply (heldS_close c (grM 1 2) _); iexact GR12
      isplitl [GR13]; · iapply (heldS_close c (grM 1 3) _); iexact GR13
      isplitl [GR20]; · iapply (heldS_close c (grM 2 0) _); iexact GR20
      isplitl [GR21]; · iapply (heldS_close c (grM 2 1) _); iexact GR21
      isplitl [GR22]; · iapply (heldS_close c (grM 2 2) _); iexact GR22
      iapply (heldS_close c (grM 2 3) _); iexact GR23
    iapply (ov_join c)
    rw [sep4 fun j : Fin 4 => (heldS c (ovM j) : sProp 𝕄)]
    isplitl [OV0]; · iapply (heldS_close c (ovM 0) _); iexact OV0
    isplitl [OV1]; · iapply (heldS_close c (ovM 1) _); iexact OV1
    isplitl [OV2]; · iapply (heldS_close c (ovM 2) _); iexact OV2
    iapply (heldS_close c (ovM 3) _); iexact OV3
  · isplitl [HO]
    · iexists _
      isplitr
      rotate_left
      · iexact HO
      · ipureintro; exact fun _ _ => Or.inl trivial
    · iexists _
      isplitr; · (ipureintro; rfl)
      iexact Hx

end Cert.Kernel.Hand

end
-- ==== Proof.BodyObK.lean ====
import proofs.«901003_g7700000000001004_dist_mlpseq_tp2d_cs_cs_b64_d1024_h2048_v7x_xy2x2_bf16_1_alg».proof.Proof.BodyK

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 65536 in

theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ (theBody (F := F)) (fun _ => bodyPost m c)
  unfold bodyPre' Φ₀
  iintro ⟨⟨⟨%K, Hg⟩, Hrest⟩, Ho, Hx⟩
  iapply (sound_body m K c fun _ => bodyPost m c)
  unfold bodyPre
  isplitr []
  · isplitl [Hg Hrest]
    · isplitl [Hg]; · iexact Hg
      iexact Hrest
    isplitl [Ho]; · iexact Ho
    iexact Hx
  · iintro H; iexact H

end Cert.Kernel.Hand

end
-- ==== Proof.Spec.lean ====
import Mathlib.Data.EReal.Basic
import Mathlib.Algebra.BigOperators.Fin
import Mathlib.Algebra.BigOperators.Group.Finset.Basic

noncomputable section

namespace Cert.Spec

open BigOperators

abbrev Mat (a b : ℕ) : Type := Fin a → Fin b → EReal

def mm {a k b : ℕ} (A : Mat a k) (B : Mat k b) : Mat a b := fun i j => ∑ t : Fin k, A i t * B t j

def relu {a b : ℕ} (A : Mat a b) : Mat a b := fun i j => max (A i j) 0

def madd {a b : ℕ} (A B : Mat a b) : Mat a b := fun i j => A i j + B i j

def layer (X : Mat 64 2048) (Win : Mat 2048 4096) (Wout : Mat 4096 2048) : Mat 64 2048 := mm (relu (mm X Win)) Wout

def mlp (X : Mat 64 2048) (W0 : Mat 2048 4096) (V0 : Mat 4096 2048) (W1 : Mat 2048 4096) (V1 : Mat 4096 2048)
    (W2 : Mat 2048 4096) (V2 : Mat 4096 2048) : Mat 64 2048 :=
  layer (layer (layer X W0 V0) W1 V1) W2 V2

def blk {R C : ℕ} (r c : ℕ) (A : Mat R C) (bi bj : ℕ) (hi : bi * r + r ≤ R) (hj : bj * c + c ≤ C) : Mat r c :=
  fun i j => A ⟨bi * r + i.val, by have := i.isLt; omega⟩ ⟨bj * c + j.val, by have := j.isLt; omega⟩

abbrev Dv : Type := Fin 2 × Fin 2

def yp (d : Dv) : Dv := (d.1, ⟨1 - d.2.val, by omega⟩)

def xp (d : Dv) : Dv := (⟨1 - d.1.val, by omega⟩, d.2)

def hD (acc : Dv → Mat 64 1024) (Win : Dv → Mat 1024 2048) (d : Dv) : Mat 64 2048 :=
  relu (madd (mm (acc d) (Win d)) (mm (acc (yp d)) (Win (yp d))))
def stepD (acc : Dv → Mat 64 1024) (Win : Dv → Mat 1024 2048) (Wout : Dv → Mat 2048 1024) (d : Dv) : Mat 64 1024 :=
  madd (mm (hD acc Win d) (Wout d)) (mm (hD acc Win (xp d)) (Wout (xp d)))

def mlpD (X : Dv → Mat 64 1024) (W0 : Dv → Mat 1024 2048) (V0 : Dv → Mat 2048 1024) (W1 : Dv → Mat 1024 2048) (V1 : Dv → Mat 2048 1024)
    (W2 : Dv → Mat 1024 2048) (V2 : Dv → Mat 2048 1024) : Dv → Mat 64 1024 :=
  stepD (stepD (stepD X W0 V0) W1 V1) W2 V2

def xB (X : Mat 64 2048) (d : Dv) : Mat 64 1024 := blk 64 1024 X 0 d.2.val (by omega) (by have := d.2.isLt; omega)
def winB (W : Mat 2048 4096) (d : Dv) : Mat 1024 2048 := blk 1024 2048 W d.2.val d.1.val (by have := d.2.isLt; omega) (by have := d.1.isLt; omega)
def woutB (V : Mat 4096 2048) (d : Dv) : Mat 2048 1024 := blk 2048 1024 V d.1.val d.2.val (by have := d.1.isLt; omega) (by have := d.2.isLt; omega)

private theorem sum_halves {M : Type*} [AddCommMonoid M] {n N : ℕ} (hN : N = n + n) (g : Fin N → M) :
    ∑ t : Fin N, g t
      = (∑ t : Fin n, g ⟨0 * n + t.val, by have := t.isLt; omega⟩)
        + ∑ t : Fin n, g ⟨1 * n + t.val, by have := t.isLt; omega⟩ := by
  subst hN
  rw [Fin.sum_univ_add]
  congr 1 <;> refine Finset.sum_congr rfl (fun t _ => congrArg g (Fin.ext ?_)) <;>
    simp only [Fin.coe_castAdd, Fin.coe_natAdd] <;> omega

private theorem idx_lt {n N q t : ℕ} (hN : N = n + n) (hq : q < 2) (ht : t < n) : q * n + t < N := by
  have h : q * n ≤ 1 * n := Nat.mul_le_mul_right n (by omega)
  omega

private theorem sum_pair {M : Type*} [AddCommMonoid M] {n N : ℕ} (hN : N = n + n) (g : Fin N → M) (q : ℕ) (hq : q < 2) :
    (∑ t : Fin n, g ⟨q * n + t.val, idx_lt hN hq t.isLt⟩)
      + (∑ t : Fin n, g ⟨(1 - q) * n + t.val, idx_lt hN (by omega) t.isLt⟩)
      = ∑ t : Fin N, g t := by
  rw [sum_halves hN g]
  obtain rfl | rfl : q = 0 ∨ q = 1 := by omega
  · rfl
  · exact add_comm _ _

theorem hD_block (X : Mat 64 2048) (W : Mat 2048 4096) (d : Dv) :
    hD (xB X) (winB W) d
      = blk 64 2048 (relu (mm X W)) 0 d.1.val (by omega) (by have := d.1.isLt; omega) := by
  funext i j
  show max (_ + _) 0 = max _ 0
  congr 1
  exact sum_pair (n := 1024) (N := 2048) rfl
    (fun t => X ⟨0 * 64 + i.val, by have := i.isLt; omega⟩ t
      * W t ⟨d.1.val * 2048 + j.val, by have := j.isLt; have := d.1.isLt; omega⟩)
    d.2.val d.2.isLt

theorem stepD_block (X : Mat 64 2048) (W : Mat 2048 4096) (V : Mat 4096 2048) :
    stepD (xB X) (winB W) (woutB V) = xB (layer X W V) := by
  funext d i j
  unfold stepD
  rw [hD_block, hD_block]
  show _ + _ = _
  exact sum_pair (n := 2048) (N := 4096) rfl
    (fun t => relu (mm X W) ⟨0 * 64 + i.val, by have := i.isLt; omega⟩ t
      * V t ⟨d.2.val * 1024 + j.val, by have := j.isLt; have := d.2.isLt; omega⟩)
    d.1.val d.1.isLt

theorem mlpD_eq_block (X : Mat 64 2048) (W0 : Mat 2048 4096) (V0 : Mat 4096 2048) (W1 : Mat 2048 4096) (V1 : Mat 4096 2048)
    (W2 : Mat 2048 4096) (V2 : Mat 4096 2048) (d : Dv) :
    mlpD (xB X) (winB W0) (woutB V0) (winB W1) (woutB V1) (winB W2) (woutB V2) d
      = xB (mlp X W0 V0 W1 V1 W2 V2) d := by
  unfold mlpD mlp
  rw [stepD_block, stepD_block, stepD_block]

end Cert.Spec

end
-- ==== Proof.Ref.lean ====
import proofs.«901003_g7700000000001004_dist_mlpseq_tp2d_cs_cs_b64_d1024_h2048_v7x_xy2x2_bf16_1_alg».proof.Defs
import proofs.«901003_g7700000000001004_dist_mlpseq_tp2d_cs_cs_b64_d1024_h2048_v7x_xy2x2_bf16_1_alg».proof.Proof.Gen.ReferenceIdeal
import proofs.«901003_g7700000000001004_dist_mlpseq_tp2d_cs_cs_b64_d1024_h2048_v7x_xy2x2_bf16_1_alg».proof.Proof.Gen.ReferenceIdeal.Run
import proofs.«901003_g7700000000001004_dist_mlpseq_tp2d_cs_cs_b64_d1024_h2048_v7x_xy2x2_bf16_1_alg».proof.Proof.Gen.ReferenceIdeal.Read
import proofs.«901003_g7700000000001004_dist_mlpseq_tp2d_cs_cs_b64_d1024_h2048_v7x_xy2x2_bf16_1_alg».proof.Proof.Spec
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.TcCoe Idealize.SL.Sem Idealize.ShloMosaic.StableHlo
open Cert.ReferenceIdeal.Read
open BigOperators

def mat {a b : ℕ} (v : FVec Ideal ⟨2, ![a, b]⟩ .f32) : Cert.Spec.Mat a b := fun i j => v (ValueIdx.ix2 i j)

def refTerm (x : FVec Ideal S64x2048 .f32) (w0 : FVec Ideal S2048x4096 .f32) (v0 : FVec Ideal S4096x2048 .f32)
    (w1 : FVec Ideal S2048x4096 .f32) (v1 : FVec Ideal S4096x2048 .f32)
    (w2 : FVec Ideal S2048x4096 .f32) (v2 : FVec Ideal S4096x2048 .f32) : FVec Ideal S64x2048 .f32 :=
  Host.dotGeneral (F := Ideal) dot_S64x4096_S4096x2048_S64x2048_1_0_0_1_n_n none (maximumf (F := Ideal) (Host.dotGeneral (F := Ideal) dot_S64x2048_S2048x4096_S64x4096_1_0_0_1_n_n none (Host.dotGeneral (F := Ideal) dot_S64x4096_S4096x2048_S64x2048_1_0_0_1_n_n none (maximumf (F := Ideal) (Host.dotGeneral (F := Ideal) dot_S64x2048_S2048x4096_S64x4096_1_0_0_1_n_n none (Host.dotGeneral (F := Ideal) dot_S64x4096_S4096x2048_S64x2048_1_0_0_1_n_n none (maximumf (F := Ideal) (Host.dotGeneral (F := Ideal) dot_S64x2048_S2048x4096_S64x4096_1_0_0_1_n_n none (x) (w0)) (broadcastInDim S64x4096 ![] bcast_S_S64x4096 (constant (F := Ideal) S_ .f32 0x00000000#32))) (v0)) (w1)) (broadcastInDim S64x4096 ![] bcast_S_S64x4096 (constant (F := Ideal) S_ .f32 0x00000000#32))) (v1)) (w2)) (broadcastInDim S64x4096 ![] bcast_S_S64x4096 (constant (F := Ideal) S_ .f32 0x00000000#32))) (v2)

theorem mat_max_zero (y : FVec Ideal S64x4096 .f32) :
    mat (maximumf (F := Ideal) (y) (broadcastInDim S64x4096 ![] bcast_S_S64x4096 (constant (F := Ideal) S_ .f32 0x00000000#32))) = Cert.Spec.relu (mat y) := by
  funext i j
  show max (y (ValueIdx.ix2 i j)) ((broadcastInDim S64x4096 ![] bcast_S_S64x4096 (constant (F := Ideal) S_ .f32 0x00000000#32)) (ValueIdx.ix2 i j)) = max (y (ValueIdx.ix2 i j)) 0
  rw [broadcastInDim_apply _ bcast_S_S64x4096 _ (ValueIdx.ix2 i j) (fun a => a.elim0) (fun a => a.elim0)]
  show max (y (ValueIdx.ix2 i j)) (Ideal.ofBits .f32 0x00000000#32) = max (y (ValueIdx.ix2 i j)) 0
  rw [Ideal.ofBits_zero_f32]

theorem mat_v0 (x : FVec Ideal S64x2048 .f32) (w0 : FVec Ideal S2048x4096 .f32) :
    mat (val_main_v0 (F := Ideal) x w0) = Cert.Spec.mm (mat x) (mat w0) := by
  funext i j
  show val_main_v0 (F := Ideal) x w0 (ValueIdx.ix2 i j)
    = ∑ t : Fin 2048, x (ValueIdx.ix2 i t) * w0 (ValueIdx.ix2 t j)
  rw [val_main_v0_apply]
  refine Finset.sum_congr rfl fun k _ => ?_
  have el : lidx_main_v0 (ValueIdx.ix2 i j) k = ValueIdx.ix2 i k := funext fun a => by match a with | ⟨0, _⟩ => rfl | ⟨1, _⟩ => rfl
  have er : ridx_main_v0 (ValueIdx.ix2 i j) k = ValueIdx.ix2 k j := funext fun a => by match a with | ⟨0, _⟩ => rfl | ⟨1, _⟩ => rfl
  rw [el, er]

theorem mat_v2 (x : FVec Ideal S64x2048 .f32) (w0 : FVec Ideal S2048x4096 .f32) :
    mat (val_main_v2 (F := Ideal) x w0) = Cert.Spec.relu (mat (val_main_v0 (F := Ideal) x w0)) :=
  mat_max_zero _

theorem mat_v3 (x : FVec Ideal S64x2048 .f32) (w0 : FVec Ideal S2048x4096 .f32) (v0 : FVec Ideal S4096x2048 .f32) :
    mat (val_main_v3 (F := Ideal) x w0 v0) = Cert.Spec.mm (mat (val_main_v2 (F := Ideal) x w0)) (mat v0) := by
  funext i j
  show val_main_v3 (F := Ideal) x w0 v0 (ValueIdx.ix2 i j)
    = ∑ t : Fin 4096, (val_main_v2 (F := Ideal) x w0) (ValueIdx.ix2 i t) * v0 (ValueIdx.ix2 t j)
  rw [val_main_v3_apply]
  refine Finset.sum_congr rfl fun k _ => ?_
  have el : lidx_main_v3 (ValueIdx.ix2 i j) k = ValueIdx.ix2 i k := funext fun a => by match a with | ⟨0, _⟩ => rfl | ⟨1, _⟩ => rfl
  have er : ridx_main_v3 (ValueIdx.ix2 i j) k = ValueIdx.ix2 k j := funext fun a => by match a with | ⟨0, _⟩ => rfl | ⟨1, _⟩ => rfl
  rw [el, er]

theorem mat_v4 (x : FVec Ideal S64x2048 .f32) (w0 : FVec Ideal S2048x4096 .f32) (v0 : FVec Ideal S4096x2048 .f32) (w1 : FVec Ideal S2048x4096 .f32) :
    mat (val_main_v4 (F := Ideal) x w0 v0 w1) = Cert.Spec.mm (mat (val_main_v3 (F := Ideal) x w0 v0)) (mat w1) := by
  funext i j
  show val_main_v4 (F := Ideal) x w0 v0 w1 (ValueIdx.ix2 i j)
    = ∑ t : Fin 2048, (val_main_v3 (F := Ideal) x w0 v0) (ValueIdx.ix2 i t) * w1 (ValueIdx.ix2 t j)
  rw [val_main_v4_apply]
  refine Finset.sum_congr rfl fun k _ => ?_
  have el : lidx_main_v4 (ValueIdx.ix2 i j) k = ValueIdx.ix2 i k := funext fun a => by match a with | ⟨0, _⟩ => rfl | ⟨1, _⟩ => rfl
  have er : ridx_main_v4 (ValueIdx.ix2 i j) k = ValueIdx.ix2 k j := funext fun a => by match a with | ⟨0, _⟩ => rfl | ⟨1, _⟩ => rfl
  rw [el, er]

theorem mat_v6 (x : FVec Ideal S64x2048 .f32) (w0 : FVec Ideal S2048x4096 .f32) (v0 : FVec Ideal S4096x2048 .f32) (w1 : FVec Ideal S2048x4096 .f32) :
    mat (val_main_v6 (F := Ideal) x w0 v0 w1) = Cert.Spec.relu (mat (val_main_v4 (F := Ideal) x w0 v0 w1)) :=
  mat_max_zero _

theorem mat_v7 (x : FVec Ideal S64x2048 .f32) (w0 : FVec Ideal S2048x4096 .f32) (v0 : FVec Ideal S4096x2048 .f32) (w1 : FVec Ideal S2048x4096 .f32) (v1 : FVec Ideal S4096x2048 .f32) :
    mat (val_main_v7 (F := Ideal) x w0 v0 w1 v1) = Cert.Spec.mm (mat (val_main_v6 (F := Ideal) x w0 v0 w1)) (mat v1) := by
  funext i j
  show val_main_v7 (F := Ideal) x w0 v0 w1 v1 (ValueIdx.ix2 i j)
    = ∑ t : Fin 4096, (val_main_v6 (F := Ideal) x w0 v0 w1) (ValueIdx.ix2 i t) * v1 (ValueIdx.ix2 t j)
  rw [val_main_v7_apply]
  refine Finset.sum_congr rfl fun k _ => ?_
  have el : lidx_main_v7 (ValueIdx.ix2 i j) k = ValueIdx.ix2 i k := funext fun a => by match a with | ⟨0, _⟩ => rfl | ⟨1, _⟩ => rfl
  have er : ridx_main_v7 (ValueIdx.ix2 i j) k = ValueIdx.ix2 k j := funext fun a => by match a with | ⟨0, _⟩ => rfl | ⟨1, _⟩ => rfl
  rw [el, er]

theorem mat_v8 (x : FVec Ideal S64x2048 .f32) (w0 : FVec Ideal S2048x4096 .f32) (v0 : FVec Ideal S4096x2048 .f32) (w1 : FVec Ideal S2048x4096 .f32) (v1 : FVec Ideal S4096x2048 .f32) (w2 : FVec Ideal S2048x4096 .f32) :
    mat (val_main_v8 (F := Ideal) x w0 v0 w1 v1 w2) = Cert.Spec.mm (mat (val_main_v7 (F := Ideal) x w0 v0 w1 v1)) (mat w2) := by
  funext i j
  show val_main_v8 (F := Ideal) x w0 v0 w1 v1 w2 (ValueIdx.ix2 i j)
    = ∑ t : Fin 2048, (val_main_v7 (F := Ideal) x w0 v0 w1 v1) (ValueIdx.ix2 i t) * w2 (ValueIdx.ix2 t j)
  rw [val_main_v8_apply]
  refine Finset.sum_congr rfl fun k _ => ?_
  have el : lidx_main_v8 (ValueIdx.ix2 i j) k = ValueIdx.ix2 i k := funext fun a => by match a with | ⟨0, _⟩ => rfl | ⟨1, _⟩ => rfl
  have er : ridx_main_v8 (ValueIdx.ix2 i j) k = ValueIdx.ix2 k j := funext fun a => by match a with | ⟨0, _⟩ => rfl | ⟨1, _⟩ => rfl
  rw [el, er]

theorem mat_v10 (x : FVec Ideal S64x2048 .f32) (w0 : FVec Ideal S2048x4096 .f32) (v0 : FVec Ideal S4096x2048 .f32) (w1 : FVec Ideal S2048x4096 .f32) (v1 : FVec Ideal S4096x2048 .f32) (w2 : FVec Ideal S2048x4096 .f32) :
    mat (val_main_v10 (F := Ideal) x w0 v0 w1 v1 w2) = Cert.Spec.relu (mat (val_main_v8 (F := Ideal) x w0 v0 w1 v1 w2)) :=
  mat_max_zero _

theorem mat_v11 (x : FVec Ideal S64x2048 .f32) (w0 : FVec Ideal S2048x4096 .f32) (v0 : FVec Ideal S4096x2048 .f32) (w1 : FVec Ideal S2048x4096 .f32) (v1 : FVec Ideal S4096x2048 .f32) (w2 : FVec Ideal S2048x4096 .f32) (v2 : FVec Ideal S4096x2048 .f32) :
    mat (val_main_v11 (F := Ideal) x w0 v0 w1 v1 w2 v2) = Cert.Spec.mm (mat (val_main_v10 (F := Ideal) x w0 v0 w1 v1 w2)) (mat v2) := by
  funext i j
  show val_main_v11 (F := Ideal) x w0 v0 w1 v1 w2 v2 (ValueIdx.ix2 i j)
    = ∑ t : Fin 4096, (val_main_v10 (F := Ideal) x w0 v0 w1 v1 w2) (ValueIdx.ix2 i t) * v2 (ValueIdx.ix2 t j)
  rw [val_main_v11_apply]
  refine Finset.sum_congr rfl fun k _ => ?_
  have el : lidx_main_v11 (ValueIdx.ix2 i j) k = ValueIdx.ix2 i k := funext fun a => by match a with | ⟨0, _⟩ => rfl | ⟨1, _⟩ => rfl
  have er : ridx_main_v11 (ValueIdx.ix2 i j) k = ValueIdx.ix2 k j := funext fun a => by match a with | ⟨0, _⟩ => rfl | ⟨1, _⟩ => rfl
  rw [el, er]

theorem mat_refTerm (x : FVec Ideal S64x2048 .f32) (w0 : FVec Ideal S2048x4096 .f32) (v0 : FVec Ideal S4096x2048 .f32)
    (w1 : FVec Ideal S2048x4096 .f32) (v1 : FVec Ideal S4096x2048 .f32)
    (w2 : FVec Ideal S2048x4096 .f32) (v2 : FVec Ideal S4096x2048 .f32) :
    mat (refTerm x w0 v0 w1 v1 w2 v2)
      = Cert.Spec.mlp (mat x) (mat w0) (mat v0) (mat w1) (mat v1) (mat w2) (mat v2) := by
  show mat (val_main_v11 (F := Ideal) x w0 v0 w1 v1 w2 v2) = _
  rw [mat_v11, mat_v10, mat_v8, mat_v7, mat_v6, mat_v4, mat_v3, mat_v2, mat_v0]
  rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11)
        = refTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

end Cert.RefValue

end
-- ==== Proof.SpecChunks.lean ====
import proofs.«901003_g7700000000001004_dist_mlpseq_tp2d_cs_cs_b64_d1024_h2048_v7x_xy2x2_bf16_1_alg».proof.Proof.Spec
import Mathlib.Algebra.BigOperators.Fin

noncomputable section

namespace Cert.Spec

open BigOperators

theorem chunk_lt {w n j k : ℕ} (hj : j < n) (hk : k < w) : j * w + k < n * w := by
  have h : (j + 1) * w ≤ n * w := Nat.mul_le_mul_right w hj
  have e : (j + 1) * w = j * w + 1 * w := Nat.add_mul j 1 w
  omega

def colsC {a : ℕ} (w n : ℕ) (A : Mat a (n * w)) (j : Fin n) : Mat a w :=
  fun i k => A i ⟨j.val * w + k.val, chunk_lt j.isLt k.isLt⟩

def rowsC {b : ℕ} (w n : ℕ) (B : Mat (n * w) b) (j : Fin n) : Mat w b :=
  fun k t => B ⟨j.val * w + k.val, chunk_lt j.isLt k.isLt⟩ t

private theorem sum_quarters_aux {M : Type*} [AddCommMonoid M] {w N : ℕ} (hN : N = w + w + w + w) (g : Fin N → M) :
    ∑ t : Fin N, g t
      = ((∑ k : Fin w, g ⟨0 * w + k.val, by have := k.isLt; omega⟩
          + ∑ k : Fin w, g ⟨1 * w + k.val, by have := k.isLt; omega⟩)
          + ∑ k : Fin w, g ⟨2 * w + k.val, by have := k.isLt; omega⟩)
          + ∑ k : Fin w, g ⟨3 * w + k.val, by have := k.isLt; omega⟩ := by
  subst hN
  rw [Fin.sum_univ_add, Fin.sum_univ_add, Fin.sum_univ_add]
  congr 1
  congr 1
  congr 1
  all_goals refine Finset.sum_congr rfl (fun t _ => congrArg g (Fin.ext ?_))
  all_goals simp only [Fin.coe_castAdd, Fin.coe_natAdd]
  all_goals omega

theorem sum_quarters {M : Type*} [AddCommMonoid M] (w : ℕ) (g : Fin (4 * w) → M) :
    ∑ t : Fin (4 * w), g t
      = ((∑ k : Fin w, g ⟨(0 : Fin 4).val * w + k.val, chunk_lt (0 : Fin 4).isLt k.isLt⟩
          + ∑ k : Fin w, g ⟨(1 : Fin 4).val * w + k.val, chunk_lt (1 : Fin 4).isLt k.isLt⟩)
          + ∑ k : Fin w, g ⟨(2 : Fin 4).val * w + k.val, chunk_lt (2 : Fin 4).isLt k.isLt⟩)
          + ∑ k : Fin w, g ⟨(3 : Fin 4).val * w + k.val, chunk_lt (3 : Fin 4).isLt k.isLt⟩ :=
  sum_quarters_aux (by omega) g

theorem mm_split4 {a b : ℕ} (w : ℕ) (A : Mat a (4 * w)) (B : Mat (4 * w) b) :
    mm A B = fun i t =>
      ((mm (colsC w 4 A 0) (rowsC w 4 B 0) i t + mm (colsC w 4 A 1) (rowsC w 4 B 1) i t)
        + mm (colsC w 4 A 2) (rowsC w 4 B 2) i t)
        + mm (colsC w 4 A 3) (rowsC w 4 B 3) i t := by
  funext i t
  exact sum_quarters w (fun s => A i s * B s t)

def dvOf (c : Fin 4) : Dv := (⟨c.val / 2, by have := c.isLt; omega⟩, ⟨c.val % 2, by omega⟩)

theorem dvOf_xp (c : Fin 4) :
    dvOf ⟨((c.val % 2) + 2) - 2 * (c.val / 2), by have := c.isLt; omega⟩ = xp (dvOf c) := by
  revert c; decide

theorem dvOf_yp (c : Fin 4) :
    dvOf ⟨(2 * (c.val / 2) + 1) - (c.val % 2), by have := c.isLt; omega⟩ = yp (dvOf c) := by
  revert c; decide

end Cert.Spec

end
-- ==== Proof.Dict.lean ====
import proofs.«901003_g7700000000001004_dist_mlpseq_tp2d_cs_cs_b64_d1024_h2048_v7x_xy2x2_bf16_1_alg».proof.Proof.Vals
import proofs.«901003_g7700000000001004_dist_mlpseq_tp2d_cs_cs_b64_d1024_h2048_v7x_xy2x2_bf16_1_alg».proof.Proof.Ref
import proofs.«901003_g7700000000001004_dist_mlpseq_tp2d_cs_cs_b64_d1024_h2048_v7x_xy2x2_bf16_1_alg».proof.Proof.SpecChunks

noncomputable section

namespace Cert.KernelIdeal.KValue

open Cert.KernelIdeal Cert.KernelIdeal.Gen Cert.KernelIdeal.Hand
open Idealize.ShloMosaic
open Idealize.ShloMosaic.TcCoe
open Cert.RefValue (mat)

def devOf (d : Cert.Spec.Dv) : Dev nD := ⟨2 * d.1.val + d.2.val, by have := d.1.isLt; have := d.2.isLt; show _ < 4; omega⟩

theorem devOf_dvOf (c : Dev nD) : devOf (Cert.Spec.dvOf c) = c := by revert c; decide
theorem dvOf_devOf (d : Cert.Spec.Dv) : Cert.Spec.dvOf (devOf d) = d := by revert d; decide

variable (m : (ℓ : Loc nD τ sig) → Buf (Elt Ideal) ℓ)

def XD (d : Cert.Spec.Dv) : Cert.Spec.Mat 64 1024 := mat (xA (F := Ideal) m (devOf d))
def WD (l : Fin 3) (d : Cert.Spec.Dv) : Cert.Spec.Mat 1024 2048 := mat (winA (F := Ideal) m l (devOf d))
def VD (l : Fin 3) (d : Cert.Spec.Dv) : Cert.Spec.Mat 2048 1024 := mat (woutA (F := Ideal) m l (devOf d))

end Cert.KernelIdeal.KValue

end
-- ==== Proof.KValue.lean ====
import proofs.«901003_g7700000000001004_dist_mlpseq_tp2d_cs_cs_b64_d1024_h2048_v7x_xy2x2_bf16_1_alg».proof.Proof.Dict
import Idealize.ShloMosaic.PureOps.Ideal.Laws
import Idealize.ShloMosaic.Lib.ValueIdx
import Idealize.ShloMosaic.Lib.Pipeline.Value

noncomputable section

namespace Cert.KernelIdeal.KValue

open Cert.KernelIdeal Cert.KernelIdeal.Gen Cert.KernelIdeal.Hand
open Idealize.ShloMosaic Idealize.ShloMosaic.TcCoe Idealize.SL.Sem
open Cert.RefValue (mat)
open BigOperators

def matN {a b : ℕ} (v : FVec Ideal ⟨2, ![a, b]⟩ .bf16) : Cert.Spec.Mat a b := fun i j => v (ValueIdx.ix2 i j)

theorem matN_truncf {a b : ℕ} (v : FVec Ideal ⟨2, ![a, b]⟩ .f32) (h : FTy.bits .bf16 < FTy.bits .f32) :
    matN (truncf .bf16 v h) = mat v := rfl

theorem mat_max_zero {a b : ℕ} (u : FVec Ideal ⟨2, ![a, b]⟩ .f32) :
    mat (maximumf u (broadcast ⟨2, ![a, b]⟩ (Scalar.ofBits (F := Ideal) .f32 0x00000000#32))) = Cert.Spec.relu (mat u) := by
  funext i j
  show max (u (ValueIdx.ix2 i j)) (Ideal.ofBits .f32 0x00000000#32) = max (u (ValueIdx.ix2 i j)) 0
  rw [Ideal.ofBits_zero_f32]

theorem lhsA_0 (i : S64x512.Idx) (q : dot_S64x1024_S1024x512_S64x512_1_0_0_1_n_n.contr.Idx) :
    (dot_S64x1024_S1024x512_S64x512_1_0_0_1_n_n.lhsIdx i q 0).val = (i 0).val := by
  unfold DotDims.lhsIdx
  rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
  rfl
theorem lhsA_1 (i : S64x512.Idx) (q : dot_S64x1024_S1024x512_S64x512_1_0_0_1_n_n.contr.Idx) :
    (dot_S64x1024_S1024x512_S64x512_1_0_0_1_n_n.lhsIdx i q 1).val = (q ⟨0, by decide⟩).val :=
  dot_S64x1024_S1024x512_S64x512_1_0_0_1_n_n.lhsIdx_val_of_single rfl i q
theorem rhsA_0 (i : S64x512.Idx) (q : dot_S64x1024_S1024x512_S64x512_1_0_0_1_n_n.contr.Idx) :
    (dot_S64x1024_S1024x512_S64x512_1_0_0_1_n_n.rhsIdx i q 0).val = (q ⟨0, by decide⟩).val :=
  dot_S64x1024_S1024x512_S64x512_1_0_0_1_n_n.rhsIdx_val_of_single rfl i q
theorem rhsA_1 (i : S64x512.Idx) (q : dot_S64x1024_S1024x512_S64x512_1_0_0_1_n_n.contr.Idx) :
    (dot_S64x1024_S1024x512_S64x512_1_0_0_1_n_n.rhsIdx i q 1).val = (i 1).val := by
  unfold DotDims.rhsIdx
  rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
  rfl

theorem mat_matmulA (l : FVec Ideal S64x1024 .bf16) (r : FVec Ideal S1024x512 .bf16) :
    mat (matmul (F := Ideal) dot_S64x1024_S1024x512_S64x512_1_0_0_1_n_n none l r (constant (F := Ideal) S64x512 .f32 0x00000000#32))
      = Cert.Spec.mm (matN l) (matN r) := by
  funext i j
  show FloatOps.matmul dot_S64x1024_S1024x512_S64x512_1_0_0_1_n_n none l r (constant (F := Ideal) S64x512 .f32 0x00000000#32) (ValueIdx.ix2 i j)
    = ∑ t : Fin 1024, l (ValueIdx.ix2 i t) * r (ValueIdx.ix2 t j)
  rw [Ideal.matmul_constant_zero_apply, ← Equiv.sum_comp (ValueIdx.contrEquiv1 dot_S64x1024_S1024x512_S64x512_1_0_0_1_n_n 1024 rfl rfl).symm]
  refine Finset.sum_congr rfl fun k _ => ?_
  have hk := ValueIdx.contrEquiv1_symm_val dot_S64x1024_S1024x512_S64x512_1_0_0_1_n_n 1024 rfl rfl k
  have el : dot_S64x1024_S1024x512_S64x512_1_0_0_1_n_n.lhsIdx (ValueIdx.ix2 i j) ((ValueIdx.contrEquiv1 dot_S64x1024_S1024x512_S64x512_1_0_0_1_n_n 1024 rfl rfl).symm k) = ValueIdx.ix2 i k := funext fun a => Fin.ext (by
    match a with
    | ⟨0, _⟩ => exact lhsA_0 _ _
    | ⟨1, _⟩ => exact (lhsA_1 _ _).trans hk)
  have er : dot_S64x1024_S1024x512_S64x512_1_0_0_1_n_n.rhsIdx (ValueIdx.ix2 i j) ((ValueIdx.contrEquiv1 dot_S64x1024_S1024x512_S64x512_1_0_0_1_n_n 1024 rfl rfl).symm k) = ValueIdx.ix2 k j := funext fun a => Fin.ext (by
    match a with
    | ⟨0, _⟩ => exact (rhsA_0 _ _).trans hk
    | ⟨1, _⟩ => exact rhsA_1 _ _)
  rw [el, er]

theorem lhsB_0 (i : S64x1024.Idx) (q : dot_S64x512_S512x1024_S64x1024_1_0_0_1_n_n.contr.Idx) :
    (dot_S64x512_S512x1024_S64x1024_1_0_0_1_n_n.lhsIdx i q 0).val = (i 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem lhsB_1 (i : S64x1024.Idx) (q : dot_S64x512_S512x1024_S64x1024_1_0_0_1_n_n.contr.Idx) :
    (dot_S64x512_S512x1024_S64x1024_1_0_0_1_n_n.lhsIdx i q 1).val = (q ⟨0, by decide⟩).val :=
  dot_S64x512_S512x1024_S64x1024_1_0_0_1_n_n.lhsIdx_val_of_single rfl i q
theorem rhsB_0 (i : S64x1024.Idx) (q : dot_S64x512_S512x1024_S64x1024_1_0_0_1_n_n.contr.Idx) :
    (dot_S64x512_S512x1024_S64x1024_1_0_0_1_n_n.rhsIdx i q 0).val = (q ⟨0, by decide⟩).val :=
  dot_S64x512_S512x1024_S64x1024_1_0_0_1_n_n.rhsIdx_val_of_single rfl i q
theorem rhsB_1 (i : S64x1024.Idx) (q : dot_S64x512_S512x1024_S64x1024_1_0_0_1_n_n.contr.Idx) :
    (dot_S64x512_S512x1024_S64x1024_1_0_0_1_n_n.rhsIdx i q 1).val = (i 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

theorem mat_matmulB (l : FVec Ideal S64x512 .bf16) (r : FVec Ideal S512x1024 .bf16) :
    mat (matmul (F := Ideal) dot_S64x512_S512x1024_S64x1024_1_0_0_1_n_n none l r (constant (F := Ideal) S64x1024 .f32 0x00000000#32))
      = Cert.Spec.mm (matN l) (matN r) := by
  funext i j
  show FloatOps.matmul dot_S64x512_S512x1024_S64x1024_1_0_0_1_n_n none l r (constant (F := Ideal) S64x1024 .f32 0x00000000#32) (ValueIdx.ix2 i j)
    = ∑ t : Fin 512, l (ValueIdx.ix2 i t) * r (ValueIdx.ix2 t j)
  rw [Ideal.matmul_constant_zero_apply, ← Equiv.sum_comp (ValueIdx.contrEquiv1 dot_S64x512_S512x1024_S64x1024_1_0_0_1_n_n 512 rfl rfl).symm]
  refine Finset.sum_congr rfl fun k _ => ?_
  have hk := ValueIdx.contrEquiv1_symm_val dot_S64x512_S512x1024_S64x1024_1_0_0_1_n_n 512 rfl rfl k
  have el : dot_S64x512_S512x1024_S64x1024_1_0_0_1_n_n.lhsIdx (ValueIdx.ix2 i j) ((ValueIdx.contrEquiv1 dot_S64x512_S512x1024_S64x1024_1_0_0_1_n_n 512 rfl rfl).symm k) = ValueIdx.ix2 i k := funext fun a => Fin.ext (by
    match a with
    | ⟨0, _⟩ => exact lhsB_0 _ _
    | ⟨1, _⟩ => exact (lhsB_1 _ _).trans hk)
  have er : dot_S64x512_S512x1024_S64x1024_1_0_0_1_n_n.rhsIdx (ValueIdx.ix2 i j) ((ValueIdx.contrEquiv1 dot_S64x512_S512x1024_S64x1024_1_0_0_1_n_n 512 rfl rfl).symm k) = ValueIdx.ix2 k j := funext fun a => Fin.ext (by
    match a with
    | ⟨0, _⟩ => exact (rhsB_0 _ _).trans hk
    | ⟨1, _⟩ => exact rhsB_1 _ _)
  rw [el, er]

theorem lhsC_0 (i : S64x2048.Idx) (q : dot_S64x256_S256x2048_S64x2048_1_0_0_1_n_n.contr.Idx) :
    (dot_S64x256_S256x2048_S64x2048_1_0_0_1_n_n.lhsIdx i q 0).val = (i 0).val := by
  unfold DotDims.lhsIdx
  rw [dif_neg (show ¬(0 : Fin S64x256.rank) ∈ dot_S64x256_S256x2048_S64x2048_1_0_0_1_n_n.lhsBatch by decide), dif_pos (show (0 : Fin S64x256.rank) ∈ dot_S64x256_S256x2048_S64x2048_1_0_0_1_n_n.lhsNonContracting by decide)]
  rfl
theorem lhsC_1 (i : S64x2048.Idx) (q : dot_S64x256_S256x2048_S64x2048_1_0_0_1_n_n.contr.Idx) :
    (dot_S64x256_S256x2048_S64x2048_1_0_0_1_n_n.lhsIdx i q 1).val = (q ⟨0, by decide⟩).val :=
  dot_S64x256_S256x2048_S64x2048_1_0_0_1_n_n.lhsIdx_val_of_single rfl i q
theorem rhsC_0 (i : S64x2048.Idx) (q : dot_S64x256_S256x2048_S64x2048_1_0_0_1_n_n.contr.Idx) :
    (dot_S64x256_S256x2048_S64x2048_1_0_0_1_n_n.rhsIdx i q 0).val = (q ⟨0, by decide⟩).val :=
  dot_S64x256_S256x2048_S64x2048_1_0_0_1_n_n.rhsIdx_val_of_single rfl i q
theorem rhsC_1 (i : S64x2048.Idx) (q : dot_S64x256_S256x2048_S64x2048_1_0_0_1_n_n.contr.Idx) :
    (dot_S64x256_S256x2048_S64x2048_1_0_0_1_n_n.rhsIdx i q 1).val = (i 1).val := by
  unfold DotDims.rhsIdx
  rw [dif_neg (show ¬(1 : Fin S256x2048.rank) ∈ dot_S64x256_S256x2048_S64x2048_1_0_0_1_n_n.rhsBatch by decide), dif_pos (show (1 : Fin S256x2048.rank) ∈ dot_S64x256_S256x2048_S64x2048_1_0_0_1_n_n.rhsNonContracting by decide)]
  rfl

theorem mat_matmulC (l : FVec Ideal S64x256 .bf16) (r : FVec Ideal S256x2048 .bf16) :
    mat (matmul (F := Ideal) dot_S64x256_S256x2048_S64x2048_1_0_0_1_n_n none l r (constant (F := Ideal) S64x2048 .f32 0x00000000#32))
      = Cert.Spec.mm (matN l) (matN r) := by
  funext i j
  show FloatOps.matmul dot_S64x256_S256x2048_S64x2048_1_0_0_1_n_n none l r (constant (F := Ideal) S64x2048 .f32 0x00000000#32) (ValueIdx.ix2 i j)
    = ∑ t : Fin 256, l (ValueIdx.ix2 i t) * r (ValueIdx.ix2 t j)
  rw [Ideal.matmul_constant_zero_apply, ← Equiv.sum_comp (ValueIdx.contrEquiv1 dot_S64x256_S256x2048_S64x2048_1_0_0_1_n_n 256 rfl rfl).symm]
  refine Finset.sum_congr rfl fun k _ => ?_
  have hk := ValueIdx.contrEquiv1_symm_val dot_S64x256_S256x2048_S64x2048_1_0_0_1_n_n 256 rfl rfl k
  have el : dot_S64x256_S256x2048_S64x2048_1_0_0_1_n_n.lhsIdx (ValueIdx.ix2 i j) ((ValueIdx.contrEquiv1 dot_S64x256_S256x2048_S64x2048_1_0_0_1_n_n 256 rfl rfl).symm k) = ValueIdx.ix2 i k := funext fun a => Fin.ext (by
    match a with
    | ⟨0, _⟩ => exact lhsC_0 _ _
    | ⟨1, _⟩ => exact (lhsC_1 _ _).trans hk)
  have er : dot_S64x256_S256x2048_S64x2048_1_0_0_1_n_n.rhsIdx (ValueIdx.ix2 i j) ((ValueIdx.contrEquiv1 dot_S64x256_S256x2048_S64x2048_1_0_0_1_n_n 256 rfl rfl).symm k) = ValueIdx.ix2 k j := funext fun a => Fin.ext (by
    match a with
    | ⟨0, _⟩ => exact (rhsC_0 _ _).trans hk
    | ⟨1, _⟩ => exact rhsC_1 _ _)
  rw [el, er]

theorem matN_cols512 (V : FVec Ideal S1024x2048 .bf16) (j : Fin 4) :
    matN (cols512 (F := Ideal) V j) = Cert.Spec.colsC 512 4 (matN V) j := by
  funext i k
  refine congrArg V (funext fun a => ?_)
  match a with
  | ⟨0, _⟩ => rfl
  | ⟨1, _⟩ => exact Fin.ext (show 512 * j.val + k.val = j.val * 512 + k.val by omega)

theorem matN_rows256 (V : FVec Ideal S1024x2048 .bf16) (j : Fin 4) :
    matN (rows256 (F := Ideal) V j) = Cert.Spec.rowsC 256 4 (matN V) j := by
  funext k t
  refine congrArg V (funext fun a => ?_)
  match a with
  | ⟨0, _⟩ => exact Fin.ext (show 256 * j.val + k.val = j.val * 256 + k.val by omega)
  | ⟨1, _⟩ => rfl

theorem matN_rows512 (V : FVec Ideal S2048x1024 .bf16) (j : Fin 4) :
    matN (rows512 (F := Ideal) V j) = Cert.Spec.rowsC 512 4 (matN V) j := by
  funext k t
  refine congrArg V (funext fun a => ?_)
  match a with
  | ⟨0, _⟩ => exact Fin.ext (show 512 * j.val + k.val = j.val * 512 + k.val by omega)
  | ⟨1, _⟩ => rfl

theorem mat_cut512 (X : FVec Ideal S64x2048 .f32) (j : Fin 4) :
    mat (cut512 (F := Ideal) X j) = Cert.Spec.colsC 512 4 (mat X) j := by
  funext i k
  match j with
  | ⟨0, _⟩ => exact congrArg X (funext fun a => by
      match a with
      | ⟨0, _⟩ => exact Fin.ext (show 0 + i.val = i.val by omega)
      | ⟨1, _⟩ => exact Fin.ext (show 0 + k.val = 0 * 512 + k.val by omega))
  | ⟨1, _⟩ => exact congrArg X (funext fun a => by
      match a with
      | ⟨0, _⟩ => exact Fin.ext (show 0 + i.val = i.val by omega)
      | ⟨1, _⟩ => exact Fin.ext (show 512 + k.val = 1 * 512 + k.val by omega))
  | ⟨2, _⟩ => exact congrArg X (funext fun a => by
      match a with
      | ⟨0, _⟩ => exact Fin.ext (show 0 + i.val = i.val by omega)
      | ⟨1, _⟩ => exact Fin.ext (show 1024 + k.val = 2 * 512 + k.val by omega))
  | ⟨3, _⟩ => exact congrArg X (funext fun a => by
      match a with
      | ⟨0, _⟩ => exact Fin.ext (show 0 + i.val = i.val by omega)
      | ⟨1, _⟩ => exact Fin.ext (show 1536 + k.val = 3 * 512 + k.val by omega))

theorem mat_cut256 (X : FVec Ideal S64x1024 .f32) (j : Fin 4) :
    mat (cut256 (F := Ideal) X j) = Cert.Spec.colsC 256 4 (mat X) j := by
  funext i k
  match j with
  | ⟨0, _⟩ => exact congrArg X (funext fun a => by
      match a with
      | ⟨0, _⟩ => exact Fin.ext (show 0 + i.val = i.val by omega)
      | ⟨1, _⟩ => exact Fin.ext (show 0 + k.val = 0 * 256 + k.val by omega))
  | ⟨1, _⟩ => exact congrArg X (funext fun a => by
      match a with
      | ⟨0, _⟩ => exact Fin.ext (show 0 + i.val = i.val by omega)
      | ⟨1, _⟩ => exact Fin.ext (show 256 + k.val = 1 * 256 + k.val by omega))
  | ⟨2, _⟩ => exact congrArg X (funext fun a => by
      match a with
      | ⟨0, _⟩ => exact Fin.ext (show 0 + i.val = i.val by omega)
      | ⟨1, _⟩ => exact Fin.ext (show 512 + k.val = 2 * 256 + k.val by omega))
  | ⟨3, _⟩ => exact congrArg X (funext fun a => by
      match a with
      | ⟨0, _⟩ => exact Fin.ext (show 0 + i.val = i.val by omega)
      | ⟨1, _⟩ => exact Fin.ext (show 768 + k.val = 3 * 256 + k.val by omega))

theorem mat_sum4 {a b : ℕ} (t : Fin 4 → FVec Ideal ⟨2, ![a, b]⟩ .f32) :
    mat (sum4 (F := Ideal) t)
      = fun i k => ((mat (t 0) i k + mat (t 1) i k) + mat (t 2) i k) + mat (t 3) i k := rfl

theorem dvOf_yp (c : Dev nD) : Cert.Spec.dvOf (yp c) = Cert.Spec.yp (Cert.Spec.dvOf c) := Cert.Spec.dvOf_yp c

theorem dvOf_xp (c : Dev nD) : Cert.Spec.dvOf (xp c) = Cert.Spec.xp (Cert.Spec.dvOf c) := Cert.Spec.dvOf_xp c

theorem XD_dvOf (m : (ℓ : Loc nD τ sig) → Buf (Elt Ideal) ℓ) (c : Dev nD) : XD m (Cert.Spec.dvOf c) = mat (xA (F := Ideal) m c) := by
  unfold XD; rw [devOf_dvOf]
theorem WD_dvOf (m : (ℓ : Loc nD τ sig) → Buf (Elt Ideal) ℓ) (l : Fin 3) (c : Dev nD) : WD m l (Cert.Spec.dvOf c) = mat (winA (F := Ideal) m l c) := by
  unfold WD; rw [devOf_dvOf]
theorem VD_dvOf (m : (ℓ : Loc nD τ sig) → Buf (Elt Ideal) ℓ) (l : Fin 3) (c : Dev nD) : VD m l (Cert.Spec.dvOf c) = mat (woutA (F := Ideal) m l c) := by
  unfold VD; rw [devOf_dvOf]

theorem mat_hpFirst (m : (ℓ : Loc nD τ sig) → Buf (Elt Ideal) ℓ) (c : Dev nD) (j : Fin 4) :
    mat (hpFirst (F := Ideal) m c j)
      = Cert.Spec.colsC 512 4 (Cert.Spec.mm (XD m (Cert.Spec.dvOf c)) (WD m 0 (Cert.Spec.dvOf c))) j := by
  rw [XD_dvOf, WD_dvOf]
  unfold hpFirst
  rw [mat_matmulA, matN_cols512]
  rfl

theorem matN_hid (hp : Dev nD → Fin 4 → FVec Ideal S64x512 .f32) (c : Dev nD) (j : Fin 4) :
    matN (hid (F := Ideal) hp c j) = Cert.Spec.relu (Cert.Spec.madd (mat (hp c j)) (mat (hp (yp c) j))) :=
  mat_max_zero (addf (hp c j) (extf .f32 (hSent (F := Ideal) hp (yp c) j) bitsLt_bf16_f32))

theorem matN_hid_eq (m : (ℓ : Loc nD τ sig) → Buf (Elt Ideal) ℓ) (l : Fin 3) (hp : Dev nD → Fin 4 → FVec Ideal S64x512 .f32) (A : Cert.Spec.Dv → Cert.Spec.Mat 64 1024)
    (hhp : ∀ c j, mat (hp c j) = Cert.Spec.colsC 512 4 (Cert.Spec.mm (A (Cert.Spec.dvOf c)) (WD m l (Cert.Spec.dvOf c))) j)
    (c : Dev nD) (j : Fin 4) :
    matN (hid (F := Ideal) hp c j) = Cert.Spec.colsC 512 4 (Cert.Spec.hD A (WD m l) (Cert.Spec.dvOf c)) j := by
  rw [matN_hid, hhp c j, hhp (yp c) j, dvOf_yp]
  rfl

theorem mat_gpFull (m : (ℓ : Loc nD τ sig) → Buf (Elt Ideal) ℓ) (l : Fin 3) (hp : Dev nD → Fin 4 → FVec Ideal S64x512 .f32) (A : Cert.Spec.Dv → Cert.Spec.Mat 64 1024)
    (hhp : ∀ c j, mat (hp c j) = Cert.Spec.colsC 512 4 (Cert.Spec.mm (A (Cert.Spec.dvOf c)) (WD m l (Cert.Spec.dvOf c))) j)
    (c : Dev nD) :
    mat (gpFull (F := Ideal) m l hp c)
      = Cert.Spec.mm (Cert.Spec.hD A (WD m l) (Cert.Spec.dvOf c)) (VD m l (Cert.Spec.dvOf c)) := by
  unfold gpFull
  rw [mat_sum4, Cert.Spec.mm_split4 512 (Cert.Spec.hD A (WD m l) (Cert.Spec.dvOf c)) (VD m l (Cert.Spec.dvOf c))]
  simp only [mat_matmulB, matN_rows512, matN_hid_eq m l hp A hhp, VD_dvOf]
  rfl

theorem mat_layerOut (m : (ℓ : Loc nD τ sig) → Buf (Elt Ideal) ℓ) (l : Fin 3) (hp : Dev nD → Fin 4 → FVec Ideal S64x512 .f32) (A : Cert.Spec.Dv → Cert.Spec.Mat 64 1024)
    (hhp : ∀ c j, mat (hp c j) = Cert.Spec.colsC 512 4 (Cert.Spec.mm (A (Cert.Spec.dvOf c)) (WD m l (Cert.Spec.dvOf c))) j)
    (c : Dev nD) (j : Fin 4) :
    mat (layerOut (F := Ideal) m l hp c j)
      = Cert.Spec.colsC 256 4 (Cert.Spec.stepD A (WD m l) (VD m l) (Cert.Spec.dvOf c)) j := by
  have h : mat (layerOut (F := Ideal) m l hp c j)
      = Cert.Spec.madd (mat (cut256 (F := Ideal) (gpFull (F := Ideal) m l hp c) j))
          (mat (cut256 (F := Ideal) (gpFull (F := Ideal) m l hp (xp c)) j)) := rfl
  rw [h, mat_cut256, mat_cut256, mat_gpFull m l hp A hhp c, mat_gpFull m l hp A hhp (xp c), dvOf_xp]
  rfl

theorem mat_hpLater (m : (ℓ : Loc nD τ sig) → Buf (Elt Ideal) ℓ) (l : Fin 3) (Ac : Dev nD → Fin 4 → FVec Ideal S64x256 .f32) (A : Cert.Spec.Dv → Cert.Spec.Mat 64 1024)
    (hA : ∀ c k, mat (Ac c k) = Cert.Spec.colsC 256 4 (A (Cert.Spec.dvOf c)) k)
    (c : Dev nD) (j : Fin 4) :
    mat (hpLater (F := Ideal) m l Ac c j)
      = Cert.Spec.colsC 512 4 (Cert.Spec.mm (A (Cert.Spec.dvOf c)) (WD m l (Cert.Spec.dvOf c))) j := by
  unfold hpLater
  rw [mat_cut512, mat_sum4, Cert.Spec.mm_split4 256 (A (Cert.Spec.dvOf c)) (WD m l (Cert.Spec.dvOf c))]
  simp only [mat_matmulC, matN_rows256, matN_truncf, hA, WD_dvOf]
  rfl

theorem mat_hp0 (m : (ℓ : Loc nD τ sig) → Buf (Elt Ideal) ℓ) (c : Dev nD) (j : Fin 4) :
    mat (hp0 (F := Ideal) m c j)
      = Cert.Spec.colsC 512 4 (Cert.Spec.mm (XD m (Cert.Spec.dvOf c)) (WD m 0 (Cert.Spec.dvOf c))) j :=
  mat_hpFirst m c j

theorem mat_acc0 (m : (ℓ : Loc nD τ sig) → Buf (Elt Ideal) ℓ) (c : Dev nD) (j : Fin 4) :
    mat (acc0 (F := Ideal) m c j)
      = Cert.Spec.colsC 256 4 (Cert.Spec.stepD (XD m) (WD m 0) (VD m 0) (Cert.Spec.dvOf c)) j :=
  mat_layerOut m 0 (hp0 (F := Ideal) m) (XD m) (mat_hp0 m) c j

theorem mat_hp1 (m : (ℓ : Loc nD τ sig) → Buf (Elt Ideal) ℓ) (c : Dev nD) (j : Fin 4) :
    mat (hp1 (F := Ideal) m c j)
      = Cert.Spec.colsC 512 4 (Cert.Spec.mm (Cert.Spec.stepD (XD m) (WD m 0) (VD m 0) (Cert.Spec.dvOf c)) (WD m 1 (Cert.Spec.dvOf c))) j :=
  mat_hpLater m 1 (acc0 (F := Ideal) m) (Cert.Spec.stepD (XD m) (WD m 0) (VD m 0)) (mat_acc0 m) c j

theorem mat_acc1 (m : (ℓ : Loc nD τ sig) → Buf (Elt Ideal) ℓ) (c : Dev nD) (j : Fin 4) :
    mat (acc1 (F := Ideal) m c j)
      = Cert.Spec.colsC 256 4 (Cert.Spec.stepD (Cert.Spec.stepD (XD m) (WD m 0) (VD m 0)) (WD m 1) (VD m 1) (Cert.Spec.dvOf c)) j :=
  mat_layerOut m 1 (hp1 (F := Ideal) m) (Cert.Spec.stepD (XD m) (WD m 0) (VD m 0)) (mat_hp1 m) c j

theorem mat_hp2 (m : (ℓ : Loc nD τ sig) → Buf (Elt Ideal) ℓ) (c : Dev nD) (j : Fin 4) :
    mat (hp2 (F := Ideal) m c j)
      = Cert.Spec.colsC 512 4 (Cert.Spec.mm (Cert.Spec.stepD (Cert.Spec.stepD (XD m) (WD m 0) (VD m 0)) (WD m 1) (VD m 1) (Cert.Spec.dvOf c)) (WD m 2 (Cert.Spec.dvOf c))) j :=
  mat_hpLater m 2 (acc1 (F := Ideal) m) (Cert.Spec.stepD (Cert.Spec.stepD (XD m) (WD m 0) (VD m 0)) (WD m 1) (VD m 1)) (mat_acc1 m) c j

theorem mat_acc2 (m : (ℓ : Loc nD τ sig) → Buf (Elt Ideal) ℓ) (c : Dev nD) (j : Fin 4) :
    mat (acc2 (F := Ideal) m c j)
      = Cert.Spec.colsC 256 4 (Cert.Spec.mlpD (XD m) (WD m 0) (VD m 0) (WD m 1) (VD m 1) (WD m 2) (VD m 2) (Cert.Spec.dvOf c)) j :=
  mat_layerOut m 2 (hp2 (F := Ideal) m) (Cert.Spec.stepD (Cert.Spec.stepD (XD m) (WD m 0) (VD m 0)) (WD m 1) (VD m 1)) (mat_hp2 m) c j

theorem outA_eq (m : (ℓ : Loc nD τ sig) → Buf (Elt Ideal) ℓ) (c : Dev nD) :
    mat (outA (F := Ideal) m c)
      = Cert.Spec.mlpD (XD m) (WD m 0) (VD m 0) (WD m 1) (VD m 1) (WD m 2) (VD m 2) (Cert.Spec.dvOf c) := by
  funext i t
  have ht : t.val / 256 < 4 := by have := t.isLt; omega
  have h := congrFun (congrFun (mat_acc2 m c ⟨t.val / 256, ht⟩) i) ⟨t.val % 256, Nat.mod_lt _ (by decide)⟩
  refine Eq.trans h ?_
  show Cert.Spec.mlpD (XD m) (WD m 0) (VD m 0) (WD m 1) (VD m 1) (WD m 2) (VD m 2) (Cert.Spec.dvOf c) i ⟨t.val / 256 * 256 + t.val % 256, _⟩ = _
  exact congrArg _ (Fin.ext (Nat.div_add_mod' t.val 256))

end Cert.KernelIdeal.KValue

end
-- ==== Proof.Bridge.lean ====
import proofs.«901003_g7700000000001004_dist_mlpseq_tp2d_cs_cs_b64_d1024_h2048_v7x_xy2x2_bf16_1_alg».proof.Proof.Dict
import Idealize.ShloMosaic.Lib.Layout

noncomputable section

namespace Cert.KernelIdeal.KValue

open Cert.KernelIdeal Cert.KernelIdeal.Gen Cert.KernelIdeal.Hand
open Idealize.ShloMosaic
open Idealize.ShloMosaic.TcCoe
open Cert.RefValue (mat)

theorem mat_inj {a b : ℕ} {v w : FVec Ideal ⟨2, ![a, b]⟩ .f32} (h : mat v = mat w) : v = w := by
  funext i
  rw [ValueIdx.eq_ix2 i]
  exact congrFun (congrFun h (i 0)) (i 1)

private theorem lin_p (c : Dev nD) : Layout.meshLin [2, 2] c.val [0] = c.val / 2 := by revert c; decide

private theorem lin_q (c : Dev nD) : Layout.meshLin [2, 2] c.val [1] = c.val % 2 := by revert c; decide

theorem mat_blockX (x' : FVec Ideal ⟨2, ![64, 2048]⟩ .f32) (c : Dev nD) :
    mat (Layout.blockN ⟨2, ![64, 1024]⟩ ⟨2, ![64, 2048]⟩ (Layout.meshBlock [2, 2] ![[], [1]] c) x')
      = Cert.Spec.xB (mat x') (Cert.Spec.dvOf c) := by
  funext i j
  show x' _ = x' _
  congr 1
  funext b
  refine Fin.ext ?_
  match b with
  | ⟨0, _⟩ => rfl
  | ⟨1, _⟩ =>
    show Layout.meshLin [2, 2] c.val [1] * 1024 + j.val = (c.val % 2) * 1024 + j.val
    rw [lin_q]

theorem mat_blockW (w' : FVec Ideal ⟨2, ![2048, 4096]⟩ .f32) (c : Dev nD) :
    mat (Layout.blockN ⟨2, ![1024, 2048]⟩ ⟨2, ![2048, 4096]⟩ (Layout.meshBlock [2, 2] ![[1], [0]] c) w')
      = Cert.Spec.winB (mat w') (Cert.Spec.dvOf c) := by
  funext i j
  show w' _ = w' _
  congr 1
  funext b
  refine Fin.ext ?_
  match b with
  | ⟨0, _⟩ =>
    show Layout.meshLin [2, 2] c.val [1] * 1024 + i.val = (c.val % 2) * 1024 + i.val
    rw [lin_q]
  | ⟨1, _⟩ =>
    show Layout.meshLin [2, 2] c.val [0] * 2048 + j.val = (c.val / 2) * 2048 + j.val
    rw [lin_p]

theorem mat_blockV (v' : FVec Ideal ⟨2, ![4096, 2048]⟩ .f32) (c : Dev nD) :
    mat (Layout.blockN ⟨2, ![2048, 1024]⟩ ⟨2, ![4096, 2048]⟩ (Layout.meshBlock [2, 2] ![[0], [1]] c) v')
      = Cert.Spec.woutB (mat v') (Cert.Spec.dvOf c) := by
  funext i j
  show v' _ = v' _
  congr 1
  funext b
  refine Fin.ext ?_
  match b with
  | ⟨0, _⟩ =>
    show Layout.meshLin [2, 2] c.val [0] * 2048 + i.val = (c.val / 2) * 2048 + i.val
    rw [lin_p]
  | ⟨1, _⟩ =>
    show Layout.meshLin [2, 2] c.val [1] * 1024 + j.val = (c.val % 2) * 1024 + j.val
    rw [lin_q]

theorem outA_block (m : (ℓ : Loc nD τ sig) → Buf (Elt Ideal) ℓ)
    (x' : FVec Ideal ⟨2, ![64, 2048]⟩ .f32)
    (w0' : FVec Ideal ⟨2, ![2048, 4096]⟩ .f32) (v0' : FVec Ideal ⟨2, ![4096, 2048]⟩ .f32)
    (w1' : FVec Ideal ⟨2, ![2048, 4096]⟩ .f32) (v1' : FVec Ideal ⟨2, ![4096, 2048]⟩ .f32)
    (w2' : FVec Ideal ⟨2, ![2048, 4096]⟩ .f32) (v2' : FVec Ideal ⟨2, ![4096, 2048]⟩ .f32)
    (hK : ∀ c : Dev nD, mat (outA (F := Ideal) m c)
      = Cert.Spec.mlpD (XD m) (WD m 0) (VD m 0) (WD m 1) (VD m 1) (WD m 2) (VD m 2) (Cert.Spec.dvOf c))
      (h0 : ∀ c : Dev nD, m ((c.tc : Thread nD τ).loc main_arg0) = Layout.blockN ⟨2, ![64, 1024]⟩ ⟨2, ![64, 2048]⟩ (Layout.meshBlock [2, 2] ![[], [1]] c) x')
      (h1 : ∀ c : Dev nD, m ((c.tc : Thread nD τ).loc main_arg1) = Layout.blockN ⟨2, ![1024, 2048]⟩ ⟨2, ![2048, 4096]⟩ (Layout.meshBlock [2, 2] ![[1], [0]] c) w0')
      (h2 : ∀ c : Dev nD, m ((c.tc : Thread nD τ).loc main_arg2) = Layout.blockN ⟨2, ![2048, 1024]⟩ ⟨2, ![4096, 2048]⟩ (Layout.meshBlock [2, 2] ![[0], [1]] c) v0')
      (h3 : ∀ c : Dev nD, m ((c.tc : Thread nD τ).loc main_arg3) = Layout.blockN ⟨2, ![1024, 2048]⟩ ⟨2, ![2048, 4096]⟩ (Layout.meshBlock [2, 2] ![[1], [0]] c) w1')
      (h4 : ∀ c : Dev nD, m ((c.tc : Thread nD τ).loc main_arg4) = Layout.blockN ⟨2, ![2048, 1024]⟩ ⟨2, ![4096, 2048]⟩ (Layout.meshBlock [2, 2] ![[0], [1]] c) v1')
      (h5 : ∀ c : Dev nD, m ((c.tc : Thread nD τ).loc main_arg5) = Layout.blockN ⟨2, ![1024, 2048]⟩ ⟨2, ![2048, 4096]⟩ (Layout.meshBlock [2, 2] ![[1], [0]] c) w2')
      (h6 : ∀ c : Dev nD, m ((c.tc : Thread nD τ).loc main_arg6) = Layout.blockN ⟨2, ![2048, 1024]⟩ ⟨2, ![4096, 2048]⟩ (Layout.meshBlock [2, 2] ![[0], [1]] c) v2')
    (c : Dev nD) :
    outA (F := Ideal) m c
      = Layout.blockN ⟨2, ![64, 1024]⟩ ⟨2, ![64, 2048]⟩ (Layout.meshBlock [2, 2] ![[], [1]] c)
          (Cert.RefValue.refTerm x' w0' v0' w1' v1' w2' v2') := by
  apply mat_inj
  rw [hK c]
  have eX : XD m = Cert.Spec.xB (mat x') := by
    funext d
    show mat (m (((devOf d).tc : Thread nD τ).loc main_arg0)) = _
    rw [h0 (devOf d), mat_blockX, dvOf_devOf]
  have eW0 : WD m 0 = Cert.Spec.winB (mat w0') := by
    funext d
    show mat (m (((devOf d).tc : Thread nD τ).loc main_arg1)) = _
    rw [h1 (devOf d), mat_blockW, dvOf_devOf]
  have eV0 : VD m 0 = Cert.Spec.woutB (mat v0') := by
    funext d
    show mat (m (((devOf d).tc : Thread nD τ).loc main_arg2)) = _
    rw [h2 (devOf d), mat_blockV, dvOf_devOf]
  have eW1 : WD m 1 = Cert.Spec.winB (mat w1') := by
    funext d
    show mat (m (((devOf d).tc : Thread nD τ).loc main_arg3)) = _
    rw [h3 (devOf d), mat_blockW, dvOf_devOf]
  have eV1 : VD m 1 = Cert.Spec.woutB (mat v1') := by
    funext d
    show mat (m (((devOf d).tc : Thread nD τ).loc main_arg4)) = _
    rw [h4 (devOf d), mat_blockV, dvOf_devOf]
  have eW2 : WD m 2 = Cert.Spec.winB (mat w2') := by
    funext d
    show mat (m (((devOf d).tc : Thread nD τ).loc main_arg5)) = _
    rw [h5 (devOf d), mat_blockW, dvOf_devOf]
  have eV2 : VD m 2 = Cert.Spec.woutB (mat v2') := by
    funext d
    show mat (m (((devOf d).tc : Thread nD τ).loc main_arg6)) = _
    rw [h6 (devOf d), mat_blockV, dvOf_devOf]
  rw [eX, eW0, eV0, eW1, eV1, eW2, eV2, Cert.Spec.mlpD_eq_block, mat_blockX, Cert.RefValue.mat_refTerm]

end Cert.KernelIdeal.KValue

end
-- ==== Proof.lean ====
import proofs.«901003_g7700000000001004_dist_mlpseq_tp2d_cs_cs_b64_d1024_h2048_v7x_xy2x2_bf16_1_alg».proof.Defs
import proofs.«901003_g7700000000001004_dist_mlpseq_tp2d_cs_cs_b64_d1024_h2048_v7x_xy2x2_bf16_1_alg».proof.Proof.Gen.Kernel
import proofs.«901003_g7700000000001004_dist_mlpseq_tp2d_cs_cs_b64_d1024_h2048_v7x_xy2x2_bf16_1_alg».proof.Proof.Gen.Kernel.Skeleton
import proofs.«901003_g7700000000001004_dist_mlpseq_tp2d_cs_cs_b64_d1024_h2048_v7x_xy2x2_bf16_1_alg».proof.Proof.Gen.Kernel.Launch
import proofs.«901003_g7700000000001004_dist_mlpseq_tp2d_cs_cs_b64_d1024_h2048_v7x_xy2x2_bf16_1_alg».proof.Proof.Gen.Kernel.Points
import proofs.«901003_g7700000000001004_dist_mlpseq_tp2d_cs_cs_b64_d1024_h2048_v7x_xy2x2_bf16_1_alg».proof.Proof.Gen.Kernel.Frame
import proofs.«901003_g7700000000001004_dist_mlpseq_tp2d_cs_cs_b64_d1024_h2048_v7x_xy2x2_bf16_1_alg».proof.Proof.Gen.KernelIdeal
import proofs.«901003_g7700000000001004_dist_mlpseq_tp2d_cs_cs_b64_d1024_h2048_v7x_xy2x2_bf16_1_alg».proof.Proof.Gen.KernelIdeal.Skeleton
import proofs.«901003_g7700000000001004_dist_mlpseq_tp2d_cs_cs_b64_d1024_h2048_v7x_xy2x2_bf16_1_alg».proof.Proof.Gen.KernelIdeal.Launch
import proofs.«901003_g7700000000001004_dist_mlpseq_tp2d_cs_cs_b64_d1024_h2048_v7x_xy2x2_bf16_1_alg».proof.Proof.Gen.KernelIdeal.Points
import proofs.«901003_g7700000000001004_dist_mlpseq_tp2d_cs_cs_b64_d1024_h2048_v7x_xy2x2_bf16_1_alg».proof.Proof.Gen.KernelIdeal.Frame
import proofs.«901003_g7700000000001004_dist_mlpseq_tp2d_cs_cs_b64_d1024_h2048_v7x_xy2x2_bf16_1_alg».proof.Proof.Gen.ReferenceIdeal
import proofs.«901003_g7700000000001004_dist_mlpseq_tp2d_cs_cs_b64_d1024_h2048_v7x_xy2x2_bf16_1_alg».proof.Proof.Gen.Pre_finite_inputs_Kernel
import proofs.«901003_g7700000000001004_dist_mlpseq_tp2d_cs_cs_b64_d1024_h2048_v7x_xy2x2_bf16_1_alg».proof.Proof.Gen.Pre_finite_inputs_ReferenceIdeal
import proofs.«901003_g7700000000001004_dist_mlpseq_tp2d_cs_cs_b64_d1024_h2048_v7x_xy2x2_bf16_1_alg».proof.Proof.LaunchRun
import proofs.«901003_g7700000000001004_dist_mlpseq_tp2d_cs_cs_b64_d1024_h2048_v7x_xy2x2_bf16_1_alg».proof.Proof.LaunchRunK
import proofs.«901003_g7700000000001004_dist_mlpseq_tp2d_cs_cs_b64_d1024_h2048_v7x_xy2x2_bf16_1_alg».proof.Proof.BodyOb
import proofs.«901003_g7700000000001004_dist_mlpseq_tp2d_cs_cs_b64_d1024_h2048_v7x_xy2x2_bf16_1_alg».proof.Proof.BodyObK
import proofs.«901003_g7700000000001004_dist_mlpseq_tp2d_cs_cs_b64_d1024_h2048_v7x_xy2x2_bf16_1_alg».proof.Proof.Ref
import proofs.«901003_g7700000000001004_dist_mlpseq_tp2d_cs_cs_b64_d1024_h2048_v7x_xy2x2_bf16_1_alg».proof.Proof.KValue
import proofs.«901003_g7700000000001004_dist_mlpseq_tp2d_cs_cs_b64_d1024_h2048_v7x_xy2x2_bf16_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ =>
  (θ_run Cert.Kernel.defs _ _).mono (fun _ h c => (h c).2)
    (Cert.Kernel.Hand.run_main (F := Bits) m ρ (Cert.Kernel.Hand.body_obligation m))

theorem frame_ki : Cert.frame_KernelIdeal := fun m ρ _ =>
  (θ_run Cert.KernelIdeal.defs _ _).mono (fun _ h c => (h c).2)
    (Cert.KernelIdeal.Hand.run_main (F := Ideal) m ρ (Cert.KernelIdeal.Hand.body_obligation m))

theorem frame_ri : Cert.frame_ReferenceIdeal := fun m ρ _ =>
  (θ_run Cert.ReferenceIdeal.defs _ _).mono (fun _ h c => (h c).2) (Cert.RefValue.ref_run m ρ)

theorem algebraic : Cert.algebraic_KernelIdeal_ReferenceIdeal := by
  intro m ρ m' ρ' _ hagree
  refine ⟨Cert.RefValue.refTerm
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun _ h c => ⟨(h c).1.trans ?_, (h c).2⟩)
      (Cert.KernelIdeal.Hand.run_main (F := Ideal) m ρ (Cert.KernelIdeal.Hand.body_obligation m))
    exact Cert.KernelIdeal.KValue.outA_block m _ _ _ _ _ _ _ (Cert.KernelIdeal.KValue.outA_eq m)
      (fun c => (hagree c).1) (fun c => (hagree c).2.1) (fun c => (hagree c).2.2.1) (fun c => (hagree c).2.2.2.1)
      (fun c => (hagree c).2.2.2.2.1) (fun c => (hagree c).2.2.2.2.2.1) (fun c => (hagree c).2.2.2.2.2.2) c
  · exact (θ_run Cert.ReferenceIdeal.defs _ _).mono (fun _ h => h 0) (Cert.RefValue.ref_run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
